-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v105)) (v1 : (c : Dev Cert.KernelIdeal.nD) → Buf (Elt Ideal) ((c.tc : Thread Cert.KernelIdeal.nD Cert.KernelIdeal.τ).loc Cert.KernelIdeal.main_v132)) (v2 : (c : Dev Cert.KernelIdeal.nD) → Buf (Elt Ideal) ((c.tc : Thread Cert.KernelIdeal.nD Cert.KernelIdeal.τ).loc Cert.KernelIdeal.main_v160)) (v3 : (c : Dev Cert.KernelIdeal.nD) → Buf (Elt Ideal) ((c.tc : Thread Cert.KernelIdeal.nD Cert.KernelIdeal.τ).loc Cert.KernelIdeal.main_v163)) (v4 : (c : Dev Cert.KernelIdeal.nD) → Buf (Elt Ideal) ((c.tc : Thread Cert.KernelIdeal.nD Cert.KernelIdeal.τ).loc Cert.KernelIdeal.main_v134)) (v5 : (c : Dev Cert.KernelIdeal.nD) → Buf (Elt Ideal) ((c.tc : Thread Cert.KernelIdeal.nD Cert.KernelIdeal.τ).loc Cert.KernelIdeal.main_v166)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v105) = v0 c
          ∧ r.2.mem ((c.tc : Thread Cert.KernelIdeal.nD Cert.KernelIdeal.τ).loc Cert.KernelIdeal.main_v132) = v1 c
          ∧ r.2.mem ((c.tc : Thread Cert.KernelIdeal.nD Cert.KernelIdeal.τ).loc Cert.KernelIdeal.main_v160) = v2 c
          ∧ r.2.mem ((c.tc : Thread Cert.KernelIdeal.nD Cert.KernelIdeal.τ).loc Cert.KernelIdeal.main_v163) = v3 c
          ∧ r.2.mem ((c.tc : Thread Cert.KernelIdeal.nD Cert.KernelIdeal.τ).loc Cert.KernelIdeal.main_v134) = v4 c
          ∧ r.2.mem ((c.tc : Thread Cert.KernelIdeal.nD Cert.KernelIdeal.τ).loc Cert.KernelIdeal.main_v166) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_v138) = v1 c
          ∧ r.2.mem ((c.tc : Thread Cert.ReferenceIdeal.nD Cert.ReferenceIdeal.τ).loc Cert.ReferenceIdeal.main_v166) = v2 c
          ∧ r.2.mem ((c.tc : Thread Cert.ReferenceIdeal.nD Cert.ReferenceIdeal.τ).loc Cert.ReferenceIdeal.main_v169) = v3 c
          ∧ r.2.mem ((c.tc : Thread Cert.ReferenceIdeal.nD Cert.ReferenceIdeal.τ).loc Cert.ReferenceIdeal.main_v140) = v4 c
          ∧ r.2.mem ((c.tc : Thread Cert.ReferenceIdeal.nD Cert.ReferenceIdeal.τ).loc Cert.ReferenceIdeal.main_v172) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048 : Shape := ⟨2, ![16, 2048]⟩
abbrev S16x64 : Shape := ⟨2, ![16, 64]⟩
abbrev S50257x1024 : Shape := ⟨2, ![50257, 1024]⟩
abbrev S10x1024 : Shape := ⟨2, ![10, 1024]⟩
abbrev S5x1024 : Shape := ⟨2, ![5, 1024]⟩
abbrev S_ : Shape := ⟨0, ![]⟩

class Facts : Prop where
  bcast_S_S50257x1024 : S_.BroadcastsInDim S50257x1024 (![] : Fin 0 → Fin S50257x1024.rank)
  reducesTo_S50257x1024_S_d0_1 : S50257x1024.ReducesTo [0, 1] S_
  h_S_ : 0 < S_.numel
  bcast_S_S10x1024 : S_.BroadcastsInDim S10x1024 (![] : Fin 0 → Fin S10x1024.rank)
  reducesTo_S10x1024_S_d0_1 : S10x1024.ReducesTo [0, 1] S_
  bcast_S_S5x1024 : S_.BroadcastsInDim S5x1024 (![] : Fin 0 → Fin S5x1024.rank)
  reducesTo_S5x1024_S_d0_1 : S5x1024.ReducesTo [0, 1] S_
  bcast_S_S16x2048 : S_.BroadcastsInDim S16x2048 (![] : Fin 0 → Fin S16x2048.rank)
  reducesTo_S16x2048_S_d0_1 : S16x2048.ReducesTo [0, 1] S_
  bcast_S_S16x64 : S_.BroadcastsInDim S16x64 (![] : Fin 0 → Fin S16x64.rank)
  reducesTo_S16x64_S_d0_1 : S16x64.ReducesTo [0, 1] S_

variable [Facts]

def fn_part1 {F : FTy → Type} [FloatOps F] (main_arg0 : IVec S16x2048 32) (main_arg2 : IVec S16x64 32) (main_v13 : IVec S_ 1) (main_v15 : IVec S16x2048 1) (main_c_5 : IVec S_ 32) : IVec S_ 1 :=
  let main_v16 : IVec S16x2048 32 := broadcastInDim S16x2048 ![] bcast_S_S16x2048 main_c_5
  let main_v17 : IVec S16x2048 1 := cmpi .slt main_arg0 main_v16
  let main_v18 : IVec S16x2048 1 := andi main_v15 main_v17
  let main_c_6 : IVec S_ 1 := constantI S_ 1 1#1
  let main_v19 : IVec S_ 1 := (fun x v => Host.reduce IntOp.andi x v reducesTo_S16x2048_S_d0_1 h_S_) main_v18 main_c_6
  let main_v20 : IVec S_ 1 := andi main_v13 main_v19
  let main_c_7 : IVec S_ 32 := constantI S_ 32 0#32
  let main_v21 : IVec S16x64 32 := broadcastInDim S16x64 ![] bcast_S_S16x64 main_c_7
  let main_v22 : IVec S16x64 1 := cmpi .sge main_arg2 main_v21
  let main_c_8 : IVec S_ 32 := constantI S_ 32 50257#32
  let main_v23 : IVec S16x64 32 := broadcastInDim S16x64 ![] bcast_S_S16x64 main_c_8
  let main_v24 : IVec S16x64 1 := cmpi .slt main_arg2 main_v23
  let main_v25 : IVec S16x64 1 := andi main_v22 main_v24
  let main_c_9 : IVec S_ 1 := constantI S_ 1 1#1
  let main_v26 : IVec S_ 1 := (fun x v => Host.reduce IntOp.andi x v reducesTo_S16x64_S_d0_1 h_S_) main_v25 main_c_9
  let main_v27 : IVec S_ 1 := andi main_v20 main_v26
  main_v27

def fn {F : FTy → Type} [FloatOps F] (main_arg0 : IVec S16x2048 32) (main_arg1 : IVec S16x2048 32) (main_arg2 : IVec S16x64 32) (main_arg3 : IVec S16x64 32) (main_arg4 : FVec F S50257x1024 .f32) (main_arg5 : FVec F S10x1024 .f32) (main_arg6 : FVec F S5x1024 .f32) : IVec S_ 1 :=
  let main_v0 : FVec F S50257x1024 .f32 := Host.absf main_arg4
  let main_cst : FVec F S_ .f32 := constant S_ .f32 0x7F800000#32
  let main_v1 : FVec F S50257x1024 .f32 := broadcastInDim S50257x1024 ![] bcast_S_S50257x1024 main_cst
  let main_v2 : IVec S50257x1024 1 := cmpf .olt main_v0 main_v1
  let main_c : IVec S_ 1 := constantI S_ 1 1#1
  let main_v3 : IVec S_ 1 := (fun x v => Host.reduce IntOp.andi x v reducesTo_S50257x1024_S_d0_1 h_S_) main_v2 main_c
  let main_v4 : FVec F S10x1024 .f32 := Host.absf main_arg5
  let main_cst_0 : FVec F S_ .f32 := constant S_ .f32 0x7F800000#32
  let main_v5 : FVec F S10x1024 .f32 := broadcastInDim S10x1024 ![] bcast_S_S10x1024 main_cst_0
  let main_v6 : IVec S10x1024 1 := cmpf .olt main_v4 main_v5
  let main_c_1 : IVec S_ 1 := constantI S_ 1 1#1
  let main_v7 : IVec S_ 1 := (fun x v => Host.reduce IntOp.andi x v reducesTo_S10x1024_S_d0_1 h_S_) main_v6 main_c_1
  let main_v8 : IVec S_ 1 := andi main_v3 main_v7
  let main_v9 : FVec F S5x1024 .f32 := Host.absf main_arg6
  let main_cst_2 : FVec F S_ .f32 := constant S_ .f32 0x7F800000#32
  let main_v10 : FVec F S5x1024 .f32 := broadcastInDim S5x1024 ![] bcast_S_S5x1024 main_cst_2
  let main_v11 : IVec S5x1024 1 := cmpf .olt main_v9 main_v10
  let main_c_3 : IVec S_ 1 := constantI S_ 1 1#1
  let main_v12 : IVec S_ 1 := (fun x v => Host.reduce IntOp.andi x v reducesTo_S5x1024_S_d0_1 h_S_) main_v11 main_c_3
  let main_v13 : IVec S_ 1 := andi main_v8 main_v12
  let main_c_4 : IVec S_ 32 := constantI S_ 32 0#32
  let main_v14 : IVec S16x2048 32 := broadcastInDim S16x2048 ![] bcast_S_S16x2048 main_c_4
  let main_v15 : IVec S16x2048 1 := cmpi .sge main_arg0 main_v14
  let main_c_5 : IVec S_ 32 := constantI S_ 32 50257#32
  fn_part1 (F := F) main_arg0 main_arg2 main_v13 main_v15 main_c_5
-- ==== Kernel.lean ====
abbrev S16x2048 : Shape := ⟨2, ![16, 2048]⟩
abbrev S16x64 : Shape := ⟨2, ![16, 64]⟩
abbrev S50257x1024 : Shape := ⟨2, ![50257, 1024]⟩
abbrev S10x1024 : Shape := ⟨2, ![10, 1024]⟩
abbrev S5x1024 : Shape := ⟨2, ![5, 1024]⟩
abbrev S32768 : Shape := ⟨1, ![32768]⟩
abbrev S32768x1x1024 : Shape := ⟨3, ![32768, 1, 1024]⟩
abbrev S1x1x1024 : Shape := ⟨3, ![1, 1, 1024]⟩
abbrev S_ : Shape := ⟨0, ![]⟩
abbrev S1 : Shape := ⟨1, ![1]⟩
abbrev S1x1024 : Shape := ⟨2, ![1, 1024]⟩
abbrev S32768x1024 : Shape := ⟨2, ![32768, 1024]⟩
abbrev S16x2048x1024 : Shape := ⟨3, ![16, 2048, 1024]⟩
abbrev S1024 : Shape := ⟨1, ![1024]⟩
abbrev S1024x1x1024 : Shape := ⟨3, ![1024, 1, 1024]⟩
abbrev S1024x1024 : Shape := ⟨2, ![1024, 1024]⟩
abbrev S16x64x1024 : Shape := ⟨3, ![16, 64, 1024]⟩
abbrev S1x10x1024 : Shape := ⟨3, ![1, 10, 1024]⟩
abbrev S16x10x1024 : Shape := ⟨3, ![16, 10, 1024]⟩
abbrev S16x2058x1024 : Shape := ⟨3, ![16, 2058, 1024]⟩
abbrev S16x10 : Shape := ⟨2, ![16, 10]⟩
abbrev S16x2058 : Shape := ⟨2, ![16, 2058]⟩
abbrev S16 : Shape := ⟨1, ![16]⟩
abbrev S2122 : Shape := ⟨1, ![2122]⟩
abbrev S1x2122 : Shape := ⟨2, ![1, 2122]⟩
abbrev S16x1 : Shape := ⟨2, ![16, 1]⟩
abbrev S16x2122 : Shape := ⟨2, ![16, 2122]⟩
abbrev S16x2122x1 : Shape := ⟨3, ![16, 2122, 1]⟩
abbrev S1x1x1 : Shape := ⟨3, ![1, 1, 1]⟩
abbrev S16x2122x1024 : Shape := ⟨3, ![16, 2122, 1024]⟩
abbrev S1x5x1024 : Shape := ⟨3, ![1, 5, 1024]⟩
abbrev S16x5x1024 : Shape := ⟨3, ![16, 5, 1024]⟩
abbrev S2127 : Shape := ⟨1, ![2127]⟩
abbrev S1x2127 : Shape := ⟨2, ![1, 2127]⟩
abbrev S16x2127 : Shape := ⟨2, ![16, 2127]⟩
abbrev S16x2127x1 : Shape := ⟨3, ![16, 2127, 1]⟩
abbrev S16x2127x1024 : Shape := ⟨3, ![16, 2127, 1024]⟩
abbrev S16x5 : Shape := ⟨2, ![16, 5]⟩
abbrev S16x2126 : Shape := ⟨2, ![16, 2126]⟩
abbrev S16x63 : Shape := ⟨2, ![16, 63]⟩

abbrev nBuf : Space → Nat
  | .hbm => 483
  | .vmem => 4
  | .smem => 2
  | _ => 0

abbrev hbmTy0_0 (i : Nat) : BufTy := match i % 128 with
  | 0 => ⟨S16x2048, .i32⟩
  | 1 => ⟨S16x2048, .i32⟩
  | 2 => ⟨S16x64, .i32⟩
  | 3 => ⟨S16x64, .i32⟩
  | 4 => ⟨S50257x1024, .f32⟩
  | 5 => ⟨S10x1024, .f32⟩
  | 6 => ⟨S5x1024, .f32⟩
  | 7 => ⟨S32768x1x1024, .f32⟩
  | 8 => ⟨S32768x1024, .f32⟩
  | 9 => ⟨S16x2048x1024, .f32⟩
  | 10 => ⟨S1024x1x1024, .f32⟩
  | 11 => ⟨S1024x1024, .f32⟩
  | 12 => ⟨S16x64x1024, .f32⟩
  | 13 => ⟨S1x10x1024, .f32⟩
  | 14 => ⟨S16x10x1024, .f32⟩
  | 15 => ⟨S16x2058x1024, .f32⟩
  | 16 => ⟨S_, .i32⟩
  | 17 => ⟨S16x10, .i32⟩
  | 18 => ⟨S16x2058, .i32⟩
  | 19 => ⟨S_, .i32⟩
  | 20 => ⟨S16x2058, .i32⟩
  | 21 => ⟨S16x2058, .i32⟩
  | 22 => ⟨S16x2058, .i32⟩
  | 23 => ⟨S_, .i32⟩
  | 24 => ⟨S_, .i32⟩
  | 25 => ⟨S16, .i32⟩
  | 26 => ⟨S16, .i32⟩
  | 27 => ⟨S_, .i32⟩
  | 28 => ⟨S16, .i32⟩
  | 29 => ⟨S16, .i32⟩
  | 30 => ⟨S2122, .i32⟩
  | 31 => ⟨S1x2122, .i32⟩
  | 32 => ⟨S16x1, .i32⟩
  | 33 => ⟨S16x2122, .i32⟩
  | 34 => ⟨S16x2122, .i32⟩
  | 35 => ⟨S16x2122, .i1⟩
  | 36 => ⟨S_, .i32⟩
  | 37 => ⟨S16x1, .i32⟩
  | 38 => ⟨S16x1, .i32⟩
  | 39 => ⟨S16x2122, .i32⟩
  | 40 => ⟨S16x2122, .i32⟩
  | 41 => ⟨S16x2122, .i1⟩
  | 42 => ⟨S16x2122, .i1⟩
  | 43 => ⟨S16x2122, .i32⟩
  | 44 => ⟨S16x2122, .i32⟩
  | 45 => ⟨S16x2122, .i1⟩
  | 46 => ⟨S_, .i32⟩
  | 47 => ⟨S1x2122, .i32⟩
  | 48 => ⟨S1x2122, .i32⟩
  | 49 => ⟨S_, .i32⟩
  | 50 => ⟨S_, .i32⟩
  | 51 => ⟨S_, .i32⟩
  | 52 => ⟨S1x2122, .i32⟩
  | 53 => ⟨S1x2122, .i32⟩
  | 54 => ⟨S_, .i32⟩
  | 55 => ⟨S1x2122, .i32⟩
  | 56 => ⟨S1x2122, .i32⟩
  | 57 => ⟨S16x2122, .i32⟩
  | 58 => ⟨S16x2122, .i32⟩
  | 59 => ⟨S16x2122, .i32⟩
  | 60 => ⟨S16x2122, .i32⟩
  | 61 => ⟨S16x2122, .i32⟩
  | 62 => ⟨S16x2122, .i32⟩
  | 63 => ⟨S_, .i32⟩
  | 64 => ⟨S_, .i32⟩
  | 65 => ⟨S_, .i32⟩
  | 66 => ⟨S16x2122, .i32⟩
  | 67 => ⟨S16x2122, .i32⟩
  | 68 => ⟨S_, .i32⟩
  | 69 => ⟨S16x2122, .i32⟩
  | 70 => ⟨S16x2122, .i32⟩
  | 71 => ⟨S16x2122x1, .i32⟩
  | 72 => ⟨S_, .i32⟩
  | 73 => ⟨S16x2122x1, .i32⟩
  | 74 => ⟨S16x2122x1, .i1⟩
  | 75 => ⟨S_, .i32⟩
  | 76 => ⟨S16x2122x1, .i32⟩
  | 77 => ⟨S16x2122x1, .i32⟩
  | 78 => ⟨S16x2122x1, .i32⟩
  | 79 => ⟨S1, .i32⟩
  | 80 => ⟨S_, .i32⟩
  | 81 => ⟨S16x2122x1, .i32⟩
  | 82 => ⟨S16x2122x1, .i1⟩
  | 83 => ⟨S1x1x1, .i32⟩
  | 84 => ⟨S16x2122x1, .i32⟩
  | 85 => ⟨S16x2122x1, .i1⟩
  | 86 => ⟨S16x2122x1, .i1⟩
  | 87 => ⟨S_, .i1⟩
  | 88 => ⟨S16x2122, .i1⟩
  | 89 => ⟨S16x2122x1024, .f32⟩
  | 90 => ⟨S16x2122x1024, .i1⟩
  | 91 => ⟨S_, .f32⟩
  | 92 => ⟨S16x2122x1024, .f32⟩
  | 93 => ⟨S16x2122x1024, .f32⟩
  | 94 => ⟨S16x2122x1, .i32⟩
  | 95 => ⟨S_, .i32⟩
  | 96 => ⟨S16x2122x1, .i32⟩
  | 97 => ⟨S16x2122x1, .i1⟩
  | 98 => ⟨S_, .i32⟩
  | 99 => ⟨S16x2122x1, .i32⟩
  | 100 => ⟨S16x2122x1, .i32⟩
  | 101 => ⟨S16x2122x1, .i32⟩
  | 102 => ⟨S1, .i32⟩
  | 103 => ⟨S_, .i32⟩
  | 104 => ⟨S16x2122x1, .i32⟩
  | 105 => ⟨S16x2122x1, .i1⟩
  | 106 => ⟨S1x1x1, .i32⟩
  | 107 => ⟨S16x2122x1, .i32⟩
  | 108 => ⟨S16x2122x1, .i1⟩
  | 109 => ⟨S16x2122x1, .i1⟩
  | 110 => ⟨S_, .i1⟩
  | 111 => ⟨S16x2122, .i1⟩
  | 112 => ⟨S16x2122x1024, .f32⟩
  | 113 => ⟨S16x2122x1024, .i1⟩
  | 114 => ⟨S_, .f32⟩
  | 115 => ⟨S16x2122x1024, .f32⟩
  | 116 => ⟨S16x2122x1024, .f32⟩
  | 117 => ⟨S16x2122x1, .i1⟩
  | 118 => ⟨S16x2122x1024, .i1⟩
  | 119 => ⟨S16x2122x1024, .f32⟩
  | 120 => ⟨S16x2058, .f32⟩
  | 121 => ⟨S16x64, .f32⟩
  | 122 => ⟨S2122, .i32⟩
  | 123 => ⟨S1x2122, .i32⟩
  | 124 => ⟨S16x1, .i32⟩
  | 125 => ⟨S16x2122, .i32⟩
  | 126 => ⟨S16x2122, .i32⟩
  | 127 => ⟨S16x2122, .i1⟩
  | _ => ⟨S16x2048, .i32⟩

abbrev hbmTy0_1 (i : Nat) : BufTy := match i % 128 with
  | 0 => ⟨S_, .i32⟩
  | 1 => ⟨S16x1, .i32⟩
  | 2 => ⟨S16x1, .i32⟩
  | 3 => ⟨S16x2122, .i32⟩
  | 4 => ⟨S16x2122, .i32⟩
  | 5 => ⟨S16x2122, .i1⟩
  | 6 => ⟨S16x2122, .i1⟩
  | 7 => ⟨S16x2122, .i32⟩
  | 8 => ⟨S16x2122, .i32⟩
  | 9 => ⟨S16x2122, .i1⟩
  | 10 => ⟨S_, .i32⟩
  | 11 => ⟨S1x2122, .i32⟩
  | 12 => ⟨S1x2122, .i32⟩
  | 13 => ⟨S_, .i32⟩
  | 14 => ⟨S_, .i32⟩
  | 15 => ⟨S_, .i32⟩
  | 16 => ⟨S1x2122, .i32⟩
  | 17 => ⟨S1x2122, .i32⟩
  | 18 => ⟨S_, .i32⟩
  | 19 => ⟨S1x2122, .i32⟩
  | 20 => ⟨S1x2122, .i32⟩
  | 21 => ⟨S16x2122, .i32⟩
  | 22 => ⟨S16x2122, .i32⟩
  | 23 => ⟨S16x2122, .i32⟩
  | 24 => ⟨S16x2122, .i32⟩
  | 25 => ⟨S16x2122, .i32⟩
  | 26 => ⟨S16x2122, .i32⟩
  | 27 => ⟨S_, .i32⟩
  | 28 => ⟨S_, .i32⟩
  | 29 => ⟨S_, .i32⟩
  | 30 => ⟨S16x2122, .i32⟩
  | 31 => ⟨S16x2122, .i32⟩
  | 32 => ⟨S_, .i32⟩
  | 33 => ⟨S16x2122, .i32⟩
  | 34 => ⟨S16x2122, .i32⟩
  | 35 => ⟨S_, .i32⟩
  | 36 => ⟨S16x2122, .i32⟩
  | 37 => ⟨S16x2122, .i1⟩
  | 38 => ⟨S_, .i32⟩
  | 39 => ⟨S16x2122, .i32⟩
  | 40 => ⟨S16x2122, .i32⟩
  | 41 => ⟨S16x2122, .i32⟩
  | 42 => ⟨S16x2122x1, .i32⟩
  | 43 => ⟨S1, .i32⟩
  | 44 => ⟨S_, .i32⟩
  | 45 => ⟨S16x2122x1, .i32⟩
  | 46 => ⟨S16x2122x1, .i1⟩
  | 47 => ⟨S1x1x1, .i32⟩
  | 48 => ⟨S16x2122x1, .i32⟩
  | 49 => ⟨S16x2122x1, .i1⟩
  | 50 => ⟨S16x2122x1, .i1⟩
  | 51 => ⟨S_, .i1⟩
  | 52 => ⟨S16x2122, .i1⟩
  | 53 => ⟨S16x2122, .f32⟩
  | 54 => ⟨S_, .f32⟩
  | 55 => ⟨S16x2122, .f32⟩
  | 56 => ⟨S16x2122, .f32⟩
  | 57 => ⟨S_, .i32⟩
  | 58 => ⟨S16x2122, .i32⟩
  | 59 => ⟨S16x2122, .i1⟩
  | 60 => ⟨S_, .i32⟩
  | 61 => ⟨S16x2122, .i32⟩
  | 62 => ⟨S16x2122, .i32⟩
  | 63 => ⟨S16x2122, .i32⟩
  | 64 => ⟨S16x2122x1, .i32⟩
  | 65 => ⟨S1, .i32⟩
  | 66 => ⟨S_, .i32⟩
  | 67 => ⟨S16x2122x1, .i32⟩
  | 68 => ⟨S16x2122x1, .i1⟩
  | 69 => ⟨S1x1x1, .i32⟩
  | 70 => ⟨S16x2122x1, .i32⟩
  | 71 => ⟨S16x2122x1, .i1⟩
  | 72 => ⟨S16x2122x1, .i1⟩
  | 73 => ⟨S_, .i1⟩
  | 74 => ⟨S16x2122, .i1⟩
  | 75 => ⟨S16x2122, .f32⟩
  | 76 => ⟨S_, .f32⟩
  | 77 => ⟨S16x2122, .f32⟩
  | 78 => ⟨S16x2122, .f32⟩
  | 79 => ⟨S16x2122, .f32⟩
  | 80 => ⟨S1x5x1024, .f32⟩
  | 81 => ⟨S16x5x1024, .f32⟩
  | 82 => ⟨S2127, .i32⟩
  | 83 => ⟨S1x2127, .i32⟩
  | 84 => ⟨S16x1, .i32⟩
  | 85 => ⟨S16x2127, .i32⟩
  | 86 => ⟨S16x2127, .i32⟩
  | 87 => ⟨S16x2127, .i1⟩
  | 88 => ⟨S_, .i32⟩
  | 89 => ⟨S16x1, .i32⟩
  | 90 => ⟨S16x1, .i32⟩
  | 91 => ⟨S16x2127, .i32⟩
  | 92 => ⟨S16x2127, .i32⟩
  | 93 => ⟨S16x2127, .i1⟩
  | 94 => ⟨S16x2127, .i1⟩
  | 95 => ⟨S16x2127, .i32⟩
  | 96 => ⟨S16x2127, .i32⟩
  | 97 => ⟨S16x2127, .i1⟩
  | 98 => ⟨S_, .i32⟩
  | 99 => ⟨S1x2127, .i32⟩
  | 100 => ⟨S1x2127, .i32⟩
  | 101 => ⟨S_, .i32⟩
  | 102 => ⟨S_, .i32⟩
  | 103 => ⟨S_, .i32⟩
  | 104 => ⟨S1x2127, .i32⟩
  | 105 => ⟨S1x2127, .i32⟩
  | 106 => ⟨S_, .i32⟩
  | 107 => ⟨S1x2127, .i32⟩
  | 108 => ⟨S1x2127, .i32⟩
  | 109 => ⟨S16x2127, .i32⟩
  | 110 => ⟨S16x2127, .i32⟩
  | 111 => ⟨S16x2127, .i32⟩
  | 112 => ⟨S16x2127, .i32⟩
  | 113 => ⟨S16x2127, .i32⟩
  | 114 => ⟨S16x2127, .i32⟩
  | 115 => ⟨S_, .i32⟩
  | 116 => ⟨S_, .i32⟩
  | 117 => ⟨S_, .i32⟩
  | 118 => ⟨S16x2127, .i32⟩
  | 119 => ⟨S16x2127, .i32⟩
  | 120 => ⟨S_, .i32⟩
  | 121 => ⟨S16x2127, .i32⟩
  | 122 => ⟨S16x2127, .i32⟩
  | 123 => ⟨S16x2127x1, .i32⟩
  | 124 => ⟨S_, .i32⟩
  | 125 => ⟨S16x2127x1, .i32⟩
  | 126 => ⟨S16x2127x1, .i1⟩
  | 127 => ⟨S_, .i32⟩
  | _ => ⟨S16x2048, .i32⟩

abbrev hbmTy0_2 (i : Nat) : BufTy := match i % 128 with
  | 0 => ⟨S16x2127x1, .i32⟩
  | 1 => ⟨S16x2127x1, .i32⟩
  | 2 => ⟨S16x2127x1, .i32⟩
  | 3 => ⟨S1, .i32⟩
  | 4 => ⟨S_, .i32⟩
  | 5 => ⟨S16x2127x1, .i32⟩
  | 6 => ⟨S16x2127x1, .i1⟩
  | 7 => ⟨S1x1x1, .i32⟩
  | 8 => ⟨S16x2127x1, .i32⟩
  | 9 => ⟨S16x2127x1, .i1⟩
  | 10 => ⟨S16x2127x1, .i1⟩
  | 11 => ⟨S_, .i1⟩
  | 12 => ⟨S16x2127, .i1⟩
  | 13 => ⟨S16x2127x1024, .f32⟩
  | 14 => ⟨S16x2127x1024, .i1⟩
  | 15 => ⟨S_, .f32⟩
  | 16 => ⟨S16x2127x1024, .f32⟩
  | 17 => ⟨S16x2127x1024, .f32⟩
  | 18 => ⟨S16x2127x1, .i32⟩
  | 19 => ⟨S_, .i32⟩
  | 20 => ⟨S16x2127x1, .i32⟩
  | 21 => ⟨S16x2127x1, .i1⟩
  | 22 => ⟨S_, .i32⟩
  | 23 => ⟨S16x2127x1, .i32⟩
  | 24 => ⟨S16x2127x1, .i32⟩
  | 25 => ⟨S16x2127x1, .i32⟩
  | 26 => ⟨S1, .i32⟩
  | 27 => ⟨S_, .i32⟩
  | 28 => ⟨S16x2127x1, .i32⟩
  | 29 => ⟨S16x2127x1, .i1⟩
  | 30 => ⟨S1x1x1, .i32⟩
  | 31 => ⟨S16x2127x1, .i32⟩
  | 32 => ⟨S16x2127x1, .i1⟩
  | 33 => ⟨S16x2127x1, .i1⟩
  | 34 => ⟨S_, .i1⟩
  | 35 => ⟨S16x2127, .i1⟩
  | 36 => ⟨S16x2127x1024, .f32⟩
  | 37 => ⟨S16x2127x1024, .i1⟩
  | 38 => ⟨S_, .f32⟩
  | 39 => ⟨S16x2127x1024, .f32⟩
  | 40 => ⟨S16x2127x1024, .f32⟩
  | 41 => ⟨S16x2127x1, .i1⟩
  | 42 => ⟨S16x2127x1024, .i1⟩
  | 43 => ⟨S16x2127x1024, .f32⟩
  | 44 => ⟨S_, .f32⟩
  | 45 => ⟨S16x5, .f32⟩
  | 46 => ⟨S2127, .i32⟩
  | 47 => ⟨S1x2127, .i32⟩
  | 48 => ⟨S16x1, .i32⟩
  | 49 => ⟨S16x2127, .i32⟩
  | 50 => ⟨S16x2127, .i32⟩
  | 51 => ⟨S16x2127, .i1⟩
  | 52 => ⟨S_, .i32⟩
  | 53 => ⟨S16x1, .i32⟩
  | 54 => ⟨S16x1, .i32⟩
  | 55 => ⟨S16x2127, .i32⟩
  | 56 => ⟨S16x2127, .i32⟩
  | 57 => ⟨S16x2127, .i1⟩
  | 58 => ⟨S16x2127, .i1⟩
  | 59 => ⟨S16x2127, .i32⟩
  | 60 => ⟨S16x2127, .i32⟩
  | 61 => ⟨S16x2127, .i1⟩
  | 62 => ⟨S_, .i32⟩
  | 63 => ⟨S1x2127, .i32⟩
  | 64 => ⟨S1x2127, .i32⟩
  | 65 => ⟨S_, .i32⟩
  | 66 => ⟨S_, .i32⟩
  | 67 => ⟨S_, .i32⟩
  | 68 => ⟨S1x2127, .i32⟩
  | 69 => ⟨S1x2127, .i32⟩
  | 70 => ⟨S_, .i32⟩
  | 71 => ⟨S1x2127, .i32⟩
  | 72 => ⟨S1x2127, .i32⟩
  | 73 => ⟨S16x2127, .i32⟩
  | 74 => ⟨S16x2127, .i32⟩
  | 75 => ⟨S16x2127, .i32⟩
  | 76 => ⟨S16x2127, .i32⟩
  | 77 => ⟨S16x2127, .i32⟩
  | 78 => ⟨S16x2127, .i32⟩
  | 79 => ⟨S_, .i32⟩
  | 80 => ⟨S_, .i32⟩
  | 81 => ⟨S_, .i32⟩
  | 82 => ⟨S16x2127, .i32⟩
  | 83 => ⟨S16x2127, .i32⟩
  | 84 => ⟨S_, .i32⟩
  | 85 => ⟨S16x2127, .i32⟩
  | 86 => ⟨S16x2127, .i32⟩
  | 87 => ⟨S_, .i32⟩
  | 88 => ⟨S16x2127, .i32⟩
  | 89 => ⟨S16x2127, .i1⟩
  | 90 => ⟨S_, .i32⟩
  | 91 => ⟨S16x2127, .i32⟩
  | 92 => ⟨S16x2127, .i32⟩
  | 93 => ⟨S16x2127, .i32⟩
  | 94 => ⟨S16x2127x1, .i32⟩
  | 95 => ⟨S1, .i32⟩
  | 96 => ⟨S_, .i32⟩
  | 97 => ⟨S16x2127x1, .i32⟩
  | 98 => ⟨S16x2127x1, .i1⟩
  | 99 => ⟨S1x1x1, .i32⟩
  | 100 => ⟨S16x2127x1, .i32⟩
  | 101 => ⟨S16x2127x1, .i1⟩
  | 102 => ⟨S16x2127x1, .i1⟩
  | 103 => ⟨S_, .i1⟩
  | 104 => ⟨S16x2127, .i1⟩
  | 105 => ⟨S16x2127, .f32⟩
  | 106 => ⟨S_, .f32⟩
  | 107 => ⟨S16x2127, .f32⟩
  | 108 => ⟨S16x2127, .f32⟩
  | 109 => ⟨S_, .i32⟩
  | 110 => ⟨S16x2127, .i32⟩
  | 111 => ⟨S16x2127, .i1⟩
  | 112 => ⟨S_, .i32⟩
  | 113 => ⟨S16x2127, .i32⟩
  | 114 => ⟨S16x2127, .i32⟩
  | 115 => ⟨S16x2127, .i32⟩
  | 116 => ⟨S16x2127x1, .i32⟩
  | 117 => ⟨S1, .i32⟩
  | 118 => ⟨S_, .i32⟩
  | 119 => ⟨S16x2127x1, .i32⟩
  | 120 => ⟨S16x2127x1, .i1⟩
  | 121 => ⟨S1x1x1, .i32⟩
  | 122 => ⟨S16x2127x1, .i32⟩
  | 123 => ⟨S16x2127x1, .i1⟩
  | 124 => ⟨S16x2127x1, .i1⟩
  | 125 => ⟨S_, .i1⟩
  | 126 => ⟨S16x2127, .i1⟩
  | 127 => ⟨S16x2127, .f32⟩
  | _ => ⟨S16x2048, .i32⟩

abbrev hbmTy0_3 (i : Nat) : BufTy := match i % 128 with
  | 0 => ⟨S_, .f32⟩
  | 1 => ⟨S16x2127, .f32⟩
  | 2 => ⟨S16x2127, .f32⟩
  | 3 => ⟨S16x2127, .f32⟩
  | 4 => ⟨S_, .i32⟩
  | 5 => ⟨S16, .i32⟩
  | 6 => ⟨S16, .i32⟩
  | 7 => ⟨S2127, .i32⟩
  | 8 => ⟨S1x2127, .i32⟩
  | 9 => ⟨S16x1, .i32⟩
  | 10 => ⟨S16x2127, .i32⟩
  | 11 => ⟨S16x2127, .i32⟩
  | 12 => ⟨S16x2127, .i1⟩
  | 13 => ⟨S_, .i32⟩
  | 14 => ⟨S16x1, .i32⟩
  | 15 => ⟨S16x1, .i32⟩
  | 16 => ⟨S16x2127, .i32⟩
  | 17 => ⟨S16x2127, .i32⟩
  | 18 => ⟨S16x2127, .i1⟩
  | 19 => ⟨S16x2127, .i1⟩
  | 20 => ⟨S16x2127, .i32⟩
  | 21 => ⟨S16x2127, .i32⟩
  | 22 => ⟨S16x2127, .i32⟩
  | 23 => ⟨S_, .i32⟩
  | 24 => ⟨S_, .i32⟩
  | 25 => ⟨S_, .i32⟩
  | 26 => ⟨S16x2127, .i32⟩
  | 27 => ⟨S16x2127, .i32⟩
  | 28 => ⟨S_, .i32⟩
  | 29 => ⟨S16x2127, .i32⟩
  | 30 => ⟨S16x2127, .i32⟩
  | 31 => ⟨S_, .i32⟩
  | 32 => ⟨S16x2127, .i32⟩
  | 33 => ⟨S16x2127, .i1⟩
  | 34 => ⟨S_, .i32⟩
  | 35 => ⟨S16x2127, .i32⟩
  | 36 => ⟨S16x2127, .i32⟩
  | 37 => ⟨S16x2127, .i32⟩
  | 38 => ⟨S16x2127x1, .i32⟩
  | 39 => ⟨S1, .i32⟩
  | 40 => ⟨S_, .i32⟩
  | 41 => ⟨S16x2127x1, .i32⟩
  | 42 => ⟨S16x2127x1, .i1⟩
  | 43 => ⟨S1x1x1, .i32⟩
  | 44 => ⟨S16x2127x1, .i32⟩
  | 45 => ⟨S16x2127x1, .i1⟩
  | 46 => ⟨S16x2127x1, .i1⟩
  | 47 => ⟨S_, .i1⟩
  | 48 => ⟨S16x2127, .i1⟩
  | 49 => ⟨S16x2127, .i32⟩
  | 50 => ⟨S_, .i32⟩
  | 51 => ⟨S16x2127, .i32⟩
  | 52 => ⟨S16x2127, .i32⟩
  | 53 => ⟨S16x2127, .f32⟩
  | 54 => ⟨S_, .f32⟩
  | 55 => ⟨S_, .f32⟩
  | 56 => ⟨S16x2127, .f32⟩
  | 57 => ⟨S16x2127, .f32⟩
  | 58 => ⟨S_, .i32⟩
  | 59 => ⟨S16x2127, .i32⟩
  | 60 => ⟨S16x2127, .i1⟩
  | 61 => ⟨S_, .i32⟩
  | 62 => ⟨S16x2127, .i32⟩
  | 63 => ⟨S16x2127, .i32⟩
  | 64 => ⟨S16x2127, .i32⟩
  | 65 => ⟨S16x2127x1, .i32⟩
  | 66 => ⟨S1, .i32⟩
  | 67 => ⟨S_, .i32⟩
  | 68 => ⟨S16x2127x1, .i32⟩
  | 69 => ⟨S16x2127x1, .i1⟩
  | 70 => ⟨S1x1x1, .i32⟩
  | 71 => ⟨S16x2127x1, .i32⟩
  | 72 => ⟨S16x2127x1, .i1⟩
  | 73 => ⟨S16x2127x1, .i1⟩
  | 74 => ⟨S_, .i1⟩
  | 75 => ⟨S16x2127, .i1⟩
  | 76 => ⟨S16x2127, .i32⟩
  | 77 => ⟨S_, .i32⟩
  | 78 => ⟨S16x2127, .i32⟩
  | 79 => ⟨S16x2127, .i32⟩
  | 80 => ⟨S_, .f32⟩
  | 81 => ⟨S16x2127, .f32⟩
  | 82 => ⟨S16x2127, .i1⟩
  | 83 => ⟨S_, .i32⟩
  | 84 => ⟨S_, .i32⟩
  | 85 => ⟨S16x2127, .i32⟩
  | 86 => ⟨S16x2127, .i32⟩
  | 87 => ⟨S_, .f32⟩
  | 88 => ⟨S16x1, .f32⟩
  | 89 => ⟨S16x2126, .f32⟩
  | 90 => ⟨S16x2127, .f32⟩
  | 91 => ⟨S_, .i32⟩
  | 92 => ⟨S16x1, .i32⟩
  | 93 => ⟨S16x63, .i32⟩
  | 94 => ⟨S16x64, .i32⟩
  | 95 => ⟨S_, .i32⟩
  | 96 => ⟨S16x1, .i32⟩
  | 97 => ⟨S16x2126, .i32⟩
  | 98 => ⟨S16x2127, .i32⟩
  | _ => ⟨S16x2048, .i32⟩

abbrev hbmTy (i : Nat) : BufTy := match i / 128 with
  | 0 => hbmTy0_0 i
  | 1 => hbmTy0_1 i
  | 2 => hbmTy0_2 i
  | 3 => hbmTy0_3 i
  | _ => ⟨S16x2048, .i32⟩

abbrev bufTy : (tb : Table) → Fin (tcTables nBuf tb) → BufTy
  | .hbm, ⟨i, _⟩ => hbmTy i
  | .local _ .vmem, ⟨0, _⟩ => ⟨S1x1x1024, .f32⟩
  | .local _ .vmem, ⟨1, _⟩ => ⟨S1x1x1024, .f32⟩
  | .local _ .vmem, ⟨2, _⟩ => ⟨S1x1x1024, .f32⟩
  | .local _ .vmem, ⟨3, _⟩ => ⟨S1x1x1024, .f32⟩
  | .local _ .smem, ⟨0, _⟩ => ⟨S32768, .i32⟩
  | .local _ .smem, ⟨1, _⟩ => ⟨S1024, .i32⟩
  | _, _ => ⟨S16x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_v11 : Ref sig .tc := ⟨.hbm, 17, rfl⟩
abbrev main_v12 : Ref sig .tc := ⟨.hbm, 18, rfl⟩
abbrev main_c_0 : Ref sig .tc := ⟨.hbm, 19, rfl⟩
abbrev main_v13 : Ref sig .tc := ⟨.hbm, 20, rfl⟩
abbrev main_v14 : Ref sig .tc := ⟨.hbm, 21, rfl⟩
abbrev main_call0_v0 : Ref sig .tc := ⟨.hbm, 22, rfl⟩
abbrev main_call0_c : Ref sig .tc := ⟨.hbm, 23, rfl⟩
abbrev main_call0_c_0 : Ref sig .tc := ⟨.hbm, 24, rfl⟩
abbrev main_call0_v1_0 : Ref sig .tc := ⟨.hbm, 25, rfl⟩
abbrev main_v15 : Ref sig .tc := ⟨.hbm, 26, rfl⟩
abbrev main_c_1 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_2 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_c_3 : Ref sig .tc := ⟨.hbm, 46, rfl⟩
abbrev main_v33 : Ref sig .tc := ⟨.hbm, 47, rfl⟩
abbrev main_v34 : Ref sig .tc := ⟨.hbm, 48, rfl⟩
abbrev main_c_4 : Ref sig .tc := ⟨.hbm, 49, rfl⟩
abbrev main_c_5 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_v35 : Ref sig .tc := ⟨.hbm, 56, rfl⟩
abbrev main_call2_v0 : Ref sig .tc := ⟨.hbm, 57, rfl⟩
abbrev main_call2_v1 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_c_6 : Ref sig .tc := ⟨.hbm, 63, rfl⟩
abbrev main_c_7 : Ref sig .tc := ⟨.hbm, 64, rfl⟩
abbrev main_call3_v0 : Ref sig .tc := ⟨.hbm, 65, rfl⟩
abbrev main_call3_v1 : Ref sig .tc := ⟨.hbm, 66, rfl⟩
abbrev main_call3_v2 : Ref sig .tc := ⟨.hbm, 67, rfl⟩
abbrev main_call3_v3 : Ref sig .tc := ⟨.hbm, 68, rfl⟩
abbrev main_call3_v4 : Ref sig .tc := ⟨.hbm, 69, rfl⟩
abbrev main_v40 : Ref sig .tc := ⟨.hbm, 70, rfl⟩
abbrev main_v41 : Ref sig .tc := ⟨.hbm, 71, rfl⟩
abbrev main_call4_c : Ref sig .tc := ⟨.hbm, 72, rfl⟩
abbrev main_call4_v0 : Ref sig .tc := ⟨.hbm, 73, rfl⟩
abbrev main_call4_v1 : Ref sig .tc := ⟨.hbm, 74, rfl⟩
abbrev main_call4_c_0 : Ref sig .tc := ⟨.hbm, 75, rfl⟩
abbrev main_call4_v2 : Ref sig .tc := ⟨.hbm, 76, rfl⟩
abbrev main_call4_v3 : Ref sig .tc := ⟨.hbm, 77, rfl⟩
abbrev main_call4_v4 : Ref sig .tc := ⟨.hbm, 78, rfl⟩
abbrev main_call4_c_1 : Ref sig .tc := ⟨.hbm, 79, rfl⟩
abbrev main_call4_c_2 : Ref sig .tc := ⟨.hbm, 80, rfl⟩
abbrev main_call4_v5 : Ref sig .tc := ⟨.hbm, 81, rfl⟩
abbrev main_call4_v6 : Ref sig .tc := ⟨.hbm, 82, rfl⟩
abbrev main_call4_v7 : Ref sig .tc := ⟨.hbm, 83, rfl⟩
abbrev main_call4_v8 : Ref sig .tc := ⟨.hbm, 84, rfl⟩
abbrev main_call4_v9 : Ref sig .tc := ⟨.hbm, 85, rfl⟩
abbrev main_call4_v10 : Ref sig .tc := ⟨.hbm, 86, rfl⟩
abbrev main_call4_c_3 : Ref sig .tc := ⟨.hbm, 87, rfl⟩
abbrev main_call4_v11 : Ref sig .tc := ⟨.hbm, 88, rfl⟩
abbrev main_call4_v12 : Ref sig .tc := ⟨.hbm, 89, rfl⟩
abbrev main_call4_v13 : Ref sig .tc := ⟨.hbm, 90, rfl⟩
abbrev main_call4_cst : Ref sig .tc := ⟨.hbm, 91, rfl⟩
abbrev main_call4_v14 : Ref sig .tc := ⟨.hbm, 92, rfl⟩
abbrev main_v42 : Ref sig .tc := ⟨.hbm, 93, rfl⟩
abbrev main_v43 : Ref sig .tc := ⟨.hbm, 94, rfl⟩
abbrev main_call5_c : Ref sig .tc := ⟨.hbm, 95, rfl⟩
abbrev main_call5_v0 : Ref sig .tc := ⟨.hbm, 96, rfl⟩
abbrev main_call5_v1 : Ref sig .tc := ⟨.hbm, 97, rfl⟩
abbrev main_call5_c_0 : Ref sig .tc := ⟨.hbm, 98, rfl⟩
abbrev main_call5_v2 : Ref sig .tc := ⟨.hbm, 99, rfl⟩
abbrev main_call5_v3 : Ref sig .tc := ⟨.hbm, 100, rfl⟩
abbrev main_call5_v4 : Ref sig .tc := ⟨.hbm, 101, rfl⟩
abbrev main_call5_c_1 : Ref sig .tc := ⟨.hbm, 102, rfl⟩
abbrev main_call5_c_2 : Ref sig .tc := ⟨.hbm, 103, rfl⟩
abbrev main_call5_v5 : Ref sig .tc := ⟨.hbm, 104, rfl⟩
abbrev main_call5_v6 : Ref sig .tc := ⟨.hbm, 105, rfl⟩
abbrev main_call5_v7 : Ref sig .tc := ⟨.hbm, 106, rfl⟩
abbrev main_call5_v8 : Ref sig .tc := ⟨.hbm, 107, rfl⟩
abbrev main_call5_v9 : Ref sig .tc := ⟨.hbm, 108, rfl⟩
abbrev main_call5_v10 : Ref sig .tc := ⟨.hbm, 109, rfl⟩
abbrev main_call5_c_3 : Ref sig .tc := ⟨.hbm, 110, rfl⟩
abbrev main_call5_v11 : Ref sig .tc := ⟨.hbm, 111, rfl⟩
abbrev main_call5_v12 : Ref sig .tc := ⟨.hbm, 112, rfl⟩
abbrev main_call5_v13 : Ref sig .tc := ⟨.hbm, 113, rfl⟩
abbrev main_call5_cst : Ref sig .tc := ⟨.hbm, 114, rfl⟩
abbrev main_call5_v14 : Ref sig .tc := ⟨.hbm, 115, rfl⟩
abbrev main_v44 : Ref sig .tc := ⟨.hbm, 116, rfl⟩
abbrev main_v45 : Ref sig .tc := ⟨.hbm, 117, rfl⟩
abbrev main_call6_v0 : Ref sig .tc := ⟨.hbm, 118, rfl⟩
abbrev main_v46 : Ref sig .tc := ⟨.hbm, 119, rfl⟩
abbrev main_v47 : Ref sig .tc := ⟨.hbm, 120, rfl⟩
abbrev main_v48 : Ref sig .tc := ⟨.hbm, 121, rfl⟩
abbrev main_v49 : Ref sig .tc := ⟨.hbm, 122, rfl⟩
abbrev main_v50 : Ref sig .tc := ⟨.hbm, 123, rfl⟩
abbrev main_v51 : Ref sig .tc := ⟨.hbm, 124, rfl⟩
abbrev main_v52 : Ref sig .tc := ⟨.hbm, 125, rfl⟩
abbrev main_v53 : Ref sig .tc := ⟨.hbm, 126, rfl⟩
abbrev main_v54 : Ref sig .tc := ⟨.hbm, 127, rfl⟩
abbrev main_c_8 : Ref sig .tc := ⟨.hbm, 128, rfl⟩
abbrev main_v55 : Ref sig .tc := ⟨.hbm, 129, rfl⟩
abbrev main_v56 : Ref sig .tc := ⟨.hbm, 130, rfl⟩
abbrev main_v57 : Ref sig .tc := ⟨.hbm, 131, rfl⟩
abbrev main_v58 : Ref sig .tc := ⟨.hbm, 132, rfl⟩
abbrev main_v59 : Ref sig .tc := ⟨.hbm, 133, rfl⟩
abbrev main_v60 : Ref sig .tc := ⟨.hbm, 134, rfl⟩
abbrev main_v61 : Ref sig .tc := ⟨.hbm, 135, rfl⟩
abbrev main_v62 : Ref sig .tc := ⟨.hbm, 136, rfl⟩
abbrev main_v63 : Ref sig .tc := ⟨.hbm, 137, rfl⟩
abbrev main_c_9 : Ref sig .tc := ⟨.hbm, 138, rfl⟩
abbrev main_v64 : Ref sig .tc := ⟨.hbm, 139, rfl⟩
abbrev main_v65 : Ref sig .tc := ⟨.hbm, 140, rfl⟩
abbrev main_c_10 : Ref sig .tc := ⟨.hbm, 141, rfl⟩
abbrev main_c_11 : Ref sig .tc := ⟨.hbm, 142, rfl⟩
abbrev main_call7_v0 : Ref sig .tc := ⟨.hbm, 143, rfl⟩
abbrev main_call7_v1 : Ref sig .tc := ⟨.hbm, 144, rfl⟩
abbrev main_call7_v2 : Ref sig .tc := ⟨.hbm, 145, rfl⟩
abbrev main_call7_v3 : Ref sig .tc := ⟨.hbm, 146, rfl⟩
abbrev main_call7_v4 : Ref sig .tc := ⟨.hbm, 147, rfl⟩
abbrev main_v66 : Ref sig .tc := ⟨.hbm, 148, rfl⟩
abbrev main_call8_v0 : Ref sig .tc := ⟨.hbm, 149, rfl⟩
abbrev main_call8_v1 : Ref sig .tc := ⟨.hbm, 150, rfl⟩
abbrev main_v67 : Ref sig .tc := ⟨.hbm, 151, rfl⟩
abbrev main_v68 : Ref sig .tc := ⟨.hbm, 152, rfl⟩
abbrev main_v69 : Ref sig .tc := ⟨.hbm, 153, rfl⟩
abbrev main_v70 : Ref sig .tc := ⟨.hbm, 154, rfl⟩
abbrev main_c_12 : Ref sig .tc := ⟨.hbm, 155, rfl⟩
abbrev main_c_13 : Ref sig .tc := ⟨.hbm, 156, rfl⟩
abbrev main_call9_v0 : Ref sig .tc := ⟨.hbm, 157, rfl⟩
abbrev main_call9_v1 : Ref sig .tc := ⟨.hbm, 158, rfl⟩
abbrev main_call9_v2 : Ref sig .tc := ⟨.hbm, 159, rfl⟩
abbrev main_call9_v3 : Ref sig .tc := ⟨.hbm, 160, rfl⟩
abbrev main_call9_v4 : Ref sig .tc := ⟨.hbm, 161, rfl⟩
abbrev main_v71 : Ref sig .tc := ⟨.hbm, 162, rfl⟩
abbrev main_call10_c : Ref sig .tc := ⟨.hbm, 163, rfl⟩
abbrev main_call10_v0 : Ref sig .tc := ⟨.hbm, 164, rfl⟩
abbrev main_call10_v1 : Ref sig .tc := ⟨.hbm, 165, rfl⟩
abbrev main_call10_c_0 : Ref sig .tc := ⟨.hbm, 166, rfl⟩
abbrev main_call10_v2 : Ref sig .tc := ⟨.hbm, 167, rfl⟩
abbrev main_call10_v3 : Ref sig .tc := ⟨.hbm, 168, rfl⟩
abbrev main_call10_v4 : Ref sig .tc := ⟨.hbm, 169, rfl⟩
abbrev main_call10_v5 : Ref sig .tc := ⟨.hbm, 170, rfl⟩
abbrev main_call10_c_1 : Ref sig .tc := ⟨.hbm, 171, rfl⟩
abbrev main_call10_c_2 : Ref sig .tc := ⟨.hbm, 172, rfl⟩
abbrev main_call10_v6 : Ref sig .tc := ⟨.hbm, 173, rfl⟩
abbrev main_call10_v7 : Ref sig .tc := ⟨.hbm, 174, rfl⟩
abbrev main_call10_v8 : Ref sig .tc := ⟨.hbm, 175, rfl⟩
abbrev main_call10_v9 : Ref sig .tc := ⟨.hbm, 176, rfl⟩
abbrev main_call10_v10 : Ref sig .tc := ⟨.hbm, 177, rfl⟩
abbrev main_call10_v11 : Ref sig .tc := ⟨.hbm, 178, rfl⟩
abbrev main_call10_c_3 : Ref sig .tc := ⟨.hbm, 179, rfl⟩
abbrev main_call10_v12 : Ref sig .tc := ⟨.hbm, 180, rfl⟩
abbrev main_call10_v13 : Ref sig .tc := ⟨.hbm, 181, rfl⟩
abbrev main_call10_cst : Ref sig .tc := ⟨.hbm, 182, rfl⟩
abbrev main_call10_v14 : Ref sig .tc := ⟨.hbm, 183, rfl⟩
abbrev main_v72 : Ref sig .tc := ⟨.hbm, 184, rfl⟩
abbrev main_call11_c : Ref sig .tc := ⟨.hbm, 185, rfl⟩
abbrev main_call11_v0 : Ref sig .tc := ⟨.hbm, 186, rfl⟩
abbrev main_call11_v1 : Ref sig .tc := ⟨.hbm, 187, rfl⟩
abbrev main_call11_c_0 : Ref sig .tc := ⟨.hbm, 188, rfl⟩
abbrev main_call11_v2 : Ref sig .tc := ⟨.hbm, 189, rfl⟩
abbrev main_call11_v3 : Ref sig .tc := ⟨.hbm, 190, rfl⟩
abbrev main_call11_v4 : Ref sig .tc := ⟨.hbm, 191, rfl⟩
abbrev main_call11_v5 : Ref sig .tc := ⟨.hbm, 192, rfl⟩
abbrev main_call11_c_1 : Ref sig .tc := ⟨.hbm, 193, rfl⟩
abbrev main_call11_c_2 : Ref sig .tc := ⟨.hbm, 194, rfl⟩
abbrev main_call11_v6 : Ref sig .tc := ⟨.hbm, 195, rfl⟩
abbrev main_call11_v7 : Ref sig .tc := ⟨.hbm, 196, rfl⟩
abbrev main_call11_v8 : Ref sig .tc := ⟨.hbm, 197, rfl⟩
abbrev main_call11_v9 : Ref sig .tc := ⟨.hbm, 198, rfl⟩
abbrev main_call11_v10 : Ref sig .tc := ⟨.hbm, 199, rfl⟩
abbrev main_call11_v11 : Ref sig .tc := ⟨.hbm, 200, rfl⟩
abbrev main_call11_c_3 : Ref sig .tc := ⟨.hbm, 201, rfl⟩
abbrev main_call11_v12 : Ref sig .tc := ⟨.hbm, 202, rfl⟩
abbrev main_call11_v13 : Ref sig .tc := ⟨.hbm, 203, rfl⟩
abbrev main_call11_cst : Ref sig .tc := ⟨.hbm, 204, rfl⟩
abbrev main_call11_v14 : Ref sig .tc := ⟨.hbm, 205, rfl⟩
abbrev main_v73 : Ref sig .tc := ⟨.hbm, 206, rfl⟩
abbrev main_v74 : Ref sig .tc := ⟨.hbm, 207, rfl⟩
abbrev main_v75 : Ref sig .tc := ⟨.hbm, 208, rfl⟩
abbrev main_v76 : Ref sig .tc := ⟨.hbm, 209, rfl⟩
abbrev main_v77 : Ref sig .tc := ⟨.hbm, 210, rfl⟩
abbrev main_v78 : Ref sig .tc := ⟨.hbm, 211, rfl⟩
abbrev main_v79 : Ref sig .tc := ⟨.hbm, 212, rfl⟩
abbrev main_v80 : Ref sig .tc := ⟨.hbm, 213, rfl⟩
abbrev main_v81 : Ref sig .tc := ⟨.hbm, 214, rfl⟩
abbrev main_v82 : Ref sig .tc := ⟨.hbm, 215, rfl⟩
abbrev main_c_14 : Ref sig .tc := ⟨.hbm, 216, rfl⟩
abbrev main_v83 : Ref sig .tc := ⟨.hbm, 217, rfl⟩
abbrev main_v84 : Ref sig .tc := ⟨.hbm, 218, rfl⟩
abbrev main_v85 : Ref sig .tc := ⟨.hbm, 219, rfl⟩
abbrev main_v86 : Ref sig .tc := ⟨.hbm, 220, rfl⟩
abbrev main_v87 : Ref sig .tc := ⟨.hbm, 221, rfl⟩
abbrev main_v88 : Ref sig .tc := ⟨.hbm, 222, rfl⟩
abbrev main_v89 : Ref sig .tc := ⟨.hbm, 223, rfl⟩
abbrev main_v90 : Ref sig .tc := ⟨.hbm, 224, rfl⟩
abbrev main_v91 : Ref sig .tc := ⟨.hbm, 225, rfl⟩
abbrev main_c_15 : Ref sig .tc := ⟨.hbm, 226, rfl⟩
abbrev main_v92 : Ref sig .tc := ⟨.hbm, 227, rfl⟩
abbrev main_v93 : Ref sig .tc := ⟨.hbm, 228, rfl⟩
abbrev main_c_16 : Ref sig .tc := ⟨.hbm, 229, rfl⟩
abbrev main_c_17 : Ref sig .tc := ⟨.hbm, 230, rfl⟩
abbrev main_call13_v0 : Ref sig .tc := ⟨.hbm, 231, rfl⟩
abbrev main_call13_v1 : Ref sig .tc := ⟨.hbm, 232, rfl⟩
abbrev main_call13_v2 : Ref sig .tc := ⟨.hbm, 233, rfl⟩
abbrev main_call13_v3 : Ref sig .tc := ⟨.hbm, 234, rfl⟩
abbrev main_call13_v4 : Ref sig .tc := ⟨.hbm, 235, rfl⟩
abbrev main_v94 : Ref sig .tc := ⟨.hbm, 236, rfl⟩
abbrev main_call14_v0 : Ref sig .tc := ⟨.hbm, 237, rfl⟩
abbrev main_call14_v1 : Ref sig .tc := ⟨.hbm, 238, rfl⟩
abbrev main_v95 : Ref sig .tc := ⟨.hbm, 239, rfl⟩
abbrev main_v96 : Ref sig .tc := ⟨.hbm, 240, rfl⟩
abbrev main_v97 : Ref sig .tc := ⟨.hbm, 241, rfl⟩
abbrev main_v98 : Ref sig .tc := ⟨.hbm, 242, rfl⟩
abbrev main_c_18 : Ref sig .tc := ⟨.hbm, 243, rfl⟩
abbrev main_c_19 : Ref sig .tc := ⟨.hbm, 244, rfl⟩
abbrev main_call15_v0 : Ref sig .tc := ⟨.hbm, 245, rfl⟩
abbrev main_call15_v1 : Ref sig .tc := ⟨.hbm, 246, rfl⟩
abbrev main_call15_v2 : Ref sig .tc := ⟨.hbm, 247, rfl⟩
abbrev main_call15_v3 : Ref sig .tc := ⟨.hbm, 248, rfl⟩
abbrev main_call15_v4 : Ref sig .tc := ⟨.hbm, 249, rfl⟩
abbrev main_v99 : Ref sig .tc := ⟨.hbm, 250, rfl⟩
abbrev main_v100 : Ref sig .tc := ⟨.hbm, 251, rfl⟩
abbrev main_call16_c : Ref sig .tc := ⟨.hbm, 252, rfl⟩
abbrev main_call16_v0 : Ref sig .tc := ⟨.hbm, 253, rfl⟩
abbrev main_call16_v1 : Ref sig .tc := ⟨.hbm, 254, rfl⟩
abbrev main_call16_c_0 : Ref sig .tc := ⟨.hbm, 255, rfl⟩
abbrev main_call16_v2 : Ref sig .tc := ⟨.hbm, 256, rfl⟩
abbrev main_call16_v3 : Ref sig .tc := ⟨.hbm, 257, rfl⟩
abbrev main_call16_v4 : Ref sig .tc := ⟨.hbm, 258, rfl⟩
abbrev main_call16_c_1 : Ref sig .tc := ⟨.hbm, 259, rfl⟩
abbrev main_call16_c_2 : Ref sig .tc := ⟨.hbm, 260, rfl⟩
abbrev main_call16_v5 : Ref sig .tc := ⟨.hbm, 261, rfl⟩
abbrev main_call16_v6 : Ref sig .tc := ⟨.hbm, 262, rfl⟩
abbrev main_call16_v7 : Ref sig .tc := ⟨.hbm, 263, rfl⟩
abbrev main_call16_v8 : Ref sig .tc := ⟨.hbm, 264, rfl⟩
abbrev main_call16_v9 : Ref sig .tc := ⟨.hbm, 265, rfl⟩
abbrev main_call16_v10 : Ref sig .tc := ⟨.hbm, 266, rfl⟩
abbrev main_call16_c_3 : Ref sig .tc := ⟨.hbm, 267, rfl⟩
abbrev main_call16_v11 : Ref sig .tc := ⟨.hbm, 268, rfl⟩
abbrev main_call16_v12 : Ref sig .tc := ⟨.hbm, 269, rfl⟩
abbrev main_call16_v13 : Ref sig .tc := ⟨.hbm, 270, rfl⟩
abbrev main_call16_cst : Ref sig .tc := ⟨.hbm, 271, rfl⟩
abbrev main_call16_v14 : Ref sig .tc := ⟨.hbm, 272, rfl⟩
abbrev main_v101 : Ref sig .tc := ⟨.hbm, 273, rfl⟩
abbrev main_v102 : Ref sig .tc := ⟨.hbm, 274, rfl⟩
abbrev main_call17_c : Ref sig .tc := ⟨.hbm, 275, rfl⟩
abbrev main_call17_v0 : Ref sig .tc := ⟨.hbm, 276, rfl⟩
abbrev main_call17_v1 : Ref sig .tc := ⟨.hbm, 277, rfl⟩
abbrev main_call17_c_0 : Ref sig .tc := ⟨.hbm, 278, rfl⟩
abbrev main_call17_v2 : Ref sig .tc := ⟨.hbm, 279, rfl⟩
abbrev main_call17_v3 : Ref sig .tc := ⟨.hbm, 280, rfl⟩
abbrev main_call17_v4 : Ref sig .tc := ⟨.hbm, 281, rfl⟩
abbrev main_call17_c_1 : Ref sig .tc := ⟨.hbm, 282, rfl⟩
abbrev main_call17_c_2 : Ref sig .tc := ⟨.hbm, 283, rfl⟩
abbrev main_call17_v5 : Ref sig .tc := ⟨.hbm, 284, rfl⟩
abbrev main_call17_v6 : Ref sig .tc := ⟨.hbm, 285, rfl⟩
abbrev main_call17_v7 : Ref sig .tc := ⟨.hbm, 286, rfl⟩
abbrev main_call17_v8 : Ref sig .tc := ⟨.hbm, 287, rfl⟩
abbrev main_call17_v9 : Ref sig .tc := ⟨.hbm, 288, rfl⟩
abbrev main_call17_v10 : Ref sig .tc := ⟨.hbm, 289, rfl⟩
abbrev main_call17_c_3 : Ref sig .tc := ⟨.hbm, 290, rfl⟩
abbrev main_call17_v11 : Ref sig .tc := ⟨.hbm, 291, rfl⟩
abbrev main_call17_v12 : Ref sig .tc := ⟨.hbm, 292, rfl⟩
abbrev main_call17_v13 : Ref sig .tc := ⟨.hbm, 293, rfl⟩
abbrev main_call17_cst : Ref sig .tc := ⟨.hbm, 294, rfl⟩
abbrev main_call17_v14 : Ref sig .tc := ⟨.hbm, 295, rfl⟩
abbrev main_v103 : Ref sig .tc := ⟨.hbm, 296, rfl⟩
abbrev main_v104 : Ref sig .tc := ⟨.hbm, 297, rfl⟩
abbrev main_call18_v0 : Ref sig .tc := ⟨.hbm, 298, rfl⟩
abbrev main_v105 : Ref sig .tc := ⟨.hbm, 299, rfl⟩
abbrev main_cst : Ref sig .tc := ⟨.hbm, 300, rfl⟩
abbrev main_v106 : Ref sig .tc := ⟨.hbm, 301, rfl⟩
abbrev main_v107 : Ref sig .tc := ⟨.hbm, 302, rfl⟩
abbrev main_v108 : Ref sig .tc := ⟨.hbm, 303, rfl⟩
abbrev main_v109 : Ref sig .tc := ⟨.hbm, 304, rfl⟩
abbrev main_v110 : Ref sig .tc := ⟨.hbm, 305, rfl⟩
abbrev main_v111 : Ref sig .tc := ⟨.hbm, 306, rfl⟩
abbrev main_v112 : Ref sig .tc := ⟨.hbm, 307, rfl⟩
abbrev main_c_20 : Ref sig .tc := ⟨.hbm, 308, rfl⟩
abbrev main_v113 : Ref sig .tc := ⟨.hbm, 309, rfl⟩
abbrev main_v114 : Ref sig .tc := ⟨.hbm, 310, rfl⟩
abbrev main_v115 : Ref sig .tc := ⟨.hbm, 311, rfl⟩
abbrev main_v116 : Ref sig .tc := ⟨.hbm, 312, rfl⟩
abbrev main_v117 : Ref sig .tc := ⟨.hbm, 313, rfl⟩
abbrev main_v118 : Ref sig .tc := ⟨.hbm, 314, rfl⟩
abbrev main_v119 : Ref sig .tc := ⟨.hbm, 315, rfl⟩
abbrev main_v120 : Ref sig .tc := ⟨.hbm, 316, rfl⟩
abbrev main_v121 : Ref sig .tc := ⟨.hbm, 317, rfl⟩
abbrev main_c_21 : Ref sig .tc := ⟨.hbm, 318, rfl⟩
abbrev main_v122 : Ref sig .tc := ⟨.hbm, 319, rfl⟩
abbrev main_v123 : Ref sig .tc := ⟨.hbm, 320, rfl⟩
abbrev main_c_22 : Ref sig .tc := ⟨.hbm, 321, rfl⟩
abbrev main_c_23 : Ref sig .tc := ⟨.hbm, 322, rfl⟩
abbrev main_call19_v0 : Ref sig .tc := ⟨.hbm, 323, rfl⟩
abbrev main_call19_v1 : Ref sig .tc := ⟨.hbm, 324, rfl⟩
abbrev main_call19_v2 : Ref sig .tc := ⟨.hbm, 325, rfl⟩
abbrev main_call19_v3 : Ref sig .tc := ⟨.hbm, 326, rfl⟩
abbrev main_call19_v4 : Ref sig .tc := ⟨.hbm, 327, rfl⟩
abbrev main_v124 : Ref sig .tc := ⟨.hbm, 328, rfl⟩
abbrev main_call20_v0 : Ref sig .tc := ⟨.hbm, 329, rfl⟩
abbrev main_call20_v1 : Ref sig .tc := ⟨.hbm, 330, rfl⟩
abbrev main_v125 : Ref sig .tc := ⟨.hbm, 331, rfl⟩
abbrev main_v126 : Ref sig .tc := ⟨.hbm, 332, rfl⟩
abbrev main_v127 : Ref sig .tc := ⟨.hbm, 333, rfl⟩
abbrev main_v128 : Ref sig .tc := ⟨.hbm, 334, rfl⟩
abbrev main_c_24 : Ref sig .tc := ⟨.hbm, 335, rfl⟩
abbrev main_c_25 : Ref sig .tc := ⟨.hbm, 336, rfl⟩
abbrev main_call21_v0 : Ref sig .tc := ⟨.hbm, 337, rfl⟩
abbrev main_call21_v1 : Ref sig .tc := ⟨.hbm, 338, rfl⟩
abbrev main_call21_v2 : Ref sig .tc := ⟨.hbm, 339, rfl⟩
abbrev main_call21_v3 : Ref sig .tc := ⟨.hbm, 340, rfl⟩
abbrev main_call21_v4 : Ref sig .tc := ⟨.hbm, 341, rfl⟩
abbrev main_v129 : Ref sig .tc := ⟨.hbm, 342, rfl⟩
abbrev main_call22_c : Ref sig .tc := ⟨.hbm, 343, rfl⟩
abbrev main_call22_v0 : Ref sig .tc := ⟨.hbm, 344, rfl⟩
abbrev main_call22_v1 : Ref sig .tc := ⟨.hbm, 345, rfl⟩
abbrev main_call22_c_0 : Ref sig .tc := ⟨.hbm, 346, rfl⟩
abbrev main_call22_v2 : Ref sig .tc := ⟨.hbm, 347, rfl⟩
abbrev main_call22_v3 : Ref sig .tc := ⟨.hbm, 348, rfl⟩
abbrev main_call22_v4 : Ref sig .tc := ⟨.hbm, 349, rfl⟩
abbrev main_call22_v5 : Ref sig .tc := ⟨.hbm, 350, rfl⟩
abbrev main_call22_c_1 : Ref sig .tc := ⟨.hbm, 351, rfl⟩
abbrev main_call22_c_2 : Ref sig .tc := ⟨.hbm, 352, rfl⟩
abbrev main_call22_v6 : Ref sig .tc := ⟨.hbm, 353, rfl⟩
abbrev main_call22_v7 : Ref sig .tc := ⟨.hbm, 354, rfl⟩
abbrev main_call22_v8 : Ref sig .tc := ⟨.hbm, 355, rfl⟩
abbrev main_call22_v9 : Ref sig .tc := ⟨.hbm, 356, rfl⟩
abbrev main_call22_v10 : Ref sig .tc := ⟨.hbm, 357, rfl⟩
abbrev main_call22_v11 : Ref sig .tc := ⟨.hbm, 358, rfl⟩
abbrev main_call22_c_3 : Ref sig .tc := ⟨.hbm, 359, rfl⟩
abbrev main_call22_v12 : Ref sig .tc := ⟨.hbm, 360, rfl⟩
abbrev main_call22_v13 : Ref sig .tc := ⟨.hbm, 361, rfl⟩
abbrev main_call22_cst : Ref sig .tc := ⟨.hbm, 362, rfl⟩
abbrev main_call22_v14 : Ref sig .tc := ⟨.hbm, 363, rfl⟩
abbrev main_v130 : Ref sig .tc := ⟨.hbm, 364, rfl⟩
abbrev main_call23_c : Ref sig .tc := ⟨.hbm, 365, rfl⟩
abbrev main_call23_v0 : Ref sig .tc := ⟨.hbm, 366, rfl⟩
abbrev main_call23_v1 : Ref sig .tc := ⟨.hbm, 367, rfl⟩
abbrev main_call23_c_0 : Ref sig .tc := ⟨.hbm, 368, rfl⟩
abbrev main_call23_v2 : Ref sig .tc := ⟨.hbm, 369, rfl⟩
abbrev main_call23_v3 : Ref sig .tc := ⟨.hbm, 370, rfl⟩
abbrev main_call23_v4 : Ref sig .tc := ⟨.hbm, 371, rfl⟩
abbrev main_call23_v5 : Ref sig .tc := ⟨.hbm, 372, rfl⟩
abbrev main_call23_c_1 : Ref sig .tc := ⟨.hbm, 373, rfl⟩
abbrev main_call23_c_2 : Ref sig .tc := ⟨.hbm, 374, rfl⟩
abbrev main_call23_v6 : Ref sig .tc := ⟨.hbm, 375, rfl⟩
abbrev main_call23_v7 : Ref sig .tc := ⟨.hbm, 376, rfl⟩
abbrev main_call23_v8 : Ref sig .tc := ⟨.hbm, 377, rfl⟩
abbrev main_call23_v9 : Ref sig .tc := ⟨.hbm, 378, rfl⟩
abbrev main_call23_v10 : Ref sig .tc := ⟨.hbm, 379, rfl⟩
abbrev main_call23_v11 : Ref sig .tc := ⟨.hbm, 380, rfl⟩
abbrev main_call23_c_3 : Ref sig .tc := ⟨.hbm, 381, rfl⟩
abbrev main_call23_v12 : Ref sig .tc := ⟨.hbm, 382, rfl⟩
abbrev main_call23_v13 : Ref sig .tc := ⟨.hbm, 383, rfl⟩
abbrev main_call23_cst : Ref sig .tc := ⟨.hbm, 384, rfl⟩
abbrev main_call23_v14 : Ref sig .tc := ⟨.hbm, 385, rfl⟩
abbrev main_v131 : Ref sig .tc := ⟨.hbm, 386, rfl⟩
abbrev main_v132 : Ref sig .tc := ⟨.hbm, 387, rfl⟩
abbrev main_c_26 : Ref sig .tc := ⟨.hbm, 388, rfl⟩
abbrev main_v133 : Ref sig .tc := ⟨.hbm, 389, rfl⟩
abbrev main_v134 : Ref sig .tc := ⟨.hbm, 390, rfl⟩
abbrev main_v135 : Ref sig .tc := ⟨.hbm, 391, rfl⟩
abbrev main_v136 : Ref sig .tc := ⟨.hbm, 392, rfl⟩
abbrev main_v137 : Ref sig .tc := ⟨.hbm, 393, rfl⟩
abbrev main_v138 : Ref sig .tc := ⟨.hbm, 394, rfl⟩
abbrev main_v139 : Ref sig .tc := ⟨.hbm, 395, rfl⟩
abbrev main_v140 : Ref sig .tc := ⟨.hbm, 396, rfl⟩
abbrev main_c_27 : Ref sig .tc := ⟨.hbm, 397, rfl⟩
abbrev main_v141 : Ref sig .tc := ⟨.hbm, 398, rfl⟩
abbrev main_v142 : Ref sig .tc := ⟨.hbm, 399, rfl⟩
abbrev main_v143 : Ref sig .tc := ⟨.hbm, 400, rfl⟩
abbrev main_v144 : Ref sig .tc := ⟨.hbm, 401, rfl⟩
abbrev main_v145 : Ref sig .tc := ⟨.hbm, 402, rfl⟩
abbrev main_v146 : Ref sig .tc := ⟨.hbm, 403, rfl⟩
abbrev main_v147 : Ref sig .tc := ⟨.hbm, 404, rfl⟩
abbrev main_v148 : Ref sig .tc := ⟨.hbm, 405, rfl⟩
abbrev main_v149 : Ref sig .tc := ⟨.hbm, 406, rfl⟩
abbrev main_c_28 : Ref sig .tc := ⟨.hbm, 407, rfl⟩
abbrev main_c_29 : Ref sig .tc := ⟨.hbm, 408, rfl⟩
abbrev main_call25_v0 : Ref sig .tc := ⟨.hbm, 409, rfl⟩
abbrev main_call25_v1 : Ref sig .tc := ⟨.hbm, 410, rfl⟩
abbrev main_call25_v2 : Ref sig .tc := ⟨.hbm, 411, rfl⟩
abbrev main_call25_v3 : Ref sig .tc := ⟨.hbm, 412, rfl⟩
abbrev main_call25_v4 : Ref sig .tc := ⟨.hbm, 413, rfl⟩
abbrev main_v150 : Ref sig .tc := ⟨.hbm, 414, rfl⟩
abbrev main_call26_c : Ref sig .tc := ⟨.hbm, 415, rfl⟩
abbrev main_call26_v0 : Ref sig .tc := ⟨.hbm, 416, rfl⟩
abbrev main_call26_v1 : Ref sig .tc := ⟨.hbm, 417, rfl⟩
abbrev main_call26_c_0 : Ref sig .tc := ⟨.hbm, 418, rfl⟩
abbrev main_call26_v2 : Ref sig .tc := ⟨.hbm, 419, rfl⟩
abbrev main_call26_v3 : Ref sig .tc := ⟨.hbm, 420, rfl⟩
abbrev main_call26_v4 : Ref sig .tc := ⟨.hbm, 421, rfl⟩
abbrev main_call26_v5 : Ref sig .tc := ⟨.hbm, 422, rfl⟩
abbrev main_call26_c_1 : Ref sig .tc := ⟨.hbm, 423, rfl⟩
abbrev main_call26_c_2 : Ref sig .tc := ⟨.hbm, 424, rfl⟩
abbrev main_call26_v6 : Ref sig .tc := ⟨.hbm, 425, rfl⟩
abbrev main_call26_v7 : Ref sig .tc := ⟨.hbm, 426, rfl⟩
abbrev main_call26_v8 : Ref sig .tc := ⟨.hbm, 427, rfl⟩
abbrev main_call26_v9 : Ref sig .tc := ⟨.hbm, 428, rfl⟩
abbrev main_call26_v10 : Ref sig .tc := ⟨.hbm, 429, rfl⟩
abbrev main_call26_v11 : Ref sig .tc := ⟨.hbm, 430, rfl⟩
abbrev main_call26_c_3 : Ref sig .tc := ⟨.hbm, 431, rfl⟩
abbrev main_call26_v12 : Ref sig .tc := ⟨.hbm, 432, rfl⟩
abbrev main_call26_v13 : Ref sig .tc := ⟨.hbm, 433, rfl⟩
abbrev main_call26_c_4 : Ref sig .tc := ⟨.hbm, 434, rfl⟩
abbrev main_call26_v14 : Ref sig .tc := ⟨.hbm, 435, rfl⟩
abbrev main_v151 : Ref sig .tc := ⟨.hbm, 436, rfl⟩
abbrev main_v152 : Ref sig .tc := ⟨.hbm, 437, rfl⟩
abbrev main_cst_30 : Ref sig .tc := ⟨.hbm, 438, rfl⟩
abbrev main_call27_v0 : Ref sig .tc := ⟨.hbm, 439, rfl⟩
abbrev main_call27_v1 : Ref sig .tc := ⟨.hbm, 440, rfl⟩
abbrev main_v153 : Ref sig .tc := ⟨.hbm, 441, rfl⟩
abbrev main_call28_c : Ref sig .tc := ⟨.hbm, 442, rfl⟩
abbrev main_call28_v0 : Ref sig .tc := ⟨.hbm, 443, rfl⟩
abbrev main_call28_v1 : Ref sig .tc := ⟨.hbm, 444, rfl⟩
abbrev main_call28_c_0 : Ref sig .tc := ⟨.hbm, 445, rfl⟩
abbrev main_call28_v2 : Ref sig .tc := ⟨.hbm, 446, rfl⟩
abbrev main_call28_v3 : Ref sig .tc := ⟨.hbm, 447, rfl⟩
abbrev main_call28_v4 : Ref sig .tc := ⟨.hbm, 448, rfl⟩
abbrev main_call28_v5 : Ref sig .tc := ⟨.hbm, 449, rfl⟩
abbrev main_call28_c_1 : Ref sig .tc := ⟨.hbm, 450, rfl⟩
abbrev main_call28_c_2 : Ref sig .tc := ⟨.hbm, 451, rfl⟩
abbrev main_call28_v6 : Ref sig .tc := ⟨.hbm, 452, rfl⟩
abbrev main_call28_v7 : Ref sig .tc := ⟨.hbm, 453, rfl⟩
abbrev main_call28_v8 : Ref sig .tc := ⟨.hbm, 454, rfl⟩
abbrev main_call28_v9 : Ref sig .tc := ⟨.hbm, 455, rfl⟩
abbrev main_call28_v10 : Ref sig .tc := ⟨.hbm, 456, rfl⟩
abbrev main_call28_v11 : Ref sig .tc := ⟨.hbm, 457, rfl⟩
abbrev main_call28_c_3 : Ref sig .tc := ⟨.hbm, 458, rfl⟩
abbrev main_call28_v12 : Ref sig .tc := ⟨.hbm, 459, rfl⟩
abbrev main_call28_v13 : Ref sig .tc := ⟨.hbm, 460, rfl⟩
abbrev main_call28_c_4 : Ref sig .tc := ⟨.hbm, 461, rfl⟩
abbrev main_call28_v14 : Ref sig .tc := ⟨.hbm, 462, rfl⟩
abbrev main_v154 : Ref sig .tc := ⟨.hbm, 463, rfl⟩
abbrev main_cst_31 : Ref sig .tc := ⟨.hbm, 464, rfl⟩
abbrev main_v155 : Ref sig .tc := ⟨.hbm, 465, rfl⟩
abbrev main_v156 : Ref sig .tc := ⟨.hbm, 466, rfl⟩
abbrev main_c_32 : Ref sig .tc := ⟨.hbm, 467, rfl⟩
abbrev main_call29_v0 : Ref sig .tc := ⟨.hbm, 468, rfl⟩
abbrev main_call29_v1 : Ref sig .tc := ⟨.hbm, 469, rfl⟩
abbrev main_v157 : Ref sig .tc := ⟨.hbm, 470, rfl⟩
abbrev main_cst_33 : Ref sig .tc := ⟨.hbm, 471, rfl⟩
abbrev main_v158 : Ref sig .tc := ⟨.hbm, 472, rfl⟩
abbrev main_v159 : Ref sig .tc := ⟨.hbm, 473, rfl⟩
abbrev main_v160 : Ref sig .tc := ⟨.hbm, 474, rfl⟩
abbrev main_c_34 : Ref sig .tc := ⟨.hbm, 475, rfl⟩
abbrev main_v161 : Ref sig .tc := ⟨.hbm, 476, rfl⟩
abbrev main_v162 : Ref sig .tc := ⟨.hbm, 477, rfl⟩
abbrev main_v163 : Ref sig .tc := ⟨.hbm, 478, rfl⟩
abbrev main_c_35 : Ref sig .tc := ⟨.hbm, 479, rfl⟩
abbrev main_v164 : Ref sig .tc := ⟨.hbm, 480, rfl⟩
abbrev main_v165 : Ref sig .tc := ⟨.hbm, 481, rfl⟩
abbrev main_v166 : Ref sig .tc := ⟨.hbm, 482, rfl⟩
abbrev main_v0 : Ref sig .tc := ⟨.smem, 0, rfl⟩
abbrev main_v4 : Ref sig .tc := ⟨.smem, 1, rfl⟩
abbrev cc0_stg0_0 : Ref sig .tc := ⟨.vmem, 0, rfl⟩
abbrev cc0_stg0_1 : Ref sig .tc := ⟨.vmem, 1, rfl⟩
abbrev cc1_stg0_0 : Ref sig .tc := ⟨.vmem, 2, rfl⟩
abbrev cc1_stg0_1 : Ref sig .tc := ⟨.vmem, 3, rfl⟩
abbrev cc0_sem0_0 : DmaSem sig := 0
abbrev cc0_sem0_1 : DmaSem sig := 1
abbrev cc1_sem0_0 : DmaSem sig := 3
abbrev cc1_sem0_1 : DmaSem sig := 4

abbrev nD : Nat := 1
abbrev τ : Topo := Topo.v7x

variable {F : FTy → Type} [FloatOps F]

abbrev grid0 : Pipeline.Grid := ⟨1, ![32768], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (v1 : BitVec 32) : Fin 2 → Nat :=
  let c0_i32_2 : BitVec 32 := 0#32
  ![v1.toNat, 0]

def k0_chk1 (v1 : BitVec 32) : Prop :=
  (∀ a, (k0_off2 v1) a + S1x1024.size a ≤ S50257x1024.size a)
instance k0_chk1.dec : ∀ (v1 : BitVec 32), Decidable (k0_chk1 v1) := fun v1 => decidable_of_iff' _ (Iff.of_eq (k0_chk1.eq_1 v1))
theorem k0_off2_inb : ∀ (v1 : BitVec 32) (k0_hw1 : k0_chk1 v1), ∀ a, (k0_off2 v1) a + S1x1024.size a ≤ S50257x1024.size a := fun v1 k0_hw1 => k0_hw1

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev grid1 : Pipeline.Grid := ⟨1, ![1024], ![false]⟩

abbrev pre1 : Pipeline.Prefetch sig := ⟨1, ![main_v4.idx], fun | 0 => main_v4.names | ⟨_ + 1, h⟩ => absurd h (Nat.not_lt.2 (Nat.le_add_left _ _)), fun | 0 => rfl | ⟨_ + 1, h⟩ => absurd h (Nat.not_lt.2 (Nat.le_add_left _ _))⟩

def k1_off1 (i : grid1.Coords) : Fin 1 → Nat :=
  let arg0 : BitVec 32 := BitVec.ofNat 32 (i 0).val
  let v0 : Index := Scalar.indexCast arg0
  ![v0.toNat]
def k1_off2 (v1 : BitVec 32) : Fin 2 → Nat :=
  let c0_i32_2 : BitVec 32 := 0#32
  ![v1.toNat, 0]

def k1_chk1 (v1 : BitVec 32) : Prop :=
  (∀ a, (k1_off2 v1) a + S1x1024.size a ≤ S50257x1024.size a)
instance k1_chk1.dec : ∀ (v1 : BitVec 32), Decidable (k1_chk1 v1) := fun v1 => decidable_of_iff' _ (Iff.of_eq (k1_chk1.eq_1 v1))
theorem k1_off2_inb : ∀ (v1 : BitVec 32) (k1_hw1 : k1_chk1 v1), ∀ a, (k1_off2 v1) a + S1x1024.size a ≤ S50257x1024.size a := fun v1 k1_hw1 => k1_hw1

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

class Facts₀ : Prop where
  shapeCasts_S16x2048_S32768 : S16x2048.ShapeCasts S32768
  numel1_S1 : S1.numel = 1
  inb_S1x1x1024_S1x1x1024_0_0_0 : ∀ a, (![0, 0, 0] : Fin 3 → Nat) a + S1x1x1024.size a ≤ S1x1x1024.size a
  squeezes_S1x1x1024_S1x1024 : S1x1x1024.Squeezes S1x1024
  shapeCasts_S32768x1x1024_S32768x1024 : S32768x1x1024.ShapeCasts S32768x1024
  shapeCasts_S32768x1024_S16x2048x1024 : S32768x1024.ShapeCasts S16x2048x1024
  shapeCasts_S16x64_S1024 : S16x64.ShapeCasts S1024
  shapeCasts_S1024x1x1024_S1024x1024 : S1024x1x1024.ShapeCasts S1024x1024
  shapeCasts_S1024x1024_S16x64x1024 : S1024x1024.ShapeCasts S16x64x1024
  bcast_S10x1024_S1x10x1024_1_2 : S10x1024.BroadcastsInDim S1x10x1024 (![1, 2] : Fin 2 → Fin S1x10x1024.rank)
  bcast_S1x10x1024_S16x10x1024_0_1_2 : S1x10x1024.BroadcastsInDim S16x10x1024 (![0, 1, 2] : Fin 3 → Fin S16x10x1024.rank)
  concatenates_S16x10x1024_S16x2048x1024_S16x2058x1024_d1 : Shape.Concatenates [S16x10x1024, S16x2048x1024] S16x2058x1024 1
  bcast_S_S16x10 : S_.BroadcastsInDim S16x10 (![] : Fin 0 → Fin S16x10.rank)
  concatenates_S16x10_S16x2048_S16x2058_d1 : Shape.Concatenates [S16x10, S16x2048] S16x2058 1
  bcast_S_S16x2058 : S_.BroadcastsInDim S16x2058 (![] : Fin 0 → Fin S16x2058.rank)
  reducesTo_S16x2058_S16_d1 : S16x2058.ReducesTo [1] S16
  h_S_ : 0 < S_.numel
  bcast_S_S16 : S_.BroadcastsInDim S16 (![] : Fin 0 → Fin S16.rank)
  bcast_S2122_S1x2122_1 : S2122.BroadcastsInDim S1x2122 (![1] : Fin 1 → Fin S1x2122.rank)
  bcast_S16_S16x1_0 : S16.BroadcastsInDim S16x1 (![0] : Fin 1 → Fin S16x1.rank)
  bcast_S1x2122_S16x2122_0_1 : S1x2122.BroadcastsInDim S16x2122 (![0, 1] : Fin 2 → Fin S16x2122.rank)
  bcast_S16x1_S16x2122_0_1 : S16x1.BroadcastsInDim S16x2122 (![0, 1] : Fin 2 → Fin S16x2122.rank)
  bcast_S_S16x1 : S_.BroadcastsInDim S16x1 (![] : Fin 0 → Fin S16x1.rank)
  bcast_S_S1x2122 : S_.BroadcastsInDim S1x2122 (![] : Fin 0 → Fin S1x2122.rank)
  bcast_S_S16x2122 : S_.BroadcastsInDim S16x2122 (![] : Fin 0 → Fin S16x2122.rank)
  bcast_S16x2122_S16x2122x1_0_1 : S16x2122.BroadcastsInDim S16x2122x1 (![0, 1] : Fin 2 → Fin S16x2122x1.rank)
  bcast_S_S16x2122x1 : S_.BroadcastsInDim S16x2122x1 (![] : Fin 0 → Fin S16x2122x1.rank)
  bcast_S1_S1x1x1_2 : S1.BroadcastsInDim S1x1x1 (![2] : Fin 1 → Fin S1x1x1.rank)
  bcast_S1x1x1_S16x2122x1_0_1_2 : S1x1x1.BroadcastsInDim S16x2122x1 (![0, 1, 2] : Fin 3 → Fin S16x2122x1.rank)
  reducesTo_S16x2122x1_S16x2122_d2 : S16x2122x1.ReducesTo [2] S16x2122
  bcast_S16x2122_S16x2122x1024_0_1 : S16x2122.BroadcastsInDim S16x2122x1024 (![0, 1] : Fin 2 → Fin S16x2122x1024.rank)
  bcast_S_S16x2122x1024 : S_.BroadcastsInDim S16x2122x1024 (![] : Fin 0 → Fin S16x2122x1024.rank)
  bcast_S16x2122x1_S16x2122x1024_0_1_2 : S16x2122x1.BroadcastsInDim S16x2122x1024 (![0, 1, 2] : Fin 3 → Fin S16x2122x1024.rank)
  shapeCasts_S16x2122_S16x2122x1 : S16x2122.ShapeCasts S16x2122x1
  bcast_S5x1024_S1x5x1024_1_2 : S5x1024.BroadcastsInDim S1x5x1024 (![1, 2] : Fin 2 → Fin S1x5x1024.rank)
  bcast_S1x5x1024_S16x5x1024_0_1_2 : S1x5x1024.BroadcastsInDim S16x5x1024 (![0, 1, 2] : Fin 3 → Fin S16x5x1024.rank)
  bcast_S2127_S1x2127_1 : S2127.BroadcastsInDim S1x2127 (![1] : Fin 1 → Fin S1x2127.rank)
  bcast_S1x2127_S16x2127_0_1 : S1x2127.BroadcastsInDim S16x2127 (![0, 1] : Fin 2 → Fin S16x2127.rank)
  bcast_S16x1_S16x2127_0_1 : S16x1.BroadcastsInDim S16x2127 (![0, 1] : Fin 2 → Fin S16x2127.rank)
  bcast_S_S1x2127 : S_.BroadcastsInDim S1x2127 (![] : Fin 0 → Fin S1x2127.rank)
  bcast_S_S16x2127 : S_.BroadcastsInDim S16x2127 (![] : Fin 0 → Fin S16x2127.rank)
  bcast_S16x2127_S16x2127x1_0_1 : S16x2127.BroadcastsInDim S16x2127x1 (![0, 1] : Fin 2 → Fin S16x2127x1.rank)
  bcast_S_S16x2127x1 : S_.BroadcastsInDim S16x2127x1 (![] : Fin 0 → Fin S16x2127x1.rank)
  bcast_S1x1x1_S16x2127x1_0_1_2 : S1x1x1.BroadcastsInDim S16x2127x1 (![0, 1, 2] : Fin 3 → Fin S16x2127x1.rank)
  reducesTo_S16x2127x1_S16x2127_d2 : S16x2127x1.ReducesTo [2] S16x2127
  bcast_S16x2127_S16x2127x1024_0_1 : S16x2127.BroadcastsInDim S16x2127x1024 (![0, 1] : Fin 2 → Fin S16x2127x1024.rank)
  bcast_S_S16x2127x1024 : S_.BroadcastsInDim S16x2127x1024 (![] : Fin 0 → Fin S16x2127x1024.rank)
  bcast_S16x2127x1_S16x2127x1024_0_1_2 : S16x2127x1.BroadcastsInDim S16x2127x1024 (![0, 1, 2] : Fin 3 → Fin S16x2127x1024.rank)
  bcast_S_S16x5 : S_.BroadcastsInDim S16x5 (![] : Fin 0 → Fin S16x5.rank)
  shapeCasts_S16x2127_S16x2127x1 : S16x2127.ShapeCasts S16x2127x1
  slices_S16x2127_S16x2126_0_0 : S16x2127.Slices ![0, 0] S16x2126
  concatenates_S16x1_S16x2126_S16x2127_d1 : Shape.Concatenates [S16x1, S16x2126] S16x2127 1
  slices_S16x64_S16x63_0_1 : S16x64.Slices ![0, 1] S16x63
  concatenates_S16x63_S16x1_S16x64_d1 : Shape.Concatenates [S16x63, S16x1] S16x64 1
  slices_S16x2127_S16x2126_0_1 : S16x2127.Slices ![0, 1] S16x2126
  concatenates_S16x2126_S16x1_S16x2127_d1 : Shape.Concatenates [S16x2126, S16x1] S16x2127 1
  gather_S16x2058x1024_S16x2122x1_S16x2122x1024_2_1_0_0_1_2_111024_wf : GatherDims.WF S16x2058x1024 S16x2122x1 S16x2122x1024 [2] [1] [0] [1] [0] 2 ![1, 1, 1024]
  gather_S16x64x1024_S16x2122x1_S16x2122x1024_2_1_0_0_1_2_111024_wf : GatherDims.WF S16x64x1024 S16x2122x1 S16x2122x1024 [2] [1] [0] [1] [0] 2 ![1, 1, 1024]
  gather_S16x2058_S16x2122x1_S16x2122_n_1_0_0_1_2_11_wf : GatherDims.WF S16x2058 S16x2122x1 S16x2122 [] [1] [0] [1] [0] 2 ![1, 1]
  gather_S16x64_S16x2122x1_S16x2122_n_1_0_0_1_2_11_wf : GatherDims.WF S16x64 S16x2122x1 S16x2122 [] [1] [0] [1] [0] 2 ![1, 1]
  gather_S16x2122x1024_S16x2127x1_S16x2127x1024_2_1_0_0_1_2_111024_wf : GatherDims.WF S16x2122x1024 S16x2127x1 S16x2127x1024 [2] [1] [0] [1] [0] 2 ![1, 1, 1024]
  gather_S16x5x1024_S16x2127x1_S16x2127x1024_2_1_0_0_1_2_111024_wf : GatherDims.WF S16x5x1024 S16x2127x1 S16x2127x1024 [2] [1] [0] [1] [0] 2 ![1, 1, 1024]
  gather_S16x2122_S16x2127x1_S16x2127_n_1_0_0_1_2_11_wf : GatherDims.WF S16x2122 S16x2127x1 S16x2127 [] [1] [0] [1] [0] 2 ![1, 1]
  gather_S16x5_S16x2127x1_S16x2127_n_1_0_0_1_2_11_wf : GatherDims.WF S16x5 S16x2127x1 S16x2127 [] [1] [0] [1] [0] 2 ![1, 1]
  gather_S16x64_S16x2127x1_S16x2127_n_1_0_0_1_2_11_wf : GatherDims.WF S16x64 S16x2127x1 S16x2127 [] [1] [0] [1] [0] 2 ![1, 1]
  hcc0_scratch0 : 2 + S_.numel ≤ 6
  hcc1_scratch0 : 5 + S_.numel ≤ 6
  hrank0 : 0 < grid0.rank
  k0_off1_inb : ∀ i : grid0.Coords, ∀ a, (k0_off1 i) a + S1.size a ≤ S32768.size a
  hstage0_0 : ∀ j, (stage0_0 j).IsWhole
  nbuf0_0 : grid0.bufCount reads0_0 false = 2
  hreads0_0 : ∀ i i' : grid0.Coords, (∀ a, reads0_0 a = true → i a = i' a) → cc0_transform_1 i = cc0_transform_1 i'
  hinb0_0 : ∀ (i : grid0.Coords) a, (cc0_transform_1 i a + 1) * S1x1x1024.size a ≤ S32768x1x1024.size a
  hwx0_0 : ∀ i : grid0.Coords, EltTy.bits .f32 = 32 ∨ (Rect.block (s := S32768x1x1024) S1x1x1024.size (cc0_transform_1 i) (hinb0_0 i)).WholeWords (EltTy.packing .f32)
  hrank1 : 0 < grid1.rank
  k1_off1_inb : ∀ i : grid1.Coords, ∀ a, (k1_off1 i) a + S1.size a ≤ S1024.size a
  hstage1_0 : ∀ j, (stage1_0 j).IsWhole
  nbuf1_0 : grid1.bufCount reads1_0 false = 2
  hreads1_0 : ∀ i i' : grid1.Coords, (∀ a, reads1_0 a = true → i a = i' a) → cc1_transform_1 i = cc1_transform_1 i'
  hinb1_0 : ∀ (i : grid1.Coords) a, (cc1_transform_1 i a + 1) * S1x1x1024.size a ≤ S1024x1x1024.size a
  hwx1_0 : ∀ i : grid1.Coords, EltTy.bits .f32 = 32 ∨ (Rect.block (s := S1024x1x1024) S1x1x1024.size (cc1_transform_1 i) (hinb1_0 i)).WholeWords (EltTy.packing .f32)

variable [Facts₀]

abbrev cc0_scratch0 : DmaSems sig S_ := SemArray.consecutive 2 S_ hcc0_scratch0
abbrev cc1_scratch0 : DmaSems sig S_ := SemArray.consecutive 5 S_ hcc1_scratch0
def reducer_argmax_i32_i32 : BitVec 32 × BitVec 32 → BitVec 32 × BitVec 32 → BitVec 32 × BitVec 32 :=
  fun a b =>
    let v2 := IntOp.cmpi .sgt a.1 b.1
    let v3 := IntOp.cmpi .ne a.1 a.1
    let v4 := IntOp.ori v2 v3
    let v5 := IntOp.cmpi .eq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)
def gather_S16x2058x1024_S16x2122x1_S16x2122x1024_2_1_0_0_1_2_111024 : GatherDims S16x2058x1024 S16x2122x1 S16x2122x1024 where
  offsetDims := [2]
  collapsedSliceDims := [1]
  operandBatchingDims := [0]
  startIndicesBatchingDims := [0]
  startIndexMap := [1]
  indexVectorDim := 2
  sliceSizes := ![1, 1, 1024]
  wf := gather_S16x2058x1024_S16x2122x1_S16x2122x1024_2_1_0_0_1_2_111024_wf
def gather_S16x64x1024_S16x2122x1_S16x2122x1024_2_1_0_0_1_2_111024 : GatherDims S16x64x1024 S16x2122x1 S16x2122x1024 where
  offsetDims := [2]
  collapsedSliceDims := [1]
  operandBatchingDims := [0]
  startIndicesBatchingDims := [0]
  startIndexMap := [1]
  indexVectorDim := 2
  sliceSizes := ![1, 1, 1024]
  wf := gather_S16x64x1024_S16x2122x1_S16x2122x1024_2_1_0_0_1_2_111024_wf
def gather_S16x2058_S16x2122x1_S16x2122_n_1_0_0_1_2_11 : GatherDims S16x2058 S16x2122x1 S16x2122 where
  offsetDims := []
  collapsedSliceDims := [1]
  operandBatchingDims := [0]
  startIndicesBatchingDims := [0]
  startIndexMap := [1]
  indexVectorDim := 2
  sliceSizes := ![1, 1]
  wf := gather_S16x2058_S16x2122x1_S16x2122_n_1_0_0_1_2_11_wf
def gather_S16x64_S16x2122x1_S16x2122_n_1_0_0_1_2_11 : GatherDims S16x64 S16x2122x1 S16x2122 where
  offsetDims := []
  collapsedSliceDims := [1]
  operandBatchingDims := [0]
  startIndicesBatchingDims := [0]
  startIndexMap := [1]
  indexVectorDim := 2
  sliceSizes := ![1, 1]
  wf := gather_S16x64_S16x2122x1_S16x2122_n_1_0_0_1_2_11_wf
def gather_S16x2122x1024_S16x2127x1_S16x2127x1024_2_1_0_0_1_2_111024 : GatherDims S16x2122x1024 S16x2127x1 S16x2127x1024 where
  offsetDims := [2]
  collapsedSliceDims := [1]
  operandBatchingDims := [0]
  startIndicesBatchingDims := [0]
  startIndexMap := [1]
  indexVectorDim := 2
  sliceSizes := ![1, 1, 1024]
  wf := gather_S16x2122x1024_S16x2127x1_S16x2127x1024_2_1_0_0_1_2_111024_wf
def gather_S16x5x1024_S16x2127x1_S16x2127x1024_2_1_0_0_1_2_111024 : GatherDims S16x5x1024 S16x2127x1 S16x2127x1024 where
  offsetDims := [2]
  collapsedSliceDims := [1]
  operandBatchingDims := [0]
  startIndicesBatchingDims := [0]
  startIndexMap := [1]
  indexVectorDim := 2
  sliceSizes := ![1, 1, 1024]
  wf := gather_S16x5x1024_S16x2127x1_S16x2127x1024_2_1_0_0_1_2_111024_wf
def gather_S16x2122_S16x2127x1_S16x2127_n_1_0_0_1_2_11 : GatherDims S16x2122 S16x2127x1 S16x2127 where
  offsetDims := []
  collapsedSliceDims := [1]
  operandBatchingDims := [0]
  startIndicesBatchingDims := [0]
  startIndexMap := [1]
  indexVectorDim := 2
  sliceSizes := ![1, 1]
  wf := gather_S16x2122_S16x2127x1_S16x2127_n_1_0_0_1_2_11_wf
def gather_S16x5_S16x2127x1_S16x2127_n_1_0_0_1_2_11 : GatherDims S16x5 S16x2127x1 S16x2127 where
  offsetDims := []
  collapsedSliceDims := [1]
  operandBatchingDims := [0]
  startIndicesBatchingDims := [0]
  startIndexMap := [1]
  indexVectorDim := 2
  sliceSizes := ![1, 1]
  wf := gather_S16x5_S16x2127x1_S16x2127_n_1_0_0_1_2_11_wf
def gather_S16x64_S16x2127x1_S16x2127_n_1_0_0_1_2_11 : GatherDims S16x64 S16x2127x1 S16x2127 where
  offsetDims := []
  collapsedSliceDims := [1]
  operandBatchingDims := [0]
  startIndicesBatchingDims := [0]
  startIndexMap := [1]
  indexVectorDim := 2
  sliceSizes := ![1, 1]
  wf := gather_S16x64_S16x2127x1_S16x2127_n_1_0_0_1_2_11_wf

abbrev spec0_0 : Pipeline.WinSpec sig grid0.rank :=
  Pipeline.WinSpec.ofSpec (Memref.whole main_v1) S1x1x1024.size reads0_0 true false 2 stage0_0 sem0_0 nbuf0_0 hstage0_0

abbrev spec0 : Fin 1 → Pipeline.WinSpec sig grid0.rank := fun | 0 => spec0_0 | ⟨_ + 1, h⟩ => absurd h (Nat.not_lt.2 (Nat.le_add_left _ _))
theorem hcount0 : ∀ w, grid0.bufCount (spec0 w).reads (spec0 w).sync = (spec0 w).nbuf := fun | 0 => nbuf0_0 | ⟨_ + 1, h⟩ => absurd h (Nat.not_lt.2 (Nat.le_add_left _ _))
abbrev ix0 (pf : pre0.Contents (Elt F)) : (w : Fin 1) → grid0.Coords → Fin (spec0 w).shape.rank → Nat := fun | 0 => cc0_transform_1 | ⟨_ + 1, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | ⟨_ + 1, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | ⟨_ + 1, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | ⟨_ + 1, h⟩ => absurd h (Nat.not_lt.2 (Nat.le_add_left _ _))
abbrev spec1_0 : Pipeline.WinSpec sig grid1.rank :=
  Pipeline.WinSpec.ofSpec (Memref.whole main_v5) S1x1x1024.size reads1_0 true false 2 stage1_0 sem1_0 nbuf1_0 hstage1_0

abbrev spec1 : Fin 1 → Pipeline.WinSpec sig grid1.rank := fun | 0 => spec1_0 | ⟨_ + 1, h⟩ => absurd h (Nat.not_lt.2 (Nat.le_add_left _ _))
theorem hcount1 : ∀ w, grid1.bufCount (spec1 w).reads (spec1 w).sync = (spec1 w).nbuf := fun | 0 => nbuf1_0 | ⟨_ + 1, h⟩ => absurd h (Nat.not_lt.2 (Nat.le_add_left _ _))
abbrev ix1 (pf : pre1.Contents (Elt F)) : (w : Fin 1) → grid1.Coords → Fin (spec1 w).shape.rank → Nat := fun | 0 => cc1_transform_1 | ⟨_ + 1, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 | ⟨_ + 1, h⟩ => absurd h (Nat.not_lt.2 (Nat.le_add_left _ _))
def ok1 (_ : pre1.Contents (Elt F)) : Prop :=
  True
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun _ _ => fun | 0 => hinb1_0 | ⟨_ + 1, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun _ _ => fun | 0 => hwx1_0 | ⟨_ + 1, h⟩ => absurd h (Nat.not_lt.2 (Nat.le_add_left _ _))

class Facts : Prop extends Facts₀ where
  harr0 : ∀ w, (spec0 w).arr.IsWhole
  harr1 : ∀ w, (spec1 w).arr.IsWhole

variable [Facts]
-- ==== ReferenceIdeal.lean ====
abbrev S16x2048 : Shape := ⟨2, ![16, 2048]⟩
abbrev S16x64 : Shape := ⟨2, ![16, 64]⟩
abbrev S50257x1024 : Shape := ⟨2, ![50257, 1024]⟩
abbrev S10x1024 : Shape := ⟨2, ![10, 1024]⟩
abbrev S5x1024 : Shape := ⟨2, ![5, 1024]⟩
abbrev S_ : Shape := ⟨0, ![]⟩
abbrev S16x2048x1 : Shape := ⟨3, ![16, 2048, 1]⟩
abbrev S16x2048x1024 : Shape := ⟨3, ![16, 2048, 1024]⟩
abbrev S1x10x1024 : Shape := ⟨3, ![1, 10, 1024]⟩
abbrev S16x10x1024 : Shape := ⟨3, ![16, 10, 1024]⟩
abbrev S16x2058x1024 : Shape := ⟨3, ![16, 2058, 1024]⟩
abbrev S16x10 : Shape := ⟨2, ![16, 10]⟩
abbrev S16x2058 : Shape := ⟨2, ![16, 2058]⟩
abbrev S16 : Shape := ⟨1, ![16]⟩
abbrev S16x64x1 : Shape := ⟨3, ![16, 64, 1]⟩
abbrev S16x64x1024 : Shape := ⟨3, ![16, 64, 1024]⟩
abbrev S2122 : Shape := ⟨1, ![2122]⟩
abbrev S1x2122 : Shape := ⟨2, ![1, 2122]⟩
abbrev S16x1 : Shape := ⟨2, ![16, 1]⟩
abbrev S16x2122 : Shape := ⟨2, ![16, 2122]⟩
abbrev S16x2122x1 : Shape := ⟨3, ![16, 2122, 1]⟩
abbrev S1 : Shape := ⟨1, ![1]⟩
abbrev S1x1x1 : Shape := ⟨3, ![1, 1, 1]⟩
abbrev S16x2122x1024 : Shape := ⟨3, ![16, 2122, 1024]⟩
abbrev S1x5x1024 : Shape := ⟨3, ![1, 5, 1024]⟩
abbrev S16x5x1024 : Shape := ⟨3, ![16, 5, 1024]⟩
abbrev S2127 : Shape := ⟨1, ![2127]⟩
abbrev S1x2127 : Shape := ⟨2, ![1, 2127]⟩
abbrev S16x2127 : Shape := ⟨2, ![16, 2127]⟩
abbrev S16x2127x1 : Shape := ⟨3, ![16, 2127, 1]⟩
abbrev S16x2127x1024 : Shape := ⟨3, ![16, 2127, 1024]⟩
abbrev S16x5 : Shape := ⟨2, ![16, 5]⟩
abbrev S16x2126 : Shape := ⟨2, ![16, 2126]⟩
abbrev S16x63 : Shape := ⟨2, ![16, 63]⟩

abbrev nBuf : Space → Nat
  | .hbm => 495
  | .vmem => 0
  | .smem => 0
  | _ => 0

abbrev hbmTy0_0 (i : Nat) : BufTy := match i % 128 with
  | 0 => ⟨S16x2048, .i32⟩
  | 1 => ⟨S16x2048, .i32⟩
  | 2 => ⟨S16x64, .i32⟩
  | 3 => ⟨S16x64, .i32⟩
  | 4 => ⟨S50257x1024, .f32⟩
  | 5 => ⟨S10x1024, .f32⟩
  | 6 => ⟨S5x1024, .f32⟩
  | 7 => ⟨S_, .i32⟩
  | 8 => ⟨S16x2048, .i32⟩
  | 9 => ⟨S16x2048, .i1⟩
  | 10 => ⟨S_, .i32⟩
  | 11 => ⟨S16x2048, .i32⟩
  | 12 => ⟨S16x2048, .i32⟩
  | 13 => ⟨S16x2048, .i32⟩
  | 14 => ⟨S16x2048x1, .i32⟩
  | 15 => ⟨S16x2048x1024, .f32⟩
  | 16 => ⟨S1x10x1024, .f32⟩
  | 17 => ⟨S16x10x1024, .f32⟩
  | 18 => ⟨S16x2058x1024, .f32⟩
  | 19 => ⟨S_, .i32⟩
  | 20 => ⟨S16x10, .i32⟩
  | 21 => ⟨S16x2058, .i32⟩
  | 22 => ⟨S_, .i32⟩
  | 23 => ⟨S16x2058, .i32⟩
  | 24 => ⟨S16x2058, .i32⟩
  | 25 => ⟨S16x2058, .i32⟩
  | 26 => ⟨S_, .i32⟩
  | 27 => ⟨S_, .i32⟩
  | 28 => ⟨S16, .i32⟩
  | 29 => ⟨S16, .i32⟩
  | 30 => ⟨S_, .i32⟩
  | 31 => ⟨S16, .i32⟩
  | 32 => ⟨S16, .i32⟩
  | 33 => ⟨S_, .i32⟩
  | 34 => ⟨S16x64, .i32⟩
  | 35 => ⟨S16x64, .i1⟩
  | 36 => ⟨S_, .i32⟩
  | 37 => ⟨S16x64, .i32⟩
  | 38 => ⟨S16x64, .i32⟩
  | 39 => ⟨S16x64, .i32⟩
  | 40 => ⟨S16x64x1, .i32⟩
  | 41 => ⟨S16x64x1024, .f32⟩
  | 42 => ⟨S2122, .i32⟩
  | 43 => ⟨S1x2122, .i32⟩
  | 44 => ⟨S16x1, .i32⟩
  | 45 => ⟨S16x2122, .i32⟩
  | 46 => ⟨S16x2122, .i32⟩
  | 47 => ⟨S16x2122, .i1⟩
  | 48 => ⟨S_, .i32⟩
  | 49 => ⟨S16x1, .i32⟩
  | 50 => ⟨S16x1, .i32⟩
  | 51 => ⟨S16x2122, .i32⟩
  | 52 => ⟨S16x2122, .i32⟩
  | 53 => ⟨S16x2122, .i1⟩
  | 54 => ⟨S16x2122, .i1⟩
  | 55 => ⟨S16x2122, .i32⟩
  | 56 => ⟨S16x2122, .i32⟩
  | 57 => ⟨S16x2122, .i1⟩
  | 58 => ⟨S_, .i32⟩
  | 59 => ⟨S1x2122, .i32⟩
  | 60 => ⟨S1x2122, .i32⟩
  | 61 => ⟨S_, .i32⟩
  | 62 => ⟨S_, .i32⟩
  | 63 => ⟨S_, .i32⟩
  | 64 => ⟨S1x2122, .i32⟩
  | 65 => ⟨S1x2122, .i32⟩
  | 66 => ⟨S_, .i32⟩
  | 67 => ⟨S1x2122, .i32⟩
  | 68 => ⟨S1x2122, .i32⟩
  | 69 => ⟨S16x2122, .i32⟩
  | 70 => ⟨S16x2122, .i32⟩
  | 71 => ⟨S16x2122, .i32⟩
  | 72 => ⟨S16x2122, .i32⟩
  | 73 => ⟨S16x2122, .i32⟩
  | 74 => ⟨S16x2122, .i32⟩
  | 75 => ⟨S_, .i32⟩
  | 76 => ⟨S_, .i32⟩
  | 77 => ⟨S_, .i32⟩
  | 78 => ⟨S16x2122, .i32⟩
  | 79 => ⟨S16x2122, .i32⟩
  | 80 => ⟨S_, .i32⟩
  | 81 => ⟨S16x2122, .i32⟩
  | 82 => ⟨S16x2122, .i32⟩
  | 83 => ⟨S16x2122x1, .i32⟩
  | 84 => ⟨S_, .i32⟩
  | 85 => ⟨S16x2122x1, .i32⟩
  | 86 => ⟨S16x2122x1, .i1⟩
  | 87 => ⟨S_, .i32⟩
  | 88 => ⟨S16x2122x1, .i32⟩
  | 89 => ⟨S16x2122x1, .i32⟩
  | 90 => ⟨S16x2122x1, .i32⟩
  | 91 => ⟨S1, .i32⟩
  | 92 => ⟨S_, .i32⟩
  | 93 => ⟨S16x2122x1, .i32⟩
  | 94 => ⟨S16x2122x1, .i1⟩
  | 95 => ⟨S1x1x1, .i32⟩
  | 96 => ⟨S16x2122x1, .i32⟩
  | 97 => ⟨S16x2122x1, .i1⟩
  | 98 => ⟨S16x2122x1, .i1⟩
  | 99 => ⟨S_, .i1⟩
  | 100 => ⟨S16x2122, .i1⟩
  | 101 => ⟨S16x2122x1024, .f32⟩
  | 102 => ⟨S16x2122x1024, .i1⟩
  | 103 => ⟨S_, .f32⟩
  | 104 => ⟨S16x2122x1024, .f32⟩
  | 105 => ⟨S16x2122x1024, .f32⟩
  | 106 => ⟨S16x2122x1, .i32⟩
  | 107 => ⟨S_, .i32⟩
  | 108 => ⟨S16x2122x1, .i32⟩
  | 109 => ⟨S16x2122x1, .i1⟩
  | 110 => ⟨S_, .i32⟩
  | 111 => ⟨S16x2122x1, .i32⟩
  | 112 => ⟨S16x2122x1, .i32⟩
  | 113 => ⟨S16x2122x1, .i32⟩
  | 114 => ⟨S1, .i32⟩
  | 115 => ⟨S_, .i32⟩
  | 116 => ⟨S16x2122x1, .i32⟩
  | 117 => ⟨S16x2122x1, .i1⟩
  | 118 => ⟨S1x1x1, .i32⟩
  | 119 => ⟨S16x2122x1, .i32⟩
  | 120 => ⟨S16x2122x1, .i1⟩
  | 121 => ⟨S16x2122x1, .i1⟩
  | 122 => ⟨S_, .i1⟩
  | 123 => ⟨S16x2122, .i1⟩
  | 124 => ⟨S16x2122x1024, .f32⟩
  | 125 => ⟨S16x2122x1024, .i1⟩
  | 126 => ⟨S_, .f32⟩
  | 127 => ⟨S16x2122x1024, .f32⟩
  | _ => ⟨S16x2048, .i32⟩

abbrev hbmTy0_1 (i : Nat) : BufTy := match i % 128 with
  | 0 => ⟨S16x2122x1024, .f32⟩
  | 1 => ⟨S16x2122x1, .i1⟩
  | 2 => ⟨S16x2122x1024, .i1⟩
  | 3 => ⟨S16x2122x1024, .f32⟩
  | 4 => ⟨S16x2058, .f32⟩
  | 5 => ⟨S16x64, .f32⟩
  | 6 => ⟨S2122, .i32⟩
  | 7 => ⟨S1x2122, .i32⟩
  | 8 => ⟨S16x1, .i32⟩
  | 9 => ⟨S16x2122, .i32⟩
  | 10 => ⟨S16x2122, .i32⟩
  | 11 => ⟨S16x2122, .i1⟩
  | 12 => ⟨S_, .i32⟩
  | 13 => ⟨S16x1, .i32⟩
  | 14 => ⟨S16x1, .i32⟩
  | 15 => ⟨S16x2122, .i32⟩
  | 16 => ⟨S16x2122, .i32⟩
  | 17 => ⟨S16x2122, .i1⟩
  | 18 => ⟨S16x2122, .i1⟩
  | 19 => ⟨S16x2122, .i32⟩
  | 20 => ⟨S16x2122, .i32⟩
  | 21 => ⟨S16x2122, .i1⟩
  | 22 => ⟨S_, .i32⟩
  | 23 => ⟨S1x2122, .i32⟩
  | 24 => ⟨S1x2122, .i32⟩
  | 25 => ⟨S_, .i32⟩
  | 26 => ⟨S_, .i32⟩
  | 27 => ⟨S_, .i32⟩
  | 28 => ⟨S1x2122, .i32⟩
  | 29 => ⟨S1x2122, .i32⟩
  | 30 => ⟨S_, .i32⟩
  | 31 => ⟨S1x2122, .i32⟩
  | 32 => ⟨S1x2122, .i32⟩
  | 33 => ⟨S16x2122, .i32⟩
  | 34 => ⟨S16x2122, .i32⟩
  | 35 => ⟨S16x2122, .i32⟩
  | 36 => ⟨S16x2122, .i32⟩
  | 37 => ⟨S16x2122, .i32⟩
  | 38 => ⟨S16x2122, .i32⟩
  | 39 => ⟨S_, .i32⟩
  | 40 => ⟨S_, .i32⟩
  | 41 => ⟨S_, .i32⟩
  | 42 => ⟨S16x2122, .i32⟩
  | 43 => ⟨S16x2122, .i32⟩
  | 44 => ⟨S_, .i32⟩
  | 45 => ⟨S16x2122, .i32⟩
  | 46 => ⟨S16x2122, .i32⟩
  | 47 => ⟨S_, .i32⟩
  | 48 => ⟨S16x2122, .i32⟩
  | 49 => ⟨S16x2122, .i1⟩
  | 50 => ⟨S_, .i32⟩
  | 51 => ⟨S16x2122, .i32⟩
  | 52 => ⟨S16x2122, .i32⟩
  | 53 => ⟨S16x2122, .i32⟩
  | 54 => ⟨S16x2122x1, .i32⟩
  | 55 => ⟨S1, .i32⟩
  | 56 => ⟨S_, .i32⟩
  | 57 => ⟨S16x2122x1, .i32⟩
  | 58 => ⟨S16x2122x1, .i1⟩
  | 59 => ⟨S1x1x1, .i32⟩
  | 60 => ⟨S16x2122x1, .i32⟩
  | 61 => ⟨S16x2122x1, .i1⟩
  | 62 => ⟨S16x2122x1, .i1⟩
  | 63 => ⟨S_, .i1⟩
  | 64 => ⟨S16x2122, .i1⟩
  | 65 => ⟨S16x2122, .f32⟩
  | 66 => ⟨S_, .f32⟩
  | 67 => ⟨S16x2122, .f32⟩
  | 68 => ⟨S16x2122, .f32⟩
  | 69 => ⟨S_, .i32⟩
  | 70 => ⟨S16x2122, .i32⟩
  | 71 => ⟨S16x2122, .i1⟩
  | 72 => ⟨S_, .i32⟩
  | 73 => ⟨S16x2122, .i32⟩
  | 74 => ⟨S16x2122, .i32⟩
  | 75 => ⟨S16x2122, .i32⟩
  | 76 => ⟨S16x2122x1, .i32⟩
  | 77 => ⟨S1, .i32⟩
  | 78 => ⟨S_, .i32⟩
  | 79 => ⟨S16x2122x1, .i32⟩
  | 80 => ⟨S16x2122x1, .i1⟩
  | 81 => ⟨S1x1x1, .i32⟩
  | 82 => ⟨S16x2122x1, .i32⟩
  | 83 => ⟨S16x2122x1, .i1⟩
  | 84 => ⟨S16x2122x1, .i1⟩
  | 85 => ⟨S_, .i1⟩
  | 86 => ⟨S16x2122, .i1⟩
  | 87 => ⟨S16x2122, .f32⟩
  | 88 => ⟨S_, .f32⟩
  | 89 => ⟨S16x2122, .f32⟩
  | 90 => ⟨S16x2122, .f32⟩
  | 91 => ⟨S16x2122, .f32⟩
  | 92 => ⟨S1x5x1024, .f32⟩
  | 93 => ⟨S16x5x1024, .f32⟩
  | 94 => ⟨S2127, .i32⟩
  | 95 => ⟨S1x2127, .i32⟩
  | 96 => ⟨S16x1, .i32⟩
  | 97 => ⟨S16x2127, .i32⟩
  | 98 => ⟨S16x2127, .i32⟩
  | 99 => ⟨S16x2127, .i1⟩
  | 100 => ⟨S_, .i32⟩
  | 101 => ⟨S16x1, .i32⟩
  | 102 => ⟨S16x1, .i32⟩
  | 103 => ⟨S16x2127, .i32⟩
  | 104 => ⟨S16x2127, .i32⟩
  | 105 => ⟨S16x2127, .i1⟩
  | 106 => ⟨S16x2127, .i1⟩
  | 107 => ⟨S16x2127, .i32⟩
  | 108 => ⟨S16x2127, .i32⟩
  | 109 => ⟨S16x2127, .i1⟩
  | 110 => ⟨S_, .i32⟩
  | 111 => ⟨S1x2127, .i32⟩
  | 112 => ⟨S1x2127, .i32⟩
  | 113 => ⟨S_, .i32⟩
  | 114 => ⟨S_, .i32⟩
  | 115 => ⟨S_, .i32⟩
  | 116 => ⟨S1x2127, .i32⟩
  | 117 => ⟨S1x2127, .i32⟩
  | 118 => ⟨S_, .i32⟩
  | 119 => ⟨S1x2127, .i32⟩
  | 120 => ⟨S1x2127, .i32⟩
  | 121 => ⟨S16x2127, .i32⟩
  | 122 => ⟨S16x2127, .i32⟩
  | 123 => ⟨S16x2127, .i32⟩
  | 124 => ⟨S16x2127, .i32⟩
  | 125 => ⟨S16x2127, .i32⟩
  | 126 => ⟨S16x2127, .i32⟩
  | 127 => ⟨S_, .i32⟩
  | _ => ⟨S16x2048, .i32⟩

abbrev hbmTy0_2 (i : Nat) : BufTy := match i % 128 with
  | 0 => ⟨S_, .i32⟩
  | 1 => ⟨S_, .i32⟩
  | 2 => ⟨S16x2127, .i32⟩
  | 3 => ⟨S16x2127, .i32⟩
  | 4 => ⟨S_, .i32⟩
  | 5 => ⟨S16x2127, .i32⟩
  | 6 => ⟨S16x2127, .i32⟩
  | 7 => ⟨S16x2127x1, .i32⟩
  | 8 => ⟨S_, .i32⟩
  | 9 => ⟨S16x2127x1, .i32⟩
  | 10 => ⟨S16x2127x1, .i1⟩
  | 11 => ⟨S_, .i32⟩
  | 12 => ⟨S16x2127x1, .i32⟩
  | 13 => ⟨S16x2127x1, .i32⟩
  | 14 => ⟨S16x2127x1, .i32⟩
  | 15 => ⟨S1, .i32⟩
  | 16 => ⟨S_, .i32⟩
  | 17 => ⟨S16x2127x1, .i32⟩
  | 18 => ⟨S16x2127x1, .i1⟩
  | 19 => ⟨S1x1x1, .i32⟩
  | 20 => ⟨S16x2127x1, .i32⟩
  | 21 => ⟨S16x2127x1, .i1⟩
  | 22 => ⟨S16x2127x1, .i1⟩
  | 23 => ⟨S_, .i1⟩
  | 24 => ⟨S16x2127, .i1⟩
  | 25 => ⟨S16x2127x1024, .f32⟩
  | 26 => ⟨S16x2127x1024, .i1⟩
  | 27 => ⟨S_, .f32⟩
  | 28 => ⟨S16x2127x1024, .f32⟩
  | 29 => ⟨S16x2127x1024, .f32⟩
  | 30 => ⟨S16x2127x1, .i32⟩
  | 31 => ⟨S_, .i32⟩
  | 32 => ⟨S16x2127x1, .i32⟩
  | 33 => ⟨S16x2127x1, .i1⟩
  | 34 => ⟨S_, .i32⟩
  | 35 => ⟨S16x2127x1, .i32⟩
  | 36 => ⟨S16x2127x1, .i32⟩
  | 37 => ⟨S16x2127x1, .i32⟩
  | 38 => ⟨S1, .i32⟩
  | 39 => ⟨S_, .i32⟩
  | 40 => ⟨S16x2127x1, .i32⟩
  | 41 => ⟨S16x2127x1, .i1⟩
  | 42 => ⟨S1x1x1, .i32⟩
  | 43 => ⟨S16x2127x1, .i32⟩
  | 44 => ⟨S16x2127x1, .i1⟩
  | 45 => ⟨S16x2127x1, .i1⟩
  | 46 => ⟨S_, .i1⟩
  | 47 => ⟨S16x2127, .i1⟩
  | 48 => ⟨S16x2127x1024, .f32⟩
  | 49 => ⟨S16x2127x1024, .i1⟩
  | 50 => ⟨S_, .f32⟩
  | 51 => ⟨S16x2127x1024, .f32⟩
  | 52 => ⟨S16x2127x1024, .f32⟩
  | 53 => ⟨S16x2127x1, .i1⟩
  | 54 => ⟨S16x2127x1024, .i1⟩
  | 55 => ⟨S16x2127x1024, .f32⟩
  | 56 => ⟨S_, .f32⟩
  | 57 => ⟨S16x5, .f32⟩
  | 58 => ⟨S2127, .i32⟩
  | 59 => ⟨S1x2127, .i32⟩
  | 60 => ⟨S16x1, .i32⟩
  | 61 => ⟨S16x2127, .i32⟩
  | 62 => ⟨S16x2127, .i32⟩
  | 63 => ⟨S16x2127, .i1⟩
  | 64 => ⟨S_, .i32⟩
  | 65 => ⟨S16x1, .i32⟩
  | 66 => ⟨S16x1, .i32⟩
  | 67 => ⟨S16x2127, .i32⟩
  | 68 => ⟨S16x2127, .i32⟩
  | 69 => ⟨S16x2127, .i1⟩
  | 70 => ⟨S16x2127, .i1⟩
  | 71 => ⟨S16x2127, .i32⟩
  | 72 => ⟨S16x2127, .i32⟩
  | 73 => ⟨S16x2127, .i1⟩
  | 74 => ⟨S_, .i32⟩
  | 75 => ⟨S1x2127, .i32⟩
  | 76 => ⟨S1x2127, .i32⟩
  | 77 => ⟨S_, .i32⟩
  | 78 => ⟨S_, .i32⟩
  | 79 => ⟨S_, .i32⟩
  | 80 => ⟨S1x2127, .i32⟩
  | 81 => ⟨S1x2127, .i32⟩
  | 82 => ⟨S_, .i32⟩
  | 83 => ⟨S1x2127, .i32⟩
  | 84 => ⟨S1x2127, .i32⟩
  | 85 => ⟨S16x2127, .i32⟩
  | 86 => ⟨S16x2127, .i32⟩
  | 87 => ⟨S16x2127, .i32⟩
  | 88 => ⟨S16x2127, .i32⟩
  | 89 => ⟨S16x2127, .i32⟩
  | 90 => ⟨S16x2127, .i32⟩
  | 91 => ⟨S_, .i32⟩
  | 92 => ⟨S_, .i32⟩
  | 93 => ⟨S_, .i32⟩
  | 94 => ⟨S16x2127, .i32⟩
  | 95 => ⟨S16x2127, .i32⟩
  | 96 => ⟨S_, .i32⟩
  | 97 => ⟨S16x2127, .i32⟩
  | 98 => ⟨S16x2127, .i32⟩
  | 99 => ⟨S_, .i32⟩
  | 100 => ⟨S16x2127, .i32⟩
  | 101 => ⟨S16x2127, .i1⟩
  | 102 => ⟨S_, .i32⟩
  | 103 => ⟨S16x2127, .i32⟩
  | 104 => ⟨S16x2127, .i32⟩
  | 105 => ⟨S16x2127, .i32⟩
  | 106 => ⟨S16x2127x1, .i32⟩
  | 107 => ⟨S1, .i32⟩
  | 108 => ⟨S_, .i32⟩
  | 109 => ⟨S16x2127x1, .i32⟩
  | 110 => ⟨S16x2127x1, .i1⟩
  | 111 => ⟨S1x1x1, .i32⟩
  | 112 => ⟨S16x2127x1, .i32⟩
  | 113 => ⟨S16x2127x1, .i1⟩
  | 114 => ⟨S16x2127x1, .i1⟩
  | 115 => ⟨S_, .i1⟩
  | 116 => ⟨S16x2127, .i1⟩
  | 117 => ⟨S16x2127, .f32⟩
  | 118 => ⟨S_, .f32⟩
  | 119 => ⟨S16x2127, .f32⟩
  | 120 => ⟨S16x2127, .f32⟩
  | 121 => ⟨S_, .i32⟩
  | 122 => ⟨S16x2127, .i32⟩
  | 123 => ⟨S16x2127, .i1⟩
  | 124 => ⟨S_, .i32⟩
  | 125 => ⟨S16x2127, .i32⟩
  | 126 => ⟨S16x2127, .i32⟩
  | 127 => ⟨S16x2127, .i32⟩
  | _ => ⟨S16x2048, .i32⟩

abbrev hbmTy0_3 (i : Nat) : BufTy := match i % 128 with
  | 0 => ⟨S16x2127x1, .i32⟩
  | 1 => ⟨S1, .i32⟩
  | 2 => ⟨S_, .i32⟩
  | 3 => ⟨S16x2127x1, .i32⟩
  | 4 => ⟨S16x2127x1, .i1⟩
  | 5 => ⟨S1x1x1, .i32⟩
  | 6 => ⟨S16x2127x1, .i32⟩
  | 7 => ⟨S16x2127x1, .i1⟩
  | 8 => ⟨S16x2127x1, .i1⟩
  | 9 => ⟨S_, .i1⟩
  | 10 => ⟨S16x2127, .i1⟩
  | 11 => ⟨S16x2127, .f32⟩
  | 12 => ⟨S_, .f32⟩
  | 13 => ⟨S16x2127, .f32⟩
  | 14 => ⟨S16x2127, .f32⟩
  | 15 => ⟨S16x2127, .f32⟩
  | 16 => ⟨S_, .i32⟩
  | 17 => ⟨S16, .i32⟩
  | 18 => ⟨S16, .i32⟩
  | 19 => ⟨S2127, .i32⟩
  | 20 => ⟨S1x2127, .i32⟩
  | 21 => ⟨S16x1, .i32⟩
  | 22 => ⟨S16x2127, .i32⟩
  | 23 => ⟨S16x2127, .i32⟩
  | 24 => ⟨S16x2127, .i1⟩
  | 25 => ⟨S_, .i32⟩
  | 26 => ⟨S16x1, .i32⟩
  | 27 => ⟨S16x1, .i32⟩
  | 28 => ⟨S16x2127, .i32⟩
  | 29 => ⟨S16x2127, .i32⟩
  | 30 => ⟨S16x2127, .i1⟩
  | 31 => ⟨S16x2127, .i1⟩
  | 32 => ⟨S16x2127, .i32⟩
  | 33 => ⟨S16x2127, .i32⟩
  | 34 => ⟨S16x2127, .i32⟩
  | 35 => ⟨S_, .i32⟩
  | 36 => ⟨S_, .i32⟩
  | 37 => ⟨S_, .i32⟩
  | 38 => ⟨S16x2127, .i32⟩
  | 39 => ⟨S16x2127, .i32⟩
  | 40 => ⟨S_, .i32⟩
  | 41 => ⟨S16x2127, .i32⟩
  | 42 => ⟨S16x2127, .i32⟩
  | 43 => ⟨S_, .i32⟩
  | 44 => ⟨S16x2127, .i32⟩
  | 45 => ⟨S16x2127, .i1⟩
  | 46 => ⟨S_, .i32⟩
  | 47 => ⟨S16x2127, .i32⟩
  | 48 => ⟨S16x2127, .i32⟩
  | 49 => ⟨S16x2127, .i32⟩
  | 50 => ⟨S16x2127x1, .i32⟩
  | 51 => ⟨S1, .i32⟩
  | 52 => ⟨S_, .i32⟩
  | 53 => ⟨S16x2127x1, .i32⟩
  | 54 => ⟨S16x2127x1, .i1⟩
  | 55 => ⟨S1x1x1, .i32⟩
  | 56 => ⟨S16x2127x1, .i32⟩
  | 57 => ⟨S16x2127x1, .i1⟩
  | 58 => ⟨S16x2127x1, .i1⟩
  | 59 => ⟨S_, .i1⟩
  | 60 => ⟨S16x2127, .i1⟩
  | 61 => ⟨S16x2127, .i32⟩
  | 62 => ⟨S_, .i32⟩
  | 63 => ⟨S16x2127, .i32⟩
  | 64 => ⟨S16x2127, .i32⟩
  | 65 => ⟨S16x2127, .f32⟩
  | 66 => ⟨S_, .f32⟩
  | 67 => ⟨S_, .f32⟩
  | 68 => ⟨S16x2127, .f32⟩
  | 69 => ⟨S16x2127, .f32⟩
  | 70 => ⟨S_, .i32⟩
  | 71 => ⟨S16x2127, .i32⟩
  | 72 => ⟨S16x2127, .i1⟩
  | 73 => ⟨S_, .i32⟩
  | 74 => ⟨S16x2127, .i32⟩
  | 75 => ⟨S16x2127, .i32⟩
  | 76 => ⟨S16x2127, .i32⟩
  | 77 => ⟨S16x2127x1, .i32⟩
  | 78 => ⟨S1, .i32⟩
  | 79 => ⟨S_, .i32⟩
  | 80 => ⟨S16x2127x1, .i32⟩
  | 81 => ⟨S16x2127x1, .i1⟩
  | 82 => ⟨S1x1x1, .i32⟩
  | 83 => ⟨S16x2127x1, .i32⟩
  | 84 => ⟨S16x2127x1, .i1⟩
  | 85 => ⟨S16x2127x1, .i1⟩
  | 86 => ⟨S_, .i1⟩
  | 87 => ⟨S16x2127, .i1⟩
  | 88 => ⟨S16x2127, .i32⟩
  | 89 => ⟨S_, .i32⟩
  | 90 => ⟨S16x2127, .i32⟩
  | 91 => ⟨S16x2127, .i32⟩
  | 92 => ⟨S_, .f32⟩
  | 93 => ⟨S16x2127, .f32⟩
  | 94 => ⟨S16x2127, .i1⟩
  | 95 => ⟨S_, .i32⟩
  | 96 => ⟨S_, .i32⟩
  | 97 => ⟨S16x2127, .i32⟩
  | 98 => ⟨S16x2127, .i32⟩
  | 99 => ⟨S_, .f32⟩
  | 100 => ⟨S16x1, .f32⟩
  | 101 => ⟨S16x2126, .f32⟩
  | 102 => ⟨S16x2127, .f32⟩
  | 103 => ⟨S_, .i32⟩
  | 104 => ⟨S16x1, .i32⟩
  | 105 => ⟨S16x63, .i32⟩
  | 106 => ⟨S16x64, .i32⟩
  | 107 => ⟨S_, .i32⟩
  | 108 => ⟨S16x1, .i32⟩
  | 109 => ⟨S16x2126, .i32⟩
  | 110 => ⟨S16x2127, .i32⟩
  | _ => ⟨S16x2048, .i32⟩

abbrev hbmTy (i : Nat) : BufTy := match i / 128 with
  | 0 => hbmTy0_0 i
  | 1 => hbmTy0_1 i
  | 2 => hbmTy0_2 i
  | 3 => hbmTy0_3 i
  | _ => ⟨S16x2048, .i32⟩

abbrev bufTy : (tb : Table) → Fin (tcTables nBuf tb) → BufTy
  | .hbm, ⟨i, _⟩ => hbmTy i
  | _, _ => ⟨S16x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_v10 : Ref sig .tc := ⟨.hbm, 20, rfl⟩
abbrev main_v11 : Ref sig .tc := ⟨.hbm, 21, rfl⟩
abbrev main_c_2 : Ref sig .tc := ⟨.hbm, 22, rfl⟩
abbrev main_v12 : Ref sig .tc := ⟨.hbm, 23, rfl⟩
abbrev main_v13 : Ref sig .tc := ⟨.hbm, 24, rfl⟩
abbrev main_call0_v0 : Ref sig .tc := ⟨.hbm, 25, rfl⟩
abbrev main_call0_c : Ref sig .tc := ⟨.hbm, 26, rfl⟩
abbrev main_call0_c_0 : Ref sig .tc := ⟨.hbm, 27, rfl⟩
abbrev main_call0_v1_0 : Ref sig .tc := ⟨.hbm, 28, rfl⟩
abbrev main_v14 : Ref sig .tc := ⟨.hbm, 29, rfl⟩
abbrev main_c_3 : Ref sig .tc := ⟨.hbm, 30, rfl⟩
abbrev main_v15 : Ref sig .tc := ⟨.hbm, 31, rfl⟩
abbrev main_v16 : Ref sig .tc := ⟨.hbm, 32, rfl⟩
abbrev main_c_4 : Ref sig .tc := ⟨.hbm, 33, rfl⟩
abbrev main_v17 : Ref sig .tc := ⟨.hbm, 34, rfl⟩
abbrev main_v18 : Ref sig .tc := ⟨.hbm, 35, rfl⟩
abbrev main_c_5 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_6 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_c_7 : Ref sig .tc := ⟨.hbm, 58, rfl⟩
abbrev main_v39 : Ref sig .tc := ⟨.hbm, 59, rfl⟩
abbrev main_v40 : Ref sig .tc := ⟨.hbm, 60, rfl⟩
abbrev main_c_8 : Ref sig .tc := ⟨.hbm, 61, rfl⟩
abbrev main_c_9 : Ref sig .tc := ⟨.hbm, 62, rfl⟩
abbrev main_call1_v0 : Ref sig .tc := ⟨.hbm, 63, rfl⟩
abbrev main_call1_v1 : Ref sig .tc := ⟨.hbm, 64, rfl⟩
abbrev main_call1_v2 : Ref sig .tc := ⟨.hbm, 65, rfl⟩
abbrev main_call1_v3 : Ref sig .tc := ⟨.hbm, 66, rfl⟩
abbrev main_call1_v4 : Ref sig .tc := ⟨.hbm, 67, rfl⟩
abbrev main_v41 : Ref sig .tc := ⟨.hbm, 68, rfl⟩
abbrev main_call2_v0 : Ref sig .tc := ⟨.hbm, 69, rfl⟩
abbrev main_call2_v1 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_c_10 : Ref sig .tc := ⟨.hbm, 75, rfl⟩
abbrev main_c_11 : Ref sig .tc := ⟨.hbm, 76, rfl⟩
abbrev main_call3_v0 : Ref sig .tc := ⟨.hbm, 77, rfl⟩
abbrev main_call3_v1 : Ref sig .tc := ⟨.hbm, 78, rfl⟩
abbrev main_call3_v2 : Ref sig .tc := ⟨.hbm, 79, rfl⟩
abbrev main_call3_v3 : Ref sig .tc := ⟨.hbm, 80, rfl⟩
abbrev main_call3_v4 : Ref sig .tc := ⟨.hbm, 81, rfl⟩
abbrev main_v46 : Ref sig .tc := ⟨.hbm, 82, rfl⟩
abbrev main_v47 : Ref sig .tc := ⟨.hbm, 83, rfl⟩
abbrev main_call4_c : Ref sig .tc := ⟨.hbm, 84, rfl⟩
abbrev main_call4_v0 : Ref sig .tc := ⟨.hbm, 85, rfl⟩
abbrev main_call4_v1 : Ref sig .tc := ⟨.hbm, 86, rfl⟩
abbrev main_call4_c_0 : Ref sig .tc := ⟨.hbm, 87, rfl⟩
abbrev main_call4_v2 : Ref sig .tc := ⟨.hbm, 88, rfl⟩
abbrev main_call4_v3 : Ref sig .tc := ⟨.hbm, 89, rfl⟩
abbrev main_call4_v4 : Ref sig .tc := ⟨.hbm, 90, rfl⟩
abbrev main_call4_c_1 : Ref sig .tc := ⟨.hbm, 91, rfl⟩
abbrev main_call4_c_2 : Ref sig .tc := ⟨.hbm, 92, rfl⟩
abbrev main_call4_v5 : Ref sig .tc := ⟨.hbm, 93, rfl⟩
abbrev main_call4_v6 : Ref sig .tc := ⟨.hbm, 94, rfl⟩
abbrev main_call4_v7 : Ref sig .tc := ⟨.hbm, 95, rfl⟩
abbrev main_call4_v8 : Ref sig .tc := ⟨.hbm, 96, rfl⟩
abbrev main_call4_v9 : Ref sig .tc := ⟨.hbm, 97, rfl⟩
abbrev main_call4_v10 : Ref sig .tc := ⟨.hbm, 98, rfl⟩
abbrev main_call4_c_3 : Ref sig .tc := ⟨.hbm, 99, rfl⟩
abbrev main_call4_v11 : Ref sig .tc := ⟨.hbm, 100, rfl⟩
abbrev main_call4_v12 : Ref sig .tc := ⟨.hbm, 101, rfl⟩
abbrev main_call4_v13 : Ref sig .tc := ⟨.hbm, 102, rfl⟩
abbrev main_call4_cst : Ref sig .tc := ⟨.hbm, 103, rfl⟩
abbrev main_call4_v14 : Ref sig .tc := ⟨.hbm, 104, rfl⟩
abbrev main_v48 : Ref sig .tc := ⟨.hbm, 105, rfl⟩
abbrev main_v49 : Ref sig .tc := ⟨.hbm, 106, rfl⟩
abbrev main_call5_c : Ref sig .tc := ⟨.hbm, 107, rfl⟩
abbrev main_call5_v0 : Ref sig .tc := ⟨.hbm, 108, rfl⟩
abbrev main_call5_v1 : Ref sig .tc := ⟨.hbm, 109, rfl⟩
abbrev main_call5_c_0 : Ref sig .tc := ⟨.hbm, 110, rfl⟩
abbrev main_call5_v2 : Ref sig .tc := ⟨.hbm, 111, rfl⟩
abbrev main_call5_v3 : Ref sig .tc := ⟨.hbm, 112, rfl⟩
abbrev main_call5_v4 : Ref sig .tc := ⟨.hbm, 113, rfl⟩
abbrev main_call5_c_1 : Ref sig .tc := ⟨.hbm, 114, rfl⟩
abbrev main_call5_c_2 : Ref sig .tc := ⟨.hbm, 115, rfl⟩
abbrev main_call5_v5 : Ref sig .tc := ⟨.hbm, 116, rfl⟩
abbrev main_call5_v6 : Ref sig .tc := ⟨.hbm, 117, rfl⟩
abbrev main_call5_v7 : Ref sig .tc := ⟨.hbm, 118, rfl⟩
abbrev main_call5_v8 : Ref sig .tc := ⟨.hbm, 119, rfl⟩
abbrev main_call5_v9 : Ref sig .tc := ⟨.hbm, 120, rfl⟩
abbrev main_call5_v10 : Ref sig .tc := ⟨.hbm, 121, rfl⟩
abbrev main_call5_c_3 : Ref sig .tc := ⟨.hbm, 122, rfl⟩
abbrev main_call5_v11 : Ref sig .tc := ⟨.hbm, 123, rfl⟩
abbrev main_call5_v12 : Ref sig .tc := ⟨.hbm, 124, rfl⟩
abbrev main_call5_v13 : Ref sig .tc := ⟨.hbm, 125, rfl⟩
abbrev main_call5_cst : Ref sig .tc := ⟨.hbm, 126, rfl⟩
abbrev main_call5_v14 : Ref sig .tc := ⟨.hbm, 127, rfl⟩
abbrev main_v50 : Ref sig .tc := ⟨.hbm, 128, rfl⟩
abbrev main_v51 : Ref sig .tc := ⟨.hbm, 129, rfl⟩
abbrev main_call6_v0 : Ref sig .tc := ⟨.hbm, 130, rfl⟩
abbrev main_v52 : Ref sig .tc := ⟨.hbm, 131, rfl⟩
abbrev main_v53 : Ref sig .tc := ⟨.hbm, 132, rfl⟩
abbrev main_v54 : Ref sig .tc := ⟨.hbm, 133, rfl⟩
abbrev main_v55 : Ref sig .tc := ⟨.hbm, 134, rfl⟩
abbrev main_v56 : Ref sig .tc := ⟨.hbm, 135, rfl⟩
abbrev main_v57 : Ref sig .tc := ⟨.hbm, 136, rfl⟩
abbrev main_v58 : Ref sig .tc := ⟨.hbm, 137, rfl⟩
abbrev main_v59 : Ref sig .tc := ⟨.hbm, 138, rfl⟩
abbrev main_v60 : Ref sig .tc := ⟨.hbm, 139, rfl⟩
abbrev main_c_12 : Ref sig .tc := ⟨.hbm, 140, rfl⟩
abbrev main_v61 : Ref sig .tc := ⟨.hbm, 141, rfl⟩
abbrev main_v62 : Ref sig .tc := ⟨.hbm, 142, rfl⟩
abbrev main_v63 : Ref sig .tc := ⟨.hbm, 143, rfl⟩
abbrev main_v64 : Ref sig .tc := ⟨.hbm, 144, rfl⟩
abbrev main_v65 : Ref sig .tc := ⟨.hbm, 145, rfl⟩
abbrev main_v66 : Ref sig .tc := ⟨.hbm, 146, rfl⟩
abbrev main_v67 : Ref sig .tc := ⟨.hbm, 147, rfl⟩
abbrev main_v68 : Ref sig .tc := ⟨.hbm, 148, rfl⟩
abbrev main_v69 : Ref sig .tc := ⟨.hbm, 149, rfl⟩
abbrev main_c_13 : Ref sig .tc := ⟨.hbm, 150, rfl⟩
abbrev main_v70 : Ref sig .tc := ⟨.hbm, 151, rfl⟩
abbrev main_v71 : Ref sig .tc := ⟨.hbm, 152, rfl⟩
abbrev main_c_14 : Ref sig .tc := ⟨.hbm, 153, rfl⟩
abbrev main_c_15 : Ref sig .tc := ⟨.hbm, 154, rfl⟩
abbrev main_call7_v0 : Ref sig .tc := ⟨.hbm, 155, rfl⟩
abbrev main_call7_v1 : Ref sig .tc := ⟨.hbm, 156, rfl⟩
abbrev main_call7_v2 : Ref sig .tc := ⟨.hbm, 157, rfl⟩
abbrev main_call7_v3 : Ref sig .tc := ⟨.hbm, 158, rfl⟩
abbrev main_call7_v4 : Ref sig .tc := ⟨.hbm, 159, rfl⟩
abbrev main_v72 : Ref sig .tc := ⟨.hbm, 160, rfl⟩
abbrev main_call8_v0 : Ref sig .tc := ⟨.hbm, 161, rfl⟩
abbrev main_call8_v1 : Ref sig .tc := ⟨.hbm, 162, rfl⟩
abbrev main_v73 : Ref sig .tc := ⟨.hbm, 163, rfl⟩
abbrev main_v74 : Ref sig .tc := ⟨.hbm, 164, rfl⟩
abbrev main_v75 : Ref sig .tc := ⟨.hbm, 165, rfl⟩
abbrev main_v76 : Ref sig .tc := ⟨.hbm, 166, rfl⟩
abbrev main_c_16 : Ref sig .tc := ⟨.hbm, 167, rfl⟩
abbrev main_c_17 : Ref sig .tc := ⟨.hbm, 168, rfl⟩
abbrev main_call9_v0 : Ref sig .tc := ⟨.hbm, 169, rfl⟩
abbrev main_call9_v1 : Ref sig .tc := ⟨.hbm, 170, rfl⟩
abbrev main_call9_v2 : Ref sig .tc := ⟨.hbm, 171, rfl⟩
abbrev main_call9_v3 : Ref sig .tc := ⟨.hbm, 172, rfl⟩
abbrev main_call9_v4 : Ref sig .tc := ⟨.hbm, 173, rfl⟩
abbrev main_v77 : Ref sig .tc := ⟨.hbm, 174, rfl⟩
abbrev main_call10_c : Ref sig .tc := ⟨.hbm, 175, rfl⟩
abbrev main_call10_v0 : Ref sig .tc := ⟨.hbm, 176, rfl⟩
abbrev main_call10_v1 : Ref sig .tc := ⟨.hbm, 177, rfl⟩
abbrev main_call10_c_0 : Ref sig .tc := ⟨.hbm, 178, rfl⟩
abbrev main_call10_v2 : Ref sig .tc := ⟨.hbm, 179, rfl⟩
abbrev main_call10_v3 : Ref sig .tc := ⟨.hbm, 180, rfl⟩
abbrev main_call10_v4 : Ref sig .tc := ⟨.hbm, 181, rfl⟩
abbrev main_call10_v5 : Ref sig .tc := ⟨.hbm, 182, rfl⟩
abbrev main_call10_c_1 : Ref sig .tc := ⟨.hbm, 183, rfl⟩
abbrev main_call10_c_2 : Ref sig .tc := ⟨.hbm, 184, rfl⟩
abbrev main_call10_v6 : Ref sig .tc := ⟨.hbm, 185, rfl⟩
abbrev main_call10_v7 : Ref sig .tc := ⟨.hbm, 186, rfl⟩
abbrev main_call10_v8 : Ref sig .tc := ⟨.hbm, 187, rfl⟩
abbrev main_call10_v9 : Ref sig .tc := ⟨.hbm, 188, rfl⟩
abbrev main_call10_v10 : Ref sig .tc := ⟨.hbm, 189, rfl⟩
abbrev main_call10_v11 : Ref sig .tc := ⟨.hbm, 190, rfl⟩
abbrev main_call10_c_3 : Ref sig .tc := ⟨.hbm, 191, rfl⟩
abbrev main_call10_v12 : Ref sig .tc := ⟨.hbm, 192, rfl⟩
abbrev main_call10_v13 : Ref sig .tc := ⟨.hbm, 193, rfl⟩
abbrev main_call10_cst : Ref sig .tc := ⟨.hbm, 194, rfl⟩
abbrev main_call10_v14 : Ref sig .tc := ⟨.hbm, 195, rfl⟩
abbrev main_v78 : Ref sig .tc := ⟨.hbm, 196, rfl⟩
abbrev main_call11_c : Ref sig .tc := ⟨.hbm, 197, rfl⟩
abbrev main_call11_v0 : Ref sig .tc := ⟨.hbm, 198, rfl⟩
abbrev main_call11_v1 : Ref sig .tc := ⟨.hbm, 199, rfl⟩
abbrev main_call11_c_0 : Ref sig .tc := ⟨.hbm, 200, rfl⟩
abbrev main_call11_v2 : Ref sig .tc := ⟨.hbm, 201, rfl⟩
abbrev main_call11_v3 : Ref sig .tc := ⟨.hbm, 202, rfl⟩
abbrev main_call11_v4 : Ref sig .tc := ⟨.hbm, 203, rfl⟩
abbrev main_call11_v5 : Ref sig .tc := ⟨.hbm, 204, rfl⟩
abbrev main_call11_c_1 : Ref sig .tc := ⟨.hbm, 205, rfl⟩
abbrev main_call11_c_2 : Ref sig .tc := ⟨.hbm, 206, rfl⟩
abbrev main_call11_v6 : Ref sig .tc := ⟨.hbm, 207, rfl⟩
abbrev main_call11_v7 : Ref sig .tc := ⟨.hbm, 208, rfl⟩
abbrev main_call11_v8 : Ref sig .tc := ⟨.hbm, 209, rfl⟩
abbrev main_call11_v9 : Ref sig .tc := ⟨.hbm, 210, rfl⟩
abbrev main_call11_v10 : Ref sig .tc := ⟨.hbm, 211, rfl⟩
abbrev main_call11_v11 : Ref sig .tc := ⟨.hbm, 212, rfl⟩
abbrev main_call11_c_3 : Ref sig .tc := ⟨.hbm, 213, rfl⟩
abbrev main_call11_v12 : Ref sig .tc := ⟨.hbm, 214, rfl⟩
abbrev main_call11_v13 : Ref sig .tc := ⟨.hbm, 215, rfl⟩
abbrev main_call11_cst : Ref sig .tc := ⟨.hbm, 216, rfl⟩
abbrev main_call11_v14 : Ref sig .tc := ⟨.hbm, 217, rfl⟩
abbrev main_v79 : Ref sig .tc := ⟨.hbm, 218, rfl⟩
abbrev main_v80 : Ref sig .tc := ⟨.hbm, 219, rfl⟩
abbrev main_v81 : Ref sig .tc := ⟨.hbm, 220, rfl⟩
abbrev main_v82 : Ref sig .tc := ⟨.hbm, 221, rfl⟩
abbrev main_v83 : Ref sig .tc := ⟨.hbm, 222, rfl⟩
abbrev main_v84 : Ref sig .tc := ⟨.hbm, 223, rfl⟩
abbrev main_v85 : Ref sig .tc := ⟨.hbm, 224, rfl⟩
abbrev main_v86 : Ref sig .tc := ⟨.hbm, 225, rfl⟩
abbrev main_v87 : Ref sig .tc := ⟨.hbm, 226, rfl⟩
abbrev main_v88 : Ref sig .tc := ⟨.hbm, 227, rfl⟩
abbrev main_c_18 : Ref sig .tc := ⟨.hbm, 228, rfl⟩
abbrev main_v89 : Ref sig .tc := ⟨.hbm, 229, rfl⟩
abbrev main_v90 : Ref sig .tc := ⟨.hbm, 230, rfl⟩
abbrev main_v91 : Ref sig .tc := ⟨.hbm, 231, rfl⟩
abbrev main_v92 : Ref sig .tc := ⟨.hbm, 232, rfl⟩
abbrev main_v93 : Ref sig .tc := ⟨.hbm, 233, rfl⟩
abbrev main_v94 : Ref sig .tc := ⟨.hbm, 234, rfl⟩
abbrev main_v95 : Ref sig .tc := ⟨.hbm, 235, rfl⟩
abbrev main_v96 : Ref sig .tc := ⟨.hbm, 236, rfl⟩
abbrev main_v97 : Ref sig .tc := ⟨.hbm, 237, rfl⟩
abbrev main_c_19 : Ref sig .tc := ⟨.hbm, 238, rfl⟩
abbrev main_v98 : Ref sig .tc := ⟨.hbm, 239, rfl⟩
abbrev main_v99 : Ref sig .tc := ⟨.hbm, 240, rfl⟩
abbrev main_c_20 : Ref sig .tc := ⟨.hbm, 241, rfl⟩
abbrev main_c_21 : Ref sig .tc := ⟨.hbm, 242, rfl⟩
abbrev main_call13_v0 : Ref sig .tc := ⟨.hbm, 243, rfl⟩
abbrev main_call13_v1 : Ref sig .tc := ⟨.hbm, 244, rfl⟩
abbrev main_call13_v2 : Ref sig .tc := ⟨.hbm, 245, rfl⟩
abbrev main_call13_v3 : Ref sig .tc := ⟨.hbm, 246, rfl⟩
abbrev main_call13_v4 : Ref sig .tc := ⟨.hbm, 247, rfl⟩
abbrev main_v100 : Ref sig .tc := ⟨.hbm, 248, rfl⟩
abbrev main_call14_v0 : Ref sig .tc := ⟨.hbm, 249, rfl⟩
abbrev main_call14_v1 : Ref sig .tc := ⟨.hbm, 250, rfl⟩
abbrev main_v101 : Ref sig .tc := ⟨.hbm, 251, rfl⟩
abbrev main_v102 : Ref sig .tc := ⟨.hbm, 252, rfl⟩
abbrev main_v103 : Ref sig .tc := ⟨.hbm, 253, rfl⟩
abbrev main_v104 : Ref sig .tc := ⟨.hbm, 254, rfl⟩
abbrev main_c_22 : Ref sig .tc := ⟨.hbm, 255, rfl⟩
abbrev main_c_23 : Ref sig .tc := ⟨.hbm, 256, rfl⟩
abbrev main_call15_v0 : Ref sig .tc := ⟨.hbm, 257, rfl⟩
abbrev main_call15_v1 : Ref sig .tc := ⟨.hbm, 258, rfl⟩
abbrev main_call15_v2 : Ref sig .tc := ⟨.hbm, 259, rfl⟩
abbrev main_call15_v3 : Ref sig .tc := ⟨.hbm, 260, rfl⟩
abbrev main_call15_v4 : Ref sig .tc := ⟨.hbm, 261, rfl⟩
abbrev main_v105 : Ref sig .tc := ⟨.hbm, 262, rfl⟩
abbrev main_v106 : Ref sig .tc := ⟨.hbm, 263, rfl⟩
abbrev main_call16_c : Ref sig .tc := ⟨.hbm, 264, rfl⟩
abbrev main_call16_v0 : Ref sig .tc := ⟨.hbm, 265, rfl⟩
abbrev main_call16_v1 : Ref sig .tc := ⟨.hbm, 266, rfl⟩
abbrev main_call16_c_0 : Ref sig .tc := ⟨.hbm, 267, rfl⟩
abbrev main_call16_v2 : Ref sig .tc := ⟨.hbm, 268, rfl⟩
abbrev main_call16_v3 : Ref sig .tc := ⟨.hbm, 269, rfl⟩
abbrev main_call16_v4 : Ref sig .tc := ⟨.hbm, 270, rfl⟩
abbrev main_call16_c_1 : Ref sig .tc := ⟨.hbm, 271, rfl⟩
abbrev main_call16_c_2 : Ref sig .tc := ⟨.hbm, 272, rfl⟩
abbrev main_call16_v5 : Ref sig .tc := ⟨.hbm, 273, rfl⟩
abbrev main_call16_v6 : Ref sig .tc := ⟨.hbm, 274, rfl⟩
abbrev main_call16_v7 : Ref sig .tc := ⟨.hbm, 275, rfl⟩
abbrev main_call16_v8 : Ref sig .tc := ⟨.hbm, 276, rfl⟩
abbrev main_call16_v9 : Ref sig .tc := ⟨.hbm, 277, rfl⟩
abbrev main_call16_v10 : Ref sig .tc := ⟨.hbm, 278, rfl⟩
abbrev main_call16_c_3 : Ref sig .tc := ⟨.hbm, 279, rfl⟩
abbrev main_call16_v11 : Ref sig .tc := ⟨.hbm, 280, rfl⟩
abbrev main_call16_v12 : Ref sig .tc := ⟨.hbm, 281, rfl⟩
abbrev main_call16_v13 : Ref sig .tc := ⟨.hbm, 282, rfl⟩
abbrev main_call16_cst : Ref sig .tc := ⟨.hbm, 283, rfl⟩
abbrev main_call16_v14 : Ref sig .tc := ⟨.hbm, 284, rfl⟩
abbrev main_v107 : Ref sig .tc := ⟨.hbm, 285, rfl⟩
abbrev main_v108 : Ref sig .tc := ⟨.hbm, 286, rfl⟩
abbrev main_call17_c : Ref sig .tc := ⟨.hbm, 287, rfl⟩
abbrev main_call17_v0 : Ref sig .tc := ⟨.hbm, 288, rfl⟩
abbrev main_call17_v1 : Ref sig .tc := ⟨.hbm, 289, rfl⟩
abbrev main_call17_c_0 : Ref sig .tc := ⟨.hbm, 290, rfl⟩
abbrev main_call17_v2 : Ref sig .tc := ⟨.hbm, 291, rfl⟩
abbrev main_call17_v3 : Ref sig .tc := ⟨.hbm, 292, rfl⟩
abbrev main_call17_v4 : Ref sig .tc := ⟨.hbm, 293, rfl⟩
abbrev main_call17_c_1 : Ref sig .tc := ⟨.hbm, 294, rfl⟩
abbrev main_call17_c_2 : Ref sig .tc := ⟨.hbm, 295, rfl⟩
abbrev main_call17_v5 : Ref sig .tc := ⟨.hbm, 296, rfl⟩
abbrev main_call17_v6 : Ref sig .tc := ⟨.hbm, 297, rfl⟩
abbrev main_call17_v7 : Ref sig .tc := ⟨.hbm, 298, rfl⟩
abbrev main_call17_v8 : Ref sig .tc := ⟨.hbm, 299, rfl⟩
abbrev main_call17_v9 : Ref sig .tc := ⟨.hbm, 300, rfl⟩
abbrev main_call17_v10 : Ref sig .tc := ⟨.hbm, 301, rfl⟩
abbrev main_call17_c_3 : Ref sig .tc := ⟨.hbm, 302, rfl⟩
abbrev main_call17_v11 : Ref sig .tc := ⟨.hbm, 303, rfl⟩
abbrev main_call17_v12 : Ref sig .tc := ⟨.hbm, 304, rfl⟩
abbrev main_call17_v13 : Ref sig .tc := ⟨.hbm, 305, rfl⟩
abbrev main_call17_cst : Ref sig .tc := ⟨.hbm, 306, rfl⟩
abbrev main_call17_v14 : Ref sig .tc := ⟨.hbm, 307, rfl⟩
abbrev main_v109 : Ref sig .tc := ⟨.hbm, 308, rfl⟩
abbrev main_v110 : Ref sig .tc := ⟨.hbm, 309, rfl⟩
abbrev main_call18_v0 : Ref sig .tc := ⟨.hbm, 310, rfl⟩
abbrev main_v111 : Ref sig .tc := ⟨.hbm, 311, rfl⟩
abbrev main_cst : Ref sig .tc := ⟨.hbm, 312, rfl⟩
abbrev main_v112 : Ref sig .tc := ⟨.hbm, 313, rfl⟩
abbrev main_v113 : Ref sig .tc := ⟨.hbm, 314, rfl⟩
abbrev main_v114 : Ref sig .tc := ⟨.hbm, 315, rfl⟩
abbrev main_v115 : Ref sig .tc := ⟨.hbm, 316, rfl⟩
abbrev main_v116 : Ref sig .tc := ⟨.hbm, 317, rfl⟩
abbrev main_v117 : Ref sig .tc := ⟨.hbm, 318, rfl⟩
abbrev main_v118 : Ref sig .tc := ⟨.hbm, 319, rfl⟩
abbrev main_c_24 : Ref sig .tc := ⟨.hbm, 320, rfl⟩
abbrev main_v119 : Ref sig .tc := ⟨.hbm, 321, rfl⟩
abbrev main_v120 : Ref sig .tc := ⟨.hbm, 322, rfl⟩
abbrev main_v121 : Ref sig .tc := ⟨.hbm, 323, rfl⟩
abbrev main_v122 : Ref sig .tc := ⟨.hbm, 324, rfl⟩
abbrev main_v123 : Ref sig .tc := ⟨.hbm, 325, rfl⟩
abbrev main_v124 : Ref sig .tc := ⟨.hbm, 326, rfl⟩
abbrev main_v125 : Ref sig .tc := ⟨.hbm, 327, rfl⟩
abbrev main_v126 : Ref sig .tc := ⟨.hbm, 328, rfl⟩
abbrev main_v127 : Ref sig .tc := ⟨.hbm, 329, rfl⟩
abbrev main_c_25 : Ref sig .tc := ⟨.hbm, 330, rfl⟩
abbrev main_v128 : Ref sig .tc := ⟨.hbm, 331, rfl⟩
abbrev main_v129 : Ref sig .tc := ⟨.hbm, 332, rfl⟩
abbrev main_c_26 : Ref sig .tc := ⟨.hbm, 333, rfl⟩
abbrev main_c_27 : Ref sig .tc := ⟨.hbm, 334, rfl⟩
abbrev main_call19_v0 : Ref sig .tc := ⟨.hbm, 335, rfl⟩
abbrev main_call19_v1 : Ref sig .tc := ⟨.hbm, 336, rfl⟩
abbrev main_call19_v2 : Ref sig .tc := ⟨.hbm, 337, rfl⟩
abbrev main_call19_v3 : Ref sig .tc := ⟨.hbm, 338, rfl⟩
abbrev main_call19_v4 : Ref sig .tc := ⟨.hbm, 339, rfl⟩
abbrev main_v130 : Ref sig .tc := ⟨.hbm, 340, rfl⟩
abbrev main_call20_v0 : Ref sig .tc := ⟨.hbm, 341, rfl⟩
abbrev main_call20_v1 : Ref sig .tc := ⟨.hbm, 342, rfl⟩
abbrev main_v131 : Ref sig .tc := ⟨.hbm, 343, rfl⟩
abbrev main_v132 : Ref sig .tc := ⟨.hbm, 344, rfl⟩
abbrev main_v133 : Ref sig .tc := ⟨.hbm, 345, rfl⟩
abbrev main_v134 : Ref sig .tc := ⟨.hbm, 346, rfl⟩
abbrev main_c_28 : Ref sig .tc := ⟨.hbm, 347, rfl⟩
abbrev main_c_29 : Ref sig .tc := ⟨.hbm, 348, rfl⟩
abbrev main_call21_v0 : Ref sig .tc := ⟨.hbm, 349, rfl⟩
abbrev main_call21_v1 : Ref sig .tc := ⟨.hbm, 350, rfl⟩
abbrev main_call21_v2 : Ref sig .tc := ⟨.hbm, 351, rfl⟩
abbrev main_call21_v3 : Ref sig .tc := ⟨.hbm, 352, rfl⟩
abbrev main_call21_v4 : Ref sig .tc := ⟨.hbm, 353, rfl⟩
abbrev main_v135 : Ref sig .tc := ⟨.hbm, 354, rfl⟩
abbrev main_call22_c : Ref sig .tc := ⟨.hbm, 355, rfl⟩
abbrev main_call22_v0 : Ref sig .tc := ⟨.hbm, 356, rfl⟩
abbrev main_call22_v1 : Ref sig .tc := ⟨.hbm, 357, rfl⟩
abbrev main_call22_c_0 : Ref sig .tc := ⟨.hbm, 358, rfl⟩
abbrev main_call22_v2 : Ref sig .tc := ⟨.hbm, 359, rfl⟩
abbrev main_call22_v3 : Ref sig .tc := ⟨.hbm, 360, rfl⟩
abbrev main_call22_v4 : Ref sig .tc := ⟨.hbm, 361, rfl⟩
abbrev main_call22_v5 : Ref sig .tc := ⟨.hbm, 362, rfl⟩
abbrev main_call22_c_1 : Ref sig .tc := ⟨.hbm, 363, rfl⟩
abbrev main_call22_c_2 : Ref sig .tc := ⟨.hbm, 364, rfl⟩
abbrev main_call22_v6 : Ref sig .tc := ⟨.hbm, 365, rfl⟩
abbrev main_call22_v7 : Ref sig .tc := ⟨.hbm, 366, rfl⟩
abbrev main_call22_v8 : Ref sig .tc := ⟨.hbm, 367, rfl⟩
abbrev main_call22_v9 : Ref sig .tc := ⟨.hbm, 368, rfl⟩
abbrev main_call22_v10 : Ref sig .tc := ⟨.hbm, 369, rfl⟩
abbrev main_call22_v11 : Ref sig .tc := ⟨.hbm, 370, rfl⟩
abbrev main_call22_c_3 : Ref sig .tc := ⟨.hbm, 371, rfl⟩
abbrev main_call22_v12 : Ref sig .tc := ⟨.hbm, 372, rfl⟩
abbrev main_call22_v13 : Ref sig .tc := ⟨.hbm, 373, rfl⟩
abbrev main_call22_cst : Ref sig .tc := ⟨.hbm, 374, rfl⟩
abbrev main_call22_v14 : Ref sig .tc := ⟨.hbm, 375, rfl⟩
abbrev main_v136 : Ref sig .tc := ⟨.hbm, 376, rfl⟩
abbrev main_call23_c : Ref sig .tc := ⟨.hbm, 377, rfl⟩
abbrev main_call23_v0 : Ref sig .tc := ⟨.hbm, 378, rfl⟩
abbrev main_call23_v1 : Ref sig .tc := ⟨.hbm, 379, rfl⟩
abbrev main_call23_c_0 : Ref sig .tc := ⟨.hbm, 380, rfl⟩
abbrev main_call23_v2 : Ref sig .tc := ⟨.hbm, 381, rfl⟩
abbrev main_call23_v3 : Ref sig .tc := ⟨.hbm, 382, rfl⟩
abbrev main_call23_v4 : Ref sig .tc := ⟨.hbm, 383, rfl⟩
abbrev main_call23_v5 : Ref sig .tc := ⟨.hbm, 384, rfl⟩
abbrev main_call23_c_1 : Ref sig .tc := ⟨.hbm, 385, rfl⟩
abbrev main_call23_c_2 : Ref sig .tc := ⟨.hbm, 386, rfl⟩
abbrev main_call23_v6 : Ref sig .tc := ⟨.hbm, 387, rfl⟩
abbrev main_call23_v7 : Ref sig .tc := ⟨.hbm, 388, rfl⟩
abbrev main_call23_v8 : Ref sig .tc := ⟨.hbm, 389, rfl⟩
abbrev main_call23_v9 : Ref sig .tc := ⟨.hbm, 390, rfl⟩
abbrev main_call23_v10 : Ref sig .tc := ⟨.hbm, 391, rfl⟩
abbrev main_call23_v11 : Ref sig .tc := ⟨.hbm, 392, rfl⟩
abbrev main_call23_c_3 : Ref sig .tc := ⟨.hbm, 393, rfl⟩
abbrev main_call23_v12 : Ref sig .tc := ⟨.hbm, 394, rfl⟩
abbrev main_call23_v13 : Ref sig .tc := ⟨.hbm, 395, rfl⟩
abbrev main_call23_cst : Ref sig .tc := ⟨.hbm, 396, rfl⟩
abbrev main_call23_v14 : Ref sig .tc := ⟨.hbm, 397, rfl⟩
abbrev main_v137 : Ref sig .tc := ⟨.hbm, 398, rfl⟩
abbrev main_v138 : Ref sig .tc := ⟨.hbm, 399, rfl⟩
abbrev main_c_30 : Ref sig .tc := ⟨.hbm, 400, rfl⟩
abbrev main_v139 : Ref sig .tc := ⟨.hbm, 401, rfl⟩
abbrev main_v140 : Ref sig .tc := ⟨.hbm, 402, rfl⟩
abbrev main_v141 : Ref sig .tc := ⟨.hbm, 403, rfl⟩
abbrev main_v142 : Ref sig .tc := ⟨.hbm, 404, rfl⟩
abbrev main_v143 : Ref sig .tc := ⟨.hbm, 405, rfl⟩
abbrev main_v144 : Ref sig .tc := ⟨.hbm, 406, rfl⟩
abbrev main_v145 : Ref sig .tc := ⟨.hbm, 407, rfl⟩
abbrev main_v146 : Ref sig .tc := ⟨.hbm, 408, rfl⟩
abbrev main_c_31 : Ref sig .tc := ⟨.hbm, 409, rfl⟩
abbrev main_v147 : Ref sig .tc := ⟨.hbm, 410, rfl⟩
abbrev main_v148 : Ref sig .tc := ⟨.hbm, 411, rfl⟩
abbrev main_v149 : Ref sig .tc := ⟨.hbm, 412, rfl⟩
abbrev main_v150 : Ref sig .tc := ⟨.hbm, 413, rfl⟩
abbrev main_v151 : Ref sig .tc := ⟨.hbm, 414, rfl⟩
abbrev main_v152 : Ref sig .tc := ⟨.hbm, 415, rfl⟩
abbrev main_v153 : Ref sig .tc := ⟨.hbm, 416, rfl⟩
abbrev main_v154 : Ref sig .tc := ⟨.hbm, 417, rfl⟩
abbrev main_v155 : Ref sig .tc := ⟨.hbm, 418, rfl⟩
abbrev main_c_32 : Ref sig .tc := ⟨.hbm, 419, rfl⟩
abbrev main_c_33 : Ref sig .tc := ⟨.hbm, 420, rfl⟩
abbrev main_call25_v0 : Ref sig .tc := ⟨.hbm, 421, rfl⟩
abbrev main_call25_v1 : Ref sig .tc := ⟨.hbm, 422, rfl⟩
abbrev main_call25_v2 : Ref sig .tc := ⟨.hbm, 423, rfl⟩
abbrev main_call25_v3 : Ref sig .tc := ⟨.hbm, 424, rfl⟩
abbrev main_call25_v4 : Ref sig .tc := ⟨.hbm, 425, rfl⟩
abbrev main_v156 : Ref sig .tc := ⟨.hbm, 426, rfl⟩
abbrev main_call26_c : Ref sig .tc := ⟨.hbm, 427, rfl⟩
abbrev main_call26_v0 : Ref sig .tc := ⟨.hbm, 428, rfl⟩
abbrev main_call26_v1 : Ref sig .tc := ⟨.hbm, 429, rfl⟩
abbrev main_call26_c_0 : Ref sig .tc := ⟨.hbm, 430, rfl⟩
abbrev main_call26_v2 : Ref sig .tc := ⟨.hbm, 431, rfl⟩
abbrev main_call26_v3 : Ref sig .tc := ⟨.hbm, 432, rfl⟩
abbrev main_call26_v4 : Ref sig .tc := ⟨.hbm, 433, rfl⟩
abbrev main_call26_v5 : Ref sig .tc := ⟨.hbm, 434, rfl⟩
abbrev main_call26_c_1 : Ref sig .tc := ⟨.hbm, 435, rfl⟩
abbrev main_call26_c_2 : Ref sig .tc := ⟨.hbm, 436, rfl⟩
abbrev main_call26_v6 : Ref sig .tc := ⟨.hbm, 437, rfl⟩
abbrev main_call26_v7 : Ref sig .tc := ⟨.hbm, 438, rfl⟩
abbrev main_call26_v8 : Ref sig .tc := ⟨.hbm, 439, rfl⟩
abbrev main_call26_v9 : Ref sig .tc := ⟨.hbm, 440, rfl⟩
abbrev main_call26_v10 : Ref sig .tc := ⟨.hbm, 441, rfl⟩
abbrev main_call26_v11 : Ref sig .tc := ⟨.hbm, 442, rfl⟩
abbrev main_call26_c_3 : Ref sig .tc := ⟨.hbm, 443, rfl⟩
abbrev main_call26_v12 : Ref sig .tc := ⟨.hbm, 444, rfl⟩
abbrev main_call26_v13 : Ref sig .tc := ⟨.hbm, 445, rfl⟩
abbrev main_call26_c_4 : Ref sig .tc := ⟨.hbm, 446, rfl⟩
abbrev main_call26_v14 : Ref sig .tc := ⟨.hbm, 447, rfl⟩
abbrev main_v157 : Ref sig .tc := ⟨.hbm, 448, rfl⟩
abbrev main_v158 : Ref sig .tc := ⟨.hbm, 449, rfl⟩
abbrev main_cst_34 : Ref sig .tc := ⟨.hbm, 450, rfl⟩
abbrev main_call27_v0 : Ref sig .tc := ⟨.hbm, 451, rfl⟩
abbrev main_call27_v1 : Ref sig .tc := ⟨.hbm, 452, rfl⟩
abbrev main_v159 : Ref sig .tc := ⟨.hbm, 453, rfl⟩
abbrev main_call28_c : Ref sig .tc := ⟨.hbm, 454, rfl⟩
abbrev main_call28_v0 : Ref sig .tc := ⟨.hbm, 455, rfl⟩
abbrev main_call28_v1 : Ref sig .tc := ⟨.hbm, 456, rfl⟩
abbrev main_call28_c_0 : Ref sig .tc := ⟨.hbm, 457, rfl⟩
abbrev main_call28_v2 : Ref sig .tc := ⟨.hbm, 458, rfl⟩
abbrev main_call28_v3 : Ref sig .tc := ⟨.hbm, 459, rfl⟩
abbrev main_call28_v4 : Ref sig .tc := ⟨.hbm, 460, rfl⟩
abbrev main_call28_v5 : Ref sig .tc := ⟨.hbm, 461, rfl⟩
abbrev main_call28_c_1 : Ref sig .tc := ⟨.hbm, 462, rfl⟩
abbrev main_call28_c_2 : Ref sig .tc := ⟨.hbm, 463, rfl⟩
abbrev main_call28_v6 : Ref sig .tc := ⟨.hbm, 464, rfl⟩
abbrev main_call28_v7 : Ref sig .tc := ⟨.hbm, 465, rfl⟩
abbrev main_call28_v8 : Ref sig .tc := ⟨.hbm, 466, rfl⟩
abbrev main_call28_v9 : Ref sig .tc := ⟨.hbm, 467, rfl⟩
abbrev main_call28_v10 : Ref sig .tc := ⟨.hbm, 468, rfl⟩
abbrev main_call28_v11 : Ref sig .tc := ⟨.hbm, 469, rfl⟩
abbrev main_call28_c_3 : Ref sig .tc := ⟨.hbm, 470, rfl⟩
abbrev main_call28_v12 : Ref sig .tc := ⟨.hbm, 471, rfl⟩
abbrev main_call28_v13 : Ref sig .tc := ⟨.hbm, 472, rfl⟩
abbrev main_call28_c_4 : Ref sig .tc := ⟨.hbm, 473, rfl⟩
abbrev main_call28_v14 : Ref sig .tc := ⟨.hbm, 474, rfl⟩
abbrev main_v160 : Ref sig .tc := ⟨.hbm, 475, rfl⟩
abbrev main_cst_35 : Ref sig .tc := ⟨.hbm, 476, rfl⟩
abbrev main_v161 : Ref sig .tc := ⟨.hbm, 477, rfl⟩
abbrev main_v162 : Ref sig .tc := ⟨.hbm, 478, rfl⟩
abbrev main_c_36 : Ref sig .tc := ⟨.hbm, 479, rfl⟩
abbrev main_call29_v0 : Ref sig .tc := ⟨.hbm, 480, rfl⟩
abbrev main_call29_v1 : Ref sig .tc := ⟨.hbm, 481, rfl⟩
abbrev main_v163 : Ref sig .tc := ⟨.hbm, 482, rfl⟩
abbrev main_cst_37 : Ref sig .tc := ⟨.hbm, 483, rfl⟩
abbrev main_v164 : Ref sig .tc := ⟨.hbm, 484, rfl⟩
abbrev main_v165 : Ref sig .tc := ⟨.hbm, 485, rfl⟩
abbrev main_v166 : Ref sig .tc := ⟨.hbm, 486, rfl⟩
abbrev main_c_38 : Ref sig .tc := ⟨.hbm, 487, rfl⟩
abbrev main_v167 : Ref sig .tc := ⟨.hbm, 488, rfl⟩
abbrev main_v168 : Ref sig .tc := ⟨.hbm, 489, rfl⟩
abbrev main_v169 : Ref sig .tc := ⟨.hbm, 490, rfl⟩
abbrev main_c_39 : Ref sig .tc := ⟨.hbm, 491, rfl⟩
abbrev main_v170 : Ref sig .tc := ⟨.hbm, 492, rfl⟩
abbrev main_v171 : Ref sig .tc := ⟨.hbm, 493, rfl⟩
abbrev main_v172 : Ref sig .tc := ⟨.hbm, 494, rfl⟩

abbrev nD : Nat := 1
abbrev τ : Topo := Topo.v7x

variable {F : FTy → Type} [FloatOps F]

class Facts₀ : Prop where
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bcast_S10x1024_S1x10x1024_1_2 : S10x1024.BroadcastsInDim S1x10x1024 (![1, 2] : Fin 2 → Fin S1x10x1024.rank)
  bcast_S1x10x1024_S16x10x1024_0_1_2 : S1x10x1024.BroadcastsInDim S16x10x1024 (![0, 1, 2] : Fin 3 → Fin S16x10x1024.rank)
  concatenates_S16x10x1024_S16x2048x1024_S16x2058x1024_d1 : Shape.Concatenates [S16x10x1024, S16x2048x1024] S16x2058x1024 1
  bcast_S_S16x10 : S_.BroadcastsInDim S16x10 (![] : Fin 0 → Fin S16x10.rank)
  concatenates_S16x10_S16x2048_S16x2058_d1 : Shape.Concatenates [S16x10, S16x2048] S16x2058 1
  bcast_S_S16x2058 : S_.BroadcastsInDim S16x2058 (![] : Fin 0 → Fin S16x2058.rank)
  reducesTo_S16x2058_S16_d1 : S16x2058.ReducesTo [1] S16
  h_S_ : 0 < S_.numel
  bcast_S_S16 : S_.BroadcastsInDim S16 (![] : Fin 0 → Fin S16.rank)
  bcast_S_S16x64 : S_.BroadcastsInDim S16x64 (![] : Fin 0 → Fin S16x64.rank)
  bcast_S16x64_S16x64x1_0_1 : S16x64.BroadcastsInDim S16x64x1 (![0, 1] : Fin 2 → Fin S16x64x1.rank)
  bcast_S2122_S1x2122_1 : S2122.BroadcastsInDim S1x2122 (![1] : Fin 1 → Fin S1x2122.rank)
  bcast_S16_S16x1_0 : S16.BroadcastsInDim S16x1 (![0] : Fin 1 → Fin S16x1.rank)
  bcast_S1x2122_S16x2122_0_1 : S1x2122.BroadcastsInDim S16x2122 (![0, 1] : Fin 2 → Fin S16x2122.rank)
  bcast_S16x1_S16x2122_0_1 : S16x1.BroadcastsInDim S16x2122 (![0, 1] : Fin 2 → Fin S16x2122.rank)
  bcast_S_S16x1 : S_.BroadcastsInDim S16x1 (![] : Fin 0 → Fin S16x1.rank)
  bcast_S_S1x2122 : S_.BroadcastsInDim S1x2122 (![] : Fin 0 → Fin S1x2122.rank)
  bcast_S_S16x2122 : S_.BroadcastsInDim S16x2122 (![] : Fin 0 → Fin S16x2122.rank)
  bcast_S16x2122_S16x2122x1_0_1 : S16x2122.BroadcastsInDim S16x2122x1 (![0, 1] : Fin 2 → Fin S16x2122x1.rank)
  bcast_S_S16x2122x1 : S_.BroadcastsInDim S16x2122x1 (![] : Fin 0 → Fin S16x2122x1.rank)
  bcast_S1_S1x1x1_2 : S1.BroadcastsInDim S1x1x1 (![2] : Fin 1 → Fin S1x1x1.rank)
  bcast_S1x1x1_S16x2122x1_0_1_2 : S1x1x1.BroadcastsInDim S16x2122x1 (![0, 1, 2] : Fin 3 → Fin S16x2122x1.rank)
  reducesTo_S16x2122x1_S16x2122_d2 : S16x2122x1.ReducesTo [2] S16x2122
  bcast_S16x2122_S16x2122x1024_0_1 : S16x2122.BroadcastsInDim S16x2122x1024 (![0, 1] : Fin 2 → Fin S16x2122x1024.rank)
  bcast_S_S16x2122x1024 : S_.BroadcastsInDim S16x2122x1024 (![] : Fin 0 → Fin S16x2122x1024.rank)
  bcast_S16x2122x1_S16x2122x1024_0_1_2 : S16x2122x1.BroadcastsInDim S16x2122x1024 (![0, 1, 2] : Fin 3 → Fin S16x2122x1024.rank)
  shapeCasts_S16x2122_S16x2122x1 : S16x2122.ShapeCasts S16x2122x1
  bcast_S5x1024_S1x5x1024_1_2 : S5x1024.BroadcastsInDim S1x5x1024 (![1, 2] : Fin 2 → Fin S1x5x1024.rank)
  bcast_S1x5x1024_S16x5x1024_0_1_2 : S1x5x1024.BroadcastsInDim S16x5x1024 (![0, 1, 2] : Fin 3 → Fin S16x5x1024.rank)
  bcast_S2127_S1x2127_1 : S2127.BroadcastsInDim S1x2127 (![1] : Fin 1 → Fin S1x2127.rank)
  bcast_S1x2127_S16x2127_0_1 : S1x2127.BroadcastsInDim S16x2127 (![0, 1] : Fin 2 → Fin S16x2127.rank)
  bcast_S16x1_S16x2127_0_1 : S16x1.BroadcastsInDim S16x2127 (![0, 1] : Fin 2 → Fin S16x2127.rank)
  bcast_S_S1x2127 : S_.BroadcastsInDim S1x2127 (![] : Fin 0 → Fin S1x2127.rank)
  bcast_S_S16x2127 : S_.BroadcastsInDim S16x2127 (![] : Fin 0 → Fin S16x2127.rank)
  bcast_S16x2127_S16x2127x1_0_1 : S16x2127.BroadcastsInDim S16x2127x1 (![0, 1] : Fin 2 → Fin S16x2127x1.rank)
  bcast_S_S16x2127x1 : S_.BroadcastsInDim S16x2127x1 (![] : Fin 0 → Fin S16x2127x1.rank)
  bcast_S1x1x1_S16x2127x1_0_1_2 : S1x1x1.BroadcastsInDim S16x2127x1 (![0, 1, 2] : Fin 3 → Fin S16x2127x1.rank)
  reducesTo_S16x2127x1_S16x2127_d2 : S16x2127x1.ReducesTo [2] S16x2127
  bcast_S16x2127_S16x2127x1024_0_1 : S16x2127.BroadcastsInDim S16x2127x1024 (![0, 1] : Fin 2 → Fin S16x2127x1024.rank)
  bcast_S_S16x2127x1024 : S_.BroadcastsInDim S16x2127x1024 (![] : Fin 0 → Fin S16x2127x1024.rank)
  bcast_S16x2127x1_S16x2127x1024_0_1_2 : S16x2127x1.BroadcastsInDim S16x2127x1024 (![0, 1, 2] : Fin 3 → Fin S16x2127x1024.rank)
  bcast_S_S16x5 : S_.BroadcastsInDim S16x5 (![] : Fin 0 → Fin S16x5.rank)
  shapeCasts_S16x2127_S16x2127x1 : S16x2127.ShapeCasts S16x2127x1
  slices_S16x2127_S16x2126_0_0 : S16x2127.Slices ![0, 0] S16x2126
  concatenates_S16x1_S16x2126_S16x2127_d1 : Shape.Concatenates [S16x1, S16x2126] S16x2127 1
  slices_S16x64_S16x63_0_1 : S16x64.Slices ![0, 1] S16x63
  concatenates_S16x63_S16x1_S16x64_d1 : Shape.Concatenates [S16x63, S16x1] S16x64 1
  slices_S16x2127_S16x2126_0_1 : S16x2127.Slices ![0, 1] S16x2126
  concatenates_S16x2126_S16x1_S16x2127_d1 : Shape.Concatenates [S16x2126, S16x1] S16x2127 1
  gather_S50257x1024_S16x2048x1_S16x2048x1024_2_0_n_n_0_2_11024_wf : GatherDims.WF S50257x1024 S16x2048x1 S16x2048x1024 [2] [0] [] [0] [] 2 ![1, 1024]
  gather_S50257x1024_S16x64x1_S16x64x1024_2_0_n_n_0_2_11024_wf : GatherDims.WF S50257x1024 S16x64x1 S16x64x1024 [2] [0] [] [0] [] 2 ![1, 1024]
  gather_S16x2058x1024_S16x2122x1_S16x2122x1024_2_1_0_0_1_2_111024_wf : GatherDims.WF S16x2058x1024 S16x2122x1 S16x2122x1024 [2] [1] [0] [1] [0] 2 ![1, 1, 1024]
  gather_S16x64x1024_S16x2122x1_S16x2122x1024_2_1_0_0_1_2_111024_wf : GatherDims.WF S16x64x1024 S16x2122x1 S16x2122x1024 [2] [1] [0] [1] [0] 2 ![1, 1, 1024]
  gather_S16x2058_S16x2122x1_S16x2122_n_1_0_0_1_2_11_wf : GatherDims.WF S16x2058 S16x2122x1 S16x2122 [] [1] [0] [1] [0] 2 ![1, 1]
  gather_S16x64_S16x2122x1_S16x2122_n_1_0_0_1_2_11_wf : GatherDims.WF S16x64 S16x2122x1 S16x2122 [] [1] [0] [1] [0] 2 ![1, 1]
  gather_S16x2122x1024_S16x2127x1_S16x2127x1024_2_1_0_0_1_2_111024_wf : GatherDims.WF S16x2122x1024 S16x2127x1 S16x2127x1024 [2] [1] [0] [1] [0] 2 ![1, 1, 1024]
  gather_S16x5x1024_S16x2127x1_S16x2127x1024_2_1_0_0_1_2_111024_wf : GatherDims.WF S16x5x1024 S16x2127x1 S16x2127x1024 [2] [1] [0] [1] [0] 2 ![1, 1, 1024]
  gather_S16x2122_S16x2127x1_S16x2127_n_1_0_0_1_2_11_wf : GatherDims.WF S16x2122 S16x2127x1 S16x2127 [] [1] [0] [1] [0] 2 ![1, 1]
  gather_S16x5_S16x2127x1_S16x2127_n_1_0_0_1_2_11_wf : GatherDims.WF S16x5 S16x2127x1 S16x2127 [] [1] [0] [1] [0] 2 ![1, 1]
  gather_S16x64_S16x2127x1_S16x2127_n_1_0_0_1_2_11_wf : GatherDims.WF S16x64 S16x2127x1 S16x2127 [] [1] [0] [1] [0] 2 ![1, 1]

variable [Facts₀]

def gather_S50257x1024_S16x2048x1_S16x2048x1024_2_0_n_n_0_2_11024 : GatherDims S50257x1024 S16x2048x1 S16x2048x1024 where
  offsetDims := [2]
  collapsedSliceDims := [0]
  operandBatchingDims := []
  startIndicesBatchingDims := []
  startIndexMap := [0]
  indexVectorDim := 2
  sliceSizes := ![1, 1024]
  wf := gather_S50257x1024_S16x2048x1_S16x2048x1024_2_0_n_n_0_2_11024_wf
def reducer_argmax_i32_i32 : BitVec 32 × BitVec 32 → BitVec 32 × BitVec 32 → BitVec 32 × BitVec 32 :=
  fun a b =>
    let v2 := IntOp.cmpi .sgt a.1 b.1
    let v3 := IntOp.cmpi .ne a.1 a.1
    let v4 := IntOp.ori v2 v3
    let v5 := IntOp.cmpi .eq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)
def gather_S50257x1024_S16x64x1_S16x64x1024_2_0_n_n_0_2_11024 : GatherDims S50257x1024 S16x64x1 S16x64x1024 where
  offsetDims := [2]
  collapsedSliceDims := [0]
  operandBatchingDims := []
  startIndicesBatchingDims := []
  startIndexMap := [0]
  indexVectorDim := 2
  sliceSizes := ![1, 1024]
  wf := gather_S50257x1024_S16x64x1_S16x64x1024_2_0_n_n_0_2_11024_wf
def gather_S16x2058x1024_S16x2122x1_S16x2122x1024_2_1_0_0_1_2_111024 : GatherDims S16x2058x1024 S16x2122x1 S16x2122x1024 where
  offsetDims := [2]
  collapsedSliceDims := [1]
  operandBatchingDims := [0]
  startIndicesBatchingDims := [0]
  startIndexMap := [1]
  indexVectorDim := 2
  sliceSizes := ![1, 1, 1024]
  wf := gather_S16x2058x1024_S16x2122x1_S16x2122x1024_2_1_0_0_1_2_111024_wf
def gather_S16x64x1024_S16x2122x1_S16x2122x1024_2_1_0_0_1_2_111024 : GatherDims S16x64x1024 S16x2122x1 S16x2122x1024 where
  offsetDims := [2]
  collapsedSliceDims := [1]
  operandBatchingDims := [0]
  startIndicesBatchingDims := [0]
  startIndexMap := [1]
  indexVectorDim := 2
  sliceSizes := ![1, 1, 1024]
  wf := gather_S16x64x1024_S16x2122x1_S16x2122x1024_2_1_0_0_1_2_111024_wf
def gather_S16x2058_S16x2122x1_S16x2122_n_1_0_0_1_2_11 : GatherDims S16x2058 S16x2122x1 S16x2122 where
  offsetDims := []
  collapsedSliceDims := [1]
  operandBatchingDims := [0]
  startIndicesBatchingDims := [0]
  startIndexMap := [1]
  indexVectorDim := 2
  sliceSizes := ![1, 1]
  wf := gather_S16x2058_S16x2122x1_S16x2122_n_1_0_0_1_2_11_wf
def gather_S16x64_S16x2122x1_S16x2122_n_1_0_0_1_2_11 : GatherDims S16x64 S16x2122x1 S16x2122 where
  offsetDims := []
  collapsedSliceDims := [1]
  operandBatchingDims := [0]
  startIndicesBatchingDims := [0]
  startIndexMap := [1]
  indexVectorDim := 2
  sliceSizes := ![1, 1]
  wf := gather_S16x64_S16x2122x1_S16x2122_n_1_0_0_1_2_11_wf
def gather_S16x2122x1024_S16x2127x1_S16x2127x1024_2_1_0_0_1_2_111024 : GatherDims S16x2122x1024 S16x2127x1 S16x2127x1024 where
  offsetDims := [2]
  collapsedSliceDims := [1]
  operandBatchingDims := [0]
  startIndicesBatchingDims := [0]
  startIndexMap := [1]
  indexVectorDim := 2
  sliceSizes := ![1, 1, 1024]
  wf := gather_S16x2122x1024_S16x2127x1_S16x2127x1024_2_1_0_0_1_2_111024_wf
def gather_S16x5x1024_S16x2127x1_S16x2127x1024_2_1_0_0_1_2_111024 : GatherDims S16x5x1024 S16x2127x1 S16x2127x1024 where
  offsetDims := [2]
  collapsedSliceDims := [1]
  operandBatchingDims := [0]
  startIndicesBatchingDims := [0]
  startIndexMap := [1]
  indexVectorDim := 2
  sliceSizes := ![1, 1, 1024]
  wf := gather_S16x5x1024_S16x2127x1_S16x2127x1024_2_1_0_0_1_2_111024_wf
def gather_S16x2122_S16x2127x1_S16x2127_n_1_0_0_1_2_11 : GatherDims S16x2122 S16x2127x1 S16x2127 where
  offsetDims := []
  collapsedSliceDims := [1]
  operandBatchingDims := [0]
  startIndicesBatchingDims := [0]
  startIndexMap := [1]
  indexVectorDim := 2
  sliceSizes := ![1, 1]
  wf := gather_S16x2122_S16x2127x1_S16x2127_n_1_0_0_1_2_11_wf
def gather_S16x5_S16x2127x1_S16x2127_n_1_0_0_1_2_11 : GatherDims S16x5 S16x2127x1 S16x2127 where
  offsetDims := []
  collapsedSliceDims := [1]
  operandBatchingDims := [0]
  startIndicesBatchingDims := [0]
  startIndexMap := [1]
  indexVectorDim := 2
  sliceSizes := ![1, 1]
  wf := gather_S16x5_S16x2127x1_S16x2127_n_1_0_0_1_2_11_wf
def gather_S16x64_S16x2127x1_S16x2127_n_1_0_0_1_2_11 : GatherDims S16x64 S16x2127x1 S16x2127 where
  offsetDims := []
  collapsedSliceDims := [1]
  operandBatchingDims := [0]
  startIndicesBatchingDims := [0]
  startIndexMap := [1]
  indexVectorDim := 2
  sliceSizes := ![1, 1]
  wf := gather_S16x64_S16x2127x1_S16x2127_n_1_0_0_1_2_11_wf

class Facts : Prop extends Facts₀ where

variable [Facts]
-- ==== Proof.IdsInRange.lean ====
import proofs.«403361_j42786464202989_2_alg».proof.Pre_finite_inputs
import Idealize.ShloMosaic.Lib.ReduceAll

noncomputable section

namespace Cert.IdsInRange

open Idealize.ShloMosaic Cert.Pre_finite_inputs

instance : Subsingleton S_.Idx := ⟨fun a b => funext fun d => d.elim0⟩

theorem toNat_lt_of_signed (w : BitVec 32) (h0 : IntOp.cmpi .sge w 0#32 = 1#1)
    (h1 : IntOp.cmpi .slt w 50257#32 = 1#1) : w.toNat < 50257 := by
  rw [IntOp.cmpi_sge] at h0
  rw [IntOp.cmpi_slt] at h1
  have e0 : (0#32 : BitVec 32).toInt = 0 := by decide
  have e1 : (50257#32 : BitVec 32).toInt = 50257 := by decide
  rw [e0] at h0
  rw [e1] at h1
  have hw := w.isLt
  rw [BitVec.toInt_eq_toNat_cond] at h0 h1
  split at h1 <;> omega

theorem lt_of_all {s : Shape} {axes : List (Fin s.rank)} (hb : S_.BroadcastsInDim s (![] : Fin 0 → Fin s.rank))
    (hr : s.ReducesTo axes S_) (h0 : 0 < S_.numel) (x : IVec s 32) (j : S_.Idx)
    (e : Host.reduce IntOp.andi
          (andi (cmpi .sge x (broadcastInDim s ![] hb (constantI S_ 32 0#32)))
                (cmpi .slt x (broadcastInDim s ![] hb (constantI S_ 32 50257#32))))
          (constantI S_ 1 1#1) hr h0 j = 1#1) (i : s.Idx) : (x i).toNat < 50257 := by
  have hi := Host.reduce_andi_all _ _ hr h0 _ e i
  obtain ⟨ha, hb'⟩ := IntOp.andi_eq_one.1 hi
  exact toNat_lt_of_signed (x i) ha hb'

theorem ids_lt {F : FTy → Type} [FloatOps F] [Cert.Pre_finite_inputs.Facts]
    (a0 a1 : IVec S16x2048 32) (a2 a3 : IVec S16x64 32) (a4 : FVec F S50257x1024 .f32) (a5 : FVec F S10x1024 .f32) (a6 : FVec F S5x1024 .f32)
    (h : Cert.Pre_finite_inputs.fn (F := F) a0 a1 a2 a3 a4 a5 a6 = fun _ => 1#1) :
    (∀ i, (a0 i).toNat < 50257) ∧ (∀ i, (a2 i).toNat < 50257) := by
  have e := congrFun h (fun d => d.elim0)
  dsimp only [Cert.Pre_finite_inputs.fn, Cert.Pre_finite_inputs.fn_part1] at e
  obtain ⟨e1, e2⟩ := IntOp.andi_eq_one.1 e
  obtain ⟨-, e3⟩ := IntOp.andi_eq_one.1 e1
  exact ⟨lt_of_all _ _ _ a0 _ e3, lt_of_all _ _ _ a2 _ e2⟩

end Cert.IdsInRange

end
-- ==== Proof.KTabK.lean ====
/-
  The two prefetched tables and the check the kernel body assumes of each word it loads from them.
  Table 0 is the [16, 2048] id array read in row-major order as 32768 words; table 1 is the [16, 64] id array read as
  1024 words. So every word of a table is a word of the id array it reshapes, and a bound on the ids bounds the table.
  A word below 50257 names a [1, 1024] row inside the [50257, 1024] embedding table, which is the body's check.
-/
import proofs.«403361_j42786464202989_2_alg».proof.Proof.KernelRegions

set_option maxRecDepth 2468

noncomputable section

namespace Cert.Kernel.KTab

open Cert.Kernel Cert.Kernel.Gen

open Idealize.ShloMosaic Idealize.ShloMosaic.TcCoe
open Idealize.SL Idealize.SL.Sem

variable {F : FTy → Type} [FloatOps F]

/-! ## The row checks -/

/-- A word below 50257 names a row of the table: row w, columns 0 to 1023, lies inside [50257, 1024]. -/
theorem chk0 (w : BitVec 32) (h : w.toNat < 50257) : k0_chk1 w := by
  intro a
  fin_cases a
  · show w.toNat + 1 ≤ 50257
    omega
  · show 0 + 1024 ≤ 1024
    omega

/-- The same for the second kernel's check. -/
theorem chk1 (w : BitVec 32) (h : w.toNat < 50257) : k1_chk1 w := by
  intro a
  fin_cases a
  · show w.toNat + 1 ≤ 50257
    omega
  · show 0 + 1024 ≤ 1024
    omega

/-! ## Table 0: the reshape of the first id array -/

variable (m : (ℓ : Loc nD τ sig) → Buf (Elt F) ℓ) (outs : GenP.Outs (F := F))

/-- After the first host stretch table 0 holds the first id array in row-major order. -/
theorem tab0_eq (c : Dev nD) :
    (GenP.V1 m c main_v0 : IVec S32768 32)
      = shapeCast S32768 (m ((c : Thread nD τ).loc main_arg0) : IVec S16x2048 32) shapeCasts_S16x2048_S32768 := by
  dsimp only [GenP.V1, GenP.V0, hostOps0]
  after_results
  rfl

/-- Every word of table 0 is a word of the first id array, so a bound on the ids bounds the table. -/
theorem tab0_lt (c : Dev nD)
    (h : ∀ i, ((m ((c : Thread nD τ).loc main_arg0) : IVec S16x2048 32) i).toNat < 50257) :
    ∀ x, ((GenP.V1 m c main_v0 : IVec S32768 32) x).toNat < 50257 := by
  intro x
  rw [tab0_eq]
  exact h _

/-! ## Table 1: the reshape of the second id array -/

/-- The second id array is as launched when the third host stretch starts: the first stretch writes table 0 only
    and the first region may change its own output only. -/
theorem arg2_eq (c : Dev nD) : GenP.V2 m outs c main_arg2 = m ((c : Thread nD τ).loc main_arg2) :=
  (GenP.V2_of m outs c main_arg2 (by decide)).trans ((GenP.V1_of m c main_arg2 (by decide)).trans rfl)

/-- After the second host stretch table 1 holds the second id array in row-major order. -/
theorem tab1_eq (c : Dev nD) :
    (GenP.V3 m outs c main_v4 : IVec S1024 32)
      = shapeCast S1024 (m ((c : Thread nD τ).loc main_arg2) : IVec S16x64 32) shapeCasts_S16x64_S1024 := by
  have e : (GenP.V3 m outs c main_v4 : IVec S1024 32)
      = shapeCast S1024 (GenP.V2 m outs c main_arg2 : IVec S16x64 32) shapeCasts_S16x64_S1024 := by
    dsimp only [GenP.V3, hostOps1]
    after_results
    rfl
  rw [e, arg2_eq]

/-- Every word of table 1 is a word of the second id array, so a bound on the ids bounds the table. -/
theorem tab1_lt (c : Dev nD)
    (h : ∀ i, ((m ((c : Thread nD τ).loc main_arg2) : IVec S16x64 32) i).toNat < 50257) :
    ∀ x, ((GenP.V3 m outs c main_v4 : IVec S1024 32) x).toNat < 50257 := by
  intro x
  rw [tab1_eq]
  exact h _

end Cert.Kernel.KTab

end
-- ==== Proof.Rows.lean ====
import Idealize.ShloMosaic.Lib.ValueIdx

namespace Cert.Rows

open Idealize.ShloMosaic Idealize.ShloMosaic.ValueIdx

def cell {α : Type} (tbl : (⟨2, ![50257, 1024]⟩ : Shape).Idx → α) (n : Nat) (d : Fin 1024) : α :=
  tbl (ix2 (⟨n % 50257, Nat.mod_lt _ (by decide)⟩ : Fin 50257) d)

def rowsIn {α : Type} (tbl : (⟨2, ![50257, 1024]⟩ : Shape).Idx → α) (ids : IVec ⟨2, ![16, 2048]⟩ 32) :
    (⟨3, ![16, 2048, 1024]⟩ : Shape).Idx → α :=
  fun j => cell tbl (ids (ix2 (j 0) (j 1))).toNat (j 2)

def rowsTg {α : Type} (tbl : (⟨2, ![50257, 1024]⟩ : Shape).Idx → α) (ids : IVec ⟨2, ![16, 64]⟩ 32) :
    (⟨3, ![16, 64, 1024]⟩ : Shape).Idx → α :=
  fun j => cell tbl (ids (ix2 (j 0) (j 1))).toNat (j 2)

theorem cell_of_lt {α : Type} (tbl : (⟨2, ![50257, 1024]⟩ : Shape).Idx → α) (n : Nat) (h : n < 50257) (d : Fin 1024) :
    cell tbl n d = tbl (ix2 (⟨n, h⟩ : Fin 50257) d) := by
  unfold cell
  congr 2
  exact Fin.ext (Nat.mod_eq_of_lt h)

end Cert.Rows
-- ==== Proof.KBlk.lean ====
/-
  What the body's one transfer leaves in the output window's staging block.
  The transfer copies a [1, 1024] slice of the [50257, 1024] table, row w, into the [1, 1, 1024] staging block seen
  as [1, 1024] (its unit axis dropped). Reading the whole block back at (0, 0, d) therefore gives entry d of row w.
-/
import proofs.«403361_j42786464202989_2_alg».proof.Proof.Gen.Kernel.Launch
import proofs.«403361_j42786464202989_2_alg».proof.Proof.Gen.Kernel.Skeleton
import proofs.«403361_j42786464202989_2_alg».proof.Proof.Rows
import Idealize.ShloMosaic.Lib.Pipeline.FrameBody
import Idealize.ShloMosaic.Lib.ValueIdx

set_option maxRecDepth 2468

noncomputable section

namespace Cert.Kernel.KBlk

open Cert.Kernel Cert.Kernel.Gen

open Idealize.ShloMosaic Idealize.ShloMosaic.TcCoe Idealize.ShloMosaic.ValueIdx
open Idealize.SL Idealize.SL.Sem

variable {F : FTy → Type} [FloatOps F]

/-- Row n of the table laid out as a [1, 1, 1024] block: entry (·, ·, d) is entry d of row n. -/
def rowBlk (tbl : FVec F S50257x1024 .f32) (n : Nat) : Vec F S1x1x1024 .f32 :=
  fun y => Cert.Rows.cell tbl n (y 2 : Fin 1024)

/-- The [1, 1024] index (0, d) has the row-major position of the [1, 1, 1024] index (0, 0, d). -/
theorem unsqueeze (h : S1x1024.numel = S1x1x1024.numel) (d : Fin 1024) :
    Shape.reshapeEquiv h (ix2 (0 : Fin 1) d : S1x1024.Idx) = (ix3 (0 : Fin 1) (0 : Fin 1) d : S1x1x1024.Idx) :=
  Shape.reshapeEquiv_eq_of_rowMajor h (by
    rw [Shape.rowMajor_val_three, Shape.rowMajor_val_two]
    show (0 * 1 + 0) * 1024 + d.val = 0 * 1024 + d.val
    omega)

/-- The block read back after the transfer from the table's slice at offsets (n, 0): row n of the table. -/
theorem written (c : Dev nD) (arg3 : Memref sig .tc .vmem S1x1x1024 .f32) (f1 : arg3.view.ty.Contents (Elt F))
    (n : Nat) (hn : n < 50257) (off : Fin 2 → Nat) (h0 : off 0 = n) (h1 : off 1 = 0)
    (inb : ∀ a, off a + S1x1024.size a ≤ S50257x1024.size a)
    (fh : Buf (Elt F) ((Memref.whole main_arg4 : Memref sig .tc .hbm S50257x1024 .f32).view.loc (c : Thread nD τ))) :
    arg3.view.read (Elt F) (View.write (Elt F) ((arg3.slice (Rect.unit (s := S1x1x1024) ![0, 0, 0] S1x1x1024.size inb_S1x1x1024_S1x1x1024_0_0_0) (fun _ => rfl)).squeeze S1x1024 squeezes_S1x1x1024_S1x1024).view f1
      (ReadAs.same.apply (View.read (Elt F) ((Memref.whole main_arg4 : Memref sig .tc .hbm S50257x1024 .f32).slice (Rect.unit (s := S50257x1024) off S1x1024.size inb) (fun _ => rfl)).view fh)) Finset.univ)
      = rowBlk fh n := by
  funext y
  obtain ⟨a, b, d, rfl⟩ : ∃ (a : Fin 1) (b : Fin 1) (d : Fin 1024), y = ix3 a b d := ⟨_, _, _, eq_ix3 y⟩
  obtain rfl : a = 0 := Subsingleton.elim _ _
  obtain rfl : b = 0 := Subsingleton.elim _ _
  -- the block's index (0, 0, d) is the squeezed view's index (0, d)
  have hy : arg3.view.emb (ix3 (0 : Fin 1) (0 : Fin 1) d : S1x1x1024.Idx)
      = ((arg3.slice (Rect.unit (s := S1x1x1024) ![0, 0, 0] S1x1x1024.size inb_S1x1x1024_S1x1x1024_0_0_0) (fun _ => rfl)).squeeze S1x1024 squeezes_S1x1x1024_S1x1024).view.emb
          (ix2 (0 : Fin 1) d : S1x1024.Idx) := by
    show arg3.view.emb _ = arg3.view.emb ((Rect.unit (s := S1x1x1024) ![0, 0, 0] S1x1x1024.size inb_S1x1x1024_S1x1x1024_0_0_0).emb
      (Shape.reshapeEquiv (Shape.Squeezes.numel_eq squeezes_S1x1x1024_S1x1024) (ix2 (0 : Fin 1) d : S1x1024.Idx)))
    refine congrArg _ (funext fun a => Fin.ext ?_)
    rw [unsqueeze]
    match a with
    | ⟨0, _⟩ => show 0 = 0 + 1 * 0; omega
    | ⟨1, _⟩ => show 0 = 0 + 1 * 0; omega
    | ⟨2, _⟩ => show d.val = 0 + 1 * d.val; omega
  rw [View.read_apply, hy, View.write_emb_of_mem _ _ (Finset.mem_univ _), cast_cast, cast_eq]
  show _ = Cert.Rows.cell fh n d
  rw [Cert.Rows.cell_of_lt _ _ hn]
  show _root_.cast _ (fh ((Rect.unit (s := S50257x1024) off S1x1024.size inb).emb (ix2 (0 : Fin 1) d : S1x1024.Idx))) = _
  rw [cast_eq]
  refine congrArg fh (funext fun a => Fin.ext ?_)
  match a with
  | ⟨0, _⟩ => show off 0 + 1 * 0 = n; omega
  | ⟨1, _⟩ => show off 1 + 1 * d.val = d.val; omega

/-- custom_call 0's body: the staging block after its transfer holds row w of the table. -/
theorem written0 (c : Dev nD) (arg3 : Memref sig .tc .vmem S1x1x1024 .f32) (harg3 : arg3.IsWhole) (f1 : arg3.view.ty.Contents (Elt F))
    (w : BitVec 32) (hw : k0_chk1 w)
    (fh : Buf (Elt F) ((Memref.whole main_arg4 : Memref sig .tc .hbm S50257x1024 .f32).view.loc (c : Thread nD τ))) :
    arg3.view.read (Elt F) (View.write (Elt F) ((arg3.slice (Rect.unit (s := S1x1x1024) ![0, 0, 0] S1x1x1024.size inb_S1x1x1024_S1x1x1024_0_0_0) (fun _ => rfl)).squeeze S1x1024 squeezes_S1x1x1024_S1x1024).view f1
      (ReadAs.same.apply (View.read (Elt F) ((Memref.whole main_arg4 : Memref sig .tc .hbm S50257x1024 .f32).slice (Rect.unit (s := S50257x1024) (k0_off2 w) S1x1024.size (k0_off2_inb w hw)) (fun _ => rfl)).view fh)) Finset.univ)
      = rowBlk fh w.toNat :=
  written c arg3 f1 w.toNat (by have := hw 0; change w.toNat + 1 ≤ 50257 at this; omega) (k0_off2 w) rfl rfl (k0_off2_inb w hw) fh

/-- custom_call 1's body: the same. -/
theorem written1 (c : Dev nD) (arg3 : Memref sig .tc .vmem S1x1x1024 .f32) (harg3 : arg3.IsWhole) (f1 : arg3.view.ty.Contents (Elt F))
    (w : BitVec 32) (hw : k1_chk1 w)
    (fh : Buf (Elt F) ((Memref.whole main_arg4 : Memref sig .tc .hbm S50257x1024 .f32).view.loc (c : Thread nD τ))) :
    arg3.view.read (Elt F) (View.write (Elt F) ((arg3.slice (Rect.unit (s := S1x1x1024) ![0, 0, 0] S1x1x1024.size inb_S1x1x1024_S1x1x1024_0_0_0) (fun _ => rfl)).squeeze S1x1024 squeezes_S1x1x1024_S1x1024).view f1
      (ReadAs.same.apply (View.read (Elt F) ((Memref.whole main_arg4 : Memref sig .tc .hbm S50257x1024 .f32).slice (Rect.unit (s := S50257x1024) (k1_off2 w) S1x1024.size (k1_off2_inb w hw)) (fun _ => rfl)).view fh)) Finset.univ)
      = rowBlk fh w.toNat :=
  written c arg3 f1 w.toNat (by have := hw 0; change w.toNat + 1 ≤ 50257 at this; omega) (k1_off2 w) rfl rfl (k1_off2_inb w hw) fh

end Cert.Kernel.KBlk

end
-- ==== Proof.KBody.lean ====
import proofs.«403361_j42786464202989_2_alg».proof.Proof.Gen.Kernel.Launch
import proofs.«403361_j42786464202989_2_alg».proof.Proof.Gen.Kernel.Skeleton
import Idealize.ShloMosaic.Lib.Pipeline.FrameBody
import Idealize.ShloMosaic.Lib.Ring
import Idealize.ShloMosaic.Lib.Tactic
import Idealize.ShloMosaic.Lib.ValueIdx
import proofs.«403361_j42786464202989_2_alg».proof.Proof.KTabK
import proofs.«403361_j42786464202989_2_alg».proof.Proof.KBlk

set_option maxRecDepth 16384

noncomputable section

namespace Cert.Kernel.KBody

open Cert.Kernel Cert.Kernel.Gen Cert.Kernel.KBlk
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! The kernel body at one grid point: it loads the point's word of the prefetched table, and copies the table row that
    word names into the output window's staging block by a transfer of its own, which it waits for before it returns. -/

/-! The kernel body at one grid point: it loads the point's word of the prefetched table and copies the table row that
    word names into the output window's staging block by a transfer of its own, which it waits for before it returns.
    Below, per kernel region: the body's triple, the word it loads as the table's entry at the point, the region's proof
    data (after point `t` the staging block holds row `table[t]` of the embedding table) and the body obligation, at any
    admissible contents of the prefetched table whose words are rows of the embedding table. -/

/-- The prefetched table and the embedding table as the body is handed them: whole buffers as memrefs. -/
abbrev hbM : Memref sig .tc .hbm S50257x1024 .f32 := Memref.whole main_arg4
/-- A memref's buffer on core `c`, and that buffer held whole at `f`. -/
abbrev MBuf (c : Dev nD) {sp : Space} {S : Shape} {e : EltTy} (M : Memref sig .tc sp S e) : Type := Buf (Elt F) (M.view.loc (c : Thread nD τ))
abbrev mPt (c : Dev nD) {sp : Space} {S : Shape} {e : EltTy} (M : Memref sig .tc sp S e) (f : MBuf (F := F) c M) : sProp 𝕄 :=
  M.view.loc (c : Thread nD τ) ↦{fullShare} f

/-! # Region 0: the gather of the 32768 input rows -/

abbrev tbM0 : Memref sig .tc .smem S32768 .i32 := Memref.whole main_v0

/-- The table word the body loads at grid point `i`. -/
abbrev word0 (c : Dev nD) (i : grid0.Coords) (xt : MBuf (F := F) c tbM0) : BitVec 32 :=
  tbM0.view.readAt (Elt F) (Rect.unit (s := S32768) (k0_off1 i) S1.size (k0_off1_inb i)).toLoadRect xt (Shape.Idx.first (numel1_S1.symm ▸ Nat.one_pos))

set_option maxHeartbeats 1000000 in
/-- The body on a whole staging memref at anything, the table at `xt`, the embedding table at `fh`, its own transfer
    cell at zero: if the loaded word names a row of the table, it runs to the continuation with the staging block
    holding that row, and everything else as it was. -/
theorem run0 (c : Dev nD) (i : grid0.Coords) (arg3 : Memref sig .tc .vmem S1x1x1024 .f32) (harg3 : arg3.IsWhole)
    (xt : MBuf (F := F) c tbM0) (fh : MBuf (F := F) c hbM) (hw : k0_chk1 (word0 c i xt))
    (W : Waits sig Unit) (K : PUnit → sProp 𝕄) :
    iprop((∃ d, owns (c : Thread nD τ) arg3 fullShare d) ∗ mPt c tbM0 xt ∗ semVal ((c : Thread nD τ), SemLoc.dma 2) 0 ∗ mPt c hbM fh ∗ owes (c : Thread nD τ) 0 W
        ∗ (iprop(owns (c : Thread nD τ) arg3 fullShare (rowBlk fh (word0 c i xt).toNat) ∗ mPt c tbM0 xt ∗ semVal ((c : Thread nD τ), SemLoc.dma 2) 0 ∗ mPt c hbM fh ∗ (∃ W', owes (c : Thread nD τ) 0 W')) -∗ K ⟨⟩))
      ⊢ wp frame (wpE (defs₀ (F := F)) Variants.none c none) Set.univ (cc0__gather_kernel i tbM0 (Memref.isWhole_whole _) hbM (Memref.isWhole_whole _) arg3 harg3 cc0_scratch0) K := by
  simp only [cc0__gather_kernel_eq_skeleton]; unfold cc0__gather_kernel_skel
  unfold owns
  iintro ⟨⟨%d1, %f1, -, H1⟩, HT, Hq, Hh, HW, Hk⟩
  sl_exec (disch := first | sl_exact hw)
  sl_step
  iapply Hk
  isplitl [H1]
  · iexists _; isplitr
    swap; · iexact H1
    ipureintro
    sl_unfold_words
    exact written0 c arg3 harg3 f1 _ hw fh
  isplitl [HT]; · iexact HT
  isplitl [Hq]; · iexact Hq
  isplitl [Hh]; · iexact Hh
  iexists _; iexact HW

/-! ## The word the body loads is the table's entry at the point -/

theorem coords0_val (t : Fin grid0.N) : ((grid0.coords t) 0).val = t.val := by
  show t.val / grid0.stride 0 % 32768 = t.val
  have hs : grid0.stride 0 = 1 := by decide
  have ht : t.val < 32768 := (N_0 ▸ t.isLt)
  rw [hs, Nat.div_one, Nat.mod_eq_of_lt ht]

/-- Index `t` of the [32768] table. -/
abbrev tix0 (t : Fin grid0.N) : S32768.Idx := ValueIdx.ix1 (⟨t.val, N_0 ▸ t.isLt⟩ : Fin 32768)

theorem word0_eq (c : Dev nD) (t : Fin grid0.N) (xt : MBuf (F := F) c tbM0) :
    word0 c (grid0.coords t) xt = xt (tix0 t) := by
  show xt ((Rect.unit (s := S32768) (k0_off1 (grid0.coords t)) S1.size (k0_off1_inb (grid0.coords t))).idx (Shape.Idx.first (numel1_S1.symm ▸ Nat.one_pos))) = _
  refine congrArg xt (funext fun a => Fin.ext ?_)
  match a with
  | ⟨0, _⟩ =>
    show (k0_off1 (grid0.coords t)) 0 + 1 * (Shape.Idx.first (numel1_S1.symm ▸ Nat.one_pos : 0 < S1.numel) (0 : Fin 1)).val = t.val
    have h0 : (Shape.Idx.first (numel1_S1.symm ▸ Nat.one_pos : 0 < S1.numel) (0 : Fin 1)).val = 0 := by
      have := (Shape.Idx.first (numel1_S1.symm ▸ Nat.one_pos : 0 < S1.numel) (0 : Fin 1)).isLt
      have e : S1.size (0 : Fin 1) = 1 := by decide
      omega
    have h1 : (k0_off1 (grid0.coords t)) 0 = t.val := by
      show (Scalar.indexCast (BitVec.ofNat 32 ((grid0.coords t) 0).val)).toNat = t.val
      rw [coords0_val]
      have ht : t.val < 32768 := (N_0 ▸ t.isLt)
      show (BitVec.ofNat 32 t.val).toNat = t.val
      rw [BitVec.toNat_ofNat]; omega
    rw [h0, h1]; omega

/-! ## Region 0: the proof data and the body obligation, at any admissible contents of the table -/

section Region0

variable (a0 : (pcfg0 (F := F)).Adm)
variable (V : (c : Dev nD) → (b : Ref sig .tc) → Buf (Elt F) ((c : Thread nD τ).loc b))

/-- The body's own transfer cell. -/
abbrev osem0 : Fin 1 → SemLoc sig := fun j => (![SemLoc.dma 2] : Fin 1 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 2) 0) := by
  rw [Pipeline.ownSems0_eq_of_list c osem0 [0] (by decide) (by decide)]; rfl
/-- The operand left in HBM that the body reads by its own transfer: the embedding table. -/
def H0 : Finset (Ref sig .tc) := {main_arg4}
theorem hbmPts0_eq (c : Dev nD) :
    (bigSep H0 (fun b => ((c : Thread nD τ).loc b) ↦{fullShare} V c b) : sProp 𝕄) = iprop(mPt c hbM (V c main_arg4)) := by
  rw [BI.bigSep_eq_bigSepL_of_eq [main_arg4] (by decide) (by decide)]; rfl
/-- The prefetched table, held whole. -/
theorem pref0_eq (c : Dev nD) :
    (Pipeline.prefHeld (Ix := Unit) (Name := ℕ) (U := Pipeline.UD sig nD τ) (Lvl := ℕ) pre0 c (fun _ => fullShare) a0.1 : sProp 𝕄)
      = iprop(mPt c tbM0 (a0.1 0)) := by
  unfold Pipeline.prefHeld
  rw [bigSep_univ_eq_bigSepL [(0 : Fin 1)] (by decide) (by decide)]; rfl

/-- The proof data of pipeline 0 on core `c`: the output array as the region finds it; after the body at point `t`
    the staging block holds the table row the point's word names; the invariant: the scoped rest, the generator
    register, the body's cell at zero, the embedding table and the prefetched table at their entry contents. -/
def dat0 (c : Dev nD) : Dat τ (Elt F) Unit ℕ (Pipeline.UD sig nD τ) ℕ (cfg0 a0) c where
  A w := V c (Pipeline.arrRef spec0 w)
  after w t := match w with
    | ⟨0, _⟩ => rowBlk (V c main_arg4) (a0.1 0 (tix0 t)).toNat
  Φ _ := iprop(Pipeline.ΦD osem0 spec0 H0 V c ∗ Pipeline.prefHeld pre0 c (fun _ => fullShare) a0.1)
  q _ := fullShare
  owed _ := 0

theorem after0_0 (c : Dev nD) (t : Fin (cfg0 a0).N) : (dat0 a0 V c).after 0 t = rowBlk (V c main_arg4) (a0.1 0 (tix0 t)).toNat := by
  dsimp only [dat0]; rfl

/-- The window's current staging memref at point `t`, and the body as the pipeline calls it there. -/
abbrev st0 (t : Fin (cfg0 a0).N) := ((cfg0 a0).win 0).stage ((cfg0 a0).slots t 0)
abbrev bodyAt0 (t : Fin (cfg0 a0).N) : Prog (TpuEff nD τ sig (Elt F) Λ₀ .tc) PUnit :=
  cc0__gather_kernel (grid0.coords t) tbM0 (Memref.isWhole_whole _) hbM (Memref.isWhole_whole _) (spec0_0.stage ((cfg0 a0).slots t 0)) (hstage0_0 (((cfg0 a0).slots t 0).cast nbuf0_0)) cc0_scratch0

theorem sound_body0 (hT : ∀ x, (a0.1 0 x).toNat < 50257) (c : Dev nD) (t : Fin (cfg0 a0).N) :
    iprop((dat0 a0 V c).Φ t.castSucc ∗ (dat0 a0 V c).owesAt () t.castSucc
        ∗ (∃ d, owns (c : Thread nD τ) (st0 a0 t) fullShare ((dat0 a0 V c).before 0 t d)))
      ⊢ wp frame (wpE (defs₀ (F := F)) Variants.none c none) Set.univ (bodyAt0 a0 t) (fun _ =>
          iprop((dat0 a0 V c).Φ t.succ ∗ (dat0 a0 V c).owesAt () t.succ
            ∗ owns (c : Thread nD τ) (st0 a0 t) fullShare ((dat0 a0 V c).after 0 t))) := by
  unfold bodyAt0
  rw [show (dat0 a0 V c).Φ t.succ = (dat0 a0 V c).Φ t.castSucc from rfl, after0_0]
  rw [show (dat0 a0 V c).Φ t.castSucc = iprop(Pipeline.ΦD osem0 spec0 H0 V c ∗ Pipeline.prefHeld pre0 c (fun _ => fullShare) a0.1) from rfl,
    Pipeline.ΦD_eq, ownSems00_eq, hbmPts0_eq, pref0_eq]
  unfold Dat.owesAt Pipeline.owesWithin
  rw [show (dat0 a0 V c).owed t.castSucc = 0 from rfl, show (dat0 a0 V c).owed t.succ = 0 from rfl]
  have hwd : word0 c (grid0.coords t) (a0.1 0) = a0.1 0 (tix0 t) := word0_eq c t (a0.1 0)
  have hw : k0_chk1 (word0 c (grid0.coords t) (a0.1 0)) := by
    rw [hwd]; exact Cert.Kernel.KTab.chk0 _ (hT _)
  iintro ⟨⟨⟨HS, Hg, Hq, Hh⟩, HT⟩, ⟨%W, -, HW⟩, ⟨%d0, H0⟩⟩
  iapply (run0 c (grid0.coords t) _ _ (a0.1 0) (V c main_arg4) hw W _)
  isplitl [H0]; · iexists _; iexact H0
  isplitl [HT]; · iexact HT
  isplitl [Hq]; · iexact Hq
  isplitl [Hh]; · iexact Hh
  isplitl [HW]; · iexact HW
  iintro ⟨H0, HT, Hq, Hh, ⟨%W', HW'⟩⟩
  rw [hwd]
  isplitl [HS Hg Hq Hh HT]
  · isplitl [HS Hg Hq Hh]
    · isplitl [HS]; · iexact HS
      isplitl [Hg]; · iexact Hg
      isplitl [Hq]; · iexact Hq
      iexact Hh
    iexact HT
  isplitl [HW']
  · iexists W'; isplitr; · ipureintro; exact fun _ _ => Or.inl trivial
    iexact HW'
  iexact H0

/-- The library's body obligation, at every point. -/
theorem body_obligation0 (hT : ∀ x, (a0.1 0 x).toNat < 50257) (c : Dev nD) :
    BodyObligation (dat0 (F := F) a0 V c) (defs₀ (F := F)) Variants.none () Set.univ := fun t => by
  rw [bigSep_W0, bigSep_W0]
  exact sound_body0 a0 V hT c t

end Region0

/-! # Region 1: the gather of the 1024 target rows -/

abbrev tbM1 : Memref sig .tc .smem S1024 .i32 := Memref.whole main_v4

/-- The table word the body loads at grid point `i`. -/
abbrev word1 (c : Dev nD) (i : grid1.Coords) (xt : MBuf (F := F) c tbM1) : BitVec 32 :=
  tbM1.view.readAt (Elt F) (Rect.unit (s := S1024) (k1_off1 i) S1.size (k1_off1_inb i)).toLoadRect xt (Shape.Idx.first (numel1_S1.symm ▸ Nat.one_pos))

set_option maxHeartbeats 1000000 in
/-- The body on a whole staging memref at anything, the table at `xt`, the embedding table at `fh`, its own transfer
    cell at zero: if the loaded word names a row of the table, it runs to the continuation with the staging block
    holding that row, and everything else as it was. -/
theorem run1 (c : Dev nD) (i : grid1.Coords) (arg3 : Memref sig .tc .vmem S1x1x1024 .f32) (harg3 : arg3.IsWhole)
    (xt : MBuf (F := F) c tbM1) (fh : MBuf (F := F) c hbM) (hw : k1_chk1 (word1 c i xt))
    (W : Waits sig Unit) (K : PUnit → sProp 𝕄) :
    iprop((∃ d, owns (c : Thread nD τ) arg3 fullShare d) ∗ mPt c tbM1 xt ∗ semVal ((c : Thread nD τ), SemLoc.dma 5) 0 ∗ mPt c hbM fh ∗ owes (c : Thread nD τ) 0 W
        ∗ (iprop(owns (c : Thread nD τ) arg3 fullShare (rowBlk fh (word1 c i xt).toNat) ∗ mPt c tbM1 xt ∗ semVal ((c : Thread nD τ), SemLoc.dma 5) 0 ∗ mPt c hbM fh ∗ (∃ W', owes (c : Thread nD τ) 0 W')) -∗ K ⟨⟩))
      ⊢ wp frame (wpE (defs₀ (F := F)) Variants.none c none) Set.univ (cc1__gather_kernel i tbM1 (Memref.isWhole_whole _) hbM (Memref.isWhole_whole _) arg3 harg3 cc1_scratch0) K := by
  simp only [cc1__gather_kernel_eq_skeleton]; unfold cc1__gather_kernel_skel
  unfold owns
  iintro ⟨⟨%d1, %f1, -, H1⟩, HT, Hq, Hh, HW, Hk⟩
  sl_exec (disch := first | sl_exact hw)
  sl_step
  iapply Hk
  isplitl [H1]
  · iexists _; isplitr
    swap; · iexact H1
    ipureintro
    sl_unfold_words
    exact written1 c arg3 harg3 f1 _ hw fh
  isplitl [HT]; · iexact HT
  isplitl [Hq]; · iexact Hq
  isplitl [Hh]; · iexact Hh
  iexists _; iexact HW

/-! ## The word the body loads is the table's entry at the point -/

theorem coords1_val (t : Fin grid1.N) : ((grid1.coords t) 0).val = t.val := by
  show t.val / grid1.stride 0 % 1024 = t.val
  have hs : grid1.stride 0 = 1 := by decide
  have ht : t.val < 1024 := (N_1 ▸ t.isLt)
  rw [hs, Nat.div_one, Nat.mod_eq_of_lt ht]

/-- Index `t` of the [1024] table. -/
abbrev tix1 (t : Fin grid1.N) : S1024.Idx := ValueIdx.ix1 (⟨t.val, N_1 ▸ t.isLt⟩ : Fin 1024)

theorem word1_eq (c : Dev nD) (t : Fin grid1.N) (xt : MBuf (F := F) c tbM1) :
    word1 c (grid1.coords t) xt = xt (tix1 t) := by
  show xt ((Rect.unit (s := S1024) (k1_off1 (grid1.coords t)) S1.size (k1_off1_inb (grid1.coords t))).idx (Shape.Idx.first (numel1_S1.symm ▸ Nat.one_pos))) = _
  refine congrArg xt (funext fun a => Fin.ext ?_)
  match a with
  | ⟨0, _⟩ =>
    show (k1_off1 (grid1.coords t)) 0 + 1 * (Shape.Idx.first (numel1_S1.symm ▸ Nat.one_pos : 0 < S1.numel) (0 : Fin 1)).val = t.val
    have h0 : (Shape.Idx.first (numel1_S1.symm ▸ Nat.one_pos : 0 < S1.numel) (0 : Fin 1)).val = 0 := by
      have := (Shape.Idx.first (numel1_S1.symm ▸ Nat.one_pos : 0 < S1.numel) (0 : Fin 1)).isLt
      have e : S1.size (0 : Fin 1) = 1 := by decide
      omega
    have h1 : (k1_off1 (grid1.coords t)) 0 = t.val := by
      show (Scalar.indexCast (BitVec.ofNat 32 ((grid1.coords t) 0).val)).toNat = t.val
      rw [coords1_val]
      have ht : t.val < 1024 := (N_1 ▸ t.isLt)
      show (BitVec.ofNat 32 t.val).toNat = t.val
      rw [BitVec.toNat_ofNat]; omega
    rw [h0, h1]; omega

/-! ## Region 0: the proof data and the body obligation, at any admissible contents of the table -/

section Region1

variable (a1 : (pcfg1 (F := F)).Adm)
variable (V : (c : Dev nD) → (b : Ref sig .tc) → Buf (Elt F) ((c : Thread nD τ).loc b))

/-- The body's own transfer cell. -/
abbrev osem1 : Fin 1 → SemLoc sig := fun j => (![SemLoc.dma 5] : Fin 1 → SemLoc sig) j
theorem ownSemFacts1 : Pipeline.OwnSemFacts spec1 osem1 := by decide
theorem ownSems01_eq (c : Dev nD) :
    (Pipeline.ownSems0 (Ix := Unit) (Name := ℕ) (U := Pipeline.UD sig nD τ) (Lvl := ℕ) (Val := Elt F) (τ := τ) osem1 c : sProp 𝕄)
      = iprop(semVal ((c : Thread nD τ), SemLoc.dma 5) 0) := by
  rw [Pipeline.ownSems0_eq_of_list c osem1 [0] (by decide) (by decide)]; rfl
/-- The operand left in HBM that the body reads by its own transfer: the embedding table. -/
def H1 : Finset (Ref sig .tc) := {main_arg4}
theorem hbmPts1_eq (c : Dev nD) :
    (bigSep H1 (fun b => ((c : Thread nD τ).loc b) ↦{fullShare} V c b) : sProp 𝕄) = iprop(mPt c hbM (V c main_arg4)) := by
  rw [BI.bigSep_eq_bigSepL_of_eq [main_arg4] (by decide) (by decide)]; rfl
/-- The prefetched table, held whole. -/
theorem pref1_eq (c : Dev nD) :
    (Pipeline.prefHeld (Ix := Unit) (Name := ℕ) (U := Pipeline.UD sig nD τ) (Lvl := ℕ) pre1 c (fun _ => fullShare) a1.1 : sProp 𝕄)
      = iprop(mPt c tbM1 (a1.1 0)) := by
  unfold Pipeline.prefHeld
  rw [bigSep_univ_eq_bigSepL [(0 : Fin 1)] (by decide) (by decide)]; rfl

/-- The proof data of pipeline 1 on core `c`: the output array as the region finds it; after the body at point `t`
    the staging block holds the table row the point's word names; the invariant: the scoped rest, the generator
    register, the body's cell at zero, the embedding table and the prefetched table at their entry contents. -/
def dat1 (c : Dev nD) : Dat τ (Elt F) Unit ℕ (Pipeline.UD sig nD τ) ℕ (cfg1 a1) c where
  A w := V c (Pipeline.arrRef spec1 w)
  after w t := match w with
    | ⟨0, _⟩ => rowBlk (V c main_arg4) (a1.1 0 (tix1 t)).toNat
  Φ _ := iprop(Pipeline.ΦD osem1 spec1 H1 V c ∗ Pipeline.prefHeld pre1 c (fun _ => fullShare) a1.1)
  q _ := fullShare
  owed _ := 0

theorem after1_0 (c : Dev nD) (t : Fin (cfg1 a1).N) : (dat1 a1 V c).after 0 t = rowBlk (V c main_arg4) (a1.1 0 (tix1 t)).toNat := by
  dsimp only [dat1]; rfl

/-- The window's current staging memref at point `t`, and the body as the pipeline calls it there. -/
abbrev st1 (t : Fin (cfg1 a1).N) := ((cfg1 a1).win 0).stage ((cfg1 a1).slots t 0)
abbrev bodyAt1 (t : Fin (cfg1 a1).N) : Prog (TpuEff nD τ sig (Elt F) Λ₀ .tc) PUnit :=
  cc1__gather_kernel (grid1.coords t) tbM1 (Memref.isWhole_whole _) hbM (Memref.isWhole_whole _) (spec1_0.stage ((cfg1 a1).slots t 0)) (hstage1_0 (((cfg1 a1).slots t 0).cast nbuf1_0)) cc1_scratch0

theorem sound_body1 (hT : ∀ x, (a1.1 0 x).toNat < 50257) (c : Dev nD) (t : Fin (cfg1 a1).N) :
    iprop((dat1 a1 V c).Φ t.castSucc ∗ (dat1 a1 V c).owesAt () t.castSucc
        ∗ (∃ d, owns (c : Thread nD τ) (st1 a1 t) fullShare ((dat1 a1 V c).before 0 t d)))
      ⊢ wp frame (wpE (defs₀ (F := F)) Variants.none c none) Set.univ (bodyAt1 a1 t) (fun _ =>
          iprop((dat1 a1 V c).Φ t.succ ∗ (dat1 a1 V c).owesAt () t.succ
            ∗ owns (c : Thread nD τ) (st1 a1 t) fullShare ((dat1 a1 V c).after 0 t))) := by
  unfold bodyAt1
  rw [show (dat1 a1 V c).Φ t.succ = (dat1 a1 V c).Φ t.castSucc from rfl, after1_0]
  rw [show (dat1 a1 V c).Φ t.castSucc = iprop(Pipeline.ΦD osem1 spec1 H1 V c ∗ Pipeline.prefHeld pre1 c (fun _ => fullShare) a1.1) from rfl,
    Pipeline.ΦD_eq, ownSems01_eq, hbmPts1_eq, pref1_eq]
  unfold Dat.owesAt Pipeline.owesWithin
  rw [show (dat1 a1 V c).owed t.castSucc = 0 from rfl, show (dat1 a1 V c).owed t.succ = 0 from rfl]
  have hwd : word1 c (grid1.coords t) (a1.1 0) = a1.1 0 (tix1 t) := word1_eq c t (a1.1 0)
  have hw : k1_chk1 (word1 c (grid1.coords t) (a1.1 0)) := by
    rw [hwd]; exact Cert.Kernel.KTab.chk1 _ (hT _)
  iintro ⟨⟨⟨HS, Hg, Hq, Hh⟩, HT⟩, ⟨%W, -, HW⟩, ⟨%d0, H1⟩⟩
  iapply (run1 c (grid1.coords t) _ _ (a1.1 0) (V c main_arg4) hw W _)
  isplitl [H1]; · iexists _; iexact H1
  isplitl [HT]; · iexact HT
  isplitl [Hq]; · iexact Hq
  isplitl [Hh]; · iexact Hh
  isplitl [HW]; · iexact HW
  iintro ⟨H1, HT, Hq, Hh, ⟨%W', HW'⟩⟩
  rw [hwd]
  isplitl [HS Hg Hq Hh HT]
  · isplitl [HS Hg Hq Hh]
    · isplitl [HS]; · iexact HS
      isplitl [Hg]; · iexact Hg
      isplitl [Hq]; · iexact Hq
      iexact Hh
    iexact HT
  isplitl [HW']
  · iexists W'; isplitr; · ipureintro; exact fun _ _ => Or.inl trivial
    iexact HW'
  iexact H1

/-- The library's body obligation, at every point. -/
theorem body_obligation1 (hT : ∀ x, (a1.1 0 x).toNat < 50257) (c : Dev nD) :
    BodyObligation (dat1 (F := F) a1 V c) (defs₀ (F := F)) Variants.none () Set.univ := fun t => by
  rw [bigSep_W1, bigSep_W1]
  exact sound_body1 a1 V hT c t

end Region1

end Cert.Kernel.KBody

end
-- ==== Proof.KSegs.lean ====
import proofs.«403361_j42786464202989_2_alg».proof.Proof.KBody
import Idealize.ShloMosaic.Lib.Pipeline.RegionsLoop
import Idealize.ShloMosaic.Lib.Pipeline.FrameSuffix

set_option maxRecDepth 16384

noncomputable section

namespace Cert.Kernel.KSegs

open Cert.Kernel Cert.Kernel.Gen Cert.Kernel.KBlk Cert.Kernel.KBody
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! @main as the run of its items: host stretches and the two gather regions. The contents of the unscoped buffers
    between items are the generated valuations `GenP.VJ`; what the regions leave in their output arrays (`outs`) is what
    the pipeline's write-backs make of the proof data (`Dat.arrAt … N`); each region's prefetched table is the contents
    @main's reshape left in its scalar-memory buffer on the program's one device. -/

variable (m : (ℓ : Loc nD τ sig) → Buf (Elt F) ℓ)

/-- Region 0's entry contents, read at the TensorCore's references. -/
abbrev Va : (c : Dev nD) → (b : Ref sig .tc) → Buf (Elt F) ((c : Thread nD τ).loc b) := fun c b => GenP.V1 m c b
/-- Region 0's prefetched table: the flattened input ids (no side condition on its contents: no index map reads it). -/
abbrev a0 : (pcfg0 (F := F)).Adm := ⟨fun k => GenP.V1 m 0 (pre0.ref k), trivial⟩
/-- What region 0 leaves in its output array. -/
def o2 (c : Dev nD) : Buf (Elt F) ((c : Thread nD τ).loc main_v1) := (dat0 (a0 m) (Va m) c).arrAt 0 (cfg0 (a0 m)).N
/-- The regions' leavings with only region 0's named (region 1's entry contents are stated over it). -/
def outsA : GenP.Outs (F := F) := fun _ r c => if h : r = main_v1 then h ▸ o2 m c else GenP.V1 m c r
/-- Region 1's entry contents, read at the TensorCore's references. -/
abbrev Vb : (c : Dev nD) → (b : Ref sig .tc) → Buf (Elt F) ((c : Thread nD τ).loc b) := fun c b => GenP.V3 m (outsA m) c b
/-- Region 1's prefetched table: the flattened target ids. -/
abbrev a1 : (pcfg1 (F := F)).Adm := ⟨fun k => GenP.V3 m (outsA m) 0 (pre1.ref k), trivial⟩
/-- What region 1 leaves in its output array. -/
def o4 (c : Dev nD) : Buf (Elt F) ((c : Thread nD τ).loc main_v5) := (dat1 (a1 m) (Vb m) c).arrAt 0 (cfg1 (a1 m)).N
/-- What the two regions leave. -/
def outs : GenP.Outs (F := F) := fun _ r c =>
  if h : r = main_v1 then h ▸ o2 m c else if h' : r = main_v5 then h' ▸ o4 m c else GenP.V1 m c r

theorem outsA_v1 (J : ℕ) (c : Dev nD) : outsA m J main_v1 c = o2 m c := by unfold outsA; exact dif_pos rfl
theorem outs_v1 (J : ℕ) (c : Dev nD) : outs m J main_v1 c = o2 m c := by unfold outs; exact dif_pos rfl
theorem outs_v5 (J : ℕ) (c : Dev nD) : outs m J main_v5 c = o4 m c := by
  unfold outs; rw [dif_neg (by decide)]; exact dif_pos rfl
theorem V2_outs (c : Dev nD) : GenP.V2 m (outs m) c = GenP.V2 m (outsA m) c := by
  show Function.update (GenP.V1 m c) main_v1 (outs m 2 main_v1 c) = Function.update (GenP.V1 m c) main_v1 (outsA m 2 main_v1 c)
  rw [outs_v1, outsA_v1]
theorem V3_outs (c : Dev nD) : GenP.V3 m (outs m) c = GenP.V3 m (outsA m) c := by
  show StableHlo.after hostOps1 (GenP.V2 m (outs m) c) = StableHlo.after hostOps1 (GenP.V2 m (outsA m) c)
  rw [V2_outs]

/-! ## The proof data family and what rides beside the buffers -/

/-- Each region's table contents. -/
def adm : (p : Fin 2) → (pcfgs (F := F) p).Adm
  | ⟨0, _⟩ => a0 m
  | ⟨1, _⟩ => a1 m
/-- Each pipeline's proof data at its region's entry contents: a literal match, so that the kit's pipeline at a numeral
    reduces to the printed configuration. -/
def pdats : (p : Fin 2) → (c : Dev nD) → Dat τ (Elt F) Unit ℕ (Pipeline.UD sig nD τ) ℕ (Pipeline.pin (pcfgs (F := F)) (adm m) p) c
  | ⟨0, _⟩ => fun c => dat0 (a0 m) (Va m) c
  | ⟨1, _⟩ => fun c => dat1 (a1 m) (Vb m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)

/-! ## Region 0 -/

/-- The prefetched table's buffer, among the buffers that bypass the windows. -/
def T0 : Finset (Ref sig .tc) := {main_v0}
theorem H0_sub : H0 ⊆ Pipeline.restRefs sig spec0 := fun b hb => by
  have e : b = main_arg4 := by simpa [H0] using hb
  rw [e]; exact Pipeline.mem_restRefs_of main_arg4 (by decide) (by decide)
theorem T0_sub : T0 ⊆ Pipeline.restRefs sig spec0 \ H0 := fun b hb => by
  have e : b = main_v0 := by simpa [T0] using hb
  rw [e]; exact Finset.mem_sdiff.mpr ⟨Pipeline.mem_restRefs_of main_v0 (by decide) (by decide), by unfold H0; decide⟩

/-- The buffers that bypass region 0's windows: the embedding table, the prefetched table, and the others. -/
theorem rest0_split (c : Dev nD) (V : (b : Ref sig .tc) → Buf (Elt F) ((c : Thread nD τ).loc b)) :
    (Pipeline.unscopedRest (Ix := Unit) (Name := ℕ) (U := Pipeline.UD sig nD τ) (Lvl := ℕ) spec0 c V : sProp 𝕄)
      = iprop((bigSep H0 fun b => ((c : Thread nD τ).loc b) ↦{fullShare} V b)
          ∗ (((c : Thread nD τ).loc main_v0) ↦{fullShare} V main_v0)
          ∗ bigSep ((Pipeline.restRefs sig spec0 \ H0) \ T0) fun b => ((c : Thread nD τ).loc b) ↦{fullShare} V b) := by
  unfold Pipeline.unscopedRest
  rw [BI.bigSep_sdiff_split H0_sub, BI.bigSep_sdiff_split T0_sub]
  unfold T0; rw [bigSep_singleton]; rfl

/-- Every word of region 0's table is a row of the embedding table, when every input id is. -/
theorem hT0 (hI0 : ∀ i, ((m (((0 : Dev nD) : Thread nD τ).loc main_arg0) : IVec S16x2048 32) i).toNat < 50257) :
    ∀ x, ((a0 m).1 0 x).toNat < 50257 := Cert.Kernel.KTab.tab0_lt m 0 hI0

/-- What region 0 leaves at its exit: its output array at what the pipeline's write-backs made of it, every other
    unscoped buffer as at its entry. -/
theorem hF0 (c : Dev nD) (w : Fin (cfg0 (a0 m)).W) : (dat0 (a0 m) (Va m) c).arrAt w (cfg0 (a0 m)).N = GenP.V2 m (outs m) c (Pipeline.arrRef spec0 w) := by
  match w with
  | ⟨0, _⟩ =>
    show o2 m c = Function.update (GenP.V1 m c) main_v1 (outs m 2 main_v1 c) main_v1
    rw [Function.update_self, outs_v1]
theorem hrest0 (c : Dev nD) : ∀ b, b ∉ Finset.univ.image (Pipeline.arrRef spec0) → GenP.V2 m (outs m) c b = GenP.V1 m c b :=
  fun b hb => GenP.V2_of m (outs m) c b (fun h => hb (Finset.mem_image.mpr ⟨0, Finset.mem_univ _, by
    have : b = main_v1 := by simpa using h
    rw [this]⟩))

-- `iapply` of a library lemma stated over `pin pcs a p` unifies with the pinned configuration only when unification may
-- unfold plain definitions in a metavariable's type
set_option backward.isDefEq.respectTransparency.types false in
/-- REGION 0 over the thread state: entered from every unscoped buffer at `V1`, left at `V2`. Its output array is split
    out of the unscoped buffers and put back at the exit contents; the embedding table and the body's transfer cell go into
    the invariant and come back; the prefetched table goes to the pipeline and the body, and comes back. -/
def reg0 (hT : ∀ x, ((a0 m).1 0 x).toNat < 50257) : Pipeline.RegionSeg (pcfgs (F := F)) (adm m) (pdats m) () defs₀ 𝒱₀ L lv 0 where
  win := winFacts0.to₀
  block_pos := block_pos0
  stage_whole := stage_whole0
  K := Fin 1
  osem := osem0
  ho := ownSemFacts0
  hbody c := (body_obligation0 (a0 m) (Va m) hT c).loose
  hwaits := Pipeline.hwaits_of_owed_zero _ _ _ _ L lv 0 fun _ _ => rfl
  pre c := iprop(StableHlo.held (c : Thread nD τ) (Pipeline.ucRefs τ sig) (GenP.V1 m c) ∗ R c)
  post c := iprop(StableHlo.held (c : Thread nD τ) (Pipeline.ucRefs τ sig) (GenP.V2 m (outs m) c) ∗ R c)
  X c := iprop((∃ r, prngReg c r) ∗ Pipeline.ownSems0 (Ix := Unit) (Name := ℕ) (U := Pipeline.UD sig nD τ) (Lvl := ℕ) (Val := Elt F) (τ := τ) osem0 c ∗ (bigSep H0 fun b => (((c : Thread nD τ)).loc b) ↦{fullShare} Va m c b))
  Y c := iprop((∃ r, prngReg c r) ∗ (bigSep H0 fun b => (((c : Thread nD τ)).loc b) ↦{fullShare} Va m c b) ∗ ((((c : Thread nD τ)).loc main_v0) ↦{fullShare} Va m c main_v0))
  Z c := bigSep ((Pipeline.restRefs sig spec0 \ H0) \ T0) fun b => (((c : Thread nD τ)).loc b) ↦{fullShare} Va m c b
  hentry c := by
    obtain rfl : c = 0 := Subsingleton.elim _ _
    have hsplit := Pipeline.arrays_of_unscopedBufs (p := 0) (pcfgs (F := F)) (adm m) (pdats m) winFacts0 arr_whole0 0
      ((pdats m 0 0).share_full fun _ => rfl) (Va m 0) fun _ => rfl
    rw [Pipeline.unscopedBufs_held] at hsplit
    iintro ⟨⟨Hub, Hp, HO⟩, Hos, -⟩
    ihave H := hsplit $$ Hub
    icases H with ⟨Ha, Hrest⟩
    ihave H' := (Entails.of_eq (rest0_split 0 (Va m 0))) $$ Hrest
    icases H' with ⟨HH, Ht, HR⟩
    imodintro
    isplitl [Ha]; · iexact Ha
    isplitl [Ht]
    · iapply (Entails.of_eq (pref0_eq (a0 m) 0).symm)
      iexact Ht
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [show (pdats m 0 c).Φ 0 = iprop(Pipeline.ΦD osem0 spec0 H0 (Va m) c ∗ Pipeline.prefHeld pre0 c (fun _ => fullShare) (a0 m).1) from rfl, Pipeline.ΦD_eq]
    iintro ⟨⟨Hp, Ho, HH⟩, HT, Hr⟩
    isplitl [Hr Hp Ho HH]
    · isplitl [Hr]; · iexact Hr
      isplitl [Hp]; · iexact Hp
      isplitl [Ho]; · iexact Ho
      iexact HH
    iexact HT
  hout c := by
    obtain rfl : c = 0 := Subsingleton.elim _ _
    rw [show (pdats m 0 0).Φ (Fin.last _) = iprop(Pipeline.ΦD osem0 spec0 H0 (Va m) 0 ∗ Pipeline.prefHeld pre0 0 (fun _ => fullShare) (a0 m).1) from rfl, Pipeline.ΦD_eq, pref0_eq]
    iintro ⟨⟨Hr, Hp, Ho, HH⟩, HT⟩
    isplitl [Hp HH HT]
    · isplitl [Hp]; · iexact Hp
      isplitl [HH]; · iexact HH
      iexact HT
    isplitl [Ho]; · iexact Ho
    iexact Hr
  hexit c := by
    have hjoin := Pipeline.unscopedBufs_of_arrays (p := 0) (pcfgs (F := F)) (adm m) (Ix := Unit) (Name := ℕ) (U := Pipeline.UD sig nD τ) (Lvl := ℕ)
      winFacts0 arr_whole0 c (pdats m) ((pdats m 0 c).share_full fun _ => rfl)
      (Va m c) (fun b => GenP.V2 m (outs m) c b) ((pdats m 0 c).arrAt · (cfg0 (a0 m)).N) (hF0 m c) (hrest0 m c)
    rw [Pipeline.unscopedBufs_held] at hjoin
    iintro ⟨Ha, HO, ⟨HY, HH, Ht⟩, HR⟩
    ihave Hrest := (Entails.of_eq (rest0_split c (Va m c)).symm) $$ [HH Ht HR]
    · isplitl [HH]; · iexact HH
      isplitl [Ht]; · iexact Ht
      iexact HR
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1 -/

/-- The prefetched table's buffer, among the buffers that bypass the windows. -/
def T1 : Finset (Ref sig .tc) := {main_v4}
theorem H1_sub : H1 ⊆ Pipeline.restRefs sig spec1 := fun b hb => by
  have e : b = main_arg4 := by simpa [H1] using hb
  rw [e]; exact Pipeline.mem_restRefs_of main_arg4 (by decide) (by decide)
theorem T1_sub : T1 ⊆ Pipeline.restRefs sig spec1 \ H1 := fun b hb => by
  have e : b = main_v4 := by simpa [T1] using hb
  rw [e]; exact Finset.mem_sdiff.mpr ⟨Pipeline.mem_restRefs_of main_v4 (by decide) (by decide), by unfold H1; decide⟩

/-- The buffers that bypass region 1's windows: the embedding table, the prefetched table, and the others. -/
theorem rest1_split (c : Dev nD) (V : (b : Ref sig .tc) → Buf (Elt F) ((c : Thread nD τ).loc b)) :
    (Pipeline.unscopedRest (Ix := Unit) (Name := ℕ) (U := Pipeline.UD sig nD τ) (Lvl := ℕ) spec1 c V : sProp 𝕄)
      = iprop((bigSep H1 fun b => ((c : Thread nD τ).loc b) ↦{fullShare} V b)
          ∗ (((c : Thread nD τ).loc main_v4) ↦{fullShare} V main_v4)
          ∗ bigSep ((Pipeline.restRefs sig spec1 \ H1) \ T1) fun b => ((c : Thread nD τ).loc b) ↦{fullShare} V b) := by
  unfold Pipeline.unscopedRest
  rw [BI.bigSep_sdiff_split H1_sub, BI.bigSep_sdiff_split T1_sub]
  unfold T1; rw [bigSep_singleton]; rfl

/-- Every word of region 1's table is a row of the embedding table, when every input id is. -/
theorem hT1 (hI2 : ∀ i, ((m (((0 : Dev nD) : Thread nD τ).loc main_arg2) : IVec S16x64 32) i).toNat < 50257) :
    ∀ x, ((a1 m).1 0 x).toNat < 50257 := Cert.Kernel.KTab.tab1_lt m (outsA m) 0 hI2

/-- What region 1 leaves at its exit: its output array at what the pipeline's write-backs made of it, every other
    unscoped buffer as at its entry. -/
theorem hF1 (c : Dev nD) (w : Fin (cfg1 (a1 m)).W) : (dat1 (a1 m) (Vb m) c).arrAt w (cfg1 (a1 m)).N = GenP.V4 m (outs m) c (Pipeline.arrRef spec1 w) := by
  match w with
  | ⟨0, _⟩ =>
    show o4 m c = Function.update (GenP.V3 m (outs m) c) main_v5 (outs m 4 main_v5 c) main_v5
    rw [Function.update_self, outs_v5]
theorem hrest1 (c : Dev nD) : ∀ b, b ∉ Finset.univ.image (Pipeline.arrRef spec1) → GenP.V4 m (outs m) c b = GenP.V3 m (outsA m) c b :=
  fun b hb => (GenP.V4_of m (outs m) c b (fun h => hb (Finset.mem_image.mpr ⟨0, Finset.mem_univ _, by
    have : b = main_v5 := by simpa using h
    rw [this]⟩))).trans (congrFun (V3_outs m c) b)

-- `iapply` of a library lemma stated over `pin pcs a p` unifies with the pinned configuration only when unification may
-- unfold plain definitions in a metavariable's type
set_option backward.isDefEq.respectTransparency.types false in
/-- REGION 1 over the thread state: entered from every unscoped buffer at `V1`, left at `V2`. Its output array is split
    out of the unscoped buffers and put back at the exit contents; the embedding table and the body's transfer cell go into
    the invariant and come back; the prefetched table goes to the pipeline and the body, and comes back. -/
def reg1 (hT : ∀ x, ((a1 m).1 0 x).toNat < 50257) : Pipeline.RegionSeg (pcfgs (F := F)) (adm m) (pdats m) () defs₀ 𝒱₀ L lv 1 where
  win := winFacts1.to₀
  block_pos := block_pos1
  stage_whole := stage_whole1
  K := Fin 1
  osem := osem1
  ho := ownSemFacts1
  hbody c := (body_obligation1 (a1 m) (Vb m) hT c).loose
  hwaits := Pipeline.hwaits_of_owed_zero _ _ _ _ L lv 1 fun _ _ => rfl
  pre c := iprop(StableHlo.held (c : Thread nD τ) (Pipeline.ucRefs τ sig) (GenP.V3 m (outsA m) c) ∗ R c)
  post c := iprop(StableHlo.held (c : Thread nD τ) (Pipeline.ucRefs τ sig) (GenP.V4 m (outs m) c) ∗ R c)
  X c := iprop((∃ r, prngReg c r) ∗ Pipeline.ownSems0 (Ix := Unit) (Name := ℕ) (U := Pipeline.UD sig nD τ) (Lvl := ℕ) (Val := Elt F) (τ := τ) osem1 c ∗ (bigSep H1 fun b => (((c : Thread nD τ)).loc b) ↦{fullShare} Vb m c b))
  Y c := iprop((∃ r, prngReg c r) ∗ (bigSep H1 fun b => (((c : Thread nD τ)).loc b) ↦{fullShare} Vb m c b) ∗ ((((c : Thread nD τ)).loc main_v4) ↦{fullShare} Vb m c main_v4))
  Z c := bigSep ((Pipeline.restRefs sig spec1 \ H1) \ T1) fun b => (((c : Thread nD τ)).loc b) ↦{fullShare} Vb m c b
  hentry c := by
    obtain rfl : c = 0 := Subsingleton.elim _ _
    have hsplit := Pipeline.arrays_of_unscopedBufs (p := 1) (pcfgs (F := F)) (adm m) (pdats m) winFacts1 arr_whole1 0
      ((pdats m 1 0).share_full fun _ => rfl) (Vb m 0) fun _ => rfl
    rw [Pipeline.unscopedBufs_held] at hsplit
    iintro ⟨⟨Hub, Hp, HO⟩, Hos, -⟩
    ihave H := hsplit $$ Hub
    icases H with ⟨Ha, Hrest⟩
    ihave H' := (Entails.of_eq (rest1_split 0 (Vb m 0))) $$ Hrest
    icases H' with ⟨HH, Ht, HR⟩
    imodintro
    isplitl [Ha]; · iexact Ha
    isplitl [Ht]
    · iapply (Entails.of_eq (pref1_eq (a1 m) 0).symm)
      iexact Ht
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [show (pdats m 1 c).Φ 0 = iprop(Pipeline.ΦD osem1 spec1 H1 (Vb m) c ∗ Pipeline.prefHeld pre1 c (fun _ => fullShare) (a1 m).1) from rfl, Pipeline.ΦD_eq]
    iintro ⟨⟨Hp, Ho, HH⟩, HT, Hr⟩
    isplitl [Hr Hp Ho HH]
    · isplitl [Hr]; · iexact Hr
      isplitl [Hp]; · iexact Hp
      isplitl [Ho]; · iexact Ho
      iexact HH
    iexact HT
  hout c := by
    obtain rfl : c = 0 := Subsingleton.elim _ _
    rw [show (pdats m 1 0).Φ (Fin.last _) = iprop(Pipeline.ΦD osem1 spec1 H1 (Vb m) 0 ∗ Pipeline.prefHeld pre1 0 (fun _ => fullShare) (a1 m).1) from rfl, Pipeline.ΦD_eq, pref1_eq]
    iintro ⟨⟨Hr, Hp, Ho, HH⟩, HT⟩
    isplitl [Hp HH HT]
    · isplitl [Hp]; · iexact Hp
      isplitl [HH]; · iexact HH
      iexact HT
    isplitl [Ho]; · iexact Ho
    iexact Hr
  hexit c := by
    have hjoin := Pipeline.unscopedBufs_of_arrays (p := 1) (pcfgs (F := F)) (adm m) (Ix := Unit) (Name := ℕ) (U := Pipeline.UD sig nD τ) (Lvl := ℕ)
      winFacts1 arr_whole1 c (pdats m) ((pdats m 1 c).share_full fun _ => rfl)
      (Vb m c) (fun b => GenP.V4 m (outs m) c b) ((pdats m 1 c).arrAt · (cfg1 (a1 m)).N) (hF1 m c) (hrest1 m c)
    rw [Pipeline.unscopedBufs_held] at hjoin
    iintro ⟨Ha, HO, ⟨HY, HH, Ht⟩, HR⟩
    ihave Hrest := (Entails.of_eq (rest1_split c (Vb m c)).symm) $$ [HH Ht HR]
    · isplitl [HH]; · iexact HH
      isplitl [Ht]; · iexact Ht
      iexact HR
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The frame, and the run with every unscoped buffer read at the end -/

variable (ρ : Dev nD → PrngReg)

/-- The launch element: the pipeline library's at every staging cell, beside the transfers' counters at nothing. -/
abbrev u₀ : Pipeline.UD sig nD τ :=
  (initOf (Pipeline.cells (Pipeline.pin (pcfgs (F := F)) (adm m)) (cellOf_inj (adm m))) (Pipeline.launchToks (Pipeline.pin (pcfgs (F := F)) (adm m)) (cellOf_inj (adm m))), 1)

theorem hu₀ : (ownU (u₀ m) : sProp 𝕄) ⊢ |={Set.univ}=> iprop(BI.own (embL (initOf (Pipeline.cells (Pipeline.pin (pcfgs (F := F)) (adm m)) (cellOf_inj (adm m))) (Pipeline.launchToks (Pipeline.pin (pcfgs (F := F)) (adm m)) (cellOf_inj (adm m))))) ∗ bigSep Finset.univ fun _ : Dev nD => (BI.emp : sProp 𝕄)) := by
  iintro Hu
  ihave H := (ownU_pair _ _) $$ Hu
  icases H with ⟨HP, -⟩
  imodintro
  isplitl [HP]; · iexact HP
  iapply (show (BI.emp : sProp 𝕄) ⊢ bigSep Finset.univ (fun _ : Dev nD => (BI.emp : sProp 𝕄)) from by rw [BI.bigSep_emp_const])
  iempintro

/-- What the launch deals on every core makes the generator register at some state beside nothing owed. -/
theorem hE0 : iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts L lv)
    ⊢ (|={Set.univ}=> bigSep Finset.univ (fun c : Dev nD => R (F := F) c) : sProp 𝕄) := by
  refine Pipeline.initEach L lv fun c => ?_
  iintro ⟨⟨-, HO, -, Hp, -⟩, -⟩
  imodintro
  isplitl [Hp]; · iexists _; iexact Hp
  iexists ∅; iexact HO

/-- Beside the buffers rides, among other things, the core owing nothing. -/
theorem hE2 (c : Dev nD) : R (F := F) c ⊢ (iprop(∃ W, owes (c : Thread nD τ) (0 : CellTallies nD τ sig Unit) W) : sProp 𝕄) := by
  iintro ⟨-, H⟩; iexact H

set_option backward.isDefEq.respectTransparency.types false in
/-- THE FRAME, when every id is a row of the table: every weakly fair execution of @main terminates, nothing faults, and
    the arguments end as launched. -/
theorem frame (hI0 : ∀ i, ((m (((0 : Dev nD) : Thread nD τ).loc main_arg0) : IVec S16x2048 32) i).toNat < 50257)
    (hI2 : ∀ i, ((m (((0 : Dev nD) : Thread nD τ).loc main_arg2) : IVec S16x64 32) i).toNat < 50257) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  GenP.frame_cond m embL () 𝒱₀ L lv (fun _ _ => rfl) ρ (outs m) (adm m) (pdats m) (0 : Dev nD → CellTallies nD τ sig Unit) (fun _ => (BI.emp : sProp 𝕄)) (u₀ m) (hu₀ m)
    (fun _ c => R c) (hE0 ρ) hE2
    (reg0 m (hT0 m hI0)) (fun c => .rfl) (fun c => .rfl)
    (reg1 m (hT1 m hI2)) (fun c => by rw [V3_outs]; exact .rfl) (fun c => .rfl)

set_option backward.isDefEq.respectTransparency.types false in
/-- THE RUN: as the frame, with every unscoped buffer read at the end at the last valuation. -/
theorem run_all (hI0 : ∀ i, ((m (((0 : Dev nD) : Thread nD τ).loc main_arg0) : IVec S16x2048 32) i).toNat < 50257)
    (hI2 : ∀ i, ((m (((0 : Dev nD) : Thread nD τ).loc main_arg2) : IVec S16x64 32) i).toNat < 50257) : θ_run defs (onTc (τ := τ) (main (F := F))) ⟨m, fun _ => 0, ρ⟩ (fun r => ∀ c : Dev nD,
      ∀ b ∈ Pipeline.ucRefs τ sig, r.2.mem (((c : Thread nD τ)).1, b) = GenP.V53 m (outs m) c b) := by
  refine Pipeline.θ_run_regions_kit_dev (pcfgs (F := F)) (adm m) (pdats m) () (cellOf_inj (adm m)) embL defs₀ 𝒱₀ L lv m ρ main
    (GenP.segs m (outs m) 𝒱₀ L lv (fun _ c => R c) () (adm m) (pdats m) (reg0 m (hT0 m hI0)) (reg1 m (hT1 m hI2)))
    (fun c Q => by
      rewrite [main_chain c, Pipeline.Seg.run_eq_chain,
        show (GenP.segs m (outs m) 𝒱₀ L lv (fun _ c => R c) () (adm m) (pdats m) (reg0 m (hT0 m hI0)) (reg1 m (hT1 m hI2)) c).map Pipeline.Seg.prog = [
          StableHlo.seq hostOps0,
          Prog.lift (.customCall (Pipeline.entry 0) ()),
          StableHlo.seq hostOps1,
          Prog.lift (.customCall (Pipeline.entry 1) ()),
          StableHlo.seq hostOps2,
          StableHlo.seq hostOps2_1,
          StableHlo.seq hostOps2_2,
          StableHlo.seq hostOps2_3,
          StableHlo.seq hostOps2_4,
          StableHlo.seq hostOps2_5,
          StableHlo.seq hostOps2_6,
          StableHlo.seq hostOps2_7,
          StableHlo.seq hostOps2_8,
          StableHlo.seq hostOps2_9,
          StableHlo.seq hostOps2_10,
          StableHlo.seq hostOps2_11,
          StableHlo.seq hostOps2_12,
          StableHlo.seq hostOps2_13,
          StableHlo.seq hostOps2_14,
          StableHlo.seq hostOps2_15,
          StableHlo.seq hostOps2_16,
          StableHlo.seq hostOps2_17,
          StableHlo.seq hostOps2_18,
          StableHlo.seq hostOps2_19,
          StableHlo.seq hostOps2_20,
          StableHlo.seq hostOps2_21,
          StableHlo.seq hostOps2_22,
          StableHlo.seq hostOps2_23,
          StableHlo.seq hostOps2_24,
          StableHlo.seq hostOps2_25,
          StableHlo.seq hostOps2_26,
          StableHlo.seq hostOps2_27,
          StableHlo.seq hostOps2_28,
          StableHlo.seq hostOps2_29,
          StableHlo.seq hostOps2_30,
          StableHlo.seq hostOps2_31,
          StableHlo.seq hostOps2_32,
          StableHlo.seq hostOps2_33,
          StableHlo.seq hostOps2_34,
          StableHlo.seq hostOps2_35,
          StableHlo.seq hostOps2_36,
          StableHlo.seq hostOps2_37,
          StableHlo.seq hostOps2_38,
          StableHlo.seq hostOps2_39,
          StableHlo.seq hostOps2_40,
          StableHlo.seq hostOps2_41,
          StableHlo.seq hostOps2_42,
          StableHlo.seq hostOps2_43,
          StableHlo.seq hostOps2_44,
          StableHlo.seq hostOps2_45,
          StableHlo.seq hostOps2_46,
          StableHlo.seq hostOps2_47,
          StableHlo.seq hostOps2_48 ] from rfl]
      with_reducible exact .rfl)
    (fun c => by simp only [GenP.segs, Pipeline.Seg.pipes_host, Pipeline.Seg.pipes_region, Pipeline.Seg.pipes_nil]; decide)
    (0 : Dev nD → CellTallies nD τ sig Unit) (fun _ _ => rfl) (fun _ => (BI.emp : sProp 𝕄)) (u₀ m) (hu₀ m)
    (T₀ := fun c => iprop(StableHlo.held (c : Thread nD τ) (Pipeline.ucRefs τ sig) (GenP.V0 m c) ∗ R c))
    (Tₙ := fun c => StableHlo.held (c : Thread nD τ) (Pipeline.ucRefs τ sig) (GenP.V53 m (outs m) c))
    (hch := fun c => ⟨.rfl, .rfl, .rfl,
      (show (iprop(StableHlo.held (c : Thread nD τ) (Pipeline.ucRefs τ sig) (GenP.V3 m (outs m) c) ∗ R c) : sProp 𝕄) ⊢ iprop(StableHlo.held (c : Thread nD τ) (Pipeline.ucRefs τ sig) (GenP.V3 m (outsA m) c) ∗ R c) from by rw [V3_outs]),
      .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, sep_mono .rfl (hE2 c)⟩)
    (hinit := ?_) (QY := fun c s => ∀ b ∈ Pipeline.ucRefs τ sig, s.mem (((c : Thread nD τ)).1, b) = GenP.V53 m (outs m) c b)
    (hfin := fun c s' => ?_) (hQ := fun _ h => h)
  · refine Pipeline.initEach L lv fun c => ?_
    rw [show unscopedBufs c (fun b => m ((c : Thread nD τ).loc b)) = StableHlo.held (c : Thread nD τ) (Pipeline.ucRefs τ sig) (GenP.V0 m c)
      from Pipeline.unscopedBufs_held c (GenP.V0 m c)]
    iintro ⟨⟨Hh, -, HO, -, Hp, -⟩, -⟩
    imodintro
    isplitl [Hh]; · iexact Hh
    isplitl [Hp]; · iexists _; iexact Hp
    iexists ∅; iexact HO
  · unfold StableHlo.held
    iintro ⟨Hh, HSI⟩
    imodintro
    iapply (pointsTo_read_all (Pipeline.ucRefs τ sig) (fun b => (((c : Thread nD τ)).1, b)) (GenP.V53 m (outs m) c) s')
    isplitl [Hh] <;> iassumption

end Cert.Kernel.KSegs

end
-- ==== Proof.KTab.lean ====
import proofs.«403361_j42786464202989_2_alg».proof.Proof.KernelIdealRegions

set_option maxRecDepth 2468

noncomputable section

namespace Cert.KernelIdeal.KTab

open Cert.KernelIdeal Cert.KernelIdeal.Gen

open Idealize.ShloMosaic Idealize.ShloMosaic.TcCoe
open Idealize.SL Idealize.SL.Sem

variable {F : FTy → Type} [FloatOps F]

theorem chk0 (w : BitVec 32) (h : w.toNat < 50257) : k0_chk1 w := by
  intro a
  fin_cases a
  · show w.toNat + 1 ≤ 50257
    omega
  · show 0 + 1024 ≤ 1024
    omega

theorem chk1 (w : BitVec 32) (h : w.toNat < 50257) : k1_chk1 w := by
  intro a
  fin_cases a
  · show w.toNat + 1 ≤ 50257
    omega
  · show 0 + 1024 ≤ 1024
    omega

variable (m : (ℓ : Loc nD τ sig) → Buf (Elt F) ℓ) (outs : GenP.Outs (F := F))

theorem tab0_eq (c : Dev nD) :
    (GenP.V1 m c main_v0 : IVec S32768 32)
      = shapeCast S32768 (m ((c : Thread nD τ).loc main_arg0) : IVec S16x2048 32) shapeCasts_S16x2048_S32768 := by
  dsimp only [GenP.V1, GenP.V0, hostOps0]
  after_results
  rfl

theorem tab0_lt (c : Dev nD)
    (h : ∀ i, ((m ((c : Thread nD τ).loc main_arg0) : IVec S16x2048 32) i).toNat < 50257) :
    ∀ x, ((GenP.V1 m c main_v0 : IVec S32768 32) x).toNat < 50257 := by
  intro x
  rw [tab0_eq]
  exact h _

theorem arg2_eq (c : Dev nD) : GenP.V2 m outs c main_arg2 = m ((c : Thread nD τ).loc main_arg2) :=
  (GenP.V2_of m outs c main_arg2 (by decide)).trans ((GenP.V1_of m c main_arg2 (by decide)).trans rfl)

theorem tab1_eq (c : Dev nD) :
    (GenP.V3 m outs c main_v4 : IVec S1024 32)
      = shapeCast S1024 (m ((c : Thread nD τ).loc main_arg2) : IVec S16x64 32) shapeCasts_S16x64_S1024 := by
  have e : (GenP.V3 m outs c main_v4 : IVec S1024 32)
      = shapeCast S1024 (GenP.V2 m outs c main_arg2 : IVec S16x64 32) shapeCasts_S16x64_S1024 := by
    dsimp only [GenP.V3, hostOps1]
    after_results
    rfl
  rw [e, arg2_eq]

theorem tab1_lt (c : Dev nD)
    (h : ∀ i, ((m ((c : Thread nD τ).loc main_arg2) : IVec S16x64 32) i).toNat < 50257) :
    ∀ x, ((GenP.V3 m outs c main_v4 : IVec S1024 32) x).toNat < 50257 := by
  intro x
  rw [tab1_eq]
  exact h _

end Cert.KernelIdeal.KTab

end
-- ==== Proof.KIBlk.lean ====
import proofs.«403361_j42786464202989_2_alg».proof.Proof.Gen.KernelIdeal.Launch
import proofs.«403361_j42786464202989_2_alg».proof.Proof.Gen.KernelIdeal.Skeleton
import proofs.«403361_j42786464202989_2_alg».proof.Proof.Rows
import Idealize.ShloMosaic.Lib.Pipeline.FrameBody
import Idealize.ShloMosaic.Lib.ValueIdx

set_option maxRecDepth 2468

noncomputable section

namespace Cert.KernelIdeal.KIBlk

open Cert.KernelIdeal Cert.KernelIdeal.Gen

open Idealize.ShloMosaic Idealize.ShloMosaic.TcCoe Idealize.ShloMosaic.ValueIdx
open Idealize.SL Idealize.SL.Sem

variable {F : FTy → Type} [FloatOps F]

def rowBlk (tbl : FVec F S50257x1024 .f32) (n : Nat) : Vec F S1x1x1024 .f32 :=
  fun y => Cert.Rows.cell tbl n (y 2 : Fin 1024)

theorem unsqueeze (h : S1x1024.numel = S1x1x1024.numel) (d : Fin 1024) :
    Shape.reshapeEquiv h (ix2 (0 : Fin 1) d : S1x1024.Idx) = (ix3 (0 : Fin 1) (0 : Fin 1) d : S1x1x1024.Idx) :=
  Shape.reshapeEquiv_eq_of_rowMajor h (by
    rw [Shape.rowMajor_val_three, Shape.rowMajor_val_two]
    show (0 * 1 + 0) * 1024 + d.val = 0 * 1024 + d.val
    omega)

theorem written (c : Dev nD) (arg3 : Memref sig .tc .vmem S1x1x1024 .f32) (f1 : arg3.view.ty.Contents (Elt F))
    (n : Nat) (hn : n < 50257) (off : Fin 2 → Nat) (h0 : off 0 = n) (h1 : off 1 = 0)
    (inb : ∀ a, off a + S1x1024.size a ≤ S50257x1024.size a)
    (fh : Buf (Elt F) ((Memref.whole main_arg4 : Memref sig .tc .hbm S50257x1024 .f32).view.loc (c : Thread nD τ))) :
    arg3.view.read (Elt F) (View.write (Elt F) ((arg3.slice (Rect.unit (s := S1x1x1024) ![0, 0, 0] S1x1x1024.size inb_S1x1x1024_S1x1x1024_0_0_0) (fun _ => rfl)).squeeze S1x1024 squeezes_S1x1x1024_S1x1024).view f1
      (ReadAs.same.apply (View.read (Elt F) ((Memref.whole main_arg4 : Memref sig .tc .hbm S50257x1024 .f32).slice (Rect.unit (s := S50257x1024) off S1x1024.size inb) (fun _ => rfl)).view fh)) Finset.univ)
      = rowBlk fh n := by
  funext y
  obtain ⟨a, b, d, rfl⟩ : ∃ (a : Fin 1) (b : Fin 1) (d : Fin 1024), y = ix3 a b d := ⟨_, _, _, eq_ix3 y⟩
  obtain rfl : a = 0 := Subsingleton.elim _ _
  obtain rfl : b = 0 := Subsingleton.elim _ _
  have hy : arg3.view.emb (ix3 (0 : Fin 1) (0 : Fin 1) d : S1x1x1024.Idx)
      = ((arg3.slice (Rect.unit (s := S1x1x1024) ![0, 0, 0] S1x1x1024.size inb_S1x1x1024_S1x1x1024_0_0_0) (fun _ => rfl)).squeeze S1x1024 squeezes_S1x1x1024_S1x1024).view.emb
          (ix2 (0 : Fin 1) d : S1x1024.Idx) := by
    show arg3.view.emb _ = arg3.view.emb ((Rect.unit (s := S1x1x1024) ![0, 0, 0] S1x1x1024.size inb_S1x1x1024_S1x1x1024_0_0_0).emb
      (Shape.reshapeEquiv (Shape.Squeezes.numel_eq squeezes_S1x1x1024_S1x1024) (ix2 (0 : Fin 1) d : S1x1024.Idx)))
    refine congrArg _ (funext fun a => Fin.ext ?_)
    rw [unsqueeze]
    match a with
    | ⟨0, _⟩ => show 0 = 0 + 1 * 0; omega
    | ⟨1, _⟩ => show 0 = 0 + 1 * 0; omega
    | ⟨2, _⟩ => show d.val = 0 + 1 * d.val; omega
  rw [View.read_apply, hy, View.write_emb_of_mem _ _ (Finset.mem_univ _), cast_cast, cast_eq]
  show _ = Cert.Rows.cell fh n d
  rw [Cert.Rows.cell_of_lt _ _ hn]
  show _root_.cast _ (fh ((Rect.unit (s := S50257x1024) off S1x1024.size inb).emb (ix2 (0 : Fin 1) d : S1x1024.Idx))) = _
  rw [cast_eq]
  refine congrArg fh (funext fun a => Fin.ext ?_)
  match a with
  | ⟨0, _⟩ => show off 0 + 1 * 0 = n; omega
  | ⟨1, _⟩ => show off 1 + 1 * d.val = d.val; omega

theorem written0 (c : Dev nD) (arg3 : Memref sig .tc .vmem S1x1x1024 .f32) (harg3 : arg3.IsWhole) (f1 : arg3.view.ty.Contents (Elt F))
    (w : BitVec 32) (hw : k0_chk1 w)
    (fh : Buf (Elt F) ((Memref.whole main_arg4 : Memref sig .tc .hbm S50257x1024 .f32).view.loc (c : Thread nD τ))) :
    arg3.view.read (Elt F) (View.write (Elt F) ((arg3.slice (Rect.unit (s := S1x1x1024) ![0, 0, 0] S1x1x1024.size inb_S1x1x1024_S1x1x1024_0_0_0) (fun _ => rfl)).squeeze S1x1024 squeezes_S1x1x1024_S1x1024).view f1
      (ReadAs.same.apply (View.read (Elt F) ((Memref.whole main_arg4 : Memref sig .tc .hbm S50257x1024 .f32).slice (Rect.unit (s := S50257x1024) (k0_off2 w) S1x1024.size (k0_off2_inb w hw)) (fun _ => rfl)).view fh)) Finset.univ)
      = rowBlk fh w.toNat :=
  written c arg3 f1 w.toNat (by have := hw 0; change w.toNat + 1 ≤ 50257 at this; omega) (k0_off2 w) rfl rfl (k0_off2_inb w hw) fh

theorem written1 (c : Dev nD) (arg3 : Memref sig .tc .vmem S1x1x1024 .f32) (harg3 : arg3.IsWhole) (f1 : arg3.view.ty.Contents (Elt F))
    (w : BitVec 32) (hw : k1_chk1 w)
    (fh : Buf (Elt F) ((Memref.whole main_arg4 : Memref sig .tc .hbm S50257x1024 .f32).view.loc (c : Thread nD τ))) :
    arg3.view.read (Elt F) (View.write (Elt F) ((arg3.slice (Rect.unit (s := S1x1x1024) ![0, 0, 0] S1x1x1024.size inb_S1x1x1024_S1x1x1024_0_0_0) (fun _ => rfl)).squeeze S1x1024 squeezes_S1x1x1024_S1x1024).view f1
      (ReadAs.same.apply (View.read (Elt F) ((Memref.whole main_arg4 : Memref sig .tc .hbm S50257x1024 .f32).slice (Rect.unit (s := S50257x1024) (k1_off2 w) S1x1024.size (k1_off2_inb w hw)) (fun _ => rfl)).view fh)) Finset.univ)
      = rowBlk fh w.toNat :=
  written c arg3 f1 w.toNat (by have := hw 0; change w.toNat + 1 ≤ 50257 at this; omega) (k1_off2 w) rfl rfl (k1_off2_inb w hw) fh

end Cert.KernelIdeal.KIBlk

end
-- ==== Proof.KIBody.lean ====
import proofs.«403361_j42786464202989_2_alg».proof.Proof.Gen.KernelIdeal.Launch
import proofs.«403361_j42786464202989_2_alg».proof.Proof.Gen.KernelIdeal.Skeleton
import Idealize.ShloMosaic.Lib.Pipeline.FrameBody
import Idealize.ShloMosaic.Lib.Ring
import Idealize.ShloMosaic.Lib.Tactic
import Idealize.ShloMosaic.Lib.ValueIdx
import proofs.«403361_j42786464202989_2_alg».proof.Proof.KTab
import proofs.«403361_j42786464202989_2_alg».proof.Proof.KIBlk

set_option maxRecDepth 16384

noncomputable section

namespace Cert.KernelIdeal.KIBody

open Cert.KernelIdeal Cert.KernelIdeal.Gen Cert.KernelIdeal.KIBlk
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

abbrev hbM : Memref sig .tc .hbm S50257x1024 .f32 := Memref.whole main_arg4
abbrev MBuf (c : Dev nD) {sp : Space} {S : Shape} {e : EltTy} (M : Memref sig .tc sp S e) : Type := Buf (Elt F) (M.view.loc (c : Thread nD τ))
abbrev mPt (c : Dev nD) {sp : Space} {S : Shape} {e : EltTy} (M : Memref sig .tc sp S e) (f : MBuf (F := F) c M) : sProp 𝕄 :=
  M.view.loc (c : Thread nD τ) ↦{fullShare} f

abbrev tbM0 : Memref sig .tc .smem S32768 .i32 := Memref.whole main_v0

abbrev word0 (c : Dev nD) (i : grid0.Coords) (xt : MBuf (F := F) c tbM0) : BitVec 32 :=
  tbM0.view.readAt (Elt F) (Rect.unit (s := S32768) (k0_off1 i) S1.size (k0_off1_inb i)).toLoadRect xt (Shape.Idx.first (numel1_S1.symm ▸ Nat.one_pos))

set_option maxHeartbeats 1000000 in
theorem run0 (c : Dev nD) (i : grid0.Coords) (arg3 : Memref sig .tc .vmem S1x1x1024 .f32) (harg3 : arg3.IsWhole)
    (xt : MBuf (F := F) c tbM0) (fh : MBuf (F := F) c hbM) (hw : k0_chk1 (word0 c i xt))
    (W : Waits sig Unit) (K : PUnit → sProp 𝕄) :
    iprop((∃ d, owns (c : Thread nD τ) arg3 fullShare d) ∗ mPt c tbM0 xt ∗ semVal ((c : Thread nD τ), SemLoc.dma 2) 0 ∗ mPt c hbM fh ∗ owes (c : Thread nD τ) 0 W
        ∗ (iprop(owns (c : Thread nD τ) arg3 fullShare (rowBlk fh (word0 c i xt).toNat) ∗ mPt c tbM0 xt ∗ semVal ((c : Thread nD τ), SemLoc.dma 2) 0 ∗ mPt c hbM fh ∗ (∃ W', owes (c : Thread nD τ) 0 W')) -∗ K ⟨⟩))
      ⊢ wp frame (wpE (defs₀ (F := F)) Variants.none c none) Set.univ (cc0__gather_kernel i tbM0 (Memref.isWhole_whole _) hbM (Memref.isWhole_whole _) arg3 harg3 cc0_scratch0) K := by
  simp only [cc0__gather_kernel_eq_skeleton]; unfold cc0__gather_kernel_skel
  unfold owns
  iintro ⟨⟨%d1, %f1, -, H1⟩, HT, Hq, Hh, HW, Hk⟩
  sl_exec (disch := first | sl_exact hw)
  sl_step
  iapply Hk
  isplitl [H1]
  · iexists _; isplitr
    swap; · iexact H1
    ipureintro
    sl_unfold_words
    exact written0 c arg3 harg3 f1 _ hw fh
  isplitl [HT]; · iexact HT
  isplitl [Hq]; · iexact Hq
  isplitl [Hh]; · iexact Hh
  iexists _; iexact HW

theorem coords0_val (t : Fin grid0.N) : ((grid0.coords t) 0).val = t.val := by
  show t.val / grid0.stride 0 % 32768 = t.val
  have hs : grid0.stride 0 = 1 := by decide
  have ht : t.val < 32768 := (N_0 ▸ t.isLt)
  rw [hs, Nat.div_one, Nat.mod_eq_of_lt ht]

abbrev tix0 (t : Fin grid0.N) : S32768.Idx := ValueIdx.ix1 (⟨t.val, N_0 ▸ t.isLt⟩ : Fin 32768)

theorem word0_eq (c : Dev nD) (t : Fin grid0.N) (xt : MBuf (F := F) c tbM0) :
    word0 c (grid0.coords t) xt = xt (tix0 t) := by
  show xt ((Rect.unit (s := S32768) (k0_off1 (grid0.coords t)) S1.size (k0_off1_inb (grid0.coords t))).idx (Shape.Idx.first (numel1_S1.symm ▸ Nat.one_pos))) = _
  refine congrArg xt (funext fun a => Fin.ext ?_)
  match a with
  | ⟨0, _⟩ =>
    show (k0_off1 (grid0.coords t)) 0 + 1 * (Shape.Idx.first (numel1_S1.symm ▸ Nat.one_pos : 0 < S1.numel) (0 : Fin 1)).val = t.val
    have h0 : (Shape.Idx.first (numel1_S1.symm ▸ Nat.one_pos : 0 < S1.numel) (0 : Fin 1)).val = 0 := by
      have := (Shape.Idx.first (numel1_S1.symm ▸ Nat.one_pos : 0 < S1.numel) (0 : Fin 1)).isLt
      have e : S1.size (0 : Fin 1) = 1 := by decide
      omega
    have h1 : (k0_off1 (grid0.coords t)) 0 = t.val := by
      show (Scalar.indexCast (BitVec.ofNat 32 ((grid0.coords t) 0).val)).toNat = t.val
      rw [coords0_val]
      have ht : t.val < 32768 := (N_0 ▸ t.isLt)
      show (BitVec.ofNat 32 t.val).toNat = t.val
      rw [BitVec.toNat_ofNat]; omega
    rw [h0, h1]; omega

section Region0

variable (a0 : (pcfg0 (F := F)).Adm)
variable (V : (c : Dev nD) → (b : Ref sig .tc) → Buf (Elt F) ((c : Thread nD τ).loc b))

abbrev osem0 : Fin 1 → SemLoc sig := fun j => (![SemLoc.dma 2] : Fin 1 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 2) 0) := by
  rw [Pipeline.ownSems0_eq_of_list c osem0 [0] (by decide) (by decide)]; rfl
def H0 : Finset (Ref sig .tc) := {main_arg4}
theorem hbmPts0_eq (c : Dev nD) :
    (bigSep H0 (fun b => ((c : Thread nD τ).loc b) ↦{fullShare} V c b) : sProp 𝕄) = iprop(mPt c hbM (V c main_arg4)) := by
  rw [BI.bigSep_eq_bigSepL_of_eq [main_arg4] (by decide) (by decide)]; rfl
theorem pref0_eq (c : Dev nD) :
    (Pipeline.prefHeld (Ix := Unit) (Name := ℕ) (U := Pipeline.UD sig nD τ) (Lvl := ℕ) pre0 c (fun _ => fullShare) a0.1 : sProp 𝕄)
      = iprop(mPt c tbM0 (a0.1 0)) := by
  unfold Pipeline.prefHeld
  rw [bigSep_univ_eq_bigSepL [(0 : Fin 1)] (by decide) (by decide)]; rfl

def dat0 (c : Dev nD) : Dat τ (Elt F) Unit ℕ (Pipeline.UD sig nD τ) ℕ (cfg0 a0) c where
  A w := V c (Pipeline.arrRef spec0 w)
  after w t := match w with
    | ⟨0, _⟩ => rowBlk (V c main_arg4) (a0.1 0 (tix0 t)).toNat
  Φ _ := iprop(Pipeline.ΦD osem0 spec0 H0 V c ∗ Pipeline.prefHeld pre0 c (fun _ => fullShare) a0.1)
  q _ := fullShare
  owed _ := 0

theorem after0_0 (c : Dev nD) (t : Fin (cfg0 a0).N) : (dat0 a0 V c).after 0 t = rowBlk (V c main_arg4) (a0.1 0 (tix0 t)).toNat := by
  dsimp only [dat0]; rfl

abbrev st0 (t : Fin (cfg0 a0).N) := ((cfg0 a0).win 0).stage ((cfg0 a0).slots t 0)
abbrev bodyAt0 (t : Fin (cfg0 a0).N) : Prog (TpuEff nD τ sig (Elt F) Λ₀ .tc) PUnit :=
  cc0__gather_kernel (grid0.coords t) tbM0 (Memref.isWhole_whole _) hbM (Memref.isWhole_whole _) (spec0_0.stage ((cfg0 a0).slots t 0)) (hstage0_0 (((cfg0 a0).slots t 0).cast nbuf0_0)) cc0_scratch0

theorem sound_body0 (hT : ∀ x, (a0.1 0 x).toNat < 50257) (c : Dev nD) (t : Fin (cfg0 a0).N) :
    iprop((dat0 a0 V c).Φ t.castSucc ∗ (dat0 a0 V c).owesAt () t.castSucc
        ∗ (∃ d, owns (c : Thread nD τ) (st0 a0 t) fullShare ((dat0 a0 V c).before 0 t d)))
      ⊢ wp frame (wpE (defs₀ (F := F)) Variants.none c none) Set.univ (bodyAt0 a0 t) (fun _ =>
          iprop((dat0 a0 V c).Φ t.succ ∗ (dat0 a0 V c).owesAt () t.succ
            ∗ owns (c : Thread nD τ) (st0 a0 t) fullShare ((dat0 a0 V c).after 0 t))) := by
  unfold bodyAt0
  rw [show (dat0 a0 V c).Φ t.succ = (dat0 a0 V c).Φ t.castSucc from rfl, after0_0]
  rw [show (dat0 a0 V c).Φ t.castSucc = iprop(Pipeline.ΦD osem0 spec0 H0 V c ∗ Pipeline.prefHeld pre0 c (fun _ => fullShare) a0.1) from rfl,
    Pipeline.ΦD_eq, ownSems00_eq, hbmPts0_eq, pref0_eq]
  unfold Dat.owesAt Pipeline.owesWithin
  rw [show (dat0 a0 V c).owed t.castSucc = 0 from rfl, show (dat0 a0 V c).owed t.succ = 0 from rfl]
  have hwd : word0 c (grid0.coords t) (a0.1 0) = a0.1 0 (tix0 t) := word0_eq c t (a0.1 0)
  have hw : k0_chk1 (word0 c (grid0.coords t) (a0.1 0)) := by
    rw [hwd]; exact Cert.KernelIdeal.KTab.chk0 _ (hT _)
  iintro ⟨⟨⟨HS, Hg, Hq, Hh⟩, HT⟩, ⟨%W, -, HW⟩, ⟨%d0, H0⟩⟩
  iapply (run0 c (grid0.coords t) _ _ (a0.1 0) (V c main_arg4) hw W _)
  isplitl [H0]; · iexists _; iexact H0
  isplitl [HT]; · iexact HT
  isplitl [Hq]; · iexact Hq
  isplitl [Hh]; · iexact Hh
  isplitl [HW]; · iexact HW
  iintro ⟨H0, HT, Hq, Hh, ⟨%W', HW'⟩⟩
  rw [hwd]
  isplitl [HS Hg Hq Hh HT]
  · isplitl [HS Hg Hq Hh]
    · isplitl [HS]; · iexact HS
      isplitl [Hg]; · iexact Hg
      isplitl [Hq]; · iexact Hq
      iexact Hh
    iexact HT
  isplitl [HW']
  · iexists W'; isplitr; · ipureintro; exact fun _ _ => Or.inl trivial
    iexact HW'
  iexact H0

theorem body_obligation0 (hT : ∀ x, (a0.1 0 x).toNat < 50257) (c : Dev nD) :
    BodyObligation (dat0 (F := F) a0 V c) (defs₀ (F := F)) Variants.none () Set.univ := fun t => by
  rw [bigSep_W0, bigSep_W0]
  exact sound_body0 a0 V hT c t

end Region0

abbrev tbM1 : Memref sig .tc .smem S1024 .i32 := Memref.whole main_v4

abbrev word1 (c : Dev nD) (i : grid1.Coords) (xt : MBuf (F := F) c tbM1) : BitVec 32 :=
  tbM1.view.readAt (Elt F) (Rect.unit (s := S1024) (k1_off1 i) S1.size (k1_off1_inb i)).toLoadRect xt (Shape.Idx.first (numel1_S1.symm ▸ Nat.one_pos))

set_option maxHeartbeats 1000000 in
theorem run1 (c : Dev nD) (i : grid1.Coords) (arg3 : Memref sig .tc .vmem S1x1x1024 .f32) (harg3 : arg3.IsWhole)
    (xt : MBuf (F := F) c tbM1) (fh : MBuf (F := F) c hbM) (hw : k1_chk1 (word1 c i xt))
    (W : Waits sig Unit) (K : PUnit → sProp 𝕄) :
    iprop((∃ d, owns (c : Thread nD τ) arg3 fullShare d) ∗ mPt c tbM1 xt ∗ semVal ((c : Thread nD τ), SemLoc.dma 5) 0 ∗ mPt c hbM fh ∗ owes (c : Thread nD τ) 0 W
        ∗ (iprop(owns (c : Thread nD τ) arg3 fullShare (rowBlk fh (word1 c i xt).toNat) ∗ mPt c tbM1 xt ∗ semVal ((c : Thread nD τ), SemLoc.dma 5) 0 ∗ mPt c hbM fh ∗ (∃ W', owes (c : Thread nD τ) 0 W')) -∗ K ⟨⟩))
      ⊢ wp frame (wpE (defs₀ (F := F)) Variants.none c none) Set.univ (cc1__gather_kernel i tbM1 (Memref.isWhole_whole _) hbM (Memref.isWhole_whole _) arg3 harg3 cc1_scratch0) K := by
  simp only [cc1__gather_kernel_eq_skeleton]; unfold cc1__gather_kernel_skel
  unfold owns
  iintro ⟨⟨%d1, %f1, -, H1⟩, HT, Hq, Hh, HW, Hk⟩
  sl_exec (disch := first | sl_exact hw)
  sl_step
  iapply Hk
  isplitl [H1]
  · iexists _; isplitr
    swap; · iexact H1
    ipureintro
    sl_unfold_words
    exact written1 c arg3 harg3 f1 _ hw fh
  isplitl [HT]; · iexact HT
  isplitl [Hq]; · iexact Hq
  isplitl [Hh]; · iexact Hh
  iexists _; iexact HW

theorem coords1_val (t : Fin grid1.N) : ((grid1.coords t) 0).val = t.val := by
  show t.val / grid1.stride 0 % 1024 = t.val
  have hs : grid1.stride 0 = 1 := by decide
  have ht : t.val < 1024 := (N_1 ▸ t.isLt)
  rw [hs, Nat.div_one, Nat.mod_eq_of_lt ht]

abbrev tix1 (t : Fin grid1.N) : S1024.Idx := ValueIdx.ix1 (⟨t.val, N_1 ▸ t.isLt⟩ : Fin 1024)

theorem word1_eq (c : Dev nD) (t : Fin grid1.N) (xt : MBuf (F := F) c tbM1) :
    word1 c (grid1.coords t) xt = xt (tix1 t) := by
  show xt ((Rect.unit (s := S1024) (k1_off1 (grid1.coords t)) S1.size (k1_off1_inb (grid1.coords t))).idx (Shape.Idx.first (numel1_S1.symm ▸ Nat.one_pos))) = _
  refine congrArg xt (funext fun a => Fin.ext ?_)
  match a with
  | ⟨0, _⟩ =>
    show (k1_off1 (grid1.coords t)) 0 + 1 * (Shape.Idx.first (numel1_S1.symm ▸ Nat.one_pos : 0 < S1.numel) (0 : Fin 1)).val = t.val
    have h0 : (Shape.Idx.first (numel1_S1.symm ▸ Nat.one_pos : 0 < S1.numel) (0 : Fin 1)).val = 0 := by
      have := (Shape.Idx.first (numel1_S1.symm ▸ Nat.one_pos : 0 < S1.numel) (0 : Fin 1)).isLt
      have e : S1.size (0 : Fin 1) = 1 := by decide
      omega
    have h1 : (k1_off1 (grid1.coords t)) 0 = t.val := by
      show (Scalar.indexCast (BitVec.ofNat 32 ((grid1.coords t) 0).val)).toNat = t.val
      rw [coords1_val]
      have ht : t.val < 1024 := (N_1 ▸ t.isLt)
      show (BitVec.ofNat 32 t.val).toNat = t.val
      rw [BitVec.toNat_ofNat]; omega
    rw [h0, h1]; omega

section Region1

variable (a1 : (pcfg1 (F := F)).Adm)
variable (V : (c : Dev nD) → (b : Ref sig .tc) → Buf (Elt F) ((c : Thread nD τ).loc b))

abbrev osem1 : Fin 1 → SemLoc sig := fun j => (![SemLoc.dma 5] : Fin 1 → SemLoc sig) j
theorem ownSemFacts1 : Pipeline.OwnSemFacts spec1 osem1 := by decide
theorem ownSems01_eq (c : Dev nD) :
    (Pipeline.ownSems0 (Ix := Unit) (Name := ℕ) (U := Pipeline.UD sig nD τ) (Lvl := ℕ) (Val := Elt F) (τ := τ) osem1 c : sProp 𝕄)
      = iprop(semVal ((c : Thread nD τ), SemLoc.dma 5) 0) := by
  rw [Pipeline.ownSems0_eq_of_list c osem1 [0] (by decide) (by decide)]; rfl
def H1 : Finset (Ref sig .tc) := {main_arg4}
theorem hbmPts1_eq (c : Dev nD) :
    (bigSep H1 (fun b => ((c : Thread nD τ).loc b) ↦{fullShare} V c b) : sProp 𝕄) = iprop(mPt c hbM (V c main_arg4)) := by
  rw [BI.bigSep_eq_bigSepL_of_eq [main_arg4] (by decide) (by decide)]; rfl
theorem pref1_eq (c : Dev nD) :
    (Pipeline.prefHeld (Ix := Unit) (Name := ℕ) (U := Pipeline.UD sig nD τ) (Lvl := ℕ) pre1 c (fun _ => fullShare) a1.1 : sProp 𝕄)
      = iprop(mPt c tbM1 (a1.1 0)) := by
  unfold Pipeline.prefHeld
  rw [bigSep_univ_eq_bigSepL [(0 : Fin 1)] (by decide) (by decide)]; rfl

def dat1 (c : Dev nD) : Dat τ (Elt F) Unit ℕ (Pipeline.UD sig nD τ) ℕ (cfg1 a1) c where
  A w := V c (Pipeline.arrRef spec1 w)
  after w t := match w with
    | ⟨0, _⟩ => rowBlk (V c main_arg4) (a1.1 0 (tix1 t)).toNat
  Φ _ := iprop(Pipeline.ΦD osem1 spec1 H1 V c ∗ Pipeline.prefHeld pre1 c (fun _ => fullShare) a1.1)
  q _ := fullShare
  owed _ := 0

theorem after1_0 (c : Dev nD) (t : Fin (cfg1 a1).N) : (dat1 a1 V c).after 0 t = rowBlk (V c main_arg4) (a1.1 0 (tix1 t)).toNat := by
  dsimp only [dat1]; rfl

abbrev st1 (t : Fin (cfg1 a1).N) := ((cfg1 a1).win 0).stage ((cfg1 a1).slots t 0)
abbrev bodyAt1 (t : Fin (cfg1 a1).N) : Prog (TpuEff nD τ sig (Elt F) Λ₀ .tc) PUnit :=
  cc1__gather_kernel (grid1.coords t) tbM1 (Memref.isWhole_whole _) hbM (Memref.isWhole_whole _) (spec1_0.stage ((cfg1 a1).slots t 0)) (hstage1_0 (((cfg1 a1).slots t 0).cast nbuf1_0)) cc1_scratch0

theorem sound_body1 (hT : ∀ x, (a1.1 0 x).toNat < 50257) (c : Dev nD) (t : Fin (cfg1 a1).N) :
    iprop((dat1 a1 V c).Φ t.castSucc ∗ (dat1 a1 V c).owesAt () t.castSucc
        ∗ (∃ d, owns (c : Thread nD τ) (st1 a1 t) fullShare ((dat1 a1 V c).before 0 t d)))
      ⊢ wp frame (wpE (defs₀ (F := F)) Variants.none c none) Set.univ (bodyAt1 a1 t) (fun _ =>
          iprop((dat1 a1 V c).Φ t.succ ∗ (dat1 a1 V c).owesAt () t.succ
            ∗ owns (c : Thread nD τ) (st1 a1 t) fullShare ((dat1 a1 V c).after 0 t))) := by
  unfold bodyAt1
  rw [show (dat1 a1 V c).Φ t.succ = (dat1 a1 V c).Φ t.castSucc from rfl, after1_0]
  rw [show (dat1 a1 V c).Φ t.castSucc = iprop(Pipeline.ΦD osem1 spec1 H1 V c ∗ Pipeline.prefHeld pre1 c (fun _ => fullShare) a1.1) from rfl,
    Pipeline.ΦD_eq, ownSems01_eq, hbmPts1_eq, pref1_eq]
  unfold Dat.owesAt Pipeline.owesWithin
  rw [show (dat1 a1 V c).owed t.castSucc = 0 from rfl, show (dat1 a1 V c).owed t.succ = 0 from rfl]
  have hwd : word1 c (grid1.coords t) (a1.1 0) = a1.1 0 (tix1 t) := word1_eq c t (a1.1 0)
  have hw : k1_chk1 (word1 c (grid1.coords t) (a1.1 0)) := by
    rw [hwd]; exact Cert.KernelIdeal.KTab.chk1 _ (hT _)
  iintro ⟨⟨⟨HS, Hg, Hq, Hh⟩, HT⟩, ⟨%W, -, HW⟩, ⟨%d0, H1⟩⟩
  iapply (run1 c (grid1.coords t) _ _ (a1.1 0) (V c main_arg4) hw W _)
  isplitl [H1]; · iexists _; iexact H1
  isplitl [HT]; · iexact HT
  isplitl [Hq]; · iexact Hq
  isplitl [Hh]; · iexact Hh
  isplitl [HW]; · iexact HW
  iintro ⟨H1, HT, Hq, Hh, ⟨%W', HW'⟩⟩
  rw [hwd]
  isplitl [HS Hg Hq Hh HT]
  · isplitl [HS Hg Hq Hh]
    · isplitl [HS]; · iexact HS
      isplitl [Hg]; · iexact Hg
      isplitl [Hq]; · iexact Hq
      iexact Hh
    iexact HT
  isplitl [HW']
  · iexists W'; isplitr; · ipureintro; exact fun _ _ => Or.inl trivial
    iexact HW'
  iexact H1

theorem body_obligation1 (hT : ∀ x, (a1.1 0 x).toNat < 50257) (c : Dev nD) :
    BodyObligation (dat1 (F := F) a1 V c) (defs₀ (F := F)) Variants.none () Set.univ := fun t => by
  rw [bigSep_W1, bigSep_W1]
  exact sound_body1 a1 V hT c t

end Region1

end Cert.KernelIdeal.KIBody

end
-- ==== Proof.KISegs.lean ====
import proofs.«403361_j42786464202989_2_alg».proof.Proof.KIBody
import Idealize.ShloMosaic.Lib.Pipeline.RegionsLoop
import Idealize.ShloMosaic.Lib.Pipeline.FrameSuffix

set_option maxRecDepth 16384

noncomputable section

namespace Cert.KernelIdeal.KISegs

open Cert.KernelIdeal Cert.KernelIdeal.Gen Cert.KernelIdeal.KIBlk Cert.KernelIdeal.KIBody
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

abbrev Va : (c : Dev nD) → (b : Ref sig .tc) → Buf (Elt F) ((c : Thread nD τ).loc b) := fun c b => GenP.V1 m c b
abbrev a0 : (pcfg0 (F := F)).Adm := ⟨fun k => GenP.V1 m 0 (pre0.ref k), trivial⟩
def o2 (c : Dev nD) : Buf (Elt F) ((c : Thread nD τ).loc main_v1) := (dat0 (a0 m) (Va m) c).arrAt 0 (cfg0 (a0 m)).N
def outsA : GenP.Outs (F := F) := fun _ r c => if h : r = main_v1 then h ▸ o2 m c else GenP.V1 m c r
abbrev Vb : (c : Dev nD) → (b : Ref sig .tc) → Buf (Elt F) ((c : Thread nD τ).loc b) := fun c b => GenP.V3 m (outsA m) c b
abbrev a1 : (pcfg1 (F := F)).Adm := ⟨fun k => GenP.V3 m (outsA m) 0 (pre1.ref k), trivial⟩
def o4 (c : Dev nD) : Buf (Elt F) ((c : Thread nD τ).loc main_v5) := (dat1 (a1 m) (Vb m) c).arrAt 0 (cfg1 (a1 m)).N
def outs : GenP.Outs (F := F) := fun _ r c =>
  if h : r = main_v1 then h ▸ o2 m c else if h' : r = main_v5 then h' ▸ o4 m c else GenP.V1 m c r

theorem outsA_v1 (J : ℕ) (c : Dev nD) : outsA m J main_v1 c = o2 m c := by unfold outsA; exact dif_pos rfl
theorem outs_v1 (J : ℕ) (c : Dev nD) : outs m J main_v1 c = o2 m c := by unfold outs; exact dif_pos rfl
theorem outs_v5 (J : ℕ) (c : Dev nD) : outs m J main_v5 c = o4 m c := by
  unfold outs; rw [dif_neg (by decide)]; exact dif_pos rfl
theorem V2_outs (c : Dev nD) : GenP.V2 m (outs m) c = GenP.V2 m (outsA m) c := by
  show Function.update (GenP.V1 m c) main_v1 (outs m 2 main_v1 c) = Function.update (GenP.V1 m c) main_v1 (outsA m 2 main_v1 c)
  rw [outs_v1, outsA_v1]
theorem V3_outs (c : Dev nD) : GenP.V3 m (outs m) c = GenP.V3 m (outsA m) c := by
  show StableHlo.after hostOps1 (GenP.V2 m (outs m) c) = StableHlo.after hostOps1 (GenP.V2 m (outsA m) c)
  rw [V2_outs]

def adm : (p : Fin 2) → (pcfgs (F := F) p).Adm
  | ⟨0, _⟩ => a0 m
  | ⟨1, _⟩ => a1 m
def pdats : (p : Fin 2) → (c : Dev nD) → Dat τ (Elt F) Unit ℕ (Pipeline.UD sig nD τ) ℕ (Pipeline.pin (pcfgs (F := F)) (adm m) p) c
  | ⟨0, _⟩ => fun c => dat0 (a0 m) (Va m) c
  | ⟨1, _⟩ => fun c => dat1 (a1 m) (Vb m) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

def T0 : Finset (Ref sig .tc) := {main_v0}
theorem H0_sub : H0 ⊆ Pipeline.restRefs sig spec0 := fun b hb => by
  have e : b = main_arg4 := by simpa [H0] using hb
  rw [e]; exact Pipeline.mem_restRefs_of main_arg4 (by decide) (by decide)
theorem T0_sub : T0 ⊆ Pipeline.restRefs sig spec0 \ H0 := fun b hb => by
  have e : b = main_v0 := by simpa [T0] using hb
  rw [e]; exact Finset.mem_sdiff.mpr ⟨Pipeline.mem_restRefs_of main_v0 (by decide) (by decide), by unfold H0; decide⟩

theorem rest0_split (c : Dev nD) (V : (b : Ref sig .tc) → Buf (Elt F) ((c : Thread nD τ).loc b)) :
    (Pipeline.unscopedRest (Ix := Unit) (Name := ℕ) (U := Pipeline.UD sig nD τ) (Lvl := ℕ) spec0 c V : sProp 𝕄)
      = iprop((bigSep H0 fun b => ((c : Thread nD τ).loc b) ↦{fullShare} V b)
          ∗ (((c : Thread nD τ).loc main_v0) ↦{fullShare} V main_v0)
          ∗ bigSep ((Pipeline.restRefs sig spec0 \ H0) \ T0) fun b => ((c : Thread nD τ).loc b) ↦{fullShare} V b) := by
  unfold Pipeline.unscopedRest
  rw [BI.bigSep_sdiff_split H0_sub, BI.bigSep_sdiff_split T0_sub]
  unfold T0; rw [bigSep_singleton]; rfl

theorem hT0 (hI0 : ∀ i, ((m (((0 : Dev nD) : Thread nD τ).loc main_arg0) : IVec S16x2048 32) i).toNat < 50257) :
    ∀ x, ((a0 m).1 0 x).toNat < 50257 := Cert.KernelIdeal.KTab.tab0_lt m 0 hI0

theorem hF0 (c : Dev nD) (w : Fin (cfg0 (a0 m)).W) : (dat0 (a0 m) (Va m) c).arrAt w (cfg0 (a0 m)).N = GenP.V2 m (outs m) c (Pipeline.arrRef spec0 w) := by
  match w with
  | ⟨0, _⟩ =>
    show o2 m c = Function.update (GenP.V1 m c) main_v1 (outs m 2 main_v1 c) main_v1
    rw [Function.update_self, outs_v1]
theorem hrest0 (c : Dev nD) : ∀ b, b ∉ Finset.univ.image (Pipeline.arrRef spec0) → GenP.V2 m (outs m) c b = GenP.V1 m c b :=
  fun b hb => GenP.V2_of m (outs m) c b (fun h => hb (Finset.mem_image.mpr ⟨0, Finset.mem_univ _, by
    have : b = main_v1 := by simpa using h
    rw [this]⟩))

set_option backward.isDefEq.respectTransparency.types false in
def reg0 (hT : ∀ x, ((a0 m).1 0 x).toNat < 50257) : Pipeline.RegionSeg (pcfgs (F := F)) (adm m) (pdats m) () defs₀ 𝒱₀ L lv 0 where
  win := winFacts0.to₀
  block_pos := block_pos0
  stage_whole := stage_whole0
  K := Fin 1
  osem := osem0
  ho := ownSemFacts0
  hbody c := (body_obligation0 (a0 m) (Va m) hT c).loose
  hwaits := Pipeline.hwaits_of_owed_zero _ _ _ _ L lv 0 fun _ _ => rfl
  pre c := iprop(StableHlo.held (c : Thread nD τ) (Pipeline.ucRefs τ sig) (GenP.V1 m c) ∗ R c)
  post c := iprop(StableHlo.held (c : Thread nD τ) (Pipeline.ucRefs τ sig) (GenP.V2 m (outs m) c) ∗ R c)
  X c := iprop((∃ r, prngReg c r) ∗ Pipeline.ownSems0 (Ix := Unit) (Name := ℕ) (U := Pipeline.UD sig nD τ) (Lvl := ℕ) (Val := Elt F) (τ := τ) osem0 c ∗ (bigSep H0 fun b => (((c : Thread nD τ)).loc b) ↦{fullShare} Va m c b))
  Y c := iprop((∃ r, prngReg c r) ∗ (bigSep H0 fun b => (((c : Thread nD τ)).loc b) ↦{fullShare} Va m c b) ∗ ((((c : Thread nD τ)).loc main_v0) ↦{fullShare} Va m c main_v0))
  Z c := bigSep ((Pipeline.restRefs sig spec0 \ H0) \ T0) fun b => (((c : Thread nD τ)).loc b) ↦{fullShare} Va m c b
  hentry c := by
    obtain rfl : c = 0 := Subsingleton.elim _ _
    have hsplit := Pipeline.arrays_of_unscopedBufs (p := 0) (pcfgs (F := F)) (adm m) (pdats m) winFacts0 arr_whole0 0
      ((pdats m 0 0).share_full fun _ => rfl) (Va m 0) fun _ => rfl
    rw [Pipeline.unscopedBufs_held] at hsplit
    iintro ⟨⟨Hub, Hp, HO⟩, Hos, -⟩
    ihave H := hsplit $$ Hub
    icases H with ⟨Ha, Hrest⟩
    ihave H' := (Entails.of_eq (rest0_split 0 (Va m 0))) $$ Hrest
    icases H' with ⟨HH, Ht, HR⟩
    imodintro
    isplitl [Ha]; · iexact Ha
    isplitl [Ht]
    · iapply (Entails.of_eq (pref0_eq (a0 m) 0).symm)
      iexact Ht
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [show (pdats m 0 c).Φ 0 = iprop(Pipeline.ΦD osem0 spec0 H0 (Va m) c ∗ Pipeline.prefHeld pre0 c (fun _ => fullShare) (a0 m).1) from rfl, Pipeline.ΦD_eq]
    iintro ⟨⟨Hp, Ho, HH⟩, HT, Hr⟩
    isplitl [Hr Hp Ho HH]
    · isplitl [Hr]; · iexact Hr
      isplitl [Hp]; · iexact Hp
      isplitl [Ho]; · iexact Ho
      iexact HH
    iexact HT
  hout c := by
    obtain rfl : c = 0 := Subsingleton.elim _ _
    rw [show (pdats m 0 0).Φ (Fin.last _) = iprop(Pipeline.ΦD osem0 spec0 H0 (Va m) 0 ∗ Pipeline.prefHeld pre0 0 (fun _ => fullShare) (a0 m).1) from rfl, Pipeline.ΦD_eq, pref0_eq]
    iintro ⟨⟨Hr, Hp, Ho, HH⟩, HT⟩
    isplitl [Hp HH HT]
    · isplitl [Hp]; · iexact Hp
      isplitl [HH]; · iexact HH
      iexact HT
    isplitl [Ho]; · iexact Ho
    iexact Hr
  hexit c := by
    have hjoin := Pipeline.unscopedBufs_of_arrays (p := 0) (pcfgs (F := F)) (adm m) (Ix := Unit) (Name := ℕ) (U := Pipeline.UD sig nD τ) (Lvl := ℕ)
      winFacts0 arr_whole0 c (pdats m) ((pdats m 0 c).share_full fun _ => rfl)
      (Va m c) (fun b => GenP.V2 m (outs m) c b) ((pdats m 0 c).arrAt · (cfg0 (a0 m)).N) (hF0 m c) (hrest0 m c)
    rw [Pipeline.unscopedBufs_held] at hjoin
    iintro ⟨Ha, HO, ⟨HY, HH, Ht⟩, HR⟩
    ihave Hrest := (Entails.of_eq (rest0_split c (Va m c)).symm) $$ [HH Ht HR]
    · isplitl [HH]; · iexact HH
      isplitl [Ht]; · iexact Ht
      iexact HR
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

def T1 : Finset (Ref sig .tc) := {main_v4}
theorem H1_sub : H1 ⊆ Pipeline.restRefs sig spec1 := fun b hb => by
  have e : b = main_arg4 := by simpa [H1] using hb
  rw [e]; exact Pipeline.mem_restRefs_of main_arg4 (by decide) (by decide)
theorem T1_sub : T1 ⊆ Pipeline.restRefs sig spec1 \ H1 := fun b hb => by
  have e : b = main_v4 := by simpa [T1] using hb
  rw [e]; exact Finset.mem_sdiff.mpr ⟨Pipeline.mem_restRefs_of main_v4 (by decide) (by decide), by unfold H1; decide⟩

theorem rest1_split (c : Dev nD) (V : (b : Ref sig .tc) → Buf (Elt F) ((c : Thread nD τ).loc b)) :
    (Pipeline.unscopedRest (Ix := Unit) (Name := ℕ) (U := Pipeline.UD sig nD τ) (Lvl := ℕ) spec1 c V : sProp 𝕄)
      = iprop((bigSep H1 fun b => ((c : Thread nD τ).loc b) ↦{fullShare} V b)
          ∗ (((c : Thread nD τ).loc main_v4) ↦{fullShare} V main_v4)
          ∗ bigSep ((Pipeline.restRefs sig spec1 \ H1) \ T1) fun b => ((c : Thread nD τ).loc b) ↦{fullShare} V b) := by
  unfold Pipeline.unscopedRest
  rw [BI.bigSep_sdiff_split H1_sub, BI.bigSep_sdiff_split T1_sub]
  unfold T1; rw [bigSep_singleton]; rfl

theorem hT1 (hI2 : ∀ i, ((m (((0 : Dev nD) : Thread nD τ).loc main_arg2) : IVec S16x64 32) i).toNat < 50257) :
    ∀ x, ((a1 m).1 0 x).toNat < 50257 := Cert.KernelIdeal.KTab.tab1_lt m (outsA m) 0 hI2

theorem hF1 (c : Dev nD) (w : Fin (cfg1 (a1 m)).W) : (dat1 (a1 m) (Vb m) c).arrAt w (cfg1 (a1 m)).N = GenP.V4 m (outs m) c (Pipeline.arrRef spec1 w) := by
  match w with
  | ⟨0, _⟩ =>
    show o4 m c = Function.update (GenP.V3 m (outs m) c) main_v5 (outs m 4 main_v5 c) main_v5
    rw [Function.update_self, outs_v5]
theorem hrest1 (c : Dev nD) : ∀ b, b ∉ Finset.univ.image (Pipeline.arrRef spec1) → GenP.V4 m (outs m) c b = GenP.V3 m (outsA m) c b :=
  fun b hb => (GenP.V4_of m (outs m) c b (fun h => hb (Finset.mem_image.mpr ⟨0, Finset.mem_univ _, by
    have : b = main_v5 := by simpa using h
    rw [this]⟩))).trans (congrFun (V3_outs m c) b)

set_option backward.isDefEq.respectTransparency.types false in
def reg1 (hT : ∀ x, ((a1 m).1 0 x).toNat < 50257) : Pipeline.RegionSeg (pcfgs (F := F)) (adm m) (pdats m) () defs₀ 𝒱₀ L lv 1 where
  win := winFacts1.to₀
  block_pos := block_pos1
  stage_whole := stage_whole1
  K := Fin 1
  osem := osem1
  ho := ownSemFacts1
  hbody c := (body_obligation1 (a1 m) (Vb m) hT c).loose
  hwaits := Pipeline.hwaits_of_owed_zero _ _ _ _ L lv 1 fun _ _ => rfl
  pre c := iprop(StableHlo.held (c : Thread nD τ) (Pipeline.ucRefs τ sig) (GenP.V3 m (outsA m) c) ∗ R c)
  post c := iprop(StableHlo.held (c : Thread nD τ) (Pipeline.ucRefs τ sig) (GenP.V4 m (outs m) c) ∗ R c)
  X c := iprop((∃ r, prngReg c r) ∗ Pipeline.ownSems0 (Ix := Unit) (Name := ℕ) (U := Pipeline.UD sig nD τ) (Lvl := ℕ) (Val := Elt F) (τ := τ) osem1 c ∗ (bigSep H1 fun b => (((c : Thread nD τ)).loc b) ↦{fullShare} Vb m c b))
  Y c := iprop((∃ r, prngReg c r) ∗ (bigSep H1 fun b => (((c : Thread nD τ)).loc b) ↦{fullShare} Vb m c b) ∗ ((((c : Thread nD τ)).loc main_v4) ↦{fullShare} Vb m c main_v4))
  Z c := bigSep ((Pipeline.restRefs sig spec1 \ H1) \ T1) fun b => (((c : Thread nD τ)).loc b) ↦{fullShare} Vb m c b
  hentry c := by
    obtain rfl : c = 0 := Subsingleton.elim _ _
    have hsplit := Pipeline.arrays_of_unscopedBufs (p := 1) (pcfgs (F := F)) (adm m) (pdats m) winFacts1 arr_whole1 0
      ((pdats m 1 0).share_full fun _ => rfl) (Vb m 0) fun _ => rfl
    rw [Pipeline.unscopedBufs_held] at hsplit
    iintro ⟨⟨Hub, Hp, HO⟩, Hos, -⟩
    ihave H := hsplit $$ Hub
    icases H with ⟨Ha, Hrest⟩
    ihave H' := (Entails.of_eq (rest1_split 0 (Vb m 0))) $$ Hrest
    icases H' with ⟨HH, Ht, HR⟩
    imodintro
    isplitl [Ha]; · iexact Ha
    isplitl [Ht]
    · iapply (Entails.of_eq (pref1_eq (a1 m) 0).symm)
      iexact Ht
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [show (pdats m 1 c).Φ 0 = iprop(Pipeline.ΦD osem1 spec1 H1 (Vb m) c ∗ Pipeline.prefHeld pre1 c (fun _ => fullShare) (a1 m).1) from rfl, Pipeline.ΦD_eq]
    iintro ⟨⟨Hp, Ho, HH⟩, HT, Hr⟩
    isplitl [Hr Hp Ho HH]
    · isplitl [Hr]; · iexact Hr
      isplitl [Hp]; · iexact Hp
      isplitl [Ho]; · iexact Ho
      iexact HH
    iexact HT
  hout c := by
    obtain rfl : c = 0 := Subsingleton.elim _ _
    rw [show (pdats m 1 0).Φ (Fin.last _) = iprop(Pipeline.ΦD osem1 spec1 H1 (Vb m) 0 ∗ Pipeline.prefHeld pre1 0 (fun _ => fullShare) (a1 m).1) from rfl, Pipeline.ΦD_eq, pref1_eq]
    iintro ⟨⟨Hr, Hp, Ho, HH⟩, HT⟩
    isplitl [Hp HH HT]
    · isplitl [Hp]; · iexact Hp
      isplitl [HH]; · iexact HH
      iexact HT
    isplitl [Ho]; · iexact Ho
    iexact Hr
  hexit c := by
    have hjoin := Pipeline.unscopedBufs_of_arrays (p := 1) (pcfgs (F := F)) (adm m) (Ix := Unit) (Name := ℕ) (U := Pipeline.UD sig nD τ) (Lvl := ℕ)
      winFacts1 arr_whole1 c (pdats m) ((pdats m 1 c).share_full fun _ => rfl)
      (Vb m c) (fun b => GenP.V4 m (outs m) c b) ((pdats m 1 c).arrAt · (cfg1 (a1 m)).N) (hF1 m c) (hrest1 m c)
    rw [Pipeline.unscopedBufs_held] at hjoin
    iintro ⟨Ha, HO, ⟨HY, HH, Ht⟩, HR⟩
    ihave Hrest := (Entails.of_eq (rest1_split c (Vb m c)).symm) $$ [HH Ht HR]
    · isplitl [HH]; · iexact HH
      isplitl [Ht]; · iexact Ht
      iexact HR
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

variable (ρ : Dev nD → PrngReg)

abbrev u₀ : Pipeline.UD sig nD τ :=
  (initOf (Pipeline.cells (Pipeline.pin (pcfgs (F := F)) (adm m)) (cellOf_inj (adm m))) (Pipeline.launchToks (Pipeline.pin (pcfgs (F := F)) (adm m)) (cellOf_inj (adm m))), 1)

theorem hu₀ : (ownU (u₀ m) : sProp 𝕄) ⊢ |={Set.univ}=> iprop(BI.own (embL (initOf (Pipeline.cells (Pipeline.pin (pcfgs (F := F)) (adm m)) (cellOf_inj (adm m))) (Pipeline.launchToks (Pipeline.pin (pcfgs (F := F)) (adm m)) (cellOf_inj (adm m))))) ∗ bigSep Finset.univ fun _ : Dev nD => (BI.emp : sProp 𝕄)) := by
  iintro Hu
  ihave H := (ownU_pair _ _) $$ Hu
  icases H with ⟨HP, -⟩
  imodintro
  isplitl [HP]; · iexact HP
  iapply (show (BI.emp : sProp 𝕄) ⊢ bigSep Finset.univ (fun _ : Dev nD => (BI.emp : sProp 𝕄)) from by rw [BI.bigSep_emp_const])
  iempintro

theorem hE0 : iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts L lv)
    ⊢ (|={Set.univ}=> bigSep Finset.univ (fun c : Dev nD => R (F := F) c) : sProp 𝕄) := by
  refine Pipeline.initEach L lv fun c => ?_
  iintro ⟨⟨-, HO, -, Hp, -⟩, -⟩
  imodintro
  isplitl [Hp]; · iexists _; iexact Hp
  iexists ∅; iexact HO

theorem hE2 (c : Dev nD) : R (F := F) c ⊢ (iprop(∃ W, owes (c : Thread nD τ) (0 : CellTallies nD τ sig Unit) W) : sProp 𝕄) := by
  iintro ⟨-, H⟩; iexact H

set_option backward.isDefEq.respectTransparency.types false in
theorem frame (hI0 : ∀ i, ((m (((0 : Dev nD) : Thread nD τ).loc main_arg0) : IVec S16x2048 32) i).toNat < 50257)
    (hI2 : ∀ i, ((m (((0 : Dev nD) : Thread nD τ).loc main_arg2) : IVec S16x64 32) i).toNat < 50257) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  GenP.frame_cond m embL () 𝒱₀ L lv (fun _ _ => rfl) ρ (outs m) (adm m) (pdats m) (0 : Dev nD → CellTallies nD τ sig Unit) (fun _ => (BI.emp : sProp 𝕄)) (u₀ m) (hu₀ m)
    (fun _ c => R c) (hE0 ρ) hE2
    (reg0 m (hT0 m hI0)) (fun c => .rfl) (fun c => .rfl)
    (reg1 m (hT1 m hI2)) (fun c => by rw [V3_outs]; exact .rfl) (fun c => .rfl)

set_option backward.isDefEq.respectTransparency.types false in
theorem run_all (hI0 : ∀ i, ((m (((0 : Dev nD) : Thread nD τ).loc main_arg0) : IVec S16x2048 32) i).toNat < 50257)
    (hI2 : ∀ i, ((m (((0 : Dev nD) : Thread nD τ).loc main_arg2) : IVec S16x64 32) i).toNat < 50257) : θ_run defs (onTc (τ := τ) (main (F := F))) ⟨m, fun _ => 0, ρ⟩ (fun r => ∀ c : Dev nD,
      ∀ b ∈ Pipeline.ucRefs τ sig, r.2.mem (((c : Thread nD τ)).1, b) = GenP.V53 m (outs m) c b) := by
  refine Pipeline.θ_run_regions_kit_dev (pcfgs (F := F)) (adm m) (pdats m) () (cellOf_inj (adm m)) embL defs₀ 𝒱₀ L lv m ρ main
    (GenP.segs m (outs m) 𝒱₀ L lv (fun _ c => R c) () (adm m) (pdats m) (reg0 m (hT0 m hI0)) (reg1 m (hT1 m hI2)))
    (fun c Q => by
      rewrite [main_chain c, Pipeline.Seg.run_eq_chain,
        show (GenP.segs m (outs m) 𝒱₀ L lv (fun _ c => R c) () (adm m) (pdats m) (reg0 m (hT0 m hI0)) (reg1 m (hT1 m hI2)) c).map Pipeline.Seg.prog = [
          StableHlo.seq hostOps0,
          Prog.lift (.customCall (Pipeline.entry 0) ()),
          StableHlo.seq hostOps1,
          Prog.lift (.customCall (Pipeline.entry 1) ()),
          StableHlo.seq hostOps2,
          StableHlo.seq hostOps2_1,
          StableHlo.seq hostOps2_2,
          StableHlo.seq hostOps2_3,
          StableHlo.seq hostOps2_4,
          StableHlo.seq hostOps2_5,
          StableHlo.seq hostOps2_6,
          StableHlo.seq hostOps2_7,
          StableHlo.seq hostOps2_8,
          StableHlo.seq hostOps2_9,
          StableHlo.seq hostOps2_10,
          StableHlo.seq hostOps2_11,
          StableHlo.seq hostOps2_12,
          StableHlo.seq hostOps2_13,
          StableHlo.seq hostOps2_14,
          StableHlo.seq hostOps2_15,
          StableHlo.seq hostOps2_16,
          StableHlo.seq hostOps2_17,
          StableHlo.seq hostOps2_18,
          StableHlo.seq hostOps2_19,
          StableHlo.seq hostOps2_20,
          StableHlo.seq hostOps2_21,
          StableHlo.seq hostOps2_22,
          StableHlo.seq hostOps2_23,
          StableHlo.seq hostOps2_24,
          StableHlo.seq hostOps2_25,
          StableHlo.seq hostOps2_26,
          StableHlo.seq hostOps2_27,
          StableHlo.seq hostOps2_28,
          StableHlo.seq hostOps2_29,
          StableHlo.seq hostOps2_30,
          StableHlo.seq hostOps2_31,
          StableHlo.seq hostOps2_32,
          StableHlo.seq hostOps2_33,
          StableHlo.seq hostOps2_34,
          StableHlo.seq hostOps2_35,
          StableHlo.seq hostOps2_36,
          StableHlo.seq hostOps2_37,
          StableHlo.seq hostOps2_38,
          StableHlo.seq hostOps2_39,
          StableHlo.seq hostOps2_40,
          StableHlo.seq hostOps2_41,
          StableHlo.seq hostOps2_42,
          StableHlo.seq hostOps2_43,
          StableHlo.seq hostOps2_44,
          StableHlo.seq hostOps2_45,
          StableHlo.seq hostOps2_46,
          StableHlo.seq hostOps2_47,
          StableHlo.seq hostOps2_48 ] from rfl]
      with_reducible exact .rfl)
    (fun c => by simp only [GenP.segs, Pipeline.Seg.pipes_host, Pipeline.Seg.pipes_region, Pipeline.Seg.pipes_nil]; decide)
    (0 : Dev nD → CellTallies nD τ sig Unit) (fun _ _ => rfl) (fun _ => (BI.emp : sProp 𝕄)) (u₀ m) (hu₀ m)
    (T₀ := fun c => iprop(StableHlo.held (c : Thread nD τ) (Pipeline.ucRefs τ sig) (GenP.V0 m c) ∗ R c))
    (Tₙ := fun c => StableHlo.held (c : Thread nD τ) (Pipeline.ucRefs τ sig) (GenP.V53 m (outs m) c))
    (hch := fun c => ⟨.rfl, .rfl, .rfl,
      (show (iprop(StableHlo.held (c : Thread nD τ) (Pipeline.ucRefs τ sig) (GenP.V3 m (outs m) c) ∗ R c) : sProp 𝕄) ⊢ iprop(StableHlo.held (c : Thread nD τ) (Pipeline.ucRefs τ sig) (GenP.V3 m (outsA m) c) ∗ R c) from by rw [V3_outs]),
      .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, sep_mono .rfl (hE2 c)⟩)
    (hinit := ?_) (QY := fun c s => ∀ b ∈ Pipeline.ucRefs τ sig, s.mem (((c : Thread nD τ)).1, b) = GenP.V53 m (outs m) c b)
    (hfin := fun c s' => ?_) (hQ := fun _ h => h)
  · refine Pipeline.initEach L lv fun c => ?_
    rw [show unscopedBufs c (fun b => m ((c : Thread nD τ).loc b)) = StableHlo.held (c : Thread nD τ) (Pipeline.ucRefs τ sig) (GenP.V0 m c)
      from Pipeline.unscopedBufs_held c (GenP.V0 m c)]
    iintro ⟨⟨Hh, -, HO, -, Hp, -⟩, -⟩
    imodintro
    isplitl [Hh]; · iexact Hh
    isplitl [Hp]; · iexists _; iexact Hp
    iexists ∅; iexact HO
  · unfold StableHlo.held
    iintro ⟨Hh, HSI⟩
    imodintro
    iapply (pointsTo_read_all (Pipeline.ucRefs τ sig) (fun b => (((c : Thread nD τ)).1, b)) (GenP.V53 m (outs m) c) s')
    isplitl [Hh] <;> iassumption

end Cert.KernelIdeal.KISegs

end
-- ==== Proof.RefRunLib.lean ====
import Idealize.ShloMosaic.Lib.StableHlo.Run

noncomputable section

namespace Cert.RunLib

open Idealize.ShloMosaic Idealize.ShloMosaic.StableHlo Idealize.SL.Sem

variable {τ : Topo} {sig : RefSig} {Val : EltTy → Type}

def rank (b : DevRef τ sig) : ℕ := b.idx.val

/-- What the operation writes does not depend on what its result buffers held. -/
def Blind (op : HloOp τ sig Val) : Prop :=
  ∀ F G : Valuation τ sig Val, (∀ b ∈ op.bufs, b ∉ op.writes → F b = G b) → ∀ b ∈ op.writes, op.result F b = op.result G b

def Step (op : HloOp τ sig Val) (k : ℕ) : Prop :=
  (∀ b ∈ op.writes, rank b = k) ∧ (∀ b ∈ op.bufs, b ∉ op.writes → rank b < k) ∧ op.bufs ⊆ tcRefs τ sig ∧ op.fresh = ∅ ∧ Blind op

def Mono : ℕ → List (HloOp τ sig Val) → ℕ → Prop
  | lo, [], hi => lo ≤ hi
  | lo, op :: rest, hi => ∃ k, lo ≤ k ∧ Step op k ∧ Mono (k + 1) rest hi

theorem Mono.nil {lo hi : ℕ} (h : lo ≤ hi) : Mono (τ := τ) (sig := sig) (Val := Val) lo [] hi := h

theorem Mono.cons {op : HloOp τ sig Val} {rest : List (HloOp τ sig Val)} {lo hi : ℕ} (k : ℕ) (hk : lo ≤ k)
    (hs : Step op k) (h : Mono (k + 1) rest hi) : Mono lo (op :: rest) hi := ⟨k, hk, hs, h⟩

theorem Mono.le : ∀ {lo : ℕ} {ops : List (HloOp τ sig Val)} {hi : ℕ}, Mono lo ops hi → lo ≤ hi
  | _, [], _, h => h
  | _, _ :: _, _, ⟨k, hk, _, h⟩ => (hk.trans (Nat.le_succ k)).trans h.le

theorem Mono.append : ∀ {lo : ℕ} {l₁ l₂ : List (HloOp τ sig Val)} {mid hi : ℕ},
    Mono lo l₁ mid → Mono mid l₂ hi → Mono lo (l₁ ++ l₂) hi
  | _, [], l₂, _, _, h₁, h₂ => by
    cases l₂ with
    | nil => exact Nat.le_trans h₁ h₂
    | cons op rest =>
      obtain ⟨k, hk, hs, h⟩ := h₂
      exact ⟨k, Nat.le_trans h₁ hk, hs, h⟩
  | _, _ :: _, _, _, _, ⟨k, hk, hs, h⟩, h₂ => ⟨k, hk, hs, h.append h₂⟩

theorem Mono.writes_ge : ∀ {lo : ℕ} {ops : List (HloOp τ sig Val)} {hi : ℕ}, Mono lo ops hi →
    ∀ op ∈ ops, ∀ b ∈ op.writes, lo ≤ rank b
  | _, [], _, _, _, hop, _, _ => nomatch hop
  | _, o :: rest, _, ⟨k, hk, hs, h⟩, op, hop, b, hb => by
    rcases List.mem_cons.mp hop with rfl | hop
    · rw [hs.1 b hb]; exact hk
    · exact (hk.trans (Nat.le_succ k)).trans (h.writes_ge op hop b hb)

theorem Mono.bufs_sub : ∀ {lo : ℕ} {ops : List (HloOp τ sig Val)} {hi : ℕ}, Mono lo ops hi →
    ops.Forall fun op => op.bufs ⊆ tcRefs τ sig
  | _, [], _, _ => trivial
  | _, _ :: _, _, ⟨_, _, hs, h⟩ => (List.forall_cons _ _ _).mpr ⟨hs.2.2.1, h.bufs_sub⟩

theorem Mono.fresh : ∀ {lo : ℕ} {ops : List (HloOp τ sig Val)} {hi : ℕ}, Mono lo ops hi →
    ∀ op ∈ ops, op.fresh = ∅
  | _, [], _, _, _, hop => nomatch hop
  | _, o :: rest, _, ⟨_, _, hs, h⟩, op, hop => by
    rcases List.mem_cons.mp hop with rfl | hop
    · exact hs.2.2.2.1
    · exact h.fresh op hop

theorem Mono.blind : ∀ {lo : ℕ} {ops : List (HloOp τ sig Val)} {hi : ℕ}, Mono lo ops hi →
    ∀ op ∈ ops, Blind op
  | _, [], _, _, _, hop => nomatch hop
  | _, o :: rest, _, ⟨_, _, hs, h⟩, op, hop => by
    rcases List.mem_cons.mp hop with rfl | hop
    · exact hs.2.2.2.2
    · exact h.blind op hop

theorem Mono.after_below {lo : ℕ} {ops : List (HloOp τ sig Val)} {hi : ℕ} (h : Mono lo ops hi) (V : Valuation τ sig Val)
    {b : DevRef τ sig} (hb : rank b < lo) : after ops V b = V b :=
  after_of_forall_not_mem ops V fun op hop hw => absurd (h.writes_ge op hop b hw) (Nat.not_le.mpr hb)

def Holds (W : Valuation τ sig Val) (op : HloOp τ sig Val) : Prop :=
  ∃ F : Valuation τ sig Val, (∀ b ∈ op.bufs, b ∉ op.writes → F b = W b) ∧ ∀ b ∈ op.writes, W b = op.result F b

def Fix (W : Valuation τ sig Val) : List (HloOp τ sig Val) → Prop
  | [] => True
  | op :: rest => Holds W op ∧ Fix W rest

theorem Fix_append (W : Valuation τ sig Val) : ∀ (l₁ l₂ : List (HloOp τ sig Val)), Fix W (l₁ ++ l₂) ↔ Fix W l₁ ∧ Fix W l₂
  | [], _ => by simp only [List.nil_append, Fix, true_and]
  | op :: rest, l₂ => by simp only [List.cons_append, Fix, Fix_append W rest l₂, and_assoc]

theorem Fix.get {W : Valuation τ sig Val} : ∀ {ops : List (HloOp τ sig Val)}, Fix W ops → ∀ (j : ℕ) (hj : j < ops.length), Holds W ops[j]
  | _ :: _, h, 0, _ => h.1
  | _ :: _, h, j + 1, hj => Fix.get h.2 j (Nat.lt_of_succ_lt_succ hj)

def FixL (W : Valuation τ sig Val) : List (List (HloOp τ sig Val)) → Prop
  | [] => True
  | l :: L => Fix W l ∧ FixL W L

theorem Fix_flatten (W : Valuation τ sig Val) : ∀ L : List (List (HloOp τ sig Val)), Fix W L.flatten ↔ FixL W L
  | [] => Iff.rfl
  | l :: L => by rw [List.flatten_cons, Fix_append, Fix_flatten W L]; rfl

theorem FixL.get {W : Valuation τ sig Val} : ∀ {L : List (List (HloOp τ sig Val))}, FixL W L → ∀ (j : ℕ) (hj : j < L.length), Fix W L[j]
  | _ :: _, h, 0, _ => h.1
  | _ :: _, h, j + 1, hj => FixL.get h.2 j (Nat.lt_of_succ_lt_succ hj)

theorem Mono.fix : ∀ {lo : ℕ} (ops : List (HloOp τ sig Val)) {hi : ℕ} (V : Valuation τ sig Val), Mono lo ops hi → Fix (after ops V) ops
  | _, [], _, _, _ => trivial
  | _, op :: rest, _, V, ⟨k, _, hs, hm⟩ => by
    refine ⟨⟨V, ?_, ?_⟩, Mono.fix rest (op.result V) hm⟩
    · intro b hb hnw
      rw [after_cons, hm.after_below _ (Nat.lt_succ_of_lt (hs.2.1 b hb hnw)), op.result_of_not_mem V hnw]
    · intro b hb
      rw [after_cons, hm.after_below _ (by rw [hs.1 b hb]; exact Nat.lt_succ_self k)]

/-- Running a line from contents that solve its equations changes nothing: each operation writes the value already there. -/
theorem Fix.after_eq {W : Valuation τ sig Val} : ∀ {ops : List (HloOp τ sig Val)}, Fix W ops → (∀ op ∈ ops, Blind op) → after ops W = W
  | [], _, _ => rfl
  | op :: rest, ⟨⟨F, hr, hw⟩, h⟩, hb => by
    have e : op.result W = W := funext fun b => by
      by_cases hm : b ∈ op.writes
      · rw [hb op (List.mem_cons_self ..) W F (fun b' hb' hn => (hr b' hb' hn).symm) b hm, ← hw b hm]
      · exact op.result_of_not_mem W hm
    rw [after_cons, e]
    exact Fix.after_eq h fun o ho => hb o (List.mem_cons_of_mem _ ho)

section Builders

variable {x a b c e y : Ref sig .tc}

private theorem rank_ne {x y : Ref sig .tc} (h : rank (Proc.devRef (τ := τ) .tc x) < rank (Proc.devRef (τ := τ) .tc y)) :
    Proc.devRef (τ := τ) .tc x ∉ ({Proc.devRef .tc y} : Finset (DevRef τ sig)) := by
  rw [Finset.mem_singleton]; intro e; rw [e] at h; exact Nat.lt_irrefl _ h

theorem step_nullary (v : y.ty.Contents Val) (hy) :
    Step (nullary (τ := τ) y v hy) (rank (Proc.devRef (τ := τ) .tc y)) :=
  ⟨fun b hb => by rw [nullary_writes, Finset.mem_singleton] at hb; rw [hb],
   fun b hb hnw => absurd (by rw [nullary_bufs] at hb; rw [nullary_writes]; exact hb) hnw,
   nullary_bufs_sub .., rfl, fun F G h r hr => by
     rw [nullary_writes, Finset.mem_singleton] at hr; subst hr
     rw [nullary_result, nullary_result]⟩

theorem step_unary (f : x.ty.Contents Val → y.ty.Contents Val) (hx hy)
    (h₁ : rank (Proc.devRef (τ := τ) .tc x) < rank (Proc.devRef (τ := τ) .tc y)) :
    Step (unary (τ := τ) x y f hx hy) (rank (Proc.devRef (τ := τ) .tc y)) :=
  ⟨fun b hb => by rw [unary_writes, Finset.mem_singleton] at hb; rw [hb],
   fun b hb hnw => by
     rw [unary_bufs] at hb; rw [unary_writes] at hnw
     rcases Finset.mem_insert.mp hb with rfl | hb
     · exact h₁
     · exact absurd hb hnw,
   unary_bufs_sub .., rfl, fun F G h r hr => by
     rw [unary_writes, Finset.mem_singleton] at hr; subst hr
     rw [unary_result, unary_result,
       h _ (by rw [unary_bufs]; exact Finset.mem_insert_self _ _) (by rw [unary_writes]; exact rank_ne h₁)]⟩

theorem step_reshape (he hn hx hy)
    (h₁ : rank (Proc.devRef (τ := τ) .tc x) < rank (Proc.devRef (τ := τ) .tc y)) :
    Step (reshape (τ := τ) (Val := Val) x y he hn hx hy) (rank (Proc.devRef (τ := τ) .tc y)) :=
  ⟨fun b hb => by rw [reshape_writes, Finset.mem_singleton] at hb; rw [hb],
   fun b hb hnw => by
     rw [reshape_bufs] at hb; rw [reshape_writes] at hnw
     rcases Finset.mem_insert.mp hb with rfl | hb
     · exact h₁
     · exact absurd hb hnw,
   reshape_bufs_sub .., rfl, fun F G h r hr => by
     rw [reshape_writes, Finset.mem_singleton] at hr; subst hr
     rw [reshape_result, reshape_result,
       h _ (by rw [reshape_bufs]; exact Finset.mem_insert_self _ _) (by rw [reshape_writes]; exact rank_ne h₁)]⟩

theorem step_binary (f : a.ty.Contents Val → b.ty.Contents Val → y.ty.Contents Val) (ha hb hy)
    (h₁ : rank (Proc.devRef (τ := τ) .tc a) < rank (Proc.devRef (τ := τ) .tc y))
    (h₂ : rank (Proc.devRef (τ := τ) .tc b) < rank (Proc.devRef (τ := τ) .tc y)) :
    Step (binary (τ := τ) a b y f ha hb hy) (rank (Proc.devRef (τ := τ) .tc y)) :=
  ⟨fun r hr => by rw [binary_writes, Finset.mem_singleton] at hr; rw [hr],
   fun r hr hnw => by
     rw [binary_bufs] at hr; rw [binary_writes] at hnw
     rcases Finset.mem_insert.mp hr with rfl | hr
     · exact h₁
     rcases Finset.mem_insert.mp hr with rfl | hr
     · exact h₂
     · exact absurd hr hnw,
   binary_bufs_sub .., rfl, fun F G h r hr => by
     rw [binary_writes, Finset.mem_singleton] at hr; subst hr
     rw [binary_result, binary_result,
       h _ (by rw [binary_bufs]; exact Finset.mem_insert_self _ _) (by rw [binary_writes]; exact rank_ne h₁),
       h _ (by rw [binary_bufs]; exact Finset.mem_insert_of_mem (Finset.mem_insert_self _ _)) (by rw [binary_writes]; exact rank_ne h₂)]⟩

theorem step_ternary (f : c.ty.Contents Val → a.ty.Contents Val → b.ty.Contents Val → y.ty.Contents Val) (hc ha hb hy)
    (h₀ : rank (Proc.devRef (τ := τ) .tc c) < rank (Proc.devRef (τ := τ) .tc y))
    (h₁ : rank (Proc.devRef (τ := τ) .tc a) < rank (Proc.devRef (τ := τ) .tc y))
    (h₂ : rank (Proc.devRef (τ := τ) .tc b) < rank (Proc.devRef (τ := τ) .tc y)) :
    Step (ternary (τ := τ) c a b y f hc ha hb hy) (rank (Proc.devRef (τ := τ) .tc y)) :=
  ⟨fun r hr => by rw [ternary_writes, Finset.mem_singleton] at hr; rw [hr],
   fun r hr hnw => by
     rw [ternary_bufs] at hr; rw [ternary_writes] at hnw
     rcases Finset.mem_insert.mp hr with rfl | hr
     · exact h₀
     rcases Finset.mem_insert.mp hr with rfl | hr
     · exact h₁
     rcases Finset.mem_insert.mp hr with rfl | hr
     · exact h₂
     · exact absurd hr hnw,
   ternary_bufs_sub .., rfl, fun F G h r hr => by
     rw [ternary_writes, Finset.mem_singleton] at hr; subst hr
     rw [ternary_result, ternary_result,
       h _ (by rw [ternary_bufs]; exact Finset.mem_insert_self _ _) (by rw [ternary_writes]; exact rank_ne h₀),
       h _ (by rw [ternary_bufs]; exact Finset.mem_insert_of_mem (Finset.mem_insert_self _ _)) (by rw [ternary_writes]; exact rank_ne h₁),
       h _ (by rw [ternary_bufs]; exact Finset.mem_insert_of_mem (Finset.mem_insert_of_mem (Finset.mem_insert_self _ _))) (by rw [ternary_writes]; exact rank_ne h₂)]⟩

theorem step_quaternary
    (f : a.ty.Contents Val → b.ty.Contents Val → c.ty.Contents Val → e.ty.Contents Val → y.ty.Contents Val) (ha hb hc he' hy)
    (h₁ : rank (Proc.devRef (τ := τ) .tc a) < rank (Proc.devRef (τ := τ) .tc y))
    (h₂ : rank (Proc.devRef (τ := τ) .tc b) < rank (Proc.devRef (τ := τ) .tc y))
    (h₃ : rank (Proc.devRef (τ := τ) .tc c) < rank (Proc.devRef (τ := τ) .tc y))
    (h₄ : rank (Proc.devRef (τ := τ) .tc e) < rank (Proc.devRef (τ := τ) .tc y)) :
    Step (quaternary (τ := τ) a b c e y f ha hb hc he' hy) (rank (Proc.devRef (τ := τ) .tc y)) :=
  ⟨fun r hr => by rw [quaternary_writes, Finset.mem_singleton] at hr; rw [hr],
   fun r hr hnw => by
     rw [quaternary_bufs] at hr; rw [quaternary_writes] at hnw
     rcases Finset.mem_insert.mp hr with rfl | hr
     · exact h₁
     rcases Finset.mem_insert.mp hr with rfl | hr
     · exact h₂
     rcases Finset.mem_insert.mp hr with rfl | hr
     · exact h₃
     rcases Finset.mem_insert.mp hr with rfl | hr
     · exact h₄
     · exact absurd hr hnw,
   quaternary_bufs_sub .., rfl, fun F G h r hr => by
     rw [quaternary_writes, Finset.mem_singleton] at hr; subst hr
     rw [quaternary_result, quaternary_result,
       h _ (by rw [quaternary_bufs]; exact Finset.mem_insert_self _ _) (by rw [quaternary_writes]; exact rank_ne h₁),
       h _ (by rw [quaternary_bufs]; exact Finset.mem_insert_of_mem (Finset.mem_insert_self _ _)) (by rw [quaternary_writes]; exact rank_ne h₂),
       h _ (by rw [quaternary_bufs]; exact Finset.mem_insert_of_mem (Finset.mem_insert_of_mem (Finset.mem_insert_self _ _))) (by rw [quaternary_writes]; exact rank_ne h₃),
       h _ (by rw [quaternary_bufs]; exact Finset.mem_insert_of_mem (Finset.mem_insert_of_mem (Finset.mem_insert_of_mem (Finset.mem_insert_self _ _)))) (by rw [quaternary_writes]; exact rank_ne h₄)]⟩

end Builders

end Cert.RunLib

end
-- ==== Proof.RefRunOps0.lean ====
import proofs.«403361_j42786464202989_2_alg».proof.ReferenceIdeal
import proofs.«403361_j42786464202989_2_alg».proof.Proof.RefRunLib
import Idealize.ShloMosaic.Lib.Pipeline.Regions

noncomputable section

namespace Cert.ReferenceIdeal.Run

open Cert.ReferenceIdeal Idealize.ShloMosaic Idealize.ShloMosaic.TcCoe Idealize.SL.Sem Idealize.ShloMosaic.StableHlo Cert.RunLib
open Cert.ReferenceIdeal.Facts₀ Cert.ReferenceIdeal.Facts

variable {F : FTy → Type} [FloatOps F] [Cert.ReferenceIdeal.Facts]

abbrev w0_l0 : List (HloOp τ sig (Elt F)) :=
  [ StableHlo.nullary main_c (constantI S_ 32 0#32),
    StableHlo.unary main_c main_v0 (broadcastInDim S16x2048 ![] bcast_S_S16x2048 : (⟨S_, .i32⟩ : BufTy).Contents (Elt F) → (⟨S16x2048, .i32⟩ : BufTy).Contents (Elt F)),
    StableHlo.binary main_arg0 main_v0 main_v1 (cmpi .slt : (⟨S16x2048, .i32⟩ : BufTy).Contents (Elt F) → (⟨S16x2048, .i32⟩ : BufTy).Contents (Elt F) → (⟨S16x2048, .i1⟩ : BufTy).Contents (Elt F)),
    StableHlo.nullary main_c_0 (constantI S_ 32 50257#32),
    StableHlo.unary main_c_0 main_v2 (broadcastInDim S16x2048 ![] bcast_S_S16x2048 : (⟨S_, .i32⟩ : BufTy).Contents (Elt F) → (⟨S16x2048, .i32⟩ : BufTy).Contents (Elt F)),
    StableHlo.binary main_arg0 main_v2 main_v3 (addi : (⟨S16x2048, .i32⟩ : BufTy).Contents (Elt F) → (⟨S16x2048, .i32⟩ : BufTy).Contents (Elt F) → (⟨S16x2048, .i32⟩ : BufTy).Contents (Elt F)),
    StableHlo.ternary main_v1 main_v3 main_arg0 main_v4 (select : (⟨S16x2048, .i1⟩ : BufTy).Contents (Elt F) → (⟨S16x2048, .i32⟩ : BufTy).Contents (Elt F) → (⟨S16x2048, .i32⟩ : BufTy).Contents (Elt F) → (⟨S16x2048, .i32⟩ : BufTy).Contents (Elt F)),
    StableHlo.unary main_v4 main_v5 (broadcastInDim S16x2048x1 ![0, 1] bcast_S16x2048_S16x2048x1_0_1 : (⟨S16x2048, .i32⟩ : BufTy).Contents (Elt F) → (⟨S16x2048x1, .i32⟩ : BufTy).Contents (Elt F)),
    StableHlo.binary main_arg4 main_v5 main_v6 ((fun x i => Host.gather gather_S50257x1024_S16x2048x1_S16x2048x1024_2_0_n_n_0_2_11024 x i) : (⟨S50257x1024, .f32⟩ : BufTy).Contents (Elt F) → (⟨S16x2048x1, .i32⟩ : BufTy).Contents (Elt F) → (⟨S16x2048x1024, .f32⟩ : BufTy).Contents (Elt F)),
    StableHlo.unary main_arg5 main_v7 (broadcastInDim S1x10x1024 ![1, 2] bcast_S10x1024_S1x10x1024_1_2 : (⟨S10x1024, .f32⟩ : BufTy).Contents (Elt F) → (⟨S1x10x1024, .f32⟩ : BufTy).Contents (Elt F)),
    StableHlo.unary main_v7 main_v8 (broadcastInDim S16x10x1024 ![0, 1, 2] bcast_S1x10x1024_S16x10x1024_0_1_2 : (⟨S1x10x1024, .f32⟩ : BufTy).Contents (Elt F) → (⟨S16x10x1024, .f32⟩ : BufTy).Contents (Elt F)),
    StableHlo.binary main_v8 main_v6 main_v9 ((fun a b => concatenate S16x2058x1024 1 [⟨S16x10x1024, a⟩, ⟨S16x2048x1024, b⟩] concatenates_S16x10x1024_S16x2048x1024_S16x2058x1024_d1) : (⟨S16x10x1024, .f32⟩ : BufTy).Contents (Elt F) → (⟨S16x2048x1024, .f32⟩ : BufTy).Contents (Elt F) → (⟨S16x2058x1024, .f32⟩ : BufTy).Contents (Elt F)),
    StableHlo.nullary main_c_1 (constantI S_ 32 1#32),
    StableHlo.unary main_c_1 main_v10 (broadcastInDim S16x10 ![] bcast_S_S16x10 : (⟨S_, .i32⟩ : BufTy).Contents (Elt F) → (⟨S16x10, .i32⟩ : BufTy).Contents (Elt F)),
    StableHlo.binary main_v10 main_arg1 main_v11 ((fun a b => concatenate S16x2058 1 [⟨S16x10, a⟩, ⟨S16x2048, b⟩] concatenates_S16x10_S16x2048_S16x2058_d1) : (⟨S16x10, .i32⟩ : BufTy).Contents (Elt F) → (⟨S16x2048, .i32⟩ : BufTy).Contents (Elt F) → (⟨S16x2058, .i32⟩ : BufTy).Contents (Elt F)),
    StableHlo.nullary main_c_2 (constantI S_ 32 1#32),
    StableHlo.unary main_c_2 main_v12 (broadcastInDim S16x2058 ![] bcast_S_S16x2058 : (⟨S_, .i32⟩ : BufTy).Contents (Elt F) → (⟨S16x2058, .i32⟩ : BufTy).Contents (Elt F)),
    StableHlo.binary main_v12 main_v11 main_v13 (subi : (⟨S16x2058, .i32⟩ : BufTy).Contents (Elt F) → (⟨S16x2058, .i32⟩ : BufTy).Contents (Elt F) → (⟨S16x2058, .i32⟩ : BufTy).Contents (Elt F)) ]
theorem w0_l0_mono : Mono (τ := τ) 7 (w0_l0 (F := F)) 25 :=
    Mono.cons _ (by decide) (step_nullary _ _) <|
    Mono.cons _ (by decide) (step_unary _ _ _ (by decide)) <|
    Mono.cons _ (by decide) (step_binary _ _ _ _ (by decide) (by decide)) <|
    Mono.cons _ (by decide) (step_nullary _ _) <|
    Mono.cons _ (by decide) (step_unary _ _ _ (by decide)) <|
    Mono.cons _ (by decide) (step_binary _ _ _ _ (by decide) (by decide)) <|
    Mono.cons _ (by decide) (step_ternary _ _ _ _ _ (by decide) (by decide) (by decide)) <|
    Mono.cons _ (by decide) (step_unary _ _ _ (by decide)) <|
    Mono.cons _ (by decide) (step_binary _ _ _ _ (by decide) (by decide)) <|
    Mono.cons _ (by decide) (step_unary _ _ _ (by decide)) <|
    Mono.cons _ (by decide) (step_unary _ _ _ (by decide)) <|
    Mono.cons _ (by decide) (step_binary _ _ _ _ (by decide) (by decide)) <|
    Mono.cons _ (by decide) (step_nullary _ _) <|
    Mono.cons _ (by decide) (step_unary _ _ _ (by decide)) <|
    Mono.cons _ (by decide) (step_binary _ _ _ _ (by decide) (by decide)) <|
    Mono.cons _ (by decide) (step_nullary _ _) <|
    Mono.cons _ (by decide) (step_unary _ _ _ (by decide)) <|
    Mono.cons _ (by decide) (step_binary _ _ _ _ (by decide) (by decide)) <|
    Mono.nil (by decide)

abbrev w0_l1 : List (HloOp τ sig (Elt F)) :=
  [ StableHlo.TRef.nullary main_call0.v0 (iotaInDim S16x2058 32 1),
    StableHlo.TRef.nullary main_call0.c (constantI S_ 32 2147483648#32),
    StableHlo.TRef.nullary main_call0.c_0 (constantI S_ 32 0#32),
    StableHlo.TRef.quaternary ((.of main_v13) : StableHlo.TRef sig ⟨S16x2058, .i32⟩) main_call0.v0 main_call0.c main_call0.c_0 main_call0.v1_0 (fun x y u v j => (Host.reduce2 reducer_argmax_i32_i32 x y u v reducesTo_S16x2058_S16_d1 h_S_ j).1),
    StableHlo.TRef.quaternary ((.of main_v13) : StableHlo.TRef sig ⟨S16x2058, .i32⟩) main_call0.v0 main_call0.c main_call0.c_0 main_call0.v1_1 (fun x y u v j => (Host.reduce2 reducer_argmax_i32_i32 x y u v reducesTo_S16x2058_S16_d1 h_S_ j).2) ]
theorem w0_l1_mono : Mono (τ := τ) 25 (w0_l1 (F := F)) 30 :=
    Mono.cons _ (by decide) (step_nullary _ _) <|
    Mono.cons _ (by decide) (step_nullary _ _) <|
    Mono.cons _ (by decide) (step_nullary _ _) <|
    Mono.cons _ (by decide) (step_quaternary _ _ _ _ _ _ (by decide) (by decide) (by decide) (by decide)) <|
    Mono.cons _ (by decide) (step_quaternary _ _ _ _ _ _ (by decide) (by decide) (by decide) (by decide)) <|
    Mono.nil (by decide)

abbrev w0_l2 : List (HloOp τ sig (Elt F)) :=
  [ StableHlo.nullary main_c_3 (constantI S_ 32 1#32),
    StableHlo.unary main_c_3 main_v15 (broadcastInDim S16 ![] bcast_S_S16 : (⟨S_, .i32⟩ : BufTy).Contents (Elt F) → (⟨S16, .i32⟩ : BufTy).Contents (Elt F)),
    StableHlo.binary main_v14 main_v15 main_v16 (addi : (⟨S16, .i32⟩ : BufTy).Contents (Elt F) → (⟨S16, .i32⟩ : BufTy).Contents (Elt F) → (⟨S16, .i32⟩ : BufTy).Contents (Elt F)),
    StableHlo.nullary main_c_4 (constantI S_ 32 0#32),
    StableHlo.unary main_c_4 main_v17 (broadcastInDim S16x64 ![] bcast_S_S16x64 : (⟨S_, .i32⟩ : BufTy).Contents (Elt F) → (⟨S16x64, .i32⟩ : BufTy).Contents (Elt F)),
    StableHlo.binary main_arg2 main_v17 main_v18 (cmpi .slt : (⟨S16x64, .i32⟩ : BufTy).Contents (Elt F) → (⟨S16x64, .i32⟩ : BufTy).Contents (Elt F) → (⟨S16x64, .i1⟩ : BufTy).Contents (Elt F)),
    StableHlo.nullary main_c_5 (constantI S_ 32 50257#32),
    StableHlo.unary main_c_5 main_v19 (broadcastInDim S16x64 ![] bcast_S_S16x64 : (⟨S_, .i32⟩ : BufTy).Contents (Elt F) → (⟨S16x64, .i32⟩ : BufTy).Contents (Elt F)),
    StableHlo.binary main_arg2 main_v19 main_v20 (addi : (⟨S16x64, .i32⟩ : BufTy).Contents (Elt F) → (⟨S16x64, .i32⟩ : BufTy).Contents (Elt F) → (⟨S16x64, .i32⟩ : BufTy).Contents (Elt F)),
    StableHlo.ternary main_v18 main_v20 main_arg2 main_v21 (select : (⟨S16x64, .i1⟩ : BufTy).Contents (Elt F) → (⟨S16x64, .i32⟩ : BufTy).Contents (Elt F) → (⟨S16x64, .i32⟩ : BufTy).Contents (Elt F) → (⟨S16x64, .i32⟩ : BufTy).Contents (Elt F)),
    StableHlo.unary main_v21 main_v22 (broadcastInDim S16x64x1 ![0, 1] bcast_S16x64_S16x64x1_0_1 : (⟨S16x64, .i32⟩ : BufTy).Contents (Elt F) → (⟨S16x64x1, .i32⟩ : BufTy).Contents (Elt F)),
    StableHlo.binary main_arg4 main_v22 main_v23 ((fun x i => Host.gather gather_S50257x1024_S16x64x1_S16x64x1024_2_0_n_n_0_2_11024 x i) : (⟨S50257x1024, .f32⟩ : BufTy).Contents (Elt F) → (⟨S16x64x1, .i32⟩ : BufTy).Contents (Elt F) → (⟨S16x64x1024, .f32⟩ : BufTy).Contents (Elt F)),
    StableHlo.nullary main_v24 (iotaInDim S2122 32 0),
    StableHlo.unary main_v24 main_v25 (broadcastInDim S1x2122 ![1] bcast_S2122_S1x2122_1 : (⟨S2122, .i32⟩ : BufTy).Contents (Elt F) → (⟨S1x2122, .i32⟩ : BufTy).Contents (Elt F)),
    StableHlo.unary main_v16 main_v26 (broadcastInDim S16x1 ![0] bcast_S16_S16x1_0 : (⟨S16, .i32⟩ : BufTy).Contents (Elt F) → (⟨S16x1, .i32⟩ : BufTy).Contents (Elt F)),
    StableHlo.unary main_v25 main_v27 (broadcastInDim S16x2122 ![0, 1] bcast_S1x2122_S16x2122_0_1 : (⟨S1x2122, .i32⟩ : BufTy).Contents (Elt F) → (⟨S16x2122, .i32⟩ : BufTy).Contents (Elt F)),
    StableHlo.unary main_v26 main_v28 (broadcastInDim S16x2122 ![0, 1] bcast_S16x1_S16x2122_0_1 : (⟨S16x1, .i32⟩ : BufTy).Contents (Elt F) → (⟨S16x2122, .i32⟩ : BufTy).Contents (Elt F)),
    StableHlo.binary main_v27 main_v28 main_v29 (cmpi .sge : (⟨S16x2122, .i32⟩ : BufTy).Contents (Elt F) → (⟨S16x2122, .i32⟩ : BufTy).Contents (Elt F) → (⟨S16x2122, .i1⟩ : BufTy).Contents (Elt F)),
    StableHlo.nullary main_c_6 (constantI S_ 32 64#32),
    StableHlo.unary main_c_6 main_v30 (broadcastInDim S16x1 ![] bcast_S_S16x1 : (⟨S_, .i32⟩ : BufTy).Contents (Elt F) → (⟨S16x1, .i32⟩ : BufTy).Contents (Elt F)),
    StableHlo.binary main_v26 main_v30 main_v31 (addi : (⟨S16x1, .i32⟩ : BufTy).Contents (Elt F) → (⟨S16x1, .i32⟩ : BufTy).Contents (Elt F) → (⟨S16x1, .i32⟩ : BufTy).Contents (Elt F)),
    StableHlo.unary main_v25 main_v32 (broadcastInDim S16x2122 ![0, 1] bcast_S1x2122_S16x2122_0_1 : (⟨S1x2122, .i32⟩ : BufTy).Contents (Elt F) → (⟨S16x2122, .i32⟩ : BufTy).Contents (Elt F)),
    StableHlo.unary main_v31 main_v33 (broadcastInDim S16x2122 ![0, 1] bcast_S16x1_S16x2122_0_1 : (⟨S16x1, .i32⟩ : BufTy).Contents (Elt F) → (⟨S16x2122, .i32⟩ : BufTy).Contents (Elt F)),
    StableHlo.binary main_v32 main_v33 main_v34 (cmpi .slt : (⟨S16x2122, .i32⟩ : BufTy).Contents (Elt F) → (⟨S16x2122, .i32⟩ : BufTy).Contents (Elt F) → (⟨S16x2122, .i1⟩ : BufTy).Contents (Elt F)),
    StableHlo.binary main_v29 main_v34 main_v35 (andi : (⟨S16x2122, .i1⟩ : BufTy).Contents (Elt F) → (⟨S16x2122, .i1⟩ : BufTy).Contents (Elt F) → (⟨S16x2122, .i1⟩ : BufTy).Contents (Elt F)),
    StableHlo.unary main_v25 main_v36 (broadcastInDim S16x2122 ![0, 1] bcast_S1x2122_S16x2122_0_1 : (⟨S1x2122, .i32⟩ : BufTy).Contents (Elt F) → (⟨S16x2122, .i32⟩ : BufTy).Contents (Elt F)),
    StableHlo.unary main_v26 main_v37 (broadcastInDim S16x2122 ![0, 1] bcast_S16x1_S16x2122_0_1 : (⟨S16x1, .i32⟩ : BufTy).Contents (Elt F) → (⟨S16x2122, .i32⟩ : BufTy).Contents (Elt F)),
    StableHlo.binary main_v36 main_v37 main_v38 (cmpi .slt : (⟨S16x2122, .i32⟩ : BufTy).Contents (Elt F) → (⟨S16x2122, .i32⟩ : BufTy).Contents (Elt F) → (⟨S16x2122, .i1⟩ : BufTy).Contents (Elt F)),
    StableHlo.nullary main_c_7 (constantI S_ 32 64#32),
    StableHlo.unary main_c_7 main_v39 (broadcastInDim S1x2122 ![] bcast_S_S1x2122 : (⟨S_, .i32⟩ : BufTy).Contents (Elt F) → (⟨S1x2122, .i32⟩ : BufTy).Contents (Elt F)),
    StableHlo.binary main_v25 main_v39 main_v40 (subi : (⟨S1x2122, .i32⟩ : BufTy).Contents (Elt F) → (⟨S1x2122, .i32⟩ : BufTy).Contents (Elt F) → (⟨S1x2122, .i32⟩ : BufTy).Contents (Elt F)),
    StableHlo.nullary main_c_8 (constantI S_ 32 0#32),
    StableHlo.nullary main_c_9 (constantI S_ 32 2057#32) ]
theorem w0_l2_mono : Mono (τ := τ) 30 (w0_l2 (F := F)) 63 :=
    Mono.cons _ (by decide) (step_nullary _ _) <|
    Mono.cons _ (by decide) (step_unary _ _ _ (by decide)) <|
    Mono.cons _ (by decide) (step_binary _ _ _ _ (by decide) (by decide)) <|
    Mono.cons _ (by decide) (step_nullary _ _) <|
    Mono.cons _ (by decide) (step_unary _ _ _ (by decide)) <|
    Mono.cons _ (by decide) (step_binary _ _ _ _ (by decide) (by decide)) <|
    Mono.cons _ (by decide) (step_nullary _ _) <|
    Mono.cons _ (by decide) (step_unary _ _ _ (by decide)) <|
    Mono.cons _ (by decide) (step_binary _ _ _ _ (by decide) (by decide)) <|
    Mono.cons _ (by decide) (step_ternary _ _ _ _ _ (by decide) (by decide) (by decide)) <|
    Mono.cons _ (by decide) (step_unary _ _ _ (by decide)) <|
    Mono.cons _ (by decide) (step_binary _ _ _ _ (by decide) (by decide)) <|
    Mono.cons _ (by decide) (step_nullary _ _) <|
    Mono.cons _ (by decide) (step_unary _ _ _ (by decide)) <|
    Mono.cons _ (by decide) (step_unary _ _ _ (by decide)) <|
    Mono.cons _ (by decide) (step_unary _ _ _ (by decide)) <|
    Mono.cons _ (by decide) (step_unary _ _ _ (by decide)) <|
    Mono.cons _ (by decide) (step_binary _ _ _ _ (by decide) (by decide)) <|
    Mono.cons _ (by decide) (step_nullary _ _) <|
    Mono.cons _ (by decide) (step_unary _ _ _ (by decide)) <|
    Mono.cons _ (by decide) (step_binary _ _ _ _ (by decide) (by decide)) <|
    Mono.cons _ (by decide) (step_unary _ _ _ (by decide)) <|
    Mono.cons _ (by decide) (step_unary _ _ _ (by decide)) <|
    Mono.cons _ (by decide) (step_binary _ _ _ _ (by decide) (by decide)) <|
    Mono.cons _ (by decide) (step_binary _ _ _ _ (by decide) (by decide)) <|
    Mono.cons _ (by decide) (step_unary _ _ _ (by decide)) <|
    Mono.cons _ (by decide) (step_unary _ _ _ (by decide)) <|
    Mono.cons _ (by decide) (step_binary _ _ _ _ (by decide) (by decide)) <|
    Mono.cons _ (by decide) (step_nullary _ _) <|
    Mono.cons _ (by decide) (step_unary _ _ _ (by decide)) <|
    Mono.cons _ (by decide) (step_binary _ _ _ _ (by decide) (by decide)) <|
    Mono.cons _ (by decide) (step_nullary _ _) <|
    Mono.cons _ (by decide) (step_nullary _ _) <|
    Mono.nil (by decide)

abbrev w0_l3 : List (HloOp τ sig (Elt F)) :=
  [ StableHlo.TRef.unary ((.of main_c_8) : StableHlo.TRef sig ⟨S_, .i32⟩) main_call1.v0 id,
    StableHlo.TRef.unary main_call1.v0 main_call1.v1 (broadcastInDim S1x2122 ![] bcast_S_S1x2122),
    StableHlo.TRef.binary main_call1.v1 ((.of main_v40) : StableHlo.TRef sig ⟨S1x2122, .i32⟩) main_call1.v2 maxsi,
    StableHlo.TRef.unary ((.of main_c_9) : StableHlo.TRef sig ⟨S_, .i32⟩) main_call1.v3 id,
    StableHlo.TRef.unary main_call1.v3 main_call1.v4 (broadcastInDim S1x2122 ![] bcast_S_S1x2122),
    StableHlo.TRef.binary main_call1.v4 main_call1.v2 main_call1.v5 minsi ]
theorem w0_l3_mono : Mono (τ := τ) 63 (w0_l3 (F := F)) 69 :=
    Mono.cons _ (by decide) (step_unary _ _ _ (by decide)) <|
    Mono.cons _ (by decide) (step_unary _ _ _ (by decide)) <|
    Mono.cons _ (by decide) (step_binary _ _ _ _ (by decide) (by decide)) <|
    Mono.cons _ (by decide) (step_unary _ _ _ (by decide)) <|
    Mono.cons _ (by decide) (step_unary _ _ _ (by decide)) <|
    Mono.cons _ (by decide) (step_binary _ _ _ _ (by decide) (by decide)) <|
    Mono.nil (by decide)

abbrev w0_l4 : List (HloOp τ sig (Elt F)) :=
  [ StableHlo.TRef.unary ((.of main_v25) : StableHlo.TRef sig ⟨S1x2122, .i32⟩) main_call2.v0 (broadcastInDim S16x2122 ![0, 1] bcast_S1x2122_S16x2122_0_1),
    StableHlo.TRef.unary ((.of main_v41) : StableHlo.TRef sig ⟨S1x2122, .i32⟩) main_call2.v1 (broadcastInDim S16x2122 ![0, 1] bcast_S1x2122_S16x2122_0_1),
    StableHlo.TRef.ternary ((.of main_v38) : StableHlo.TRef sig ⟨S16x2122, .i1⟩) main_call2.v0 main_call2.v1 main_call2.v2 select ]
theorem w0_l4_mono : Mono (τ := τ) 69 (w0_l4 (F := F)) 72 :=
    Mono.cons _ (by decide) (step_unary _ _ _ (by decide)) <|
    Mono.cons _ (by decide) (step_unary _ _ _ (by decide)) <|
    Mono.cons _ (by decide) (step_ternary _ _ _ _ _ (by decide) (by decide) (by decide)) <|
    Mono.nil (by decide)

abbrev w0_l5 : List (HloOp τ sig (Elt F)) :=
  [ StableHlo.unary main_v25 main_v43 (broadcastInDim S16x2122 ![0, 1] bcast_S1x2122_S16x2122_0_1 : (⟨S1x2122, .i32⟩ : BufTy).Contents (Elt F) → (⟨S16x2122, .i32⟩ : BufTy).Contents (Elt F)),
    StableHlo.unary main_v26 main_v44 (broadcastInDim S16x2122 ![0, 1] bcast_S16x1_S16x2122_0_1 : (⟨S16x1, .i32⟩ : BufTy).Contents (Elt F) → (⟨S16x2122, .i32⟩ : BufTy).Contents (Elt F)),
    StableHlo.binary main_v43 main_v44 main_v45 (subi : (⟨S16x2122, .i32⟩ : BufTy).Contents (Elt F) → (⟨S16x2122, .i32⟩ : BufTy).Contents (Elt F) → (⟨S16x2122, .i32⟩ : BufTy).Contents (Elt F)),
    StableHlo.nullary main_c_10 (constantI S_ 32 0#32),
    StableHlo.nullary main_c_11 (constantI S_ 32 63#32) ]
theorem w0_l5_mono : Mono (τ := τ) 72 (w0_l5 (F := F)) 77 :=
    Mono.cons _ (by decide) (step_unary _ _ _ (by decide)) <|
    Mono.cons _ (by decide) (step_unary _ _ _ (by decide)) <|
    Mono.cons _ (by decide) (step_binary _ _ _ _ (by decide) (by decide)) <|
    Mono.cons _ (by decide) (step_nullary _ _) <|
    Mono.cons _ (by decide) (step_nullary _ _) <|
    Mono.nil (by decide)

abbrev w0_l6 : List (HloOp τ sig (Elt F)) :=
  [ StableHlo.TRef.unary ((.of main_c_10) : StableHlo.TRef sig ⟨S_, .i32⟩) main_call3.v0 id,
    StableHlo.TRef.unary main_call3.v0 main_call3.v1 (broadcastInDim S16x2122 ![] bcast_S_S16x2122),
    StableHlo.TRef.binary main_call3.v1 ((.of main_v45) : StableHlo.TRef sig ⟨S16x2122, .i32⟩) main_call3.v2 maxsi,
    StableHlo.TRef.unary ((.of main_c_11) : StableHlo.TRef sig ⟨S_, .i32⟩) main_call3.v3 id,
    StableHlo.TRef.unary main_call3.v3 main_call3.v4 (broadcastInDim S16x2122 ![] bcast_S_S16x2122),
    StableHlo.TRef.binary main_call3.v4 main_call3.v2 main_call3.v5 minsi ]
theorem w0_l6_mono : Mono (τ := τ) 77 (w0_l6 (F := F)) 83 :=
    Mono.cons _ (by decide) (step_unary _ _ _ (by decide)) <|
    Mono.cons _ (by decide) (step_unary _ _ _ (by decide)) <|
    Mono.cons _ (by decide) (step_binary _ _ _ _ (by decide) (by decide)) <|
    Mono.cons _ (by decide) (step_unary _ _ _ (by decide)) <|
    Mono.cons _ (by decide) (step_unary _ _ _ (by decide)) <|
    Mono.cons _ (by decide) (step_binary _ _ _ _ (by decide) (by decide)) <|
    Mono.nil (by decide)

theorem main_part0_chain (c : Dev nD) : main_part0 (F := F) c = (Pipeline.chainK
  [ StableHlo.seq w0_l0,
    StableHlo.seq w0_l1,
    StableHlo.seq w0_l2,
    StableHlo.seq w0_l3,
    StableHlo.seq w0_l4,
    StableHlo.seq w0_l5 ]
  (StableHlo.seq w0_l6) : Prog (TpuEff nD τ sig (Elt F) (Pipeline.Sig Λ₀ (Fin 0) fun p => (pcfgs (F := F) p).Adm) .tc) PUnit) := by
  chain_rfl

end Cert.ReferenceIdeal.Run

end
-- ==== Proof.RefRunOps1.lean ====
import proofs.«403361_j42786464202989_2_alg».proof.ReferenceIdeal
import proofs.«403361_j42786464202989_2_alg».proof.Proof.RefRunLib
import Idealize.ShloMosaic.Lib.Pipeline.Regions

noncomputable section

namespace Cert.ReferenceIdeal.Run

open Cert.ReferenceIdeal Idealize.ShloMosaic Idealize.ShloMosaic.TcCoe Idealize.SL.Sem Idealize.ShloMosaic.StableHlo Cert.RunLib
open Cert.ReferenceIdeal.Facts₀ Cert.ReferenceIdeal.Facts

variable {F : FTy → Type} [FloatOps F] [Cert.ReferenceIdeal.Facts]

abbrev w1_l0 : List (HloOp τ sig (Elt F)) :=
  [ StableHlo.unary main_v42 main_v47 (broadcastInDim S16x2122x1 ![0, 1] bcast_S16x2122_S16x2122x1_0_1 : (⟨S16x2122, .i32⟩ : BufTy).Contents (Elt F) → (⟨S16x2122x1, .i32⟩ : BufTy).Contents (Elt F)) ]
theorem w1_l0_mono : Mono (τ := τ) 83 (w1_l0 (F := F)) 84 :=
    Mono.cons _ (by decide) (step_unary _ _ _ (by decide)) <|
    Mono.nil (by decide)

abbrev w1_l1 : List (HloOp τ sig (Elt F)) :=
  [ StableHlo.TRef.nullary main_call4.c (constantI S_ 32 0#32),
    StableHlo.TRef.unary main_call4.c main_call4.v0 (broadcastInDim S16x2122x1 ![] bcast_S_S16x2122x1),
    StableHlo.TRef.binary ((.of main_v47) : StableHlo.TRef sig ⟨S16x2122x1, .i32⟩) main_call4.v0 main_call4.v1 (cmpi .slt),
    StableHlo.TRef.nullary main_call4.c_0 (constantI S_ 32 2058#32),
    StableHlo.TRef.unary main_call4.c_0 main_call4.v2 (broadcastInDim S16x2122x1 ![] bcast_S_S16x2122x1),
    StableHlo.TRef.binary ((.of main_v47) : StableHlo.TRef sig ⟨S16x2122x1, .i32⟩) main_call4.v2 main_call4.v3 addi,
    StableHlo.TRef.ternary main_call4.v1 main_call4.v3 ((.of main_v47) : StableHlo.TRef sig ⟨S16x2122x1, .i32⟩) main_call4.v4 select,
    StableHlo.TRef.nullary main_call4.c_1 (constantI S1 32 2057#32),
    StableHlo.TRef.nullary main_call4.c_2 (constantI S_ 32 0#32),
    StableHlo.TRef.unary main_call4.c_2 main_call4.v5 (broadcastInDim S16x2122x1 ![] bcast_S_S16x2122x1),
    StableHlo.TRef.binary main_call4.v4 main_call4.v5 main_call4.v6 (cmpi .sge),
    StableHlo.TRef.unary main_call4.c_1 main_call4.v7 (broadcastInDim S1x1x1 ![2] bcast_S1_S1x1x1_2),
    StableHlo.TRef.unary main_call4.v7 main_call4.v8 (broadcastInDim S16x2122x1 ![0, 1, 2] bcast_S1x1x1_S16x2122x1_0_1_2),
    StableHlo.TRef.binary main_call4.v4 main_call4.v8 main_call4.v9 (cmpi .sle),
    StableHlo.TRef.binary main_call4.v6 main_call4.v9 main_call4.v10 andi,
    StableHlo.TRef.nullary main_call4.c_3 (constantI S_ 1 1#1),
    StableHlo.TRef.binary main_call4.v10 main_call4.c_3 main_call4.v11 (fun x v => Host.reduce IntOp.andi x v reducesTo_S16x2122x1_S16x2122_d2 h_S_),
    StableHlo.TRef.binary ((.of main_v9) : StableHlo.TRef sig ⟨S16x2058x1024, .f32⟩) main_call4.v4 main_call4.v12 (fun x i => Host.gather gather_S16x2058x1024_S16x2122x1_S16x2122x1024_2_1_0_0_1_2_111024 x i),
    StableHlo.TRef.unary main_call4.v11 main_call4.v13 (broadcastInDim S16x2122x1024 ![0, 1] bcast_S16x2122_S16x2122x1024_0_1),
    StableHlo.TRef.nullary main_call4.cst (constant S_ .f32 0x7FC00000#32),
    StableHlo.TRef.unary main_call4.cst main_call4.v14 (broadcastInDim S16x2122x1024 ![] bcast_S_S16x2122x1024),
    StableHlo.TRef.ternary main_call4.v13 main_call4.v12 main_call4.v14 main_call4.v15 select ]
theorem w1_l1_mono : Mono (τ := τ) 84 (w1_l1 (F := F)) 106 :=
    Mono.cons _ (by decide) (step_nullary _ _) <|
    Mono.cons _ (by decide) (step_unary _ _ _ (by decide)) <|
    Mono.cons _ (by decide) (step_binary _ _ _ _ (by decide) (by decide)) <|
    Mono.cons _ (by decide) (step_nullary _ _) <|
    Mono.cons _ (by decide) (step_unary _ _ _ (by decide)) <|
    Mono.cons _ (by decide) (step_binary _ _ _ _ (by decide) (by decide)) <|
    Mono.cons _ (by decide) (step_ternary _ _ _ _ _ (by decide) (by decide) (by decide)) <|
    Mono.cons _ (by decide) (step_nullary _ _) <|
    Mono.cons _ (by decide) (step_nullary _ _) <|
    Mono.cons _ (by decide) (step_unary _ _ _ (by decide)) <|
    Mono.cons _ (by decide) (step_binary _ _ _ _ (by decide) (by decide)) <|
    Mono.cons _ (by decide) (step_unary _ _ _ (by decide)) <|
    Mono.cons _ (by decide) (step_unary _ _ _ (by decide)) <|
    Mono.cons _ (by decide) (step_binary _ _ _ _ (by decide) (by decide)) <|
    Mono.cons _ (by decide) (step_binary _ _ _ _ (by decide) (by decide)) <|
    Mono.cons _ (by decide) (step_nullary _ _) <|
    Mono.cons _ (by decide) (step_binary _ _ _ _ (by decide) (by decide)) <|
    Mono.cons _ (by decide) (step_binary _ _ _ _ (by decide) (by decide)) <|
    Mono.cons _ (by decide) (step_unary _ _ _ (by decide)) <|
    Mono.cons _ (by decide) (step_nullary _ _) <|
    Mono.cons _ (by decide) (step_unary _ _ _ (by decide)) <|
    Mono.cons _ (by decide) (step_ternary _ _ _ _ _ (by decide) (by decide) (by decide)) <|
    Mono.nil (by decide)

abbrev w1_l2 : List (HloOp τ sig (Elt F)) :=
  [ StableHlo.unary main_v46 main_v49 (broadcastInDim S16x2122x1 ![0, 1] bcast_S16x2122_S16x2122x1_0_1 : (⟨S16x2122, .i32⟩ : BufTy).Contents (Elt F) → (⟨S16x2122x1, .i32⟩ : BufTy).Contents (Elt F)) ]
theorem w1_l2_mono : Mono (τ := τ) 106 (w1_l2 (F := F)) 107 :=
    Mono.cons _ (by decide) (step_unary _ _ _ (by decide)) <|
    Mono.nil (by decide)

abbrev w1_l3 : List (HloOp τ sig (Elt F)) :=
  [ StableHlo.TRef.nullary main_call5.c (constantI S_ 32 0#32),
    StableHlo.TRef.unary main_call5.c main_call5.v0 (broadcastInDim S16x2122x1 ![] bcast_S_S16x2122x1),
    StableHlo.TRef.binary ((.of main_v49) : StableHlo.TRef sig ⟨S16x2122x1, .i32⟩) main_call5.v0 main_call5.v1 (cmpi .slt),
    StableHlo.TRef.nullary main_call5.c_0 (constantI S_ 32 64#32),
    StableHlo.TRef.unary main_call5.c_0 main_call5.v2 (broadcastInDim S16x2122x1 ![] bcast_S_S16x2122x1),
    StableHlo.TRef.binary ((.of main_v49) : StableHlo.TRef sig ⟨S16x2122x1, .i32⟩) main_call5.v2 main_call5.v3 addi,
    StableHlo.TRef.ternary main_call5.v1 main_call5.v3 ((.of main_v49) : StableHlo.TRef sig ⟨S16x2122x1, .i32⟩) main_call5.v4 select,
    StableHlo.TRef.nullary main_call5.c_1 (constantI S1 32 63#32),
    StableHlo.TRef.nullary main_call5.c_2 (constantI S_ 32 0#32),
    StableHlo.TRef.unary main_call5.c_2 main_call5.v5 (broadcastInDim S16x2122x1 ![] bcast_S_S16x2122x1),
    StableHlo.TRef.binary main_call5.v4 main_call5.v5 main_call5.v6 (cmpi .sge),
    StableHlo.TRef.unary main_call5.c_1 main_call5.v7 (broadcastInDim S1x1x1 ![2] bcast_S1_S1x1x1_2),
    StableHlo.TRef.unary main_call5.v7 main_call5.v8 (broadcastInDim S16x2122x1 ![0, 1, 2] bcast_S1x1x1_S16x2122x1_0_1_2),
    StableHlo.TRef.binary main_call5.v4 main_call5.v8 main_call5.v9 (cmpi .sle),
    StableHlo.TRef.binary main_call5.v6 main_call5.v9 main_call5.v10 andi,
    StableHlo.TRef.nullary main_call5.c_3 (constantI S_ 1 1#1),
    StableHlo.TRef.binary main_call5.v10 main_call5.c_3 main_call5.v11 (fun x v => Host.reduce IntOp.andi x v reducesTo_S16x2122x1_S16x2122_d2 h_S_),
    StableHlo.TRef.binary ((.of main_v23) : StableHlo.TRef sig ⟨S16x64x1024, .f32⟩) main_call5.v4 main_call5.v12 (fun x i => Host.gather gather_S16x64x1024_S16x2122x1_S16x2122x1024_2_1_0_0_1_2_111024 x i),
    StableHlo.TRef.unary main_call5.v11 main_call5.v13 (broadcastInDim S16x2122x1024 ![0, 1] bcast_S16x2122_S16x2122x1024_0_1),
    StableHlo.TRef.nullary main_call5.cst (constant S_ .f32 0x7FC00000#32),
    StableHlo.TRef.unary main_call5.cst main_call5.v14 (broadcastInDim S16x2122x1024 ![] bcast_S_S16x2122x1024),
    StableHlo.TRef.ternary main_call5.v13 main_call5.v12 main_call5.v14 main_call5.v15 select ]
theorem w1_l3_mono : Mono (τ := τ) 107 (w1_l3 (F := F)) 129 :=
    Mono.cons _ (by decide) (step_nullary _ _) <|
    Mono.cons _ (by decide) (step_unary _ _ _ (by decide)) <|
    Mono.cons _ (by decide) (step_binary _ _ _ _ (by decide) (by decide)) <|
    Mono.cons _ (by decide) (step_nullary _ _) <|
    Mono.cons _ (by decide) (step_unary _ _ _ (by decide)) <|
    Mono.cons _ (by decide) (step_binary _ _ _ _ (by decide) (by decide)) <|
    Mono.cons _ (by decide) (step_ternary _ _ _ _ _ (by decide) (by decide) (by decide)) <|
    Mono.cons _ (by decide) (step_nullary _ _) <|
    Mono.cons _ (by decide) (step_nullary _ _) <|
    Mono.cons _ (by decide) (step_unary _ _ _ (by decide)) <|
    Mono.cons _ (by decide) (step_binary _ _ _ _ (by decide) (by decide)) <|
    Mono.cons _ (by decide) (step_unary _ _ _ (by decide)) <|
    Mono.cons _ (by decide) (step_unary _ _ _ (by decide)) <|
    Mono.cons _ (by decide) (step_binary _ _ _ _ (by decide) (by decide)) <|
    Mono.cons _ (by decide) (step_binary _ _ _ _ (by decide) (by decide)) <|
    Mono.cons _ (by decide) (step_nullary _ _) <|
    Mono.cons _ (by decide) (step_binary _ _ _ _ (by decide) (by decide)) <|
    Mono.cons _ (by decide) (step_binary _ _ _ _ (by decide) (by decide)) <|
    Mono.cons _ (by decide) (step_unary _ _ _ (by decide)) <|
    Mono.cons _ (by decide) (step_nullary _ _) <|
    Mono.cons _ (by decide) (step_unary _ _ _ (by decide)) <|
    Mono.cons _ (by decide) (step_ternary _ _ _ _ _ (by decide) (by decide) (by decide)) <|
    Mono.nil (by decide)

abbrev w1_l4 : List (HloOp τ sig (Elt F)) :=
  [ StableHlo.unary main_v35 main_v51 (broadcastInDim S16x2122x1 ![0, 1] bcast_S16x2122_S16x2122x1_0_1 : (⟨S16x2122, .i1⟩ : BufTy).Contents (Elt F) → (⟨S16x2122x1, .i1⟩ : BufTy).Contents (Elt F)) ]
theorem w1_l4_mono : Mono (τ := τ) 129 (w1_l4 (F := F)) 130 :=
    Mono.cons _ (by decide) (step_unary _ _ _ (by decide)) <|
    Mono.nil (by decide)

abbrev w1_l5 : List (HloOp τ sig (Elt F)) :=
  [ StableHlo.TRef.unary ((.of main_v51) : StableHlo.TRef sig ⟨S16x2122x1, .i1⟩) main_call6.v0 (broadcastInDim S16x2122x1024 ![0, 1, 2] bcast_S16x2122x1_S16x2122x1024_0_1_2),
    StableHlo.TRef.ternary main_call6.v0 ((.of main_v50) : StableHlo.TRef sig ⟨S16x2122x1024, .f32⟩) ((.of main_v48) : StableHlo.TRef sig ⟨S16x2122x1024, .f32⟩) main_call6.v1 select ]
theorem w1_l5_mono : Mono (τ := τ) 130 (w1_l5 (F := F)) 132 :=
    Mono.cons _ (by decide) (step_unary _ _ _ (by decide)) <|
    Mono.cons _ (by decide) (step_ternary _ _ _ _ _ (by decide) (by decide) (by decide)) <|
    Mono.nil (by decide)

abbrev w1_l6 : List (HloOp τ sig (Elt F)) :=
  [ StableHlo.unary main_v11 main_v53 (sitofp .f32 : (⟨S16x2058, .i32⟩ : BufTy).Contents (Elt F) → (⟨S16x2058, .f32⟩ : BufTy).Contents (Elt F)),
    StableHlo.unary main_arg3 main_v54 (sitofp .f32 : (⟨S16x64, .i32⟩ : BufTy).Contents (Elt F) → (⟨S16x64, .f32⟩ : BufTy).Contents (Elt F)),
    StableHlo.nullary main_v55 (iotaInDim S2122 32 0),
    StableHlo.unary main_v55 main_v56 (broadcastInDim S1x2122 ![1] bcast_S2122_S1x2122_1 : (⟨S2122, .i32⟩ : BufTy).Contents (Elt F) → (⟨S1x2122, .i32⟩ : BufTy).Contents (Elt F)),
    StableHlo.unary main_v16 main_v57 (broadcastInDim S16x1 ![0] bcast_S16_S16x1_0 : (⟨S16, .i32⟩ : BufTy).Contents (Elt F) → (⟨S16x1, .i32⟩ : BufTy).Contents (Elt F)),
    StableHlo.unary main_v56 main_v58 (broadcastInDim S16x2122 ![0, 1] bcast_S1x2122_S16x2122_0_1 : (⟨S1x2122, .i32⟩ : BufTy).Contents (Elt F) → (⟨S16x2122, .i32⟩ : BufTy).Contents (Elt F)),
    StableHlo.unary main_v57 main_v59 (broadcastInDim S16x2122 ![0, 1] bcast_S16x1_S16x2122_0_1 : (⟨S16x1, .i32⟩ : BufTy).Contents (Elt F) → (⟨S16x2122, .i32⟩ : BufTy).Contents (Elt F)),
    StableHlo.binary main_v58 main_v59 main_v60 (cmpi .sge : (⟨S16x2122, .i32⟩ : BufTy).Contents (Elt F) → (⟨S16x2122, .i32⟩ : BufTy).Contents (Elt F) → (⟨S16x2122, .i1⟩ : BufTy).Contents (Elt F)),
    StableHlo.nullary main_c_12 (constantI S_ 32 64#32),
    StableHlo.unary main_c_12 main_v61 (broadcastInDim S16x1 ![] bcast_S_S16x1 : (⟨S_, .i32⟩ : BufTy).Contents (Elt F) → (⟨S16x1, .i32⟩ : BufTy).Contents (Elt F)),
    StableHlo.binary main_v57 main_v61 main_v62 (addi : (⟨S16x1, .i32⟩ : BufTy).Contents (Elt F) → (⟨S16x1, .i32⟩ : BufTy).Contents (Elt F) → (⟨S16x1, .i32⟩ : BufTy).Contents (Elt F)),
    StableHlo.unary main_v56 main_v63 (broadcastInDim S16x2122 ![0, 1] bcast_S1x2122_S16x2122_0_1 : (⟨S1x2122, .i32⟩ : BufTy).Contents (Elt F) → (⟨S16x2122, .i32⟩ : BufTy).Contents (Elt F)),
    StableHlo.unary main_v62 main_v64 (broadcastInDim S16x2122 ![0, 1] bcast_S16x1_S16x2122_0_1 : (⟨S16x1, .i32⟩ : BufTy).Contents (Elt F) → (⟨S16x2122, .i32⟩ : BufTy).Contents (Elt F)),
    StableHlo.binary main_v63 main_v64 main_v65 (cmpi .slt : (⟨S16x2122, .i32⟩ : BufTy).Contents (Elt F) → (⟨S16x2122, .i32⟩ : BufTy).Contents (Elt F) → (⟨S16x2122, .i1⟩ : BufTy).Contents (Elt F)),
    StableHlo.binary main_v60 main_v65 main_v66 (andi : (⟨S16x2122, .i1⟩ : BufTy).Contents (Elt F) → (⟨S16x2122, .i1⟩ : BufTy).Contents (Elt F) → (⟨S16x2122, .i1⟩ : BufTy).Contents (Elt F)),
    StableHlo.unary main_v56 main_v67 (broadcastInDim S16x2122 ![0, 1] bcast_S1x2122_S16x2122_0_1 : (⟨S1x2122, .i32⟩ : BufTy).Contents (Elt F) → (⟨S16x2122, .i32⟩ : BufTy).Contents (Elt F)),
    StableHlo.unary main_v57 main_v68 (broadcastInDim S16x2122 ![0, 1] bcast_S16x1_S16x2122_0_1 : (⟨S16x1, .i32⟩ : BufTy).Contents (Elt F) → (⟨S16x2122, .i32⟩ : BufTy).Contents (Elt F)),
    StableHlo.binary main_v67 main_v68 main_v69 (cmpi .slt : (⟨S16x2122, .i32⟩ : BufTy).Contents (Elt F) → (⟨S16x2122, .i32⟩ : BufTy).Contents (Elt F) → (⟨S16x2122, .i1⟩ : BufTy).Contents (Elt F)),
    StableHlo.nullary main_c_13 (constantI S_ 32 64#32),
    StableHlo.unary main_c_13 main_v70 (broadcastInDim S1x2122 ![] bcast_S_S1x2122 : (⟨S_, .i32⟩ : BufTy).Contents (Elt F) → (⟨S1x2122, .i32⟩ : BufTy).Contents (Elt F)),
    StableHlo.binary main_v56 main_v70 main_v71 (subi : (⟨S1x2122, .i32⟩ : BufTy).Contents (Elt F) → (⟨S1x2122, .i32⟩ : BufTy).Contents (Elt F) → (⟨S1x2122, .i32⟩ : BufTy).Contents (Elt F)),
    StableHlo.nullary main_c_14 (constantI S_ 32 0#32),
    StableHlo.nullary main_c_15 (constantI S_ 32 2057#32) ]
theorem w1_l6_mono : Mono (τ := τ) 132 (w1_l6 (F := F)) 155 :=
    Mono.cons _ (by decide) (step_unary _ _ _ (by decide)) <|
    Mono.cons _ (by decide) (step_unary _ _ _ (by decide)) <|
    Mono.cons _ (by decide) (step_nullary _ _) <|
    Mono.cons _ (by decide) (step_unary _ _ _ (by decide)) <|
    Mono.cons _ (by decide) (step_unary _ _ _ (by decide)) <|
    Mono.cons _ (by decide) (step_unary _ _ _ (by decide)) <|
    Mono.cons _ (by decide) (step_unary _ _ _ (by decide)) <|
    Mono.cons _ (by decide) (step_binary _ _ _ _ (by decide) (by decide)) <|
    Mono.cons _ (by decide) (step_nullary _ _) <|
    Mono.cons _ (by decide) (step_unary _ _ _ (by decide)) <|
    Mono.cons _ (by decide) (step_binary _ _ _ _ (by decide) (by decide)) <|
    Mono.cons _ (by decide) (step_unary _ _ _ (by decide)) <|
    Mono.cons _ (by decide) (step_unary _ _ _ (by decide)) <|
    Mono.cons _ (by decide) (step_binary _ _ _ _ (by decide) (by decide)) <|
    Mono.cons _ (by decide) (step_binary _ _ _ _ (by decide) (by decide)) <|
    Mono.cons _ (by decide) (step_unary _ _ _ (by decide)) <|
    Mono.cons _ (by decide) (step_unary _ _ _ (by decide)) <|
    Mono.cons _ (by decide) (step_binary _ _ _ _ (by decide) (by decide)) <|
    Mono.cons _ (by decide) (step_nullary _ _) <|
    Mono.cons _ (by decide) (step_unary _ _ _ (by decide)) <|
    Mono.cons _ (by decide) (step_binary _ _ _ _ (by decide) (by decide)) <|
    Mono.cons _ (by decide) (step_nullary _ _) <|
    Mono.cons _ (by decide) (step_nullary _ _) <|
    Mono.nil (by decide)

abbrev w1_l7 : List (HloOp τ sig (Elt F)) :=
  [ StableHlo.TRef.unary ((.of main_c_14) : StableHlo.TRef sig ⟨S_, .i32⟩) main_call7.v0 id,
    StableHlo.TRef.unary main_call7.v0 main_call7.v1 (broadcastInDim S1x2122 ![] bcast_S_S1x2122),
    StableHlo.TRef.binary main_call7.v1 ((.of main_v71) : StableHlo.TRef sig ⟨S1x2122, .i32⟩) main_call7.v2 maxsi,
    StableHlo.TRef.unary ((.of main_c_15) : StableHlo.TRef sig ⟨S_, .i32⟩) main_call7.v3 id,
    StableHlo.TRef.unary main_call7.v3 main_call7.v4 (broadcastInDim S1x2122 ![] bcast_S_S1x2122),
    StableHlo.TRef.binary main_call7.v4 main_call7.v2 main_call7.v5 minsi ]
theorem w1_l7_mono : Mono (τ := τ) 155 (w1_l7 (F := F)) 161 :=
    Mono.cons _ (by decide) (step_unary _ _ _ (by decide)) <|
    Mono.cons _ (by decide) (step_unary _ _ _ (by decide)) <|
    Mono.cons _ (by decide) (step_binary _ _ _ _ (by decide) (by decide)) <|
    Mono.cons _ (by decide) (step_unary _ _ _ (by decide)) <|
    Mono.cons _ (by decide) (step_unary _ _ _ (by decide)) <|
    Mono.cons _ (by decide) (step_binary _ _ _ _ (by decide) (by decide)) <|
    Mono.nil (by decide)

abbrev w1_l8 : List (HloOp τ sig (Elt F)) :=
  [ StableHlo.TRef.unary ((.of main_v56) : StableHlo.TRef sig ⟨S1x2122, .i32⟩) main_call8.v0 (broadcastInDim S16x2122 ![0, 1] bcast_S1x2122_S16x2122_0_1),
    StableHlo.TRef.unary ((.of main_v72) : StableHlo.TRef sig ⟨S1x2122, .i32⟩) main_call8.v1 (broadcastInDim S16x2122 ![0, 1] bcast_S1x2122_S16x2122_0_1),
    StableHlo.TRef.ternary ((.of main_v69) : StableHlo.TRef sig ⟨S16x2122, .i1⟩) main_call8.v0 main_call8.v1 main_call8.v2 select ]
theorem w1_l8_mono : Mono (τ := τ) 161 (w1_l8 (F := F)) 164 :=
    Mono.cons _ (by decide) (step_unary _ _ _ (by decide)) <|
    Mono.cons _ (by decide) (step_unary _ _ _ (by decide)) <|
    Mono.cons _ (by decide) (step_ternary _ _ _ _ _ (by decide) (by decide) (by decide)) <|
    Mono.nil (by decide)

abbrev w1_l9 : List (HloOp τ sig (Elt F)) :=
  [ StableHlo.unary main_v56 main_v74 (broadcastInDim S16x2122 ![0, 1] bcast_S1x2122_S16x2122_0_1 : (⟨S1x2122, .i32⟩ : BufTy).Contents (Elt F) → (⟨S16x2122, .i32⟩ : BufTy).Contents (Elt F)),
    StableHlo.unary main_v57 main_v75 (broadcastInDim S16x2122 ![0, 1] bcast_S16x1_S16x2122_0_1 : (⟨S16x1, .i32⟩ : BufTy).Contents (Elt F) → (⟨S16x2122, .i32⟩ : BufTy).Contents (Elt F)),
    StableHlo.binary main_v74 main_v75 main_v76 (subi : (⟨S16x2122, .i32⟩ : BufTy).Contents (Elt F) → (⟨S16x2122, .i32⟩ : BufTy).Contents (Elt F) → (⟨S16x2122, .i32⟩ : BufTy).Contents (Elt F)),
    StableHlo.nullary main_c_16 (constantI S_ 32 0#32),
    StableHlo.nullary main_c_17 (constantI S_ 32 63#32) ]
theorem w1_l9_mono : Mono (τ := τ) 164 (w1_l9 (F := F)) 169 :=
    Mono.cons _ (by decide) (step_unary _ _ _ (by decide)) <|
    Mono.cons _ (by decide) (step_unary _ _ _ (by decide)) <|
    Mono.cons _ (by decide) (step_binary _ _ _ _ (by decide) (by decide)) <|
    Mono.cons _ (by decide) (step_nullary _ _) <|
    Mono.cons _ (by decide) (step_nullary _ _) <|
    Mono.nil (by decide)

abbrev w1_l10 : List (HloOp τ sig (Elt F)) :=
  [ StableHlo.TRef.unary ((.of main_c_16) : StableHlo.TRef sig ⟨S_, .i32⟩) main_call9.v0 id,
    StableHlo.TRef.unary main_call9.v0 main_call9.v1 (broadcastInDim S16x2122 ![] bcast_S_S16x2122),
    StableHlo.TRef.binary main_call9.v1 ((.of main_v76) : StableHlo.TRef sig ⟨S16x2122, .i32⟩) main_call9.v2 maxsi,
    StableHlo.TRef.unary ((.of main_c_17) : StableHlo.TRef sig ⟨S_, .i32⟩) main_call9.v3 id,
    StableHlo.TRef.unary main_call9.v3 main_call9.v4 (broadcastInDim S16x2122 ![] bcast_S_S16x2122),
    StableHlo.TRef.binary main_call9.v4 main_call9.v2 main_call9.v5 minsi ]
theorem w1_l10_mono : Mono (τ := τ) 169 (w1_l10 (F := F)) 175 :=
    Mono.cons _ (by decide) (step_unary _ _ _ (by decide)) <|
    Mono.cons _ (by decide) (step_unary _ _ _ (by decide)) <|
    Mono.cons _ (by decide) (step_binary _ _ _ _ (by decide) (by decide)) <|
    Mono.cons _ (by decide) (step_unary _ _ _ (by decide)) <|
    Mono.cons _ (by decide) (step_unary _ _ _ (by decide)) <|
    Mono.cons _ (by decide) (step_binary _ _ _ _ (by decide) (by decide)) <|
    Mono.nil (by decide)

abbrev w1_l11 : List (HloOp τ sig (Elt F)) :=
  [ StableHlo.TRef.nullary main_call10.c (constantI S_ 32 0#32),
    StableHlo.TRef.unary main_call10.c main_call10.v0 (broadcastInDim S16x2122 ![] bcast_S_S16x2122),
    StableHlo.TRef.binary ((.of main_v73) : StableHlo.TRef sig ⟨S16x2122, .i32⟩) main_call10.v0 main_call10.v1 (cmpi .slt),
    StableHlo.TRef.nullary main_call10.c_0 (constantI S_ 32 2058#32),
    StableHlo.TRef.unary main_call10.c_0 main_call10.v2 (broadcastInDim S16x2122 ![] bcast_S_S16x2122),
    StableHlo.TRef.binary ((.of main_v73) : StableHlo.TRef sig ⟨S16x2122, .i32⟩) main_call10.v2 main_call10.v3 addi,
    StableHlo.TRef.ternary main_call10.v1 main_call10.v3 ((.of main_v73) : StableHlo.TRef sig ⟨S16x2122, .i32⟩) main_call10.v4 select,
    StableHlo.TRef.reshape main_call10.v4 main_call10.v5 rfl shapeCasts_S16x2122_S16x2122x1,
    StableHlo.TRef.nullary main_call10.c_1 (constantI S1 32 2057#32),
    StableHlo.TRef.nullary main_call10.c_2 (constantI S_ 32 0#32),
    StableHlo.TRef.unary main_call10.c_2 main_call10.v6 (broadcastInDim S16x2122x1 ![] bcast_S_S16x2122x1),
    StableHlo.TRef.binary main_call10.v5 main_call10.v6 main_call10.v7 (cmpi .sge),
    StableHlo.TRef.unary main_call10.c_1 main_call10.v8 (broadcastInDim S1x1x1 ![2] bcast_S1_S1x1x1_2),
    StableHlo.TRef.unary main_call10.v8 main_call10.v9 (broadcastInDim S16x2122x1 ![0, 1, 2] bcast_S1x1x1_S16x2122x1_0_1_2),
    StableHlo.TRef.binary main_call10.v5 main_call10.v9 main_call10.v10 (cmpi .sle),
    StableHlo.TRef.binary main_call10.v7 main_call10.v10 main_call10.v11 andi,
    StableHlo.TRef.nullary main_call10.c_3 (constantI S_ 1 1#1),
    StableHlo.TRef.binary main_call10.v11 main_call10.c_3 main_call10.v12 (fun x v => Host.reduce IntOp.andi x v reducesTo_S16x2122x1_S16x2122_d2 h_S_),
    StableHlo.TRef.binary ((.of main_v53) : StableHlo.TRef sig ⟨S16x2058, .f32⟩) main_call10.v5 main_call10.v13 (fun x i => Host.gather gather_S16x2058_S16x2122x1_S16x2122_n_1_0_0_1_2_11 x i),
    StableHlo.TRef.nullary main_call10.cst (constant S_ .f32 0x7FC00000#32),
    StableHlo.TRef.unary main_call10.cst main_call10.v14 (broadcastInDim S16x2122 ![] bcast_S_S16x2122),
    StableHlo.TRef.ternary main_call10.v12 main_call10.v13 main_call10.v14 main_call10.v15 select ]
theorem w1_l11_mono : Mono (τ := τ) 175 (w1_l11 (F := F)) 197 :=
    Mono.cons _ (by decide) (step_nullary _ _) <|
    Mono.cons _ (by decide) (step_unary _ _ _ (by decide)) <|
    Mono.cons _ (by decide) (step_binary _ _ _ _ (by decide) (by decide)) <|
    Mono.cons _ (by decide) (step_nullary _ _) <|
    Mono.cons _ (by decide) (step_unary _ _ _ (by decide)) <|
    Mono.cons _ (by decide) (step_binary _ _ _ _ (by decide) (by decide)) <|
    Mono.cons _ (by decide) (step_ternary _ _ _ _ _ (by decide) (by decide) (by decide)) <|
    Mono.cons _ (by decide) (step_reshape _ _ _ _ (by decide)) <|
    Mono.cons _ (by decide) (step_nullary _ _) <|
    Mono.cons _ (by decide) (step_nullary _ _) <|
    Mono.cons _ (by decide) (step_unary _ _ _ (by decide)) <|
    Mono.cons _ (by decide) (step_binary _ _ _ _ (by decide) (by decide)) <|
    Mono.cons _ (by decide) (step_unary _ _ _ (by decide)) <|
    Mono.cons _ (by decide) (step_unary _ _ _ (by decide)) <|
    Mono.cons _ (by decide) (step_binary _ _ _ _ (by decide) (by decide)) <|
    Mono.cons _ (by decide) (step_binary _ _ _ _ (by decide) (by decide)) <|
    Mono.cons _ (by decide) (step_nullary _ _) <|
    Mono.cons _ (by decide) (step_binary _ _ _ _ (by decide) (by decide)) <|
    Mono.cons _ (by decide) (step_binary _ _ _ _ (by decide) (by decide)) <|
    Mono.cons _ (by decide) (step_nullary _ _) <|
    Mono.cons _ (by decide) (step_unary _ _ _ (by decide)) <|
    Mono.cons _ (by decide) (step_ternary _ _ _ _ _ (by decide) (by decide) (by decide)) <|
    Mono.nil (by decide)

abbrev w1_l12 : List (HloOp τ sig (Elt F)) :=
  [ StableHlo.TRef.nullary main_call11.c (constantI S_ 32 0#32),
    StableHlo.TRef.unary main_call11.c main_call11.v0 (broadcastInDim S16x2122 ![] bcast_S_S16x2122),
    StableHlo.TRef.binary ((.of main_v77) : StableHlo.TRef sig ⟨S16x2122, .i32⟩) main_call11.v0 main_call11.v1 (cmpi .slt),
    StableHlo.TRef.nullary main_call11.c_0 (constantI S_ 32 64#32),
    StableHlo.TRef.unary main_call11.c_0 main_call11.v2 (broadcastInDim S16x2122 ![] bcast_S_S16x2122),
    StableHlo.TRef.binary ((.of main_v77) : StableHlo.TRef sig ⟨S16x2122, .i32⟩) main_call11.v2 main_call11.v3 addi,
    StableHlo.TRef.ternary main_call11.v1 main_call11.v3 ((.of main_v77) : StableHlo.TRef sig ⟨S16x2122, .i32⟩) main_call11.v4 select,
    StableHlo.TRef.reshape main_call11.v4 main_call11.v5 rfl shapeCasts_S16x2122_S16x2122x1,
    StableHlo.TRef.nullary main_call11.c_1 (constantI S1 32 63#32),
    StableHlo.TRef.nullary main_call11.c_2 (constantI S_ 32 0#32),
    StableHlo.TRef.unary main_call11.c_2 main_call11.v6 (broadcastInDim S16x2122x1 ![] bcast_S_S16x2122x1),
    StableHlo.TRef.binary main_call11.v5 main_call11.v6 main_call11.v7 (cmpi .sge),
    StableHlo.TRef.unary main_call11.c_1 main_call11.v8 (broadcastInDim S1x1x1 ![2] bcast_S1_S1x1x1_2),
    StableHlo.TRef.unary main_call11.v8 main_call11.v9 (broadcastInDim S16x2122x1 ![0, 1, 2] bcast_S1x1x1_S16x2122x1_0_1_2),
    StableHlo.TRef.binary main_call11.v5 main_call11.v9 main_call11.v10 (cmpi .sle),
    StableHlo.TRef.binary main_call11.v7 main_call11.v10 main_call11.v11 andi,
    StableHlo.TRef.nullary main_call11.c_3 (constantI S_ 1 1#1),
    StableHlo.TRef.binary main_call11.v11 main_call11.c_3 main_call11.v12 (fun x v => Host.reduce IntOp.andi x v reducesTo_S16x2122x1_S16x2122_d2 h_S_),
    StableHlo.TRef.binary ((.of main_v54) : StableHlo.TRef sig ⟨S16x64, .f32⟩) main_call11.v5 main_call11.v13 (fun x i => Host.gather gather_S16x64_S16x2122x1_S16x2122_n_1_0_0_1_2_11 x i),
    StableHlo.TRef.nullary main_call11.cst (constant S_ .f32 0x7FC00000#32),
    StableHlo.TRef.unary main_call11.cst main_call11.v14 (broadcastInDim S16x2122 ![] bcast_S_S16x2122),
    StableHlo.TRef.ternary main_call11.v12 main_call11.v13 main_call11.v14 main_call11.v15 select ]
theorem w1_l12_mono : Mono (τ := τ) 197 (w1_l12 (F := F)) 219 :=
    Mono.cons _ (by decide) (step_nullary _ _) <|
    Mono.cons _ (by decide) (step_unary _ _ _ (by decide)) <|
    Mono.cons _ (by decide) (step_binary _ _ _ _ (by decide) (by decide)) <|
    Mono.cons _ (by decide) (step_nullary _ _) <|
    Mono.cons _ (by decide) (step_unary _ _ _ (by decide)) <|
    Mono.cons _ (by decide) (step_binary _ _ _ _ (by decide) (by decide)) <|
    Mono.cons _ (by decide) (step_ternary _ _ _ _ _ (by decide) (by decide) (by decide)) <|
    Mono.cons _ (by decide) (step_reshape _ _ _ _ (by decide)) <|
    Mono.cons _ (by decide) (step_nullary _ _) <|
    Mono.cons _ (by decide) (step_nullary _ _) <|
    Mono.cons _ (by decide) (step_unary _ _ _ (by decide)) <|
    Mono.cons _ (by decide) (step_binary _ _ _ _ (by decide) (by decide)) <|
    Mono.cons _ (by decide) (step_unary _ _ _ (by decide)) <|
    Mono.cons _ (by decide) (step_unary _ _ _ (by decide)) <|
    Mono.cons _ (by decide) (step_binary _ _ _ _ (by decide) (by decide)) <|
    Mono.cons _ (by decide) (step_binary _ _ _ _ (by decide) (by decide)) <|
    Mono.cons _ (by decide) (step_nullary _ _) <|
    Mono.cons _ (by decide) (step_binary _ _ _ _ (by decide) (by decide)) <|
    Mono.cons _ (by decide) (step_binary _ _ _ _ (by decide) (by decide)) <|
    Mono.cons _ (by decide) (step_nullary _ _) <|
    Mono.cons _ (by decide) (step_unary _ _ _ (by decide)) <|
    Mono.cons _ (by decide) (step_ternary _ _ _ _ _ (by decide) (by decide) (by decide)) <|
    Mono.nil (by decide)

abbrev w1_l13 : List (HloOp τ sig (Elt F)) :=
  [ StableHlo.TRef.ternary ((.of main_v66) : StableHlo.TRef sig ⟨S16x2122, .i1⟩) ((.of main_v79) : StableHlo.TRef sig ⟨S16x2122, .f32⟩) ((.of main_v78) : StableHlo.TRef sig ⟨S16x2122, .f32⟩) main_call12.v0 select ]
theorem w1_l13_mono : Mono (τ := τ) 219 (w1_l13 (F := F)) 220 :=
    Mono.cons _ (by decide) (step_ternary _ _ _ _ _ (by decide) (by decide) (by decide)) <|
    Mono.nil (by decide)

abbrev w1_l14 : List (HloOp τ sig (Elt F)) :=
  [ StableHlo.unary main_arg6 main_v81 (broadcastInDim S1x5x1024 ![1, 2] bcast_S5x1024_S1x5x1024_1_2 : (⟨S5x1024, .f32⟩ : BufTy).Contents (Elt F) → (⟨S1x5x1024, .f32⟩ : BufTy).Contents (Elt F)),
    StableHlo.unary main_v81 main_v82 (broadcastInDim S16x5x1024 ![0, 1, 2] bcast_S1x5x1024_S16x5x1024_0_1_2 : (⟨S1x5x1024, .f32⟩ : BufTy).Contents (Elt F) → (⟨S16x5x1024, .f32⟩ : BufTy).Contents (Elt F)),
    StableHlo.nullary main_v83 (iotaInDim S2127 32 0),
    StableHlo.unary main_v83 main_v84 (broadcastInDim S1x2127 ![1] bcast_S2127_S1x2127_1 : (⟨S2127, .i32⟩ : BufTy).Contents (Elt F) → (⟨S1x2127, .i32⟩ : BufTy).Contents (Elt F)),
    StableHlo.unary main_v16 main_v85 (broadcastInDim S16x1 ![0] bcast_S16_S16x1_0 : (⟨S16, .i32⟩ : BufTy).Contents (Elt F) → (⟨S16x1, .i32⟩ : BufTy).Contents (Elt F)),
    StableHlo.unary main_v84 main_v86 (broadcastInDim S16x2127 ![0, 1] bcast_S1x2127_S16x2127_0_1 : (⟨S1x2127, .i32⟩ : BufTy).Contents (Elt F) → (⟨S16x2127, .i32⟩ : BufTy).Contents (Elt F)),
    StableHlo.unary main_v85 main_v87 (broadcastInDim S16x2127 ![0, 1] bcast_S16x1_S16x2127_0_1 : (⟨S16x1, .i32⟩ : BufTy).Contents (Elt F) → (⟨S16x2127, .i32⟩ : BufTy).Contents (Elt F)),
    StableHlo.binary main_v86 main_v87 main_v88 (cmpi .sge : (⟨S16x2127, .i32⟩ : BufTy).Contents (Elt F) → (⟨S16x2127, .i32⟩ : BufTy).Contents (Elt F) → (⟨S16x2127, .i1⟩ : BufTy).Contents (Elt F)),
    StableHlo.nullary main_c_18 (constantI S_ 32 5#32),
    StableHlo.unary main_c_18 main_v89 (broadcastInDim S16x1 ![] bcast_S_S16x1 : (⟨S_, .i32⟩ : BufTy).Contents (Elt F) → (⟨S16x1, .i32⟩ : BufTy).Contents (Elt F)),
    StableHlo.binary main_v85 main_v89 main_v90 (addi : (⟨S16x1, .i32⟩ : BufTy).Contents (Elt F) → (⟨S16x1, .i32⟩ : BufTy).Contents (Elt F) → (⟨S16x1, .i32⟩ : BufTy).Contents (Elt F)),
    StableHlo.unary main_v84 main_v91 (broadcastInDim S16x2127 ![0, 1] bcast_S1x2127_S16x2127_0_1 : (⟨S1x2127, .i32⟩ : BufTy).Contents (Elt F) → (⟨S16x2127, .i32⟩ : BufTy).Contents (Elt F)),
    StableHlo.unary main_v90 main_v92 (broadcastInDim S16x2127 ![0, 1] bcast_S16x1_S16x2127_0_1 : (⟨S16x1, .i32⟩ : BufTy).Contents (Elt F) → (⟨S16x2127, .i32⟩ : BufTy).Contents (Elt F)),
    StableHlo.binary main_v91 main_v92 main_v93 (cmpi .slt : (⟨S16x2127, .i32⟩ : BufTy).Contents (Elt F) → (⟨S16x2127, .i32⟩ : BufTy).Contents (Elt F) → (⟨S16x2127, .i1⟩ : BufTy).Contents (Elt F)),
    StableHlo.binary main_v88 main_v93 main_v94 (andi : (⟨S16x2127, .i1⟩ : BufTy).Contents (Elt F) → (⟨S16x2127, .i1⟩ : BufTy).Contents (Elt F) → (⟨S16x2127, .i1⟩ : BufTy).Contents (Elt F)),
    StableHlo.unary main_v84 main_v95 (broadcastInDim S16x2127 ![0, 1] bcast_S1x2127_S16x2127_0_1 : (⟨S1x2127, .i32⟩ : BufTy).Contents (Elt F) → (⟨S16x2127, .i32⟩ : BufTy).Contents (Elt F)),
    StableHlo.unary main_v85 main_v96 (broadcastInDim S16x2127 ![0, 1] bcast_S16x1_S16x2127_0_1 : (⟨S16x1, .i32⟩ : BufTy).Contents (Elt F) → (⟨S16x2127, .i32⟩ : BufTy).Contents (Elt F)),
    StableHlo.binary main_v95 main_v96 main_v97 (cmpi .slt : (⟨S16x2127, .i32⟩ : BufTy).Contents (Elt F) → (⟨S16x2127, .i32⟩ : BufTy).Contents (Elt F) → (⟨S16x2127, .i1⟩ : BufTy).Contents (Elt F)),
    StableHlo.nullary main_c_19 (constantI S_ 32 5#32),
    StableHlo.unary main_c_19 main_v98 (broadcastInDim S1x2127 ![] bcast_S_S1x2127 : (⟨S_, .i32⟩ : BufTy).Contents (Elt F) → (⟨S1x2127, .i32⟩ : BufTy).Contents (Elt F)) ]
theorem w1_l14_mono : Mono (τ := τ) 220 (w1_l14 (F := F)) 240 :=
    Mono.cons _ (by decide) (step_unary _ _ _ (by decide)) <|
    Mono.cons _ (by decide) (step_unary _ _ _ (by decide)) <|
    Mono.cons _ (by decide) (step_nullary _ _) <|
    Mono.cons _ (by decide) (step_unary _ _ _ (by decide)) <|
    Mono.cons _ (by decide) (step_unary _ _ _ (by decide)) <|
    Mono.cons _ (by decide) (step_unary _ _ _ (by decide)) <|
    Mono.cons _ (by decide) (step_unary _ _ _ (by decide)) <|
    Mono.cons _ (by decide) (step_binary _ _ _ _ (by decide) (by decide)) <|
    Mono.cons _ (by decide) (step_nullary _ _) <|
    Mono.cons _ (by decide) (step_unary _ _ _ (by decide)) <|
    Mono.cons _ (by decide) (step_binary _ _ _ _ (by decide) (by decide)) <|
    Mono.cons _ (by decide) (step_unary _ _ _ (by decide)) <|
    Mono.cons _ (by decide) (step_unary _ _ _ (by decide)) <|
    Mono.cons _ (by decide) (step_binary _ _ _ _ (by decide) (by decide)) <|
    Mono.cons _ (by decide) (step_binary _ _ _ _ (by decide) (by decide)) <|
    Mono.cons _ (by decide) (step_unary _ _ _ (by decide)) <|
    Mono.cons _ (by decide) (step_unary _ _ _ (by decide)) <|
    Mono.cons _ (by decide) (step_binary _ _ _ _ (by decide) (by decide)) <|
    Mono.cons _ (by decide) (step_nullary _ _) <|
    Mono.cons _ (by decide) (step_unary _ _ _ (by decide)) <|
    Mono.nil (by decide)

theorem main_part1_chain (c : Dev nD) : main_part1 (F := F) c = (Pipeline.chainK
  [ StableHlo.seq w1_l0,
    StableHlo.seq w1_l1,
    StableHlo.seq w1_l2,
    StableHlo.seq w1_l3,
    StableHlo.seq w1_l4,
    StableHlo.seq w1_l5,
    StableHlo.seq w1_l6,
    StableHlo.seq w1_l7,
    StableHlo.seq w1_l8,
    StableHlo.seq w1_l9,
    StableHlo.seq w1_l10,
    StableHlo.seq w1_l11,
    StableHlo.seq w1_l12,
    StableHlo.seq w1_l13 ]
  (StableHlo.seq w1_l14) : Prog (TpuEff nD τ sig (Elt F) (Pipeline.Sig Λ₀ (Fin 0) fun p => (pcfgs (F := F) p).Adm) .tc) PUnit) := by
  chain_rfl

end Cert.ReferenceIdeal.Run

end
-- ==== Proof.RefRunOps2.lean ====
import proofs.«403361_j42786464202989_2_alg».proof.ReferenceIdeal
import proofs.«403361_j42786464202989_2_alg».proof.Proof.RefRunLib
import Idealize.ShloMosaic.Lib.Pipeline.Regions

noncomputable section

namespace Cert.ReferenceIdeal.Run

open Cert.ReferenceIdeal Idealize.ShloMosaic Idealize.ShloMosaic.TcCoe Idealize.SL.Sem Idealize.ShloMosaic.StableHlo Cert.RunLib
open Cert.ReferenceIdeal.Facts₀ Cert.ReferenceIdeal.Facts

variable {F : FTy → Type} [FloatOps F] [Cert.ReferenceIdeal.Facts]

abbrev w2_l0 : List (HloOp τ sig (Elt F)) :=
  [ StableHlo.binary main_v84 main_v98 main_v99 (subi : (⟨S1x2127, .i32⟩ : BufTy).Contents (Elt F) → (⟨S1x2127, .i32⟩ : BufTy).Contents (Elt F) → (⟨S1x2127, .i32⟩ : BufTy).Contents (Elt F)),
    StableHlo.nullary main_c_20 (constantI S_ 32 0#32),
    StableHlo.nullary main_c_21 (constantI S_ 32 2121#32) ]
theorem w2_l0_mono : Mono (τ := τ) 240 (w2_l0 (F := F)) 243 :=
    Mono.cons _ (by decide) (step_binary _ _ _ _ (by decide) (by decide)) <|
    Mono.cons _ (by decide) (step_nullary _ _) <|
    Mono.cons _ (by decide) (step_nullary _ _) <|
    Mono.nil (by decide)

abbrev w2_l1 : List (HloOp τ sig (Elt F)) :=
  [ StableHlo.TRef.unary ((.of main_c_20) : StableHlo.TRef sig ⟨S_, .i32⟩) main_call13.v0 id,
    StableHlo.TRef.unary main_call13.v0 main_call13.v1 (broadcastInDim S1x2127 ![] bcast_S_S1x2127),
    StableHlo.TRef.binary main_call13.v1 ((.of main_v99) : StableHlo.TRef sig ⟨S1x2127, .i32⟩) main_call13.v2 maxsi,
    StableHlo.TRef.unary ((.of main_c_21) : StableHlo.TRef sig ⟨S_, .i32⟩) main_call13.v3 id,
    StableHlo.TRef.unary main_call13.v3 main_call13.v4 (broadcastInDim S1x2127 ![] bcast_S_S1x2127),
    StableHlo.TRef.binary main_call13.v4 main_call13.v2 main_call13.v5 minsi ]
theorem w2_l1_mono : Mono (τ := τ) 243 (w2_l1 (F := F)) 249 :=
    Mono.cons _ (by decide) (step_unary _ _ _ (by decide)) <|
    Mono.cons _ (by decide) (step_unary _ _ _ (by decide)) <|
    Mono.cons _ (by decide) (step_binary _ _ _ _ (by decide) (by decide)) <|
    Mono.cons _ (by decide) (step_unary _ _ _ (by decide)) <|
    Mono.cons _ (by decide) (step_unary _ _ _ (by decide)) <|
    Mono.cons _ (by decide) (step_binary _ _ _ _ (by decide) (by decide)) <|
    Mono.nil (by decide)

abbrev w2_l2 : List (HloOp τ sig (Elt F)) :=
  [ StableHlo.TRef.unary ((.of main_v84) : StableHlo.TRef sig ⟨S1x2127, .i32⟩) main_call14.v0 (broadcastInDim S16x2127 ![0, 1] bcast_S1x2127_S16x2127_0_1),
    StableHlo.TRef.unary ((.of main_v100) : StableHlo.TRef sig ⟨S1x2127, .i32⟩) main_call14.v1 (broadcastInDim S16x2127 ![0, 1] bcast_S1x2127_S16x2127_0_1),
    StableHlo.TRef.ternary ((.of main_v97) : StableHlo.TRef sig ⟨S16x2127, .i1⟩) main_call14.v0 main_call14.v1 main_call14.v2 select ]
theorem w2_l2_mono : Mono (τ := τ) 249 (w2_l2 (F := F)) 252 :=
    Mono.cons _ (by decide) (step_unary _ _ _ (by decide)) <|
    Mono.cons _ (by decide) (step_unary _ _ _ (by decide)) <|
    Mono.cons _ (by decide) (step_ternary _ _ _ _ _ (by decide) (by decide) (by decide)) <|
    Mono.nil (by decide)

abbrev w2_l3 : List (HloOp τ sig (Elt F)) :=
  [ StableHlo.unary main_v84 main_v102 (broadcastInDim S16x2127 ![0, 1] bcast_S1x2127_S16x2127_0_1 : (⟨S1x2127, .i32⟩ : BufTy).Contents (Elt F) → (⟨S16x2127, .i32⟩ : BufTy).Contents (Elt F)),
    StableHlo.unary main_v85 main_v103 (broadcastInDim S16x2127 ![0, 1] bcast_S16x1_S16x2127_0_1 : (⟨S16x1, .i32⟩ : BufTy).Contents (Elt F) → (⟨S16x2127, .i32⟩ : BufTy).Contents (Elt F)),
    StableHlo.binary main_v102 main_v103 main_v104 (subi : (⟨S16x2127, .i32⟩ : BufTy).Contents (Elt F) → (⟨S16x2127, .i32⟩ : BufTy).Contents (Elt F) → (⟨S16x2127, .i32⟩ : BufTy).Contents (Elt F)),
    StableHlo.nullary main_c_22 (constantI S_ 32 0#32),
    StableHlo.nullary main_c_23 (constantI S_ 32 4#32) ]
theorem w2_l3_mono : Mono (τ := τ) 252 (w2_l3 (F := F)) 257 :=
    Mono.cons _ (by decide) (step_unary _ _ _ (by decide)) <|
    Mono.cons _ (by decide) (step_unary _ _ _ (by decide)) <|
    Mono.cons _ (by decide) (step_binary _ _ _ _ (by decide) (by decide)) <|
    Mono.cons _ (by decide) (step_nullary _ _) <|
    Mono.cons _ (by decide) (step_nullary _ _) <|
    Mono.nil (by decide)

abbrev w2_l4 : List (HloOp τ sig (Elt F)) :=
  [ StableHlo.TRef.unary ((.of main_c_22) : StableHlo.TRef sig ⟨S_, .i32⟩) main_call15.v0 id,
    StableHlo.TRef.unary main_call15.v0 main_call15.v1 (broadcastInDim S16x2127 ![] bcast_S_S16x2127),
    StableHlo.TRef.binary main_call15.v1 ((.of main_v104) : StableHlo.TRef sig ⟨S16x2127, .i32⟩) main_call15.v2 maxsi,
    StableHlo.TRef.unary ((.of main_c_23) : StableHlo.TRef sig ⟨S_, .i32⟩) main_call15.v3 id,
    StableHlo.TRef.unary main_call15.v3 main_call15.v4 (broadcastInDim S16x2127 ![] bcast_S_S16x2127),
    StableHlo.TRef.binary main_call15.v4 main_call15.v2 main_call15.v5 minsi ]
theorem w2_l4_mono : Mono (τ := τ) 257 (w2_l4 (F := F)) 263 :=
    Mono.cons _ (by decide) (step_unary _ _ _ (by decide)) <|
    Mono.cons _ (by decide) (step_unary _ _ _ (by decide)) <|
    Mono.cons _ (by decide) (step_binary _ _ _ _ (by decide) (by decide)) <|
    Mono.cons _ (by decide) (step_unary _ _ _ (by decide)) <|
    Mono.cons _ (by decide) (step_unary _ _ _ (by decide)) <|
    Mono.cons _ (by decide) (step_binary _ _ _ _ (by decide) (by decide)) <|
    Mono.nil (by decide)

abbrev w2_l5 : List (HloOp τ sig (Elt F)) :=
  [ StableHlo.unary main_v101 main_v106 (broadcastInDim S16x2127x1 ![0, 1] bcast_S16x2127_S16x2127x1_0_1 : (⟨S16x2127, .i32⟩ : BufTy).Contents (Elt F) → (⟨S16x2127x1, .i32⟩ : BufTy).Contents (Elt F)) ]
theorem w2_l5_mono : Mono (τ := τ) 263 (w2_l5 (F := F)) 264 :=
    Mono.cons _ (by decide) (step_unary _ _ _ (by decide)) <|
    Mono.nil (by decide)

abbrev w2_l6 : List (HloOp τ sig (Elt F)) :=
  [ StableHlo.TRef.nullary main_call16.c (constantI S_ 32 0#32),
    StableHlo.TRef.unary main_call16.c main_call16.v0 (broadcastInDim S16x2127x1 ![] bcast_S_S16x2127x1),
    StableHlo.TRef.binary ((.of main_v106) : StableHlo.TRef sig ⟨S16x2127x1, .i32⟩) main_call16.v0 main_call16.v1 (cmpi .slt),
    StableHlo.TRef.nullary main_call16.c_0 (constantI S_ 32 2122#32),
    StableHlo.TRef.unary main_call16.c_0 main_call16.v2 (broadcastInDim S16x2127x1 ![] bcast_S_S16x2127x1),
    StableHlo.TRef.binary ((.of main_v106) : StableHlo.TRef sig ⟨S16x2127x1, .i32⟩) main_call16.v2 main_call16.v3 addi,
    StableHlo.TRef.ternary main_call16.v1 main_call16.v3 ((.of main_v106) : StableHlo.TRef sig ⟨S16x2127x1, .i32⟩) main_call16.v4 select,
    StableHlo.TRef.nullary main_call16.c_1 (constantI S1 32 2121#32),
    StableHlo.TRef.nullary main_call16.c_2 (constantI S_ 32 0#32),
    StableHlo.TRef.unary main_call16.c_2 main_call16.v5 (broadcastInDim S16x2127x1 ![] bcast_S_S16x2127x1),
    StableHlo.TRef.binary main_call16.v4 main_call16.v5 main_call16.v6 (cmpi .sge),
    StableHlo.TRef.unary main_call16.c_1 main_call16.v7 (broadcastInDim S1x1x1 ![2] bcast_S1_S1x1x1_2),
    StableHlo.TRef.unary main_call16.v7 main_call16.v8 (broadcastInDim S16x2127x1 ![0, 1, 2] bcast_S1x1x1_S16x2127x1_0_1_2),
    StableHlo.TRef.binary main_call16.v4 main_call16.v8 main_call16.v9 (cmpi .sle),
    StableHlo.TRef.binary main_call16.v6 main_call16.v9 main_call16.v10 andi,
    StableHlo.TRef.nullary main_call16.c_3 (constantI S_ 1 1#1),
    StableHlo.TRef.binary main_call16.v10 main_call16.c_3 main_call16.v11 (fun x v => Host.reduce IntOp.andi x v reducesTo_S16x2127x1_S16x2127_d2 h_S_),
    StableHlo.TRef.binary ((.of main_v52) : StableHlo.TRef sig ⟨S16x2122x1024, .f32⟩) main_call16.v4 main_call16.v12 (fun x i => Host.gather gather_S16x2122x1024_S16x2127x1_S16x2127x1024_2_1_0_0_1_2_111024 x i),
    StableHlo.TRef.unary main_call16.v11 main_call16.v13 (broadcastInDim S16x2127x1024 ![0, 1] bcast_S16x2127_S16x2127x1024_0_1),
    StableHlo.TRef.nullary main_call16.cst (constant S_ .f32 0x7FC00000#32),
    StableHlo.TRef.unary main_call16.cst main_call16.v14 (broadcastInDim S16x2127x1024 ![] bcast_S_S16x2127x1024),
    StableHlo.TRef.ternary main_call16.v13 main_call16.v12 main_call16.v14 main_call16.v15 select ]
theorem w2_l6_mono : Mono (τ := τ) 264 (w2_l6 (F := F)) 286 :=
    Mono.cons _ (by decide) (step_nullary _ _) <|
    Mono.cons _ (by decide) (step_unary _ _ _ (by decide)) <|
    Mono.cons _ (by decide) (step_binary _ _ _ _ (by decide) (by decide)) <|
    Mono.cons _ (by decide) (step_nullary _ _) <|
    Mono.cons _ (by decide) (step_unary _ _ _ (by decide)) <|
    Mono.cons _ (by decide) (step_binary _ _ _ _ (by decide) (by decide)) <|
    Mono.cons _ (by decide) (step_ternary _ _ _ _ _ (by decide) (by decide) (by decide)) <|
    Mono.cons _ (by decide) (step_nullary _ _) <|
    Mono.cons _ (by decide) (step_nullary _ _) <|
    Mono.cons _ (by decide) (step_unary _ _ _ (by decide)) <|
    Mono.cons _ (by decide) (step_binary _ _ _ _ (by decide) (by decide)) <|
    Mono.cons _ (by decide) (step_unary _ _ _ (by decide)) <|
    Mono.cons _ (by decide) (step_unary _ _ _ (by decide)) <|
    Mono.cons _ (by decide) (step_binary _ _ _ _ (by decide) (by decide)) <|
    Mono.cons _ (by decide) (step_binary _ _ _ _ (by decide) (by decide)) <|
    Mono.cons _ (by decide) (step_nullary _ _) <|
    Mono.cons _ (by decide) (step_binary _ _ _ _ (by decide) (by decide)) <|
    Mono.cons _ (by decide) (step_binary _ _ _ _ (by decide) (by decide)) <|
    Mono.cons _ (by decide) (step_unary _ _ _ (by decide)) <|
    Mono.cons _ (by decide) (step_nullary _ _) <|
    Mono.cons _ (by decide) (step_unary _ _ _ (by decide)) <|
    Mono.cons _ (by decide) (step_ternary _ _ _ _ _ (by decide) (by decide) (by decide)) <|
    Mono.nil (by decide)

abbrev w2_l7 : List (HloOp τ sig (Elt F)) :=
  [ StableHlo.unary main_v105 main_v108 (broadcastInDim S16x2127x1 ![0, 1] bcast_S16x2127_S16x2127x1_0_1 : (⟨S16x2127, .i32⟩ : BufTy).Contents (Elt F) → (⟨S16x2127x1, .i32⟩ : BufTy).Contents (Elt F)) ]
theorem w2_l7_mono : Mono (τ := τ) 286 (w2_l7 (F := F)) 287 :=
    Mono.cons _ (by decide) (step_unary _ _ _ (by decide)) <|
    Mono.nil (by decide)

abbrev w2_l8 : List (HloOp τ sig (Elt F)) :=
  [ StableHlo.TRef.nullary main_call17.c (constantI S_ 32 0#32),
    StableHlo.TRef.unary main_call17.c main_call17.v0 (broadcastInDim S16x2127x1 ![] bcast_S_S16x2127x1),
    StableHlo.TRef.binary ((.of main_v108) : StableHlo.TRef sig ⟨S16x2127x1, .i32⟩) main_call17.v0 main_call17.v1 (cmpi .slt),
    StableHlo.TRef.nullary main_call17.c_0 (constantI S_ 32 5#32),
    StableHlo.TRef.unary main_call17.c_0 main_call17.v2 (broadcastInDim S16x2127x1 ![] bcast_S_S16x2127x1),
    StableHlo.TRef.binary ((.of main_v108) : StableHlo.TRef sig ⟨S16x2127x1, .i32⟩) main_call17.v2 main_call17.v3 addi,
    StableHlo.TRef.ternary main_call17.v1 main_call17.v3 ((.of main_v108) : StableHlo.TRef sig ⟨S16x2127x1, .i32⟩) main_call17.v4 select,
    StableHlo.TRef.nullary main_call17.c_1 (constantI S1 32 4#32),
    StableHlo.TRef.nullary main_call17.c_2 (constantI S_ 32 0#32),
    StableHlo.TRef.unary main_call17.c_2 main_call17.v5 (broadcastInDim S16x2127x1 ![] bcast_S_S16x2127x1),
    StableHlo.TRef.binary main_call17.v4 main_call17.v5 main_call17.v6 (cmpi .sge),
    StableHlo.TRef.unary main_call17.c_1 main_call17.v7 (broadcastInDim S1x1x1 ![2] bcast_S1_S1x1x1_2),
    StableHlo.TRef.unary main_call17.v7 main_call17.v8 (broadcastInDim S16x2127x1 ![0, 1, 2] bcast_S1x1x1_S16x2127x1_0_1_2),
    StableHlo.TRef.binary main_call17.v4 main_call17.v8 main_call17.v9 (cmpi .sle),
    StableHlo.TRef.binary main_call17.v6 main_call17.v9 main_call17.v10 andi,
    StableHlo.TRef.nullary main_call17.c_3 (constantI S_ 1 1#1),
    StableHlo.TRef.binary main_call17.v10 main_call17.c_3 main_call17.v11 (fun x v => Host.reduce IntOp.andi x v reducesTo_S16x2127x1_S16x2127_d2 h_S_),
    StableHlo.TRef.binary ((.of main_v82) : StableHlo.TRef sig ⟨S16x5x1024, .f32⟩) main_call17.v4 main_call17.v12 (fun x i => Host.gather gather_S16x5x1024_S16x2127x1_S16x2127x1024_2_1_0_0_1_2_111024 x i),
    StableHlo.TRef.unary main_call17.v11 main_call17.v13 (broadcastInDim S16x2127x1024 ![0, 1] bcast_S16x2127_S16x2127x1024_0_1),
    StableHlo.TRef.nullary main_call17.cst (constant S_ .f32 0x7FC00000#32),
    StableHlo.TRef.unary main_call17.cst main_call17.v14 (broadcastInDim S16x2127x1024 ![] bcast_S_S16x2127x1024),
    StableHlo.TRef.ternary main_call17.v13 main_call17.v12 main_call17.v14 main_call17.v15 select ]
theorem w2_l8_mono : Mono (τ := τ) 287 (w2_l8 (F := F)) 309 :=
    Mono.cons _ (by decide) (step_nullary _ _) <|
    Mono.cons _ (by decide) (step_unary _ _ _ (by decide)) <|
    Mono.cons _ (by decide) (step_binary _ _ _ _ (by decide) (by decide)) <|
    Mono.cons _ (by decide) (step_nullary _ _) <|
    Mono.cons _ (by decide) (step_unary _ _ _ (by decide)) <|
    Mono.cons _ (by decide) (step_binary _ _ _ _ (by decide) (by decide)) <|
    Mono.cons _ (by decide) (step_ternary _ _ _ _ _ (by decide) (by decide) (by decide)) <|
    Mono.cons _ (by decide) (step_nullary _ _) <|
    Mono.cons _ (by decide) (step_nullary _ _) <|
    Mono.cons _ (by decide) (step_unary _ _ _ (by decide)) <|
    Mono.cons _ (by decide) (step_binary _ _ _ _ (by decide) (by decide)) <|
    Mono.cons _ (by decide) (step_unary _ _ _ (by decide)) <|
    Mono.cons _ (by decide) (step_unary _ _ _ (by decide)) <|
    Mono.cons _ (by decide) (step_binary _ _ _ _ (by decide) (by decide)) <|
    Mono.cons _ (by decide) (step_binary _ _ _ _ (by decide) (by decide)) <|
    Mono.cons _ (by decide) (step_nullary _ _) <|
    Mono.cons _ (by decide) (step_binary _ _ _ _ (by decide) (by decide)) <|
    Mono.cons _ (by decide) (step_binary _ _ _ _ (by decide) (by decide)) <|
    Mono.cons _ (by decide) (step_unary _ _ _ (by decide)) <|
    Mono.cons _ (by decide) (step_nullary _ _) <|
    Mono.cons _ (by decide) (step_unary _ _ _ (by decide)) <|
    Mono.cons _ (by decide) (step_ternary _ _ _ _ _ (by decide) (by decide) (by decide)) <|
    Mono.nil (by decide)

abbrev w2_l9 : List (HloOp τ sig (Elt F)) :=
  [ StableHlo.unary main_v94 main_v110 (broadcastInDim S16x2127x1 ![0, 1] bcast_S16x2127_S16x2127x1_0_1 : (⟨S16x2127, .i1⟩ : BufTy).Contents (Elt F) → (⟨S16x2127x1, .i1⟩ : BufTy).Contents (Elt F)) ]
theorem w2_l9_mono : Mono (τ := τ) 309 (w2_l9 (F := F)) 310 :=
    Mono.cons _ (by decide) (step_unary _ _ _ (by decide)) <|
    Mono.nil (by decide)

abbrev w2_l10 : List (HloOp τ sig (Elt F)) :=
  [ StableHlo.TRef.unary ((.of main_v110) : StableHlo.TRef sig ⟨S16x2127x1, .i1⟩) main_call18.v0 (broadcastInDim S16x2127x1024 ![0, 1, 2] bcast_S16x2127x1_S16x2127x1024_0_1_2),
    StableHlo.TRef.ternary main_call18.v0 ((.of main_v109) : StableHlo.TRef sig ⟨S16x2127x1024, .f32⟩) ((.of main_v107) : StableHlo.TRef sig ⟨S16x2127x1024, .f32⟩) main_call18.v1 select ]
theorem w2_l10_mono : Mono (τ := τ) 310 (w2_l10 (F := F)) 312 :=
    Mono.cons _ (by decide) (step_unary _ _ _ (by decide)) <|
    Mono.cons _ (by decide) (step_ternary _ _ _ _ _ (by decide) (by decide) (by decide)) <|
    Mono.nil (by decide)

abbrev w2_l11 : List (HloOp τ sig (Elt F)) :=
  [ StableHlo.nullary main_cst (constant S_ .f32 0x3F800000#32),
    StableHlo.unary main_cst main_v112 (broadcastInDim S16x5 ![] bcast_S_S16x5 : (⟨S_, .f32⟩ : BufTy).Contents (Elt F) → (⟨S16x5, .f32⟩ : BufTy).Contents (Elt F)),
    StableHlo.nullary main_v113 (iotaInDim S2127 32 0),
    StableHlo.unary main_v113 main_v114 (broadcastInDim S1x2127 ![1] bcast_S2127_S1x2127_1 : (⟨S2127, .i32⟩ : BufTy).Contents (Elt F) → (⟨S1x2127, .i32⟩ : BufTy).Contents (Elt F)),
    StableHlo.unary main_v16 main_v115 (broadcastInDim S16x1 ![0] bcast_S16_S16x1_0 : (⟨S16, .i32⟩ : BufTy).Contents (Elt F) → (⟨S16x1, .i32⟩ : BufTy).Contents (Elt F)),
    StableHlo.unary main_v114 main_v116 (broadcastInDim S16x2127 ![0, 1] bcast_S1x2127_S16x2127_0_1 : (⟨S1x2127, .i32⟩ : BufTy).Contents (Elt F) → (⟨S16x2127, .i32⟩ : BufTy).Contents (Elt F)),
    StableHlo.unary main_v115 main_v117 (broadcastInDim S16x2127 ![0, 1] bcast_S16x1_S16x2127_0_1 : (⟨S16x1, .i32⟩ : BufTy).Contents (Elt F) → (⟨S16x2127, .i32⟩ : BufTy).Contents (Elt F)),
    StableHlo.binary main_v116 main_v117 main_v118 (cmpi .sge : (⟨S16x2127, .i32⟩ : BufTy).Contents (Elt F) → (⟨S16x2127, .i32⟩ : BufTy).Contents (Elt F) → (⟨S16x2127, .i1⟩ : BufTy).Contents (Elt F)),
    StableHlo.nullary main_c_24 (constantI S_ 32 5#32),
    StableHlo.unary main_c_24 main_v119 (broadcastInDim S16x1 ![] bcast_S_S16x1 : (⟨S_, .i32⟩ : BufTy).Contents (Elt F) → (⟨S16x1, .i32⟩ : BufTy).Contents (Elt F)),
    StableHlo.binary main_v115 main_v119 main_v120 (addi : (⟨S16x1, .i32⟩ : BufTy).Contents (Elt F) → (⟨S16x1, .i32⟩ : BufTy).Contents (Elt F) → (⟨S16x1, .i32⟩ : BufTy).Contents (Elt F)),
    StableHlo.unary main_v114 main_v121 (broadcastInDim S16x2127 ![0, 1] bcast_S1x2127_S16x2127_0_1 : (⟨S1x2127, .i32⟩ : BufTy).Contents (Elt F) → (⟨S16x2127, .i32⟩ : BufTy).Contents (Elt F)),
    StableHlo.unary main_v120 main_v122 (broadcastInDim S16x2127 ![0, 1] bcast_S16x1_S16x2127_0_1 : (⟨S16x1, .i32⟩ : BufTy).Contents (Elt F) → (⟨S16x2127, .i32⟩ : BufTy).Contents (Elt F)),
    StableHlo.binary main_v121 main_v122 main_v123 (cmpi .slt : (⟨S16x2127, .i32⟩ : BufTy).Contents (Elt F) → (⟨S16x2127, .i32⟩ : BufTy).Contents (Elt F) → (⟨S16x2127, .i1⟩ : BufTy).Contents (Elt F)),
    StableHlo.binary main_v118 main_v123 main_v124 (andi : (⟨S16x2127, .i1⟩ : BufTy).Contents (Elt F) → (⟨S16x2127, .i1⟩ : BufTy).Contents (Elt F) → (⟨S16x2127, .i1⟩ : BufTy).Contents (Elt F)),
    StableHlo.unary main_v114 main_v125 (broadcastInDim S16x2127 ![0, 1] bcast_S1x2127_S16x2127_0_1 : (⟨S1x2127, .i32⟩ : BufTy).Contents (Elt F) → (⟨S16x2127, .i32⟩ : BufTy).Contents (Elt F)),
    StableHlo.unary main_v115 main_v126 (broadcastInDim S16x2127 ![0, 1] bcast_S16x1_S16x2127_0_1 : (⟨S16x1, .i32⟩ : BufTy).Contents (Elt F) → (⟨S16x2127, .i32⟩ : BufTy).Contents (Elt F)),
    StableHlo.binary main_v125 main_v126 main_v127 (cmpi .slt : (⟨S16x2127, .i32⟩ : BufTy).Contents (Elt F) → (⟨S16x2127, .i32⟩ : BufTy).Contents (Elt F) → (⟨S16x2127, .i1⟩ : BufTy).Contents (Elt F)),
    StableHlo.nullary main_c_25 (constantI S_ 32 5#32),
    StableHlo.unary main_c_25 main_v128 (broadcastInDim S1x2127 ![] bcast_S_S1x2127 : (⟨S_, .i32⟩ : BufTy).Contents (Elt F) → (⟨S1x2127, .i32⟩ : BufTy).Contents (Elt F)),
    StableHlo.binary main_v114 main_v128 main_v129 (subi : (⟨S1x2127, .i32⟩ : BufTy).Contents (Elt F) → (⟨S1x2127, .i32⟩ : BufTy).Contents (Elt F) → (⟨S1x2127, .i32⟩ : BufTy).Contents (Elt F)),
    StableHlo.nullary main_c_26 (constantI S_ 32 0#32),
    StableHlo.nullary main_c_27 (constantI S_ 32 2121#32) ]
theorem w2_l11_mono : Mono (τ := τ) 312 (w2_l11 (F := F)) 335 :=
    Mono.cons _ (by decide) (step_nullary _ _) <|
    Mono.cons _ (by decide) (step_unary _ _ _ (by decide)) <|
    Mono.cons _ (by decide) (step_nullary _ _) <|
    Mono.cons _ (by decide) (step_unary _ _ _ (by decide)) <|
    Mono.cons _ (by decide) (step_unary _ _ _ (by decide)) <|
    Mono.cons _ (by decide) (step_unary _ _ _ (by decide)) <|
    Mono.cons _ (by decide) (step_unary _ _ _ (by decide)) <|
    Mono.cons _ (by decide) (step_binary _ _ _ _ (by decide) (by decide)) <|
    Mono.cons _ (by decide) (step_nullary _ _) <|
    Mono.cons _ (by decide) (step_unary _ _ _ (by decide)) <|
    Mono.cons _ (by decide) (step_binary _ _ _ _ (by decide) (by decide)) <|
    Mono.cons _ (by decide) (step_unary _ _ _ (by decide)) <|
    Mono.cons _ (by decide) (step_unary _ _ _ (by decide)) <|
    Mono.cons _ (by decide) (step_binary _ _ _ _ (by decide) (by decide)) <|
    Mono.cons _ (by decide) (step_binary _ _ _ _ (by decide) (by decide)) <|
    Mono.cons _ (by decide) (step_unary _ _ _ (by decide)) <|
    Mono.cons _ (by decide) (step_unary _ _ _ (by decide)) <|
    Mono.cons _ (by decide) (step_binary _ _ _ _ (by decide) (by decide)) <|
    Mono.cons _ (by decide) (step_nullary _ _) <|
    Mono.cons _ (by decide) (step_unary _ _ _ (by decide)) <|
    Mono.cons _ (by decide) (step_binary _ _ _ _ (by decide) (by decide)) <|
    Mono.cons _ (by decide) (step_nullary _ _) <|
    Mono.cons _ (by decide) (step_nullary _ _) <|
    Mono.nil (by decide)

abbrev w2_l12 : List (HloOp τ sig (Elt F)) :=
  [ StableHlo.TRef.unary ((.of main_c_26) : StableHlo.TRef sig ⟨S_, .i32⟩) main_call19.v0 id,
    StableHlo.TRef.unary main_call19.v0 main_call19.v1 (broadcastInDim S1x2127 ![] bcast_S_S1x2127),
    StableHlo.TRef.binary main_call19.v1 ((.of main_v129) : StableHlo.TRef sig ⟨S1x2127, .i32⟩) main_call19.v2 maxsi,
    StableHlo.TRef.unary ((.of main_c_27) : StableHlo.TRef sig ⟨S_, .i32⟩) main_call19.v3 id,
    StableHlo.TRef.unary main_call19.v3 main_call19.v4 (broadcastInDim S1x2127 ![] bcast_S_S1x2127),
    StableHlo.TRef.binary main_call19.v4 main_call19.v2 main_call19.v5 minsi ]
theorem w2_l12_mono : Mono (τ := τ) 335 (w2_l12 (F := F)) 341 :=
    Mono.cons _ (by decide) (step_unary _ _ _ (by decide)) <|
    Mono.cons _ (by decide) (step_unary _ _ _ (by decide)) <|
    Mono.cons _ (by decide) (step_binary _ _ _ _ (by decide) (by decide)) <|
    Mono.cons _ (by decide) (step_unary _ _ _ (by decide)) <|
    Mono.cons _ (by decide) (step_unary _ _ _ (by decide)) <|
    Mono.cons _ (by decide) (step_binary _ _ _ _ (by decide) (by decide)) <|
    Mono.nil (by decide)

abbrev w2_l13 : List (HloOp τ sig (Elt F)) :=
  [ StableHlo.TRef.unary ((.of main_v114) : StableHlo.TRef sig ⟨S1x2127, .i32⟩) main_call20.v0 (broadcastInDim S16x2127 ![0, 1] bcast_S1x2127_S16x2127_0_1),
    StableHlo.TRef.unary ((.of main_v130) : StableHlo.TRef sig ⟨S1x2127, .i32⟩) main_call20.v1 (broadcastInDim S16x2127 ![0, 1] bcast_S1x2127_S16x2127_0_1),
    StableHlo.TRef.ternary ((.of main_v127) : StableHlo.TRef sig ⟨S16x2127, .i1⟩) main_call20.v0 main_call20.v1 main_call20.v2 select ]
theorem w2_l13_mono : Mono (τ := τ) 341 (w2_l13 (F := F)) 344 :=
    Mono.cons _ (by decide) (step_unary _ _ _ (by decide)) <|
    Mono.cons _ (by decide) (step_unary _ _ _ (by decide)) <|
    Mono.cons _ (by decide) (step_ternary _ _ _ _ _ (by decide) (by decide) (by decide)) <|
    Mono.nil (by decide)

abbrev w2_l14 : List (HloOp τ sig (Elt F)) :=
  [ StableHlo.unary main_v114 main_v132 (broadcastInDim S16x2127 ![0, 1] bcast_S1x2127_S16x2127_0_1 : (⟨S1x2127, .i32⟩ : BufTy).Contents (Elt F) → (⟨S16x2127, .i32⟩ : BufTy).Contents (Elt F)),
    StableHlo.unary main_v115 main_v133 (broadcastInDim S16x2127 ![0, 1] bcast_S16x1_S16x2127_0_1 : (⟨S16x1, .i32⟩ : BufTy).Contents (Elt F) → (⟨S16x2127, .i32⟩ : BufTy).Contents (Elt F)),
    StableHlo.binary main_v132 main_v133 main_v134 (subi : (⟨S16x2127, .i32⟩ : BufTy).Contents (Elt F) → (⟨S16x2127, .i32⟩ : BufTy).Contents (Elt F) → (⟨S16x2127, .i32⟩ : BufTy).Contents (Elt F)),
    StableHlo.nullary main_c_28 (constantI S_ 32 0#32),
    StableHlo.nullary main_c_29 (constantI S_ 32 4#32) ]
theorem w2_l14_mono : Mono (τ := τ) 344 (w2_l14 (F := F)) 349 :=
    Mono.cons _ (by decide) (step_unary _ _ _ (by decide)) <|
    Mono.cons _ (by decide) (step_unary _ _ _ (by decide)) <|
    Mono.cons _ (by decide) (step_binary _ _ _ _ (by decide) (by decide)) <|
    Mono.cons _ (by decide) (step_nullary _ _) <|
    Mono.cons _ (by decide) (step_nullary _ _) <|
    Mono.nil (by decide)

abbrev w2_l15 : List (HloOp τ sig (Elt F)) :=
  [ StableHlo.TRef.unary ((.of main_c_28) : StableHlo.TRef sig ⟨S_, .i32⟩) main_call21.v0 id,
    StableHlo.TRef.unary main_call21.v0 main_call21.v1 (broadcastInDim S16x2127 ![] bcast_S_S16x2127),
    StableHlo.TRef.binary main_call21.v1 ((.of main_v134) : StableHlo.TRef sig ⟨S16x2127, .i32⟩) main_call21.v2 maxsi,
    StableHlo.TRef.unary ((.of main_c_29) : StableHlo.TRef sig ⟨S_, .i32⟩) main_call21.v3 id,
    StableHlo.TRef.unary main_call21.v3 main_call21.v4 (broadcastInDim S16x2127 ![] bcast_S_S16x2127),
    StableHlo.TRef.binary main_call21.v4 main_call21.v2 main_call21.v5 minsi ]
theorem w2_l15_mono : Mono (τ := τ) 349 (w2_l15 (F := F)) 355 :=
    Mono.cons _ (by decide) (step_unary _ _ _ (by decide)) <|
    Mono.cons _ (by decide) (step_unary _ _ _ (by decide)) <|
    Mono.cons _ (by decide) (step_binary _ _ _ _ (by decide) (by decide)) <|
    Mono.cons _ (by decide) (step_unary _ _ _ (by decide)) <|
    Mono.cons _ (by decide) (step_unary _ _ _ (by decide)) <|
    Mono.cons _ (by decide) (step_binary _ _ _ _ (by decide) (by decide)) <|
    Mono.nil (by decide)

abbrev w2_l16 : List (HloOp τ sig (Elt F)) :=
  [ StableHlo.TRef.nullary main_call22.c (constantI S_ 32 0#32),
    StableHlo.TRef.unary main_call22.c main_call22.v0 (broadcastInDim S16x2127 ![] bcast_S_S16x2127),
    StableHlo.TRef.binary ((.of main_v131) : StableHlo.TRef sig ⟨S16x2127, .i32⟩) main_call22.v0 main_call22.v1 (cmpi .slt),
    StableHlo.TRef.nullary main_call22.c_0 (constantI S_ 32 2122#32),
    StableHlo.TRef.unary main_call22.c_0 main_call22.v2 (broadcastInDim S16x2127 ![] bcast_S_S16x2127),
    StableHlo.TRef.binary ((.of main_v131) : StableHlo.TRef sig ⟨S16x2127, .i32⟩) main_call22.v2 main_call22.v3 addi,
    StableHlo.TRef.ternary main_call22.v1 main_call22.v3 ((.of main_v131) : StableHlo.TRef sig ⟨S16x2127, .i32⟩) main_call22.v4 select,
    StableHlo.TRef.reshape main_call22.v4 main_call22.v5 rfl shapeCasts_S16x2127_S16x2127x1,
    StableHlo.TRef.nullary main_call22.c_1 (constantI S1 32 2121#32),
    StableHlo.TRef.nullary main_call22.c_2 (constantI S_ 32 0#32),
    StableHlo.TRef.unary main_call22.c_2 main_call22.v6 (broadcastInDim S16x2127x1 ![] bcast_S_S16x2127x1),
    StableHlo.TRef.binary main_call22.v5 main_call22.v6 main_call22.v7 (cmpi .sge),
    StableHlo.TRef.unary main_call22.c_1 main_call22.v8 (broadcastInDim S1x1x1 ![2] bcast_S1_S1x1x1_2),
    StableHlo.TRef.unary main_call22.v8 main_call22.v9 (broadcastInDim S16x2127x1 ![0, 1, 2] bcast_S1x1x1_S16x2127x1_0_1_2),
    StableHlo.TRef.binary main_call22.v5 main_call22.v9 main_call22.v10 (cmpi .sle),
    StableHlo.TRef.binary main_call22.v7 main_call22.v10 main_call22.v11 andi,
    StableHlo.TRef.nullary main_call22.c_3 (constantI S_ 1 1#1),
    StableHlo.TRef.binary main_call22.v11 main_call22.c_3 main_call22.v12 (fun x v => Host.reduce IntOp.andi x v reducesTo_S16x2127x1_S16x2127_d2 h_S_),
    StableHlo.TRef.binary ((.of main_v80) : StableHlo.TRef sig ⟨S16x2122, .f32⟩) main_call22.v5 main_call22.v13 (fun x i => Host.gather gather_S16x2122_S16x2127x1_S16x2127_n_1_0_0_1_2_11 x i),
    StableHlo.TRef.nullary main_call22.cst (constant S_ .f32 0x7FC00000#32),
    StableHlo.TRef.unary main_call22.cst main_call22.v14 (broadcastInDim S16x2127 ![] bcast_S_S16x2127),
    StableHlo.TRef.ternary main_call22.v12 main_call22.v13 main_call22.v14 main_call22.v15 select ]
theorem w2_l16_mono : Mono (τ := τ) 355 (w2_l16 (F := F)) 377 :=
    Mono.cons _ (by decide) (step_nullary _ _) <|
    Mono.cons _ (by decide) (step_unary _ _ _ (by decide)) <|
    Mono.cons _ (by decide) (step_binary _ _ _ _ (by decide) (by decide)) <|
    Mono.cons _ (by decide) (step_nullary _ _) <|
    Mono.cons _ (by decide) (step_unary _ _ _ (by decide)) <|
    Mono.cons _ (by decide) (step_binary _ _ _ _ (by decide) (by decide)) <|
    Mono.cons _ (by decide) (step_ternary _ _ _ _ _ (by decide) (by decide) (by decide)) <|
    Mono.cons _ (by decide) (step_reshape _ _ _ _ (by decide)) <|
    Mono.cons _ (by decide) (step_nullary _ _) <|
    Mono.cons _ (by decide) (step_nullary _ _) <|
    Mono.cons _ (by decide) (step_unary _ _ _ (by decide)) <|
    Mono.cons _ (by decide) (step_binary _ _ _ _ (by decide) (by decide)) <|
    Mono.cons _ (by decide) (step_unary _ _ _ (by decide)) <|
    Mono.cons _ (by decide) (step_unary _ _ _ (by decide)) <|
    Mono.cons _ (by decide) (step_binary _ _ _ _ (by decide) (by decide)) <|
    Mono.cons _ (by decide) (step_binary _ _ _ _ (by decide) (by decide)) <|
    Mono.cons _ (by decide) (step_nullary _ _) <|
    Mono.cons _ (by decide) (step_binary _ _ _ _ (by decide) (by decide)) <|
    Mono.cons _ (by decide) (step_binary _ _ _ _ (by decide) (by decide)) <|
    Mono.cons _ (by decide) (step_nullary _ _) <|
    Mono.cons _ (by decide) (step_unary _ _ _ (by decide)) <|
    Mono.cons _ (by decide) (step_ternary _ _ _ _ _ (by decide) (by decide) (by decide)) <|
    Mono.nil (by decide)

abbrev w2_l17 : List (HloOp τ sig (Elt F)) :=
  [ StableHlo.TRef.nullary main_call23.c (constantI S_ 32 0#32),
    StableHlo.TRef.unary main_call23.c main_call23.v0 (broadcastInDim S16x2127 ![] bcast_S_S16x2127),
    StableHlo.TRef.binary ((.of main_v135) : StableHlo.TRef sig ⟨S16x2127, .i32⟩) main_call23.v0 main_call23.v1 (cmpi .slt),
    StableHlo.TRef.nullary main_call23.c_0 (constantI S_ 32 5#32),
    StableHlo.TRef.unary main_call23.c_0 main_call23.v2 (broadcastInDim S16x2127 ![] bcast_S_S16x2127),
    StableHlo.TRef.binary ((.of main_v135) : StableHlo.TRef sig ⟨S16x2127, .i32⟩) main_call23.v2 main_call23.v3 addi,
    StableHlo.TRef.ternary main_call23.v1 main_call23.v3 ((.of main_v135) : StableHlo.TRef sig ⟨S16x2127, .i32⟩) main_call23.v4 select,
    StableHlo.TRef.reshape main_call23.v4 main_call23.v5 rfl shapeCasts_S16x2127_S16x2127x1,
    StableHlo.TRef.nullary main_call23.c_1 (constantI S1 32 4#32),
    StableHlo.TRef.nullary main_call23.c_2 (constantI S_ 32 0#32),
    StableHlo.TRef.unary main_call23.c_2 main_call23.v6 (broadcastInDim S16x2127x1 ![] bcast_S_S16x2127x1),
    StableHlo.TRef.binary main_call23.v5 main_call23.v6 main_call23.v7 (cmpi .sge),
    StableHlo.TRef.unary main_call23.c_1 main_call23.v8 (broadcastInDim S1x1x1 ![2] bcast_S1_S1x1x1_2),
    StableHlo.TRef.unary main_call23.v8 main_call23.v9 (broadcastInDim S16x2127x1 ![0, 1, 2] bcast_S1x1x1_S16x2127x1_0_1_2),
    StableHlo.TRef.binary main_call23.v5 main_call23.v9 main_call23.v10 (cmpi .sle),
    StableHlo.TRef.binary main_call23.v7 main_call23.v10 main_call23.v11 andi,
    StableHlo.TRef.nullary main_call23.c_3 (constantI S_ 1 1#1),
    StableHlo.TRef.binary main_call23.v11 main_call23.c_3 main_call23.v12 (fun x v => Host.reduce IntOp.andi x v reducesTo_S16x2127x1_S16x2127_d2 h_S_),
    StableHlo.TRef.binary ((.of main_v112) : StableHlo.TRef sig ⟨S16x5, .f32⟩) main_call23.v5 main_call23.v13 (fun x i => Host.gather gather_S16x5_S16x2127x1_S16x2127_n_1_0_0_1_2_11 x i),
    StableHlo.TRef.nullary main_call23.cst (constant S_ .f32 0x7FC00000#32),
    StableHlo.TRef.unary main_call23.cst main_call23.v14 (broadcastInDim S16x2127 ![] bcast_S_S16x2127),
    StableHlo.TRef.ternary main_call23.v12 main_call23.v13 main_call23.v14 main_call23.v15 select ]
theorem w2_l17_mono : Mono (τ := τ) 377 (w2_l17 (F := F)) 399 :=
    Mono.cons _ (by decide) (step_nullary _ _) <|
    Mono.cons _ (by decide) (step_unary _ _ _ (by decide)) <|
    Mono.cons _ (by decide) (step_binary _ _ _ _ (by decide) (by decide)) <|
    Mono.cons _ (by decide) (step_nullary _ _) <|
    Mono.cons _ (by decide) (step_unary _ _ _ (by decide)) <|
    Mono.cons _ (by decide) (step_binary _ _ _ _ (by decide) (by decide)) <|
    Mono.cons _ (by decide) (step_ternary _ _ _ _ _ (by decide) (by decide) (by decide)) <|
    Mono.cons _ (by decide) (step_reshape _ _ _ _ (by decide)) <|
    Mono.cons _ (by decide) (step_nullary _ _) <|
    Mono.cons _ (by decide) (step_nullary _ _) <|
    Mono.cons _ (by decide) (step_unary _ _ _ (by decide)) <|
    Mono.cons _ (by decide) (step_binary _ _ _ _ (by decide) (by decide)) <|
    Mono.cons _ (by decide) (step_unary _ _ _ (by decide)) <|
    Mono.cons _ (by decide) (step_unary _ _ _ (by decide)) <|
    Mono.cons _ (by decide) (step_binary _ _ _ _ (by decide) (by decide)) <|
    Mono.cons _ (by decide) (step_binary _ _ _ _ (by decide) (by decide)) <|
    Mono.cons _ (by decide) (step_nullary _ _) <|
    Mono.cons _ (by decide) (step_binary _ _ _ _ (by decide) (by decide)) <|
    Mono.cons _ (by decide) (step_binary _ _ _ _ (by decide) (by decide)) <|
    Mono.cons _ (by decide) (step_nullary _ _) <|
    Mono.cons _ (by decide) (step_unary _ _ _ (by decide)) <|
    Mono.cons _ (by decide) (step_ternary _ _ _ _ _ (by decide) (by decide) (by decide)) <|
    Mono.nil (by decide)

abbrev w2_l18 : List (HloOp τ sig (Elt F)) :=
  [ StableHlo.TRef.ternary ((.of main_v124) : StableHlo.TRef sig ⟨S16x2127, .i1⟩) ((.of main_v137) : StableHlo.TRef sig ⟨S16x2127, .f32⟩) ((.of main_v136) : StableHlo.TRef sig ⟨S16x2127, .f32⟩) main_call24.v0 select ]
theorem w2_l18_mono : Mono (τ := τ) 399 (w2_l18 (F := F)) 400 :=
    Mono.cons _ (by decide) (step_ternary _ _ _ _ _ (by decide) (by decide) (by decide)) <|
    Mono.nil (by decide)

abbrev w2_l19 : List (HloOp τ sig (Elt F)) :=
  [ StableHlo.nullary main_c_30 (constantI S_ 32 5#32),
    StableHlo.unary main_c_30 main_v139 (broadcastInDim S16 ![] bcast_S_S16 : (⟨S_, .i32⟩ : BufTy).Contents (Elt F) → (⟨S16, .i32⟩ : BufTy).Contents (Elt F)),
    StableHlo.binary main_v16 main_v139 main_v140 (addi : (⟨S16, .i32⟩ : BufTy).Contents (Elt F) → (⟨S16, .i32⟩ : BufTy).Contents (Elt F) → (⟨S16, .i32⟩ : BufTy).Contents (Elt F)),
    StableHlo.nullary main_v141 (iotaInDim S2127 32 0),
    StableHlo.unary main_v141 main_v142 (broadcastInDim S1x2127 ![1] bcast_S2127_S1x2127_1 : (⟨S2127, .i32⟩ : BufTy).Contents (Elt F) → (⟨S1x2127, .i32⟩ : BufTy).Contents (Elt F)),
    StableHlo.unary main_v140 main_v143 (broadcastInDim S16x1 ![0] bcast_S16_S16x1_0 : (⟨S16, .i32⟩ : BufTy).Contents (Elt F) → (⟨S16x1, .i32⟩ : BufTy).Contents (Elt F)),
    StableHlo.unary main_v142 main_v144 (broadcastInDim S16x2127 ![0, 1] bcast_S1x2127_S16x2127_0_1 : (⟨S1x2127, .i32⟩ : BufTy).Contents (Elt F) → (⟨S16x2127, .i32⟩ : BufTy).Contents (Elt F)),
    StableHlo.unary main_v143 main_v145 (broadcastInDim S16x2127 ![0, 1] bcast_S16x1_S16x2127_0_1 : (⟨S16x1, .i32⟩ : BufTy).Contents (Elt F) → (⟨S16x2127, .i32⟩ : BufTy).Contents (Elt F)),
    StableHlo.binary main_v144 main_v145 main_v146 (cmpi .sge : (⟨S16x2127, .i32⟩ : BufTy).Contents (Elt F) → (⟨S16x2127, .i32⟩ : BufTy).Contents (Elt F) → (⟨S16x2127, .i1⟩ : BufTy).Contents (Elt F)) ]
theorem w2_l19_mono : Mono (τ := τ) 400 (w2_l19 (F := F)) 409 :=
    Mono.cons _ (by decide) (step_nullary _ _) <|
    Mono.cons _ (by decide) (step_unary _ _ _ (by decide)) <|
    Mono.cons _ (by decide) (step_binary _ _ _ _ (by decide) (by decide)) <|
    Mono.cons _ (by decide) (step_nullary _ _) <|
    Mono.cons _ (by decide) (step_unary _ _ _ (by decide)) <|
    Mono.cons _ (by decide) (step_unary _ _ _ (by decide)) <|
    Mono.cons _ (by decide) (step_unary _ _ _ (by decide)) <|
    Mono.cons _ (by decide) (step_unary _ _ _ (by decide)) <|
    Mono.cons _ (by decide) (step_binary _ _ _ _ (by decide) (by decide)) <|
    Mono.nil (by decide)

theorem main_part2_chain (c : Dev nD) : main_part2 (F := F) c = (Pipeline.chainK
  [ StableHlo.seq w2_l0,
    StableHlo.seq w2_l1,
    StableHlo.seq w2_l2,
    StableHlo.seq w2_l3,
    StableHlo.seq w2_l4,
    StableHlo.seq w2_l5,
    StableHlo.seq w2_l6,
    StableHlo.seq w2_l7,
    StableHlo.seq w2_l8,
    StableHlo.seq w2_l9,
    StableHlo.seq w2_l10,
    StableHlo.seq w2_l11,
    StableHlo.seq w2_l12,
    StableHlo.seq w2_l13,
    StableHlo.seq w2_l14,
    StableHlo.seq w2_l15,
    StableHlo.seq w2_l16,
    StableHlo.seq w2_l17,
    StableHlo.seq w2_l18 ]
  (StableHlo.seq w2_l19) : Prog (TpuEff nD τ sig (Elt F) (Pipeline.Sig Λ₀ (Fin 0) fun p => (pcfgs (F := F) p).Adm) .tc) PUnit) := by
  chain_rfl

end Cert.ReferenceIdeal.Run

end
-- ==== Proof.RefRunOps3.lean ====
import proofs.«403361_j42786464202989_2_alg».proof.ReferenceIdeal
import proofs.«403361_j42786464202989_2_alg».proof.Proof.RefRunLib
import Idealize.ShloMosaic.Lib.Pipeline.Regions

noncomputable section

namespace Cert.ReferenceIdeal.Run

open Cert.ReferenceIdeal Idealize.ShloMosaic Idealize.ShloMosaic.TcCoe Idealize.SL.Sem Idealize.ShloMosaic.StableHlo Cert.RunLib
open Cert.ReferenceIdeal.Facts₀ Cert.ReferenceIdeal.Facts

variable {F : FTy → Type} [FloatOps F] [Cert.ReferenceIdeal.Facts]

abbrev w3_l0 : List (HloOp τ sig (Elt F)) :=
  [ StableHlo.nullary main_c_31 (constantI S_ 32 64#32),
    StableHlo.unary main_c_31 main_v147 (broadcastInDim S16x1 ![] bcast_S_S16x1 : (⟨S_, .i32⟩ : BufTy).Contents (Elt F) → (⟨S16x1, .i32⟩ : BufTy).Contents (Elt F)),
    StableHlo.binary main_v143 main_v147 main_v148 (addi : (⟨S16x1, .i32⟩ : BufTy).Contents (Elt F) → (⟨S16x1, .i32⟩ : BufTy).Contents (Elt F) → (⟨S16x1, .i32⟩ : BufTy).Contents (Elt F)),
    StableHlo.unary main_v142 main_v149 (broadcastInDim S16x2127 ![0, 1] bcast_S1x2127_S16x2127_0_1 : (⟨S1x2127, .i32⟩ : BufTy).Contents (Elt F) → (⟨S16x2127, .i32⟩ : BufTy).Contents (Elt F)),
    StableHlo.unary main_v148 main_v150 (broadcastInDim S16x2127 ![0, 1] bcast_S16x1_S16x2127_0_1 : (⟨S16x1, .i32⟩ : BufTy).Contents (Elt F) → (⟨S16x2127, .i32⟩ : BufTy).Contents (Elt F)),
    StableHlo.binary main_v149 main_v150 main_v151 (cmpi .slt : (⟨S16x2127, .i32⟩ : BufTy).Contents (Elt F) → (⟨S16x2127, .i32⟩ : BufTy).Contents (Elt F) → (⟨S16x2127, .i1⟩ : BufTy).Contents (Elt F)),
    StableHlo.binary main_v146 main_v151 main_v152 (andi : (⟨S16x2127, .i1⟩ : BufTy).Contents (Elt F) → (⟨S16x2127, .i1⟩ : BufTy).Contents (Elt F) → (⟨S16x2127, .i1⟩ : BufTy).Contents (Elt F)),
    StableHlo.unary main_v142 main_v153 (broadcastInDim S16x2127 ![0, 1] bcast_S1x2127_S16x2127_0_1 : (⟨S1x2127, .i32⟩ : BufTy).Contents (Elt F) → (⟨S16x2127, .i32⟩ : BufTy).Contents (Elt F)),
    StableHlo.unary main_v143 main_v154 (broadcastInDim S16x2127 ![0, 1] bcast_S16x1_S16x2127_0_1 : (⟨S16x1, .i32⟩ : BufTy).Contents (Elt F) → (⟨S16x2127, .i32⟩ : BufTy).Contents (Elt F)),
    StableHlo.binary main_v153 main_v154 main_v155 (subi : (⟨S16x2127, .i32⟩ : BufTy).Contents (Elt F) → (⟨S16x2127, .i32⟩ : BufTy).Contents (Elt F) → (⟨S16x2127, .i32⟩ : BufTy).Contents (Elt F)),
    StableHlo.nullary main_c_32 (constantI S_ 32 0#32),
    StableHlo.nullary main_c_33 (constantI S_ 32 63#32) ]
theorem w3_l0_mono : Mono (τ := τ) 409 (w3_l0 (F := F)) 421 :=
    Mono.cons _ (by decide) (step_nullary _ _) <|
    Mono.cons _ (by decide) (step_unary _ _ _ (by decide)) <|
    Mono.cons _ (by decide) (step_binary _ _ _ _ (by decide) (by decide)) <|
    Mono.cons _ (by decide) (step_unary _ _ _ (by decide)) <|
    Mono.cons _ (by decide) (step_unary _ _ _ (by decide)) <|
    Mono.cons _ (by decide) (step_binary _ _ _ _ (by decide) (by decide)) <|
    Mono.cons _ (by decide) (step_binary _ _ _ _ (by decide) (by decide)) <|
    Mono.cons _ (by decide) (step_unary _ _ _ (by decide)) <|
    Mono.cons _ (by decide) (step_unary _ _ _ (by decide)) <|
    Mono.cons _ (by decide) (step_binary _ _ _ _ (by decide) (by decide)) <|
    Mono.cons _ (by decide) (step_nullary _ _) <|
    Mono.cons _ (by decide) (step_nullary _ _) <|
    Mono.nil (by decide)

abbrev w3_l1 : List (HloOp τ sig (Elt F)) :=
  [ StableHlo.TRef.unary ((.of main_c_32) : StableHlo.TRef sig ⟨S_, .i32⟩) main_call25.v0 id,
    StableHlo.TRef.unary main_call25.v0 main_call25.v1 (broadcastInDim S16x2127 ![] bcast_S_S16x2127),
    StableHlo.TRef.binary main_call25.v1 ((.of main_v155) : StableHlo.TRef sig ⟨S16x2127, .i32⟩) main_call25.v2 maxsi,
    StableHlo.TRef.unary ((.of main_c_33) : StableHlo.TRef sig ⟨S_, .i32⟩) main_call25.v3 id,
    StableHlo.TRef.unary main_call25.v3 main_call25.v4 (broadcastInDim S16x2127 ![] bcast_S_S16x2127),
    StableHlo.TRef.binary main_call25.v4 main_call25.v2 main_call25.v5 minsi ]
theorem w3_l1_mono : Mono (τ := τ) 421 (w3_l1 (F := F)) 427 :=
    Mono.cons _ (by decide) (step_unary _ _ _ (by decide)) <|
    Mono.cons _ (by decide) (step_unary _ _ _ (by decide)) <|
    Mono.cons _ (by decide) (step_binary _ _ _ _ (by decide) (by decide)) <|
    Mono.cons _ (by decide) (step_unary _ _ _ (by decide)) <|
    Mono.cons _ (by decide) (step_unary _ _ _ (by decide)) <|
    Mono.cons _ (by decide) (step_binary _ _ _ _ (by decide) (by decide)) <|
    Mono.nil (by decide)

abbrev w3_l2 : List (HloOp τ sig (Elt F)) :=
  [ StableHlo.TRef.nullary main_call26.c (constantI S_ 32 0#32),
    StableHlo.TRef.unary main_call26.c main_call26.v0 (broadcastInDim S16x2127 ![] bcast_S_S16x2127),
    StableHlo.TRef.binary ((.of main_v156) : StableHlo.TRef sig ⟨S16x2127, .i32⟩) main_call26.v0 main_call26.v1 (cmpi .slt),
    StableHlo.TRef.nullary main_call26.c_0 (constantI S_ 32 64#32),
    StableHlo.TRef.unary main_call26.c_0 main_call26.v2 (broadcastInDim S16x2127 ![] bcast_S_S16x2127),
    StableHlo.TRef.binary ((.of main_v156) : StableHlo.TRef sig ⟨S16x2127, .i32⟩) main_call26.v2 main_call26.v3 addi,
    StableHlo.TRef.ternary main_call26.v1 main_call26.v3 ((.of main_v156) : StableHlo.TRef sig ⟨S16x2127, .i32⟩) main_call26.v4 select,
    StableHlo.TRef.reshape main_call26.v4 main_call26.v5 rfl shapeCasts_S16x2127_S16x2127x1,
    StableHlo.TRef.nullary main_call26.c_1 (constantI S1 32 63#32),
    StableHlo.TRef.nullary main_call26.c_2 (constantI S_ 32 0#32),
    StableHlo.TRef.unary main_call26.c_2 main_call26.v6 (broadcastInDim S16x2127x1 ![] bcast_S_S16x2127x1),
    StableHlo.TRef.binary main_call26.v5 main_call26.v6 main_call26.v7 (cmpi .sge),
    StableHlo.TRef.unary main_call26.c_1 main_call26.v8 (broadcastInDim S1x1x1 ![2] bcast_S1_S1x1x1_2),
    StableHlo.TRef.unary main_call26.v8 main_call26.v9 (broadcastInDim S16x2127x1 ![0, 1, 2] bcast_S1x1x1_S16x2127x1_0_1_2),
    StableHlo.TRef.binary main_call26.v5 main_call26.v9 main_call26.v10 (cmpi .sle),
    StableHlo.TRef.binary main_call26.v7 main_call26.v10 main_call26.v11 andi,
    StableHlo.TRef.nullary main_call26.c_3 (constantI S_ 1 1#1),
    StableHlo.TRef.binary main_call26.v11 main_call26.c_3 main_call26.v12 (fun x v => Host.reduce IntOp.andi x v reducesTo_S16x2127x1_S16x2127_d2 h_S_),
    StableHlo.TRef.binary ((.of main_arg3) : StableHlo.TRef sig ⟨S16x64, .i32⟩) main_call26.v5 main_call26.v13 (fun x i => Host.gather gather_S16x64_S16x2127x1_S16x2127_n_1_0_0_1_2_11 x i),
    StableHlo.TRef.nullary main_call26.c_4 (constantI S_ 32 2147483648#32),
    StableHlo.TRef.unary main_call26.c_4 main_call26.v14 (broadcastInDim S16x2127 ![] bcast_S_S16x2127),
    StableHlo.TRef.ternary main_call26.v12 main_call26.v13 main_call26.v14 main_call26.v15 select ]
theorem w3_l2_mono : Mono (τ := τ) 427 (w3_l2 (F := F)) 449 :=
    Mono.cons _ (by decide) (step_nullary _ _) <|
    Mono.cons _ (by decide) (step_unary _ _ _ (by decide)) <|
    Mono.cons _ (by decide) (step_binary _ _ _ _ (by decide) (by decide)) <|
    Mono.cons _ (by decide) (step_nullary _ _) <|
    Mono.cons _ (by decide) (step_unary _ _ _ (by decide)) <|
    Mono.cons _ (by decide) (step_binary _ _ _ _ (by decide) (by decide)) <|
    Mono.cons _ (by decide) (step_ternary _ _ _ _ _ (by decide) (by decide) (by decide)) <|
    Mono.cons _ (by decide) (step_reshape _ _ _ _ (by decide)) <|
    Mono.cons _ (by decide) (step_nullary _ _) <|
    Mono.cons _ (by decide) (step_nullary _ _) <|
    Mono.cons _ (by decide) (step_unary _ _ _ (by decide)) <|
    Mono.cons _ (by decide) (step_binary _ _ _ _ (by decide) (by decide)) <|
    Mono.cons _ (by decide) (step_unary _ _ _ (by decide)) <|
    Mono.cons _ (by decide) (step_unary _ _ _ (by decide)) <|
    Mono.cons _ (by decide) (step_binary _ _ _ _ (by decide) (by decide)) <|
    Mono.cons _ (by decide) (step_binary _ _ _ _ (by decide) (by decide)) <|
    Mono.cons _ (by decide) (step_nullary _ _) <|
    Mono.cons _ (by decide) (step_binary _ _ _ _ (by decide) (by decide)) <|
    Mono.cons _ (by decide) (step_binary _ _ _ _ (by decide) (by decide)) <|
    Mono.cons _ (by decide) (step_nullary _ _) <|
    Mono.cons _ (by decide) (step_unary _ _ _ (by decide)) <|
    Mono.cons _ (by decide) (step_ternary _ _ _ _ _ (by decide) (by decide) (by decide)) <|
    Mono.nil (by decide)

abbrev w3_l3 : List (HloOp τ sig (Elt F)) :=
  [ StableHlo.unary main_v157 main_v158 (sitofp .f32 : (⟨S16x2127, .i32⟩ : BufTy).Contents (Elt F) → (⟨S16x2127, .f32⟩ : BufTy).Contents (Elt F)),
    StableHlo.nullary main_cst_34 (constant S_ .f32 0x00000000#32) ]
theorem w3_l3_mono : Mono (τ := τ) 449 (w3_l3 (F := F)) 451 :=
    Mono.cons _ (by decide) (step_unary _ _ _ (by decide)) <|
    Mono.cons _ (by decide) (step_nullary _ _) <|
    Mono.nil (by decide)

abbrev w3_l4 : List (HloOp τ sig (Elt F)) :=
  [ StableHlo.TRef.unary ((.of main_cst_34) : StableHlo.TRef sig ⟨S_, .f32⟩) main_call27.v0 id,
    StableHlo.TRef.unary main_call27.v0 main_call27.v1 (broadcastInDim S16x2127 ![] bcast_S_S16x2127),
    StableHlo.TRef.ternary ((.of main_v152) : StableHlo.TRef sig ⟨S16x2127, .i1⟩) ((.of main_v158) : StableHlo.TRef sig ⟨S16x2127, .f32⟩) main_call27.v1 main_call27.v2 select ]
theorem w3_l4_mono : Mono (τ := τ) 451 (w3_l4 (F := F)) 454 :=
    Mono.cons _ (by decide) (step_unary _ _ _ (by decide)) <|
    Mono.cons _ (by decide) (step_unary _ _ _ (by decide)) <|
    Mono.cons _ (by decide) (step_ternary _ _ _ _ _ (by decide) (by decide) (by decide)) <|
    Mono.nil (by decide)

abbrev w3_l5 : List (HloOp τ sig (Elt F)) :=
  [ StableHlo.TRef.nullary main_call28.c (constantI S_ 32 0#32),
    StableHlo.TRef.unary main_call28.c main_call28.v0 (broadcastInDim S16x2127 ![] bcast_S_S16x2127),
    StableHlo.TRef.binary ((.of main_v156) : StableHlo.TRef sig ⟨S16x2127, .i32⟩) main_call28.v0 main_call28.v1 (cmpi .slt),
    StableHlo.TRef.nullary main_call28.c_0 (constantI S_ 32 64#32),
    StableHlo.TRef.unary main_call28.c_0 main_call28.v2 (broadcastInDim S16x2127 ![] bcast_S_S16x2127),
    StableHlo.TRef.binary ((.of main_v156) : StableHlo.TRef sig ⟨S16x2127, .i32⟩) main_call28.v2 main_call28.v3 addi,
    StableHlo.TRef.ternary main_call28.v1 main_call28.v3 ((.of main_v156) : StableHlo.TRef sig ⟨S16x2127, .i32⟩) main_call28.v4 select,
    StableHlo.TRef.reshape main_call28.v4 main_call28.v5 rfl shapeCasts_S16x2127_S16x2127x1,
    StableHlo.TRef.nullary main_call28.c_1 (constantI S1 32 63#32),
    StableHlo.TRef.nullary main_call28.c_2 (constantI S_ 32 0#32),
    StableHlo.TRef.unary main_call28.c_2 main_call28.v6 (broadcastInDim S16x2127x1 ![] bcast_S_S16x2127x1),
    StableHlo.TRef.binary main_call28.v5 main_call28.v6 main_call28.v7 (cmpi .sge),
    StableHlo.TRef.unary main_call28.c_1 main_call28.v8 (broadcastInDim S1x1x1 ![2] bcast_S1_S1x1x1_2),
    StableHlo.TRef.unary main_call28.v8 main_call28.v9 (broadcastInDim S16x2127x1 ![0, 1, 2] bcast_S1x1x1_S16x2127x1_0_1_2),
    StableHlo.TRef.binary main_call28.v5 main_call28.v9 main_call28.v10 (cmpi .sle),
    StableHlo.TRef.binary main_call28.v7 main_call28.v10 main_call28.v11 andi,
    StableHlo.TRef.nullary main_call28.c_3 (constantI S_ 1 1#1),
    StableHlo.TRef.binary main_call28.v11 main_call28.c_3 main_call28.v12 (fun x v => Host.reduce IntOp.andi x v reducesTo_S16x2127x1_S16x2127_d2 h_S_),
    StableHlo.TRef.binary ((.of main_arg2) : StableHlo.TRef sig ⟨S16x64, .i32⟩) main_call28.v5 main_call28.v13 (fun x i => Host.gather gather_S16x64_S16x2127x1_S16x2127_n_1_0_0_1_2_11 x i),
    StableHlo.TRef.nullary main_call28.c_4 (constantI S_ 32 2147483648#32),
    StableHlo.TRef.unary main_call28.c_4 main_call28.v14 (broadcastInDim S16x2127 ![] bcast_S_S16x2127),
    StableHlo.TRef.ternary main_call28.v12 main_call28.v13 main_call28.v14 main_call28.v15 select ]
theorem w3_l5_mono : Mono (τ := τ) 454 (w3_l5 (F := F)) 476 :=
    Mono.cons _ (by decide) (step_nullary _ _) <|
    Mono.cons _ (by decide) (step_unary _ _ _ (by decide)) <|
    Mono.cons _ (by decide) (step_binary _ _ _ _ (by decide) (by decide)) <|
    Mono.cons _ (by decide) (step_nullary _ _) <|
    Mono.cons _ (by decide) (step_unary _ _ _ (by decide)) <|
    Mono.cons _ (by decide) (step_binary _ _ _ _ (by decide) (by decide)) <|
    Mono.cons _ (by decide) (step_ternary _ _ _ _ _ (by decide) (by decide) (by decide)) <|
    Mono.cons _ (by decide) (step_reshape _ _ _ _ (by decide)) <|
    Mono.cons _ (by decide) (step_nullary _ _) <|
    Mono.cons _ (by decide) (step_nullary _ _) <|
    Mono.cons _ (by decide) (step_unary _ _ _ (by decide)) <|
    Mono.cons _ (by decide) (step_binary _ _ _ _ (by decide) (by decide)) <|
    Mono.cons _ (by decide) (step_unary _ _ _ (by decide)) <|
    Mono.cons _ (by decide) (step_unary _ _ _ (by decide)) <|
    Mono.cons _ (by decide) (step_binary _ _ _ _ (by decide) (by decide)) <|
    Mono.cons _ (by decide) (step_binary _ _ _ _ (by decide) (by decide)) <|
    Mono.cons _ (by decide) (step_nullary _ _) <|
    Mono.cons _ (by decide) (step_binary _ _ _ _ (by decide) (by decide)) <|
    Mono.cons _ (by decide) (step_binary _ _ _ _ (by decide) (by decide)) <|
    Mono.cons _ (by decide) (step_nullary _ _) <|
    Mono.cons _ (by decide) (step_unary _ _ _ (by decide)) <|
    Mono.cons _ (by decide) (step_ternary _ _ _ _ _ (by decide) (by decide) (by decide)) <|
    Mono.nil (by decide)

abbrev w3_l6 : List (HloOp τ sig (Elt F)) :=
  [ StableHlo.nullary main_cst_35 (constant S_ .f32 0x3F800000#32),
    StableHlo.unary main_cst_35 main_v161 (broadcastInDim S16x2127 ![] bcast_S_S16x2127 : (⟨S_, .f32⟩ : BufTy).Contents (Elt F) → (⟨S16x2127, .f32⟩ : BufTy).Contents (Elt F)),
    StableHlo.binary main_v159 main_v161 main_v162 (cmpf .oeq : (⟨S16x2127, .f32⟩ : BufTy).Contents (Elt F) → (⟨S16x2127, .f32⟩ : BufTy).Contents (Elt F) → (⟨S16x2127, .i1⟩ : BufTy).Contents (Elt F)),
    StableHlo.nullary main_c_36 (constantI S_ 32 4294967295#32) ]
theorem w3_l6_mono : Mono (τ := τ) 476 (w3_l6 (F := F)) 480 :=
    Mono.cons _ (by decide) (step_nullary _ _) <|
    Mono.cons _ (by decide) (step_unary _ _ _ (by decide)) <|
    Mono.cons _ (by decide) (step_binary _ _ _ _ (by decide) (by decide)) <|
    Mono.cons _ (by decide) (step_nullary _ _) <|
    Mono.nil (by decide)

abbrev w3_l7 : List (HloOp τ sig (Elt F)) :=
  [ StableHlo.TRef.unary ((.of main_c_36) : StableHlo.TRef sig ⟨S_, .i32⟩) main_call29.v0 id,
    StableHlo.TRef.unary main_call29.v0 main_call29.v1 (broadcastInDim S16x2127 ![] bcast_S_S16x2127),
    StableHlo.TRef.ternary ((.of main_v162) : StableHlo.TRef sig ⟨S16x2127, .i1⟩) ((.of main_v160) : StableHlo.TRef sig ⟨S16x2127, .i32⟩) main_call29.v1 main_call29.v2 select ]
theorem w3_l7_mono : Mono (τ := τ) 480 (w3_l7 (F := F)) 483 :=
    Mono.cons _ (by decide) (step_unary _ _ _ (by decide)) <|
    Mono.cons _ (by decide) (step_unary _ _ _ (by decide)) <|
    Mono.cons _ (by decide) (step_ternary _ _ _ _ _ (by decide) (by decide) (by decide)) <|
    Mono.nil (by decide)

abbrev w3_l8 : List (HloOp τ sig (Elt F)) :=
  [ StableHlo.nullary main_cst_37 (constant S_ .f32 0x00000000#32),
    StableHlo.unary main_cst_37 main_v164 (broadcastInDim S16x1 ![] bcast_S_S16x1 : (⟨S_, .f32⟩ : BufTy).Contents (Elt F) → (⟨S16x1, .f32⟩ : BufTy).Contents (Elt F)),
    StableHlo.unary main_v159 main_v165 ((extractStridedSlice S16x2126 ![0, 0] · slices_S16x2127_S16x2126_0_0) : (⟨S16x2127, .f32⟩ : BufTy).Contents (Elt F) → (⟨S16x2126, .f32⟩ : BufTy).Contents (Elt F)),
    StableHlo.binary main_v164 main_v165 main_v166 ((fun a b => concatenate S16x2127 1 [⟨S16x1, a⟩, ⟨S16x2126, b⟩] concatenates_S16x1_S16x2126_S16x2127_d1) : (⟨S16x1, .f32⟩ : BufTy).Contents (Elt F) → (⟨S16x2126, .f32⟩ : BufTy).Contents (Elt F) → (⟨S16x2127, .f32⟩ : BufTy).Contents (Elt F)),
    StableHlo.nullary main_c_38 (constantI S_ 32 4294967295#32),
    StableHlo.unary main_c_38 main_v167 (broadcastInDim S16x1 ![] bcast_S_S16x1 : (⟨S_, .i32⟩ : BufTy).Contents (Elt F) → (⟨S16x1, .i32⟩ : BufTy).Contents (Elt F)),
    StableHlo.unary main_arg2 main_v168 ((extractStridedSlice S16x63 ![0, 1] · slices_S16x64_S16x63_0_1) : (⟨S16x64, .i32⟩ : BufTy).Contents (Elt F) → (⟨S16x63, .i32⟩ : BufTy).Contents (Elt F)),
    StableHlo.binary main_v168 main_v167 main_v169 ((fun a b => concatenate S16x64 1 [⟨S16x63, a⟩, ⟨S16x1, b⟩] concatenates_S16x63_S16x1_S16x64_d1) : (⟨S16x63, .i32⟩ : BufTy).Contents (Elt F) → (⟨S16x1, .i32⟩ : BufTy).Contents (Elt F) → (⟨S16x64, .i32⟩ : BufTy).Contents (Elt F)),
    StableHlo.nullary main_c_39 (constantI S_ 32 4294967295#32),
    StableHlo.unary main_c_39 main_v170 (broadcastInDim S16x1 ![] bcast_S_S16x1 : (⟨S_, .i32⟩ : BufTy).Contents (Elt F) → (⟨S16x1, .i32⟩ : BufTy).Contents (Elt F)),
    StableHlo.unary main_v163 main_v171 ((extractStridedSlice S16x2126 ![0, 1] · slices_S16x2127_S16x2126_0_1) : (⟨S16x2127, .i32⟩ : BufTy).Contents (Elt F) → (⟨S16x2126, .i32⟩ : BufTy).Contents (Elt F)),
    StableHlo.binary main_v171 main_v170 main_v172 ((fun a b => concatenate S16x2127 1 [⟨S16x2126, a⟩, ⟨S16x1, b⟩] concatenates_S16x2126_S16x1_S16x2127_d1) : (⟨S16x2126, .i32⟩ : BufTy).Contents (Elt F) → (⟨S16x1, .i32⟩ : BufTy).Contents (Elt F) → (⟨S16x2127, .i32⟩ : BufTy).Contents (Elt F)) ]
theorem w3_l8_mono : Mono (τ := τ) 483 (w3_l8 (F := F)) 495 :=
    Mono.cons _ (by decide) (step_nullary _ _) <|
    Mono.cons _ (by decide) (step_unary _ _ _ (by decide)) <|
    Mono.cons _ (by decide) (step_unary _ _ _ (by decide)) <|
    Mono.cons _ (by decide) (step_binary _ _ _ _ (by decide) (by decide)) <|
    Mono.cons _ (by decide) (step_nullary _ _) <|
    Mono.cons _ (by decide) (step_unary _ _ _ (by decide)) <|
    Mono.cons _ (by decide) (step_unary _ _ _ (by decide)) <|
    Mono.cons _ (by decide) (step_binary _ _ _ _ (by decide) (by decide)) <|
    Mono.cons _ (by decide) (step_nullary _ _) <|
    Mono.cons _ (by decide) (step_unary _ _ _ (by decide)) <|
    Mono.cons _ (by decide) (step_unary _ _ _ (by decide)) <|
    Mono.cons _ (by decide) (step_binary _ _ _ _ (by decide) (by decide)) <|
    Mono.nil (by decide)

theorem main_part3_chain (c : Dev nD) : main_part3 (F := F) c = (Pipeline.chain
  [ StableHlo.seq w3_l0,
    StableHlo.seq w3_l1,
    StableHlo.seq w3_l2,
    StableHlo.seq w3_l3,
    StableHlo.seq w3_l4,
    StableHlo.seq w3_l5,
    StableHlo.seq w3_l6,
    StableHlo.seq w3_l7,
    StableHlo.seq w3_l8 ] : Prog (TpuEff nD τ sig (Elt F) (Pipeline.Sig Λ₀ (Fin 0) fun p => (pcfgs (F := F) p).Adm) .tc) PUnit) := by
  chain_rfl

end Cert.ReferenceIdeal.Run

end
-- ==== Proof.RefGather.lean ====
import proofs.«403361_j42786464202989_2_alg».proof.ReferenceIdeal
import proofs.«403361_j42786464202989_2_alg».proof.Proof.Gen.ReferenceIdeal
import proofs.«403361_j42786464202989_2_alg».proof.Proof.Rows

noncomputable section

namespace Cert.ReferenceIdeal.RefGather

open Idealize.ShloMosaic Idealize.ShloMosaic.ValueIdx Cert.ReferenceIdeal

section Rows
variable {α : Type}

abbrev rowDims (N D R C : Nat)
    (wf : GatherDims.WF ⟨2, ![N, D]⟩ ⟨3, ![R, C, 1]⟩ ⟨3, ![R, C, D]⟩ [2] [0] [] [0] [] 2 ![1, D]) :
    GatherDims ⟨2, ![N, D]⟩ ⟨3, ![R, C, 1]⟩ ⟨3, ![R, C, D]⟩ where
  offsetDims := [2]
  collapsedSliceDims := [0]
  operandBatchingDims := []
  startIndicesBatchingDims := []
  startIndexMap := [0]
  indexVectorDim := 2
  sliceSizes := ![1, D]
  wf := wf

theorem gather_rows_apply {N D R C w : Nat} (hN : 0 < N)
    (wf : GatherDims.WF ⟨2, ![N, D]⟩ ⟨3, ![R, C, 1]⟩ ⟨3, ![R, C, D]⟩ [2] [0] [] [0] [] 2 ![1, D])
    (x : (⟨2, ![N, D]⟩ : Shape).Idx → α) (idx : IVec ⟨3, ![R, C, 1]⟩ w) (r : Fin R) (c : Fin C) (d : Fin D) :
    Host.gather (rowDims N D R C wf) x idx (ix3 r c d)
      = x (ix2 (⟨min (idx (ix3 r c (⟨0, Nat.one_pos⟩ : Fin 1))).toInt.toNat (N - 1), by omega⟩ : Fin N) d) := by
  unfold Host.gather
  refine congrArg x (funext fun a => Fin.ext ?_)
  show (rowDims N D R C wf).start (ix3 r c d) idx a + (rowDims N D R C wf).batchCoord (ix3 r c d) a
    + (rowDims N D R C wf).offCoord (ix3 r c d) a = _
  rw [GatherDims.batchCoord_eq_zero _ _ _ List.not_mem_nil, Nat.add_zero]
  have h0 : (rowDims N D R C wf).start (ix3 r c d) idx (0 : Fin 2) + (rowDims N D R C wf).offCoord (ix3 r c d) (0 : Fin 2)
      = min (idx (ix3 r c (⟨0, Nat.one_pos⟩ : Fin 1))).toInt.toNat (N - 1) := by
    rw [GatherDims.offCoord_eq_zero _ _ _
      (fun h => ((GatherDims.mem_sKept _ _).mp h).1 (List.mem_singleton.mpr rfl)), Nat.add_zero]
    unfold GatherDims.start
    rw [dif_pos (show (0 : Fin 2) ∈ (rowDims N D R C wf).startIndexMap from List.mem_singleton.mpr rfl)]
    have hsi : (rowDims N D R C wf).siIdx (ix3 r c d) ⟨List.idxOf (0 : Fin 2) (rowDims N D R C wf).startIndexMap,
        List.idxOf_lt_length_iff.2 (List.mem_singleton.mpr rfl)⟩ = ix3 r c (⟨0, Nat.one_pos⟩ : Fin 1) := by
      funext b; refine Fin.ext ?_
      match b with
      | ⟨0, _⟩ => rfl
      | ⟨1, _⟩ => rfl
      | ⟨2, _⟩ => rfl
    rw [hsi]
    rfl
  have h1 : (rowDims N D R C wf).start (ix3 r c d) idx (1 : Fin 2) + (rowDims N D R C wf).offCoord (ix3 r c d) (1 : Fin 2)
      = d.val := by
    have hne : (1 : Fin 2) ≠ 0 := by decide
    have hs : (rowDims N D R C wf).start (ix3 r c d) idx (1 : Fin 2) = 0 := by
      unfold GatherDims.start
      rw [dif_neg (show (1 : Fin 2) ∉ (rowDims N D R C wf).startIndexMap from fun h => hne (List.mem_singleton.mp h))]
    rw [hs, Nat.zero_add]
    unfold GatherDims.offCoord
    rw [dif_pos ((GatherDims.mem_sKept _ _).mpr ⟨fun h => hne (List.mem_singleton.mp h), List.not_mem_nil⟩)]
    rfl
  match a with
  | ⟨0, _⟩ => exact h0
  | ⟨1, _⟩ => exact h1

theorem unitAxis_apply {R C : Nat} (hb : (⟨2, ![R, C]⟩ : Shape).BroadcastsInDim ⟨3, ![R, C, 1]⟩ ![0, 1])
    (v : (⟨2, ![R, C]⟩ : Shape).Idx → α) (r : Fin R) (c : Fin C) :
    broadcastInDim ⟨3, ![R, C, 1]⟩ ![0, 1] hb v (ix3 r c (⟨0, Nat.one_pos⟩ : Fin 1)) = v (ix2 r c) := by
  unfold broadcastInDim
  refine congrArg v (funext fun a => Fin.ext ?_)
  match a with
  | ⟨0, _⟩ =>
    show (if h1 : R = 1 then (⟨0, by omega⟩ : Fin R) else ⟨r.val, _⟩).val = r.val
    split
    · have := r.isLt; omega
    · rfl
  | ⟨1, _⟩ =>
    show (if h1 : C = 1 then (⟨0, by omega⟩ : Fin C) else ⟨c.val, _⟩).val = c.val
    split
    · have := c.isLt; omega
    · rfl

end Rows

theorem wrap_of_lt (x : BitVec 32) (h : x.toNat < 50257) :
    Scalar.select (IntOp.cmpi .slt x 0#32) (IntOp.addi x 50257#32) x = x := by
  have hs : x.slt 0#32 = false := by
    rw [BitVec.slt_eq_decide, BitVec.toInt_eq_toNat_cond]
    simp only [BitVec.toInt_zero]
    rw [if_pos (by omega)]
    exact decide_eq_false (by omega)
  show Scalar.select (BitVec.ofBool (x.slt 0#32)) _ _ = _
  rw [hs]
  exact select_zero _ _

theorem clamp_of_lt (x : BitVec 32) (h : x.toNat < 50257) : min x.toInt.toNat (50257 - 1) = x.toNat := by
  rw [BitVec.toInt_eq_toNat_cond, if_pos (by omega)]
  simp only [Int.toNat_natCast]
  omega

theorem gather_unitAxis_apply {β : Type} {C : Nat}
    (hb : (⟨2, ![16, C]⟩ : Shape).BroadcastsInDim ⟨3, ![16, C, 1]⟩ ![0, 1])
    (wf : GatherDims.WF ⟨2, ![50257, 1024]⟩ ⟨3, ![16, C, 1]⟩ ⟨3, ![16, C, 1024]⟩ [2] [0] [] [0] [] 2 ![1, 1024])
    (tbl : (⟨2, ![50257, 1024]⟩ : Shape).Idx → β) (v a : IVec ⟨2, ![16, C]⟩ 32)
    (r : Fin 16) (c : Fin C) (d : Fin 1024) (hva : v (ix2 r c) = a (ix2 r c)) (h : (a (ix2 r c)).toNat < 50257) :
    Host.gather (rowDims 50257 1024 16 C wf) tbl (broadcastInDim ⟨3, ![16, C, 1]⟩ ![0, 1] hb v) (ix3 r c d)
      = Cert.Rows.cell tbl (a (ix2 r c)).toNat d := by
  have hv : min (broadcastInDim ⟨3, ![16, C, 1]⟩ ![0, 1] hb v (ix3 r c (⟨0, Nat.one_pos⟩ : Fin 1))).toInt.toNat (50257 - 1)
      = (a (ix2 r c)).toNat := by
    rw [unitAxis_apply, hva, clamp_of_lt _ h]
  rw [gather_rows_apply (by decide), Cert.Rows.cell_of_lt tbl _ h d]
  exact congrArg tbl (congrArg (fun q => ix2 q d) (Fin.ext hv))

theorem lookup_apply {β : Type} {C : Nat} (hb : (⟨2, ![16, C]⟩ : Shape).BroadcastsInDim ⟨3, ![16, C, 1]⟩ ![0, 1])
    (hz : (⟨0, ![]⟩ : Shape).BroadcastsInDim ⟨2, ![16, C]⟩ ![])
    (wf : GatherDims.WF ⟨2, ![50257, 1024]⟩ ⟨3, ![16, C, 1]⟩ ⟨3, ![16, C, 1024]⟩ [2] [0] [] [0] [] 2 ![1, 1024])
    (tbl : (⟨2, ![50257, 1024]⟩ : Shape).Idx → β) (a : IVec ⟨2, ![16, C]⟩ 32) (h : ∀ i, (a i).toNat < 50257)
    (r : Fin 16) (c : Fin C) (d : Fin 1024) :
    Host.gather (rowDims 50257 1024 16 C wf) tbl
        (broadcastInDim ⟨3, ![16, C, 1]⟩ ![0, 1] hb
          (select (cmpi .slt a (broadcastInDim ⟨2, ![16, C]⟩ ![] hz (constantI ⟨0, ![]⟩ 32 0#32)))
            (addi a (broadcastInDim ⟨2, ![16, C]⟩ ![] hz (constantI ⟨0, ![]⟩ 32 50257#32))) a))
        (ix3 r c d)
      = Cert.Rows.cell tbl (a (ix2 r c)).toNat d :=
  gather_unitAxis_apply hb wf tbl _ a r c d (wrap_of_lt _ (h _)) (h _)

variable {F : FTy → Type} [FloatOps F] [Cert.ReferenceIdeal.Facts]
open Facts₀ Facts

def refIE (a0 : IVec S16x2048 32) (a4 : FVec F S50257x1024 .f32) : FVec F S16x2048x1024 .f32 :=
  Host.gather gather_S50257x1024_S16x2048x1_S16x2048x1024_2_0_n_n_0_2_11024 a4
    (broadcastInDim S16x2048x1 ![0, 1] bcast_S16x2048_S16x2048x1_0_1
      (select (cmpi .slt a0 (broadcastInDim S16x2048 ![] bcast_S_S16x2048 (constantI S_ 32 0#32)))
              (addi a0 (broadcastInDim S16x2048 ![] bcast_S_S16x2048 (constantI S_ 32 50257#32))) a0))

def refTE (a2 : IVec S16x64 32) (a4 : FVec F S50257x1024 .f32) : FVec F S16x64x1024 .f32 :=
  Host.gather gather_S50257x1024_S16x64x1_S16x64x1024_2_0_n_n_0_2_11024 a4
    (broadcastInDim S16x64x1 ![0, 1] bcast_S16x64_S16x64x1_0_1
      (select (cmpi .slt a2 (broadcastInDim S16x64 ![] bcast_S_S16x64 (constantI S_ 32 0#32)))
              (addi a2 (broadcastInDim S16x64 ![] bcast_S_S16x64 (constantI S_ 32 50257#32))) a2))

theorem refIE_eq (a0 : IVec S16x2048 32) (a4 : FVec F S50257x1024 .f32) (h : ∀ i, (a0 i).toNat < 50257) :
    refIE a0 a4 = Cert.Rows.rowsIn a4 a0 := by
  funext j
  obtain ⟨r, c, d, rfl⟩ : ∃ (r : Fin 16) (c : Fin 2048) (d : Fin 1024), j = ix3 r c d := ⟨j 0, j 1, j 2, eq_ix3 j⟩
  exact lookup_apply bcast_S16x2048_S16x2048x1_0_1 bcast_S_S16x2048
    gather_S50257x1024_S16x2048x1_S16x2048x1024_2_0_n_n_0_2_11024_wf a4 a0 h r c d

theorem refTE_eq (a2 : IVec S16x64 32) (a4 : FVec F S50257x1024 .f32) (h : ∀ i, (a2 i).toNat < 50257) :
    refTE a2 a4 = Cert.Rows.rowsTg a4 a2 := by
  funext j
  obtain ⟨r, c, d, rfl⟩ : ∃ (r : Fin 16) (c : Fin 64) (d : Fin 1024), j = ix3 r c d := ⟨j 0, j 1, j 2, eq_ix3 j⟩
  exact lookup_apply bcast_S16x64_S16x64x1_0_1 bcast_S_S16x64
    gather_S50257x1024_S16x64x1_S16x64x1024_2_0_n_n_0_2_11024_wf a4 a2 h r c d

end Cert.ReferenceIdeal.RefGather

end
-- ==== Proof.Glue1.lean ====
import proofs.«403361_j42786464202989_2_alg».proof.ReferenceIdeal

noncomputable section

namespace Cert.Glue

open Idealize.ShloMosaic Cert.ReferenceIdeal
open Cert.ReferenceIdeal.Facts₀ Cert.ReferenceIdeal.Facts

variable {F : FTy → Type} [FloatOps F] [Cert.ReferenceIdeal.Facts]

/-- What the glue reads: the two looked-up embeddings and five of the arguments. -/
structure In (F : FTy → Type) [FloatOps F] where
  ie : FVec F S16x2048x1024 .f32
  te : FVec F S16x64x1024 .f32
  a1 : IVec S16x2048 32
  a2 : IVec S16x64 32
  a3 : IVec S16x64 32
  a5 : FVec F S10x1024 .f32
  a6 : FVec F S5x1024 .f32

def n1 (p : In F) : (⟨S1x10x1024, .f32⟩ : BufTy).Contents (Elt F) := (broadcastInDim S1x10x1024 ![1, 2] bcast_S10x1024_S1x10x1024_1_2 : (⟨S10x1024, .f32⟩ : BufTy).Contents (Elt F) → (⟨S1x10x1024, .f32⟩ : BufTy).Contents (Elt F)) p.a5
def n2 (p : In F) : (⟨S16x10x1024, .f32⟩ : BufTy).Contents (Elt F) := (broadcastInDim S16x10x1024 ![0, 1, 2] bcast_S1x10x1024_S16x10x1024_0_1_2 : (⟨S1x10x1024, .f32⟩ : BufTy).Contents (Elt F) → (⟨S16x10x1024, .f32⟩ : BufTy).Contents (Elt F)) (n1 p)
def n3 (p : In F) : (⟨S16x2058x1024, .f32⟩ : BufTy).Contents (Elt F) := ((fun a b => concatenate S16x2058x1024 1 [⟨S16x10x1024, a⟩, ⟨S16x2048x1024, b⟩] concatenates_S16x10x1024_S16x2048x1024_S16x2058x1024_d1) : (⟨S16x10x1024, .f32⟩ : BufTy).Contents (Elt F) → (⟨S16x2048x1024, .f32⟩ : BufTy).Contents (Elt F) → (⟨S16x2058x1024, .f32⟩ : BufTy).Contents (Elt F)) (n2 p) p.ie
def n4 (p : In F) : (⟨S_, .i32⟩ : BufTy).Contents (Elt F) := (constantI S_ 32 1#32)
def n5 (p : In F) : (⟨S16x10, .i32⟩ : BufTy).Contents (Elt F) := (broadcastInDim S16x10 ![] bcast_S_S16x10 : (⟨S_, .i32⟩ : BufTy).Contents (Elt F) → (⟨S16x10, .i32⟩ : BufTy).Contents (Elt F)) (n4 p)
def n6 (p : In F) : (⟨S16x2058, .i32⟩ : BufTy).Contents (Elt F) := ((fun a b => concatenate S16x2058 1 [⟨S16x10, a⟩, ⟨S16x2048, b⟩] concatenates_S16x10_S16x2048_S16x2058_d1) : (⟨S16x10, .i32⟩ : BufTy).Contents (Elt F) → (⟨S16x2048, .i32⟩ : BufTy).Contents (Elt F) → (⟨S16x2058, .i32⟩ : BufTy).Contents (Elt F)) (n5 p) p.a1
def n7 (p : In F) : (⟨S16x2058, .i32⟩ : BufTy).Contents (Elt F) := (broadcastInDim S16x2058 ![] bcast_S_S16x2058 : (⟨S_, .i32⟩ : BufTy).Contents (Elt F) → (⟨S16x2058, .i32⟩ : BufTy).Contents (Elt F)) (n4 p)
def n8 (p : In F) : (⟨S16x2058, .i32⟩ : BufTy).Contents (Elt F) := (subi : (⟨S16x2058, .i32⟩ : BufTy).Contents (Elt F) → (⟨S16x2058, .i32⟩ : BufTy).Contents (Elt F) → (⟨S16x2058, .i32⟩ : BufTy).Contents (Elt F)) (n7 p) (n6 p)
def n9 (p : In F) : (⟨S16x2058, .i32⟩ : BufTy).Contents (Elt F) := (iotaInDim S16x2058 32 1)
def n10 (p : In F) : (⟨S_, .i32⟩ : BufTy).Contents (Elt F) := (constantI S_ 32 2147483648#32)
def n11 (p : In F) : (⟨S_, .i32⟩ : BufTy).Contents (Elt F) := (constantI S_ 32 0#32)
def n12 (p : In F) : (⟨S16, .i32⟩ : BufTy).Contents (Elt F) := (fun x y u v j => (Host.reduce2 reducer_argmax_i32_i32 x y u v reducesTo_S16x2058_S16_d1 h_S_ j).1) (n8 p) (n9 p) (n10 p) (n11 p)
def n13 (p : In F) : (⟨S16, .i32⟩ : BufTy).Contents (Elt F) := (fun x y u v j => (Host.reduce2 reducer_argmax_i32_i32 x y u v reducesTo_S16x2058_S16_d1 h_S_ j).2) (n8 p) (n9 p) (n10 p) (n11 p)
def n14 (p : In F) : (⟨S16, .i32⟩ : BufTy).Contents (Elt F) := (broadcastInDim S16 ![] bcast_S_S16 : (⟨S_, .i32⟩ : BufTy).Contents (Elt F) → (⟨S16, .i32⟩ : BufTy).Contents (Elt F)) (n4 p)
def n15 (p : In F) : (⟨S16, .i32⟩ : BufTy).Contents (Elt F) := (addi : (⟨S16, .i32⟩ : BufTy).Contents (Elt F) → (⟨S16, .i32⟩ : BufTy).Contents (Elt F) → (⟨S16, .i32⟩ : BufTy).Contents (Elt F)) (n13 p) (n14 p)
def n16 (p : In F) : (⟨S2122, .i32⟩ : BufTy).Contents (Elt F) := (iotaInDim S2122 32 0)
def n17 (p : In F) : (⟨S1x2122, .i32⟩ : BufTy).Contents (Elt F) := (broadcastInDim S1x2122 ![1] bcast_S2122_S1x2122_1 : (⟨S2122, .i32⟩ : BufTy).Contents (Elt F) → (⟨S1x2122, .i32⟩ : BufTy).Contents (Elt F)) (n16 p)
def n18 (p : In F) : (⟨S16x1, .i32⟩ : BufTy).Contents (Elt F) := (broadcastInDim S16x1 ![0] bcast_S16_S16x1_0 : (⟨S16, .i32⟩ : BufTy).Contents (Elt F) → (⟨S16x1, .i32⟩ : BufTy).Contents (Elt F)) (n15 p)
def n19 (p : In F) : (⟨S16x2122, .i32⟩ : BufTy).Contents (Elt F) := (broadcastInDim S16x2122 ![0, 1] bcast_S1x2122_S16x2122_0_1 : (⟨S1x2122, .i32⟩ : BufTy).Contents (Elt F) → (⟨S16x2122, .i32⟩ : BufTy).Contents (Elt F)) (n17 p)
def n20 (p : In F) : (⟨S16x2122, .i32⟩ : BufTy).Contents (Elt F) := (broadcastInDim S16x2122 ![0, 1] bcast_S16x1_S16x2122_0_1 : (⟨S16x1, .i32⟩ : BufTy).Contents (Elt F) → (⟨S16x2122, .i32⟩ : BufTy).Contents (Elt F)) (n18 p)
def n21 (p : In F) : (⟨S16x2122, .i1⟩ : BufTy).Contents (Elt F) := (cmpi .sge : (⟨S16x2122, .i32⟩ : BufTy).Contents (Elt F) → (⟨S16x2122, .i32⟩ : BufTy).Contents (Elt F) → (⟨S16x2122, .i1⟩ : BufTy).Contents (Elt F)) (n19 p) (n20 p)
def n22 (p : In F) : (⟨S_, .i32⟩ : BufTy).Contents (Elt F) := (constantI S_ 32 64#32)
def n23 (p : In F) : (⟨S16x1, .i32⟩ : BufTy).Contents (Elt F) := (broadcastInDim S16x1 ![] bcast_S_S16x1 : (⟨S_, .i32⟩ : BufTy).Contents (Elt F) → (⟨S16x1, .i32⟩ : BufTy).Contents (Elt F)) (n22 p)
def n24 (p : In F) : (⟨S16x1, .i32⟩ : BufTy).Contents (Elt F) := (addi : (⟨S16x1, .i32⟩ : BufTy).Contents (Elt F) → (⟨S16x1, .i32⟩ : BufTy).Contents (Elt F) → (⟨S16x1, .i32⟩ : BufTy).Contents (Elt F)) (n18 p) (n23 p)
def n25 (p : In F) : (⟨S16x2122, .i32⟩ : BufTy).Contents (Elt F) := (broadcastInDim S16x2122 ![0, 1] bcast_S16x1_S16x2122_0_1 : (⟨S16x1, .i32⟩ : BufTy).Contents (Elt F) → (⟨S16x2122, .i32⟩ : BufTy).Contents (Elt F)) (n24 p)
def n26 (p : In F) : (⟨S16x2122, .i1⟩ : BufTy).Contents (Elt F) := (cmpi .slt : (⟨S16x2122, .i32⟩ : BufTy).Contents (Elt F) → (⟨S16x2122, .i32⟩ : BufTy).Contents (Elt F) → (⟨S16x2122, .i1⟩ : BufTy).Contents (Elt F)) (n19 p) (n25 p)
def n27 (p : In F) : (⟨S16x2122, .i1⟩ : BufTy).Contents (Elt F) := (andi : (⟨S16x2122, .i1⟩ : BufTy).Contents (Elt F) → (⟨S16x2122, .i1⟩ : BufTy).Contents (Elt F) → (⟨S16x2122, .i1⟩ : BufTy).Contents (Elt F)) (n21 p) (n26 p)
def n28 (p : In F) : (⟨S16x2122, .i1⟩ : BufTy).Contents (Elt F) := (cmpi .slt : (⟨S16x2122, .i32⟩ : BufTy).Contents (Elt F) → (⟨S16x2122, .i32⟩ : BufTy).Contents (Elt F) → (⟨S16x2122, .i1⟩ : BufTy).Contents (Elt F)) (n19 p) (n20 p)
def n29 (p : In F) : (⟨S1x2122, .i32⟩ : BufTy).Contents (Elt F) := (broadcastInDim S1x2122 ![] bcast_S_S1x2122 : (⟨S_, .i32⟩ : BufTy).Contents (Elt F) → (⟨S1x2122, .i32⟩ : BufTy).Contents (Elt F)) (n22 p)
def n30 (p : In F) : (⟨S1x2122, .i32⟩ : BufTy).Contents (Elt F) := (subi : (⟨S1x2122, .i32⟩ : BufTy).Contents (Elt F) → (⟨S1x2122, .i32⟩ : BufTy).Contents (Elt F) → (⟨S1x2122, .i32⟩ : BufTy).Contents (Elt F)) (n17 p) (n29 p)
def n31 (p : In F) : (⟨S_, .i32⟩ : BufTy).Contents (Elt F) := (constantI S_ 32 2057#32)
def n32 (p : In F) : (⟨S_, .i32⟩ : BufTy).Contents (Elt F) := id (n11 p)
def n33 (p : In F) : (⟨S1x2122, .i32⟩ : BufTy).Contents (Elt F) := (broadcastInDim S1x2122 ![] bcast_S_S1x2122) (n32 p)
def n34 (p : In F) : (⟨S1x2122, .i32⟩ : BufTy).Contents (Elt F) := maxsi (n33 p) (n30 p)
def n35 (p : In F) : (⟨S_, .i32⟩ : BufTy).Contents (Elt F) := id (n31 p)
def n36 (p : In F) : (⟨S1x2122, .i32⟩ : BufTy).Contents (Elt F) := (broadcastInDim S1x2122 ![] bcast_S_S1x2122) (n35 p)
def n37 (p : In F) : (⟨S1x2122, .i32⟩ : BufTy).Contents (Elt F) := minsi (n36 p) (n34 p)
def n38 (p : In F) : (⟨S16x2122, .i32⟩ : BufTy).Contents (Elt F) := (broadcastInDim S16x2122 ![0, 1] bcast_S1x2122_S16x2122_0_1) (n17 p)
def n39 (p : In F) : (⟨S16x2122, .i32⟩ : BufTy).Contents (Elt F) := (broadcastInDim S16x2122 ![0, 1] bcast_S1x2122_S16x2122_0_1) (n37 p)
def n40 (p : In F) : (⟨S16x2122, .i32⟩ : BufTy).Contents (Elt F) := select (n28 p) (n38 p) (n39 p)
def n41 (p : In F) : (⟨S16x2122, .i32⟩ : BufTy).Contents (Elt F) := (subi : (⟨S16x2122, .i32⟩ : BufTy).Contents (Elt F) → (⟨S16x2122, .i32⟩ : BufTy).Contents (Elt F) → (⟨S16x2122, .i32⟩ : BufTy).Contents (Elt F)) (n19 p) (n20 p)
def n42 (p : In F) : (⟨S_, .i32⟩ : BufTy).Contents (Elt F) := (constantI S_ 32 63#32)
def n43 (p : In F) : (⟨S16x2122, .i32⟩ : BufTy).Contents (Elt F) := (broadcastInDim S16x2122 ![] bcast_S_S16x2122) (n32 p)
def n44 (p : In F) : (⟨S16x2122, .i32⟩ : BufTy).Contents (Elt F) := maxsi (n43 p) (n41 p)
def n45 (p : In F) : (⟨S_, .i32⟩ : BufTy).Contents (Elt F) := id (n42 p)
def n46 (p : In F) : (⟨S16x2122, .i32⟩ : BufTy).Contents (Elt F) := (broadcastInDim S16x2122 ![] bcast_S_S16x2122) (n45 p)
def n47 (p : In F) : (⟨S16x2122, .i32⟩ : BufTy).Contents (Elt F) := minsi (n46 p) (n44 p)
def n48 (p : In F) : (⟨S16x2122x1, .i32⟩ : BufTy).Contents (Elt F) := (broadcastInDim S16x2122x1 ![0, 1] bcast_S16x2122_S16x2122x1_0_1 : (⟨S16x2122, .i32⟩ : BufTy).Contents (Elt F) → (⟨S16x2122x1, .i32⟩ : BufTy).Contents (Elt F)) (n40 p)
def n49 (p : In F) : (⟨S16x2122x1, .i32⟩ : BufTy).Contents (Elt F) := (broadcastInDim S16x2122x1 ![] bcast_S_S16x2122x1) (n11 p)
def n50 (p : In F) : (⟨S16x2122x1, .i1⟩ : BufTy).Contents (Elt F) := (cmpi .slt) (n48 p) (n49 p)
def n51 (p : In F) : (⟨S_, .i32⟩ : BufTy).Contents (Elt F) := (constantI S_ 32 2058#32)
def n52 (p : In F) : (⟨S16x2122x1, .i32⟩ : BufTy).Contents (Elt F) := (broadcastInDim S16x2122x1 ![] bcast_S_S16x2122x1) (n51 p)
def n53 (p : In F) : (⟨S16x2122x1, .i32⟩ : BufTy).Contents (Elt F) := addi (n48 p) (n52 p)
def n54 (p : In F) : (⟨S16x2122x1, .i32⟩ : BufTy).Contents (Elt F) := select (n50 p) (n53 p) (n48 p)
def n55 (p : In F) : (⟨S1, .i32⟩ : BufTy).Contents (Elt F) := (constantI S1 32 2057#32)
def n56 (p : In F) : (⟨S16x2122x1, .i1⟩ : BufTy).Contents (Elt F) := (cmpi .sge) (n54 p) (n49 p)
def n57 (p : In F) : (⟨S1x1x1, .i32⟩ : BufTy).Contents (Elt F) := (broadcastInDim S1x1x1 ![2] bcast_S1_S1x1x1_2) (n55 p)
def n58 (p : In F) : (⟨S16x2122x1, .i32⟩ : BufTy).Contents (Elt F) := (broadcastInDim S16x2122x1 ![0, 1, 2] bcast_S1x1x1_S16x2122x1_0_1_2) (n57 p)
def n59 (p : In F) : (⟨S16x2122x1, .i1⟩ : BufTy).Contents (Elt F) := (cmpi .sle) (n54 p) (n58 p)
def n60 (p : In F) : (⟨S16x2122x1, .i1⟩ : BufTy).Contents (Elt F) := andi (n56 p) (n59 p)
def n61 (p : In F) : (⟨S_, .i1⟩ : BufTy).Contents (Elt F) := (constantI S_ 1 1#1)
def n62 (p : In F) : (⟨S16x2122, .i1⟩ : BufTy).Contents (Elt F) := (fun x v => Host.reduce IntOp.andi x v reducesTo_S16x2122x1_S16x2122_d2 h_S_) (n60 p) (n61 p)
def n63 (p : In F) : (⟨S16x2122x1024, .f32⟩ : BufTy).Contents (Elt F) := (fun x i => Host.gather gather_S16x2058x1024_S16x2122x1_S16x2122x1024_2_1_0_0_1_2_111024 x i) (n3 p) (n54 p)
def n64 (p : In F) : (⟨S16x2122x1024, .i1⟩ : BufTy).Contents (Elt F) := (broadcastInDim S16x2122x1024 ![0, 1] bcast_S16x2122_S16x2122x1024_0_1) (n62 p)
def n65 (p : In F) : (⟨S_, .f32⟩ : BufTy).Contents (Elt F) := (constant S_ .f32 0x7FC00000#32)
def n66 (p : In F) : (⟨S16x2122x1024, .f32⟩ : BufTy).Contents (Elt F) := (broadcastInDim S16x2122x1024 ![] bcast_S_S16x2122x1024) (n65 p)
def n67 (p : In F) : (⟨S16x2122x1024, .f32⟩ : BufTy).Contents (Elt F) := select (n64 p) (n63 p) (n66 p)
def n68 (p : In F) : (⟨S16x2122x1, .i32⟩ : BufTy).Contents (Elt F) := (broadcastInDim S16x2122x1 ![0, 1] bcast_S16x2122_S16x2122x1_0_1 : (⟨S16x2122, .i32⟩ : BufTy).Contents (Elt F) → (⟨S16x2122x1, .i32⟩ : BufTy).Contents (Elt F)) (n47 p)
def n69 (p : In F) : (⟨S16x2122x1, .i1⟩ : BufTy).Contents (Elt F) := (cmpi .slt) (n68 p) (n49 p)
def n70 (p : In F) : (⟨S16x2122x1, .i32⟩ : BufTy).Contents (Elt F) := (broadcastInDim S16x2122x1 ![] bcast_S_S16x2122x1) (n22 p)
def n71 (p : In F) : (⟨S16x2122x1, .i32⟩ : BufTy).Contents (Elt F) := addi (n68 p) (n70 p)
def n72 (p : In F) : (⟨S16x2122x1, .i32⟩ : BufTy).Contents (Elt F) := select (n69 p) (n71 p) (n68 p)
def n73 (p : In F) : (⟨S1, .i32⟩ : BufTy).Contents (Elt F) := (constantI S1 32 63#32)
def n74 (p : In F) : (⟨S16x2122x1, .i1⟩ : BufTy).Contents (Elt F) := (cmpi .sge) (n72 p) (n49 p)
def n75 (p : In F) : (⟨S1x1x1, .i32⟩ : BufTy).Contents (Elt F) := (broadcastInDim S1x1x1 ![2] bcast_S1_S1x1x1_2) (n73 p)
def n76 (p : In F) : (⟨S16x2122x1, .i32⟩ : BufTy).Contents (Elt F) := (broadcastInDim S16x2122x1 ![0, 1, 2] bcast_S1x1x1_S16x2122x1_0_1_2) (n75 p)
def n77 (p : In F) : (⟨S16x2122x1, .i1⟩ : BufTy).Contents (Elt F) := (cmpi .sle) (n72 p) (n76 p)
def n78 (p : In F) : (⟨S16x2122x1, .i1⟩ : BufTy).Contents (Elt F) := andi (n74 p) (n77 p)
def n79 (p : In F) : (⟨S16x2122, .i1⟩ : BufTy).Contents (Elt F) := (fun x v => Host.reduce IntOp.andi x v reducesTo_S16x2122x1_S16x2122_d2 h_S_) (n78 p) (n61 p)
def n80 (p : In F) : (⟨S16x2122x1024, .f32⟩ : BufTy).Contents (Elt F) := (fun x i => Host.gather gather_S16x64x1024_S16x2122x1_S16x2122x1024_2_1_0_0_1_2_111024 x i) p.te (n72 p)
def n81 (p : In F) : (⟨S16x2122x1024, .i1⟩ : BufTy).Contents (Elt F) := (broadcastInDim S16x2122x1024 ![0, 1] bcast_S16x2122_S16x2122x1024_0_1) (n79 p)
def n82 (p : In F) : (⟨S16x2122x1024, .f32⟩ : BufTy).Contents (Elt F) := select (n81 p) (n80 p) (n66 p)
def n83 (p : In F) : (⟨S16x2122x1, .i1⟩ : BufTy).Contents (Elt F) := (broadcastInDim S16x2122x1 ![0, 1] bcast_S16x2122_S16x2122x1_0_1 : (⟨S16x2122, .i1⟩ : BufTy).Contents (Elt F) → (⟨S16x2122x1, .i1⟩ : BufTy).Contents (Elt F)) (n27 p)
def n84 (p : In F) : (⟨S16x2122x1024, .i1⟩ : BufTy).Contents (Elt F) := (broadcastInDim S16x2122x1024 ![0, 1, 2] bcast_S16x2122x1_S16x2122x1024_0_1_2) (n83 p)
def n85 (p : In F) : (⟨S16x2122x1024, .f32⟩ : BufTy).Contents (Elt F) := select (n84 p) (n82 p) (n67 p)
def n86 (p : In F) : (⟨S16x2058, .f32⟩ : BufTy).Contents (Elt F) := (sitofp .f32 : (⟨S16x2058, .i32⟩ : BufTy).Contents (Elt F) → (⟨S16x2058, .f32⟩ : BufTy).Contents (Elt F)) (n6 p)
def n87 (p : In F) : (⟨S16x64, .f32⟩ : BufTy).Contents (Elt F) := (sitofp .f32 : (⟨S16x64, .i32⟩ : BufTy).Contents (Elt F) → (⟨S16x64, .f32⟩ : BufTy).Contents (Elt F)) p.a3
def n88 (p : In F) : (⟨S16x2122, .i32⟩ : BufTy).Contents (Elt F) := (broadcastInDim S16x2122 ![] bcast_S_S16x2122) (n11 p)
def n89 (p : In F) : (⟨S16x2122, .i1⟩ : BufTy).Contents (Elt F) := (cmpi .slt) (n40 p) (n88 p)
def n90 (p : In F) : (⟨S16x2122, .i32⟩ : BufTy).Contents (Elt F) := (broadcastInDim S16x2122 ![] bcast_S_S16x2122) (n51 p)
def n91 (p : In F) : (⟨S16x2122, .i32⟩ : BufTy).Contents (Elt F) := addi (n40 p) (n90 p)
def n92 (p : In F) : (⟨S16x2122, .i32⟩ : BufTy).Contents (Elt F) := select (n89 p) (n91 p) (n40 p)
def n93 (p : In F) : (⟨S16x2122x1, .i32⟩ : BufTy).Contents (Elt F) := shapeCast S16x2122x1 (n92 p) shapeCasts_S16x2122_S16x2122x1
def n94 (p : In F) : (⟨S16x2122x1, .i1⟩ : BufTy).Contents (Elt F) := (cmpi .sge) (n93 p) (n49 p)
def n95 (p : In F) : (⟨S16x2122x1, .i1⟩ : BufTy).Contents (Elt F) := (cmpi .sle) (n93 p) (n58 p)
def n96 (p : In F) : (⟨S16x2122x1, .i1⟩ : BufTy).Contents (Elt F) := andi (n94 p) (n95 p)
def n97 (p : In F) : (⟨S16x2122, .i1⟩ : BufTy).Contents (Elt F) := (fun x v => Host.reduce IntOp.andi x v reducesTo_S16x2122x1_S16x2122_d2 h_S_) (n96 p) (n61 p)
def n98 (p : In F) : (⟨S16x2122, .f32⟩ : BufTy).Contents (Elt F) := (fun x i => Host.gather gather_S16x2058_S16x2122x1_S16x2122_n_1_0_0_1_2_11 x i) (n86 p) (n93 p)
def n99 (p : In F) : (⟨S16x2122, .f32⟩ : BufTy).Contents (Elt F) := (broadcastInDim S16x2122 ![] bcast_S_S16x2122) (n65 p)
def n100 (p : In F) : (⟨S16x2122, .f32⟩ : BufTy).Contents (Elt F) := select (n97 p) (n98 p) (n99 p)

end Cert.Glue

end
-- ==== Proof.Glue2.lean ====
import proofs.«403361_j42786464202989_2_alg».proof.Proof.Glue1

noncomputable section

namespace Cert.Glue

open Idealize.ShloMosaic Cert.ReferenceIdeal
open Cert.ReferenceIdeal.Facts₀ Cert.ReferenceIdeal.Facts

variable {F : FTy → Type} [FloatOps F] [Cert.ReferenceIdeal.Facts]

def n101 (p : In F) : (⟨S16x2122, .i1⟩ : BufTy).Contents (Elt F) := (cmpi .slt) (n47 p) (n88 p)
def n102 (p : In F) : (⟨S16x2122, .i32⟩ : BufTy).Contents (Elt F) := (broadcastInDim S16x2122 ![] bcast_S_S16x2122) (n22 p)
def n103 (p : In F) : (⟨S16x2122, .i32⟩ : BufTy).Contents (Elt F) := addi (n47 p) (n102 p)
def n104 (p : In F) : (⟨S16x2122, .i32⟩ : BufTy).Contents (Elt F) := select (n101 p) (n103 p) (n47 p)
def n105 (p : In F) : (⟨S16x2122x1, .i32⟩ : BufTy).Contents (Elt F) := shapeCast S16x2122x1 (n104 p) shapeCasts_S16x2122_S16x2122x1
def n106 (p : In F) : (⟨S16x2122x1, .i1⟩ : BufTy).Contents (Elt F) := (cmpi .sge) (n105 p) (n49 p)
def n107 (p : In F) : (⟨S16x2122x1, .i1⟩ : BufTy).Contents (Elt F) := (cmpi .sle) (n105 p) (n76 p)
def n108 (p : In F) : (⟨S16x2122x1, .i1⟩ : BufTy).Contents (Elt F) := andi (n106 p) (n107 p)
def n109 (p : In F) : (⟨S16x2122, .i1⟩ : BufTy).Contents (Elt F) := (fun x v => Host.reduce IntOp.andi x v reducesTo_S16x2122x1_S16x2122_d2 h_S_) (n108 p) (n61 p)
def n110 (p : In F) : (⟨S16x2122, .f32⟩ : BufTy).Contents (Elt F) := (fun x i => Host.gather gather_S16x64_S16x2122x1_S16x2122_n_1_0_0_1_2_11 x i) (n87 p) (n105 p)
def n111 (p : In F) : (⟨S16x2122, .f32⟩ : BufTy).Contents (Elt F) := select (n109 p) (n110 p) (n99 p)
def n112 (p : In F) : (⟨S16x2122, .f32⟩ : BufTy).Contents (Elt F) := select (n27 p) (n111 p) (n100 p)
def n113 (p : In F) : (⟨S1x5x1024, .f32⟩ : BufTy).Contents (Elt F) := (broadcastInDim S1x5x1024 ![1, 2] bcast_S5x1024_S1x5x1024_1_2 : (⟨S5x1024, .f32⟩ : BufTy).Contents (Elt F) → (⟨S1x5x1024, .f32⟩ : BufTy).Contents (Elt F)) p.a6
def n114 (p : In F) : (⟨S16x5x1024, .f32⟩ : BufTy).Contents (Elt F) := (broadcastInDim S16x5x1024 ![0, 1, 2] bcast_S1x5x1024_S16x5x1024_0_1_2 : (⟨S1x5x1024, .f32⟩ : BufTy).Contents (Elt F) → (⟨S16x5x1024, .f32⟩ : BufTy).Contents (Elt F)) (n113 p)
def n115 (p : In F) : (⟨S2127, .i32⟩ : BufTy).Contents (Elt F) := (iotaInDim S2127 32 0)
def n116 (p : In F) : (⟨S1x2127, .i32⟩ : BufTy).Contents (Elt F) := (broadcastInDim S1x2127 ![1] bcast_S2127_S1x2127_1 : (⟨S2127, .i32⟩ : BufTy).Contents (Elt F) → (⟨S1x2127, .i32⟩ : BufTy).Contents (Elt F)) (n115 p)
def n117 (p : In F) : (⟨S16x2127, .i32⟩ : BufTy).Contents (Elt F) := (broadcastInDim S16x2127 ![0, 1] bcast_S1x2127_S16x2127_0_1 : (⟨S1x2127, .i32⟩ : BufTy).Contents (Elt F) → (⟨S16x2127, .i32⟩ : BufTy).Contents (Elt F)) (n116 p)
def n118 (p : In F) : (⟨S16x2127, .i32⟩ : BufTy).Contents (Elt F) := (broadcastInDim S16x2127 ![0, 1] bcast_S16x1_S16x2127_0_1 : (⟨S16x1, .i32⟩ : BufTy).Contents (Elt F) → (⟨S16x2127, .i32⟩ : BufTy).Contents (Elt F)) (n18 p)
def n119 (p : In F) : (⟨S16x2127, .i1⟩ : BufTy).Contents (Elt F) := (cmpi .sge : (⟨S16x2127, .i32⟩ : BufTy).Contents (Elt F) → (⟨S16x2127, .i32⟩ : BufTy).Contents (Elt F) → (⟨S16x2127, .i1⟩ : BufTy).Contents (Elt F)) (n117 p) (n118 p)
def n120 (p : In F) : (⟨S_, .i32⟩ : BufTy).Contents (Elt F) := (constantI S_ 32 5#32)
def n121 (p : In F) : (⟨S16x1, .i32⟩ : BufTy).Contents (Elt F) := (broadcastInDim S16x1 ![] bcast_S_S16x1 : (⟨S_, .i32⟩ : BufTy).Contents (Elt F) → (⟨S16x1, .i32⟩ : BufTy).Contents (Elt F)) (n120 p)
def n122 (p : In F) : (⟨S16x1, .i32⟩ : BufTy).Contents (Elt F) := (addi : (⟨S16x1, .i32⟩ : BufTy).Contents (Elt F) → (⟨S16x1, .i32⟩ : BufTy).Contents (Elt F) → (⟨S16x1, .i32⟩ : BufTy).Contents (Elt F)) (n18 p) (n121 p)
def n123 (p : In F) : (⟨S16x2127, .i32⟩ : BufTy).Contents (Elt F) := (broadcastInDim S16x2127 ![0, 1] bcast_S16x1_S16x2127_0_1 : (⟨S16x1, .i32⟩ : BufTy).Contents (Elt F) → (⟨S16x2127, .i32⟩ : BufTy).Contents (Elt F)) (n122 p)
def n124 (p : In F) : (⟨S16x2127, .i1⟩ : BufTy).Contents (Elt F) := (cmpi .slt : (⟨S16x2127, .i32⟩ : BufTy).Contents (Elt F) → (⟨S16x2127, .i32⟩ : BufTy).Contents (Elt F) → (⟨S16x2127, .i1⟩ : BufTy).Contents (Elt F)) (n117 p) (n123 p)
def n125 (p : In F) : (⟨S16x2127, .i1⟩ : BufTy).Contents (Elt F) := (andi : (⟨S16x2127, .i1⟩ : BufTy).Contents (Elt F) → (⟨S16x2127, .i1⟩ : BufTy).Contents (Elt F) → (⟨S16x2127, .i1⟩ : BufTy).Contents (Elt F)) (n119 p) (n124 p)
def n126 (p : In F) : (⟨S16x2127, .i1⟩ : BufTy).Contents (Elt F) := (cmpi .slt : (⟨S16x2127, .i32⟩ : BufTy).Contents (Elt F) → (⟨S16x2127, .i32⟩ : BufTy).Contents (Elt F) → (⟨S16x2127, .i1⟩ : BufTy).Contents (Elt F)) (n117 p) (n118 p)
def n127 (p : In F) : (⟨S1x2127, .i32⟩ : BufTy).Contents (Elt F) := (broadcastInDim S1x2127 ![] bcast_S_S1x2127 : (⟨S_, .i32⟩ : BufTy).Contents (Elt F) → (⟨S1x2127, .i32⟩ : BufTy).Contents (Elt F)) (n120 p)
def n128 (p : In F) : (⟨S1x2127, .i32⟩ : BufTy).Contents (Elt F) := (subi : (⟨S1x2127, .i32⟩ : BufTy).Contents (Elt F) → (⟨S1x2127, .i32⟩ : BufTy).Contents (Elt F) → (⟨S1x2127, .i32⟩ : BufTy).Contents (Elt F)) (n116 p) (n127 p)
def n129 (p : In F) : (⟨S_, .i32⟩ : BufTy).Contents (Elt F) := (constantI S_ 32 2121#32)
def n130 (p : In F) : (⟨S1x2127, .i32⟩ : BufTy).Contents (Elt F) := (broadcastInDim S1x2127 ![] bcast_S_S1x2127) (n32 p)
def n131 (p : In F) : (⟨S1x2127, .i32⟩ : BufTy).Contents (Elt F) := maxsi (n130 p) (n128 p)
def n132 (p : In F) : (⟨S_, .i32⟩ : BufTy).Contents (Elt F) := id (n129 p)
def n133 (p : In F) : (⟨S1x2127, .i32⟩ : BufTy).Contents (Elt F) := (broadcastInDim S1x2127 ![] bcast_S_S1x2127) (n132 p)
def n134 (p : In F) : (⟨S1x2127, .i32⟩ : BufTy).Contents (Elt F) := minsi (n133 p) (n131 p)
def n135 (p : In F) : (⟨S16x2127, .i32⟩ : BufTy).Contents (Elt F) := (broadcastInDim S16x2127 ![0, 1] bcast_S1x2127_S16x2127_0_1) (n116 p)
def n136 (p : In F) : (⟨S16x2127, .i32⟩ : BufTy).Contents (Elt F) := (broadcastInDim S16x2127 ![0, 1] bcast_S1x2127_S16x2127_0_1) (n134 p)
def n137 (p : In F) : (⟨S16x2127, .i32⟩ : BufTy).Contents (Elt F) := select (n126 p) (n135 p) (n136 p)
def n138 (p : In F) : (⟨S16x2127, .i32⟩ : BufTy).Contents (Elt F) := (subi : (⟨S16x2127, .i32⟩ : BufTy).Contents (Elt F) → (⟨S16x2127, .i32⟩ : BufTy).Contents (Elt F) → (⟨S16x2127, .i32⟩ : BufTy).Contents (Elt F)) (n117 p) (n118 p)
def n139 (p : In F) : (⟨S_, .i32⟩ : BufTy).Contents (Elt F) := (constantI S_ 32 4#32)
def n140 (p : In F) : (⟨S16x2127, .i32⟩ : BufTy).Contents (Elt F) := (broadcastInDim S16x2127 ![] bcast_S_S16x2127) (n32 p)
def n141 (p : In F) : (⟨S16x2127, .i32⟩ : BufTy).Contents (Elt F) := maxsi (n140 p) (n138 p)
def n142 (p : In F) : (⟨S_, .i32⟩ : BufTy).Contents (Elt F) := id (n139 p)
def n143 (p : In F) : (⟨S16x2127, .i32⟩ : BufTy).Contents (Elt F) := (broadcastInDim S16x2127 ![] bcast_S_S16x2127) (n142 p)
def n144 (p : In F) : (⟨S16x2127, .i32⟩ : BufTy).Contents (Elt F) := minsi (n143 p) (n141 p)
def n145 (p : In F) : (⟨S16x2127x1, .i32⟩ : BufTy).Contents (Elt F) := (broadcastInDim S16x2127x1 ![0, 1] bcast_S16x2127_S16x2127x1_0_1 : (⟨S16x2127, .i32⟩ : BufTy).Contents (Elt F) → (⟨S16x2127x1, .i32⟩ : BufTy).Contents (Elt F)) (n137 p)
def n146 (p : In F) : (⟨S16x2127x1, .i32⟩ : BufTy).Contents (Elt F) := (broadcastInDim S16x2127x1 ![] bcast_S_S16x2127x1) (n11 p)
def n147 (p : In F) : (⟨S16x2127x1, .i1⟩ : BufTy).Contents (Elt F) := (cmpi .slt) (n145 p) (n146 p)
def n148 (p : In F) : (⟨S_, .i32⟩ : BufTy).Contents (Elt F) := (constantI S_ 32 2122#32)
def n149 (p : In F) : (⟨S16x2127x1, .i32⟩ : BufTy).Contents (Elt F) := (broadcastInDim S16x2127x1 ![] bcast_S_S16x2127x1) (n148 p)
def n150 (p : In F) : (⟨S16x2127x1, .i32⟩ : BufTy).Contents (Elt F) := addi (n145 p) (n149 p)
def n151 (p : In F) : (⟨S16x2127x1, .i32⟩ : BufTy).Contents (Elt F) := select (n147 p) (n150 p) (n145 p)
def n152 (p : In F) : (⟨S1, .i32⟩ : BufTy).Contents (Elt F) := (constantI S1 32 2121#32)
def n153 (p : In F) : (⟨S16x2127x1, .i1⟩ : BufTy).Contents (Elt F) := (cmpi .sge) (n151 p) (n146 p)
def n154 (p : In F) : (⟨S1x1x1, .i32⟩ : BufTy).Contents (Elt F) := (broadcastInDim S1x1x1 ![2] bcast_S1_S1x1x1_2) (n152 p)
def n155 (p : In F) : (⟨S16x2127x1, .i32⟩ : BufTy).Contents (Elt F) := (broadcastInDim S16x2127x1 ![0, 1, 2] bcast_S1x1x1_S16x2127x1_0_1_2) (n154 p)
def n156 (p : In F) : (⟨S16x2127x1, .i1⟩ : BufTy).Contents (Elt F) := (cmpi .sle) (n151 p) (n155 p)
def n157 (p : In F) : (⟨S16x2127x1, .i1⟩ : BufTy).Contents (Elt F) := andi (n153 p) (n156 p)
def n158 (p : In F) : (⟨S16x2127, .i1⟩ : BufTy).Contents (Elt F) := (fun x v => Host.reduce IntOp.andi x v reducesTo_S16x2127x1_S16x2127_d2 h_S_) (n157 p) (n61 p)
def n159 (p : In F) : (⟨S16x2127x1024, .f32⟩ : BufTy).Contents (Elt F) := (fun x i => Host.gather gather_S16x2122x1024_S16x2127x1_S16x2127x1024_2_1_0_0_1_2_111024 x i) (n85 p) (n151 p)
def n160 (p : In F) : (⟨S16x2127x1024, .i1⟩ : BufTy).Contents (Elt F) := (broadcastInDim S16x2127x1024 ![0, 1] bcast_S16x2127_S16x2127x1024_0_1) (n158 p)
def n161 (p : In F) : (⟨S16x2127x1024, .f32⟩ : BufTy).Contents (Elt F) := (broadcastInDim S16x2127x1024 ![] bcast_S_S16x2127x1024) (n65 p)
def n162 (p : In F) : (⟨S16x2127x1024, .f32⟩ : BufTy).Contents (Elt F) := select (n160 p) (n159 p) (n161 p)
def n163 (p : In F) : (⟨S16x2127x1, .i32⟩ : BufTy).Contents (Elt F) := (broadcastInDim S16x2127x1 ![0, 1] bcast_S16x2127_S16x2127x1_0_1 : (⟨S16x2127, .i32⟩ : BufTy).Contents (Elt F) → (⟨S16x2127x1, .i32⟩ : BufTy).Contents (Elt F)) (n144 p)
def n164 (p : In F) : (⟨S16x2127x1, .i1⟩ : BufTy).Contents (Elt F) := (cmpi .slt) (n163 p) (n146 p)
def n165 (p : In F) : (⟨S16x2127x1, .i32⟩ : BufTy).Contents (Elt F) := (broadcastInDim S16x2127x1 ![] bcast_S_S16x2127x1) (n120 p)
def n166 (p : In F) : (⟨S16x2127x1, .i32⟩ : BufTy).Contents (Elt F) := addi (n163 p) (n165 p)
def n167 (p : In F) : (⟨S16x2127x1, .i32⟩ : BufTy).Contents (Elt F) := select (n164 p) (n166 p) (n163 p)
def n168 (p : In F) : (⟨S1, .i32⟩ : BufTy).Contents (Elt F) := (constantI S1 32 4#32)
def n169 (p : In F) : (⟨S16x2127x1, .i1⟩ : BufTy).Contents (Elt F) := (cmpi .sge) (n167 p) (n146 p)
def n170 (p : In F) : (⟨S1x1x1, .i32⟩ : BufTy).Contents (Elt F) := (broadcastInDim S1x1x1 ![2] bcast_S1_S1x1x1_2) (n168 p)
def n171 (p : In F) : (⟨S16x2127x1, .i32⟩ : BufTy).Contents (Elt F) := (broadcastInDim S16x2127x1 ![0, 1, 2] bcast_S1x1x1_S16x2127x1_0_1_2) (n170 p)
def n172 (p : In F) : (⟨S16x2127x1, .i1⟩ : BufTy).Contents (Elt F) := (cmpi .sle) (n167 p) (n171 p)
def n173 (p : In F) : (⟨S16x2127x1, .i1⟩ : BufTy).Contents (Elt F) := andi (n169 p) (n172 p)
def n174 (p : In F) : (⟨S16x2127, .i1⟩ : BufTy).Contents (Elt F) := (fun x v => Host.reduce IntOp.andi x v reducesTo_S16x2127x1_S16x2127_d2 h_S_) (n173 p) (n61 p)
def n175 (p : In F) : (⟨S16x2127x1024, .f32⟩ : BufTy).Contents (Elt F) := (fun x i => Host.gather gather_S16x5x1024_S16x2127x1_S16x2127x1024_2_1_0_0_1_2_111024 x i) (n114 p) (n167 p)
def n176 (p : In F) : (⟨S16x2127x1024, .i1⟩ : BufTy).Contents (Elt F) := (broadcastInDim S16x2127x1024 ![0, 1] bcast_S16x2127_S16x2127x1024_0_1) (n174 p)
def n177 (p : In F) : (⟨S16x2127x1024, .f32⟩ : BufTy).Contents (Elt F) := select (n176 p) (n175 p) (n161 p)
def n178 (p : In F) : (⟨S16x2127x1, .i1⟩ : BufTy).Contents (Elt F) := (broadcastInDim S16x2127x1 ![0, 1] bcast_S16x2127_S16x2127x1_0_1 : (⟨S16x2127, .i1⟩ : BufTy).Contents (Elt F) → (⟨S16x2127x1, .i1⟩ : BufTy).Contents (Elt F)) (n125 p)
def n179 (p : In F) : (⟨S16x2127x1024, .i1⟩ : BufTy).Contents (Elt F) := (broadcastInDim S16x2127x1024 ![0, 1, 2] bcast_S16x2127x1_S16x2127x1024_0_1_2) (n178 p)
def n180 (p : In F) : (⟨S16x2127x1024, .f32⟩ : BufTy).Contents (Elt F) := select (n179 p) (n177 p) (n162 p)
def n181 (p : In F) : (⟨S_, .f32⟩ : BufTy).Contents (Elt F) := (constant S_ .f32 0x3F800000#32)
def n182 (p : In F) : (⟨S16x5, .f32⟩ : BufTy).Contents (Elt F) := (broadcastInDim S16x5 ![] bcast_S_S16x5 : (⟨S_, .f32⟩ : BufTy).Contents (Elt F) → (⟨S16x5, .f32⟩ : BufTy).Contents (Elt F)) (n181 p)
def n183 (p : In F) : (⟨S16x2127, .i32⟩ : BufTy).Contents (Elt F) := (broadcastInDim S16x2127 ![] bcast_S_S16x2127) (n11 p)
def n184 (p : In F) : (⟨S16x2127, .i1⟩ : BufTy).Contents (Elt F) := (cmpi .slt) (n137 p) (n183 p)
def n185 (p : In F) : (⟨S16x2127, .i32⟩ : BufTy).Contents (Elt F) := (broadcastInDim S16x2127 ![] bcast_S_S16x2127) (n148 p)
def n186 (p : In F) : (⟨S16x2127, .i32⟩ : BufTy).Contents (Elt F) := addi (n137 p) (n185 p)
def n187 (p : In F) : (⟨S16x2127, .i32⟩ : BufTy).Contents (Elt F) := select (n184 p) (n186 p) (n137 p)
def n188 (p : In F) : (⟨S16x2127x1, .i32⟩ : BufTy).Contents (Elt F) := shapeCast S16x2127x1 (n187 p) shapeCasts_S16x2127_S16x2127x1
def n189 (p : In F) : (⟨S16x2127x1, .i1⟩ : BufTy).Contents (Elt F) := (cmpi .sge) (n188 p) (n146 p)
def n190 (p : In F) : (⟨S16x2127x1, .i1⟩ : BufTy).Contents (Elt F) := (cmpi .sle) (n188 p) (n155 p)
def n191 (p : In F) : (⟨S16x2127x1, .i1⟩ : BufTy).Contents (Elt F) := andi (n189 p) (n190 p)
def n192 (p : In F) : (⟨S16x2127, .i1⟩ : BufTy).Contents (Elt F) := (fun x v => Host.reduce IntOp.andi x v reducesTo_S16x2127x1_S16x2127_d2 h_S_) (n191 p) (n61 p)
def n193 (p : In F) : (⟨S16x2127, .f32⟩ : BufTy).Contents (Elt F) := (fun x i => Host.gather gather_S16x2122_S16x2127x1_S16x2127_n_1_0_0_1_2_11 x i) (n112 p) (n188 p)
def n194 (p : In F) : (⟨S16x2127, .f32⟩ : BufTy).Contents (Elt F) := (broadcastInDim S16x2127 ![] bcast_S_S16x2127) (n65 p)
def n195 (p : In F) : (⟨S16x2127, .f32⟩ : BufTy).Contents (Elt F) := select (n192 p) (n193 p) (n194 p)
def n196 (p : In F) : (⟨S16x2127, .i1⟩ : BufTy).Contents (Elt F) := (cmpi .slt) (n144 p) (n183 p)
def n197 (p : In F) : (⟨S16x2127, .i32⟩ : BufTy).Contents (Elt F) := (broadcastInDim S16x2127 ![] bcast_S_S16x2127) (n120 p)
def n198 (p : In F) : (⟨S16x2127, .i32⟩ : BufTy).Contents (Elt F) := addi (n144 p) (n197 p)
def n199 (p : In F) : (⟨S16x2127, .i32⟩ : BufTy).Contents (Elt F) := select (n196 p) (n198 p) (n144 p)
def n200 (p : In F) : (⟨S16x2127x1, .i32⟩ : BufTy).Contents (Elt F) := shapeCast S16x2127x1 (n199 p) shapeCasts_S16x2127_S16x2127x1

end Cert.Glue

end
-- ==== Proof.Glue3.lean ====
import proofs.«403361_j42786464202989_2_alg».proof.Proof.Glue2

noncomputable section

namespace Cert.Glue

open Idealize.ShloMosaic Cert.ReferenceIdeal
open Cert.ReferenceIdeal.Facts₀ Cert.ReferenceIdeal.Facts

variable {F : FTy → Type} [FloatOps F] [Cert.ReferenceIdeal.Facts]

def n201 (p : In F) : (⟨S16x2127x1, .i1⟩ : BufTy).Contents (Elt F) := (cmpi .sge) (n200 p) (n146 p)
def n202 (p : In F) : (⟨S16x2127x1, .i1⟩ : BufTy).Contents (Elt F) := (cmpi .sle) (n200 p) (n171 p)
def n203 (p : In F) : (⟨S16x2127x1, .i1⟩ : BufTy).Contents (Elt F) := andi (n201 p) (n202 p)
def n204 (p : In F) : (⟨S16x2127, .i1⟩ : BufTy).Contents (Elt F) := (fun x v => Host.reduce IntOp.andi x v reducesTo_S16x2127x1_S16x2127_d2 h_S_) (n203 p) (n61 p)
def n205 (p : In F) : (⟨S16x2127, .f32⟩ : BufTy).Contents (Elt F) := (fun x i => Host.gather gather_S16x5_S16x2127x1_S16x2127_n_1_0_0_1_2_11 x i) (n182 p) (n200 p)
def n206 (p : In F) : (⟨S16x2127, .f32⟩ : BufTy).Contents (Elt F) := select (n204 p) (n205 p) (n194 p)
def n207 (p : In F) : (⟨S16x2127, .f32⟩ : BufTy).Contents (Elt F) := select (n125 p) (n206 p) (n195 p)
def n208 (p : In F) : (⟨S16, .i32⟩ : BufTy).Contents (Elt F) := (broadcastInDim S16 ![] bcast_S_S16 : (⟨S_, .i32⟩ : BufTy).Contents (Elt F) → (⟨S16, .i32⟩ : BufTy).Contents (Elt F)) (n120 p)
def n209 (p : In F) : (⟨S16, .i32⟩ : BufTy).Contents (Elt F) := (addi : (⟨S16, .i32⟩ : BufTy).Contents (Elt F) → (⟨S16, .i32⟩ : BufTy).Contents (Elt F) → (⟨S16, .i32⟩ : BufTy).Contents (Elt F)) (n15 p) (n208 p)
def n210 (p : In F) : (⟨S16x1, .i32⟩ : BufTy).Contents (Elt F) := (broadcastInDim S16x1 ![0] bcast_S16_S16x1_0 : (⟨S16, .i32⟩ : BufTy).Contents (Elt F) → (⟨S16x1, .i32⟩ : BufTy).Contents (Elt F)) (n209 p)
def n211 (p : In F) : (⟨S16x2127, .i32⟩ : BufTy).Contents (Elt F) := (broadcastInDim S16x2127 ![0, 1] bcast_S16x1_S16x2127_0_1 : (⟨S16x1, .i32⟩ : BufTy).Contents (Elt F) → (⟨S16x2127, .i32⟩ : BufTy).Contents (Elt F)) (n210 p)
def n212 (p : In F) : (⟨S16x2127, .i1⟩ : BufTy).Contents (Elt F) := (cmpi .sge : (⟨S16x2127, .i32⟩ : BufTy).Contents (Elt F) → (⟨S16x2127, .i32⟩ : BufTy).Contents (Elt F) → (⟨S16x2127, .i1⟩ : BufTy).Contents (Elt F)) (n117 p) (n211 p)
def n213 (p : In F) : (⟨S16x1, .i32⟩ : BufTy).Contents (Elt F) := (addi : (⟨S16x1, .i32⟩ : BufTy).Contents (Elt F) → (⟨S16x1, .i32⟩ : BufTy).Contents (Elt F) → (⟨S16x1, .i32⟩ : BufTy).Contents (Elt F)) (n210 p) (n23 p)
def n214 (p : In F) : (⟨S16x2127, .i32⟩ : BufTy).Contents (Elt F) := (broadcastInDim S16x2127 ![0, 1] bcast_S16x1_S16x2127_0_1 : (⟨S16x1, .i32⟩ : BufTy).Contents (Elt F) → (⟨S16x2127, .i32⟩ : BufTy).Contents (Elt F)) (n213 p)
def n215 (p : In F) : (⟨S16x2127, .i1⟩ : BufTy).Contents (Elt F) := (cmpi .slt : (⟨S16x2127, .i32⟩ : BufTy).Contents (Elt F) → (⟨S16x2127, .i32⟩ : BufTy).Contents (Elt F) → (⟨S16x2127, .i1⟩ : BufTy).Contents (Elt F)) (n117 p) (n214 p)
def n216 (p : In F) : (⟨S16x2127, .i1⟩ : BufTy).Contents (Elt F) := (andi : (⟨S16x2127, .i1⟩ : BufTy).Contents (Elt F) → (⟨S16x2127, .i1⟩ : BufTy).Contents (Elt F) → (⟨S16x2127, .i1⟩ : BufTy).Contents (Elt F)) (n212 p) (n215 p)
def n217 (p : In F) : (⟨S16x2127, .i32⟩ : BufTy).Contents (Elt F) := (subi : (⟨S16x2127, .i32⟩ : BufTy).Contents (Elt F) → (⟨S16x2127, .i32⟩ : BufTy).Contents (Elt F) → (⟨S16x2127, .i32⟩ : BufTy).Contents (Elt F)) (n117 p) (n211 p)
def n218 (p : In F) : (⟨S16x2127, .i32⟩ : BufTy).Contents (Elt F) := maxsi (n140 p) (n217 p)
def n219 (p : In F) : (⟨S16x2127, .i32⟩ : BufTy).Contents (Elt F) := (broadcastInDim S16x2127 ![] bcast_S_S16x2127) (n45 p)
def n220 (p : In F) : (⟨S16x2127, .i32⟩ : BufTy).Contents (Elt F) := minsi (n219 p) (n218 p)
def n221 (p : In F) : (⟨S16x2127, .i1⟩ : BufTy).Contents (Elt F) := (cmpi .slt) (n220 p) (n183 p)
def n222 (p : In F) : (⟨S16x2127, .i32⟩ : BufTy).Contents (Elt F) := (broadcastInDim S16x2127 ![] bcast_S_S16x2127) (n22 p)
def n223 (p : In F) : (⟨S16x2127, .i32⟩ : BufTy).Contents (Elt F) := addi (n220 p) (n222 p)
def n224 (p : In F) : (⟨S16x2127, .i32⟩ : BufTy).Contents (Elt F) := select (n221 p) (n223 p) (n220 p)
def n225 (p : In F) : (⟨S16x2127x1, .i32⟩ : BufTy).Contents (Elt F) := shapeCast S16x2127x1 (n224 p) shapeCasts_S16x2127_S16x2127x1
def n226 (p : In F) : (⟨S16x2127x1, .i1⟩ : BufTy).Contents (Elt F) := (cmpi .sge) (n225 p) (n146 p)
def n227 (p : In F) : (⟨S16x2127x1, .i32⟩ : BufTy).Contents (Elt F) := (broadcastInDim S16x2127x1 ![0, 1, 2] bcast_S1x1x1_S16x2127x1_0_1_2) (n75 p)
def n228 (p : In F) : (⟨S16x2127x1, .i1⟩ : BufTy).Contents (Elt F) := (cmpi .sle) (n225 p) (n227 p)
def n229 (p : In F) : (⟨S16x2127x1, .i1⟩ : BufTy).Contents (Elt F) := andi (n226 p) (n228 p)
def n230 (p : In F) : (⟨S16x2127, .i1⟩ : BufTy).Contents (Elt F) := (fun x v => Host.reduce IntOp.andi x v reducesTo_S16x2127x1_S16x2127_d2 h_S_) (n229 p) (n61 p)
def n231 (p : In F) : (⟨S16x2127, .i32⟩ : BufTy).Contents (Elt F) := (fun x i => Host.gather gather_S16x64_S16x2127x1_S16x2127_n_1_0_0_1_2_11 x i) p.a3 (n225 p)
def n232 (p : In F) : (⟨S16x2127, .i32⟩ : BufTy).Contents (Elt F) := (broadcastInDim S16x2127 ![] bcast_S_S16x2127) (n10 p)
def n233 (p : In F) : (⟨S16x2127, .i32⟩ : BufTy).Contents (Elt F) := select (n230 p) (n231 p) (n232 p)
def n234 (p : In F) : (⟨S16x2127, .f32⟩ : BufTy).Contents (Elt F) := (sitofp .f32 : (⟨S16x2127, .i32⟩ : BufTy).Contents (Elt F) → (⟨S16x2127, .f32⟩ : BufTy).Contents (Elt F)) (n233 p)
def n235 (p : In F) : (⟨S_, .f32⟩ : BufTy).Contents (Elt F) := (constant S_ .f32 0x00000000#32)
def n236 (p : In F) : (⟨S_, .f32⟩ : BufTy).Contents (Elt F) := id (n235 p)
def n237 (p : In F) : (⟨S16x2127, .f32⟩ : BufTy).Contents (Elt F) := (broadcastInDim S16x2127 ![] bcast_S_S16x2127) (n236 p)
def n238 (p : In F) : (⟨S16x2127, .f32⟩ : BufTy).Contents (Elt F) := select (n216 p) (n234 p) (n237 p)
def n239 (p : In F) : (⟨S16x2127, .i32⟩ : BufTy).Contents (Elt F) := (fun x i => Host.gather gather_S16x64_S16x2127x1_S16x2127_n_1_0_0_1_2_11 x i) p.a2 (n225 p)
def n240 (p : In F) : (⟨S16x2127, .i32⟩ : BufTy).Contents (Elt F) := select (n230 p) (n239 p) (n232 p)
def n241 (p : In F) : (⟨S16x2127, .f32⟩ : BufTy).Contents (Elt F) := (broadcastInDim S16x2127 ![] bcast_S_S16x2127 : (⟨S_, .f32⟩ : BufTy).Contents (Elt F) → (⟨S16x2127, .f32⟩ : BufTy).Contents (Elt F)) (n181 p)
def n242 (p : In F) : (⟨S16x2127, .i1⟩ : BufTy).Contents (Elt F) := (cmpf .oeq : (⟨S16x2127, .f32⟩ : BufTy).Contents (Elt F) → (⟨S16x2127, .f32⟩ : BufTy).Contents (Elt F) → (⟨S16x2127, .i1⟩ : BufTy).Contents (Elt F)) (n238 p) (n241 p)
def n243 (p : In F) : (⟨S_, .i32⟩ : BufTy).Contents (Elt F) := (constantI S_ 32 4294967295#32)
def n244 (p : In F) : (⟨S_, .i32⟩ : BufTy).Contents (Elt F) := id (n243 p)
def n245 (p : In F) : (⟨S16x2127, .i32⟩ : BufTy).Contents (Elt F) := (broadcastInDim S16x2127 ![] bcast_S_S16x2127) (n244 p)
def n246 (p : In F) : (⟨S16x2127, .i32⟩ : BufTy).Contents (Elt F) := select (n242 p) (n240 p) (n245 p)
def n247 (p : In F) : (⟨S16x1, .f32⟩ : BufTy).Contents (Elt F) := (broadcastInDim S16x1 ![] bcast_S_S16x1 : (⟨S_, .f32⟩ : BufTy).Contents (Elt F) → (⟨S16x1, .f32⟩ : BufTy).Contents (Elt F)) (n235 p)
def n248 (p : In F) : (⟨S16x2126, .f32⟩ : BufTy).Contents (Elt F) := ((extractStridedSlice S16x2126 ![0, 0] · slices_S16x2127_S16x2126_0_0) : (⟨S16x2127, .f32⟩ : BufTy).Contents (Elt F) → (⟨S16x2126, .f32⟩ : BufTy).Contents (Elt F)) (n238 p)
def n249 (p : In F) : (⟨S16x2127, .f32⟩ : BufTy).Contents (Elt F) := ((fun a b => concatenate S16x2127 1 [⟨S16x1, a⟩, ⟨S16x2126, b⟩] concatenates_S16x1_S16x2126_S16x2127_d1) : (⟨S16x1, .f32⟩ : BufTy).Contents (Elt F) → (⟨S16x2126, .f32⟩ : BufTy).Contents (Elt F) → (⟨S16x2127, .f32⟩ : BufTy).Contents (Elt F)) (n247 p) (n248 p)
def n250 (p : In F) : (⟨S16x1, .i32⟩ : BufTy).Contents (Elt F) := (broadcastInDim S16x1 ![] bcast_S_S16x1 : (⟨S_, .i32⟩ : BufTy).Contents (Elt F) → (⟨S16x1, .i32⟩ : BufTy).Contents (Elt F)) (n243 p)
def n251 (p : In F) : (⟨S16x63, .i32⟩ : BufTy).Contents (Elt F) := ((extractStridedSlice S16x63 ![0, 1] · slices_S16x64_S16x63_0_1) : (⟨S16x64, .i32⟩ : BufTy).Contents (Elt F) → (⟨S16x63, .i32⟩ : BufTy).Contents (Elt F)) p.a2
def n252 (p : In F) : (⟨S16x64, .i32⟩ : BufTy).Contents (Elt F) := ((fun a b => concatenate S16x64 1 [⟨S16x63, a⟩, ⟨S16x1, b⟩] concatenates_S16x63_S16x1_S16x64_d1) : (⟨S16x63, .i32⟩ : BufTy).Contents (Elt F) → (⟨S16x1, .i32⟩ : BufTy).Contents (Elt F) → (⟨S16x64, .i32⟩ : BufTy).Contents (Elt F)) (n251 p) (n250 p)
def n253 (p : In F) : (⟨S16x2126, .i32⟩ : BufTy).Contents (Elt F) := ((extractStridedSlice S16x2126 ![0, 1] · slices_S16x2127_S16x2126_0_1) : (⟨S16x2127, .i32⟩ : BufTy).Contents (Elt F) → (⟨S16x2126, .i32⟩ : BufTy).Contents (Elt F)) (n246 p)
def n254 (p : In F) : (⟨S16x2127, .i32⟩ : BufTy).Contents (Elt F) := ((fun a b => concatenate S16x2127 1 [⟨S16x2126, a⟩, ⟨S16x1, b⟩] concatenates_S16x2126_S16x1_S16x2127_d1) : (⟨S16x2126, .i32⟩ : BufTy).Contents (Elt F) → (⟨S16x1, .i32⟩ : BufTy).Contents (Elt F) → (⟨S16x2127, .i32⟩ : BufTy).Contents (Elt F)) (n253 p) (n250 p)

end Cert.Glue

end
-- ==== Proof.RefRunSol.lean ====
import proofs.«403361_j42786464202989_2_alg».proof.Proof.RefRunOps0
import proofs.«403361_j42786464202989_2_alg».proof.Proof.RefRunOps1
import proofs.«403361_j42786464202989_2_alg».proof.Proof.RefRunOps2
import proofs.«403361_j42786464202989_2_alg».proof.Proof.RefRunOps3
import proofs.«403361_j42786464202989_2_alg».proof.Proof.RefGather
import proofs.«403361_j42786464202989_2_alg».proof.Proof.Glue3

noncomputable section

namespace Cert.ReferenceIdeal.Run

open Cert.ReferenceIdeal Cert.ReferenceIdeal.RefGather Idealize.ShloMosaic Idealize.ShloMosaic.TcCoe Idealize.SL.Sem Idealize.ShloMosaic.StableHlo Cert.RunLib
open Cert.ReferenceIdeal.Facts₀ Cert.ReferenceIdeal.Facts

variable {F : FTy → Type} [FloatOps F] [Cert.ReferenceIdeal.Facts]

abbrev lines : List (List (HloOp τ sig (Elt F))) :=
  [ w0_l0, w0_l1, w0_l2, w0_l3, w0_l4, w0_l5, w0_l6, w1_l0, w1_l1, w1_l2, w1_l3, w1_l4, w1_l5, w1_l6, w1_l7, w1_l8, w1_l9, w1_l10, w1_l11, w1_l12, w1_l13, w1_l14, w2_l0, w2_l1, w2_l2, w2_l3, w2_l4, w2_l5, w2_l6, w2_l7, w2_l8, w2_l9, w2_l10, w2_l11, w2_l12, w2_l13, w2_l14, w2_l15, w2_l16, w2_l17, w2_l18, w2_l19, w3_l0, w3_l1, w3_l2, w3_l3, w3_l4, w3_l5, w3_l6, w3_l7, w3_l8 ]

theorem lines_mono : Mono (τ := τ) 7 ((lines (F := F)).flatten) 495 :=
    w0_l0_mono.append <|
    w0_l1_mono.append <|
    w0_l2_mono.append <|
    w0_l3_mono.append <|
    w0_l4_mono.append <|
    w0_l5_mono.append <|
    w0_l6_mono.append <|
    w1_l0_mono.append <|
    w1_l1_mono.append <|
    w1_l2_mono.append <|
    w1_l3_mono.append <|
    w1_l4_mono.append <|
    w1_l5_mono.append <|
    w1_l6_mono.append <|
    w1_l7_mono.append <|
    w1_l8_mono.append <|
    w1_l9_mono.append <|
    w1_l10_mono.append <|
    w1_l11_mono.append <|
    w1_l12_mono.append <|
    w1_l13_mono.append <|
    w1_l14_mono.append <|
    w2_l0_mono.append <|
    w2_l1_mono.append <|
    w2_l2_mono.append <|
    w2_l3_mono.append <|
    w2_l4_mono.append <|
    w2_l5_mono.append <|
    w2_l6_mono.append <|
    w2_l7_mono.append <|
    w2_l8_mono.append <|
    w2_l9_mono.append <|
    w2_l10_mono.append <|
    w2_l11_mono.append <|
    w2_l12_mono.append <|
    w2_l13_mono.append <|
    w2_l14_mono.append <|
    w2_l15_mono.append <|
    w2_l16_mono.append <|
    w2_l17_mono.append <|
    w2_l18_mono.append <|
    w2_l19_mono.append <|
    w3_l0_mono.append <|
    w3_l1_mono.append <|
    w3_l2_mono.append <|
    w3_l3_mono.append <|
    w3_l4_mono.append <|
    w3_l5_mono.append <|
    w3_l6_mono.append <|
    w3_l7_mono.append <|
    w3_l8_mono.append <|
    Mono.nil (Nat.le_refl _)

structure Sol (W : Valuation τ sig (Elt F)) (a0 a1 : IVec S16x2048 32) (a2 a3 : IVec S16x64 32) (a4 : FVec F S50257x1024 .f32)
    (a5 : FVec F S10x1024 .f32) (a6 : FVec F S5x1024 .f32) : Prop where
  fix : FixL W (lines (F := F))
  h0 : W (Proc.devRef (τ := τ) .tc main_arg0) = a0
  h1 : W (Proc.devRef (τ := τ) .tc main_arg1) = a1
  h2 : W (Proc.devRef (τ := τ) .tc main_arg2) = a2
  h3 : W (Proc.devRef (τ := τ) .tc main_arg3) = a3
  h4 : W (Proc.devRef (τ := τ) .tc main_arg4) = a4
  h5 : W (Proc.devRef (τ := τ) .tc main_arg5) = a5
  h6 : W (Proc.devRef (τ := τ) .tc main_arg6) = a6

section
variable {W : Valuation τ sig (Elt F)} {a0 a1 : IVec S16x2048 32} {a2 a3 : IVec S16x64 32} {a4 : FVec F S50257x1024 .f32}
  {a5 : FVec F S10x1024 .f32} {a6 : FVec F S5x1024 .f32} (S : Sol W a0 a1 a2 a3 a4 a5 a6)
include S

theorem fix_w0_l0 : Fix W (w0_l0 (F := F)) := FixL.get S.fix 0 (Nat.le_of_ble_eq_true rfl)
theorem fix_w0_l1 : Fix W (w0_l1 (F := F)) := FixL.get S.fix 1 (Nat.le_of_ble_eq_true rfl)
theorem fix_w0_l2 : Fix W (w0_l2 (F := F)) := FixL.get S.fix 2 (Nat.le_of_ble_eq_true rfl)
theorem fix_w0_l3 : Fix W (w0_l3 (F := F)) := FixL.get S.fix 3 (Nat.le_of_ble_eq_true rfl)
theorem fix_w0_l4 : Fix W (w0_l4 (F := F)) := FixL.get S.fix 4 (Nat.le_of_ble_eq_true rfl)
theorem fix_w0_l5 : Fix W (w0_l5 (F := F)) := FixL.get S.fix 5 (Nat.le_of_ble_eq_true rfl)
theorem fix_w0_l6 : Fix W (w0_l6 (F := F)) := FixL.get S.fix 6 (Nat.le_of_ble_eq_true rfl)
theorem fix_w1_l0 : Fix W (w1_l0 (F := F)) := FixL.get S.fix 7 (Nat.le_of_ble_eq_true rfl)
theorem fix_w1_l1 : Fix W (w1_l1 (F := F)) := FixL.get S.fix 8 (Nat.le_of_ble_eq_true rfl)
theorem fix_w1_l2 : Fix W (w1_l2 (F := F)) := FixL.get S.fix 9 (Nat.le_of_ble_eq_true rfl)
theorem fix_w1_l3 : Fix W (w1_l3 (F := F)) := FixL.get S.fix 10 (Nat.le_of_ble_eq_true rfl)
theorem fix_w1_l4 : Fix W (w1_l4 (F := F)) := FixL.get S.fix 11 (Nat.le_of_ble_eq_true rfl)
theorem fix_w1_l5 : Fix W (w1_l5 (F := F)) := FixL.get S.fix 12 (Nat.le_of_ble_eq_true rfl)
theorem fix_w1_l6 : Fix W (w1_l6 (F := F)) := FixL.get S.fix 13 (Nat.le_of_ble_eq_true rfl)
theorem fix_w1_l7 : Fix W (w1_l7 (F := F)) := FixL.get S.fix 14 (Nat.le_of_ble_eq_true rfl)
theorem fix_w1_l8 : Fix W (w1_l8 (F := F)) := FixL.get S.fix 15 (Nat.le_of_ble_eq_true rfl)
theorem fix_w1_l9 : Fix W (w1_l9 (F := F)) := FixL.get S.fix 16 (Nat.le_of_ble_eq_true rfl)
theorem fix_w1_l10 : Fix W (w1_l10 (F := F)) := FixL.get S.fix 17 (Nat.le_of_ble_eq_true rfl)
theorem fix_w1_l11 : Fix W (w1_l11 (F := F)) := FixL.get S.fix 18 (Nat.le_of_ble_eq_true rfl)
theorem fix_w1_l12 : Fix W (w1_l12 (F := F)) := FixL.get S.fix 19 (Nat.le_of_ble_eq_true rfl)
theorem fix_w1_l13 : Fix W (w1_l13 (F := F)) := FixL.get S.fix 20 (Nat.le_of_ble_eq_true rfl)
theorem fix_w1_l14 : Fix W (w1_l14 (F := F)) := FixL.get S.fix 21 (Nat.le_of_ble_eq_true rfl)
theorem fix_w2_l0 : Fix W (w2_l0 (F := F)) := FixL.get S.fix 22 (Nat.le_of_ble_eq_true rfl)
theorem fix_w2_l1 : Fix W (w2_l1 (F := F)) := FixL.get S.fix 23 (Nat.le_of_ble_eq_true rfl)
theorem fix_w2_l2 : Fix W (w2_l2 (F := F)) := FixL.get S.fix 24 (Nat.le_of_ble_eq_true rfl)
theorem fix_w2_l3 : Fix W (w2_l3 (F := F)) := FixL.get S.fix 25 (Nat.le_of_ble_eq_true rfl)
theorem fix_w2_l4 : Fix W (w2_l4 (F := F)) := FixL.get S.fix 26 (Nat.le_of_ble_eq_true rfl)
theorem fix_w2_l5 : Fix W (w2_l5 (F := F)) := FixL.get S.fix 27 (Nat.le_of_ble_eq_true rfl)
theorem fix_w2_l6 : Fix W (w2_l6 (F := F)) := FixL.get S.fix 28 (Nat.le_of_ble_eq_true rfl)
theorem fix_w2_l7 : Fix W (w2_l7 (F := F)) := FixL.get S.fix 29 (Nat.le_of_ble_eq_true rfl)
theorem fix_w2_l8 : Fix W (w2_l8 (F := F)) := FixL.get S.fix 30 (Nat.le_of_ble_eq_true rfl)
theorem fix_w2_l9 : Fix W (w2_l9 (F := F)) := FixL.get S.fix 31 (Nat.le_of_ble_eq_true rfl)
theorem fix_w2_l10 : Fix W (w2_l10 (F := F)) := FixL.get S.fix 32 (Nat.le_of_ble_eq_true rfl)
theorem fix_w2_l11 : Fix W (w2_l11 (F := F)) := FixL.get S.fix 33 (Nat.le_of_ble_eq_true rfl)
theorem fix_w2_l12 : Fix W (w2_l12 (F := F)) := FixL.get S.fix 34 (Nat.le_of_ble_eq_true rfl)
theorem fix_w2_l13 : Fix W (w2_l13 (F := F)) := FixL.get S.fix 35 (Nat.le_of_ble_eq_true rfl)
theorem fix_w2_l14 : Fix W (w2_l14 (F := F)) := FixL.get S.fix 36 (Nat.le_of_ble_eq_true rfl)
theorem fix_w2_l15 : Fix W (w2_l15 (F := F)) := FixL.get S.fix 37 (Nat.le_of_ble_eq_true rfl)
theorem fix_w2_l16 : Fix W (w2_l16 (F := F)) := FixL.get S.fix 38 (Nat.le_of_ble_eq_true rfl)
theorem fix_w2_l17 : Fix W (w2_l17 (F := F)) := FixL.get S.fix 39 (Nat.le_of_ble_eq_true rfl)
theorem fix_w2_l18 : Fix W (w2_l18 (F := F)) := FixL.get S.fix 40 (Nat.le_of_ble_eq_true rfl)
theorem fix_w2_l19 : Fix W (w2_l19 (F := F)) := FixL.get S.fix 41 (Nat.le_of_ble_eq_true rfl)
theorem fix_w3_l0 : Fix W (w3_l0 (F := F)) := FixL.get S.fix 42 (Nat.le_of_ble_eq_true rfl)
theorem fix_w3_l1 : Fix W (w3_l1 (F := F)) := FixL.get S.fix 43 (Nat.le_of_ble_eq_true rfl)
theorem fix_w3_l2 : Fix W (w3_l2 (F := F)) := FixL.get S.fix 44 (Nat.le_of_ble_eq_true rfl)
theorem fix_w3_l3 : Fix W (w3_l3 (F := F)) := FixL.get S.fix 45 (Nat.le_of_ble_eq_true rfl)
theorem fix_w3_l4 : Fix W (w3_l4 (F := F)) := FixL.get S.fix 46 (Nat.le_of_ble_eq_true rfl)
theorem fix_w3_l5 : Fix W (w3_l5 (F := F)) := FixL.get S.fix 47 (Nat.le_of_ble_eq_true rfl)
theorem fix_w3_l6 : Fix W (w3_l6 (F := F)) := FixL.get S.fix 48 (Nat.le_of_ble_eq_true rfl)
theorem fix_w3_l7 : Fix W (w3_l7 (F := F)) := FixL.get S.fix 49 (Nat.le_of_ble_eq_true rfl)
theorem fix_w3_l8 : Fix W (w3_l8 (F := F)) := FixL.get S.fix 50 (Nat.le_of_ble_eq_true rfl)
end

end Cert.ReferenceIdeal.Run

end
-- ==== Proof.RefRunMain.lean ====
import proofs.«403361_j42786464202989_2_alg».proof.Proof.RefRunSol
import Idealize.ShloMosaic.Lib.StableHlo.Run

noncomputable section

namespace Cert.ReferenceIdeal.Run

open Cert.ReferenceIdeal Idealize.ShloMosaic Idealize.ShloMosaic.TcCoe Idealize.SL.Sem Idealize.ShloMosaic.StableHlo Cert.RunLib
open Cert.ReferenceIdeal.Facts₀ Cert.ReferenceIdeal.Facts

theorem chain_map_seq {nD : Nat} {τ : Topo} {sig : RefSig} {Val : EltTy → Type} {Λ : Labels} :
    ∀ L : List (List (HloOp τ sig Val)),
      Pipeline.chain (L.map fun l => (seq l : Prog (TpuEff nD τ sig Val Λ .tc) PUnit)) = seq L.flatten
  | [] => rfl
  | l :: L => by rw [List.map_cons, Pipeline.chain_cons, chain_map_seq L, List.flatten_cons, seq_append]

variable {F : FTy → Type} [FloatOps F] [Cert.ReferenceIdeal.Facts]

abbrev ops : List (HloOp τ sig (Elt F)) := (lines (F := F)).flatten

theorem main_eq (c : Dev nD) : main (F := F) c = seq (ops (F := F)) := by
  show (main_part0 (F := F) c >>= fun _ => main_part1 (F := F) c >>= fun _ => main_part2 (F := F) c >>= fun _ => main_part3 (F := F) c) = _
  rewrite [main_part3_chain, main_part2_chain, Pipeline.chainK_bind_chain, main_part1_chain, Pipeline.chainK_bind_chain,
    main_part0_chain, Pipeline.chainK_bind_chain]
  exact chain_map_seq (lines (F := F))

set_option maxRecDepth 8192 in
theorem scopedRefs_eq : (Finset.univ.filter fun b : Ref sig .tc => b.isScoped) = ∅ := by decide
theorem scopedSems_eq : (Finset.univ.filter fun sm : SemLoc sig => sm.isScoped .tc) = ∅ := by decide

theorem run_after (m : (ℓ : Loc nD τ sig) → Buf (Elt F) ℓ) (g : Dev nD → PrngReg) :
    θ_run (defs (F := F)) (onTc (τ := τ) (main (F := F))) ⟨m, fun _ => 0, g⟩ fun r =>
      ∀ (c : Dev nD) (b : Ref sig .tc),
        r.2.mem ((c.tc : Thread nD τ).loc b) = after (ops (F := F)) (launchContents m c) (Proc.devRef .tc b) :=
  run_seq scopedRefs_eq scopedSems_eq defs main (fun _ => ops) main_eq (fun _ => lines_mono.bufs_sub) m g
    (fun _ => lines_mono.fresh)

theorem sol_after (V : Valuation τ sig (Elt F)) :
    Sol (after (ops (F := F)) V) (V (Proc.devRef .tc main_arg0)) (V (Proc.devRef .tc main_arg1)) (V (Proc.devRef .tc main_arg2))
      (V (Proc.devRef .tc main_arg3)) (V (Proc.devRef .tc main_arg4)) (V (Proc.devRef .tc main_arg5)) (V (Proc.devRef .tc main_arg6)) :=
  ⟨(Fix_flatten _ _).mp (Mono.fix _ V lines_mono),
   lines_mono.after_below V (by decide), lines_mono.after_below V (by decide), lines_mono.after_below V (by decide),
   lines_mono.after_below V (by decide), lines_mono.after_below V (by decide), lines_mono.after_below V (by decide),
   lines_mono.after_below V (by decide)⟩

end Cert.ReferenceIdeal.Run

end
-- ==== Proof.RefRunTab0.lean ====
import proofs.«403361_j42786464202989_2_alg».proof.Proof.RefRunSol

noncomputable section

namespace Cert.ReferenceIdeal.Run

open Cert.ReferenceIdeal Cert.ReferenceIdeal.RefGather Idealize.ShloMosaic Idealize.ShloMosaic.TcCoe Idealize.SL.Sem Idealize.ShloMosaic.StableHlo Cert.RunLib
open Cert.ReferenceIdeal.Facts₀ Cert.ReferenceIdeal.Facts

variable {F : FTy → Type} [FloatOps F] [Cert.ReferenceIdeal.Facts]

set_option maxRecDepth 16384
set_option maxHeartbeats 2000000

section
variable {W : Valuation τ sig (Elt F)} {a0 a1 : IVec S16x2048 32} {a2 a3 : IVec S16x64 32} {a4 : FVec F S50257x1024 .f32}
  {a5 : FVec F S10x1024 .f32} {a6 : FVec F S5x1024 .f32} (S : Sol W a0 a1 a2 a3 a4 a5 a6)
include S

theorem t_main_v9 : W (Proc.devRef (τ := τ) .tc main_v9) = Cert.Glue.n3 ⟨refIE a0 a4, refTE a2 a4, a1, a2, a3, a5, a6⟩ :=
  (congrFun (Fix.after_eq (fix_w0_l0 S) w0_l0_mono.blind) _).symm.trans (by
    unfold w0_l0
    after_results
    rw [S.h5, S.h4, S.h0]
    rfl)
theorem t_main_v11 : W (Proc.devRef (τ := τ) .tc main_v11) = Cert.Glue.n6 ⟨refIE a0 a4, refTE a2 a4, a1, a2, a3, a5, a6⟩ :=
  (congrFun (Fix.after_eq (fix_w0_l0 S) w0_l0_mono.blind) _).symm.trans (by
    unfold w0_l0
    after_results
    rw [S.h1]
    rfl)
theorem t_main_v13 : W (Proc.devRef (τ := τ) .tc main_v13) = Cert.Glue.n8 ⟨refIE a0 a4, refTE a2 a4, a1, a2, a3, a5, a6⟩ :=
  (congrFun (Fix.after_eq (fix_w0_l0 S) w0_l0_mono.blind) _).symm.trans (by
    unfold w0_l0
    after_results
    rw [S.h1]
    rfl)
theorem t_main_v14 : W (Proc.devRef (τ := τ) .tc main_v14) = Cert.Glue.n13 ⟨refIE a0 a4, refTE a2 a4, a1, a2, a3, a5, a6⟩ :=
  (congrFun (Fix.after_eq (fix_w0_l1 S) w0_l1_mono.blind) _).symm.trans (by
    unfold w0_l1
    after_results_simp
    rw [t_main_v13 S]
    try simp only [TRef.toBuf, TRef.ofBuf, cast_eq]
    rfl)
theorem t_main_v16 : W (Proc.devRef (τ := τ) .tc main_v16) = Cert.Glue.n15 ⟨refIE a0 a4, refTE a2 a4, a1, a2, a3, a5, a6⟩ :=
  (congrFun (Fix.after_eq (fix_w0_l2 S) w0_l2_mono.blind) _).symm.trans (by
    unfold w0_l2
    after_results_simp
    rw [t_main_v14 S]
    rfl)
theorem t_main_v23 : W (Proc.devRef (τ := τ) .tc main_v23) = refTE a2 a4 :=
  (congrFun (Fix.after_eq (fix_w0_l2 S) w0_l2_mono.blind) _).symm.trans (by
    unfold w0_l2
    after_results_simp
    rw [S.h4, S.h2]
    rfl)
theorem t_main_v25 : W (Proc.devRef (τ := τ) .tc main_v25) = Cert.Glue.n17 ⟨refIE a0 a4, refTE a2 a4, a1, a2, a3, a5, a6⟩ :=
  (congrFun (Fix.after_eq (fix_w0_l2 S) w0_l2_mono.blind) _).symm.trans (by
    unfold w0_l2
    after_results_simp
    rfl)
theorem t_main_v26 : W (Proc.devRef (τ := τ) .tc main_v26) = Cert.Glue.n18 ⟨refIE a0 a4, refTE a2 a4, a1, a2, a3, a5, a6⟩ :=
  (congrFun (Fix.after_eq (fix_w0_l2 S) w0_l2_mono.blind) _).symm.trans (by
    unfold w0_l2
    after_results_simp
    rw [t_main_v14 S]
    rfl)
theorem t_main_v35 : W (Proc.devRef (τ := τ) .tc main_v35) = Cert.Glue.n27 ⟨refIE a0 a4, refTE a2 a4, a1, a2, a3, a5, a6⟩ :=
  (congrFun (Fix.after_eq (fix_w0_l2 S) w0_l2_mono.blind) _).symm.trans (by
    unfold w0_l2
    after_results_simp
    rw [t_main_v14 S]
    rfl)
theorem t_main_v38 : W (Proc.devRef (τ := τ) .tc main_v38) = Cert.Glue.n28 ⟨refIE a0 a4, refTE a2 a4, a1, a2, a3, a5, a6⟩ :=
  (congrFun (Fix.after_eq (fix_w0_l2 S) w0_l2_mono.blind) _).symm.trans (by
    unfold w0_l2
    after_results_simp
    rw [t_main_v14 S]
    rfl)
theorem t_main_v40 : W (Proc.devRef (τ := τ) .tc main_v40) = Cert.Glue.n30 ⟨refIE a0 a4, refTE a2 a4, a1, a2, a3, a5, a6⟩ :=
  (congrFun (Fix.after_eq (fix_w0_l2 S) w0_l2_mono.blind) _).symm.trans (by
    unfold w0_l2
    after_results_simp
    rfl)
theorem t_main_c_8 : W (Proc.devRef (τ := τ) .tc main_c_8) = Cert.Glue.n11 ⟨refIE a0 a4, refTE a2 a4, a1, a2, a3, a5, a6⟩ :=
  (congrFun (Fix.after_eq (fix_w0_l2 S) w0_l2_mono.blind) _).symm.trans (by
    unfold w0_l2
    after_results_simp
    rfl)
theorem t_main_c_9 : W (Proc.devRef (τ := τ) .tc main_c_9) = Cert.Glue.n31 ⟨refIE a0 a4, refTE a2 a4, a1, a2, a3, a5, a6⟩ :=
  (congrFun (Fix.after_eq (fix_w0_l2 S) w0_l2_mono.blind) _).symm.trans (by
    unfold w0_l2
    after_results_simp
    rfl)
theorem t_main_v41 : W (Proc.devRef (τ := τ) .tc main_v41) = Cert.Glue.n37 ⟨refIE a0 a4, refTE a2 a4, a1, a2, a3, a5, a6⟩ :=
  (congrFun (Fix.after_eq (fix_w0_l3 S) w0_l3_mono.blind) _).symm.trans (by
    unfold w0_l3
    after_results_simp
    rw [t_main_c_9 S, t_main_c_8 S, t_main_v40 S]
    try simp only [TRef.toBuf, TRef.ofBuf, cast_eq]
    rfl)

end

end Cert.ReferenceIdeal.Run

end
-- ==== Proof.RefRunTab1.lean ====
import proofs.«403361_j42786464202989_2_alg».proof.Proof.RefRunTab0

noncomputable section

namespace Cert.ReferenceIdeal.Run

open Cert.ReferenceIdeal Cert.ReferenceIdeal.RefGather Idealize.ShloMosaic Idealize.ShloMosaic.TcCoe Idealize.SL.Sem Idealize.ShloMosaic.StableHlo Cert.RunLib
open Cert.ReferenceIdeal.Facts₀ Cert.ReferenceIdeal.Facts

variable {F : FTy → Type} [FloatOps F] [Cert.ReferenceIdeal.Facts]

set_option maxRecDepth 16384
set_option maxHeartbeats 2000000

section
variable {W : Valuation τ sig (Elt F)} {a0 a1 : IVec S16x2048 32} {a2 a3 : IVec S16x64 32} {a4 : FVec F S50257x1024 .f32}
  {a5 : FVec F S10x1024 .f32} {a6 : FVec F S5x1024 .f32} (S : Sol W a0 a1 a2 a3 a4 a5 a6)
include S

theorem t_main_v42 : W (Proc.devRef (τ := τ) .tc main_v42) = Cert.Glue.n40 ⟨refIE a0 a4, refTE a2 a4, a1, a2, a3, a5, a6⟩ :=
  (congrFun (Fix.after_eq (fix_w0_l4 S) w0_l4_mono.blind) _).symm.trans (by
    unfold w0_l4
    after_results_simp
    rw [t_main_v38 S, t_main_v25 S, t_main_v41 S]
    try simp only [TRef.toBuf, TRef.ofBuf, cast_eq]
    rfl)
theorem t_main_v45 : W (Proc.devRef (τ := τ) .tc main_v45) = Cert.Glue.n41 ⟨refIE a0 a4, refTE a2 a4, a1, a2, a3, a5, a6⟩ :=
  (congrFun (Fix.after_eq (fix_w0_l5 S) w0_l5_mono.blind) _).symm.trans (by
    unfold w0_l5
    after_results_simp
    rw [t_main_v25 S, t_main_v26 S]
    rfl)
theorem t_main_c_10 : W (Proc.devRef (τ := τ) .tc main_c_10) = Cert.Glue.n11 ⟨refIE a0 a4, refTE a2 a4, a1, a2, a3, a5, a6⟩ :=
  (congrFun (Fix.after_eq (fix_w0_l5 S) w0_l5_mono.blind) _).symm.trans (by
    unfold w0_l5
    after_results_simp
    rfl)
theorem t_main_c_11 : W (Proc.devRef (τ := τ) .tc main_c_11) = Cert.Glue.n42 ⟨refIE a0 a4, refTE a2 a4, a1, a2, a3, a5, a6⟩ :=
  (congrFun (Fix.after_eq (fix_w0_l5 S) w0_l5_mono.blind) _).symm.trans (by
    unfold w0_l5
    after_results_simp
    rfl)
theorem t_main_v46 : W (Proc.devRef (τ := τ) .tc main_v46) = Cert.Glue.n47 ⟨refIE a0 a4, refTE a2 a4, a1, a2, a3, a5, a6⟩ :=
  (congrFun (Fix.after_eq (fix_w0_l6 S) w0_l6_mono.blind) _).symm.trans (by
    unfold w0_l6
    after_results_simp
    rw [t_main_c_11 S, t_main_c_10 S, t_main_v45 S]
    try simp only [TRef.toBuf, TRef.ofBuf, cast_eq]
    rfl)
theorem t_main_v47 : W (Proc.devRef (τ := τ) .tc main_v47) = Cert.Glue.n48 ⟨refIE a0 a4, refTE a2 a4, a1, a2, a3, a5, a6⟩ :=
  (congrFun (Fix.after_eq (fix_w1_l0 S) w1_l0_mono.blind) _).symm.trans (by
    unfold w1_l0
    after_results_simp
    rw [t_main_v42 S]
    rfl)
theorem t_main_v48 : W (Proc.devRef (τ := τ) .tc main_v48) = Cert.Glue.n67 ⟨refIE a0 a4, refTE a2 a4, a1, a2, a3, a5, a6⟩ :=
  (congrFun (Fix.after_eq (fix_w1_l1 S) w1_l1_mono.blind) _).symm.trans (by
    unfold w1_l1
    after_results_simp
    rw [t_main_v47 S, t_main_v9 S]
    try simp only [TRef.toBuf, TRef.ofBuf, cast_eq]
    rfl)
theorem t_main_v49 : W (Proc.devRef (τ := τ) .tc main_v49) = Cert.Glue.n68 ⟨refIE a0 a4, refTE a2 a4, a1, a2, a3, a5, a6⟩ :=
  (congrFun (Fix.after_eq (fix_w1_l2 S) w1_l2_mono.blind) _).symm.trans (by
    unfold w1_l2
    after_results_simp
    rw [t_main_v46 S]
    rfl)
theorem t_main_v50 : W (Proc.devRef (τ := τ) .tc main_v50) = Cert.Glue.n82 ⟨refIE a0 a4, refTE a2 a4, a1, a2, a3, a5, a6⟩ :=
  (congrFun (Fix.after_eq (fix_w1_l3 S) w1_l3_mono.blind) _).symm.trans (by
    unfold w1_l3
    after_results_simp
    rw [t_main_v49 S, t_main_v23 S]
    try simp only [TRef.toBuf, TRef.ofBuf, cast_eq]
    rfl)
theorem t_main_v51 : W (Proc.devRef (τ := τ) .tc main_v51) = Cert.Glue.n83 ⟨refIE a0 a4, refTE a2 a4, a1, a2, a3, a5, a6⟩ :=
  (congrFun (Fix.after_eq (fix_w1_l4 S) w1_l4_mono.blind) _).symm.trans (by
    unfold w1_l4
    after_results_simp
    rw [t_main_v35 S]
    rfl)
theorem t_main_v52 : W (Proc.devRef (τ := τ) .tc main_v52) = Cert.Glue.n85 ⟨refIE a0 a4, refTE a2 a4, a1, a2, a3, a5, a6⟩ :=
  (congrFun (Fix.after_eq (fix_w1_l5 S) w1_l5_mono.blind) _).symm.trans (by
    unfold w1_l5
    after_results_simp
    rw [t_main_v51 S, t_main_v50 S, t_main_v48 S]
    try simp only [TRef.toBuf, TRef.ofBuf, cast_eq]
    rfl)
theorem t_main_v53 : W (Proc.devRef (τ := τ) .tc main_v53) = Cert.Glue.n86 ⟨refIE a0 a4, refTE a2 a4, a1, a2, a3, a5, a6⟩ :=
  (congrFun (Fix.after_eq (fix_w1_l6 S) w1_l6_mono.blind) _).symm.trans (by
    unfold w1_l6
    after_results_simp
    rw [t_main_v11 S]
    rfl)
theorem t_main_v54 : W (Proc.devRef (τ := τ) .tc main_v54) = Cert.Glue.n87 ⟨refIE a0 a4, refTE a2 a4, a1, a2, a3, a5, a6⟩ :=
  (congrFun (Fix.after_eq (fix_w1_l6 S) w1_l6_mono.blind) _).symm.trans (by
    unfold w1_l6
    after_results_simp
    rw [S.h3]
    rfl)

end

end Cert.ReferenceIdeal.Run

end
-- ==== Proof.RefRunTab2.lean ====
import proofs.«403361_j42786464202989_2_alg».proof.Proof.RefRunTab1

noncomputable section

namespace Cert.ReferenceIdeal.Run

open Cert.ReferenceIdeal Cert.ReferenceIdeal.RefGather Idealize.ShloMosaic Idealize.ShloMosaic.TcCoe Idealize.SL.Sem Idealize.ShloMosaic.StableHlo Cert.RunLib
open Cert.ReferenceIdeal.Facts₀ Cert.ReferenceIdeal.Facts

variable {F : FTy → Type} [FloatOps F] [Cert.ReferenceIdeal.Facts]

set_option maxRecDepth 16384
set_option maxHeartbeats 2000000

section
variable {W : Valuation τ sig (Elt F)} {a0 a1 : IVec S16x2048 32} {a2 a3 : IVec S16x64 32} {a4 : FVec F S50257x1024 .f32}
  {a5 : FVec F S10x1024 .f32} {a6 : FVec F S5x1024 .f32} (S : Sol W a0 a1 a2 a3 a4 a5 a6)
include S

theorem t_main_v56 : W (Proc.devRef (τ := τ) .tc main_v56) = Cert.Glue.n17 ⟨refIE a0 a4, refTE a2 a4, a1, a2, a3, a5, a6⟩ :=
  (congrFun (Fix.after_eq (fix_w1_l6 S) w1_l6_mono.blind) _).symm.trans (by
    unfold w1_l6
    after_results_simp
    rfl)
theorem t_main_v57 : W (Proc.devRef (τ := τ) .tc main_v57) = Cert.Glue.n18 ⟨refIE a0 a4, refTE a2 a4, a1, a2, a3, a5, a6⟩ :=
  (congrFun (Fix.after_eq (fix_w1_l6 S) w1_l6_mono.blind) _).symm.trans (by
    unfold w1_l6
    after_results_simp
    rw [t_main_v16 S]
    rfl)
theorem t_main_v66 : W (Proc.devRef (τ := τ) .tc main_v66) = Cert.Glue.n27 ⟨refIE a0 a4, refTE a2 a4, a1, a2, a3, a5, a6⟩ :=
  (congrFun (Fix.after_eq (fix_w1_l6 S) w1_l6_mono.blind) _).symm.trans (by
    unfold w1_l6
    after_results_simp
    rw [t_main_v16 S]
    rfl)
theorem t_main_v69 : W (Proc.devRef (τ := τ) .tc main_v69) = Cert.Glue.n28 ⟨refIE a0 a4, refTE a2 a4, a1, a2, a3, a5, a6⟩ :=
  (congrFun (Fix.after_eq (fix_w1_l6 S) w1_l6_mono.blind) _).symm.trans (by
    unfold w1_l6
    after_results_simp
    rw [t_main_v16 S]
    rfl)
theorem t_main_v71 : W (Proc.devRef (τ := τ) .tc main_v71) = Cert.Glue.n30 ⟨refIE a0 a4, refTE a2 a4, a1, a2, a3, a5, a6⟩ :=
  (congrFun (Fix.after_eq (fix_w1_l6 S) w1_l6_mono.blind) _).symm.trans (by
    unfold w1_l6
    after_results_simp
    rfl)
theorem t_main_c_14 : W (Proc.devRef (τ := τ) .tc main_c_14) = Cert.Glue.n11 ⟨refIE a0 a4, refTE a2 a4, a1, a2, a3, a5, a6⟩ :=
  (congrFun (Fix.after_eq (fix_w1_l6 S) w1_l6_mono.blind) _).symm.trans (by
    unfold w1_l6
    after_results_simp
    rfl)
theorem t_main_c_15 : W (Proc.devRef (τ := τ) .tc main_c_15) = Cert.Glue.n31 ⟨refIE a0 a4, refTE a2 a4, a1, a2, a3, a5, a6⟩ :=
  (congrFun (Fix.after_eq (fix_w1_l6 S) w1_l6_mono.blind) _).symm.trans (by
    unfold w1_l6
    after_results_simp
    rfl)
theorem t_main_v72 : W (Proc.devRef (τ := τ) .tc main_v72) = Cert.Glue.n37 ⟨refIE a0 a4, refTE a2 a4, a1, a2, a3, a5, a6⟩ :=
  (congrFun (Fix.after_eq (fix_w1_l7 S) w1_l7_mono.blind) _).symm.trans (by
    unfold w1_l7
    after_results_simp
    rw [t_main_c_15 S, t_main_c_14 S, t_main_v71 S]
    try simp only [TRef.toBuf, TRef.ofBuf, cast_eq]
    rfl)
theorem t_main_v73 : W (Proc.devRef (τ := τ) .tc main_v73) = Cert.Glue.n40 ⟨refIE a0 a4, refTE a2 a4, a1, a2, a3, a5, a6⟩ :=
  (congrFun (Fix.after_eq (fix_w1_l8 S) w1_l8_mono.blind) _).symm.trans (by
    unfold w1_l8
    after_results_simp
    rw [t_main_v69 S, t_main_v56 S, t_main_v72 S]
    try simp only [TRef.toBuf, TRef.ofBuf, cast_eq]
    rfl)
theorem t_main_v76 : W (Proc.devRef (τ := τ) .tc main_v76) = Cert.Glue.n41 ⟨refIE a0 a4, refTE a2 a4, a1, a2, a3, a5, a6⟩ :=
  (congrFun (Fix.after_eq (fix_w1_l9 S) w1_l9_mono.blind) _).symm.trans (by
    unfold w1_l9
    after_results_simp
    rw [t_main_v56 S, t_main_v57 S]
    rfl)
theorem t_main_c_16 : W (Proc.devRef (τ := τ) .tc main_c_16) = Cert.Glue.n11 ⟨refIE a0 a4, refTE a2 a4, a1, a2, a3, a5, a6⟩ :=
  (congrFun (Fix.after_eq (fix_w1_l9 S) w1_l9_mono.blind) _).symm.trans (by
    unfold w1_l9
    after_results_simp
    rfl)
theorem t_main_c_17 : W (Proc.devRef (τ := τ) .tc main_c_17) = Cert.Glue.n42 ⟨refIE a0 a4, refTE a2 a4, a1, a2, a3, a5, a6⟩ :=
  (congrFun (Fix.after_eq (fix_w1_l9 S) w1_l9_mono.blind) _).symm.trans (by
    unfold w1_l9
    after_results_simp
    rfl)
theorem t_main_v77 : W (Proc.devRef (τ := τ) .tc main_v77) = Cert.Glue.n47 ⟨refIE a0 a4, refTE a2 a4, a1, a2, a3, a5, a6⟩ :=
  (congrFun (Fix.after_eq (fix_w1_l10 S) w1_l10_mono.blind) _).symm.trans (by
    unfold w1_l10
    after_results_simp
    rw [t_main_c_17 S, t_main_c_16 S, t_main_v76 S]
    try simp only [TRef.toBuf, TRef.ofBuf, cast_eq]
    rfl)
theorem t_main_v78 : W (Proc.devRef (τ := τ) .tc main_v78) = Cert.Glue.n100 ⟨refIE a0 a4, refTE a2 a4, a1, a2, a3, a5, a6⟩ :=
  (congrFun (Fix.after_eq (fix_w1_l11 S) w1_l11_mono.blind) _).symm.trans (by
    unfold w1_l11
    after_results_simp
    rw [t_main_v73 S, t_main_v53 S]
    try simp only [TRef.toBuf, TRef.ofBuf, cast_eq]
    rfl)

end

end Cert.ReferenceIdeal.Run

end
-- ==== Proof.RefRunTab3.lean ====
import proofs.«403361_j42786464202989_2_alg».proof.Proof.RefRunTab2

noncomputable section

namespace Cert.ReferenceIdeal.Run

open Cert.ReferenceIdeal Cert.ReferenceIdeal.RefGather Idealize.ShloMosaic Idealize.ShloMosaic.TcCoe Idealize.SL.Sem Idealize.ShloMosaic.StableHlo Cert.RunLib
open Cert.ReferenceIdeal.Facts₀ Cert.ReferenceIdeal.Facts

variable {F : FTy → Type} [FloatOps F] [Cert.ReferenceIdeal.Facts]

set_option maxRecDepth 16384
set_option maxHeartbeats 2000000

section
variable {W : Valuation τ sig (Elt F)} {a0 a1 : IVec S16x2048 32} {a2 a3 : IVec S16x64 32} {a4 : FVec F S50257x1024 .f32}
  {a5 : FVec F S10x1024 .f32} {a6 : FVec F S5x1024 .f32} (S : Sol W a0 a1 a2 a3 a4 a5 a6)
include S

theorem t_main_v79 : W (Proc.devRef (τ := τ) .tc main_v79) = Cert.Glue.n111 ⟨refIE a0 a4, refTE a2 a4, a1, a2, a3, a5, a6⟩ :=
  (congrFun (Fix.after_eq (fix_w1_l12 S) w1_l12_mono.blind) _).symm.trans (by
    unfold w1_l12
    after_results_simp
    rw [t_main_v77 S, t_main_v54 S]
    try simp only [TRef.toBuf, TRef.ofBuf, cast_eq]
    rfl)
theorem t_main_v80 : W (Proc.devRef (τ := τ) .tc main_v80) = Cert.Glue.n112 ⟨refIE a0 a4, refTE a2 a4, a1, a2, a3, a5, a6⟩ :=
  (congrFun (Fix.after_eq (fix_w1_l13 S) w1_l13_mono.blind) _).symm.trans (by
    unfold w1_l13
    after_results_simp
    rw [t_main_v66 S, t_main_v79 S, t_main_v78 S]
    try simp only [TRef.toBuf, TRef.ofBuf, cast_eq]
    rfl)
theorem t_main_v82 : W (Proc.devRef (τ := τ) .tc main_v82) = Cert.Glue.n114 ⟨refIE a0 a4, refTE a2 a4, a1, a2, a3, a5, a6⟩ :=
  (congrFun (Fix.after_eq (fix_w1_l14 S) w1_l14_mono.blind) _).symm.trans (by
    unfold w1_l14
    after_results_simp
    rw [S.h6]
    rfl)
theorem t_main_v84 : W (Proc.devRef (τ := τ) .tc main_v84) = Cert.Glue.n116 ⟨refIE a0 a4, refTE a2 a4, a1, a2, a3, a5, a6⟩ :=
  (congrFun (Fix.after_eq (fix_w1_l14 S) w1_l14_mono.blind) _).symm.trans (by
    unfold w1_l14
    after_results_simp
    rfl)
theorem t_main_v85 : W (Proc.devRef (τ := τ) .tc main_v85) = Cert.Glue.n18 ⟨refIE a0 a4, refTE a2 a4, a1, a2, a3, a5, a6⟩ :=
  (congrFun (Fix.after_eq (fix_w1_l14 S) w1_l14_mono.blind) _).symm.trans (by
    unfold w1_l14
    after_results_simp
    rw [t_main_v16 S]
    rfl)
theorem t_main_v94 : W (Proc.devRef (τ := τ) .tc main_v94) = Cert.Glue.n125 ⟨refIE a0 a4, refTE a2 a4, a1, a2, a3, a5, a6⟩ :=
  (congrFun (Fix.after_eq (fix_w1_l14 S) w1_l14_mono.blind) _).symm.trans (by
    unfold w1_l14
    after_results_simp
    rw [t_main_v16 S]
    rfl)
theorem t_main_v97 : W (Proc.devRef (τ := τ) .tc main_v97) = Cert.Glue.n126 ⟨refIE a0 a4, refTE a2 a4, a1, a2, a3, a5, a6⟩ :=
  (congrFun (Fix.after_eq (fix_w1_l14 S) w1_l14_mono.blind) _).symm.trans (by
    unfold w1_l14
    after_results_simp
    rw [t_main_v16 S]
    rfl)
theorem t_main_v98 : W (Proc.devRef (τ := τ) .tc main_v98) = Cert.Glue.n127 ⟨refIE a0 a4, refTE a2 a4, a1, a2, a3, a5, a6⟩ :=
  (congrFun (Fix.after_eq (fix_w1_l14 S) w1_l14_mono.blind) _).symm.trans (by
    unfold w1_l14
    after_results_simp
    rfl)
theorem t_main_v99 : W (Proc.devRef (τ := τ) .tc main_v99) = Cert.Glue.n128 ⟨refIE a0 a4, refTE a2 a4, a1, a2, a3, a5, a6⟩ :=
  (congrFun (Fix.after_eq (fix_w2_l0 S) w2_l0_mono.blind) _).symm.trans (by
    unfold w2_l0
    after_results_simp
    rw [t_main_v84 S, t_main_v98 S]
    rfl)
theorem t_main_c_20 : W (Proc.devRef (τ := τ) .tc main_c_20) = Cert.Glue.n11 ⟨refIE a0 a4, refTE a2 a4, a1, a2, a3, a5, a6⟩ :=
  (congrFun (Fix.after_eq (fix_w2_l0 S) w2_l0_mono.blind) _).symm.trans (by
    unfold w2_l0
    after_results_simp
    rfl)
theorem t_main_c_21 : W (Proc.devRef (τ := τ) .tc main_c_21) = Cert.Glue.n129 ⟨refIE a0 a4, refTE a2 a4, a1, a2, a3, a5, a6⟩ :=
  (congrFun (Fix.after_eq (fix_w2_l0 S) w2_l0_mono.blind) _).symm.trans (by
    unfold w2_l0
    after_results_simp
    rfl)
theorem t_main_v100 : W (Proc.devRef (τ := τ) .tc main_v100) = Cert.Glue.n134 ⟨refIE a0 a4, refTE a2 a4, a1, a2, a3, a5, a6⟩ :=
  (congrFun (Fix.after_eq (fix_w2_l1 S) w2_l1_mono.blind) _).symm.trans (by
    unfold w2_l1
    after_results_simp
    rw [t_main_c_21 S, t_main_c_20 S, t_main_v99 S]
    try simp only [TRef.toBuf, TRef.ofBuf, cast_eq]
    rfl)
theorem t_main_v101 : W (Proc.devRef (τ := τ) .tc main_v101) = Cert.Glue.n137 ⟨refIE a0 a4, refTE a2 a4, a1, a2, a3, a5, a6⟩ :=
  (congrFun (Fix.after_eq (fix_w2_l2 S) w2_l2_mono.blind) _).symm.trans (by
    unfold w2_l2
    after_results_simp
    rw [t_main_v97 S, t_main_v84 S, t_main_v100 S]
    try simp only [TRef.toBuf, TRef.ofBuf, cast_eq]
    rfl)
theorem t_main_v104 : W (Proc.devRef (τ := τ) .tc main_v104) = Cert.Glue.n138 ⟨refIE a0 a4, refTE a2 a4, a1, a2, a3, a5, a6⟩ :=
  (congrFun (Fix.after_eq (fix_w2_l3 S) w2_l3_mono.blind) _).symm.trans (by
    unfold w2_l3
    after_results_simp
    rw [t_main_v84 S, t_main_v85 S]
    rfl)
theorem t_main_c_22 : W (Proc.devRef (τ := τ) .tc main_c_22) = Cert.Glue.n11 ⟨refIE a0 a4, refTE a2 a4, a1, a2, a3, a5, a6⟩ :=
  (congrFun (Fix.after_eq (fix_w2_l3 S) w2_l3_mono.blind) _).symm.trans (by
    unfold w2_l3
    after_results_simp
    rfl)
theorem t_main_c_23 : W (Proc.devRef (τ := τ) .tc main_c_23) = Cert.Glue.n139 ⟨refIE a0 a4, refTE a2 a4, a1, a2, a3, a5, a6⟩ :=
  (congrFun (Fix.after_eq (fix_w2_l3 S) w2_l3_mono.blind) _).symm.trans (by
    unfold w2_l3
    after_results_simp
    rfl)
theorem t_main_v105 : W (Proc.devRef (τ := τ) .tc main_v105) = Cert.Glue.n144 ⟨refIE a0 a4, refTE a2 a4, a1, a2, a3, a5, a6⟩ :=
  (congrFun (Fix.after_eq (fix_w2_l4 S) w2_l4_mono.blind) _).symm.trans (by
    unfold w2_l4
    after_results_simp
    rw [t_main_c_23 S, t_main_c_22 S, t_main_v104 S]
    try simp only [TRef.toBuf, TRef.ofBuf, cast_eq]
    rfl)

end

end Cert.ReferenceIdeal.Run

end
-- ==== Proof.RefRunTab4.lean ====
import proofs.«403361_j42786464202989_2_alg».proof.Proof.RefRunTab3

noncomputable section

namespace Cert.ReferenceIdeal.Run

open Cert.ReferenceIdeal Cert.ReferenceIdeal.RefGather Idealize.ShloMosaic Idealize.ShloMosaic.TcCoe Idealize.SL.Sem Idealize.ShloMosaic.StableHlo Cert.RunLib
open Cert.ReferenceIdeal.Facts₀ Cert.ReferenceIdeal.Facts

variable {F : FTy → Type} [FloatOps F] [Cert.ReferenceIdeal.Facts]

set_option maxRecDepth 16384
set_option maxHeartbeats 2000000

section
variable {W : Valuation τ sig (Elt F)} {a0 a1 : IVec S16x2048 32} {a2 a3 : IVec S16x64 32} {a4 : FVec F S50257x1024 .f32}
  {a5 : FVec F S10x1024 .f32} {a6 : FVec F S5x1024 .f32} (S : Sol W a0 a1 a2 a3 a4 a5 a6)
include S

theorem t_main_v106 : W (Proc.devRef (τ := τ) .tc main_v106) = Cert.Glue.n145 ⟨refIE a0 a4, refTE a2 a4, a1, a2, a3, a5, a6⟩ :=
  (congrFun (Fix.after_eq (fix_w2_l5 S) w2_l5_mono.blind) _).symm.trans (by
    unfold w2_l5
    after_results_simp
    rw [t_main_v101 S]
    rfl)
theorem t_main_v107 : W (Proc.devRef (τ := τ) .tc main_v107) = Cert.Glue.n162 ⟨refIE a0 a4, refTE a2 a4, a1, a2, a3, a5, a6⟩ :=
  (congrFun (Fix.after_eq (fix_w2_l6 S) w2_l6_mono.blind) _).symm.trans (by
    unfold w2_l6
    after_results_simp
    rw [t_main_v106 S, t_main_v52 S]
    try simp only [TRef.toBuf, TRef.ofBuf, cast_eq]
    rfl)
theorem t_main_v108 : W (Proc.devRef (τ := τ) .tc main_v108) = Cert.Glue.n163 ⟨refIE a0 a4, refTE a2 a4, a1, a2, a3, a5, a6⟩ :=
  (congrFun (Fix.after_eq (fix_w2_l7 S) w2_l7_mono.blind) _).symm.trans (by
    unfold w2_l7
    after_results_simp
    rw [t_main_v105 S]
    rfl)
theorem t_main_v109 : W (Proc.devRef (τ := τ) .tc main_v109) = Cert.Glue.n177 ⟨refIE a0 a4, refTE a2 a4, a1, a2, a3, a5, a6⟩ :=
  (congrFun (Fix.after_eq (fix_w2_l8 S) w2_l8_mono.blind) _).symm.trans (by
    unfold w2_l8
    after_results_simp
    rw [t_main_v108 S, t_main_v82 S]
    try simp only [TRef.toBuf, TRef.ofBuf, cast_eq]
    rfl)
theorem t_main_v110 : W (Proc.devRef (τ := τ) .tc main_v110) = Cert.Glue.n178 ⟨refIE a0 a4, refTE a2 a4, a1, a2, a3, a5, a6⟩ :=
  (congrFun (Fix.after_eq (fix_w2_l9 S) w2_l9_mono.blind) _).symm.trans (by
    unfold w2_l9
    after_results_simp
    rw [t_main_v94 S]
    rfl)
theorem t_main_v111 : W (Proc.devRef (τ := τ) .tc main_v111) = Cert.Glue.n180 ⟨refIE a0 a4, refTE a2 a4, a1, a2, a3, a5, a6⟩ :=
  (congrFun (Fix.after_eq (fix_w2_l10 S) w2_l10_mono.blind) _).symm.trans (by
    unfold w2_l10
    after_results_simp
    rw [t_main_v110 S, t_main_v109 S, t_main_v107 S]
    try simp only [TRef.toBuf, TRef.ofBuf, cast_eq]
    rfl)
theorem t_main_v112 : W (Proc.devRef (τ := τ) .tc main_v112) = Cert.Glue.n182 ⟨refIE a0 a4, refTE a2 a4, a1, a2, a3, a5, a6⟩ :=
  (congrFun (Fix.after_eq (fix_w2_l11 S) w2_l11_mono.blind) _).symm.trans (by
    unfold w2_l11
    after_results_simp
    rfl)
theorem t_main_v114 : W (Proc.devRef (τ := τ) .tc main_v114) = Cert.Glue.n116 ⟨refIE a0 a4, refTE a2 a4, a1, a2, a3, a5, a6⟩ :=
  (congrFun (Fix.after_eq (fix_w2_l11 S) w2_l11_mono.blind) _).symm.trans (by
    unfold w2_l11
    after_results_simp
    rfl)
theorem t_main_v115 : W (Proc.devRef (τ := τ) .tc main_v115) = Cert.Glue.n18 ⟨refIE a0 a4, refTE a2 a4, a1, a2, a3, a5, a6⟩ :=
  (congrFun (Fix.after_eq (fix_w2_l11 S) w2_l11_mono.blind) _).symm.trans (by
    unfold w2_l11
    after_results_simp
    rw [t_main_v16 S]
    rfl)
theorem t_main_v124 : W (Proc.devRef (τ := τ) .tc main_v124) = Cert.Glue.n125 ⟨refIE a0 a4, refTE a2 a4, a1, a2, a3, a5, a6⟩ :=
  (congrFun (Fix.after_eq (fix_w2_l11 S) w2_l11_mono.blind) _).symm.trans (by
    unfold w2_l11
    after_results_simp
    rw [t_main_v16 S]
    rfl)

end

end Cert.ReferenceIdeal.Run

end
-- ==== Proof.RefRunTab5.lean ====
import proofs.«403361_j42786464202989_2_alg».proof.Proof.RefRunTab4

noncomputable section

namespace Cert.ReferenceIdeal.Run

open Cert.ReferenceIdeal Cert.ReferenceIdeal.RefGather Idealize.ShloMosaic Idealize.ShloMosaic.TcCoe Idealize.SL.Sem Idealize.ShloMosaic.StableHlo Cert.RunLib
open Cert.ReferenceIdeal.Facts₀ Cert.ReferenceIdeal.Facts

variable {F : FTy → Type} [FloatOps F] [Cert.ReferenceIdeal.Facts]

set_option maxRecDepth 16384
set_option maxHeartbeats 2000000

section
variable {W : Valuation τ sig (Elt F)} {a0 a1 : IVec S16x2048 32} {a2 a3 : IVec S16x64 32} {a4 : FVec F S50257x1024 .f32}
  {a5 : FVec F S10x1024 .f32} {a6 : FVec F S5x1024 .f32} (S : Sol W a0 a1 a2 a3 a4 a5 a6)
include S

theorem t_main_v127 : W (Proc.devRef (τ := τ) .tc main_v127) = Cert.Glue.n126 ⟨refIE a0 a4, refTE a2 a4, a1, a2, a3, a5, a6⟩ :=
  (congrFun (Fix.after_eq (fix_w2_l11 S) w2_l11_mono.blind) _).symm.trans (by
    unfold w2_l11
    after_results_simp
    rw [t_main_v16 S]
    rfl)
theorem t_main_v129 : W (Proc.devRef (τ := τ) .tc main_v129) = Cert.Glue.n128 ⟨refIE a0 a4, refTE a2 a4, a1, a2, a3, a5, a6⟩ :=
  (congrFun (Fix.after_eq (fix_w2_l11 S) w2_l11_mono.blind) _).symm.trans (by
    unfold w2_l11
    after_results_simp
    rfl)
theorem t_main_c_26 : W (Proc.devRef (τ := τ) .tc main_c_26) = Cert.Glue.n11 ⟨refIE a0 a4, refTE a2 a4, a1, a2, a3, a5, a6⟩ :=
  (congrFun (Fix.after_eq (fix_w2_l11 S) w2_l11_mono.blind) _).symm.trans (by
    unfold w2_l11
    after_results_simp
    rfl)
theorem t_main_c_27 : W (Proc.devRef (τ := τ) .tc main_c_27) = Cert.Glue.n129 ⟨refIE a0 a4, refTE a2 a4, a1, a2, a3, a5, a6⟩ :=
  (congrFun (Fix.after_eq (fix_w2_l11 S) w2_l11_mono.blind) _).symm.trans (by
    unfold w2_l11
    after_results_simp
    rfl)
theorem t_main_v130 : W (Proc.devRef (τ := τ) .tc main_v130) = Cert.Glue.n134 ⟨refIE a0 a4, refTE a2 a4, a1, a2, a3, a5, a6⟩ :=
  (congrFun (Fix.after_eq (fix_w2_l12 S) w2_l12_mono.blind) _).symm.trans (by
    unfold w2_l12
    after_results_simp
    rw [t_main_c_27 S, t_main_c_26 S, t_main_v129 S]
    try simp only [TRef.toBuf, TRef.ofBuf, cast_eq]
    rfl)
theorem t_main_v131 : W (Proc.devRef (τ := τ) .tc main_v131) = Cert.Glue.n137 ⟨refIE a0 a4, refTE a2 a4, a1, a2, a3, a5, a6⟩ :=
  (congrFun (Fix.after_eq (fix_w2_l13 S) w2_l13_mono.blind) _).symm.trans (by
    unfold w2_l13
    after_results_simp
    rw [t_main_v127 S, t_main_v114 S, t_main_v130 S]
    try simp only [TRef.toBuf, TRef.ofBuf, cast_eq]
    rfl)
theorem t_main_v134 : W (Proc.devRef (τ := τ) .tc main_v134) = Cert.Glue.n138 ⟨refIE a0 a4, refTE a2 a4, a1, a2, a3, a5, a6⟩ :=
  (congrFun (Fix.after_eq (fix_w2_l14 S) w2_l14_mono.blind) _).symm.trans (by
    unfold w2_l14
    after_results_simp
    rw [t_main_v114 S, t_main_v115 S]
    rfl)
theorem t_main_c_28 : W (Proc.devRef (τ := τ) .tc main_c_28) = Cert.Glue.n11 ⟨refIE a0 a4, refTE a2 a4, a1, a2, a3, a5, a6⟩ :=
  (congrFun (Fix.after_eq (fix_w2_l14 S) w2_l14_mono.blind) _).symm.trans (by
    unfold w2_l14
    after_results_simp
    rfl)
theorem t_main_c_29 : W (Proc.devRef (τ := τ) .tc main_c_29) = Cert.Glue.n139 ⟨refIE a0 a4, refTE a2 a4, a1, a2, a3, a5, a6⟩ :=
  (congrFun (Fix.after_eq (fix_w2_l14 S) w2_l14_mono.blind) _).symm.trans (by
    unfold w2_l14
    after_results_simp
    rfl)
theorem t_main_v135 : W (Proc.devRef (τ := τ) .tc main_v135) = Cert.Glue.n144 ⟨refIE a0 a4, refTE a2 a4, a1, a2, a3, a5, a6⟩ :=
  (congrFun (Fix.after_eq (fix_w2_l15 S) w2_l15_mono.blind) _).symm.trans (by
    unfold w2_l15
    after_results_simp
    rw [t_main_c_29 S, t_main_c_28 S, t_main_v134 S]
    try simp only [TRef.toBuf, TRef.ofBuf, cast_eq]
    rfl)
theorem t_main_v136 : W (Proc.devRef (τ := τ) .tc main_v136) = Cert.Glue.n195 ⟨refIE a0 a4, refTE a2 a4, a1, a2, a3, a5, a6⟩ :=
  (congrFun (Fix.after_eq (fix_w2_l16 S) w2_l16_mono.blind) _).symm.trans (by
    unfold w2_l16
    after_results_simp
    rw [t_main_v131 S, t_main_v80 S]
    try simp only [TRef.toBuf, TRef.ofBuf, cast_eq]
    rfl)

end

end Cert.ReferenceIdeal.Run

end
-- ==== Proof.RefRunTab6.lean ====
import proofs.«403361_j42786464202989_2_alg».proof.Proof.RefRunTab5

noncomputable section

namespace Cert.ReferenceIdeal.Run

open Cert.ReferenceIdeal Cert.ReferenceIdeal.RefGather Idealize.ShloMosaic Idealize.ShloMosaic.TcCoe Idealize.SL.Sem Idealize.ShloMosaic.StableHlo Cert.RunLib
open Cert.ReferenceIdeal.Facts₀ Cert.ReferenceIdeal.Facts

variable {F : FTy → Type} [FloatOps F] [Cert.ReferenceIdeal.Facts]

set_option maxRecDepth 16384
set_option maxHeartbeats 2000000

section
variable {W : Valuation τ sig (Elt F)} {a0 a1 : IVec S16x2048 32} {a2 a3 : IVec S16x64 32} {a4 : FVec F S50257x1024 .f32}
  {a5 : FVec F S10x1024 .f32} {a6 : FVec F S5x1024 .f32} (S : Sol W a0 a1 a2 a3 a4 a5 a6)
include S

theorem t_main_v137 : W (Proc.devRef (τ := τ) .tc main_v137) = Cert.Glue.n206 ⟨refIE a0 a4, refTE a2 a4, a1, a2, a3, a5, a6⟩ :=
  (congrFun (Fix.after_eq (fix_w2_l17 S) w2_l17_mono.blind) _).symm.trans (by
    unfold w2_l17
    after_results_simp
    rw [t_main_v135 S, t_main_v112 S]
    try simp only [TRef.toBuf, TRef.ofBuf, cast_eq]
    rfl)
theorem t_main_v138 : W (Proc.devRef (τ := τ) .tc main_v138) = Cert.Glue.n207 ⟨refIE a0 a4, refTE a2 a4, a1, a2, a3, a5, a6⟩ :=
  (congrFun (Fix.after_eq (fix_w2_l18 S) w2_l18_mono.blind) _).symm.trans (by
    unfold w2_l18
    after_results_simp
    rw [t_main_v124 S, t_main_v137 S, t_main_v136 S]
    try simp only [TRef.toBuf, TRef.ofBuf, cast_eq]
    rfl)
theorem t_main_v140 : W (Proc.devRef (τ := τ) .tc main_v140) = Cert.Glue.n209 ⟨refIE a0 a4, refTE a2 a4, a1, a2, a3, a5, a6⟩ :=
  (congrFun (Fix.after_eq (fix_w2_l19 S) w2_l19_mono.blind) _).symm.trans (by
    unfold w2_l19
    after_results_simp
    rw [t_main_v16 S]
    rfl)
theorem t_main_v142 : W (Proc.devRef (τ := τ) .tc main_v142) = Cert.Glue.n116 ⟨refIE a0 a4, refTE a2 a4, a1, a2, a3, a5, a6⟩ :=
  (congrFun (Fix.after_eq (fix_w2_l19 S) w2_l19_mono.blind) _).symm.trans (by
    unfold w2_l19
    after_results_simp
    rfl)
theorem t_main_v143 : W (Proc.devRef (τ := τ) .tc main_v143) = Cert.Glue.n210 ⟨refIE a0 a4, refTE a2 a4, a1, a2, a3, a5, a6⟩ :=
  (congrFun (Fix.after_eq (fix_w2_l19 S) w2_l19_mono.blind) _).symm.trans (by
    unfold w2_l19
    after_results_simp
    rw [t_main_v16 S]
    rfl)
theorem t_main_v146 : W (Proc.devRef (τ := τ) .tc main_v146) = Cert.Glue.n212 ⟨refIE a0 a4, refTE a2 a4, a1, a2, a3, a5, a6⟩ :=
  (congrFun (Fix.after_eq (fix_w2_l19 S) w2_l19_mono.blind) _).symm.trans (by
    unfold w2_l19
    after_results_simp
    rw [t_main_v16 S]
    rfl)
theorem t_main_v152 : W (Proc.devRef (τ := τ) .tc main_v152) = Cert.Glue.n216 ⟨refIE a0 a4, refTE a2 a4, a1, a2, a3, a5, a6⟩ :=
  (congrFun (Fix.after_eq (fix_w3_l0 S) w3_l0_mono.blind) _).symm.trans (by
    unfold w3_l0
    after_results_simp
    rw [t_main_v146 S, t_main_v142 S, t_main_v143 S]
    rfl)
theorem t_main_v155 : W (Proc.devRef (τ := τ) .tc main_v155) = Cert.Glue.n217 ⟨refIE a0 a4, refTE a2 a4, a1, a2, a3, a5, a6⟩ :=
  (congrFun (Fix.after_eq (fix_w3_l0 S) w3_l0_mono.blind) _).symm.trans (by
    unfold w3_l0
    after_results_simp
    rw [t_main_v142 S, t_main_v143 S]
    rfl)
theorem t_main_c_32 : W (Proc.devRef (τ := τ) .tc main_c_32) = Cert.Glue.n11 ⟨refIE a0 a4, refTE a2 a4, a1, a2, a3, a5, a6⟩ :=
  (congrFun (Fix.after_eq (fix_w3_l0 S) w3_l0_mono.blind) _).symm.trans (by
    unfold w3_l0
    after_results_simp
    rfl)
theorem t_main_c_33 : W (Proc.devRef (τ := τ) .tc main_c_33) = Cert.Glue.n42 ⟨refIE a0 a4, refTE a2 a4, a1, a2, a3, a5, a6⟩ :=
  (congrFun (Fix.after_eq (fix_w3_l0 S) w3_l0_mono.blind) _).symm.trans (by
    unfold w3_l0
    after_results_simp
    rfl)
theorem t_main_v156 : W (Proc.devRef (τ := τ) .tc main_v156) = Cert.Glue.n220 ⟨refIE a0 a4, refTE a2 a4, a1, a2, a3, a5, a6⟩ :=
  (congrFun (Fix.after_eq (fix_w3_l1 S) w3_l1_mono.blind) _).symm.trans (by
    unfold w3_l1
    after_results_simp
    rw [t_main_c_33 S, t_main_c_32 S, t_main_v155 S]
    try simp only [TRef.toBuf, TRef.ofBuf, cast_eq]
    rfl)
theorem t_main_v157 : W (Proc.devRef (τ := τ) .tc main_v157) = Cert.Glue.n233 ⟨refIE a0 a4, refTE a2 a4, a1, a2, a3, a5, a6⟩ :=
  (congrFun (Fix.after_eq (fix_w3_l2 S) w3_l2_mono.blind) _).symm.trans (by
    unfold w3_l2
    after_results_simp
    rw [t_main_v156 S, S.h3]
    try simp only [TRef.toBuf, TRef.ofBuf, cast_eq]
    rfl)
theorem t_main_v158 : W (Proc.devRef (τ := τ) .tc main_v158) = Cert.Glue.n234 ⟨refIE a0 a4, refTE a2 a4, a1, a2, a3, a5, a6⟩ :=
  (congrFun (Fix.after_eq (fix_w3_l3 S) w3_l3_mono.blind) _).symm.trans (by
    unfold w3_l3
    after_results_simp
    rw [t_main_v157 S]
    rfl)
theorem t_main_cst_34 : W (Proc.devRef (τ := τ) .tc main_cst_34) = Cert.Glue.n235 ⟨refIE a0 a4, refTE a2 a4, a1, a2, a3, a5, a6⟩ :=
  (congrFun (Fix.after_eq (fix_w3_l3 S) w3_l3_mono.blind) _).symm.trans (by
    unfold w3_l3
    after_results_simp
    rfl)
theorem t_main_v159 : W (Proc.devRef (τ := τ) .tc main_v159) = Cert.Glue.n238 ⟨refIE a0 a4, refTE a2 a4, a1, a2, a3, a5, a6⟩ :=
  (congrFun (Fix.after_eq (fix_w3_l4 S) w3_l4_mono.blind) _).symm.trans (by
    unfold w3_l4
    after_results_simp
    rw [t_main_v152 S, t_main_v158 S, t_main_cst_34 S]
    try simp only [TRef.toBuf, TRef.ofBuf, cast_eq]
    rfl)

end

end Cert.ReferenceIdeal.Run

end
-- ==== Proof.RefRunTab7.lean ====
import proofs.«403361_j42786464202989_2_alg».proof.Proof.RefRunTab6

noncomputable section

namespace Cert.ReferenceIdeal.Run

open Cert.ReferenceIdeal Cert.ReferenceIdeal.RefGather Idealize.ShloMosaic Idealize.ShloMosaic.TcCoe Idealize.SL.Sem Idealize.ShloMosaic.StableHlo Cert.RunLib
open Cert.ReferenceIdeal.Facts₀ Cert.ReferenceIdeal.Facts

variable {F : FTy → Type} [FloatOps F] [Cert.ReferenceIdeal.Facts]

set_option maxRecDepth 16384
set_option maxHeartbeats 2000000

section
variable {W : Valuation τ sig (Elt F)} {a0 a1 : IVec S16x2048 32} {a2 a3 : IVec S16x64 32} {a4 : FVec F S50257x1024 .f32}
  {a5 : FVec F S10x1024 .f32} {a6 : FVec F S5x1024 .f32} (S : Sol W a0 a1 a2 a3 a4 a5 a6)
include S

theorem t_main_v160 : W (Proc.devRef (τ := τ) .tc main_v160) = Cert.Glue.n240 ⟨refIE a0 a4, refTE a2 a4, a1, a2, a3, a5, a6⟩ :=
  (congrFun (Fix.after_eq (fix_w3_l5 S) w3_l5_mono.blind) _).symm.trans (by
    unfold w3_l5
    after_results_simp
    rw [t_main_v156 S, S.h2]
    try simp only [TRef.toBuf, TRef.ofBuf, cast_eq]
    rfl)
theorem t_main_v162 : W (Proc.devRef (τ := τ) .tc main_v162) = Cert.Glue.n242 ⟨refIE a0 a4, refTE a2 a4, a1, a2, a3, a5, a6⟩ :=
  (congrFun (Fix.after_eq (fix_w3_l6 S) w3_l6_mono.blind) _).symm.trans (by
    unfold w3_l6
    after_results_simp
    rw [t_main_v159 S]
    rfl)
theorem t_main_c_36 : W (Proc.devRef (τ := τ) .tc main_c_36) = Cert.Glue.n243 ⟨refIE a0 a4, refTE a2 a4, a1, a2, a3, a5, a6⟩ :=
  (congrFun (Fix.after_eq (fix_w3_l6 S) w3_l6_mono.blind) _).symm.trans (by
    unfold w3_l6
    after_results_simp
    rfl)
theorem t_main_v163 : W (Proc.devRef (τ := τ) .tc main_v163) = Cert.Glue.n246 ⟨refIE a0 a4, refTE a2 a4, a1, a2, a3, a5, a6⟩ :=
  (congrFun (Fix.after_eq (fix_w3_l7 S) w3_l7_mono.blind) _).symm.trans (by
    unfold w3_l7
    after_results_simp
    rw [t_main_v162 S, t_main_v160 S, t_main_c_36 S]
    try simp only [TRef.toBuf, TRef.ofBuf, cast_eq]
    rfl)
theorem t_main_v166 : W (Proc.devRef (τ := τ) .tc main_v166) = Cert.Glue.n249 ⟨refIE a0 a4, refTE a2 a4, a1, a2, a3, a5, a6⟩ :=
  (congrFun (Fix.after_eq (fix_w3_l8 S) w3_l8_mono.blind) _).symm.trans (by
    unfold w3_l8
    after_results
    rw [t_main_v159 S]
    rfl)
theorem t_main_v169 : W (Proc.devRef (τ := τ) .tc main_v169) = Cert.Glue.n252 ⟨refIE a0 a4, refTE a2 a4, a1, a2, a3, a5, a6⟩ :=
  (congrFun (Fix.after_eq (fix_w3_l8 S) w3_l8_mono.blind) _).symm.trans (by
    unfold w3_l8
    after_results
    rw [S.h2]
    rfl)
theorem t_main_v172 : W (Proc.devRef (τ := τ) .tc main_v172) = Cert.Glue.n254 ⟨refIE a0 a4, refTE a2 a4, a1, a2, a3, a5, a6⟩ :=
  (congrFun (Fix.after_eq (fix_w3_l8 S) w3_l8_mono.blind) _).symm.trans (by
    unfold w3_l8
    after_results
    rw [t_main_v163 S]
    rfl)

end

end Cert.ReferenceIdeal.Run

end
-- ==== Proof.RefRun.lean ====
import proofs.«403361_j42786464202989_2_alg».proof.Proof.RefRunMain
import proofs.«403361_j42786464202989_2_alg».proof.Proof.RefRunTab7

noncomputable section

namespace Cert.ReferenceIdeal.Run

open Cert.ReferenceIdeal Cert.ReferenceIdeal.RefGather Idealize.ShloMosaic Idealize.ShloMosaic.TcCoe Idealize.SL.Sem Idealize.ShloMosaic.StableHlo Cert.RunLib
open Cert.ReferenceIdeal.Facts₀ Cert.ReferenceIdeal.Facts

variable {F : FTy → Type} [FloatOps F] [Cert.ReferenceIdeal.Facts]

theorem run (m : (ℓ : Loc nD τ sig) → Buf (Elt F) ℓ) (g : Dev nD → PrngReg) :
    θ_run (defs (F := F)) (onTc (τ := τ) (main (F := F))) ⟨m, fun _ => 0, g⟩ (fun r => ∀ c : Dev nD,
      r.2.mem ((c.tc : Thread nD τ).loc main_v111) = Cert.Glue.n180 ⟨refIE (m ((c.tc : Thread nD τ).loc main_arg0)) (m ((c.tc : Thread nD τ).loc main_arg4)), refTE (m ((c.tc : Thread nD τ).loc main_arg2)) (m ((c.tc : Thread nD τ).loc main_arg4)), m ((c.tc : Thread nD τ).loc main_arg1), m ((c.tc : Thread nD τ).loc main_arg2), m ((c.tc : Thread nD τ).loc main_arg3), m ((c.tc : Thread nD τ).loc main_arg5), m ((c.tc : Thread nD τ).loc main_arg6)⟩ ∧
      r.2.mem ((c.tc : Thread nD τ).loc main_v138) = Cert.Glue.n207 ⟨refIE (m ((c.tc : Thread nD τ).loc main_arg0)) (m ((c.tc : Thread nD τ).loc main_arg4)), refTE (m ((c.tc : Thread nD τ).loc main_arg2)) (m ((c.tc : Thread nD τ).loc main_arg4)), m ((c.tc : Thread nD τ).loc main_arg1), m ((c.tc : Thread nD τ).loc main_arg2), m ((c.tc : Thread nD τ).loc main_arg3), m ((c.tc : Thread nD τ).loc main_arg5), m ((c.tc : Thread nD τ).loc main_arg6)⟩ ∧
      r.2.mem ((c.tc : Thread nD τ).loc main_v166) = Cert.Glue.n249 ⟨refIE (m ((c.tc : Thread nD τ).loc main_arg0)) (m ((c.tc : Thread nD τ).loc main_arg4)), refTE (m ((c.tc : Thread nD τ).loc main_arg2)) (m ((c.tc : Thread nD τ).loc main_arg4)), m ((c.tc : Thread nD τ).loc main_arg1), m ((c.tc : Thread nD τ).loc main_arg2), m ((c.tc : Thread nD τ).loc main_arg3), m ((c.tc : Thread nD τ).loc main_arg5), m ((c.tc : Thread nD τ).loc main_arg6)⟩ ∧
      r.2.mem ((c.tc : Thread nD τ).loc main_v169) = Cert.Glue.n252 ⟨refIE (m ((c.tc : Thread nD τ).loc main_arg0)) (m ((c.tc : Thread nD τ).loc main_arg4)), refTE (m ((c.tc : Thread nD τ).loc main_arg2)) (m ((c.tc : Thread nD τ).loc main_arg4)), m ((c.tc : Thread nD τ).loc main_arg1), m ((c.tc : Thread nD τ).loc main_arg2), m ((c.tc : Thread nD τ).loc main_arg3), m ((c.tc : Thread nD τ).loc main_arg5), m ((c.tc : Thread nD τ).loc main_arg6)⟩ ∧
      r.2.mem ((c.tc : Thread nD τ).loc main_v140) = Cert.Glue.n209 ⟨refIE (m ((c.tc : Thread nD τ).loc main_arg0)) (m ((c.tc : Thread nD τ).loc main_arg4)), refTE (m ((c.tc : Thread nD τ).loc main_arg2)) (m ((c.tc : Thread nD τ).loc main_arg4)), m ((c.tc : Thread nD τ).loc main_arg1), m ((c.tc : Thread nD τ).loc main_arg2), m ((c.tc : Thread nD τ).loc main_arg3), m ((c.tc : Thread nD τ).loc main_arg5), m ((c.tc : Thread nD τ).loc main_arg6)⟩ ∧
      r.2.mem ((c.tc : Thread nD τ).loc main_v172) = Cert.Glue.n254 ⟨refIE (m ((c.tc : Thread nD τ).loc main_arg0)) (m ((c.tc : Thread nD τ).loc main_arg4)), refTE (m ((c.tc : Thread nD τ).loc main_arg2)) (m ((c.tc : Thread nD τ).loc main_arg4)), m ((c.tc : Thread nD τ).loc main_arg1), m ((c.tc : Thread nD τ).loc main_arg2), m ((c.tc : Thread nD τ).loc main_arg3), m ((c.tc : Thread nD τ).loc main_arg5), m ((c.tc : Thread nD τ).loc main_arg6)⟩ ∧
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6)) :=
  (θ_run defs _ _).mono (fun _ h c =>
      have S := sol_after (F := F) (launchContents m c)
      ⟨(h c main_v111).trans (t_main_v111 S),
       (h c main_v138).trans (t_main_v138 S),
       (h c main_v166).trans (t_main_v166 S),
       (h c main_v169).trans (t_main_v169 S),
       (h c main_v140).trans (t_main_v140 S),
       (h c main_v172).trans (t_main_v172 S),
       (h c main_arg0).trans S.h0, (h c main_arg1).trans S.h1, (h c main_arg2).trans S.h2, (h c main_arg3).trans S.h3, (h c main_arg4).trans S.h4, (h c main_arg5).trans S.h5, (h c main_arg6).trans S.h6⟩)
    (run_after m g)

end Cert.ReferenceIdeal.Run

end
-- ==== Proof.KArr.lean ====
import proofs.«403361_j42786464202989_2_alg».proof.Proof.Gen.KernelIdeal.Launch
import proofs.«403361_j42786464202989_2_alg».proof.Proof.Rows
import Idealize.ShloMosaic.Lib.Pipeline.Value
import Idealize.ShloMosaic.Lib.ValueIdx
import Idealize.ShloMosaic.Lib.ValueLayout

noncomputable section

namespace Cert.KernelIdeal.KArr

open Idealize.ShloMosaic Idealize.ShloMosaic.ValueIdx Idealize.ShloMosaic.TcCoe Cert.KernelIdeal Cert.KernelIdeal.Gen

variable {F : FTy → Type} [FloatOps F]

theorem mem_slice_whole_of_unit {sg : RefSig} {κ : Kind} (b : Ref sg κ) (off size : Fin b.ty.shape.rank → Nat)
    (inb : ∀ a, off a + size a ≤ b.ty.shape.size a) (i : b.ty.shape.Idx)
    (h : ∀ a, off a ≤ (i a).val ∧ (i a).val < off a + size a) :
    i ∈ ((View.whole b).slice (Rect.unit off size inb)).set := by
  rw [View.set_slice_whole, Rect.mem_set_unit]
  exact h

abbrev rowsAt {n : Nat} (tbl : FVec F S50257x1024 .f32) (tab : IVec ⟨1, ![n]⟩ 32) :
    (⟨3, ![n, 1, 1024]⟩ : Shape).Idx → F .f32 :=
  fun j => Cert.Rows.cell tbl (tab (ValueIdx.ix1 (j 0))).toNat (j 2)

theorem row_congr {n : Nat} (tbl : FVec F S50257x1024 .f32) (tab : IVec ⟨1, ![n]⟩ 32) {p p' : Fin n} {d d' : Fin 1024}
    (hp : p.val = p'.val) (hd : d.val = d'.val) :
    Cert.Rows.cell tbl (tab (ValueIdx.ix1 p)).toNat d = Cert.Rows.cell tbl (tab (ValueIdx.ix1 p')).toNat d' := by
  obtain rfl := Fin.ext hp
  obtain rfl := Fin.ext hd
  rfl

section P0
variable (a : (p : Fin 2) → (pcfgs (F := F) p).Adm)

theorem N0 : (Pipeline.pin (pcfgs (F := F)) a 0).N = 32768 := N_0

theorem index0 (t : Fin (Pipeline.pin (pcfgs (F := F)) a 0).N) :
    ((Pipeline.pin (pcfgs (F := F)) a 0).win 0).index t = ![t.val, 0, 0] := by
  have ht : t.val < 32768 := lt_of_lt_of_eq t.isLt (N0 a)
  show cc0_transform_1 (grid0.coords t) = _
  have hc : (grid0.coords t 0).val = t.val := by
    show t.val / grid0.stride 0 % 32768 = t.val
    rw [show grid0.stride 0 = 1 from by decide, Nat.div_one, Nat.mod_eq_of_lt ht]
  show ![(BitVec.ofNat 32 (grid0.coords t 0).val).toNat, (0#32).toNat, (0#32).toNat] = _
  rw [hc, BitVec.toNat_ofNat, Nat.mod_eq_of_lt (by omega)]
  rfl

theorem flush0 (t : Fin (Pipeline.pin (pcfgs (F := F)) a 0).N) :
    ((Pipeline.pin (pcfgs (F := F)) a 0).win 0).flush t = true := by
  unfold Pipeline.Window.flush
  rw [show ((Pipeline.pin (pcfgs (F := F)) a 0).win 0).isOut = true from rfl, Bool.true_and, Bool.or_eq_true,
    decide_eq_true_eq, decide_eq_true_eq]
  have ht : t.val < 32768 := lt_of_lt_of_eq t.isLt (N0 a)
  by_cases h : t.val + 1 = 32768
  · exact Or.inl (h.trans (N0 a).symm)
  · have hlt : t.val + 1 < (Pipeline.pin (pcfgs (F := F)) a 0).N := lt_of_lt_of_eq (by omega : t.val + 1 < 32768) (N0 a).symm
    refine Or.inr ⟨hlt, ?_⟩
    rw [index0, index0]
    intro e
    have := congrFun e 0
    simp at this

theorem flushed0_eq (c : Dev nD)
    (dat : Pipeline.Dat τ (Elt F) Unit ℕ (Pipeline.UD sig nD τ) ℕ (Pipeline.pin (pcfgs (F := F)) a 0) c)
    (tbl : FVec F S50257x1024 .f32) (tab : IVec S32768 32)
    (hafter : ∀ (t : Fin 32768) (y : S1x1x1024.Idx),
      dat.after 0 t y = Cert.Rows.cell tbl (tab (ValueIdx.ix1 t)).toNat (y 2))
    (t : Fin (Pipeline.pin (pcfgs (F := F)) a 0).N) :
    dat.flushed 0 t = (((Pipeline.pin (pcfgs (F := F)) a 0).win 0).blk t).view.read (Elt F) (rowsAt tbl tab) := by
  funext y
  show dat.after 0 t _ = rowsAt tbl tab ((((Pipeline.pin (pcfgs (F := F)) a 0).win 0).blk t).view.emb y)
  refine (hafter t _).trans ?_
  have e0 : (((Pipeline.pin (pcfgs (F := F)) a 0).win 0).index t) (0 : Fin 3) = t.val := congrFun (index0 a t) (0 : Fin 3)
  have e2 : (((Pipeline.pin (pcfgs (F := F)) a 0).win 0).index t) (2 : Fin 3) = 0 := congrFun (index0 a t) (2 : Fin 3)
  have hy0 : (y (0 : Fin 3)).val < 1 := (y (0 : Fin 3)).isLt
  refine row_congr tbl tab (p := t) ?_ ?_
  · show t.val = ((Pipeline.pin (pcfgs (F := F)) a 0).win 0).index t (0 : Fin 3) * 1 + 1 * (y (0 : Fin 3)).val
    rw [e0]; omega
  · show (y (2 : Fin 3)).val = ((Pipeline.pin (pcfgs (F := F)) a 0).win 0).index t (2 : Fin 3) * 1024 + 1 * (y (2 : Fin 3)).val
    rw [e2]; omega

theorem arr0_eq (c : Dev nD)
    (dat : Pipeline.Dat τ (Elt F) Unit ℕ (Pipeline.UD sig nD τ) ℕ (Pipeline.pin (pcfgs (F := F)) a 0) c)
    (tbl : FVec F S50257x1024 .f32) (tab : IVec S32768 32)
    (hafter : ∀ (t : Fin 32768) (y : S1x1x1024.Idx),
      dat.after 0 t y = Cert.Rows.cell tbl (tab (ValueIdx.ix1 t)).toNat (y 2)) :
    dat.arrAt 0 (Pipeline.pin (pcfgs (F := F)) a 0).N
      = (fun j : S32768x1x1024.Idx => Cert.Rows.cell tbl (tab (ValueIdx.ix1 (j 0))).toNat (j 2)) := by
  refine dat.arrAt_eq_of_cover 0 (rowsAt tbl tab) (fun t _ => flushed0_eq a c dat tbl tab hafter t) ?_
  intro i
  have hi0 : (i (0 : Fin 3)).val < 32768 := (i (0 : Fin 3)).isLt
  have hi1 : (i (1 : Fin 3)).val < 1 := (i (1 : Fin 3)).isLt
  have hi2 : (i (2 : Fin 3)).val < 1024 := (i (2 : Fin 3)).isLt
  let t : Fin (Pipeline.pin (pcfgs (F := F)) a 0).N := ⟨(i (0 : Fin 3)).val, lt_of_lt_of_eq hi0 (N0 a).symm⟩
  refine ⟨t, flush0 a t, ?_⟩
  show i ∈ ((View.whole main_v1).slice (((Pipeline.pin (pcfgs (F := F)) a 0).win 0).rect t)).set
  refine mem_slice_whole_of_unit main_v1 _ _ _ i ?_
  have e0 : (((Pipeline.pin (pcfgs (F := F)) a 0).win 0).index t) (0 : Fin 3) = (i (0 : Fin 3)).val := congrFun (index0 a t) (0 : Fin 3)
  have e1 : (((Pipeline.pin (pcfgs (F := F)) a 0).win 0).index t) (1 : Fin 3) = 0 := congrFun (index0 a t) (1 : Fin 3)
  have e2 : (((Pipeline.pin (pcfgs (F := F)) a 0).win 0).index t) (2 : Fin 3) = 0 := congrFun (index0 a t) (2 : Fin 3)
  intro b
  match b with
  | ⟨0, _⟩ =>
    show ((Pipeline.pin (pcfgs (F := F)) a 0).win 0).index t (0 : Fin 3) * 1 ≤ (i (0 : Fin 3)).val
      ∧ (i (0 : Fin 3)).val < ((Pipeline.pin (pcfgs (F := F)) a 0).win 0).index t (0 : Fin 3) * 1 + 1
    rw [e0]; omega
  | ⟨1, _⟩ =>
    show ((Pipeline.pin (pcfgs (F := F)) a 0).win 0).index t (1 : Fin 3) * 1 ≤ (i (1 : Fin 3)).val
      ∧ (i (1 : Fin 3)).val < ((Pipeline.pin (pcfgs (F := F)) a 0).win 0).index t (1 : Fin 3) * 1 + 1
    rw [e1]; omega
  | ⟨2, _⟩ =>
    show ((Pipeline.pin (pcfgs (F := F)) a 0).win 0).index t (2 : Fin 3) * 1024 ≤ (i (2 : Fin 3)).val
      ∧ (i (2 : Fin 3)).val < ((Pipeline.pin (pcfgs (F := F)) a 0).win 0).index t (2 : Fin 3) * 1024 + 1024
    rw [e2]; omega

end P0

section P1
variable (a : (p : Fin 2) → (pcfgs (F := F) p).Adm)

theorem N1 : (Pipeline.pin (pcfgs (F := F)) a 1).N = 1024 := N_1

theorem index1 (t : Fin (Pipeline.pin (pcfgs (F := F)) a 1).N) :
    ((Pipeline.pin (pcfgs (F := F)) a 1).win 0).index t = ![t.val, 0, 0] := by
  have ht : t.val < 1024 := lt_of_lt_of_eq t.isLt (N1 a)
  show cc1_transform_1 (grid1.coords t) = _
  have hc : (grid1.coords t 0).val = t.val := by
    show t.val / grid1.stride 0 % 1024 = t.val
    rw [show grid1.stride 0 = 1 from by decide, Nat.div_one, Nat.mod_eq_of_lt ht]
  show ![(BitVec.ofNat 32 (grid1.coords t 0).val).toNat, (0#32).toNat, (0#32).toNat] = _
  rw [hc, BitVec.toNat_ofNat, Nat.mod_eq_of_lt (by omega)]
  rfl

theorem flush1 (t : Fin (Pipeline.pin (pcfgs (F := F)) a 1).N) :
    ((Pipeline.pin (pcfgs (F := F)) a 1).win 0).flush t = true := by
  unfold Pipeline.Window.flush
  rw [show ((Pipeline.pin (pcfgs (F := F)) a 1).win 0).isOut = true from rfl, Bool.true_and, Bool.or_eq_true,
    decide_eq_true_eq, decide_eq_true_eq]
  have ht : t.val < 1024 := lt_of_lt_of_eq t.isLt (N1 a)
  by_cases h : t.val + 1 = 1024
  · exact Or.inl (h.trans (N1 a).symm)
  · have hlt : t.val + 1 < (Pipeline.pin (pcfgs (F := F)) a 1).N := lt_of_lt_of_eq (by omega : t.val + 1 < 1024) (N1 a).symm
    refine Or.inr ⟨hlt, ?_⟩
    rw [index1, index1]
    intro e
    have := congrFun e 0
    simp at this

theorem flushed1_eq (c : Dev nD)
    (dat : Pipeline.Dat τ (Elt F) Unit ℕ (Pipeline.UD sig nD τ) ℕ (Pipeline.pin (pcfgs (F := F)) a 1) c)
    (tbl : FVec F S50257x1024 .f32) (tab : IVec S1024 32)
    (hafter : ∀ (t : Fin 1024) (y : S1x1x1024.Idx),
      dat.after 0 t y = Cert.Rows.cell tbl (tab (ValueIdx.ix1 t)).toNat (y 2))
    (t : Fin (Pipeline.pin (pcfgs (F := F)) a 1).N) :
    dat.flushed 0 t = (((Pipeline.pin (pcfgs (F := F)) a 1).win 0).blk t).view.read (Elt F) (rowsAt tbl tab) := by
  funext y
  show dat.after 0 t _ = rowsAt tbl tab ((((Pipeline.pin (pcfgs (F := F)) a 1).win 0).blk t).view.emb y)
  refine (hafter t _).trans ?_
  have e0 : (((Pipeline.pin (pcfgs (F := F)) a 1).win 0).index t) (0 : Fin 3) = t.val := congrFun (index1 a t) (0 : Fin 3)
  have e2 : (((Pipeline.pin (pcfgs (F := F)) a 1).win 0).index t) (2 : Fin 3) = 0 := congrFun (index1 a t) (2 : Fin 3)
  have hy0 : (y (0 : Fin 3)).val < 1 := (y (0 : Fin 3)).isLt
  refine row_congr tbl tab (p := t) ?_ ?_
  · show t.val = ((Pipeline.pin (pcfgs (F := F)) a 1).win 0).index t (0 : Fin 3) * 1 + 1 * (y (0 : Fin 3)).val
    rw [e0]; omega
  · show (y (2 : Fin 3)).val = ((Pipeline.pin (pcfgs (F := F)) a 1).win 0).index t (2 : Fin 3) * 1024 + 1 * (y (2 : Fin 3)).val
    rw [e2]; omega

theorem arr1_eq (c : Dev nD)
    (dat : Pipeline.Dat τ (Elt F) Unit ℕ (Pipeline.UD sig nD τ) ℕ (Pipeline.pin (pcfgs (F := F)) a 1) c)
    (tbl : FVec F S50257x1024 .f32) (tab : IVec S1024 32)
    (hafter : ∀ (t : Fin 1024) (y : S1x1x1024.Idx),
      dat.after 0 t y = Cert.Rows.cell tbl (tab (ValueIdx.ix1 t)).toNat (y 2)) :
    dat.arrAt 0 (Pipeline.pin (pcfgs (F := F)) a 1).N
      = (fun j : S1024x1x1024.Idx => Cert.Rows.cell tbl (tab (ValueIdx.ix1 (j 0))).toNat (j 2)) := by
  refine dat.arrAt_eq_of_cover 0 (rowsAt tbl tab) (fun t _ => flushed1_eq a c dat tbl tab hafter t) ?_
  intro i
  have hi0 : (i (0 : Fin 3)).val < 1024 := (i (0 : Fin 3)).isLt
  have hi1 : (i (1 : Fin 3)).val < 1 := (i (1 : Fin 3)).isLt
  have hi2 : (i (2 : Fin 3)).val < 1024 := (i (2 : Fin 3)).isLt
  let t : Fin (Pipeline.pin (pcfgs (F := F)) a 1).N := ⟨(i (0 : Fin 3)).val, lt_of_lt_of_eq hi0 (N1 a).symm⟩
  refine ⟨t, flush1 a t, ?_⟩
  show i ∈ ((View.whole main_v5).slice (((Pipeline.pin (pcfgs (F := F)) a 1).win 0).rect t)).set
  refine mem_slice_whole_of_unit main_v5 _ _ _ i ?_
  have e0 : (((Pipeline.pin (pcfgs (F := F)) a 1).win 0).index t) (0 : Fin 3) = (i (0 : Fin 3)).val := congrFun (index1 a t) (0 : Fin 3)
  have e1 : (((Pipeline.pin (pcfgs (F := F)) a 1).win 0).index t) (1 : Fin 3) = 0 := congrFun (index1 a t) (1 : Fin 3)
  have e2 : (((Pipeline.pin (pcfgs (F := F)) a 1).win 0).index t) (2 : Fin 3) = 0 := congrFun (index1 a t) (2 : Fin 3)
  intro b
  match b with
  | ⟨0, _⟩ =>
    show ((Pipeline.pin (pcfgs (F := F)) a 1).win 0).index t (0 : Fin 3) * 1 ≤ (i (0 : Fin 3)).val
      ∧ (i (0 : Fin 3)).val < ((Pipeline.pin (pcfgs (F := F)) a 1).win 0).index t (0 : Fin 3) * 1 + 1
    rw [e0]; omega
  | ⟨1, _⟩ =>
    show ((Pipeline.pin (pcfgs (F := F)) a 1).win 0).index t (1 : Fin 3) * 1 ≤ (i (1 : Fin 3)).val
      ∧ (i (1 : Fin 3)).val < ((Pipeline.pin (pcfgs (F := F)) a 1).win 0).index t (1 : Fin 3) * 1 + 1
    rw [e1]; omega
  | ⟨2, _⟩ =>
    show ((Pipeline.pin (pcfgs (F := F)) a 1).win 0).index t (2 : Fin 3) * 1024 ≤ (i (2 : Fin 3)).val
      ∧ (i (2 : Fin 3)).val < ((Pipeline.pin (pcfgs (F := F)) a 1).win 0).index t (2 : Fin 3) * 1024 + 1024
    rw [e2]; omega

end P1

theorem ie_eq (a0 : IVec S16x2048 32) (tbl : FVec F S50257x1024 .f32) :
    shapeCast S16x2048x1024
        (shapeCast S32768x1024
          (fun j : S32768x1x1024.Idx =>
            Cert.Rows.cell tbl ((shapeCast S32768 a0 shapeCasts_S16x2048_S32768) (ValueIdx.ix1 (j 0))).toNat (j 2))
          shapeCasts_S32768x1x1024_S32768x1024)
        shapeCasts_S32768x1024_S16x2048x1024
      = Cert.Rows.rowsIn tbl a0 := by
  funext j
  obtain ⟨r, c, d, rfl⟩ : ∃ (r : Fin 16) (c : Fin 2048) (d : Fin 1024), j = ix3 r c d := ⟨j 0, j 1, j 2, eq_ix3 j⟩
  have hr := r.isLt
  have hc := c.isLt
  have hd := d.isLt
  let p : Fin 32768 := ⟨r.val * 2048 + c.val, by omega⟩
  refine (shapeCast_apply _ shapeCasts_S32768x1024_S16x2048x1024 (ix3 r c d) (ix2 p d) (by
    rw [Shape.rowMajor_val_two, Shape.rowMajor_val_three]
    show (r.val * 2048 + c.val) * 1024 + d.val = (r.val * 2048 + c.val) * 1024 + d.val
    rfl)).trans ?_
  refine (shapeCast_apply _ shapeCasts_S32768x1x1024_S32768x1024 (ix2 p d) (ix3 p (0 : Fin 1) d) (by
    rw [Shape.rowMajor_val_three, Shape.rowMajor_val_two]
    show ((r.val * 2048 + c.val) * 1 + 0) * 1024 + d.val = (r.val * 2048 + c.val) * 1024 + d.val
    omega)).trans ?_
  show Cert.Rows.cell tbl ((shapeCast S32768 a0 shapeCasts_S16x2048_S32768) (ValueIdx.ix1 p)).toNat d
    = Cert.Rows.cell tbl (a0 (ix2 r c)).toNat d
  rw [shapeCast_apply a0 shapeCasts_S16x2048_S32768 (ValueIdx.ix1 p) (ix2 r c) (by
    rw [Shape.rowMajor_val_two, Shape.rowMajor_val_one]
    show r.val * 2048 + c.val = r.val * 2048 + c.val
    rfl)]

theorem te_eq (a2 : IVec S16x64 32) (tbl : FVec F S50257x1024 .f32) :
    shapeCast S16x64x1024
        (shapeCast S1024x1024
          (fun j : S1024x1x1024.Idx =>
            Cert.Rows.cell tbl ((shapeCast S1024 a2 shapeCasts_S16x64_S1024) (ValueIdx.ix1 (j 0))).toNat (j 2))
          shapeCasts_S1024x1x1024_S1024x1024)
        shapeCasts_S1024x1024_S16x64x1024
      = Cert.Rows.rowsTg tbl a2 := by
  funext j
  obtain ⟨r, c, d, rfl⟩ : ∃ (r : Fin 16) (c : Fin 64) (d : Fin 1024), j = ix3 r c d := ⟨j 0, j 1, j 2, eq_ix3 j⟩
  have hr := r.isLt
  have hc := c.isLt
  have hd := d.isLt
  let p : Fin 1024 := ⟨r.val * 64 + c.val, by omega⟩
  refine (shapeCast_apply _ shapeCasts_S1024x1024_S16x64x1024 (ix3 r c d) (ix2 p d) (by
    rw [Shape.rowMajor_val_two, Shape.rowMajor_val_three]
    show (r.val * 64 + c.val) * 1024 + d.val = (r.val * 64 + c.val) * 1024 + d.val
    rfl)).trans ?_
  refine (shapeCast_apply _ shapeCasts_S1024x1x1024_S1024x1024 (ix2 p d) (ix3 p (0 : Fin 1) d) (by
    rw [Shape.rowMajor_val_three, Shape.rowMajor_val_two]
    show ((r.val * 64 + c.val) * 1 + 0) * 1024 + d.val = (r.val * 64 + c.val) * 1024 + d.val
    omega)).trans ?_
  show Cert.Rows.cell tbl ((shapeCast S1024 a2 shapeCasts_S16x64_S1024) (ValueIdx.ix1 p)).toNat d
    = Cert.Rows.cell tbl (a2 (ix2 r c)).toNat d
  rw [shapeCast_apply a2 shapeCasts_S16x64_S1024 (ValueIdx.ix1 p) (ix2 r c) (by
    rw [Shape.rowMajor_val_two, Shape.rowMajor_val_one]
    show r.val * 64 + c.val = r.val * 64 + c.val
    rfl)]

end Cert.KernelIdeal.KArr

end
-- ==== Proof.KArgs.lean ====
import proofs.«403361_j42786464202989_2_alg».proof.Proof.KernelIdealRegions

set_option maxRecDepth 2468

noncomputable section

namespace Cert.KernelIdeal.KArgs

open Cert.KernelIdeal Cert.KernelIdeal.Gen

open Idealize.ShloMosaic Idealize.ShloMosaic.TcCoe
open Idealize.SL Idealize.SL.Sem

variable {F : FTy → Type} [FloatOps F]

variable (m : (ℓ : Loc nD τ sig) → Buf (Elt F) ℓ) (outs : GenP.Outs (F := F)) (c : Dev nD)

theorem arg4_V1 : GenP.V1 m c main_arg4 = m ((c : Thread nD τ).loc main_arg4) :=
  (GenP.V1_of m c main_arg4 (by decide)).trans rfl

theorem arg4_V3 : GenP.V3 m outs c main_arg4 = m ((c : Thread nD τ).loc main_arg4) :=
  (GenP.V3_of m outs c main_arg4 (by decide)).trans
    ((GenP.V2_of m outs c main_arg4 (by decide)).trans (arg4_V1 m c))

end Cert.KernelIdeal.KArgs

end
-- ==== Proof.KTailIn.lean ====
import proofs.«403361_j42786464202989_2_alg».proof.Proof.KernelIdealRegions

set_option maxRecDepth 2468

noncomputable section

namespace Cert.KernelIdeal.KTail

open Cert.KernelIdeal.Gen
open Idealize.ShloMosaic Idealize.ShloMosaic.TcCoe

variable {F : FTy → Type} [FloatOps F] [Cert.KernelIdeal.Facts]

structure KIn (F : FTy → Type) [FloatOps F] where
  ie : (⟨S16x2048x1024, .f32⟩ : BufTy).Contents (Elt F)
  te : (⟨S16x64x1024, .f32⟩ : BufTy).Contents (Elt F)
  a1 : (⟨S16x2048, .i32⟩ : BufTy).Contents (Elt F)
  a2 : (⟨S16x64, .i32⟩ : BufTy).Contents (Elt F)
  a3 : (⟨S16x64, .i32⟩ : BufTy).Contents (Elt F)
  a5 : (⟨S10x1024, .f32⟩ : BufTy).Contents (Elt F)
  a6 : (⟨S5x1024, .f32⟩ : BufTy).Contents (Elt F)

abbrev ieOf (x : main_v1.ty.Contents (Elt F)) : main_v3.ty.Contents (Elt F) :=
  fun i => (rfl : main_v2.ty.elt = main_v3.ty.elt) ▸ shapeCast main_v3.ty.shape
    (fun j => (rfl : main_v1.ty.elt = main_v2.ty.elt) ▸ shapeCast main_v2.ty.shape x shapeCasts_S32768x1x1024_S32768x1024 j)
    shapeCasts_S32768x1024_S16x2048x1024 i

abbrev teOf (x : main_v5.ty.Contents (Elt F)) : main_v7.ty.Contents (Elt F) :=
  fun i => (rfl : main_v6.ty.elt = main_v7.ty.elt) ▸ shapeCast main_v7.ty.shape
    (fun j => (rfl : main_v5.ty.elt = main_v6.ty.elt) ▸ shapeCast main_v6.ty.shape x shapeCasts_S1024x1x1024_S1024x1024 j)
    shapeCasts_S1024x1024_S16x64x1024 i

variable (m : (ℓ : Loc nD τ sig) → Buf (Elt F) ℓ) (outs : GenP.Outs (F := F)) (c : Dev nD)

def kin : KIn F where
  ie := ieOf (outs 2 main_v1 c)
  te := teOf (outs 4 main_v5 c)
  a1 := m ((c : Thread nD τ).loc main_arg1)
  a2 := m ((c : Thread nD τ).loc main_arg2)
  a3 := m ((c : Thread nD τ).loc main_arg3)
  a5 := m ((c : Thread nD τ).loc main_arg5)
  a6 := m ((c : Thread nD τ).loc main_arg6)

end Cert.KernelIdeal.KTail
-- ==== Proof.KTailDefs.lean ====
import proofs.«403361_j42786464202989_2_alg».proof.Proof.KTailIn
import proofs.«403361_j42786464202989_2_alg».proof.Proof.Glue3

set_option maxRecDepth 20000

noncomputable section

namespace Cert.KernelIdeal.KTail

open Cert.KernelIdeal.Gen
open Idealize.ShloMosaic Idealize.ShloMosaic.TcCoe

variable {F : FTy → Type} [FloatOps F] [Cert.KernelIdeal.Facts] [Cert.ReferenceIdeal.Facts]

abbrev kv_main_v10 (p : KIn F) : (⟨S16x2058x1024, .f32⟩ : BufTy).Contents (Elt F) := Cert.Glue.n3 ⟨p.ie, p.te, p.a1, p.a2, p.a3, p.a5, p.a6⟩
abbrev kv_main_v12 (p : KIn F) : (⟨S16x2058, .i32⟩ : BufTy).Contents (Elt F) := Cert.Glue.n6 ⟨p.ie, p.te, p.a1, p.a2, p.a3, p.a5, p.a6⟩
abbrev kv_main_v14 (p : KIn F) : (⟨S16x2058, .i32⟩ : BufTy).Contents (Elt F) := Cert.Glue.n8 ⟨p.ie, p.te, p.a1, p.a2, p.a3, p.a5, p.a6⟩
abbrev kv_main_v15 (p : KIn F) : (⟨S16, .i32⟩ : BufTy).Contents (Elt F) := Cert.Glue.n13 ⟨p.ie, p.te, p.a1, p.a2, p.a3, p.a5, p.a6⟩
abbrev kv_main_v17 (p : KIn F) : (⟨S16, .i32⟩ : BufTy).Contents (Elt F) := Cert.Glue.n15 ⟨p.ie, p.te, p.a1, p.a2, p.a3, p.a5, p.a6⟩
abbrev kv_main_v19 (p : KIn F) : (⟨S1x2122, .i32⟩ : BufTy).Contents (Elt F) := Cert.Glue.n17 ⟨p.ie, p.te, p.a1, p.a2, p.a3, p.a5, p.a6⟩
abbrev kv_main_v20 (p : KIn F) : (⟨S16x1, .i32⟩ : BufTy).Contents (Elt F) := Cert.Glue.n18 ⟨p.ie, p.te, p.a1, p.a2, p.a3, p.a5, p.a6⟩
abbrev kv_main_v29 (p : KIn F) : (⟨S16x2122, .i1⟩ : BufTy).Contents (Elt F) := Cert.Glue.n27 ⟨p.ie, p.te, p.a1, p.a2, p.a3, p.a5, p.a6⟩
abbrev kv_main_v32 (p : KIn F) : (⟨S16x2122, .i1⟩ : BufTy).Contents (Elt F) := Cert.Glue.n28 ⟨p.ie, p.te, p.a1, p.a2, p.a3, p.a5, p.a6⟩
abbrev kv_main_v34 (p : KIn F) : (⟨S1x2122, .i32⟩ : BufTy).Contents (Elt F) := Cert.Glue.n30 ⟨p.ie, p.te, p.a1, p.a2, p.a3, p.a5, p.a6⟩
abbrev kv_main_c_4 (p : KIn F) : (⟨S_, .i32⟩ : BufTy).Contents (Elt F) := Cert.Glue.n11 ⟨p.ie, p.te, p.a1, p.a2, p.a3, p.a5, p.a6⟩
abbrev kv_main_c_5 (p : KIn F) : (⟨S_, .i32⟩ : BufTy).Contents (Elt F) := Cert.Glue.n31 ⟨p.ie, p.te, p.a1, p.a2, p.a3, p.a5, p.a6⟩
abbrev kv_main_v35 (p : KIn F) : (⟨S1x2122, .i32⟩ : BufTy).Contents (Elt F) := Cert.Glue.n37 ⟨p.ie, p.te, p.a1, p.a2, p.a3, p.a5, p.a6⟩
abbrev kv_main_v36 (p : KIn F) : (⟨S16x2122, .i32⟩ : BufTy).Contents (Elt F) := Cert.Glue.n40 ⟨p.ie, p.te, p.a1, p.a2, p.a3, p.a5, p.a6⟩
abbrev kv_main_v39 (p : KIn F) : (⟨S16x2122, .i32⟩ : BufTy).Contents (Elt F) := Cert.Glue.n41 ⟨p.ie, p.te, p.a1, p.a2, p.a3, p.a5, p.a6⟩
abbrev kv_main_c_6 (p : KIn F) : (⟨S_, .i32⟩ : BufTy).Contents (Elt F) := Cert.Glue.n11 ⟨p.ie, p.te, p.a1, p.a2, p.a3, p.a5, p.a6⟩
abbrev kv_main_c_7 (p : KIn F) : (⟨S_, .i32⟩ : BufTy).Contents (Elt F) := Cert.Glue.n42 ⟨p.ie, p.te, p.a1, p.a2, p.a3, p.a5, p.a6⟩
abbrev kv_main_v40 (p : KIn F) : (⟨S16x2122, .i32⟩ : BufTy).Contents (Elt F) := Cert.Glue.n47 ⟨p.ie, p.te, p.a1, p.a2, p.a3, p.a5, p.a6⟩
abbrev kv_main_v41 (p : KIn F) : (⟨S16x2122x1, .i32⟩ : BufTy).Contents (Elt F) := Cert.Glue.n48 ⟨p.ie, p.te, p.a1, p.a2, p.a3, p.a5, p.a6⟩
abbrev kv_main_v42 (p : KIn F) : (⟨S16x2122x1024, .f32⟩ : BufTy).Contents (Elt F) := Cert.Glue.n67 ⟨p.ie, p.te, p.a1, p.a2, p.a3, p.a5, p.a6⟩
abbrev kv_main_v43 (p : KIn F) : (⟨S16x2122x1, .i32⟩ : BufTy).Contents (Elt F) := Cert.Glue.n68 ⟨p.ie, p.te, p.a1, p.a2, p.a3, p.a5, p.a6⟩
abbrev kv_main_v44 (p : KIn F) : (⟨S16x2122x1024, .f32⟩ : BufTy).Contents (Elt F) := Cert.Glue.n82 ⟨p.ie, p.te, p.a1, p.a2, p.a3, p.a5, p.a6⟩
abbrev kv_main_v45 (p : KIn F) : (⟨S16x2122x1, .i1⟩ : BufTy).Contents (Elt F) := Cert.Glue.n83 ⟨p.ie, p.te, p.a1, p.a2, p.a3, p.a5, p.a6⟩
abbrev kv_main_v46 (p : KIn F) : (⟨S16x2122x1024, .f32⟩ : BufTy).Contents (Elt F) := Cert.Glue.n85 ⟨p.ie, p.te, p.a1, p.a2, p.a3, p.a5, p.a6⟩
abbrev kv_main_v47 (p : KIn F) : (⟨S16x2058, .f32⟩ : BufTy).Contents (Elt F) := Cert.Glue.n86 ⟨p.ie, p.te, p.a1, p.a2, p.a3, p.a5, p.a6⟩
abbrev kv_main_v48 (p : KIn F) : (⟨S16x64, .f32⟩ : BufTy).Contents (Elt F) := Cert.Glue.n87 ⟨p.ie, p.te, p.a1, p.a2, p.a3, p.a5, p.a6⟩
abbrev kv_main_v50 (p : KIn F) : (⟨S1x2122, .i32⟩ : BufTy).Contents (Elt F) := Cert.Glue.n17 ⟨p.ie, p.te, p.a1, p.a2, p.a3, p.a5, p.a6⟩
abbrev kv_main_v51 (p : KIn F) : (⟨S16x1, .i32⟩ : BufTy).Contents (Elt F) := Cert.Glue.n18 ⟨p.ie, p.te, p.a1, p.a2, p.a3, p.a5, p.a6⟩
abbrev kv_main_v60 (p : KIn F) : (⟨S16x2122, .i1⟩ : BufTy).Contents (Elt F) := Cert.Glue.n27 ⟨p.ie, p.te, p.a1, p.a2, p.a3, p.a5, p.a6⟩
abbrev kv_main_v63 (p : KIn F) : (⟨S16x2122, .i1⟩ : BufTy).Contents (Elt F) := Cert.Glue.n28 ⟨p.ie, p.te, p.a1, p.a2, p.a3, p.a5, p.a6⟩
abbrev kv_main_v65 (p : KIn F) : (⟨S1x2122, .i32⟩ : BufTy).Contents (Elt F) := Cert.Glue.n30 ⟨p.ie, p.te, p.a1, p.a2, p.a3, p.a5, p.a6⟩
abbrev kv_main_c_10 (p : KIn F) : (⟨S_, .i32⟩ : BufTy).Contents (Elt F) := Cert.Glue.n11 ⟨p.ie, p.te, p.a1, p.a2, p.a3, p.a5, p.a6⟩
abbrev kv_main_c_11 (p : KIn F) : (⟨S_, .i32⟩ : BufTy).Contents (Elt F) := Cert.Glue.n31 ⟨p.ie, p.te, p.a1, p.a2, p.a3, p.a5, p.a6⟩
abbrev kv_main_v66 (p : KIn F) : (⟨S1x2122, .i32⟩ : BufTy).Contents (Elt F) := Cert.Glue.n37 ⟨p.ie, p.te, p.a1, p.a2, p.a3, p.a5, p.a6⟩
abbrev kv_main_v67 (p : KIn F) : (⟨S16x2122, .i32⟩ : BufTy).Contents (Elt F) := Cert.Glue.n40 ⟨p.ie, p.te, p.a1, p.a2, p.a3, p.a5, p.a6⟩
abbrev kv_main_v70 (p : KIn F) : (⟨S16x2122, .i32⟩ : BufTy).Contents (Elt F) := Cert.Glue.n41 ⟨p.ie, p.te, p.a1, p.a2, p.a3, p.a5, p.a6⟩
abbrev kv_main_c_12 (p : KIn F) : (⟨S_, .i32⟩ : BufTy).Contents (Elt F) := Cert.Glue.n11 ⟨p.ie, p.te, p.a1, p.a2, p.a3, p.a5, p.a6⟩
abbrev kv_main_c_13 (p : KIn F) : (⟨S_, .i32⟩ : BufTy).Contents (Elt F) := Cert.Glue.n42 ⟨p.ie, p.te, p.a1, p.a2, p.a3, p.a5, p.a6⟩
abbrev kv_main_v71 (p : KIn F) : (⟨S16x2122, .i32⟩ : BufTy).Contents (Elt F) := Cert.Glue.n47 ⟨p.ie, p.te, p.a1, p.a2, p.a3, p.a5, p.a6⟩
abbrev kv_main_v72 (p : KIn F) : (⟨S16x2122, .f32⟩ : BufTy).Contents (Elt F) := Cert.Glue.n100 ⟨p.ie, p.te, p.a1, p.a2, p.a3, p.a5, p.a6⟩
abbrev kv_main_v73 (p : KIn F) : (⟨S16x2122, .f32⟩ : BufTy).Contents (Elt F) := Cert.Glue.n111 ⟨p.ie, p.te, p.a1, p.a2, p.a3, p.a5, p.a6⟩
abbrev kv_main_v74 (p : KIn F) : (⟨S16x2122, .f32⟩ : BufTy).Contents (Elt F) := Cert.Glue.n112 ⟨p.ie, p.te, p.a1, p.a2, p.a3, p.a5, p.a6⟩
abbrev kv_main_v76 (p : KIn F) : (⟨S16x5x1024, .f32⟩ : BufTy).Contents (Elt F) := Cert.Glue.n114 ⟨p.ie, p.te, p.a1, p.a2, p.a3, p.a5, p.a6⟩
abbrev kv_main_v78 (p : KIn F) : (⟨S1x2127, .i32⟩ : BufTy).Contents (Elt F) := Cert.Glue.n116 ⟨p.ie, p.te, p.a1, p.a2, p.a3, p.a5, p.a6⟩
abbrev kv_main_v79 (p : KIn F) : (⟨S16x1, .i32⟩ : BufTy).Contents (Elt F) := Cert.Glue.n18 ⟨p.ie, p.te, p.a1, p.a2, p.a3, p.a5, p.a6⟩
abbrev kv_main_v88 (p : KIn F) : (⟨S16x2127, .i1⟩ : BufTy).Contents (Elt F) := Cert.Glue.n125 ⟨p.ie, p.te, p.a1, p.a2, p.a3, p.a5, p.a6⟩
abbrev kv_main_v91 (p : KIn F) : (⟨S16x2127, .i1⟩ : BufTy).Contents (Elt F) := Cert.Glue.n126 ⟨p.ie, p.te, p.a1, p.a2, p.a3, p.a5, p.a6⟩
abbrev kv_main_v93 (p : KIn F) : (⟨S1x2127, .i32⟩ : BufTy).Contents (Elt F) := Cert.Glue.n128 ⟨p.ie, p.te, p.a1, p.a2, p.a3, p.a5, p.a6⟩
abbrev kv_main_c_16 (p : KIn F) : (⟨S_, .i32⟩ : BufTy).Contents (Elt F) := Cert.Glue.n11 ⟨p.ie, p.te, p.a1, p.a2, p.a3, p.a5, p.a6⟩
abbrev kv_main_c_17 (p : KIn F) : (⟨S_, .i32⟩ : BufTy).Contents (Elt F) := Cert.Glue.n129 ⟨p.ie, p.te, p.a1, p.a2, p.a3, p.a5, p.a6⟩
abbrev kv_main_v94 (p : KIn F) : (⟨S1x2127, .i32⟩ : BufTy).Contents (Elt F) := Cert.Glue.n134 ⟨p.ie, p.te, p.a1, p.a2, p.a3, p.a5, p.a6⟩
abbrev kv_main_v95 (p : KIn F) : (⟨S16x2127, .i32⟩ : BufTy).Contents (Elt F) := Cert.Glue.n137 ⟨p.ie, p.te, p.a1, p.a2, p.a3, p.a5, p.a6⟩
abbrev kv_main_v98 (p : KIn F) : (⟨S16x2127, .i32⟩ : BufTy).Contents (Elt F) := Cert.Glue.n138 ⟨p.ie, p.te, p.a1, p.a2, p.a3, p.a5, p.a6⟩
abbrev kv_main_c_18 (p : KIn F) : (⟨S_, .i32⟩ : BufTy).Contents (Elt F) := Cert.Glue.n11 ⟨p.ie, p.te, p.a1, p.a2, p.a3, p.a5, p.a6⟩
abbrev kv_main_c_19 (p : KIn F) : (⟨S_, .i32⟩ : BufTy).Contents (Elt F) := Cert.Glue.n139 ⟨p.ie, p.te, p.a1, p.a2, p.a3, p.a5, p.a6⟩
abbrev kv_main_v99 (p : KIn F) : (⟨S16x2127, .i32⟩ : BufTy).Contents (Elt F) := Cert.Glue.n144 ⟨p.ie, p.te, p.a1, p.a2, p.a3, p.a5, p.a6⟩
abbrev kv_main_v100 (p : KIn F) : (⟨S16x2127x1, .i32⟩ : BufTy).Contents (Elt F) := Cert.Glue.n145 ⟨p.ie, p.te, p.a1, p.a2, p.a3, p.a5, p.a6⟩
abbrev kv_main_v101 (p : KIn F) : (⟨S16x2127x1024, .f32⟩ : BufTy).Contents (Elt F) := Cert.Glue.n162 ⟨p.ie, p.te, p.a1, p.a2, p.a3, p.a5, p.a6⟩
abbrev kv_main_v102 (p : KIn F) : (⟨S16x2127x1, .i32⟩ : BufTy).Contents (Elt F) := Cert.Glue.n163 ⟨p.ie, p.te, p.a1, p.a2, p.a3, p.a5, p.a6⟩
abbrev kv_main_v103 (p : KIn F) : (⟨S16x2127x1024, .f32⟩ : BufTy).Contents (Elt F) := Cert.Glue.n177 ⟨p.ie, p.te, p.a1, p.a2, p.a3, p.a5, p.a6⟩
abbrev kv_main_v104 (p : KIn F) : (⟨S16x2127x1, .i1⟩ : BufTy).Contents (Elt F) := Cert.Glue.n178 ⟨p.ie, p.te, p.a1, p.a2, p.a3, p.a5, p.a6⟩
abbrev kv_main_v105 (p : KIn F) : (⟨S16x2127x1024, .f32⟩ : BufTy).Contents (Elt F) := Cert.Glue.n180 ⟨p.ie, p.te, p.a1, p.a2, p.a3, p.a5, p.a6⟩
abbrev kv_main_v106 (p : KIn F) : (⟨S16x5, .f32⟩ : BufTy).Contents (Elt F) := Cert.Glue.n182 ⟨p.ie, p.te, p.a1, p.a2, p.a3, p.a5, p.a6⟩
abbrev kv_main_v108 (p : KIn F) : (⟨S1x2127, .i32⟩ : BufTy).Contents (Elt F) := Cert.Glue.n116 ⟨p.ie, p.te, p.a1, p.a2, p.a3, p.a5, p.a6⟩
abbrev kv_main_v109 (p : KIn F) : (⟨S16x1, .i32⟩ : BufTy).Contents (Elt F) := Cert.Glue.n18 ⟨p.ie, p.te, p.a1, p.a2, p.a3, p.a5, p.a6⟩
abbrev kv_main_v118 (p : KIn F) : (⟨S16x2127, .i1⟩ : BufTy).Contents (Elt F) := Cert.Glue.n125 ⟨p.ie, p.te, p.a1, p.a2, p.a3, p.a5, p.a6⟩
abbrev kv_main_v121 (p : KIn F) : (⟨S16x2127, .i1⟩ : BufTy).Contents (Elt F) := Cert.Glue.n126 ⟨p.ie, p.te, p.a1, p.a2, p.a3, p.a5, p.a6⟩
abbrev kv_main_v123 (p : KIn F) : (⟨S1x2127, .i32⟩ : BufTy).Contents (Elt F) := Cert.Glue.n128 ⟨p.ie, p.te, p.a1, p.a2, p.a3, p.a5, p.a6⟩
abbrev kv_main_c_22 (p : KIn F) : (⟨S_, .i32⟩ : BufTy).Contents (Elt F) := Cert.Glue.n11 ⟨p.ie, p.te, p.a1, p.a2, p.a3, p.a5, p.a6⟩
abbrev kv_main_c_23 (p : KIn F) : (⟨S_, .i32⟩ : BufTy).Contents (Elt F) := Cert.Glue.n129 ⟨p.ie, p.te, p.a1, p.a2, p.a3, p.a5, p.a6⟩
abbrev kv_main_v124 (p : KIn F) : (⟨S1x2127, .i32⟩ : BufTy).Contents (Elt F) := Cert.Glue.n134 ⟨p.ie, p.te, p.a1, p.a2, p.a3, p.a5, p.a6⟩
abbrev kv_main_v125 (p : KIn F) : (⟨S16x2127, .i32⟩ : BufTy).Contents (Elt F) := Cert.Glue.n137 ⟨p.ie, p.te, p.a1, p.a2, p.a3, p.a5, p.a6⟩
abbrev kv_main_v128 (p : KIn F) : (⟨S16x2127, .i32⟩ : BufTy).Contents (Elt F) := Cert.Glue.n138 ⟨p.ie, p.te, p.a1, p.a2, p.a3, p.a5, p.a6⟩
abbrev kv_main_c_24 (p : KIn F) : (⟨S_, .i32⟩ : BufTy).Contents (Elt F) := Cert.Glue.n11 ⟨p.ie, p.te, p.a1, p.a2, p.a3, p.a5, p.a6⟩
abbrev kv_main_c_25 (p : KIn F) : (⟨S_, .i32⟩ : BufTy).Contents (Elt F) := Cert.Glue.n139 ⟨p.ie, p.te, p.a1, p.a2, p.a3, p.a5, p.a6⟩
abbrev kv_main_v129 (p : KIn F) : (⟨S16x2127, .i32⟩ : BufTy).Contents (Elt F) := Cert.Glue.n144 ⟨p.ie, p.te, p.a1, p.a2, p.a3, p.a5, p.a6⟩
abbrev kv_main_v130 (p : KIn F) : (⟨S16x2127, .f32⟩ : BufTy).Contents (Elt F) := Cert.Glue.n195 ⟨p.ie, p.te, p.a1, p.a2, p.a3, p.a5, p.a6⟩
abbrev kv_main_v131 (p : KIn F) : (⟨S16x2127, .f32⟩ : BufTy).Contents (Elt F) := Cert.Glue.n206 ⟨p.ie, p.te, p.a1, p.a2, p.a3, p.a5, p.a6⟩
abbrev kv_main_v132 (p : KIn F) : (⟨S16x2127, .f32⟩ : BufTy).Contents (Elt F) := Cert.Glue.n207 ⟨p.ie, p.te, p.a1, p.a2, p.a3, p.a5, p.a6⟩
abbrev kv_main_v134 (p : KIn F) : (⟨S16, .i32⟩ : BufTy).Contents (Elt F) := Cert.Glue.n209 ⟨p.ie, p.te, p.a1, p.a2, p.a3, p.a5, p.a6⟩
abbrev kv_main_v146 (p : KIn F) : (⟨S16x2127, .i1⟩ : BufTy).Contents (Elt F) := Cert.Glue.n216 ⟨p.ie, p.te, p.a1, p.a2, p.a3, p.a5, p.a6⟩
abbrev kv_main_v149 (p : KIn F) : (⟨S16x2127, .i32⟩ : BufTy).Contents (Elt F) := Cert.Glue.n217 ⟨p.ie, p.te, p.a1, p.a2, p.a3, p.a5, p.a6⟩
abbrev kv_main_c_28 (p : KIn F) : (⟨S_, .i32⟩ : BufTy).Contents (Elt F) := Cert.Glue.n11 ⟨p.ie, p.te, p.a1, p.a2, p.a3, p.a5, p.a6⟩
abbrev kv_main_c_29 (p : KIn F) : (⟨S_, .i32⟩ : BufTy).Contents (Elt F) := Cert.Glue.n42 ⟨p.ie, p.te, p.a1, p.a2, p.a3, p.a5, p.a6⟩
abbrev kv_main_v150 (p : KIn F) : (⟨S16x2127, .i32⟩ : BufTy).Contents (Elt F) := Cert.Glue.n220 ⟨p.ie, p.te, p.a1, p.a2, p.a3, p.a5, p.a6⟩
abbrev kv_main_v151 (p : KIn F) : (⟨S16x2127, .i32⟩ : BufTy).Contents (Elt F) := Cert.Glue.n233 ⟨p.ie, p.te, p.a1, p.a2, p.a3, p.a5, p.a6⟩
abbrev kv_main_v152 (p : KIn F) : (⟨S16x2127, .f32⟩ : BufTy).Contents (Elt F) := Cert.Glue.n234 ⟨p.ie, p.te, p.a1, p.a2, p.a3, p.a5, p.a6⟩
abbrev kv_main_cst_30 (p : KIn F) : (⟨S_, .f32⟩ : BufTy).Contents (Elt F) := Cert.Glue.n235 ⟨p.ie, p.te, p.a1, p.a2, p.a3, p.a5, p.a6⟩
abbrev kv_main_v153 (p : KIn F) : (⟨S16x2127, .f32⟩ : BufTy).Contents (Elt F) := Cert.Glue.n238 ⟨p.ie, p.te, p.a1, p.a2, p.a3, p.a5, p.a6⟩
abbrev kv_main_v154 (p : KIn F) : (⟨S16x2127, .i32⟩ : BufTy).Contents (Elt F) := Cert.Glue.n240 ⟨p.ie, p.te, p.a1, p.a2, p.a3, p.a5, p.a6⟩
abbrev kv_main_v156 (p : KIn F) : (⟨S16x2127, .i1⟩ : BufTy).Contents (Elt F) := Cert.Glue.n242 ⟨p.ie, p.te, p.a1, p.a2, p.a3, p.a5, p.a6⟩
abbrev kv_main_c_32 (p : KIn F) : (⟨S_, .i32⟩ : BufTy).Contents (Elt F) := Cert.Glue.n243 ⟨p.ie, p.te, p.a1, p.a2, p.a3, p.a5, p.a6⟩
abbrev kv_main_v157 (p : KIn F) : (⟨S16x2127, .i32⟩ : BufTy).Contents (Elt F) := Cert.Glue.n246 ⟨p.ie, p.te, p.a1, p.a2, p.a3, p.a5, p.a6⟩
abbrev kv_main_v160 (p : KIn F) : (⟨S16x2127, .f32⟩ : BufTy).Contents (Elt F) := Cert.Glue.n249 ⟨p.ie, p.te, p.a1, p.a2, p.a3, p.a5, p.a6⟩
abbrev kv_main_v163 (p : KIn F) : (⟨S16x64, .i32⟩ : BufTy).Contents (Elt F) := Cert.Glue.n252 ⟨p.ie, p.te, p.a1, p.a2, p.a3, p.a5, p.a6⟩
abbrev kv_main_v166 (p : KIn F) : (⟨S16x2127, .i32⟩ : BufTy).Contents (Elt F) := Cert.Glue.n254 ⟨p.ie, p.te, p.a1, p.a2, p.a3, p.a5, p.a6⟩

end Cert.KernelIdeal.KTail
-- ==== Proof.KTailRun0.lean ====
import proofs.«403361_j42786464202989_2_alg».proof.Proof.KTailDefs
import Idealize.ShloMosaic.Lib.StableHlo.Run

set_option maxRecDepth 20000

noncomputable section

namespace Cert.KernelIdeal.KTail

open Cert.KernelIdeal.Gen
open Idealize.ShloMosaic Idealize.ShloMosaic.TcCoe

variable {F : FTy → Type} [FloatOps F] [Cert.KernelIdeal.Facts] [Cert.ReferenceIdeal.Facts]

theorem r_main_v10 (p : KIn F) (W : Valuation τ sig (Elt F)) (h_main_v3 : W (Proc.devRef .tc main_v3) = p.ie) (h_main_arg5 : W (Proc.devRef .tc main_arg5) = p.a5) :
    StableHlo.after hostOps2 W (Proc.devRef .tc main_v10) = kv_main_v10 p := by
  unfold hostOps2
  after_results
  rw [h_main_arg5, h_main_v3]
  rfl

theorem r_main_v12 (p : KIn F) (W : Valuation τ sig (Elt F)) (h_main_arg1 : W (Proc.devRef .tc main_arg1) = p.a1) :
    StableHlo.after hostOps2 W (Proc.devRef .tc main_v12) = kv_main_v12 p := by
  unfold hostOps2
  after_results
  rw [h_main_arg1]
  rfl

theorem r_main_v14 (p : KIn F) (W : Valuation τ sig (Elt F)) (h_main_arg1 : W (Proc.devRef .tc main_arg1) = p.a1) :
    StableHlo.after hostOps2 W (Proc.devRef .tc main_v14) = kv_main_v14 p := by
  unfold hostOps2
  after_results
  rw [h_main_arg1]
  rfl

theorem r_main_v15 (p : KIn F) (W : Valuation τ sig (Elt F)) (h_main_v14 : W (Proc.devRef .tc main_v14) = kv_main_v14 p) :
    StableHlo.after hostOps2_1 W (Proc.devRef .tc main_v15) = kv_main_v15 p := by
  unfold hostOps2_1
  after_results_simp
  rw [h_main_v14]
  try simp only [StableHlo.TRef.ofBuf, StableHlo.TRef.toBuf, cast_eq]
  rfl

theorem r_main_v17 (p : KIn F) (W : Valuation τ sig (Elt F)) (h_main_v15 : W (Proc.devRef .tc main_v15) = kv_main_v15 p) :
    StableHlo.after hostOps2_2 W (Proc.devRef .tc main_v17) = kv_main_v17 p := by
  unfold hostOps2_2
  after_results_simp
  rw [h_main_v15]
  rfl

theorem r_main_v19 (p : KIn F) (W : Valuation τ sig (Elt F)) :
    StableHlo.after hostOps2_2 W (Proc.devRef .tc main_v19) = kv_main_v19 p := by
  unfold hostOps2_2
  after_results_simp
  rfl

theorem r_main_v20 (p : KIn F) (W : Valuation τ sig (Elt F)) (h_main_v15 : W (Proc.devRef .tc main_v15) = kv_main_v15 p) :
    StableHlo.after hostOps2_2 W (Proc.devRef .tc main_v20) = kv_main_v20 p := by
  unfold hostOps2_2
  after_results_simp
  rw [h_main_v15]
  rfl

theorem r_main_v29 (p : KIn F) (W : Valuation τ sig (Elt F)) (h_main_v15 : W (Proc.devRef .tc main_v15) = kv_main_v15 p) :
    StableHlo.after hostOps2_2 W (Proc.devRef .tc main_v29) = kv_main_v29 p := by
  unfold hostOps2_2
  after_results_simp
  rw [h_main_v15]
  rfl

theorem r_main_v32 (p : KIn F) (W : Valuation τ sig (Elt F)) (h_main_v15 : W (Proc.devRef .tc main_v15) = kv_main_v15 p) :
    StableHlo.after hostOps2_2 W (Proc.devRef .tc main_v32) = kv_main_v32 p := by
  unfold hostOps2_2
  after_results_simp
  rw [h_main_v15]
  rfl

theorem r_main_v34 (p : KIn F) (W : Valuation τ sig (Elt F)) :
    StableHlo.after hostOps2_2 W (Proc.devRef .tc main_v34) = kv_main_v34 p := by
  unfold hostOps2_2
  after_results_simp
  rfl

theorem r_main_c_4 (p : KIn F) (W : Valuation τ sig (Elt F)) :
    StableHlo.after hostOps2_2 W (Proc.devRef .tc main_c_4) = kv_main_c_4 p := by
  unfold hostOps2_2
  after_results_simp
  rfl

theorem r_main_c_5 (p : KIn F) (W : Valuation τ sig (Elt F)) :
    StableHlo.after hostOps2_2 W (Proc.devRef .tc main_c_5) = kv_main_c_5 p := by
  unfold hostOps2_2
  after_results_simp
  rfl

theorem r_main_v35 (p : KIn F) (W : Valuation τ sig (Elt F)) (h_main_c_5 : W (Proc.devRef .tc main_c_5) = kv_main_c_5 p) (h_main_v34 : W (Proc.devRef .tc main_v34) = kv_main_v34 p) (h_main_c_4 : W (Proc.devRef .tc main_c_4) = kv_main_c_4 p) :
    StableHlo.after hostOps2_3 W (Proc.devRef .tc main_v35) = kv_main_v35 p := by
  unfold hostOps2_3
  after_results_simp
  rw [h_main_c_5, h_main_c_4, h_main_v34]
  try simp only [StableHlo.TRef.ofBuf, StableHlo.TRef.toBuf, cast_eq]
  rfl

theorem r_main_v36 (p : KIn F) (W : Valuation τ sig (Elt F)) (h_main_v32 : W (Proc.devRef .tc main_v32) = kv_main_v32 p) (h_main_v35 : W (Proc.devRef .tc main_v35) = kv_main_v35 p) (h_main_v19 : W (Proc.devRef .tc main_v19) = kv_main_v19 p) :
    StableHlo.after hostOps2_4 W (Proc.devRef .tc main_v36) = kv_main_v36 p := by
  unfold hostOps2_4
  after_results_simp
  rw [h_main_v32, h_main_v19, h_main_v35]
  try simp only [StableHlo.TRef.ofBuf, StableHlo.TRef.toBuf, cast_eq]
  rfl

theorem r_main_v39 (p : KIn F) (W : Valuation τ sig (Elt F)) (h_main_v20 : W (Proc.devRef .tc main_v20) = kv_main_v20 p) (h_main_v19 : W (Proc.devRef .tc main_v19) = kv_main_v19 p) :
    StableHlo.after hostOps2_5 W (Proc.devRef .tc main_v39) = kv_main_v39 p := by
  unfold hostOps2_5
  after_results_simp
  rw [h_main_v19, h_main_v20]
  rfl

theorem r_main_c_6 (p : KIn F) (W : Valuation τ sig (Elt F)) :
    StableHlo.after hostOps2_5 W (Proc.devRef .tc main_c_6) = kv_main_c_6 p := by
  unfold hostOps2_5
  after_results_simp
  rfl

theorem r_main_c_7 (p : KIn F) (W : Valuation τ sig (Elt F)) :
    StableHlo.after hostOps2_5 W (Proc.devRef .tc main_c_7) = kv_main_c_7 p := by
  unfold hostOps2_5
  after_results_simp
  rfl

theorem r_main_v40 (p : KIn F) (W : Valuation τ sig (Elt F)) (h_main_c_7 : W (Proc.devRef .tc main_c_7) = kv_main_c_7 p) (h_main_v39 : W (Proc.devRef .tc main_v39) = kv_main_v39 p) (h_main_c_6 : W (Proc.devRef .tc main_c_6) = kv_main_c_6 p) :
    StableHlo.after hostOps2_6 W (Proc.devRef .tc main_v40) = kv_main_v40 p := by
  unfold hostOps2_6
  after_results_simp
  rw [h_main_c_7, h_main_c_6, h_main_v39]
  try simp only [StableHlo.TRef.ofBuf, StableHlo.TRef.toBuf, cast_eq]
  rfl

theorem r_main_v41 (p : KIn F) (W : Valuation τ sig (Elt F)) (h_main_v36 : W (Proc.devRef .tc main_v36) = kv_main_v36 p) :
    StableHlo.after hostOps2_7 W (Proc.devRef .tc main_v41) = kv_main_v41 p := by
  unfold hostOps2_7
  after_results_simp
  rw [h_main_v36]
  rfl

theorem r_main_v42 (p : KIn F) (W : Valuation τ sig (Elt F)) (h_main_v10 : W (Proc.devRef .tc main_v10) = kv_main_v10 p) (h_main_v41 : W (Proc.devRef .tc main_v41) = kv_main_v41 p) :
    StableHlo.after hostOps2_8 W (Proc.devRef .tc main_v42) = kv_main_v42 p := by
  unfold hostOps2_8
  after_results_simp
  rw [h_main_v41, h_main_v10]
  try simp only [StableHlo.TRef.ofBuf, StableHlo.TRef.toBuf, cast_eq]
  rfl

theorem r_main_v43 (p : KIn F) (W : Valuation τ sig (Elt F)) (h_main_v40 : W (Proc.devRef .tc main_v40) = kv_main_v40 p) :
    StableHlo.after hostOps2_9 W (Proc.devRef .tc main_v43) = kv_main_v43 p := by
  unfold hostOps2_9
  after_results_simp
  rw [h_main_v40]
  rfl

theorem r_main_v44 (p : KIn F) (W : Valuation τ sig (Elt F)) (h_main_v7 : W (Proc.devRef .tc main_v7) = p.te) (h_main_v43 : W (Proc.devRef .tc main_v43) = kv_main_v43 p) :
    StableHlo.after hostOps2_10 W (Proc.devRef .tc main_v44) = kv_main_v44 p := by
  unfold hostOps2_10
  after_results_simp
  rw [h_main_v43, h_main_v7]
  try simp only [StableHlo.TRef.ofBuf, StableHlo.TRef.toBuf, cast_eq]
  rfl

theorem r_main_v45 (p : KIn F) (W : Valuation τ sig (Elt F)) (h_main_v29 : W (Proc.devRef .tc main_v29) = kv_main_v29 p) :
    StableHlo.after hostOps2_11 W (Proc.devRef .tc main_v45) = kv_main_v45 p := by
  unfold hostOps2_11
  after_results_simp
  rw [h_main_v29]
  rfl

theorem r_main_v46 (p : KIn F) (W : Valuation τ sig (Elt F)) (h_main_v44 : W (Proc.devRef .tc main_v44) = kv_main_v44 p) (h_main_v42 : W (Proc.devRef .tc main_v42) = kv_main_v42 p) (h_main_v45 : W (Proc.devRef .tc main_v45) = kv_main_v45 p) :
    StableHlo.after hostOps2_12 W (Proc.devRef .tc main_v46) = kv_main_v46 p := by
  unfold hostOps2_12
  after_results_simp
  rw [h_main_v45, h_main_v44, h_main_v42]
  try simp only [StableHlo.TRef.ofBuf, StableHlo.TRef.toBuf, cast_eq]
  rfl

end Cert.KernelIdeal.KTail
-- ==== Proof.KTailRun1.lean ====
import proofs.«403361_j42786464202989_2_alg».proof.Proof.KTailDefs
import Idealize.ShloMosaic.Lib.StableHlo.Run

set_option maxRecDepth 20000

noncomputable section

namespace Cert.KernelIdeal.KTail

open Cert.KernelIdeal.Gen
open Idealize.ShloMosaic Idealize.ShloMosaic.TcCoe

variable {F : FTy → Type} [FloatOps F] [Cert.KernelIdeal.Facts] [Cert.ReferenceIdeal.Facts]

theorem r_main_v47 (p : KIn F) (W : Valuation τ sig (Elt F)) (h_main_v12 : W (Proc.devRef .tc main_v12) = kv_main_v12 p) :
    StableHlo.after hostOps2_13 W (Proc.devRef .tc main_v47) = kv_main_v47 p := by
  unfold hostOps2_13
  after_results_simp
  rw [h_main_v12]
  rfl

theorem r_main_v48 (p : KIn F) (W : Valuation τ sig (Elt F)) (h_main_arg3 : W (Proc.devRef .tc main_arg3) = p.a3) :
    StableHlo.after hostOps2_13 W (Proc.devRef .tc main_v48) = kv_main_v48 p := by
  unfold hostOps2_13
  after_results_simp
  rw [h_main_arg3]
  rfl

theorem r_main_v50 (p : KIn F) (W : Valuation τ sig (Elt F)) :
    StableHlo.after hostOps2_13 W (Proc.devRef .tc main_v50) = kv_main_v50 p := by
  unfold hostOps2_13
  after_results_simp
  rfl

theorem r_main_v51 (p : KIn F) (W : Valuation τ sig (Elt F)) (h_main_v17 : W (Proc.devRef .tc main_v17) = kv_main_v17 p) :
    StableHlo.after hostOps2_13 W (Proc.devRef .tc main_v51) = kv_main_v51 p := by
  unfold hostOps2_13
  after_results_simp
  rw [h_main_v17]
  rfl

theorem r_main_v60 (p : KIn F) (W : Valuation τ sig (Elt F)) (h_main_v17 : W (Proc.devRef .tc main_v17) = kv_main_v17 p) :
    StableHlo.after hostOps2_13 W (Proc.devRef .tc main_v60) = kv_main_v60 p := by
  unfold hostOps2_13
  after_results_simp
  rw [h_main_v17]
  rfl

theorem r_main_v63 (p : KIn F) (W : Valuation τ sig (Elt F)) (h_main_v17 : W (Proc.devRef .tc main_v17) = kv_main_v17 p) :
    StableHlo.after hostOps2_13 W (Proc.devRef .tc main_v63) = kv_main_v63 p := by
  unfold hostOps2_13
  after_results_simp
  rw [h_main_v17]
  rfl

theorem r_main_v65 (p : KIn F) (W : Valuation τ sig (Elt F)) :
    StableHlo.after hostOps2_13 W (Proc.devRef .tc main_v65) = kv_main_v65 p := by
  unfold hostOps2_13
  after_results_simp
  rfl

theorem r_main_c_10 (p : KIn F) (W : Valuation τ sig (Elt F)) :
    StableHlo.after hostOps2_13 W (Proc.devRef .tc main_c_10) = kv_main_c_10 p := by
  unfold hostOps2_13
  after_results_simp
  rfl

theorem r_main_c_11 (p : KIn F) (W : Valuation τ sig (Elt F)) :
    StableHlo.after hostOps2_13 W (Proc.devRef .tc main_c_11) = kv_main_c_11 p := by
  unfold hostOps2_13
  after_results_simp
  rfl

theorem r_main_v66 (p : KIn F) (W : Valuation τ sig (Elt F)) (h_main_c_11 : W (Proc.devRef .tc main_c_11) = kv_main_c_11 p) (h_main_v65 : W (Proc.devRef .tc main_v65) = kv_main_v65 p) (h_main_c_10 : W (Proc.devRef .tc main_c_10) = kv_main_c_10 p) :
    StableHlo.after hostOps2_14 W (Proc.devRef .tc main_v66) = kv_main_v66 p := by
  unfold hostOps2_14
  after_results_simp
  rw [h_main_c_11, h_main_c_10, h_main_v65]
  try simp only [StableHlo.TRef.ofBuf, StableHlo.TRef.toBuf, cast_eq]
  rfl

theorem r_main_v67 (p : KIn F) (W : Valuation τ sig (Elt F)) (h_main_v63 : W (Proc.devRef .tc main_v63) = kv_main_v63 p) (h_main_v66 : W (Proc.devRef .tc main_v66) = kv_main_v66 p) (h_main_v50 : W (Proc.devRef .tc main_v50) = kv_main_v50 p) :
    StableHlo.after hostOps2_15 W (Proc.devRef .tc main_v67) = kv_main_v67 p := by
  unfold hostOps2_15
  after_results_simp
  rw [h_main_v63, h_main_v50, h_main_v66]
  try simp only [StableHlo.TRef.ofBuf, StableHlo.TRef.toBuf, cast_eq]
  rfl

theorem r_main_v70 (p : KIn F) (W : Valuation τ sig (Elt F)) (h_main_v51 : W (Proc.devRef .tc main_v51) = kv_main_v51 p) (h_main_v50 : W (Proc.devRef .tc main_v50) = kv_main_v50 p) :
    StableHlo.after hostOps2_16 W (Proc.devRef .tc main_v70) = kv_main_v70 p := by
  unfold hostOps2_16
  after_results_simp
  rw [h_main_v50, h_main_v51]
  rfl

theorem r_main_c_12 (p : KIn F) (W : Valuation τ sig (Elt F)) :
    StableHlo.after hostOps2_16 W (Proc.devRef .tc main_c_12) = kv_main_c_12 p := by
  unfold hostOps2_16
  after_results_simp
  rfl

theorem r_main_c_13 (p : KIn F) (W : Valuation τ sig (Elt F)) :
    StableHlo.after hostOps2_16 W (Proc.devRef .tc main_c_13) = kv_main_c_13 p := by
  unfold hostOps2_16
  after_results_simp
  rfl

theorem r_main_v71 (p : KIn F) (W : Valuation τ sig (Elt F)) (h_main_c_13 : W (Proc.devRef .tc main_c_13) = kv_main_c_13 p) (h_main_v70 : W (Proc.devRef .tc main_v70) = kv_main_v70 p) (h_main_c_12 : W (Proc.devRef .tc main_c_12) = kv_main_c_12 p) :
    StableHlo.after hostOps2_17 W (Proc.devRef .tc main_v71) = kv_main_v71 p := by
  unfold hostOps2_17
  after_results_simp
  rw [h_main_c_13, h_main_c_12, h_main_v70]
  try simp only [StableHlo.TRef.ofBuf, StableHlo.TRef.toBuf, cast_eq]
  rfl

theorem r_main_v72 (p : KIn F) (W : Valuation τ sig (Elt F)) (h_main_v47 : W (Proc.devRef .tc main_v47) = kv_main_v47 p) (h_main_v67 : W (Proc.devRef .tc main_v67) = kv_main_v67 p) :
    StableHlo.after hostOps2_18 W (Proc.devRef .tc main_v72) = kv_main_v72 p := by
  unfold hostOps2_18
  after_results_simp
  rw [h_main_v67, h_main_v47]
  try simp only [StableHlo.TRef.ofBuf, StableHlo.TRef.toBuf, cast_eq]
  rfl

theorem r_main_v73 (p : KIn F) (W : Valuation τ sig (Elt F)) (h_main_v48 : W (Proc.devRef .tc main_v48) = kv_main_v48 p) (h_main_v71 : W (Proc.devRef .tc main_v71) = kv_main_v71 p) :
    StableHlo.after hostOps2_19 W (Proc.devRef .tc main_v73) = kv_main_v73 p := by
  unfold hostOps2_19
  after_results_simp
  rw [h_main_v71, h_main_v48]
  try simp only [StableHlo.TRef.ofBuf, StableHlo.TRef.toBuf, cast_eq]
  rfl

theorem r_main_v74 (p : KIn F) (W : Valuation τ sig (Elt F)) (h_main_v60 : W (Proc.devRef .tc main_v60) = kv_main_v60 p) (h_main_v73 : W (Proc.devRef .tc main_v73) = kv_main_v73 p) (h_main_v72 : W (Proc.devRef .tc main_v72) = kv_main_v72 p) :
    StableHlo.after hostOps2_20 W (Proc.devRef .tc main_v74) = kv_main_v74 p := by
  unfold hostOps2_20
  after_results_simp
  rw [h_main_v60, h_main_v73, h_main_v72]
  try simp only [StableHlo.TRef.ofBuf, StableHlo.TRef.toBuf, cast_eq]
  rfl

theorem r_main_v76 (p : KIn F) (W : Valuation τ sig (Elt F)) (h_main_arg6 : W (Proc.devRef .tc main_arg6) = p.a6) :
    StableHlo.after hostOps2_21 W (Proc.devRef .tc main_v76) = kv_main_v76 p := by
  unfold hostOps2_21
  after_results_simp
  rw [h_main_arg6]
  rfl

theorem r_main_v78 (p : KIn F) (W : Valuation τ sig (Elt F)) :
    StableHlo.after hostOps2_21 W (Proc.devRef .tc main_v78) = kv_main_v78 p := by
  unfold hostOps2_21
  after_results_simp
  rfl

theorem r_main_v79 (p : KIn F) (W : Valuation τ sig (Elt F)) (h_main_v17 : W (Proc.devRef .tc main_v17) = kv_main_v17 p) :
    StableHlo.after hostOps2_21 W (Proc.devRef .tc main_v79) = kv_main_v79 p := by
  unfold hostOps2_21
  after_results_simp
  rw [h_main_v17]
  rfl

theorem r_main_v88 (p : KIn F) (W : Valuation τ sig (Elt F)) (h_main_v17 : W (Proc.devRef .tc main_v17) = kv_main_v17 p) :
    StableHlo.after hostOps2_21 W (Proc.devRef .tc main_v88) = kv_main_v88 p := by
  unfold hostOps2_21
  after_results_simp
  rw [h_main_v17]
  rfl

theorem r_main_v91 (p : KIn F) (W : Valuation τ sig (Elt F)) (h_main_v17 : W (Proc.devRef .tc main_v17) = kv_main_v17 p) :
    StableHlo.after hostOps2_21 W (Proc.devRef .tc main_v91) = kv_main_v91 p := by
  unfold hostOps2_21
  after_results_simp
  rw [h_main_v17]
  rfl

theorem r_main_v93 (p : KIn F) (W : Valuation τ sig (Elt F)) :
    StableHlo.after hostOps2_21 W (Proc.devRef .tc main_v93) = kv_main_v93 p := by
  unfold hostOps2_21
  after_results_simp
  rfl

end Cert.KernelIdeal.KTail
-- ==== Proof.KTailRun2.lean ====
import proofs.«403361_j42786464202989_2_alg».proof.Proof.KTailDefs
import Idealize.ShloMosaic.Lib.StableHlo.Run

set_option maxRecDepth 20000

noncomputable section

namespace Cert.KernelIdeal.KTail

open Cert.KernelIdeal.Gen
open Idealize.ShloMosaic Idealize.ShloMosaic.TcCoe

variable {F : FTy → Type} [FloatOps F] [Cert.KernelIdeal.Facts] [Cert.ReferenceIdeal.Facts]

theorem r_main_c_16 (p : KIn F) (W : Valuation τ sig (Elt F)) :
    StableHlo.after hostOps2_21 W (Proc.devRef .tc main_c_16) = kv_main_c_16 p := by
  unfold hostOps2_21
  after_results_simp
  rfl

theorem r_main_c_17 (p : KIn F) (W : Valuation τ sig (Elt F)) :
    StableHlo.after hostOps2_21 W (Proc.devRef .tc main_c_17) = kv_main_c_17 p := by
  unfold hostOps2_21
  after_results_simp
  rfl

theorem r_main_v94 (p : KIn F) (W : Valuation τ sig (Elt F)) (h_main_c_17 : W (Proc.devRef .tc main_c_17) = kv_main_c_17 p) (h_main_v93 : W (Proc.devRef .tc main_v93) = kv_main_v93 p) (h_main_c_16 : W (Proc.devRef .tc main_c_16) = kv_main_c_16 p) :
    StableHlo.after hostOps2_22 W (Proc.devRef .tc main_v94) = kv_main_v94 p := by
  unfold hostOps2_22
  after_results_simp
  rw [h_main_c_17, h_main_c_16, h_main_v93]
  try simp only [StableHlo.TRef.ofBuf, StableHlo.TRef.toBuf, cast_eq]
  rfl

theorem r_main_v95 (p : KIn F) (W : Valuation τ sig (Elt F)) (h_main_v91 : W (Proc.devRef .tc main_v91) = kv_main_v91 p) (h_main_v94 : W (Proc.devRef .tc main_v94) = kv_main_v94 p) (h_main_v78 : W (Proc.devRef .tc main_v78) = kv_main_v78 p) :
    StableHlo.after hostOps2_23 W (Proc.devRef .tc main_v95) = kv_main_v95 p := by
  unfold hostOps2_23
  after_results_simp
  rw [h_main_v91, h_main_v78, h_main_v94]
  try simp only [StableHlo.TRef.ofBuf, StableHlo.TRef.toBuf, cast_eq]
  rfl

theorem r_main_v98 (p : KIn F) (W : Valuation τ sig (Elt F)) (h_main_v79 : W (Proc.devRef .tc main_v79) = kv_main_v79 p) (h_main_v78 : W (Proc.devRef .tc main_v78) = kv_main_v78 p) :
    StableHlo.after hostOps2_24 W (Proc.devRef .tc main_v98) = kv_main_v98 p := by
  unfold hostOps2_24
  after_results_simp
  rw [h_main_v78, h_main_v79]
  rfl

theorem r_main_c_18 (p : KIn F) (W : Valuation τ sig (Elt F)) :
    StableHlo.after hostOps2_24 W (Proc.devRef .tc main_c_18) = kv_main_c_18 p := by
  unfold hostOps2_24
  after_results_simp
  rfl

theorem r_main_c_19 (p : KIn F) (W : Valuation τ sig (Elt F)) :
    StableHlo.after hostOps2_24 W (Proc.devRef .tc main_c_19) = kv_main_c_19 p := by
  unfold hostOps2_24
  after_results_simp
  rfl

theorem r_main_v99 (p : KIn F) (W : Valuation τ sig (Elt F)) (h_main_c_19 : W (Proc.devRef .tc main_c_19) = kv_main_c_19 p) (h_main_v98 : W (Proc.devRef .tc main_v98) = kv_main_v98 p) (h_main_c_18 : W (Proc.devRef .tc main_c_18) = kv_main_c_18 p) :
    StableHlo.after hostOps2_25 W (Proc.devRef .tc main_v99) = kv_main_v99 p := by
  unfold hostOps2_25
  after_results_simp
  rw [h_main_c_19, h_main_c_18, h_main_v98]
  try simp only [StableHlo.TRef.ofBuf, StableHlo.TRef.toBuf, cast_eq]
  rfl

theorem r_main_v100 (p : KIn F) (W : Valuation τ sig (Elt F)) (h_main_v95 : W (Proc.devRef .tc main_v95) = kv_main_v95 p) :
    StableHlo.after hostOps2_26 W (Proc.devRef .tc main_v100) = kv_main_v100 p := by
  unfold hostOps2_26
  after_results_simp
  rw [h_main_v95]
  rfl

theorem r_main_v101 (p : KIn F) (W : Valuation τ sig (Elt F)) (h_main_v46 : W (Proc.devRef .tc main_v46) = kv_main_v46 p) (h_main_v100 : W (Proc.devRef .tc main_v100) = kv_main_v100 p) :
    StableHlo.after hostOps2_27 W (Proc.devRef .tc main_v101) = kv_main_v101 p := by
  unfold hostOps2_27
  after_results_simp
  rw [h_main_v100, h_main_v46]
  try simp only [StableHlo.TRef.ofBuf, StableHlo.TRef.toBuf, cast_eq]
  rfl

theorem r_main_v102 (p : KIn F) (W : Valuation τ sig (Elt F)) (h_main_v99 : W (Proc.devRef .tc main_v99) = kv_main_v99 p) :
    StableHlo.after hostOps2_28 W (Proc.devRef .tc main_v102) = kv_main_v102 p := by
  unfold hostOps2_28
  after_results_simp
  rw [h_main_v99]
  rfl

theorem r_main_v103 (p : KIn F) (W : Valuation τ sig (Elt F)) (h_main_v76 : W (Proc.devRef .tc main_v76) = kv_main_v76 p) (h_main_v102 : W (Proc.devRef .tc main_v102) = kv_main_v102 p) :
    StableHlo.after hostOps2_29 W (Proc.devRef .tc main_v103) = kv_main_v103 p := by
  unfold hostOps2_29
  after_results_simp
  rw [h_main_v102, h_main_v76]
  try simp only [StableHlo.TRef.ofBuf, StableHlo.TRef.toBuf, cast_eq]
  rfl

theorem r_main_v104 (p : KIn F) (W : Valuation τ sig (Elt F)) (h_main_v88 : W (Proc.devRef .tc main_v88) = kv_main_v88 p) :
    StableHlo.after hostOps2_30 W (Proc.devRef .tc main_v104) = kv_main_v104 p := by
  unfold hostOps2_30
  after_results_simp
  rw [h_main_v88]
  rfl

theorem r_main_v105 (p : KIn F) (W : Valuation τ sig (Elt F)) (h_main_v103 : W (Proc.devRef .tc main_v103) = kv_main_v103 p) (h_main_v101 : W (Proc.devRef .tc main_v101) = kv_main_v101 p) (h_main_v104 : W (Proc.devRef .tc main_v104) = kv_main_v104 p) :
    StableHlo.after hostOps2_31 W (Proc.devRef .tc main_v105) = kv_main_v105 p := by
  unfold hostOps2_31
  after_results_simp
  rw [h_main_v104, h_main_v103, h_main_v101]
  try simp only [StableHlo.TRef.ofBuf, StableHlo.TRef.toBuf, cast_eq]
  rfl

theorem r_main_v106 (p : KIn F) (W : Valuation τ sig (Elt F)) :
    StableHlo.after hostOps2_32 W (Proc.devRef .tc main_v106) = kv_main_v106 p := by
  unfold hostOps2_32
  after_results_simp
  rfl

theorem r_main_v108 (p : KIn F) (W : Valuation τ sig (Elt F)) :
    StableHlo.after hostOps2_32 W (Proc.devRef .tc main_v108) = kv_main_v108 p := by
  unfold hostOps2_32
  after_results_simp
  rfl

theorem r_main_v109 (p : KIn F) (W : Valuation τ sig (Elt F)) (h_main_v17 : W (Proc.devRef .tc main_v17) = kv_main_v17 p) :
    StableHlo.after hostOps2_32 W (Proc.devRef .tc main_v109) = kv_main_v109 p := by
  unfold hostOps2_32
  after_results_simp
  rw [h_main_v17]
  rfl

theorem r_main_v118 (p : KIn F) (W : Valuation τ sig (Elt F)) (h_main_v17 : W (Proc.devRef .tc main_v17) = kv_main_v17 p) :
    StableHlo.after hostOps2_32 W (Proc.devRef .tc main_v118) = kv_main_v118 p := by
  unfold hostOps2_32
  after_results_simp
  rw [h_main_v17]
  rfl

theorem r_main_v121 (p : KIn F) (W : Valuation τ sig (Elt F)) (h_main_v17 : W (Proc.devRef .tc main_v17) = kv_main_v17 p) :
    StableHlo.after hostOps2_32 W (Proc.devRef .tc main_v121) = kv_main_v121 p := by
  unfold hostOps2_32
  after_results_simp
  rw [h_main_v17]
  rfl

theorem r_main_v123 (p : KIn F) (W : Valuation τ sig (Elt F)) :
    StableHlo.after hostOps2_32 W (Proc.devRef .tc main_v123) = kv_main_v123 p := by
  unfold hostOps2_32
  after_results_simp
  rfl

theorem r_main_c_22 (p : KIn F) (W : Valuation τ sig (Elt F)) :
    StableHlo.after hostOps2_32 W (Proc.devRef .tc main_c_22) = kv_main_c_22 p := by
  unfold hostOps2_32
  after_results_simp
  rfl

theorem r_main_c_23 (p : KIn F) (W : Valuation τ sig (Elt F)) :
    StableHlo.after hostOps2_32 W (Proc.devRef .tc main_c_23) = kv_main_c_23 p := by
  unfold hostOps2_32
  after_results_simp
  rfl

theorem r_main_v124 (p : KIn F) (W : Valuation τ sig (Elt F)) (h_main_c_23 : W (Proc.devRef .tc main_c_23) = kv_main_c_23 p) (h_main_v123 : W (Proc.devRef .tc main_v123) = kv_main_v123 p) (h_main_c_22 : W (Proc.devRef .tc main_c_22) = kv_main_c_22 p) :
    StableHlo.after hostOps2_33 W (Proc.devRef .tc main_v124) = kv_main_v124 p := by
  unfold hostOps2_33
  after_results_simp
  rw [h_main_c_23, h_main_c_22, h_main_v123]
  try simp only [StableHlo.TRef.ofBuf, StableHlo.TRef.toBuf, cast_eq]
  rfl

theorem r_main_v125 (p : KIn F) (W : Valuation τ sig (Elt F)) (h_main_v121 : W (Proc.devRef .tc main_v121) = kv_main_v121 p) (h_main_v124 : W (Proc.devRef .tc main_v124) = kv_main_v124 p) (h_main_v108 : W (Proc.devRef .tc main_v108) = kv_main_v108 p) :
    StableHlo.after hostOps2_34 W (Proc.devRef .tc main_v125) = kv_main_v125 p := by
  unfold hostOps2_34
  after_results_simp
  rw [h_main_v121, h_main_v108, h_main_v124]
  try simp only [StableHlo.TRef.ofBuf, StableHlo.TRef.toBuf, cast_eq]
  rfl

end Cert.KernelIdeal.KTail
-- ==== Proof.KTailRun3.lean ====
import proofs.«403361_j42786464202989_2_alg».proof.Proof.KTailDefs
import Idealize.ShloMosaic.Lib.StableHlo.Run

set_option maxRecDepth 20000

noncomputable section

namespace Cert.KernelIdeal.KTail

open Cert.KernelIdeal.Gen
open Idealize.ShloMosaic Idealize.ShloMosaic.TcCoe

variable {F : FTy → Type} [FloatOps F] [Cert.KernelIdeal.Facts] [Cert.ReferenceIdeal.Facts]

theorem r_main_v128 (p : KIn F) (W : Valuation τ sig (Elt F)) (h_main_v109 : W (Proc.devRef .tc main_v109) = kv_main_v109 p) (h_main_v108 : W (Proc.devRef .tc main_v108) = kv_main_v108 p) :
    StableHlo.after hostOps2_35 W (Proc.devRef .tc main_v128) = kv_main_v128 p := by
  unfold hostOps2_35
  after_results_simp
  rw [h_main_v108, h_main_v109]
  rfl

theorem r_main_c_24 (p : KIn F) (W : Valuation τ sig (Elt F)) :
    StableHlo.after hostOps2_35 W (Proc.devRef .tc main_c_24) = kv_main_c_24 p := by
  unfold hostOps2_35
  after_results_simp
  rfl

theorem r_main_c_25 (p : KIn F) (W : Valuation τ sig (Elt F)) :
    StableHlo.after hostOps2_35 W (Proc.devRef .tc main_c_25) = kv_main_c_25 p := by
  unfold hostOps2_35
  after_results_simp
  rfl

theorem r_main_v129 (p : KIn F) (W : Valuation τ sig (Elt F)) (h_main_c_25 : W (Proc.devRef .tc main_c_25) = kv_main_c_25 p) (h_main_v128 : W (Proc.devRef .tc main_v128) = kv_main_v128 p) (h_main_c_24 : W (Proc.devRef .tc main_c_24) = kv_main_c_24 p) :
    StableHlo.after hostOps2_36 W (Proc.devRef .tc main_v129) = kv_main_v129 p := by
  unfold hostOps2_36
  after_results_simp
  rw [h_main_c_25, h_main_c_24, h_main_v128]
  try simp only [StableHlo.TRef.ofBuf, StableHlo.TRef.toBuf, cast_eq]
  rfl

theorem r_main_v130 (p : KIn F) (W : Valuation τ sig (Elt F)) (h_main_v74 : W (Proc.devRef .tc main_v74) = kv_main_v74 p) (h_main_v125 : W (Proc.devRef .tc main_v125) = kv_main_v125 p) :
    StableHlo.after hostOps2_37 W (Proc.devRef .tc main_v130) = kv_main_v130 p := by
  unfold hostOps2_37
  after_results_simp
  rw [h_main_v125, h_main_v74]
  try simp only [StableHlo.TRef.ofBuf, StableHlo.TRef.toBuf, cast_eq]
  rfl

theorem r_main_v131 (p : KIn F) (W : Valuation τ sig (Elt F)) (h_main_v106 : W (Proc.devRef .tc main_v106) = kv_main_v106 p) (h_main_v129 : W (Proc.devRef .tc main_v129) = kv_main_v129 p) :
    StableHlo.after hostOps2_38 W (Proc.devRef .tc main_v131) = kv_main_v131 p := by
  unfold hostOps2_38
  after_results_simp
  rw [h_main_v129, h_main_v106]
  try simp only [StableHlo.TRef.ofBuf, StableHlo.TRef.toBuf, cast_eq]
  rfl

theorem r_main_v132 (p : KIn F) (W : Valuation τ sig (Elt F)) (h_main_v118 : W (Proc.devRef .tc main_v118) = kv_main_v118 p) (h_main_v131 : W (Proc.devRef .tc main_v131) = kv_main_v131 p) (h_main_v130 : W (Proc.devRef .tc main_v130) = kv_main_v130 p) :
    StableHlo.after hostOps2_39 W (Proc.devRef .tc main_v132) = kv_main_v132 p := by
  unfold hostOps2_39
  after_results_simp
  rw [h_main_v118, h_main_v131, h_main_v130]
  try simp only [StableHlo.TRef.ofBuf, StableHlo.TRef.toBuf, cast_eq]
  rfl

theorem r_main_v134 (p : KIn F) (W : Valuation τ sig (Elt F)) (h_main_v17 : W (Proc.devRef .tc main_v17) = kv_main_v17 p) :
    StableHlo.after hostOps2_40 W (Proc.devRef .tc main_v134) = kv_main_v134 p := by
  unfold hostOps2_40
  after_results_simp
  rw [h_main_v17]
  rfl

theorem r_main_v146 (p : KIn F) (W : Valuation τ sig (Elt F)) (h_main_v17 : W (Proc.devRef .tc main_v17) = kv_main_v17 p) :
    StableHlo.after hostOps2_40 W (Proc.devRef .tc main_v146) = kv_main_v146 p := by
  unfold hostOps2_40
  after_results_simp
  rw [h_main_v17]
  rfl

theorem r_main_v149 (p : KIn F) (W : Valuation τ sig (Elt F)) (h_main_v17 : W (Proc.devRef .tc main_v17) = kv_main_v17 p) :
    StableHlo.after hostOps2_40 W (Proc.devRef .tc main_v149) = kv_main_v149 p := by
  unfold hostOps2_40
  after_results_simp
  rw [h_main_v17]
  rfl

theorem r_main_c_28 (p : KIn F) (W : Valuation τ sig (Elt F)) :
    StableHlo.after hostOps2_40 W (Proc.devRef .tc main_c_28) = kv_main_c_28 p := by
  unfold hostOps2_40
  after_results_simp
  rfl

theorem r_main_c_29 (p : KIn F) (W : Valuation τ sig (Elt F)) :
    StableHlo.after hostOps2_40 W (Proc.devRef .tc main_c_29) = kv_main_c_29 p := by
  unfold hostOps2_40
  after_results_simp
  rfl

theorem r_main_v150 (p : KIn F) (W : Valuation τ sig (Elt F)) (h_main_c_29 : W (Proc.devRef .tc main_c_29) = kv_main_c_29 p) (h_main_v149 : W (Proc.devRef .tc main_v149) = kv_main_v149 p) (h_main_c_28 : W (Proc.devRef .tc main_c_28) = kv_main_c_28 p) :
    StableHlo.after hostOps2_41 W (Proc.devRef .tc main_v150) = kv_main_v150 p := by
  unfold hostOps2_41
  after_results_simp
  rw [h_main_c_29, h_main_c_28, h_main_v149]
  try simp only [StableHlo.TRef.ofBuf, StableHlo.TRef.toBuf, cast_eq]
  rfl

theorem r_main_v151 (p : KIn F) (W : Valuation τ sig (Elt F)) (h_main_arg3 : W (Proc.devRef .tc main_arg3) = p.a3) (h_main_v150 : W (Proc.devRef .tc main_v150) = kv_main_v150 p) :
    StableHlo.after hostOps2_42 W (Proc.devRef .tc main_v151) = kv_main_v151 p := by
  unfold hostOps2_42
  after_results_simp
  rw [h_main_v150, h_main_arg3]
  try simp only [StableHlo.TRef.ofBuf, StableHlo.TRef.toBuf, cast_eq]
  rfl

theorem r_main_v152 (p : KIn F) (W : Valuation τ sig (Elt F)) (h_main_v151 : W (Proc.devRef .tc main_v151) = kv_main_v151 p) :
    StableHlo.after hostOps2_43 W (Proc.devRef .tc main_v152) = kv_main_v152 p := by
  unfold hostOps2_43
  after_results_simp
  rw [h_main_v151]
  rfl

theorem r_main_cst_30 (p : KIn F) (W : Valuation τ sig (Elt F)) :
    StableHlo.after hostOps2_43 W (Proc.devRef .tc main_cst_30) = kv_main_cst_30 p := by
  unfold hostOps2_43
  after_results_simp
  rfl

theorem r_main_v153 (p : KIn F) (W : Valuation τ sig (Elt F)) (h_main_v146 : W (Proc.devRef .tc main_v146) = kv_main_v146 p) (h_main_v152 : W (Proc.devRef .tc main_v152) = kv_main_v152 p) (h_main_cst_30 : W (Proc.devRef .tc main_cst_30) = kv_main_cst_30 p) :
    StableHlo.after hostOps2_44 W (Proc.devRef .tc main_v153) = kv_main_v153 p := by
  unfold hostOps2_44
  after_results_simp
  rw [h_main_v146, h_main_v152, h_main_cst_30]
  try simp only [StableHlo.TRef.ofBuf, StableHlo.TRef.toBuf, cast_eq]
  rfl

theorem r_main_v154 (p : KIn F) (W : Valuation τ sig (Elt F)) (h_main_arg2 : W (Proc.devRef .tc main_arg2) = p.a2) (h_main_v150 : W (Proc.devRef .tc main_v150) = kv_main_v150 p) :
    StableHlo.after hostOps2_45 W (Proc.devRef .tc main_v154) = kv_main_v154 p := by
  unfold hostOps2_45
  after_results_simp
  rw [h_main_v150, h_main_arg2]
  try simp only [StableHlo.TRef.ofBuf, StableHlo.TRef.toBuf, cast_eq]
  rfl

theorem r_main_v156 (p : KIn F) (W : Valuation τ sig (Elt F)) (h_main_v153 : W (Proc.devRef .tc main_v153) = kv_main_v153 p) :
    StableHlo.after hostOps2_46 W (Proc.devRef .tc main_v156) = kv_main_v156 p := by
  unfold hostOps2_46
  after_results_simp
  rw [h_main_v153]
  rfl

theorem r_main_c_32 (p : KIn F) (W : Valuation τ sig (Elt F)) :
    StableHlo.after hostOps2_46 W (Proc.devRef .tc main_c_32) = kv_main_c_32 p := by
  unfold hostOps2_46
  after_results_simp
  rfl

theorem r_main_v157 (p : KIn F) (W : Valuation τ sig (Elt F)) (h_main_v156 : W (Proc.devRef .tc main_v156) = kv_main_v156 p) (h_main_v154 : W (Proc.devRef .tc main_v154) = kv_main_v154 p) (h_main_c_32 : W (Proc.devRef .tc main_c_32) = kv_main_c_32 p) :
    StableHlo.after hostOps2_47 W (Proc.devRef .tc main_v157) = kv_main_v157 p := by
  unfold hostOps2_47
  after_results_simp
  rw [h_main_v156, h_main_v154, h_main_c_32]
  try simp only [StableHlo.TRef.ofBuf, StableHlo.TRef.toBuf, cast_eq]
  rfl

theorem r_main_v160 (p : KIn F) (W : Valuation τ sig (Elt F)) (h_main_v153 : W (Proc.devRef .tc main_v153) = kv_main_v153 p) :
    StableHlo.after hostOps2_48 W (Proc.devRef .tc main_v160) = kv_main_v160 p := by
  unfold hostOps2_48
  after_results
  rw [h_main_v153]
  rfl

theorem r_main_v163 (p : KIn F) (W : Valuation τ sig (Elt F)) (h_main_arg2 : W (Proc.devRef .tc main_arg2) = p.a2) :
    StableHlo.after hostOps2_48 W (Proc.devRef .tc main_v163) = kv_main_v163 p := by
  unfold hostOps2_48
  after_results
  rw [h_main_arg2]
  rfl

theorem r_main_v166 (p : KIn F) (W : Valuation τ sig (Elt F)) (h_main_v157 : W (Proc.devRef .tc main_v157) = kv_main_v157 p) :
    StableHlo.after hostOps2_48 W (Proc.devRef .tc main_v166) = kv_main_v166 p := by
  unfold hostOps2_48
  after_results
  rw [h_main_v157]
  rfl

end Cert.KernelIdeal.KTail
-- ==== Proof.KTailAsm.lean ====
import proofs.«403361_j42786464202989_2_alg».proof.Proof.KernelIdealRegions
import proofs.«403361_j42786464202989_2_alg».proof.Proof.KTailRun0
import proofs.«403361_j42786464202989_2_alg».proof.Proof.KTailRun1
import proofs.«403361_j42786464202989_2_alg».proof.Proof.KTailRun2
import proofs.«403361_j42786464202989_2_alg».proof.Proof.KTailRun3

set_option maxRecDepth 20000

noncomputable section

namespace Cert.KernelIdeal.KTail

open Cert.KernelIdeal.Gen
open Idealize.ShloMosaic Idealize.ShloMosaic.TcCoe

variable {F : FTy → Type} [FloatOps F] [Cert.KernelIdeal.Facts] [Cert.ReferenceIdeal.Facts]

open Cert.KernelIdeal.GenP

variable (m : (ℓ : Loc nD τ sig) → Buf (Elt F) ℓ) (outs : GenP.Outs (F := F)) (c : Dev nD)

theorem s_main_arg1_0 : V0 m c main_arg1 = (kin m outs c).a1 := rfl
theorem s_main_arg1_4 : V4 m outs c main_arg1 = (kin m outs c).a1 :=
  (GenP.V4_of m outs c main_arg1 (by decide)).trans <| (GenP.V3_of m outs c main_arg1 (by decide)).trans <| (GenP.V2_of m outs c main_arg1 (by decide)).trans <| (GenP.V1_of m c main_arg1 (by decide)).trans <| s_main_arg1_0 m outs c
theorem s_main_arg2_0 : V0 m c main_arg2 = (kin m outs c).a2 := rfl
theorem s_main_arg2_49 : V49 m outs c main_arg2 = (kin m outs c).a2 :=
  (GenP.V49_of m outs c main_arg2 (by decide)).trans <| (GenP.V48_of m outs c main_arg2 (by decide)).trans <| (GenP.V47_of m outs c main_arg2 (by decide)).trans <| (GenP.V46_of m outs c main_arg2 (by decide)).trans <| (GenP.V45_of m outs c main_arg2 (by decide)).trans <| (GenP.V44_of m outs c main_arg2 (by decide)).trans <| (GenP.V43_of m outs c main_arg2 (by decide)).trans <| (GenP.V42_of m outs c main_arg2 (by decide)).trans <| (GenP.V41_of m outs c main_arg2 (by decide)).trans <| (GenP.V40_of m outs c main_arg2 (by decide)).trans <| (GenP.V39_of m outs c main_arg2 (by decide)).trans <| (GenP.V38_of m outs c main_arg2 (by decide)).trans <| (GenP.V37_of m outs c main_arg2 (by decide)).trans <| (GenP.V36_of m outs c main_arg2 (by decide)).trans <| (GenP.V35_of m outs c main_arg2 (by decide)).trans <| (GenP.V34_of m outs c main_arg2 (by decide)).trans <| (GenP.V33_of m outs c main_arg2 (by decide)).trans <| (GenP.V32_of m outs c main_arg2 (by decide)).trans <| (GenP.V31_of m outs c main_arg2 (by decide)).trans <| (GenP.V30_of m outs c main_arg2 (by decide)).trans <| (GenP.V29_of m outs c main_arg2 (by decide)).trans <| (GenP.V28_of m outs c main_arg2 (by decide)).trans <| (GenP.V27_of m outs c main_arg2 (by decide)).trans <| (GenP.V26_of m outs c main_arg2 (by decide)).trans <| (GenP.V25_of m outs c main_arg2 (by decide)).trans <| (GenP.V24_of m outs c main_arg2 (by decide)).trans <| (GenP.V23_of m outs c main_arg2 (by decide)).trans <| (GenP.V22_of m outs c main_arg2 (by decide)).trans <| (GenP.V21_of m outs c main_arg2 (by decide)).trans <| (GenP.V20_of m outs c main_arg2 (by decide)).trans <| (GenP.V19_of m outs c main_arg2 (by decide)).trans <| (GenP.V18_of m outs c main_arg2 (by decide)).trans <| (GenP.V17_of m outs c main_arg2 (by decide)).trans <| (GenP.V16_of m outs c main_arg2 (by decide)).trans <| (GenP.V15_of m outs c main_arg2 (by decide)).trans <| (GenP.V14_of m outs c main_arg2 (by decide)).trans <| (GenP.V13_of m outs c main_arg2 (by decide)).trans <| (GenP.V12_of m outs c main_arg2 (by decide)).trans <| (GenP.V11_of m outs c main_arg2 (by decide)).trans <| (GenP.V10_of m outs c main_arg2 (by decide)).trans <| (GenP.V9_of m outs c main_arg2 (by decide)).trans <| (GenP.V8_of m outs c main_arg2 (by decide)).trans <| (GenP.V7_of m outs c main_arg2 (by decide)).trans <| (GenP.V6_of m outs c main_arg2 (by decide)).trans <| (GenP.V5_of m outs c main_arg2 (by decide)).trans <| (GenP.V4_of m outs c main_arg2 (by decide)).trans <| (GenP.V3_of m outs c main_arg2 (by decide)).trans <| (GenP.V2_of m outs c main_arg2 (by decide)).trans <| (GenP.V1_of m c main_arg2 (by decide)).trans <| s_main_arg2_0 m outs c
theorem s_main_arg2_52 : V52 m outs c main_arg2 = (kin m outs c).a2 :=
  (GenP.V52_of m outs c main_arg2 (by decide)).trans <| (GenP.V51_of m outs c main_arg2 (by decide)).trans <| (GenP.V50_of m outs c main_arg2 (by decide)).trans <| s_main_arg2_49 m outs c
theorem s_main_arg3_0 : V0 m c main_arg3 = (kin m outs c).a3 := rfl
theorem s_main_arg3_17 : V17 m outs c main_arg3 = (kin m outs c).a3 :=
  (GenP.V17_of m outs c main_arg3 (by decide)).trans <| (GenP.V16_of m outs c main_arg3 (by decide)).trans <| (GenP.V15_of m outs c main_arg3 (by decide)).trans <| (GenP.V14_of m outs c main_arg3 (by decide)).trans <| (GenP.V13_of m outs c main_arg3 (by decide)).trans <| (GenP.V12_of m outs c main_arg3 (by decide)).trans <| (GenP.V11_of m outs c main_arg3 (by decide)).trans <| (GenP.V10_of m outs c main_arg3 (by decide)).trans <| (GenP.V9_of m outs c main_arg3 (by decide)).trans <| (GenP.V8_of m outs c main_arg3 (by decide)).trans <| (GenP.V7_of m outs c main_arg3 (by decide)).trans <| (GenP.V6_of m outs c main_arg3 (by decide)).trans <| (GenP.V5_of m outs c main_arg3 (by decide)).trans <| (GenP.V4_of m outs c main_arg3 (by decide)).trans <| (GenP.V3_of m outs c main_arg3 (by decide)).trans <| (GenP.V2_of m outs c main_arg3 (by decide)).trans <| (GenP.V1_of m c main_arg3 (by decide)).trans <| s_main_arg3_0 m outs c
theorem s_main_arg3_46 : V46 m outs c main_arg3 = (kin m outs c).a3 :=
  (GenP.V46_of m outs c main_arg3 (by decide)).trans <| (GenP.V45_of m outs c main_arg3 (by decide)).trans <| (GenP.V44_of m outs c main_arg3 (by decide)).trans <| (GenP.V43_of m outs c main_arg3 (by decide)).trans <| (GenP.V42_of m outs c main_arg3 (by decide)).trans <| (GenP.V41_of m outs c main_arg3 (by decide)).trans <| (GenP.V40_of m outs c main_arg3 (by decide)).trans <| (GenP.V39_of m outs c main_arg3 (by decide)).trans <| (GenP.V38_of m outs c main_arg3 (by decide)).trans <| (GenP.V37_of m outs c main_arg3 (by decide)).trans <| (GenP.V36_of m outs c main_arg3 (by decide)).trans <| (GenP.V35_of m outs c main_arg3 (by decide)).trans <| (GenP.V34_of m outs c main_arg3 (by decide)).trans <| (GenP.V33_of m outs c main_arg3 (by decide)).trans <| (GenP.V32_of m outs c main_arg3 (by decide)).trans <| (GenP.V31_of m outs c main_arg3 (by decide)).trans <| (GenP.V30_of m outs c main_arg3 (by decide)).trans <| (GenP.V29_of m outs c main_arg3 (by decide)).trans <| (GenP.V28_of m outs c main_arg3 (by decide)).trans <| (GenP.V27_of m outs c main_arg3 (by decide)).trans <| (GenP.V26_of m outs c main_arg3 (by decide)).trans <| (GenP.V25_of m outs c main_arg3 (by decide)).trans <| (GenP.V24_of m outs c main_arg3 (by decide)).trans <| (GenP.V23_of m outs c main_arg3 (by decide)).trans <| (GenP.V22_of m outs c main_arg3 (by decide)).trans <| (GenP.V21_of m outs c main_arg3 (by decide)).trans <| (GenP.V20_of m outs c main_arg3 (by decide)).trans <| (GenP.V19_of m outs c main_arg3 (by decide)).trans <| (GenP.V18_of m outs c main_arg3 (by decide)).trans <| s_main_arg3_17 m outs c
theorem s_main_arg5_0 : V0 m c main_arg5 = (kin m outs c).a5 := rfl
theorem s_main_arg5_4 : V4 m outs c main_arg5 = (kin m outs c).a5 :=
  (GenP.V4_of m outs c main_arg5 (by decide)).trans <| (GenP.V3_of m outs c main_arg5 (by decide)).trans <| (GenP.V2_of m outs c main_arg5 (by decide)).trans <| (GenP.V1_of m c main_arg5 (by decide)).trans <| s_main_arg5_0 m outs c
theorem s_main_arg6_0 : V0 m c main_arg6 = (kin m outs c).a6 := rfl
theorem s_main_arg6_25 : V25 m outs c main_arg6 = (kin m outs c).a6 :=
  (GenP.V25_of m outs c main_arg6 (by decide)).trans <| (GenP.V24_of m outs c main_arg6 (by decide)).trans <| (GenP.V23_of m outs c main_arg6 (by decide)).trans <| (GenP.V22_of m outs c main_arg6 (by decide)).trans <| (GenP.V21_of m outs c main_arg6 (by decide)).trans <| (GenP.V20_of m outs c main_arg6 (by decide)).trans <| (GenP.V19_of m outs c main_arg6 (by decide)).trans <| (GenP.V18_of m outs c main_arg6 (by decide)).trans <| (GenP.V17_of m outs c main_arg6 (by decide)).trans <| (GenP.V16_of m outs c main_arg6 (by decide)).trans <| (GenP.V15_of m outs c main_arg6 (by decide)).trans <| (GenP.V14_of m outs c main_arg6 (by decide)).trans <| (GenP.V13_of m outs c main_arg6 (by decide)).trans <| (GenP.V12_of m outs c main_arg6 (by decide)).trans <| (GenP.V11_of m outs c main_arg6 (by decide)).trans <| (GenP.V10_of m outs c main_arg6 (by decide)).trans <| (GenP.V9_of m outs c main_arg6 (by decide)).trans <| (GenP.V8_of m outs c main_arg6 (by decide)).trans <| (GenP.V7_of m outs c main_arg6 (by decide)).trans <| (GenP.V6_of m outs c main_arg6 (by decide)).trans <| (GenP.V5_of m outs c main_arg6 (by decide)).trans <| (GenP.V4_of m outs c main_arg6 (by decide)).trans <| (GenP.V3_of m outs c main_arg6 (by decide)).trans <| (GenP.V2_of m outs c main_arg6 (by decide)).trans <| (GenP.V1_of m c main_arg6 (by decide)).trans <| s_main_arg6_0 m outs c
theorem V2_main_v1 : V2 m outs c main_v1 = outs 2 main_v1 c := by
  simp only [V2, Function.update_self]
theorem V4_main_v5 : V4 m outs c main_v5 = outs 4 main_v5 c := by
  simp only [V4, Function.update_self]
theorem s_main_v3_3 : V3 m outs c main_v3 = (kin m outs c).ie := by
  have h := V2_main_v1 m outs c
  show StableHlo.after hostOps1 (V2 m outs c) (Proc.devRef .tc main_v3) = _
  generalize V2 m outs c = W at h ⊢
  after_results
  rw [h]
  rfl
theorem s_main_v7_5 : V5 m outs c main_v7 = (kin m outs c).te := by
  have h := V4_main_v5 m outs c
  show StableHlo.after hostOps2 (V4 m outs c) (Proc.devRef .tc main_v7) = _
  generalize V4 m outs c = W at h ⊢
  after_results
  rw [h]
  rfl
theorem s_main_v3_4 : V4 m outs c main_v3 = (kin m outs c).ie :=
  (GenP.V4_of m outs c main_v3 (by decide)).trans <| s_main_v3_3 m outs c
theorem s_main_v7_14 : V14 m outs c main_v7 = (kin m outs c).te :=
  (GenP.V14_of m outs c main_v7 (by decide)).trans <| (GenP.V13_of m outs c main_v7 (by decide)).trans <| (GenP.V12_of m outs c main_v7 (by decide)).trans <| (GenP.V11_of m outs c main_v7 (by decide)).trans <| (GenP.V10_of m outs c main_v7 (by decide)).trans <| (GenP.V9_of m outs c main_v7 (by decide)).trans <| (GenP.V8_of m outs c main_v7 (by decide)).trans <| (GenP.V7_of m outs c main_v7 (by decide)).trans <| (GenP.V6_of m outs c main_v7 (by decide)).trans <| s_main_v7_5 m outs c
theorem s_main_v10_5 : V5 m outs c main_v10 = kv_main_v10 (kin m outs c) :=
  r_main_v10 (kin m outs c) (V4 m outs c) (s_main_v3_4 m outs c) (s_main_arg5_4 m outs c)
theorem s_main_v10_12 : V12 m outs c main_v10 = kv_main_v10 (kin m outs c) :=
  (GenP.V12_of m outs c main_v10 (by decide)).trans <| (GenP.V11_of m outs c main_v10 (by decide)).trans <| (GenP.V10_of m outs c main_v10 (by decide)).trans <| (GenP.V9_of m outs c main_v10 (by decide)).trans <| (GenP.V8_of m outs c main_v10 (by decide)).trans <| (GenP.V7_of m outs c main_v10 (by decide)).trans <| (GenP.V6_of m outs c main_v10 (by decide)).trans <| s_main_v10_5 m outs c
theorem s_main_v12_5 : V5 m outs c main_v12 = kv_main_v12 (kin m outs c) :=
  r_main_v12 (kin m outs c) (V4 m outs c) (s_main_arg1_4 m outs c)
theorem s_main_v12_17 : V17 m outs c main_v12 = kv_main_v12 (kin m outs c) :=
  (GenP.V17_of m outs c main_v12 (by decide)).trans <| (GenP.V16_of m outs c main_v12 (by decide)).trans <| (GenP.V15_of m outs c main_v12 (by decide)).trans <| (GenP.V14_of m outs c main_v12 (by decide)).trans <| (GenP.V13_of m outs c main_v12 (by decide)).trans <| (GenP.V12_of m outs c main_v12 (by decide)).trans <| (GenP.V11_of m outs c main_v12 (by decide)).trans <| (GenP.V10_of m outs c main_v12 (by decide)).trans <| (GenP.V9_of m outs c main_v12 (by decide)).trans <| (GenP.V8_of m outs c main_v12 (by decide)).trans <| (GenP.V7_of m outs c main_v12 (by decide)).trans <| (GenP.V6_of m outs c main_v12 (by decide)).trans <| s_main_v12_5 m outs c
theorem s_main_v14_5 : V5 m outs c main_v14 = kv_main_v14 (kin m outs c) :=
  r_main_v14 (kin m outs c) (V4 m outs c) (s_main_arg1_4 m outs c)
theorem s_main_v15_6 : V6 m outs c main_v15 = kv_main_v15 (kin m outs c) :=
  r_main_v15 (kin m outs c) (V5 m outs c) (s_main_v14_5 m outs c)
theorem s_main_v17_7 : V7 m outs c main_v17 = kv_main_v17 (kin m outs c) :=
  r_main_v17 (kin m outs c) (V6 m outs c) (s_main_v15_6 m outs c)
theorem s_main_v17_17 : V17 m outs c main_v17 = kv_main_v17 (kin m outs c) :=
  (GenP.V17_of m outs c main_v17 (by decide)).trans <| (GenP.V16_of m outs c main_v17 (by decide)).trans <| (GenP.V15_of m outs c main_v17 (by decide)).trans <| (GenP.V14_of m outs c main_v17 (by decide)).trans <| (GenP.V13_of m outs c main_v17 (by decide)).trans <| (GenP.V12_of m outs c main_v17 (by decide)).trans <| (GenP.V11_of m outs c main_v17 (by decide)).trans <| (GenP.V10_of m outs c main_v17 (by decide)).trans <| (GenP.V9_of m outs c main_v17 (by decide)).trans <| (GenP.V8_of m outs c main_v17 (by decide)).trans <| s_main_v17_7 m outs c
theorem s_main_v17_25 : V25 m outs c main_v17 = kv_main_v17 (kin m outs c) :=
  (GenP.V25_of m outs c main_v17 (by decide)).trans <| (GenP.V24_of m outs c main_v17 (by decide)).trans <| (GenP.V23_of m outs c main_v17 (by decide)).trans <| (GenP.V22_of m outs c main_v17 (by decide)).trans <| (GenP.V21_of m outs c main_v17 (by decide)).trans <| (GenP.V20_of m outs c main_v17 (by decide)).trans <| (GenP.V19_of m outs c main_v17 (by decide)).trans <| (GenP.V18_of m outs c main_v17 (by decide)).trans <| s_main_v17_17 m outs c
theorem s_main_v17_36 : V36 m outs c main_v17 = kv_main_v17 (kin m outs c) :=
  (GenP.V36_of m outs c main_v17 (by decide)).trans <| (GenP.V35_of m outs c main_v17 (by decide)).trans <| (GenP.V34_of m outs c main_v17 (by decide)).trans <| (GenP.V33_of m outs c main_v17 (by decide)).trans <| (GenP.V32_of m outs c main_v17 (by decide)).trans <| (GenP.V31_of m outs c main_v17 (by decide)).trans <| (GenP.V30_of m outs c main_v17 (by decide)).trans <| (GenP.V29_of m outs c main_v17 (by decide)).trans <| (GenP.V28_of m outs c main_v17 (by decide)).trans <| (GenP.V27_of m outs c main_v17 (by decide)).trans <| (GenP.V26_of m outs c main_v17 (by decide)).trans <| s_main_v17_25 m outs c
theorem s_main_v17_44 : V44 m outs c main_v17 = kv_main_v17 (kin m outs c) :=
  (GenP.V44_of m outs c main_v17 (by decide)).trans <| (GenP.V43_of m outs c main_v17 (by decide)).trans <| (GenP.V42_of m outs c main_v17 (by decide)).trans <| (GenP.V41_of m outs c main_v17 (by decide)).trans <| (GenP.V40_of m outs c main_v17 (by decide)).trans <| (GenP.V39_of m outs c main_v17 (by decide)).trans <| (GenP.V38_of m outs c main_v17 (by decide)).trans <| (GenP.V37_of m outs c main_v17 (by decide)).trans <| s_main_v17_36 m outs c
theorem s_main_v19_7 : V7 m outs c main_v19 = kv_main_v19 (kin m outs c) :=
  r_main_v19 (kin m outs c) (V6 m outs c)
theorem s_main_v19_8 : V8 m outs c main_v19 = kv_main_v19 (kin m outs c) :=
  (GenP.V8_of m outs c main_v19 (by decide)).trans <| s_main_v19_7 m outs c
theorem s_main_v19_9 : V9 m outs c main_v19 = kv_main_v19 (kin m outs c) :=
  (GenP.V9_of m outs c main_v19 (by decide)).trans <| s_main_v19_8 m outs c
theorem s_main_v20_7 : V7 m outs c main_v20 = kv_main_v20 (kin m outs c) :=
  r_main_v20 (kin m outs c) (V6 m outs c) (s_main_v15_6 m outs c)
theorem s_main_v20_9 : V9 m outs c main_v20 = kv_main_v20 (kin m outs c) :=
  (GenP.V9_of m outs c main_v20 (by decide)).trans <| (GenP.V8_of m outs c main_v20 (by decide)).trans <| s_main_v20_7 m outs c
theorem s_main_v29_7 : V7 m outs c main_v29 = kv_main_v29 (kin m outs c) :=
  r_main_v29 (kin m outs c) (V6 m outs c) (s_main_v15_6 m outs c)
theorem s_main_v29_15 : V15 m outs c main_v29 = kv_main_v29 (kin m outs c) :=
  (GenP.V15_of m outs c main_v29 (by decide)).trans <| (GenP.V14_of m outs c main_v29 (by decide)).trans <| (GenP.V13_of m outs c main_v29 (by decide)).trans <| (GenP.V12_of m outs c main_v29 (by decide)).trans <| (GenP.V11_of m outs c main_v29 (by decide)).trans <| (GenP.V10_of m outs c main_v29 (by decide)).trans <| (GenP.V9_of m outs c main_v29 (by decide)).trans <| (GenP.V8_of m outs c main_v29 (by decide)).trans <| s_main_v29_7 m outs c
theorem s_main_v32_7 : V7 m outs c main_v32 = kv_main_v32 (kin m outs c) :=
  r_main_v32 (kin m outs c) (V6 m outs c) (s_main_v15_6 m outs c)
theorem s_main_v32_8 : V8 m outs c main_v32 = kv_main_v32 (kin m outs c) :=
  (GenP.V8_of m outs c main_v32 (by decide)).trans <| s_main_v32_7 m outs c
theorem s_main_v34_7 : V7 m outs c main_v34 = kv_main_v34 (kin m outs c) :=
  r_main_v34 (kin m outs c) (V6 m outs c)
theorem s_main_c_4_7 : V7 m outs c main_c_4 = kv_main_c_4 (kin m outs c) :=
  r_main_c_4 (kin m outs c) (V6 m outs c)
theorem s_main_c_5_7 : V7 m outs c main_c_5 = kv_main_c_5 (kin m outs c) :=
  r_main_c_5 (kin m outs c) (V6 m outs c)
theorem s_main_v35_8 : V8 m outs c main_v35 = kv_main_v35 (kin m outs c) :=
  r_main_v35 (kin m outs c) (V7 m outs c) (s_main_c_5_7 m outs c) (s_main_v34_7 m outs c) (s_main_c_4_7 m outs c)
theorem s_main_v36_9 : V9 m outs c main_v36 = kv_main_v36 (kin m outs c) :=
  r_main_v36 (kin m outs c) (V8 m outs c) (s_main_v32_8 m outs c) (s_main_v35_8 m outs c) (s_main_v19_8 m outs c)
theorem s_main_v36_11 : V11 m outs c main_v36 = kv_main_v36 (kin m outs c) :=
  (GenP.V11_of m outs c main_v36 (by decide)).trans <| (GenP.V10_of m outs c main_v36 (by decide)).trans <| s_main_v36_9 m outs c
theorem s_main_v39_10 : V10 m outs c main_v39 = kv_main_v39 (kin m outs c) :=
  r_main_v39 (kin m outs c) (V9 m outs c) (s_main_v20_9 m outs c) (s_main_v19_9 m outs c)
theorem s_main_c_6_10 : V10 m outs c main_c_6 = kv_main_c_6 (kin m outs c) :=
  r_main_c_6 (kin m outs c) (V9 m outs c)
theorem s_main_c_7_10 : V10 m outs c main_c_7 = kv_main_c_7 (kin m outs c) :=
  r_main_c_7 (kin m outs c) (V9 m outs c)
theorem s_main_v40_11 : V11 m outs c main_v40 = kv_main_v40 (kin m outs c) :=
  r_main_v40 (kin m outs c) (V10 m outs c) (s_main_c_7_10 m outs c) (s_main_v39_10 m outs c) (s_main_c_6_10 m outs c)
theorem s_main_v40_13 : V13 m outs c main_v40 = kv_main_v40 (kin m outs c) :=
  (GenP.V13_of m outs c main_v40 (by decide)).trans <| (GenP.V12_of m outs c main_v40 (by decide)).trans <| s_main_v40_11 m outs c
theorem s_main_v41_12 : V12 m outs c main_v41 = kv_main_v41 (kin m outs c) :=
  r_main_v41 (kin m outs c) (V11 m outs c) (s_main_v36_11 m outs c)
theorem s_main_v42_13 : V13 m outs c main_v42 = kv_main_v42 (kin m outs c) :=
  r_main_v42 (kin m outs c) (V12 m outs c) (s_main_v10_12 m outs c) (s_main_v41_12 m outs c)
theorem s_main_v42_16 : V16 m outs c main_v42 = kv_main_v42 (kin m outs c) :=
  (GenP.V16_of m outs c main_v42 (by decide)).trans <| (GenP.V15_of m outs c main_v42 (by decide)).trans <| (GenP.V14_of m outs c main_v42 (by decide)).trans <| s_main_v42_13 m outs c
theorem s_main_v43_14 : V14 m outs c main_v43 = kv_main_v43 (kin m outs c) :=
  r_main_v43 (kin m outs c) (V13 m outs c) (s_main_v40_13 m outs c)
theorem s_main_v44_15 : V15 m outs c main_v44 = kv_main_v44 (kin m outs c) :=
  r_main_v44 (kin m outs c) (V14 m outs c) (s_main_v7_14 m outs c) (s_main_v43_14 m outs c)
theorem s_main_v44_16 : V16 m outs c main_v44 = kv_main_v44 (kin m outs c) :=
  (GenP.V16_of m outs c main_v44 (by decide)).trans <| s_main_v44_15 m outs c
theorem s_main_v45_16 : V16 m outs c main_v45 = kv_main_v45 (kin m outs c) :=
  r_main_v45 (kin m outs c) (V15 m outs c) (s_main_v29_15 m outs c)
theorem s_main_v46_17 : V17 m outs c main_v46 = kv_main_v46 (kin m outs c) :=
  r_main_v46 (kin m outs c) (V16 m outs c) (s_main_v44_16 m outs c) (s_main_v42_16 m outs c) (s_main_v45_16 m outs c)
theorem s_main_v46_31 : V31 m outs c main_v46 = kv_main_v46 (kin m outs c) :=
  (GenP.V31_of m outs c main_v46 (by decide)).trans <| (GenP.V30_of m outs c main_v46 (by decide)).trans <| (GenP.V29_of m outs c main_v46 (by decide)).trans <| (GenP.V28_of m outs c main_v46 (by decide)).trans <| (GenP.V27_of m outs c main_v46 (by decide)).trans <| (GenP.V26_of m outs c main_v46 (by decide)).trans <| (GenP.V25_of m outs c main_v46 (by decide)).trans <| (GenP.V24_of m outs c main_v46 (by decide)).trans <| (GenP.V23_of m outs c main_v46 (by decide)).trans <| (GenP.V22_of m outs c main_v46 (by decide)).trans <| (GenP.V21_of m outs c main_v46 (by decide)).trans <| (GenP.V20_of m outs c main_v46 (by decide)).trans <| (GenP.V19_of m outs c main_v46 (by decide)).trans <| (GenP.V18_of m outs c main_v46 (by decide)).trans <| s_main_v46_17 m outs c
theorem s_main_v47_18 : V18 m outs c main_v47 = kv_main_v47 (kin m outs c) :=
  r_main_v47 (kin m outs c) (V17 m outs c) (s_main_v12_17 m outs c)
theorem s_main_v47_22 : V22 m outs c main_v47 = kv_main_v47 (kin m outs c) :=
  (GenP.V22_of m outs c main_v47 (by decide)).trans <| (GenP.V21_of m outs c main_v47 (by decide)).trans <| (GenP.V20_of m outs c main_v47 (by decide)).trans <| (GenP.V19_of m outs c main_v47 (by decide)).trans <| s_main_v47_18 m outs c
theorem s_main_v48_18 : V18 m outs c main_v48 = kv_main_v48 (kin m outs c) :=
  r_main_v48 (kin m outs c) (V17 m outs c) (s_main_arg3_17 m outs c)
theorem s_main_v48_23 : V23 m outs c main_v48 = kv_main_v48 (kin m outs c) :=
  (GenP.V23_of m outs c main_v48 (by decide)).trans <| (GenP.V22_of m outs c main_v48 (by decide)).trans <| (GenP.V21_of m outs c main_v48 (by decide)).trans <| (GenP.V20_of m outs c main_v48 (by decide)).trans <| (GenP.V19_of m outs c main_v48 (by decide)).trans <| s_main_v48_18 m outs c
theorem s_main_v50_18 : V18 m outs c main_v50 = kv_main_v50 (kin m outs c) :=
  r_main_v50 (kin m outs c) (V17 m outs c)
theorem s_main_v50_19 : V19 m outs c main_v50 = kv_main_v50 (kin m outs c) :=
  (GenP.V19_of m outs c main_v50 (by decide)).trans <| s_main_v50_18 m outs c
theorem s_main_v50_20 : V20 m outs c main_v50 = kv_main_v50 (kin m outs c) :=
  (GenP.V20_of m outs c main_v50 (by decide)).trans <| s_main_v50_19 m outs c
theorem s_main_v51_18 : V18 m outs c main_v51 = kv_main_v51 (kin m outs c) :=
  r_main_v51 (kin m outs c) (V17 m outs c) (s_main_v17_17 m outs c)
theorem s_main_v51_20 : V20 m outs c main_v51 = kv_main_v51 (kin m outs c) :=
  (GenP.V20_of m outs c main_v51 (by decide)).trans <| (GenP.V19_of m outs c main_v51 (by decide)).trans <| s_main_v51_18 m outs c
theorem s_main_v60_18 : V18 m outs c main_v60 = kv_main_v60 (kin m outs c) :=
  r_main_v60 (kin m outs c) (V17 m outs c) (s_main_v17_17 m outs c)
theorem s_main_v60_24 : V24 m outs c main_v60 = kv_main_v60 (kin m outs c) :=
  (GenP.V24_of m outs c main_v60 (by decide)).trans <| (GenP.V23_of m outs c main_v60 (by decide)).trans <| (GenP.V22_of m outs c main_v60 (by decide)).trans <| (GenP.V21_of m outs c main_v60 (by decide)).trans <| (GenP.V20_of m outs c main_v60 (by decide)).trans <| (GenP.V19_of m outs c main_v60 (by decide)).trans <| s_main_v60_18 m outs c
theorem s_main_v63_18 : V18 m outs c main_v63 = kv_main_v63 (kin m outs c) :=
  r_main_v63 (kin m outs c) (V17 m outs c) (s_main_v17_17 m outs c)
theorem s_main_v63_19 : V19 m outs c main_v63 = kv_main_v63 (kin m outs c) :=
  (GenP.V19_of m outs c main_v63 (by decide)).trans <| s_main_v63_18 m outs c
theorem s_main_v65_18 : V18 m outs c main_v65 = kv_main_v65 (kin m outs c) :=
  r_main_v65 (kin m outs c) (V17 m outs c)
theorem s_main_c_10_18 : V18 m outs c main_c_10 = kv_main_c_10 (kin m outs c) :=
  r_main_c_10 (kin m outs c) (V17 m outs c)
theorem s_main_c_11_18 : V18 m outs c main_c_11 = kv_main_c_11 (kin m outs c) :=
  r_main_c_11 (kin m outs c) (V17 m outs c)
theorem s_main_v66_19 : V19 m outs c main_v66 = kv_main_v66 (kin m outs c) :=
  r_main_v66 (kin m outs c) (V18 m outs c) (s_main_c_11_18 m outs c) (s_main_v65_18 m outs c) (s_main_c_10_18 m outs c)
theorem s_main_v67_20 : V20 m outs c main_v67 = kv_main_v67 (kin m outs c) :=
  r_main_v67 (kin m outs c) (V19 m outs c) (s_main_v63_19 m outs c) (s_main_v66_19 m outs c) (s_main_v50_19 m outs c)
theorem s_main_v67_22 : V22 m outs c main_v67 = kv_main_v67 (kin m outs c) :=
  (GenP.V22_of m outs c main_v67 (by decide)).trans <| (GenP.V21_of m outs c main_v67 (by decide)).trans <| s_main_v67_20 m outs c
theorem s_main_v70_21 : V21 m outs c main_v70 = kv_main_v70 (kin m outs c) :=
  r_main_v70 (kin m outs c) (V20 m outs c) (s_main_v51_20 m outs c) (s_main_v50_20 m outs c)
theorem s_main_c_12_21 : V21 m outs c main_c_12 = kv_main_c_12 (kin m outs c) :=
  r_main_c_12 (kin m outs c) (V20 m outs c)
theorem s_main_c_13_21 : V21 m outs c main_c_13 = kv_main_c_13 (kin m outs c) :=
  r_main_c_13 (kin m outs c) (V20 m outs c)
theorem s_main_v71_22 : V22 m outs c main_v71 = kv_main_v71 (kin m outs c) :=
  r_main_v71 (kin m outs c) (V21 m outs c) (s_main_c_13_21 m outs c) (s_main_v70_21 m outs c) (s_main_c_12_21 m outs c)
theorem s_main_v71_23 : V23 m outs c main_v71 = kv_main_v71 (kin m outs c) :=
  (GenP.V23_of m outs c main_v71 (by decide)).trans <| s_main_v71_22 m outs c
theorem s_main_v72_23 : V23 m outs c main_v72 = kv_main_v72 (kin m outs c) :=
  r_main_v72 (kin m outs c) (V22 m outs c) (s_main_v47_22 m outs c) (s_main_v67_22 m outs c)
theorem s_main_v72_24 : V24 m outs c main_v72 = kv_main_v72 (kin m outs c) :=
  (GenP.V24_of m outs c main_v72 (by decide)).trans <| s_main_v72_23 m outs c
theorem s_main_v73_24 : V24 m outs c main_v73 = kv_main_v73 (kin m outs c) :=
  r_main_v73 (kin m outs c) (V23 m outs c) (s_main_v48_23 m outs c) (s_main_v71_23 m outs c)
theorem s_main_v74_25 : V25 m outs c main_v74 = kv_main_v74 (kin m outs c) :=
  r_main_v74 (kin m outs c) (V24 m outs c) (s_main_v60_24 m outs c) (s_main_v73_24 m outs c) (s_main_v72_24 m outs c)
theorem s_main_v74_41 : V41 m outs c main_v74 = kv_main_v74 (kin m outs c) :=
  (GenP.V41_of m outs c main_v74 (by decide)).trans <| (GenP.V40_of m outs c main_v74 (by decide)).trans <| (GenP.V39_of m outs c main_v74 (by decide)).trans <| (GenP.V38_of m outs c main_v74 (by decide)).trans <| (GenP.V37_of m outs c main_v74 (by decide)).trans <| (GenP.V36_of m outs c main_v74 (by decide)).trans <| (GenP.V35_of m outs c main_v74 (by decide)).trans <| (GenP.V34_of m outs c main_v74 (by decide)).trans <| (GenP.V33_of m outs c main_v74 (by decide)).trans <| (GenP.V32_of m outs c main_v74 (by decide)).trans <| (GenP.V31_of m outs c main_v74 (by decide)).trans <| (GenP.V30_of m outs c main_v74 (by decide)).trans <| (GenP.V29_of m outs c main_v74 (by decide)).trans <| (GenP.V28_of m outs c main_v74 (by decide)).trans <| (GenP.V27_of m outs c main_v74 (by decide)).trans <| (GenP.V26_of m outs c main_v74 (by decide)).trans <| s_main_v74_25 m outs c
theorem s_main_v76_26 : V26 m outs c main_v76 = kv_main_v76 (kin m outs c) :=
  r_main_v76 (kin m outs c) (V25 m outs c) (s_main_arg6_25 m outs c)
theorem s_main_v76_33 : V33 m outs c main_v76 = kv_main_v76 (kin m outs c) :=
  (GenP.V33_of m outs c main_v76 (by decide)).trans <| (GenP.V32_of m outs c main_v76 (by decide)).trans <| (GenP.V31_of m outs c main_v76 (by decide)).trans <| (GenP.V30_of m outs c main_v76 (by decide)).trans <| (GenP.V29_of m outs c main_v76 (by decide)).trans <| (GenP.V28_of m outs c main_v76 (by decide)).trans <| (GenP.V27_of m outs c main_v76 (by decide)).trans <| s_main_v76_26 m outs c
theorem s_main_v78_26 : V26 m outs c main_v78 = kv_main_v78 (kin m outs c) :=
  r_main_v78 (kin m outs c) (V25 m outs c)
theorem s_main_v78_27 : V27 m outs c main_v78 = kv_main_v78 (kin m outs c) :=
  (GenP.V27_of m outs c main_v78 (by decide)).trans <| s_main_v78_26 m outs c
theorem s_main_v78_28 : V28 m outs c main_v78 = kv_main_v78 (kin m outs c) :=
  (GenP.V28_of m outs c main_v78 (by decide)).trans <| s_main_v78_27 m outs c
theorem s_main_v79_26 : V26 m outs c main_v79 = kv_main_v79 (kin m outs c) :=
  r_main_v79 (kin m outs c) (V25 m outs c) (s_main_v17_25 m outs c)
theorem s_main_v79_28 : V28 m outs c main_v79 = kv_main_v79 (kin m outs c) :=
  (GenP.V28_of m outs c main_v79 (by decide)).trans <| (GenP.V27_of m outs c main_v79 (by decide)).trans <| s_main_v79_26 m outs c
theorem s_main_v88_26 : V26 m outs c main_v88 = kv_main_v88 (kin m outs c) :=
  r_main_v88 (kin m outs c) (V25 m outs c) (s_main_v17_25 m outs c)
theorem s_main_v88_34 : V34 m outs c main_v88 = kv_main_v88 (kin m outs c) :=
  (GenP.V34_of m outs c main_v88 (by decide)).trans <| (GenP.V33_of m outs c main_v88 (by decide)).trans <| (GenP.V32_of m outs c main_v88 (by decide)).trans <| (GenP.V31_of m outs c main_v88 (by decide)).trans <| (GenP.V30_of m outs c main_v88 (by decide)).trans <| (GenP.V29_of m outs c main_v88 (by decide)).trans <| (GenP.V28_of m outs c main_v88 (by decide)).trans <| (GenP.V27_of m outs c main_v88 (by decide)).trans <| s_main_v88_26 m outs c
theorem s_main_v91_26 : V26 m outs c main_v91 = kv_main_v91 (kin m outs c) :=
  r_main_v91 (kin m outs c) (V25 m outs c) (s_main_v17_25 m outs c)
theorem s_main_v91_27 : V27 m outs c main_v91 = kv_main_v91 (kin m outs c) :=
  (GenP.V27_of m outs c main_v91 (by decide)).trans <| s_main_v91_26 m outs c
theorem s_main_v93_26 : V26 m outs c main_v93 = kv_main_v93 (kin m outs c) :=
  r_main_v93 (kin m outs c) (V25 m outs c)
theorem s_main_c_16_26 : V26 m outs c main_c_16 = kv_main_c_16 (kin m outs c) :=
  r_main_c_16 (kin m outs c) (V25 m outs c)
theorem s_main_c_17_26 : V26 m outs c main_c_17 = kv_main_c_17 (kin m outs c) :=
  r_main_c_17 (kin m outs c) (V25 m outs c)
theorem s_main_v94_27 : V27 m outs c main_v94 = kv_main_v94 (kin m outs c) :=
  r_main_v94 (kin m outs c) (V26 m outs c) (s_main_c_17_26 m outs c) (s_main_v93_26 m outs c) (s_main_c_16_26 m outs c)
theorem s_main_v95_28 : V28 m outs c main_v95 = kv_main_v95 (kin m outs c) :=
  r_main_v95 (kin m outs c) (V27 m outs c) (s_main_v91_27 m outs c) (s_main_v94_27 m outs c) (s_main_v78_27 m outs c)
theorem s_main_v95_30 : V30 m outs c main_v95 = kv_main_v95 (kin m outs c) :=
  (GenP.V30_of m outs c main_v95 (by decide)).trans <| (GenP.V29_of m outs c main_v95 (by decide)).trans <| s_main_v95_28 m outs c
theorem s_main_v98_29 : V29 m outs c main_v98 = kv_main_v98 (kin m outs c) :=
  r_main_v98 (kin m outs c) (V28 m outs c) (s_main_v79_28 m outs c) (s_main_v78_28 m outs c)
theorem s_main_c_18_29 : V29 m outs c main_c_18 = kv_main_c_18 (kin m outs c) :=
  r_main_c_18 (kin m outs c) (V28 m outs c)
theorem s_main_c_19_29 : V29 m outs c main_c_19 = kv_main_c_19 (kin m outs c) :=
  r_main_c_19 (kin m outs c) (V28 m outs c)
theorem s_main_v99_30 : V30 m outs c main_v99 = kv_main_v99 (kin m outs c) :=
  r_main_v99 (kin m outs c) (V29 m outs c) (s_main_c_19_29 m outs c) (s_main_v98_29 m outs c) (s_main_c_18_29 m outs c)
theorem s_main_v99_32 : V32 m outs c main_v99 = kv_main_v99 (kin m outs c) :=
  (GenP.V32_of m outs c main_v99 (by decide)).trans <| (GenP.V31_of m outs c main_v99 (by decide)).trans <| s_main_v99_30 m outs c
theorem s_main_v100_31 : V31 m outs c main_v100 = kv_main_v100 (kin m outs c) :=
  r_main_v100 (kin m outs c) (V30 m outs c) (s_main_v95_30 m outs c)
theorem s_main_v101_32 : V32 m outs c main_v101 = kv_main_v101 (kin m outs c) :=
  r_main_v101 (kin m outs c) (V31 m outs c) (s_main_v46_31 m outs c) (s_main_v100_31 m outs c)
theorem s_main_v101_35 : V35 m outs c main_v101 = kv_main_v101 (kin m outs c) :=
  (GenP.V35_of m outs c main_v101 (by decide)).trans <| (GenP.V34_of m outs c main_v101 (by decide)).trans <| (GenP.V33_of m outs c main_v101 (by decide)).trans <| s_main_v101_32 m outs c
theorem s_main_v102_33 : V33 m outs c main_v102 = kv_main_v102 (kin m outs c) :=
  r_main_v102 (kin m outs c) (V32 m outs c) (s_main_v99_32 m outs c)
theorem s_main_v103_34 : V34 m outs c main_v103 = kv_main_v103 (kin m outs c) :=
  r_main_v103 (kin m outs c) (V33 m outs c) (s_main_v76_33 m outs c) (s_main_v102_33 m outs c)
theorem s_main_v103_35 : V35 m outs c main_v103 = kv_main_v103 (kin m outs c) :=
  (GenP.V35_of m outs c main_v103 (by decide)).trans <| s_main_v103_34 m outs c
theorem s_main_v104_35 : V35 m outs c main_v104 = kv_main_v104 (kin m outs c) :=
  r_main_v104 (kin m outs c) (V34 m outs c) (s_main_v88_34 m outs c)
theorem s_main_v105_36 : V36 m outs c main_v105 = kv_main_v105 (kin m outs c) :=
  r_main_v105 (kin m outs c) (V35 m outs c) (s_main_v103_35 m outs c) (s_main_v101_35 m outs c) (s_main_v104_35 m outs c)
theorem s_main_v105_53 : V53 m outs c main_v105 = kv_main_v105 (kin m outs c) :=
  (GenP.V53_of m outs c main_v105 (by decide)).trans <| (GenP.V52_of m outs c main_v105 (by decide)).trans <| (GenP.V51_of m outs c main_v105 (by decide)).trans <| (GenP.V50_of m outs c main_v105 (by decide)).trans <| (GenP.V49_of m outs c main_v105 (by decide)).trans <| (GenP.V48_of m outs c main_v105 (by decide)).trans <| (GenP.V47_of m outs c main_v105 (by decide)).trans <| (GenP.V46_of m outs c main_v105 (by decide)).trans <| (GenP.V45_of m outs c main_v105 (by decide)).trans <| (GenP.V44_of m outs c main_v105 (by decide)).trans <| (GenP.V43_of m outs c main_v105 (by decide)).trans <| (GenP.V42_of m outs c main_v105 (by decide)).trans <| (GenP.V41_of m outs c main_v105 (by decide)).trans <| (GenP.V40_of m outs c main_v105 (by decide)).trans <| (GenP.V39_of m outs c main_v105 (by decide)).trans <| (GenP.V38_of m outs c main_v105 (by decide)).trans <| (GenP.V37_of m outs c main_v105 (by decide)).trans <| s_main_v105_36 m outs c
theorem s_main_v106_37 : V37 m outs c main_v106 = kv_main_v106 (kin m outs c) :=
  r_main_v106 (kin m outs c) (V36 m outs c)
theorem s_main_v106_42 : V42 m outs c main_v106 = kv_main_v106 (kin m outs c) :=
  (GenP.V42_of m outs c main_v106 (by decide)).trans <| (GenP.V41_of m outs c main_v106 (by decide)).trans <| (GenP.V40_of m outs c main_v106 (by decide)).trans <| (GenP.V39_of m outs c main_v106 (by decide)).trans <| (GenP.V38_of m outs c main_v106 (by decide)).trans <| s_main_v106_37 m outs c
theorem s_main_v108_37 : V37 m outs c main_v108 = kv_main_v108 (kin m outs c) :=
  r_main_v108 (kin m outs c) (V36 m outs c)
theorem s_main_v108_38 : V38 m outs c main_v108 = kv_main_v108 (kin m outs c) :=
  (GenP.V38_of m outs c main_v108 (by decide)).trans <| s_main_v108_37 m outs c
theorem s_main_v108_39 : V39 m outs c main_v108 = kv_main_v108 (kin m outs c) :=
  (GenP.V39_of m outs c main_v108 (by decide)).trans <| s_main_v108_38 m outs c
theorem s_main_v109_37 : V37 m outs c main_v109 = kv_main_v109 (kin m outs c) :=
  r_main_v109 (kin m outs c) (V36 m outs c) (s_main_v17_36 m outs c)
theorem s_main_v109_39 : V39 m outs c main_v109 = kv_main_v109 (kin m outs c) :=
  (GenP.V39_of m outs c main_v109 (by decide)).trans <| (GenP.V38_of m outs c main_v109 (by decide)).trans <| s_main_v109_37 m outs c
theorem s_main_v118_37 : V37 m outs c main_v118 = kv_main_v118 (kin m outs c) :=
  r_main_v118 (kin m outs c) (V36 m outs c) (s_main_v17_36 m outs c)
theorem s_main_v118_43 : V43 m outs c main_v118 = kv_main_v118 (kin m outs c) :=
  (GenP.V43_of m outs c main_v118 (by decide)).trans <| (GenP.V42_of m outs c main_v118 (by decide)).trans <| (GenP.V41_of m outs c main_v118 (by decide)).trans <| (GenP.V40_of m outs c main_v118 (by decide)).trans <| (GenP.V39_of m outs c main_v118 (by decide)).trans <| (GenP.V38_of m outs c main_v118 (by decide)).trans <| s_main_v118_37 m outs c
theorem s_main_v121_37 : V37 m outs c main_v121 = kv_main_v121 (kin m outs c) :=
  r_main_v121 (kin m outs c) (V36 m outs c) (s_main_v17_36 m outs c)
theorem s_main_v121_38 : V38 m outs c main_v121 = kv_main_v121 (kin m outs c) :=
  (GenP.V38_of m outs c main_v121 (by decide)).trans <| s_main_v121_37 m outs c
theorem s_main_v123_37 : V37 m outs c main_v123 = kv_main_v123 (kin m outs c) :=
  r_main_v123 (kin m outs c) (V36 m outs c)
theorem s_main_c_22_37 : V37 m outs c main_c_22 = kv_main_c_22 (kin m outs c) :=
  r_main_c_22 (kin m outs c) (V36 m outs c)
theorem s_main_c_23_37 : V37 m outs c main_c_23 = kv_main_c_23 (kin m outs c) :=
  r_main_c_23 (kin m outs c) (V36 m outs c)
theorem s_main_v124_38 : V38 m outs c main_v124 = kv_main_v124 (kin m outs c) :=
  r_main_v124 (kin m outs c) (V37 m outs c) (s_main_c_23_37 m outs c) (s_main_v123_37 m outs c) (s_main_c_22_37 m outs c)
theorem s_main_v125_39 : V39 m outs c main_v125 = kv_main_v125 (kin m outs c) :=
  r_main_v125 (kin m outs c) (V38 m outs c) (s_main_v121_38 m outs c) (s_main_v124_38 m outs c) (s_main_v108_38 m outs c)
theorem s_main_v125_41 : V41 m outs c main_v125 = kv_main_v125 (kin m outs c) :=
  (GenP.V41_of m outs c main_v125 (by decide)).trans <| (GenP.V40_of m outs c main_v125 (by decide)).trans <| s_main_v125_39 m outs c
theorem s_main_v128_40 : V40 m outs c main_v128 = kv_main_v128 (kin m outs c) :=
  r_main_v128 (kin m outs c) (V39 m outs c) (s_main_v109_39 m outs c) (s_main_v108_39 m outs c)
theorem s_main_c_24_40 : V40 m outs c main_c_24 = kv_main_c_24 (kin m outs c) :=
  r_main_c_24 (kin m outs c) (V39 m outs c)
theorem s_main_c_25_40 : V40 m outs c main_c_25 = kv_main_c_25 (kin m outs c) :=
  r_main_c_25 (kin m outs c) (V39 m outs c)
theorem s_main_v129_41 : V41 m outs c main_v129 = kv_main_v129 (kin m outs c) :=
  r_main_v129 (kin m outs c) (V40 m outs c) (s_main_c_25_40 m outs c) (s_main_v128_40 m outs c) (s_main_c_24_40 m outs c)
theorem s_main_v129_42 : V42 m outs c main_v129 = kv_main_v129 (kin m outs c) :=
  (GenP.V42_of m outs c main_v129 (by decide)).trans <| s_main_v129_41 m outs c
theorem s_main_v130_42 : V42 m outs c main_v130 = kv_main_v130 (kin m outs c) :=
  r_main_v130 (kin m outs c) (V41 m outs c) (s_main_v74_41 m outs c) (s_main_v125_41 m outs c)
theorem s_main_v130_43 : V43 m outs c main_v130 = kv_main_v130 (kin m outs c) :=
  (GenP.V43_of m outs c main_v130 (by decide)).trans <| s_main_v130_42 m outs c
theorem s_main_v131_43 : V43 m outs c main_v131 = kv_main_v131 (kin m outs c) :=
  r_main_v131 (kin m outs c) (V42 m outs c) (s_main_v106_42 m outs c) (s_main_v129_42 m outs c)
theorem s_main_v132_44 : V44 m outs c main_v132 = kv_main_v132 (kin m outs c) :=
  r_main_v132 (kin m outs c) (V43 m outs c) (s_main_v118_43 m outs c) (s_main_v131_43 m outs c) (s_main_v130_43 m outs c)
theorem s_main_v132_53 : V53 m outs c main_v132 = kv_main_v132 (kin m outs c) :=
  (GenP.V53_of m outs c main_v132 (by decide)).trans <| (GenP.V52_of m outs c main_v132 (by decide)).trans <| (GenP.V51_of m outs c main_v132 (by decide)).trans <| (GenP.V50_of m outs c main_v132 (by decide)).trans <| (GenP.V49_of m outs c main_v132 (by decide)).trans <| (GenP.V48_of m outs c main_v132 (by decide)).trans <| (GenP.V47_of m outs c main_v132 (by decide)).trans <| (GenP.V46_of m outs c main_v132 (by decide)).trans <| (GenP.V45_of m outs c main_v132 (by decide)).trans <| s_main_v132_44 m outs c
theorem s_main_v134_45 : V45 m outs c main_v134 = kv_main_v134 (kin m outs c) :=
  r_main_v134 (kin m outs c) (V44 m outs c) (s_main_v17_44 m outs c)
theorem s_main_v134_53 : V53 m outs c main_v134 = kv_main_v134 (kin m outs c) :=
  (GenP.V53_of m outs c main_v134 (by decide)).trans <| (GenP.V52_of m outs c main_v134 (by decide)).trans <| (GenP.V51_of m outs c main_v134 (by decide)).trans <| (GenP.V50_of m outs c main_v134 (by decide)).trans <| (GenP.V49_of m outs c main_v134 (by decide)).trans <| (GenP.V48_of m outs c main_v134 (by decide)).trans <| (GenP.V47_of m outs c main_v134 (by decide)).trans <| (GenP.V46_of m outs c main_v134 (by decide)).trans <| s_main_v134_45 m outs c
theorem s_main_v146_45 : V45 m outs c main_v146 = kv_main_v146 (kin m outs c) :=
  r_main_v146 (kin m outs c) (V44 m outs c) (s_main_v17_44 m outs c)
theorem s_main_v146_48 : V48 m outs c main_v146 = kv_main_v146 (kin m outs c) :=
  (GenP.V48_of m outs c main_v146 (by decide)).trans <| (GenP.V47_of m outs c main_v146 (by decide)).trans <| (GenP.V46_of m outs c main_v146 (by decide)).trans <| s_main_v146_45 m outs c
theorem s_main_v149_45 : V45 m outs c main_v149 = kv_main_v149 (kin m outs c) :=
  r_main_v149 (kin m outs c) (V44 m outs c) (s_main_v17_44 m outs c)
theorem s_main_c_28_45 : V45 m outs c main_c_28 = kv_main_c_28 (kin m outs c) :=
  r_main_c_28 (kin m outs c) (V44 m outs c)
theorem s_main_c_29_45 : V45 m outs c main_c_29 = kv_main_c_29 (kin m outs c) :=
  r_main_c_29 (kin m outs c) (V44 m outs c)
theorem s_main_v150_46 : V46 m outs c main_v150 = kv_main_v150 (kin m outs c) :=
  r_main_v150 (kin m outs c) (V45 m outs c) (s_main_c_29_45 m outs c) (s_main_v149_45 m outs c) (s_main_c_28_45 m outs c)
theorem s_main_v150_49 : V49 m outs c main_v150 = kv_main_v150 (kin m outs c) :=
  (GenP.V49_of m outs c main_v150 (by decide)).trans <| (GenP.V48_of m outs c main_v150 (by decide)).trans <| (GenP.V47_of m outs c main_v150 (by decide)).trans <| s_main_v150_46 m outs c
theorem s_main_v151_47 : V47 m outs c main_v151 = kv_main_v151 (kin m outs c) :=
  r_main_v151 (kin m outs c) (V46 m outs c) (s_main_arg3_46 m outs c) (s_main_v150_46 m outs c)
theorem s_main_v152_48 : V48 m outs c main_v152 = kv_main_v152 (kin m outs c) :=
  r_main_v152 (kin m outs c) (V47 m outs c) (s_main_v151_47 m outs c)
theorem s_main_cst_30_48 : V48 m outs c main_cst_30 = kv_main_cst_30 (kin m outs c) :=
  r_main_cst_30 (kin m outs c) (V47 m outs c)
theorem s_main_v153_49 : V49 m outs c main_v153 = kv_main_v153 (kin m outs c) :=
  r_main_v153 (kin m outs c) (V48 m outs c) (s_main_v146_48 m outs c) (s_main_v152_48 m outs c) (s_main_cst_30_48 m outs c)
theorem s_main_v153_50 : V50 m outs c main_v153 = kv_main_v153 (kin m outs c) :=
  (GenP.V50_of m outs c main_v153 (by decide)).trans <| s_main_v153_49 m outs c
theorem s_main_v153_52 : V52 m outs c main_v153 = kv_main_v153 (kin m outs c) :=
  (GenP.V52_of m outs c main_v153 (by decide)).trans <| (GenP.V51_of m outs c main_v153 (by decide)).trans <| s_main_v153_50 m outs c
theorem s_main_v154_50 : V50 m outs c main_v154 = kv_main_v154 (kin m outs c) :=
  r_main_v154 (kin m outs c) (V49 m outs c) (s_main_arg2_49 m outs c) (s_main_v150_49 m outs c)
theorem s_main_v154_51 : V51 m outs c main_v154 = kv_main_v154 (kin m outs c) :=
  (GenP.V51_of m outs c main_v154 (by decide)).trans <| s_main_v154_50 m outs c
theorem s_main_v156_51 : V51 m outs c main_v156 = kv_main_v156 (kin m outs c) :=
  r_main_v156 (kin m outs c) (V50 m outs c) (s_main_v153_50 m outs c)
theorem s_main_c_32_51 : V51 m outs c main_c_32 = kv_main_c_32 (kin m outs c) :=
  r_main_c_32 (kin m outs c) (V50 m outs c)
theorem s_main_v157_52 : V52 m outs c main_v157 = kv_main_v157 (kin m outs c) :=
  r_main_v157 (kin m outs c) (V51 m outs c) (s_main_v156_51 m outs c) (s_main_v154_51 m outs c) (s_main_c_32_51 m outs c)
theorem s_main_v160_53 : V53 m outs c main_v160 = kv_main_v160 (kin m outs c) :=
  r_main_v160 (kin m outs c) (V52 m outs c) (s_main_v153_52 m outs c)
theorem s_main_v163_53 : V53 m outs c main_v163 = kv_main_v163 (kin m outs c) :=
  r_main_v163 (kin m outs c) (V52 m outs c) (s_main_arg2_52 m outs c)
theorem s_main_v166_53 : V53 m outs c main_v166 = kv_main_v166 (kin m outs c) :=
  r_main_v166 (kin m outs c) (V52 m outs c) (s_main_v157_52 m outs c)
end Cert.KernelIdeal.KTail
-- ==== Proof.KTail.lean ====
import proofs.«403361_j42786464202989_2_alg».proof.Proof.KTailAsm

set_option maxRecDepth 20000

noncomputable section

namespace Cert.KernelIdeal.KTail

open Cert.KernelIdeal.Gen
open Idealize.ShloMosaic Idealize.ShloMosaic.TcCoe

theorem results {F : FTy → Type} [FloatOps F] [Cert.KernelIdeal.Facts] [Cert.ReferenceIdeal.Facts]
    (m : (ℓ : Loc nD τ sig) → Buf (Elt F) ℓ) (outs : GenP.Outs (F := F)) (c : Dev nD) :
    (GenP.V53 m outs c main_v105 = Cert.Glue.n180 ⟨ieOf (outs 2 main_v1 c), teOf (outs 4 main_v5 c), m ((c : Thread nD τ).loc main_arg1), m ((c : Thread nD τ).loc main_arg2), m ((c : Thread nD τ).loc main_arg3), m ((c : Thread nD τ).loc main_arg5), m ((c : Thread nD τ).loc main_arg6)⟩) ∧
    (GenP.V53 m outs c main_v132 = Cert.Glue.n207 ⟨ieOf (outs 2 main_v1 c), teOf (outs 4 main_v5 c), m ((c : Thread nD τ).loc main_arg1), m ((c : Thread nD τ).loc main_arg2), m ((c : Thread nD τ).loc main_arg3), m ((c : Thread nD τ).loc main_arg5), m ((c : Thread nD τ).loc main_arg6)⟩) ∧
    (GenP.V53 m outs c main_v160 = Cert.Glue.n249 ⟨ieOf (outs 2 main_v1 c), teOf (outs 4 main_v5 c), m ((c : Thread nD τ).loc main_arg1), m ((c : Thread nD τ).loc main_arg2), m ((c : Thread nD τ).loc main_arg3), m ((c : Thread nD τ).loc main_arg5), m ((c : Thread nD τ).loc main_arg6)⟩) ∧
    (GenP.V53 m outs c main_v163 = Cert.Glue.n252 ⟨ieOf (outs 2 main_v1 c), teOf (outs 4 main_v5 c), m ((c : Thread nD τ).loc main_arg1), m ((c : Thread nD τ).loc main_arg2), m ((c : Thread nD τ).loc main_arg3), m ((c : Thread nD τ).loc main_arg5), m ((c : Thread nD τ).loc main_arg6)⟩) ∧
    (GenP.V53 m outs c main_v134 = Cert.Glue.n209 ⟨ieOf (outs 2 main_v1 c), teOf (outs 4 main_v5 c), m ((c : Thread nD τ).loc main_arg1), m ((c : Thread nD τ).loc main_arg2), m ((c : Thread nD τ).loc main_arg3), m ((c : Thread nD τ).loc main_arg5), m ((c : Thread nD τ).loc main_arg6)⟩) ∧
    (GenP.V53 m outs c main_v166 = Cert.Glue.n254 ⟨ieOf (outs 2 main_v1 c), teOf (outs 4 main_v5 c), m ((c : Thread nD τ).loc main_arg1), m ((c : Thread nD τ).loc main_arg2), m ((c : Thread nD τ).loc main_arg3), m ((c : Thread nD τ).loc main_arg5), m ((c : Thread nD τ).loc main_arg6)⟩) :=
  ⟨s_main_v105_53 m outs c, s_main_v132_53 m outs c, s_main_v160_53 m outs c, s_main_v163_53 m outs c,
    s_main_v134_53 m outs c, s_main_v166_53 m outs c⟩

end Cert.KernelIdeal.KTail
-- ==== Proof.Alg.lean ====
import proofs.«403361_j42786464202989_2_alg».proof.Defs
import proofs.«403361_j42786464202989_2_alg».proof.Proof.KISegs
import proofs.«403361_j42786464202989_2_alg».proof.Proof.KArr
import proofs.«403361_j42786464202989_2_alg».proof.Proof.KArgs
import proofs.«403361_j42786464202989_2_alg».proof.Proof.KTail
import proofs.«403361_j42786464202989_2_alg».proof.Proof.RefRun
import proofs.«403361_j42786464202989_2_alg».proof.Proof.RefGather
import proofs.«403361_j42786464202989_2_alg».proof.Proof.IdsInRange
import proofs.«403361_j42786464202989_2_alg».proof.Proof.Gen.Pre_finite_inputs
import proofs.«403361_j42786464202989_2_alg».proof.Proof.Gen.ReferenceIdeal

set_option maxRecDepth 16384

noncomputable section

namespace Cert.Proof.Alg

open Idealize.ShloMosaic Idealize.ShloMosaic.TcCoe Idealize.SL.Sem
open Cert.KernelIdeal Cert.KernelIdeal.Gen Cert.KernelIdeal.KISegs Cert.KernelIdeal.KTail

variable (m : (ℓ : Loc nD τ sig) → Buf (Elt Ideal) ℓ)

theorem o2_eq (c : Dev nD) :
    o2 m c = fun j : S32768x1x1024.Idx => Cert.Rows.cell (m ((c : Thread nD τ).loc main_arg4))
      ((shapeCast S32768 (m ((c : Thread nD τ).loc main_arg0) : IVec S16x2048 32) shapeCasts_S16x2048_S32768) (ValueIdx.ix1 (j 0))).toNat (j 2) := by
  obtain rfl : c = 0 := Subsingleton.elim _ _
  have h := Cert.KernelIdeal.KArr.arr0_eq (F := Ideal) (adm m) 0 (pdats m 0 0) (Va m 0 main_arg4) ((a0 m).1 0)
    (fun t y => (congrFun (Cert.KernelIdeal.KIBody.after0_0 (a0 m) (Va m) 0 t) y).trans rfl)
  have e4 : Va m 0 main_arg4 = m (((0 : Dev nD) : Thread nD τ).loc main_arg4) := Cert.KernelIdeal.KArgs.arg4_V1 m 0
  have e0 : ((a0 m).1 0 : IVec S32768 32) = shapeCast S32768 (m (((0 : Dev nD) : Thread nD τ).loc main_arg0) : IVec S16x2048 32) shapeCasts_S16x2048_S32768 :=
    Cert.KernelIdeal.KTab.tab0_eq m 0
  rw [e4, e0] at h
  exact h

theorem o4_eq (c : Dev nD) :
    o4 m c = fun j : S1024x1x1024.Idx => Cert.Rows.cell (m ((c : Thread nD τ).loc main_arg4))
      ((shapeCast S1024 (m ((c : Thread nD τ).loc main_arg2) : IVec S16x64 32) shapeCasts_S16x64_S1024) (ValueIdx.ix1 (j 0))).toNat (j 2) := by
  obtain rfl : c = 0 := Subsingleton.elim _ _
  have h := Cert.KernelIdeal.KArr.arr1_eq (F := Ideal) (adm m) 0 (pdats m 1 0) (Vb m 0 main_arg4) ((a1 m).1 0)
    (fun t y => (congrFun (Cert.KernelIdeal.KIBody.after1_0 (a1 m) (Vb m) 0 t) y).trans rfl)
  have e4 : Vb m 0 main_arg4 = m (((0 : Dev nD) : Thread nD τ).loc main_arg4) := Cert.KernelIdeal.KArgs.arg4_V3 m (outsA m) 0
  have e0 : ((a1 m).1 0 : IVec S1024 32) = shapeCast S1024 (m (((0 : Dev nD) : Thread nD τ).loc main_arg2) : IVec S16x64 32) shapeCasts_S16x64_S1024 :=
    Cert.KernelIdeal.KTab.tab1_eq m (outsA m) 0
  rw [e4, e0] at h
  exact h

theorem ie_eq (c : Dev nD) : ieOf (outs m 2 main_v1 c) = Cert.Rows.rowsIn (m ((c : Thread nD τ).loc main_arg4)) (m ((c : Thread nD τ).loc main_arg0)) := by
  rw [outs_v1, o2_eq]
  exact Cert.KernelIdeal.KArr.ie_eq (F := Ideal) (m ((c : Thread nD τ).loc main_arg0)) (m ((c : Thread nD τ).loc main_arg4))

theorem te_eq (c : Dev nD) : teOf (outs m 4 main_v5 c) = Cert.Rows.rowsTg (m ((c : Thread nD τ).loc main_arg4)) (m ((c : Thread nD τ).loc main_arg2)) := by
  rw [outs_v5, o4_eq]
  exact Cert.KernelIdeal.KArr.te_eq (F := Ideal) (m ((c : Thread nD τ).loc main_arg2)) (m ((c : Thread nD τ).loc main_arg4))

theorem mem_uc (b : Ref sig .tc) (h : (Proc.devRef .tc b : DevRef τ sig).isScoped = false) : Proc.devRef .tc b ∈ Pipeline.ucRefs τ sig :=
  Finset.mem_filter.mpr ⟨StableHlo.devRef_mem_tcRefs b, by rw [h]; decide⟩

theorem algebraic : Cert.algebraic_KernelIdeal_ReferenceIdeal := by
  intro m ρ m' ρ' hpre hagree
  have hI := Cert.IdsInRange.ids_lt (F := Ideal) _ _ _ _ _ _ _ (hpre 0)
  refine ⟨fun c => Cert.Glue.n180 ⟨Cert.Rows.rowsIn (m ((c.tc : Thread nD τ).loc main_arg4)) (m ((c.tc : Thread nD τ).loc main_arg0)), Cert.Rows.rowsTg (m ((c.tc : Thread nD τ).loc main_arg4)) (m ((c.tc : Thread nD τ).loc main_arg2)), m ((c.tc : Thread nD τ).loc main_arg1), m ((c.tc : Thread nD τ).loc main_arg2), m ((c.tc : Thread nD τ).loc main_arg3), m ((c.tc : Thread nD τ).loc main_arg5), m ((c.tc : Thread nD τ).loc main_arg6)⟩,
    fun c => Cert.Glue.n207 ⟨Cert.Rows.rowsIn (m ((c.tc : Thread nD τ).loc main_arg4)) (m ((c.tc : Thread nD τ).loc main_arg0)), Cert.Rows.rowsTg (m ((c.tc : Thread nD τ).loc main_arg4)) (m ((c.tc : Thread nD τ).loc main_arg2)), m ((c.tc : Thread nD τ).loc main_arg1), m ((c.tc : Thread nD τ).loc main_arg2), m ((c.tc : Thread nD τ).loc main_arg3), m ((c.tc : Thread nD τ).loc main_arg5), m ((c.tc : Thread nD τ).loc main_arg6)⟩,
    fun c => Cert.Glue.n249 ⟨Cert.Rows.rowsIn (m ((c.tc : Thread nD τ).loc main_arg4)) (m ((c.tc : Thread nD τ).loc main_arg0)), Cert.Rows.rowsTg (m ((c.tc : Thread nD τ).loc main_arg4)) (m ((c.tc : Thread nD τ).loc main_arg2)), m ((c.tc : Thread nD τ).loc main_arg1), m ((c.tc : Thread nD τ).loc main_arg2), m ((c.tc : Thread nD τ).loc main_arg3), m ((c.tc : Thread nD τ).loc main_arg5), m ((c.tc : Thread nD τ).loc main_arg6)⟩,
    fun c => Cert.Glue.n252 ⟨Cert.Rows.rowsIn (m ((c.tc : Thread nD τ).loc main_arg4)) (m ((c.tc : Thread nD τ).loc main_arg0)), Cert.Rows.rowsTg (m ((c.tc : Thread nD τ).loc main_arg4)) (m ((c.tc : Thread nD τ).loc main_arg2)), m ((c.tc : Thread nD τ).loc main_arg1), m ((c.tc : Thread nD τ).loc main_arg2), m ((c.tc : Thread nD τ).loc main_arg3), m ((c.tc : Thread nD τ).loc main_arg5), m ((c.tc : Thread nD τ).loc main_arg6)⟩,
    fun c => Cert.Glue.n209 ⟨Cert.Rows.rowsIn (m ((c.tc : Thread nD τ).loc main_arg4)) (m ((c.tc : Thread nD τ).loc main_arg0)), Cert.Rows.rowsTg (m ((c.tc : Thread nD τ).loc main_arg4)) (m ((c.tc : Thread nD τ).loc main_arg2)), m ((c.tc : Thread nD τ).loc main_arg1), m ((c.tc : Thread nD τ).loc main_arg2), m ((c.tc : Thread nD τ).loc main_arg3), m ((c.tc : Thread nD τ).loc main_arg5), m ((c.tc : Thread nD τ).loc main_arg6)⟩,
    fun c => Cert.Glue.n254 ⟨Cert.Rows.rowsIn (m ((c.tc : Thread nD τ).loc main_arg4)) (m ((c.tc : Thread nD τ).loc main_arg0)), Cert.Rows.rowsTg (m ((c.tc : Thread nD τ).loc main_arg4)) (m ((c.tc : Thread nD τ).loc main_arg2)), m ((c.tc : Thread nD τ).loc main_arg1), m ((c.tc : Thread nD τ).loc main_arg2), m ((c.tc : Thread nD τ).loc main_arg3), m ((c.tc : Thread nD τ).loc main_arg5), m ((c.tc : Thread nD τ).loc main_arg6)⟩, ?_, ?_⟩
  · refine (θ_run (Cert.KernelIdeal.defs (F := Ideal)) _ _).mono (fun r h c => ?_) (run_all m ρ hI.1 hI.2)
    have hr := Cert.KernelIdeal.KTail.results m (outs m) c
    rw [ie_eq, te_eq] at hr
    obtain ⟨r0, r1, r2, r3, r4, r5⟩ := hr
    exact ⟨(h c _ (mem_uc main_v105 (by decide))).trans r0, (h c _ (mem_uc main_v132 (by decide))).trans r1,
      (h c _ (mem_uc main_v160 (by decide))).trans r2, (h c _ (mem_uc main_v163 (by decide))).trans r3,
      (h c _ (mem_uc main_v134 (by decide))).trans r4, (h c _ (mem_uc main_v166 (by decide))).trans r5,
      (h c _ (mem_uc main_arg0 (by decide))).trans (GenP.V53_main_arg0 m (outs m) c),
      (h c _ (mem_uc main_arg1 (by decide))).trans (GenP.V53_main_arg1 m (outs m) c),
      (h c _ (mem_uc main_arg2 (by decide))).trans (GenP.V53_main_arg2 m (outs m) c),
      (h c _ (mem_uc main_arg3 (by decide))).trans (GenP.V53_main_arg3 m (outs m) c),
      (h c _ (mem_uc main_arg4 (by decide))).trans (GenP.V53_main_arg4 m (outs m) c),
      (h c _ (mem_uc main_arg5 (by decide))).trans (GenP.V53_main_arg5 m (outs m) c),
      (h c _ (mem_uc main_arg6 (by decide))).trans (GenP.V53_main_arg6 m (outs m) c)⟩
  · refine (θ_run (Cert.ReferenceIdeal.defs (F := Ideal)) _ _).mono (fun r h c => ?_) (Cert.ReferenceIdeal.Run.run m' ρ')
    obtain rfl : c = (0 : Dev Cert.ReferenceIdeal.nD) := Subsingleton.elim _ _
    obtain ⟨e0, e1, e2, e3, e4, e5, e6⟩ := hagree 0
    obtain ⟨q0, q1, q2, q3, q4, q5, qa⟩ := h 0
    rw [e0, e1, e2, e3, e4, e5, e6, Cert.ReferenceIdeal.RefGather.refIE_eq _ _ hI.1, Cert.ReferenceIdeal.RefGather.refTE_eq _ _ hI.2] at q0 q1 q2 q3 q4 q5
    exact ⟨q0, q1, q2, q3, q4, q5, qa⟩

end Cert.Proof.Alg

end
-- ==== Proof.lean ====
import proofs.«403361_j42786464202989_2_alg».proof.Defs
import proofs.«403361_j42786464202989_2_alg».proof.Proof.Gen.Kernel
import proofs.«403361_j42786464202989_2_alg».proof.Proof.Gen.KernelIdeal
import proofs.«403361_j42786464202989_2_alg».proof.Proof.Gen.ReferenceIdeal
import proofs.«403361_j42786464202989_2_alg».proof.Proof.Gen.Pre_finite_inputs
import proofs.«403361_j42786464202989_2_alg».proof.Proof.IdsInRange
import proofs.«403361_j42786464202989_2_alg».proof.Proof.KSegs
import proofs.«403361_j42786464202989_2_alg».proof.Proof.KISegs
import proofs.«403361_j42786464202989_2_alg».proof.Proof.RefRun
import proofs.«403361_j42786464202989_2_alg».proof.Proof.Alg
import Idealize.ShloMosaic.Adequacy
import Idealize.ShloMosaic.Init

noncomputable section

namespace Cert.Proof

open Idealize.ShloMosaic Idealize.SL.Sem

theorem frame_K : Cert.frame_Kernel := fun m g hpre =>
  have hI := Cert.IdsInRange.ids_lt (F := Bits) _ _ _ _ _ _ _ (hpre 0)
  Cert.Kernel.KSegs.frame m g hI.1 hI.2

theorem frame_KI : Cert.frame_KernelIdeal := fun m g hpre =>
  have hI := Cert.IdsInRange.ids_lt (F := Ideal) _ _ _ _ _ _ _ (hpre 0)
  Cert.KernelIdeal.KISegs.frame m g hI.1 hI.2

theorem frame_R : Cert.frame_ReferenceIdeal := fun m g _ =>
  (θ_run (Cert.ReferenceIdeal.defs (F := Ideal)) _ _).mono (fun _ h c => (h c).2.2.2.2.2.2) (Cert.ReferenceIdeal.Run.run m g)

theorem claim : Cert.Claim := ⟨Cert.Kernel.Gen.facts, Cert.KernelIdeal.Gen.facts, Cert.ReferenceIdeal.Gen.facts, Cert.Pre_finite_inputs.Gen.facts,
  frame_K, frame_KI, frame_R, trivial, Cert.Proof.Alg.algebraic⟩

end Cert.Proof

end
